-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S2048x4096 : Shape := ⟨2, ![2048, 4096]⟩
abbrev S4096x128 : Shape := ⟨2, ![4096, 128]⟩
abbrev S4096 : Shape := ⟨1, ![4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg2 : IVec S4096x128 32) (main_v13 : IVec S_ 1) (main_v15 : IVec S4096x128 1) (main_c_5 : IVec S_ 32) : IVec S_ 1 :=
  let main_v16 : IVec S4096x128 32 := broadcastInDim S4096x128 ![] bcast_S_S4096x128 main_c_5
  let main_v17 : IVec S4096x128 1 := cmpi .sle main_arg2 main_v16
  let main_v18 : IVec S4096x128 1 := andi main_v15 main_v17
  let main_c_6 : IVec S_ 1 := constantI S_ 1 1#1
  let main_v19 : IVec S_ 1 := (fun x v => Host.reduce IntOp.andi x v reducesTo_S4096x128_S_d0_1 h_S_) main_v18 main_c_6
  let main_v20 : IVec S_ 1 := andi main_v13 main_v19
  main_v20

def fn {F : FTy → Type} [FloatOps F] (main_arg0 : FVec F S2048x4096 .f32) (main_arg1 : FVec F S4096x128 .f32) (main_arg2 : IVec S4096x128 32) (main_arg3 : FVec F S4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_c_4 : IVec S_ 32 := constantI S_ 32 0#32
  let main_v14 : IVec S4096x128 32 := broadcastInDim S4096x128 ![] bcast_S_S4096x128 main_c_4
  let main_v15 : IVec S4096x128 1 := cmpi .sge main_arg2 main_v14
  let main_c_5 : IVec S_ 32 := constantI S_ 32 4095#32
  fn_part1 (F := F) main_arg2 main_v13 main_v15 main_c_5
-- ==== Kernel.lean ====
abbrev S2048x4096 : Shape := ⟨2, ![2048, 4096]⟩
abbrev S4096x128 : Shape := ⟨2, ![4096, 128]⟩
abbrev S4096 : Shape := ⟨1, ![4096]⟩
abbrev S1536x4096 : Shape := ⟨2, ![1536, 4096]⟩
abbrev S8x4096 : Shape := ⟨2, ![8, 4096]⟩
abbrev S48x128 : Shape := ⟨2, ![48, 128]⟩
abbrev S_ : Shape := ⟨0, ![]⟩
abbrev S16 : Shape := ⟨1, ![16]⟩
abbrev S1x16 : Shape := ⟨2, ![1, 16]⟩
abbrev S1536 : Shape := ⟨1, ![1536]⟩
abbrev S256x4096 : Shape := ⟨2, ![256, 4096]⟩
abbrev S256 : Shape := ⟨1, ![256]⟩
abbrev S2048x256 : Shape := ⟨2, ![2048, 256]⟩
abbrev S1x256 : Shape := ⟨2, ![1, 256]⟩
abbrev S2560x4096 : Shape := ⟨2, ![2560, 4096]⟩
abbrev S80x128 : Shape := ⟨2, ![80, 128]⟩
abbrev S2560 : Shape := ⟨1, ![2560]⟩

abbrev nBuf : Table → Nat
  | .hbm => 11
  | .local .tc .vmem => 14
  | .local .scVector .vmem => 8
  | _ => 0

abbrev bufTy : (tb : Table) → Fin (nBuf tb) → BufTy
  | .hbm, ⟨0, _⟩ => ⟨S2048x4096, .f32⟩
  | .hbm, ⟨1, _⟩ => ⟨S4096x128, .f32⟩
  | .hbm, ⟨2, _⟩ => ⟨S4096x128, .i32⟩
  | .hbm, ⟨3, _⟩ => ⟨S4096, .f32⟩
  | .hbm, ⟨4, _⟩ => ⟨S2048x4096, .bf16⟩
  | .hbm, ⟨5, _⟩ => ⟨S1536x4096, .f32⟩
  | .hbm, ⟨6, _⟩ => ⟨S1536, .f32⟩
  | .hbm, ⟨7, _⟩ => ⟨S2048x4096, .f32⟩
  | .hbm, ⟨8, _⟩ => ⟨S2560x4096, .f32⟩
  | .hbm, ⟨9, _⟩ => ⟨S2560, .f32⟩
  | .hbm, ⟨10, _⟩ => ⟨S2048x4096, .f32⟩
  | .local .tc .vmem, ⟨0, _⟩ => ⟨S2048x4096, .bf16⟩
  | .local .tc .vmem, ⟨1, _⟩ => ⟨S256x4096, .f32⟩
  | .local .tc .vmem, ⟨2, _⟩ => ⟨S256x4096, .f32⟩
  | .local .tc .vmem, ⟨3, _⟩ => ⟨S256, .f32⟩
  | .local .tc .vmem, ⟨4, _⟩ => ⟨S256, .f32⟩
  | .local .tc .vmem, ⟨5, _⟩ => ⟨S2048x256, .f32⟩
  | .local .tc .vmem, ⟨6, _⟩ => ⟨S2048x256, .f32⟩
  | .local .tc .vmem, ⟨7, _⟩ => ⟨S2048x4096, .bf16⟩
  | .local .tc .vmem, ⟨8, _⟩ => ⟨S256x4096, .f32⟩
  | .local .tc .vmem, ⟨9, _⟩ => ⟨S256x4096, .f32⟩
  | .local .tc .vmem, ⟨10, _⟩ => ⟨S256, .f32⟩
  | .local .tc .vmem, ⟨11, _⟩ => ⟨S256, .f32⟩
  | .local .tc .vmem, ⟨12, _⟩ => ⟨S2048x256, .f32⟩
  | .local .tc .vmem, ⟨13, _⟩ => ⟨S2048x256, .f32⟩
  | .local .scVector .vmem, ⟨0, _⟩ => ⟨S8x4096, .f32⟩
  | .local .scVector .vmem, ⟨1, _⟩ => ⟨S8x4096, .f32⟩
  | .local .scVector .vmem, ⟨2, _⟩ => ⟨S48x128, .f32⟩
  | .local .scVector .vmem, ⟨3, _⟩ => ⟨S48x128, .i32⟩
  | .local .scVector .vmem, ⟨4, _⟩ => ⟨S8x4096, .f32⟩
  | .local .scVector .vmem, ⟨5, _⟩ => ⟨S8x4096, .f32⟩
  | .local .scVector .vmem, ⟨6, _⟩ => ⟨S80x128, .f32⟩
  | .local .scVector .vmem, ⟨7, _⟩ => ⟨S80x128, .i32⟩
  | _, _ => ⟨S2048x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => false
  | ⟨12, _⟩ => false
  | ⟨13, _⟩ => false
  | ⟨14, _⟩ => false
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_arg1_scv : Ref sig .scVector := ⟨.hbm, 1, rfl⟩
abbrev main_arg2_scv : Ref sig .scVector := ⟨.hbm, 2, rfl⟩
abbrev main_v1_scv : Ref sig .scVector := ⟨.hbm, 5, rfl⟩
abbrev main_v4_scv : Ref sig .scVector := ⟨.hbm, 8, rfl⟩
abbrev cc1_stg0_0 : Ref sig .tc := ⟨.vmem, 0, rfl⟩
abbrev cc1_stg1_0 : Ref sig .tc := ⟨.vmem, 1, rfl⟩
abbrev cc1_stg1_1 : Ref sig .tc := ⟨.vmem, 2, rfl⟩
abbrev cc1_stg2_0 : Ref sig .tc := ⟨.vmem, 3, rfl⟩
abbrev cc1_stg2_1 : Ref sig .tc := ⟨.vmem, 4, rfl⟩
abbrev cc1_stg3_0 : Ref sig .tc := ⟨.vmem, 5, rfl⟩
abbrev cc1_stg3_1 : Ref sig .tc := ⟨.vmem, 6, rfl⟩
abbrev cc3_stg0_0 : Ref sig .tc := ⟨.vmem, 7, rfl⟩
abbrev cc3_stg1_0 : Ref sig .tc := ⟨.vmem, 8, rfl⟩
abbrev cc3_stg1_1 : Ref sig .tc := ⟨.vmem, 9, rfl⟩
abbrev cc3_stg2_0 : Ref sig .tc := ⟨.vmem, 10, rfl⟩
abbrev cc3_stg2_1 : Ref sig .tc := ⟨.vmem, 11, rfl⟩
abbrev cc3_stg3_0 : Ref sig .tc := ⟨.vmem, 12, rfl⟩
abbrev cc3_stg3_1 : Ref sig .tc := ⟨.vmem, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc2_scratch0 : Ref sig .scVector := ⟨.vmem, 4, rfl⟩
abbrev cc2_scratch1 : Ref sig .scVector := ⟨.vmem, 5, rfl⟩
abbrev cc2_scratch2 : Ref sig .scVector := ⟨.vmem, 6, rfl⟩
abbrev cc2_scratch3 : Ref sig .scVector := ⟨.vmem, 7, rfl⟩
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc3_sem0_0 : DmaSem sig := 15
abbrev cc3_sem1_0 : DmaSem sig := 16
abbrev cc3_sem1_1 : DmaSem sig := 17
abbrev cc3_sem2_0 : DmaSem sig := 18
abbrev cc3_sem2_1 : DmaSem sig := 19
abbrev cc3_sem3_0 : DmaSem sig := 20
abbrev cc3_sem3_1 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let v3 : BitVec 32 := Scalar.addi c0_i32 v2
  let c0_i32_101_r0 : BitVec 32 := 0#32
  ![v3.toNat, 0]
@[reducible] def k0_t1_loop : Scf.Loop 32 :=
  let c0_i32_1 : BitVec 32 := 0#32
  let c8_i32 : BitVec 32 := 8#32
  let v5 : BitVec 32 := Scalar.addi c0_i32_1 c8_i32
  let c1_i32 : BitVec 32 := 1#32
  ⟨c0_i32_1, v5, c1_i32⟩
@[reducible] def k0_t2_loop : Scf.Loop 32 :=
  let c0_i32_102 : BitVec 32 := 0#32
  let c32_i32_103 : BitVec 32 := 32#32
  let v65 : BitVec 32 := Scalar.addi c0_i32_102 c32_i32_103
  let c1_i32_104 : BitVec 32 := 1#32
  ⟨c0_i32_102, v65, c1_i32_104⟩
def k0_off2 (k0_t1 : Fin k0_t1_loop.trips) (k0_t2 : Fin k0_t2_loop.trips) (c0_i32_106 : BitVec 32) : Fin 2 → Nat :=
  let c0_i32_1 : BitVec 32 := 0#32
  let c1_i32 : BitVec 32 := 1#32
  let arg11 : BitVec 32 := Scf.iv c0_i32_1 c1_i32 k0_t1
  let v68 : Index := Scalar.indexCast arg11
  let c0_i32_102 : BitVec 32 := 0#32
  let c1_i32_104 : BitVec 32 := 1#32
  let arg12 : BitVec 32 := Scf.iv c0_i32_102 c1_i32_104 k0_t2
  let c128_i32 : BitVec 32 := 128#32
  let v66 : BitVec 32 := Scalar.muli arg12 c128_i32
  let v67 : BitVec 32 := Scalar.addi v66 c0_i32_106
  let v69 : Index := Scalar.indexCast v67
  ![v68.toNat, v69.toNat]
@[reducible] def k0_t3_loop : Scf.Loop 32 :=
  let c0_i32_4 : BitVec 32 := 0#32
  let c8_i32_5 : BitVec 32 := 8#32
  let v6 : BitVec 32 := Scalar.addi c0_i32_4 c8_i32_5
  let c1_i32_6 : BitVec 32 := 1#32
  ⟨c0_i32_4, v6, c1_i32_6⟩
@[reducible] def k0_t4_loop : Scf.Loop 32 :=
  let c0_i32_102 : BitVec 32 := 0#32
  let c32_i32_103 : BitVec 32 := 32#32
  let v65 : BitVec 32 := Scalar.addi c0_i32_102 c32_i32_103
  let c1_i32_104 : BitVec 32 := 1#32
  ⟨c0_i32_102, v65, c1_i32_104⟩
def k0_off3 (k0_t3 : Fin k0_t3_loop.trips) (k0_t4 : Fin k0_t4_loop.trips) (c0_i32_106 : BitVec 32) : Fin 2 → Nat :=
  let c0_i32_4 : BitVec 32 := 0#32
  let c1_i32_6 : BitVec 32 := 1#32
  let arg11 : BitVec 32 := Scf.iv c0_i32_4 c1_i32_6 k0_t3
  let v68 : Index := Scalar.indexCast arg11
  let c0_i32_102 : BitVec 32 := 0#32
  let c1_i32_104 : BitVec 32 := 1#32
  let arg12 : BitVec 32 := Scf.iv c0_i32_102 c1_i32_104 k0_t4
  let c128_i32 : BitVec 32 := 128#32
  let v66 : BitVec 32 := Scalar.muli arg12 c128_i32
  let v67 : BitVec 32 := Scalar.addi v66 c0_i32_106
  let v69 : Index := Scalar.indexCast v67
  ![v68.toNat, v69.toNat]
@[reducible] def k0_t5_loop : Scf.Loop 32 :=
  let c0_i32_9 : BitVec 32 := 0#32
  let c64_i32 : BitVec 32 := 64#32
  let v7 : BitVec 32 := Scalar.addi c0_i32_9 c64_i32
  let c1_i32_10 : BitVec 32 := 1#32
  ⟨c0_i32_9, v7, c1_i32_10⟩
def k0_off4 (k0_t5 : Fin k0_t5_loop.trips) : Fin 2 → Nat :=
  let c0_i32_108 : BitVec 32 := 0#32
  let c0_i32_9 : BitVec 32 := 0#32
  let c1_i32_10 : BitVec 32 := 1#32
  let arg11 : BitVec 32 := Scf.iv c0_i32_9 c1_i32_10 k0_t5
  let c0_i32_102 : BitVec 32 := 0#32
  let v66 : BitVec 1 := Scalar.cmpi .sgt arg11 c0_i32_102
  let v67 : BitVec 32 := Scalar.extui v66
  let c0_i32_103 : BitVec 32 := 0#32
  let v68 : BitVec 1 := Scalar.cmpi .slt arg11 c0_i32_103
  let v69 : BitVec 32 := Scalar.extui v68
  let v70 : BitVec 32 := Scalar.subi v67 v69
  let c8_i32_101 : BitVec 32 := 8#32
  let c0_i32_104 : BitVec 32 := 0#32
  let v71 : BitVec 1 := Scalar.cmpi .sgt c8_i32_101 c0_i32_104
  let v72 : BitVec 32 := Scalar.extui v71
  let c0_i32_105 : BitVec 32 := 0#32
  let v73 : BitVec 1 := Scalar.cmpi .slt c8_i32_101 c0_i32_105
  let v74 : BitVec 32 := Scalar.extui v73
  let v75 : BitVec 32 := Scalar.subi v72 v74
  let v76 : BitVec 1 := Scalar.cmpi .ne v70 v75
  let v77 : BitVec 32 := Scalar.remsi arg11 c8_i32_101
  let c0_i32_106 : BitVec 32 := 0#32
  let v78 : BitVec 1 := Scalar.cmpi .ne v77 c0_i32_106
  let v79 : BitVec 1 := Scalar.andi v76 v78
  let v65 : BitVec 32 := Scalar.divsi arg11 c8_i32_101
  let c1_i32_107 : BitVec 32 := 1#32
  let v80 : BitVec 32 := Scalar.subi v65 c1_i32_107
  let v81 : BitVec 32 := Scalar.select v79 v80 v65
  let v82 : BitVec 32 := Scalar.addi c0_i32_108 v81
  let v112 : Index := Scalar.indexCast v82
  let c8_i32_109 : BitVec 32 := 8#32
  let c0_i32_110 : BitVec 32 := 0#32
  let v83 : BitVec 1 := Scalar.cmpi .eq c8_i32_109 c0_i32_110
  let c1_i32_111 : BitVec 32 := 1#32
  let v84 : BitVec 32 := Scalar.select v83 c1_i32_111 c8_i32_109
  let v85 : BitVec 32 := Scalar.remsi arg11 v84
  let c0_i32_113 : BitVec 32 := 0#32
  let v87 : BitVec 1 := Scalar.cmpi .slt v85 c0_i32_113
  let c0_i32_114 : BitVec 32 := 0#32
  let v88 : BitVec 1 := Scalar.cmpi .slt v84 c0_i32_114
  let v89 : BitVec 1 := Scalar.xori v87 v88
  let c0_i32_112 : BitVec 32 := 0#32
  let v86 : BitVec 1 := Scalar.cmpi .ne v85 c0_i32_112
  let v90 : BitVec 1 := Scalar.andi v89 v86
  let v91 : BitVec 32 := Scalar.addi v85 v84
  let v92 : BitVec 32 := Scalar.select v90 v91 v85
  let c16_i32_115 : BitVec 32 := 16#32
  let v93 : BitVec 32 := Scalar.muli v92 c16_i32_115
  let v113 : Index := Scalar.indexCast v93
  ![v112.toNat, v113.toNat]

def k0_chk1 (v111 : IVec S16 32) (v114 : IVec S16 32) : Prop :=
  (∀ a x, ((![v111, v114] : Fin 2 → IVec S16 32) a x).toNat < S8x4096.size a)
instance k0_chk1.dec : ∀ (v111 : IVec S16 32) (v114 : IVec S16 32), Decidable (k0_chk1 v111 v114) := fun v111 v114 => decidable_of_iff' _ (Iff.of_eq (k0_chk1.eq_1 v111 v114))
theorem k0_idx1_inb : ∀ (v111 : IVec S16 32) (v114 : IVec S16 32) (k0_hw1 : k0_chk1 v111 v114), ∀ a x, ((![v111, v114] : Fin 2 → IVec S16 32) a x).toNat < S8x4096.size a := fun v111 v114 k0_hw1 => k0_hw1
def k0_off5 (i : grid0.Coords) (c0_i32_13 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32_12 : BitVec 32 := 48#32
  let v8 : BitVec 32 := Scalar.muli v1 c48_i32_12
  let v9 : BitVec 32 := Scalar.addi v8 c0_i32_13
  let c0_i32_14 : BitVec 32 := 0#32
  ![v9.toNat, 0]
@[reducible] def k0_t6_loop : Scf.Loop 32 :=
  let c0_i32_17 : BitVec 32 := 0#32
  let c64_i32_18 : BitVec 32 := 64#32
  let v12 : BitVec 32 := Scalar.addi c0_i32_17 c64_i32_18
  let c1_i32_19 : BitVec 32 := 1#32
  ⟨c0_i32_17, v12, c1_i32_19⟩
def k0_off6 (k0_t6 : Fin k0_t6_loop.trips) : Fin 2 → Nat :=
  let c8_i32_108 : BitVec 32 := 8#32
  let c0_i32_17 : BitVec 32 := 0#32
  let c1_i32_19 : BitVec 32 := 1#32
  let arg11 : BitVec 32 := Scf.iv c0_i32_17 c1_i32_19 k0_t6
  let c0_i32_102 : BitVec 32 := 0#32
  let v66 : BitVec 1 := Scalar.cmpi .sgt arg11 c0_i32_102
  let v67 : BitVec 32 := Scalar.extui v66
  let c0_i32_103 : BitVec 32 := 0#32
  let v68 : BitVec 1 := Scalar.cmpi .slt arg11 c0_i32_103
  let v69 : BitVec 32 := Scalar.extui v68
  let v70 : BitVec 32 := Scalar.subi v67 v69
  let c8_i32_101 : BitVec 32 := 8#32
  let c0_i32_104 : BitVec 32 := 0#32
  let v71 : BitVec 1 := Scalar.cmpi .sgt c8_i32_101 c0_i32_104
  let v72 : BitVec 32 := Scalar.extui v71
  let c0_i32_105 : BitVec 32 := 0#32
  let v73 : BitVec 1 := Scalar.cmpi .slt c8_i32_101 c0_i32_105
  let v74 : BitVec 32 := Scalar.extui v73
  let v75 : BitVec 32 := Scalar.subi v72 v74
  let v76 : BitVec 1 := Scalar.cmpi .ne v70 v75
  let v77 : BitVec 32 := Scalar.remsi arg11 c8_i32_101
  let c0_i32_106 : BitVec 32 := 0#32
  let v78 : BitVec 1 := Scalar.cmpi .ne v77 c0_i32_106
  let v79 : BitVec 1 := Scalar.andi v76 v78
  let v65 : BitVec 32 := Scalar.divsi arg11 c8_i32_101
  let c1_i32_107 : BitVec 32 := 1#32
  let v80 : BitVec 32 := Scalar.subi v65 c1_i32_107
  let v81 : BitVec 32 := Scalar.select v79 v80 v65
  let v82 : BitVec 32 := Scalar.addi c8_i32_108 v81
  let v112 : Index := Scalar.indexCast v82
  let c8_i32_109 : BitVec 32 := 8#32
  let c0_i32_110 : BitVec 32 := 0#32
  let v83 : BitVec 1 := Scalar.cmpi .eq c8_i32_109 c0_i32_110
  let c1_i32_111 : BitVec 32 := 1#32
  let v84 : BitVec 32 := Scalar.select v83 c1_i32_111 c8_i32_109
  let v85 : BitVec 32 := Scalar.remsi arg11 v84
  let c0_i32_113 : BitVec 32 := 0#32
  let v87 : BitVec 1 := Scalar.cmpi .slt v85 c0_i32_113
  let c0_i32_114 : BitVec 32 := 0#32
  let v88 : BitVec 1 := Scalar.cmpi .slt v84 c0_i32_114
  let v89 : BitVec 1 := Scalar.xori v87 v88
  let c0_i32_112 : BitVec 32 := 0#32
  let v86 : BitVec 1 := Scalar.cmpi .ne v85 c0_i32_112
  let v90 : BitVec 1 := Scalar.andi v89 v86
  let v91 : BitVec 32 := Scalar.addi v85 v84
  let v92 : BitVec 32 := Scalar.select v90 v91 v85
  let c16_i32_115 : BitVec 32 := 16#32
  let v93 : BitVec 32 := Scalar.muli v92 c16_i32_115
  let v113 : Index := Scalar.indexCast v93
  ![v112.toNat, v113.toNat]

def k0_chk2 (v111 : IVec S16 32) (v114 : IVec S16 32) : Prop :=
  (∀ a x, ((![v111, v114] : Fin 2 → IVec S16 32) a x).toNat < S8x4096.size a)
instance k0_chk2.dec : ∀ (v111 : IVec S16 32) (v114 : IVec S16 32), Decidable (k0_chk2 v111 v114) := fun v111 v114 => decidable_of_iff' _ (Iff.of_eq (k0_chk2.eq_1 v111 v114))
theorem k0_idx2_inb : ∀ (v111 : IVec S16 32) (v114 : IVec S16 32) (k0_hw2 : k0_chk2 v111 v114), ∀ a x, ((![v111, v114] : Fin 2 → IVec S16 32) a x).toNat < S8x4096.size a := fun v111 v114 k0_hw2 => k0_hw2
@[reducible] def k0_t7_loop : Scf.Loop 32 :=
  let c0_i32_30 : BitVec 32 := 0#32
  let c64_i32_31 : BitVec 32 := 64#32
  let v21 : BitVec 32 := Scalar.addi c0_i32_30 c64_i32_31
  let c1_i32_32 : BitVec 32 := 1#32
  ⟨c0_i32_30, v21, c1_i32_32⟩
def k0_off7 (k0_t7 : Fin k0_t7_loop.trips) : Fin 2 → Nat :=
  let c0_i32_108 : BitVec 32 := 0#32
  let c0_i32_30 : BitVec 32 := 0#32
  let c1_i32_32 : BitVec 32 := 1#32
  let arg11 : BitVec 32 := Scf.iv c0_i32_30 c1_i32_32 k0_t7
  let c0_i32_102 : BitVec 32 := 0#32
  let v66 : BitVec 1 := Scalar.cmpi .sgt arg11 c0_i32_102
  let v67 : BitVec 32 := Scalar.extui v66
  let c0_i32_103 : BitVec 32 := 0#32
  let v68 : BitVec 1 := Scalar.cmpi .slt arg11 c0_i32_103
  let v69 : BitVec 32 := Scalar.extui v68
  let v70 : BitVec 32 := Scalar.subi v67 v69
  let c8_i32_101 : BitVec 32 := 8#32
  let c0_i32_104 : BitVec 32 := 0#32
  let v71 : BitVec 1 := Scalar.cmpi .sgt c8_i32_101 c0_i32_104
  let v72 : BitVec 32 := Scalar.extui v71
  let c0_i32_105 : BitVec 32 := 0#32
  let v73 : BitVec 1 := Scalar.cmpi .slt c8_i32_101 c0_i32_105
  let v74 : BitVec 32 := Scalar.extui v73
  let v75 : BitVec 32 := Scalar.subi v72 v74
  let v76 : BitVec 1 := Scalar.cmpi .ne v70 v75
  let v77 : BitVec 32 := Scalar.remsi arg11 c8_i32_101
  let c0_i32_106 : BitVec 32 := 0#32
  let v78 : BitVec 1 := Scalar.cmpi .ne v77 c0_i32_106
  let v79 : BitVec 1 := Scalar.andi v76 v78
  let v65 : BitVec 32 := Scalar.divsi arg11 c8_i32_101
  let c1_i32_107 : BitVec 32 := 1#32
  let v80 : BitVec 32 := Scalar.subi v65 c1_i32_107
  let v81 : BitVec 32 := Scalar.select v79 v80 v65
  let v82 : BitVec 32 := Scalar.addi c0_i32_108 v81
  let v112 : Index := Scalar.indexCast v82
  let c8_i32_109 : BitVec 32 := 8#32
  let c0_i32_110 : BitVec 32 := 0#32
  let v83 : BitVec 1 := Scalar.cmpi .eq c8_i32_109 c0_i32_110
  let c1_i32_111 : BitVec 32 := 1#32
  let v84 : BitVec 32 := Scalar.select v83 c1_i32_111 c8_i32_109
  let v85 : BitVec 32 := Scalar.remsi arg11 v84
  let c0_i32_113 : BitVec 32 := 0#32
  let v87 : BitVec 1 := Scalar.cmpi .slt v85 c0_i32_113
  let c0_i32_114 : BitVec 32 := 0#32
  let v88 : BitVec 1 := Scalar.cmpi .slt v84 c0_i32_114
  let v89 : BitVec 1 := Scalar.xori v87 v88
  let c0_i32_112 : BitVec 32 := 0#32
  let v86 : BitVec 1 := Scalar.cmpi .ne v85 c0_i32_112
  let v90 : BitVec 1 := Scalar.andi v89 v86
  let v91 : BitVec 32 := Scalar.addi v85 v84
  let v92 : BitVec 32 := Scalar.select v90 v91 v85
  let c16_i32_115 : BitVec 32 := 16#32
  let v93 : BitVec 32 := Scalar.muli v92 c16_i32_115
  let v113 : Index := Scalar.indexCast v93
  ![v112.toNat, v113.toNat]

def k0_chk3 (v111 : IVec S16 32) (v114 : IVec S16 32) : Prop :=
  (∀ a x, ((![v111, v114] : Fin 2 → IVec S16 32) a x).toNat < S8x4096.size a)
instance k0_chk3.dec : ∀ (v111 : IVec S16 32) (v114 : IVec S16 32), Decidable (k0_chk3 v111 v114) := fun v111 v114 => decidable_of_iff' _ (Iff.of_eq (k0_chk3.eq_1 v111 v114))
theorem k0_idx3_inb : ∀ (v111 : IVec S16 32) (v114 : IVec S16 32) (k0_hw3 : k0_chk3 v111 v114), ∀ a x, ((![v111, v114] : Fin 2 → IVec S16 32) a x).toNat < S8x4096.size a := fun v111 v114 k0_hw3 => k0_hw3
@[reducible] def k0_t8_loop : Scf.Loop 32 :=
  let c0_i32_35 : BitVec 32 := 0#32
  let c64_i32_36 : BitVec 32 := 64#32
  let v22 : BitVec 32 := Scalar.addi c0_i32_35 c64_i32_36
  let c1_i32_37 : BitVec 32 := 1#32
  ⟨c0_i32_35, v22, c1_i32_37⟩
def k0_off8 (k0_t8 : Fin k0_t8_loop.trips) : Fin 2 → Nat :=
  let c16_i32_108 : BitVec 32 := 16#32
  let c0_i32_35 : BitVec 32 := 0#32
  let c1_i32_37 : BitVec 32 := 1#32
  let arg11 : BitVec 32 := Scf.iv c0_i32_35 c1_i32_37 k0_t8
  let c0_i32_102 : BitVec 32 := 0#32
  let v66 : BitVec 1 := Scalar.cmpi .sgt arg11 c0_i32_102
  let v67 : BitVec 32 := Scalar.extui v66
  let c0_i32_103 : BitVec 32 := 0#32
  let v68 : BitVec 1 := Scalar.cmpi .slt arg11 c0_i32_103
  let v69 : BitVec 32 := Scalar.extui v68
  let v70 : BitVec 32 := Scalar.subi v67 v69
  let c8_i32_101 : BitVec 32 := 8#32
  let c0_i32_104 : BitVec 32 := 0#32
  let v71 : BitVec 1 := Scalar.cmpi .sgt c8_i32_101 c0_i32_104
  let v72 : BitVec 32 := Scalar.extui v71
  let c0_i32_105 : BitVec 32 := 0#32
  let v73 : BitVec 1 := Scalar.cmpi .slt c8_i32_101 c0_i32_105
  let v74 : BitVec 32 := Scalar.extui v73
  let v75 : BitVec 32 := Scalar.subi v72 v74
  let v76 : BitVec 1 := Scalar.cmpi .ne v70 v75
  let v77 : BitVec 32 := Scalar.remsi arg11 c8_i32_101
  let c0_i32_106 : BitVec 32 := 0#32
  let v78 : BitVec 1 := Scalar.cmpi .ne v77 c0_i32_106
  let v79 : BitVec 1 := Scalar.andi v76 v78
  let v65 : BitVec 32 := Scalar.divsi arg11 c8_i32_101
  let c1_i32_107 : BitVec 32 := 1#32
  let v80 : BitVec 32 := Scalar.subi v65 c1_i32_107
  let v81 : BitVec 32 := Scalar.select v79 v80 v65
  let v82 : BitVec 32 := Scalar.addi c16_i32_108 v81
  let v112 : Index := Scalar.indexCast v82
  let c8_i32_109 : BitVec 32 := 8#32
  let c0_i32_110 : BitVec 32 := 0#32
  let v83 : BitVec 1 := Scalar.cmpi .eq c8_i32_109 c0_i32_110
  let c1_i32_111 : BitVec 32 := 1#32
  let v84 : BitVec 32 := Scalar.select v83 c1_i32_111 c8_i32_109
  let v85 : BitVec 32 := Scalar.remsi arg11 v84
  let c0_i32_113 : BitVec 32 := 0#32
  let v87 : BitVec 1 := Scalar.cmpi .slt v85 c0_i32_113
  let c0_i32_114 : BitVec 32 := 0#32
  let v88 : BitVec 1 := Scalar.cmpi .slt v84 c0_i32_114
  let v89 : BitVec 1 := Scalar.xori v87 v88
  let c0_i32_112 : BitVec 32 := 0#32
  let v86 : BitVec 1 := Scalar.cmpi .ne v85 c0_i32_112
  let v90 : BitVec 1 := Scalar.andi v89 v86
  let v91 : BitVec 32 := Scalar.addi v85 v84
  let v92 : BitVec 32 := Scalar.select v90 v91 v85
  let c16_i32_115 : BitVec 32 := 16#32
  let v93 : BitVec 32 := Scalar.muli v92 c16_i32_115
  let v113 : Index := Scalar.indexCast v93
  ![v112.toNat, v113.toNat]

def k0_chk4 (v111 : IVec S16 32) (v114 : IVec S16 32) : Prop :=
  (∀ a x, ((![v111, v114] : Fin 2 → IVec S16 32) a x).toNat < S8x4096.size a)
instance k0_chk4.dec : ∀ (v111 : IVec S16 32) (v114 : IVec S16 32), Decidable (k0_chk4 v111 v114) := fun v111 v114 => decidable_of_iff' _ (Iff.of_eq (k0_chk4.eq_1 v111 v114))
theorem k0_idx4_inb : ∀ (v111 : IVec S16 32) (v114 : IVec S16 32) (k0_hw4 : k0_chk4 v111 v114), ∀ a x, ((![v111, v114] : Fin 2 → IVec S16 32) a x).toNat < S8x4096.size a := fun v111 v114 k0_hw4 => k0_hw4
@[reducible] def k0_t9_loop : Scf.Loop 32 :=
  let c0_i32_47 : BitVec 32 := 0#32
  let c64_i32_48 : BitVec 32 := 64#32
  let v31 : BitVec 32 := Scalar.addi c0_i32_47 c64_i32_48
  let c1_i32_49 : BitVec 32 := 1#32
  ⟨c0_i32_47, v31, c1_i32_49⟩
def k0_off9 (k0_t9 : Fin k0_t9_loop.trips) : Fin 2 → Nat :=
  let c8_i32_108 : BitVec 32 := 8#32
  let c0_i32_47 : BitVec 32 := 0#32
  let c1_i32_49 : BitVec 32 := 1#32
  let arg11 : BitVec 32 := Scf.iv c0_i32_47 c1_i32_49 k0_t9
  let c0_i32_102 : BitVec 32 := 0#32
  let v66 : BitVec 1 := Scalar.cmpi .sgt arg11 c0_i32_102
  let v67 : BitVec 32 := Scalar.extui v66
  let c0_i32_103 : BitVec 32 := 0#32
  let v68 : BitVec 1 := Scalar.cmpi .slt arg11 c0_i32_103
  let v69 : BitVec 32 := Scalar.extui v68
  let v70 : BitVec 32 := Scalar.subi v67 v69
  let c8_i32_101 : BitVec 32 := 8#32
  let c0_i32_104 : BitVec 32 := 0#32
  let v71 : BitVec 1 := Scalar.cmpi .sgt c8_i32_101 c0_i32_104
  let v72 : BitVec 32 := Scalar.extui v71
  let c0_i32_105 : BitVec 32 := 0#32
  let v73 : BitVec 1 := Scalar.cmpi .slt c8_i32_101 c0_i32_105
  let v74 : BitVec 32 := Scalar.extui v73
  let v75 : BitVec 32 := Scalar.subi v72 v74
  let v76 : BitVec 1 := Scalar.cmpi .ne v70 v75
  let v77 : BitVec 32 := Scalar.remsi arg11 c8_i32_101
  let c0_i32_106 : BitVec 32 := 0#32
  let v78 : BitVec 1 := Scalar.cmpi .ne v77 c0_i32_106
  let v79 : BitVec 1 := Scalar.andi v76 v78
  let v65 : BitVec 32 := Scalar.divsi arg11 c8_i32_101
  let c1_i32_107 : BitVec 32 := 1#32
  let v80 : BitVec 32 := Scalar.subi v65 c1_i32_107
  let v81 : BitVec 32 := Scalar.select v79 v80 v65
  let v82 : BitVec 32 := Scalar.addi c8_i32_108 v81
  let v112 : Index := Scalar.indexCast v82
  let c8_i32_109 : BitVec 32 := 8#32
  let c0_i32_110 : BitVec 32 := 0#32
  let v83 : BitVec 1 := Scalar.cmpi .eq c8_i32_109 c0_i32_110
  let c1_i32_111 : BitVec 32 := 1#32
  let v84 : BitVec 32 := Scalar.select v83 c1_i32_111 c8_i32_109
  let v85 : BitVec 32 := Scalar.remsi arg11 v84
  let c0_i32_113 : BitVec 32 := 0#32
  let v87 : BitVec 1 := Scalar.cmpi .slt v85 c0_i32_113
  let c0_i32_114 : BitVec 32 := 0#32
  let v88 : BitVec 1 := Scalar.cmpi .slt v84 c0_i32_114
  let v89 : BitVec 1 := Scalar.xori v87 v88
  let c0_i32_112 : BitVec 32 := 0#32
  let v86 : BitVec 1 := Scalar.cmpi .ne v85 c0_i32_112
  let v90 : BitVec 1 := Scalar.andi v89 v86
  let v91 : BitVec 32 := Scalar.addi v85 v84
  let v92 : BitVec 32 := Scalar.select v90 v91 v85
  let c16_i32_115 : BitVec 32 := 16#32
  let v93 : BitVec 32 := Scalar.muli v92 c16_i32_115
  let v113 : Index := Scalar.indexCast v93
  ![v112.toNat, v113.toNat]

def k0_chk5 (v111 : IVec S16 32) (v114 : IVec S16 32) : Prop :=
  (∀ a x, ((![v111, v114] : Fin 2 → IVec S16 32) a x).toNat < S8x4096.size a)
instance k0_chk5.dec : ∀ (v111 : IVec S16 32) (v114 : IVec S16 32), Decidable (k0_chk5 v111 v114) := fun v111 v114 => decidable_of_iff' _ (Iff.of_eq (k0_chk5.eq_1 v111 v114))
theorem k0_idx5_inb : ∀ (v111 : IVec S16 32) (v114 : IVec S16 32) (k0_hw5 : k0_chk5 v111 v114), ∀ a x, ((![v111, v114] : Fin 2 → IVec S16 32) a x).toNat < S8x4096.size a := fun v111 v114 k0_hw5 => k0_hw5
@[reducible] def k0_t10_loop : Scf.Loop 32 :=
  let c0_i32_52 : BitVec 32 := 0#32
  let c64_i32_53 : BitVec 32 := 64#32
  let v32 : BitVec 32 := Scalar.addi c0_i32_52 c64_i32_53
  let c1_i32_54 : BitVec 32 := 1#32
  ⟨c0_i32_52, v32, c1_i32_54⟩
def k0_off10 (k0_t10 : Fin k0_t10_loop.trips) : Fin 2 → Nat :=
  let c24_i32_108 : BitVec 32 := 24#32
  let c0_i32_52 : BitVec 32 := 0#32
  let c1_i32_54 : BitVec 32 := 1#32
  let arg11 : BitVec 32 := Scf.iv c0_i32_52 c1_i32_54 k0_t10
  let c0_i32_102 : BitVec 32 := 0#32
  let v66 : BitVec 1 := Scalar.cmpi .sgt arg11 c0_i32_102
  let v67 : BitVec 32 := Scalar.extui v66
  let c0_i32_103 : BitVec 32 := 0#32
  let v68 : BitVec 1 := Scalar.cmpi .slt arg11 c0_i32_103
  let v69 : BitVec 32 := Scalar.extui v68
  let v70 : BitVec 32 := Scalar.subi v67 v69
  let c8_i32_101 : BitVec 32 := 8#32
  let c0_i32_104 : BitVec 32 := 0#32
  let v71 : BitVec 1 := Scalar.cmpi .sgt c8_i32_101 c0_i32_104
  let v72 : BitVec 32 := Scalar.extui v71
  let c0_i32_105 : BitVec 32 := 0#32
  let v73 : BitVec 1 := Scalar.cmpi .slt c8_i32_101 c0_i32_105
  let v74 : BitVec 32 := Scalar.extui v73
  let v75 : BitVec 32 := Scalar.subi v72 v74
  let v76 : BitVec 1 := Scalar.cmpi .ne v70 v75
  let v77 : BitVec 32 := Scalar.remsi arg11 c8_i32_101
  let c0_i32_106 : BitVec 32 := 0#32
  let v78 : BitVec 1 := Scalar.cmpi .ne v77 c0_i32_106
  let v79 : BitVec 1 := Scalar.andi v76 v78
  let v65 : BitVec 32 := Scalar.divsi arg11 c8_i32_101
  let c1_i32_107 : BitVec 32 := 1#32
  let v80 : BitVec 32 := Scalar.subi v65 c1_i32_107
  let v81 : BitVec 32 := Scalar.select v79 v80 v65
  let v82 : BitVec 32 := Scalar.addi c24_i32_108 v81
  let v112 : Index := Scalar.indexCast v82
  let c8_i32_109 : BitVec 32 := 8#32
  let c0_i32_110 : BitVec 32 := 0#32
  let v83 : BitVec 1 := Scalar.cmpi .eq c8_i32_109 c0_i32_110
  let c1_i32_111 : BitVec 32 := 1#32
  let v84 : BitVec 32 := Scalar.select v83 c1_i32_111 c8_i32_109
  let v85 : BitVec 32 := Scalar.remsi arg11 v84
  let c0_i32_113 : BitVec 32 := 0#32
  let v87 : BitVec 1 := Scalar.cmpi .slt v85 c0_i32_113
  let c0_i32_114 : BitVec 32 := 0#32
  let v88 : BitVec 1 := Scalar.cmpi .slt v84 c0_i32_114
  let v89 : BitVec 1 := Scalar.xori v87 v88
  let c0_i32_112 : BitVec 32 := 0#32
  let v86 : BitVec 1 := Scalar.cmpi .ne v85 c0_i32_112
  let v90 : BitVec 1 := Scalar.andi v89 v86
  let v91 : BitVec 32 := Scalar.addi v85 v84
  let v92 : BitVec 32 := Scalar.select v90 v91 v85
  let c16_i32_115 : BitVec 32 := 16#32
  let v93 : BitVec 32 := Scalar.muli v92 c16_i32_115
  let v113 : Index := Scalar.indexCast v93
  ![v112.toNat, v113.toNat]

def k0_chk6 (v111 : IVec S16 32) (v114 : IVec S16 32) : Prop :=
  (∀ a x, ((![v111, v114] : Fin 2 → IVec S16 32) a x).toNat < S8x4096.size a)
instance k0_chk6.dec : ∀ (v111 : IVec S16 32) (v114 : IVec S16 32), Decidable (k0_chk6 v111 v114) := fun v111 v114 => decidable_of_iff' _ (Iff.of_eq (k0_chk6.eq_1 v111 v114))
theorem k0_idx6_inb : ∀ (v111 : IVec S16 32) (v114 : IVec S16 32) (k0_hw6 : k0_chk6 v111 v114), ∀ a x, ((![v111, v114] : Fin 2 → IVec S16 32) a x).toNat < S8x4096.size a := fun v111 v114 k0_hw6 => k0_hw6
@[reducible] def k0_t11_loop : Scf.Loop 32 :=
  let c0_i32_64 : BitVec 32 := 0#32
  let c64_i32_65 : BitVec 32 := 64#32
  let v41 : BitVec 32 := Scalar.addi c0_i32_64 c64_i32_65
  let c1_i32_66 : BitVec 32 := 1#32
  ⟨c0_i32_64, v41, c1_i32_66⟩
def k0_off11 (k0_t11 : Fin k0_t11_loop.trips) : Fin 2 → Nat :=
  let c16_i32_108 : BitVec 32 := 16#32
  let c0_i32_64 : BitVec 32 := 0#32
  let c1_i32_66 : BitVec 32 := 1#32
  let arg11 : BitVec 32 := Scf.iv c0_i32_64 c1_i32_66 k0_t11
  let c0_i32_102 : BitVec 32 := 0#32
  let v66 : BitVec 1 := Scalar.cmpi .sgt arg11 c0_i32_102
  let v67 : BitVec 32 := Scalar.extui v66
  let c0_i32_103 : BitVec 32 := 0#32
  let v68 : BitVec 1 := Scalar.cmpi .slt arg11 c0_i32_103
  let v69 : BitVec 32 := Scalar.extui v68
  let v70 : BitVec 32 := Scalar.subi v67 v69
  let c8_i32_101 : BitVec 32 := 8#32
  let c0_i32_104 : BitVec 32 := 0#32
  let v71 : BitVec 1 := Scalar.cmpi .sgt c8_i32_101 c0_i32_104
  let v72 : BitVec 32 := Scalar.extui v71
  let c0_i32_105 : BitVec 32 := 0#32
  let v73 : BitVec 1 := Scalar.cmpi .slt c8_i32_101 c0_i32_105
  let v74 : BitVec 32 := Scalar.extui v73
  let v75 : BitVec 32 := Scalar.subi v72 v74
  let v76 : BitVec 1 := Scalar.cmpi .ne v70 v75
  let v77 : BitVec 32 := Scalar.remsi arg11 c8_i32_101
  let c0_i32_106 : BitVec 32 := 0#32
  let v78 : BitVec 1 := Scalar.cmpi .ne v77 c0_i32_106
  let v79 : BitVec 1 := Scalar.andi v76 v78
  let v65 : BitVec 32 := Scalar.divsi arg11 c8_i32_101
  let c1_i32_107 : BitVec 32 := 1#32
  let v80 : BitVec 32 := Scalar.subi v65 c1_i32_107
  let v81 : BitVec 32 := Scalar.select v79 v80 v65
  let v82 : BitVec 32 := Scalar.addi c16_i32_108 v81
  let v112 : Index := Scalar.indexCast v82
  let c8_i32_109 : BitVec 32 := 8#32
  let c0_i32_110 : BitVec 32 := 0#32
  let v83 : BitVec 1 := Scalar.cmpi .eq c8_i32_109 c0_i32_110
  let c1_i32_111 : BitVec 32 := 1#32
  let v84 : BitVec 32 := Scalar.select v83 c1_i32_111 c8_i32_109
  let v85 : BitVec 32 := Scalar.remsi arg11 v84
  let c0_i32_113 : BitVec 32 := 0#32
  let v87 : BitVec 1 := Scalar.cmpi .slt v85 c0_i32_113
  let c0_i32_114 : BitVec 32 := 0#32
  let v88 : BitVec 1 := Scalar.cmpi .slt v84 c0_i32_114
  let v89 : BitVec 1 := Scalar.xori v87 v88
  let c0_i32_112 : BitVec 32 := 0#32
  let v86 : BitVec 1 := Scalar.cmpi .ne v85 c0_i32_112
  let v90 : BitVec 1 := Scalar.andi v89 v86
  let v91 : BitVec 32 := Scalar.addi v85 v84
  let v92 : BitVec 32 := Scalar.select v90 v91 v85
  let c16_i32_115 : BitVec 32 := 16#32
  let v93 : BitVec 32 := Scalar.muli v92 c16_i32_115
  let v113 : Index := Scalar.indexCast v93
  ![v112.toNat, v113.toNat]

def k0_chk7 (v111 : IVec S16 32) (v114 : IVec S16 32) : Prop :=
  (∀ a x, ((![v111, v114] : Fin 2 → IVec S16 32) a x).toNat < S8x4096.size a)
instance k0_chk7.dec : ∀ (v111 : IVec S16 32) (v114 : IVec S16 32), Decidable (k0_chk7 v111 v114) := fun v111 v114 => decidable_of_iff' _ (Iff.of_eq (k0_chk7.eq_1 v111 v114))
theorem k0_idx7_inb : ∀ (v111 : IVec S16 32) (v114 : IVec S16 32) (k0_hw7 : k0_chk7 v111 v114), ∀ a x, ((![v111, v114] : Fin 2 → IVec S16 32) a x).toNat < S8x4096.size a := fun v111 v114 k0_hw7 => k0_hw7
@[reducible] def k0_t12_loop : Scf.Loop 32 :=
  let c0_i32_69 : BitVec 32 := 0#32
  let c64_i32_70 : BitVec 32 := 64#32
  let v42 : BitVec 32 := Scalar.addi c0_i32_69 c64_i32_70
  let c1_i32_71 : BitVec 32 := 1#32
  ⟨c0_i32_69, v42, c1_i32_71⟩
def k0_off12 (k0_t12 : Fin k0_t12_loop.trips) : Fin 2 → Nat :=
  let c32_i32_108 : BitVec 32 := 32#32
  let c0_i32_69 : BitVec 32 := 0#32
  let c1_i32_71 : BitVec 32 := 1#32
  let arg11 : BitVec 32 := Scf.iv c0_i32_69 c1_i32_71 k0_t12
  let c0_i32_102 : BitVec 32 := 0#32
  let v66 : BitVec 1 := Scalar.cmpi .sgt arg11 c0_i32_102
  let v67 : BitVec 32 := Scalar.extui v66
  let c0_i32_103 : BitVec 32 := 0#32
  let v68 : BitVec 1 := Scalar.cmpi .slt arg11 c0_i32_103
  let v69 : BitVec 32 := Scalar.extui v68
  let v70 : BitVec 32 := Scalar.subi v67 v69
  let c8_i32_101 : BitVec 32 := 8#32
  let c0_i32_104 : BitVec 32 := 0#32
  let v71 : BitVec 1 := Scalar.cmpi .sgt c8_i32_101 c0_i32_104
  let v72 : BitVec 32 := Scalar.extui v71
  let c0_i32_105 : BitVec 32 := 0#32
  let v73 : BitVec 1 := Scalar.cmpi .slt c8_i32_101 c0_i32_105
  let v74 : BitVec 32 := Scalar.extui v73
  let v75 : BitVec 32 := Scalar.subi v72 v74
  let v76 : BitVec 1 := Scalar.cmpi .ne v70 v75
  let v77 : BitVec 32 := Scalar.remsi arg11 c8_i32_101
  let c0_i32_106 : BitVec 32 := 0#32
  let v78 : BitVec 1 := Scalar.cmpi .ne v77 c0_i32_106
  let v79 : BitVec 1 := Scalar.andi v76 v78
  let v65 : BitVec 32 := Scalar.divsi arg11 c8_i32_101
  let c1_i32_107 : BitVec 32 := 1#32
  let v80 : BitVec 32 := Scalar.subi v65 c1_i32_107
  let v81 : BitVec 32 := Scalar.select v79 v80 v65
  let v82 : BitVec 32 := Scalar.addi c32_i32_108 v81
  let v112 : Index := Scalar.indexCast v82
  let c8_i32_109 : BitVec 32 := 8#32
  let c0_i32_110 : BitVec 32 := 0#32
  let v83 : BitVec 1 := Scalar.cmpi .eq c8_i32_109 c0_i32_110
  let c1_i32_111 : BitVec 32 := 1#32
  let v84 : BitVec 32 := Scalar.select v83 c1_i32_111 c8_i32_109
  let v85 : BitVec 32 := Scalar.remsi arg11 v84
  let c0_i32_113 : BitVec 32 := 0#32
  let v87 : BitVec 1 := Scalar.cmpi .slt v85 c0_i32_113
  let c0_i32_114 : BitVec 32 := 0#32
  let v88 : BitVec 1 := Scalar.cmpi .slt v84 c0_i32_114
  let v89 : BitVec 1 := Scalar.xori v87 v88
  let c0_i32_112 : BitVec 32 := 0#32
  let v86 : BitVec 1 := Scalar.cmpi .ne v85 c0_i32_112
  let v90 : BitVec 1 := Scalar.andi v89 v86
  let v91 : BitVec 32 := Scalar.addi v85 v84
  let v92 : BitVec 32 := Scalar.select v90 v91 v85
  let c16_i32_115 : BitVec 32 := 16#32
  let v93 : BitVec 32 := Scalar.muli v92 c16_i32_115
  let v113 : Index := Scalar.indexCast v93
  ![v112.toNat, v113.toNat]

def k0_chk8 (v111 : IVec S16 32) (v114 : IVec S16 32) : Prop :=
  (∀ a x, ((![v111, v114] : Fin 2 → IVec S16 32) a x).toNat < S8x4096.size a)
instance k0_chk8.dec : ∀ (v111 : IVec S16 32) (v114 : IVec S16 32), Decidable (k0_chk8 v111 v114) := fun v111 v114 => decidable_of_iff' _ (Iff.of_eq (k0_chk8.eq_1 v111 v114))
theorem k0_idx8_inb : ∀ (v111 : IVec S16 32) (v114 : IVec S16 32) (k0_hw8 : k0_chk8 v111 v114), ∀ a x, ((![v111, v114] : Fin 2 → IVec S16 32) a x).toNat < S8x4096.size a := fun v111 v114 k0_hw8 => k0_hw8
@[reducible] def k0_t13_loop : Scf.Loop 32 :=
  let c0_i32_81 : BitVec 32 := 0#32
  let c64_i32_82 : BitVec 32 := 64#32
  let v51 : BitVec 32 := Scalar.addi c0_i32_81 c64_i32_82
  let c1_i32_83 : BitVec 32 := 1#32
  ⟨c0_i32_81, v51, c1_i32_83⟩
def k0_off13 (k0_t13 : Fin k0_t13_loop.trips) : Fin 2 → Nat :=
  let c24_i32_108 : BitVec 32 := 24#32
  let c0_i32_81 : BitVec 32 := 0#32
  let c1_i32_83 : BitVec 32 := 1#32
  let arg11 : BitVec 32 := Scf.iv c0_i32_81 c1_i32_83 k0_t13
  let c0_i32_102 : BitVec 32 := 0#32
  let v66 : BitVec 1 := Scalar.cmpi .sgt arg11 c0_i32_102
  let v67 : BitVec 32 := Scalar.extui v66
  let c0_i32_103 : BitVec 32 := 0#32
  let v68 : BitVec 1 := Scalar.cmpi .slt arg11 c0_i32_103
  let v69 : BitVec 32 := Scalar.extui v68
  let v70 : BitVec 32 := Scalar.subi v67 v69
  let c8_i32_101 : BitVec 32 := 8#32
  let c0_i32_104 : BitVec 32 := 0#32
  let v71 : BitVec 1 := Scalar.cmpi .sgt c8_i32_101 c0_i32_104
  let v72 : BitVec 32 := Scalar.extui v71
  let c0_i32_105 : BitVec 32 := 0#32
  let v73 : BitVec 1 := Scalar.cmpi .slt c8_i32_101 c0_i32_105
  let v74 : BitVec 32 := Scalar.extui v73
  let v75 : BitVec 32 := Scalar.subi v72 v74
  let v76 : BitVec 1 := Scalar.cmpi .ne v70 v75
  let v77 : BitVec 32 := Scalar.remsi arg11 c8_i32_101
  let c0_i32_106 : BitVec 32 := 0#32
  let v78 : BitVec 1 := Scalar.cmpi .ne v77 c0_i32_106
  let v79 : BitVec 1 := Scalar.andi v76 v78
  let v65 : BitVec 32 := Scalar.divsi arg11 c8_i32_101
  let c1_i32_107 : BitVec 32 := 1#32
  let v80 : BitVec 32 := Scalar.subi v65 c1_i32_107
  let v81 : BitVec 32 := Scalar.select v79 v80 v65
  let v82 : BitVec 32 := Scalar.addi c24_i32_108 v81
  let v112 : Index := Scalar.indexCast v82
  let c8_i32_109 : BitVec 32 := 8#32
  let c0_i32_110 : BitVec 32 := 0#32
  let v83 : BitVec 1 := Scalar.cmpi .eq c8_i32_109 c0_i32_110
  let c1_i32_111 : BitVec 32 := 1#32
  let v84 : BitVec 32 := Scalar.select v83 c1_i32_111 c8_i32_109
  let v85 : BitVec 32 := Scalar.remsi arg11 v84
  let c0_i32_113 : BitVec 32 := 0#32
  let v87 : BitVec 1 := Scalar.cmpi .slt v85 c0_i32_113
  let c0_i32_114 : BitVec 32 := 0#32
  let v88 : BitVec 1 := Scalar.cmpi .slt v84 c0_i32_114
  let v89 : BitVec 1 := Scalar.xori v87 v88
  let c0_i32_112 : BitVec 32 := 0#32
  let v86 : BitVec 1 := Scalar.cmpi .ne v85 c0_i32_112
  let v90 : BitVec 1 := Scalar.andi v89 v86
  let v91 : BitVec 32 := Scalar.addi v85 v84
  let v92 : BitVec 32 := Scalar.select v90 v91 v85
  let c16_i32_115 : BitVec 32 := 16#32
  let v93 : BitVec 32 := Scalar.muli v92 c16_i32_115
  let v113 : Index := Scalar.indexCast v93
  ![v112.toNat, v113.toNat]

def k0_chk9 (v111 : IVec S16 32) (v114 : IVec S16 32) : Prop :=
  (∀ a x, ((![v111, v114] : Fin 2 → IVec S16 32) a x).toNat < S8x4096.size a)
instance k0_chk9.dec : ∀ (v111 : IVec S16 32) (v114 : IVec S16 32), Decidable (k0_chk9 v111 v114) := fun v111 v114 => decidable_of_iff' _ (Iff.of_eq (k0_chk9.eq_1 v111 v114))
theorem k0_idx9_inb : ∀ (v111 : IVec S16 32) (v114 : IVec S16 32) (k0_hw9 : k0_chk9 v111 v114), ∀ a x, ((![v111, v114] : Fin 2 → IVec S16 32) a x).toNat < S8x4096.size a := fun v111 v114 k0_hw9 => k0_hw9
@[reducible] def k0_t14_loop : Scf.Loop 32 :=
  let c0_i32_86 : BitVec 32 := 0#32
  let c64_i32_87 : BitVec 32 := 64#32
  let v52 : BitVec 32 := Scalar.addi c0_i32_86 c64_i32_87
  let c1_i32_88 : BitVec 32 := 1#32
  ⟨c0_i32_86, v52, c1_i32_88⟩
def k0_off14 (k0_t14 : Fin k0_t14_loop.trips) : Fin 2 → Nat :=
  let c40_i32_108 : BitVec 32 := 40#32
  let c0_i32_86 : BitVec 32 := 0#32
  let c1_i32_88 : BitVec 32 := 1#32
  let arg11 : BitVec 32 := Scf.iv c0_i32_86 c1_i32_88 k0_t14
  let c0_i32_102 : BitVec 32 := 0#32
  let v66 : BitVec 1 := Scalar.cmpi .sgt arg11 c0_i32_102
  let v67 : BitVec 32 := Scalar.extui v66
  let c0_i32_103 : BitVec 32 := 0#32
  let v68 : BitVec 1 := Scalar.cmpi .slt arg11 c0_i32_103
  let v69 : BitVec 32 := Scalar.extui v68
  let v70 : BitVec 32 := Scalar.subi v67 v69
  let c8_i32_101 : BitVec 32 := 8#32
  let c0_i32_104 : BitVec 32 := 0#32
  let v71 : BitVec 1 := Scalar.cmpi .sgt c8_i32_101 c0_i32_104
  let v72 : BitVec 32 := Scalar.extui v71
  let c0_i32_105 : BitVec 32 := 0#32
  let v73 : BitVec 1 := Scalar.cmpi .slt c8_i32_101 c0_i32_105
  let v74 : BitVec 32 := Scalar.extui v73
  let v75 : BitVec 32 := Scalar.subi v72 v74
  let v76 : BitVec 1 := Scalar.cmpi .ne v70 v75
  let v77 : BitVec 32 := Scalar.remsi arg11 c8_i32_101
  let c0_i32_106 : BitVec 32 := 0#32
  let v78 : BitVec 1 := Scalar.cmpi .ne v77 c0_i32_106
  let v79 : BitVec 1 := Scalar.andi v76 v78
  let v65 : BitVec 32 := Scalar.divsi arg11 c8_i32_101
  let c1_i32_107 : BitVec 32 := 1#32
  let v80 : BitVec 32 := Scalar.subi v65 c1_i32_107
  let v81 : BitVec 32 := Scalar.select v79 v80 v65
  let v82 : BitVec 32 := Scalar.addi c40_i32_108 v81
  let v112 : Index := Scalar.indexCast v82
  let c8_i32_109 : BitVec 32 := 8#32
  let c0_i32_110 : BitVec 32 := 0#32
  let v83 : BitVec 1 := Scalar.cmpi .eq c8_i32_109 c0_i32_110
  let c1_i32_111 : BitVec 32 := 1#32
  let v84 : BitVec 32 := Scalar.select v83 c1_i32_111 c8_i32_109
  let v85 : BitVec 32 := Scalar.remsi arg11 v84
  let c0_i32_113 : BitVec 32 := 0#32
  let v87 : BitVec 1 := Scalar.cmpi .slt v85 c0_i32_113
  let c0_i32_114 : BitVec 32 := 0#32
  let v88 : BitVec 1 := Scalar.cmpi .slt v84 c0_i32_114
  let v89 : BitVec 1 := Scalar.xori v87 v88
  let c0_i32_112 : BitVec 32 := 0#32
  let v86 : BitVec 1 := Scalar.cmpi .ne v85 c0_i32_112
  let v90 : BitVec 1 := Scalar.andi v89 v86
  let v91 : BitVec 32 := Scalar.addi v85 v84
  let v92 : BitVec 32 := Scalar.select v90 v91 v85
  let c16_i32_115 : BitVec 32 := 16#32
  let v93 : BitVec 32 := Scalar.muli v92 c16_i32_115
  let v113 : Index := Scalar.indexCast v93
  ![v112.toNat, v113.toNat]

def k0_chk10 (v111 : IVec S16 32) (v114 : IVec S16 32) : Prop :=
  (∀ a x, ((![v111, v114] : Fin 2 → IVec S16 32) a x).toNat < S8x4096.size a)
instance k0_chk10.dec : ∀ (v111 : IVec S16 32) (v114 : IVec S16 32), Decidable (k0_chk10 v111 v114) := fun v111 v114 => decidable_of_iff' _ (Iff.of_eq (k0_chk10.eq_1 v111 v114))
theorem k0_idx10_inb : ∀ (v111 : IVec S16 32) (v114 : IVec S16 32) (k0_hw10 : k0_chk10 v111 v114), ∀ a x, ((![v111, v114] : Fin 2 → IVec S16 32) a x).toNat < S8x4096.size a := fun v111 v114 k0_hw10 => k0_hw10
abbrev grid1 : Pipeline.Grid := ⟨1, ![6], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage1_0 : Fin 1 → Memref sig .tc .vmem S2048x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![2, 16], ![false, false]⟩

def k2_off1 (i : grid2.Coords) : Fin 2 → Nat :=
  let c1536_i32 : BitVec 32 := 1536#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c80_i32 : BitVec 32 := 80#32
  let v2 : BitVec 32 := Scalar.muli v1 c80_i32
  let v3 : BitVec 32 := Scalar.addi c1536_i32 v2
  let c0_i32_169_r0 : BitVec 32 := 0#32
  ![v3.toNat, 0]
@[reducible] def k2_t1_loop : Scf.Loop 32 :=
  let c0_i32_0 : BitVec 32 := 0#32
  let c8_i32 : BitVec 32 := 8#32
  let v5 : BitVec 32 := Scalar.addi c0_i32_0 c8_i32
  let c1_i32 : BitVec 32 := 1#32
  ⟨c0_i32_0, v5, c1_i32⟩
@[reducible] def k2_t2_loop : Scf.Loop 32 :=
  let c0_i32_170 : BitVec 32 := 0#32
  let c32_i32_171 : BitVec 32 := 32#32
  let v105 : BitVec 32 := Scalar.addi c0_i32_170 c32_i32_171
  let c1_i32_172 : BitVec 32 := 1#32
  ⟨c0_i32_170, v105, c1_i32_172⟩
def k2_off2 (k2_t1 : Fin k2_t1_loop.trips) (k2_t2 : Fin k2_t2_loop.trips) (c0_i32_174 : BitVec 32) : Fin 2 → Nat :=
  let c0_i32_0 : BitVec 32 := 0#32
  let c1_i32 : BitVec 32 := 1#32
  let arg11 : BitVec 32 := Scf.iv c0_i32_0 c1_i32 k2_t1
  let v108 : Index := Scalar.indexCast arg11
  let c0_i32_170 : BitVec 32 := 0#32
  let c1_i32_172 : BitVec 32 := 1#32
  let arg12 : BitVec 32 := Scf.iv c0_i32_170 c1_i32_172 k2_t2
  let c128_i32 : BitVec 32 := 128#32
  let v106 : BitVec 32 := Scalar.muli arg12 c128_i32
  let v107 : BitVec 32 := Scalar.addi v106 c0_i32_174
  let v109 : Index := Scalar.indexCast v107
  ![v108.toNat, v109.toNat]
@[reducible] def k2_t3_loop : Scf.Loop 32 :=
  let c0_i32_3 : BitVec 32 := 0#32
  let c8_i32_4 : BitVec 32 := 8#32
  let v6 : BitVec 32 := Scalar.addi c0_i32_3 c8_i32_4
  let c1_i32_5 : BitVec 32 := 1#32
  ⟨c0_i32_3, v6, c1_i32_5⟩
@[reducible] def k2_t4_loop : Scf.Loop 32 :=
  let c0_i32_170 : BitVec 32 := 0#32
  let c32_i32_171 : BitVec 32 := 32#32
  let v105 : BitVec 32 := Scalar.addi c0_i32_170 c32_i32_171
  let c1_i32_172 : BitVec 32 := 1#32
  ⟨c0_i32_170, v105, c1_i32_172⟩
def k2_off3 (k2_t3 : Fin k2_t3_loop.trips) (k2_t4 : Fin k2_t4_loop.trips) (c0_i32_174 : BitVec 32) : Fin 2 → Nat :=
  let c0_i32_3 : BitVec 32 := 0#32
  let c1_i32_5 : BitVec 32 := 1#32
  let arg11 : BitVec 32 := Scf.iv c0_i32_3 c1_i32_5 k2_t3
  let v108 : Index := Scalar.indexCast arg11
  let c0_i32_170 : BitVec 32 := 0#32
  let c1_i32_172 : BitVec 32 := 1#32
  let arg12 : BitVec 32 := Scf.iv c0_i32_170 c1_i32_172 k2_t4
  let c128_i32 : BitVec 32 := 128#32
  let v106 : BitVec 32 := Scalar.muli arg12 c128_i32
  let v107 : BitVec 32 := Scalar.addi v106 c0_i32_174
  let v109 : Index := Scalar.indexCast v107
  ![v108.toNat, v109.toNat]
@[reducible] def k2_t5_loop : Scf.Loop 32 :=
  let c0_i32_8 : BitVec 32 := 0#32
  let c64_i32 : BitVec 32 := 64#32
  let v7 : BitVec 32 := Scalar.addi c0_i32_8 c64_i32
  let c1_i32_9 : BitVec 32 := 1#32
  ⟨c0_i32_8, v7, c1_i32_9⟩
def k2_off4 (k2_t5 : Fin k2_t5_loop.trips) : Fin 2 → Nat :=
  let c0_i32_176 : BitVec 32 := 0#32
  let c0_i32_8 : BitVec 32 := 0#32
  let c1_i32_9 : BitVec 32 := 1#32
  let arg11 : BitVec 32 := Scf.iv c0_i32_8 c1_i32_9 k2_t5
  let c0_i32_170 : BitVec 32 := 0#32
  let v106 : BitVec 1 := Scalar.cmpi .sgt arg11 c0_i32_170
  let v107 : BitVec 32 := Scalar.extui v106
  let c0_i32_171 : BitVec 32 := 0#32
  let v108 : BitVec 1 := Scalar.cmpi .slt arg11 c0_i32_171
  let v109 : BitVec 32 := Scalar.extui v108
  let v110 : BitVec 32 := Scalar.subi v107 v109
  let c8_i32_169 : BitVec 32 := 8#32
  let c0_i32_172 : BitVec 32 := 0#32
  let v111 : BitVec 1 := Scalar.cmpi .sgt c8_i32_169 c0_i32_172
  let v112 : BitVec 32 := Scalar.extui v111
  let c0_i32_173 : BitVec 32 := 0#32
  let v113 : BitVec 1 := Scalar.cmpi .slt c8_i32_169 c0_i32_173
  let v114 : BitVec 32 := Scalar.extui v113
  let v115 : BitVec 32 := Scalar.subi v112 v114
  let v116 : BitVec 1 := Scalar.cmpi .ne v110 v115
  let v117 : BitVec 32 := Scalar.remsi arg11 c8_i32_169
  let c0_i32_174 : BitVec 32 := 0#32
  let v118 : BitVec 1 := Scalar.cmpi .ne v117 c0_i32_174
  let v119 : BitVec 1 := Scalar.andi v116 v118
  let v105 : BitVec 32 := Scalar.divsi arg11 c8_i32_169
  let c1_i32_175 : BitVec 32 := 1#32
  let v120 : BitVec 32 := Scalar.subi v105 c1_i32_175
  let v121 : BitVec 32 := Scalar.select v119 v120 v105
  let v122 : BitVec 32 := Scalar.addi c0_i32_176 v121
  let v152 : Index := Scalar.indexCast v122
  let c8_i32_177 : BitVec 32 := 8#32
  let c0_i32_178 : BitVec 32 := 0#32
  let v123 : BitVec 1 := Scalar.cmpi .eq c8_i32_177 c0_i32_178
  let c1_i32_179 : BitVec 32 := 1#32
  let v124 : BitVec 32 := Scalar.select v123 c1_i32_179 c8_i32_177
  let v125 : BitVec 32 := Scalar.remsi arg11 v124
  let c0_i32_181 : BitVec 32 := 0#32
  let v127 : BitVec 1 := Scalar.cmpi .slt v125 c0_i32_181
  let c0_i32_182 : BitVec 32 := 0#32
  let v128 : BitVec 1 := Scalar.cmpi .slt v124 c0_i32_182
  let v129 : BitVec 1 := Scalar.xori v127 v128
  let c0_i32_180 : BitVec 32 := 0#32
  let v126 : BitVec 1 := Scalar.cmpi .ne v125 c0_i32_180
  let v130 : BitVec 1 := Scalar.andi v129 v126
  let v131 : BitVec 32 := Scalar.addi v125 v124
  let v132 : BitVec 32 := Scalar.select v130 v131 v125
  let c16_i32_183 : BitVec 32 := 16#32
  let v133 : BitVec 32 := Scalar.muli v132 c16_i32_183
  let v153 : Index := Scalar.indexCast v133
  ![v152.toNat, v153.toNat]

def k2_chk1 (v151 : IVec S16 32) (v154 : IVec S16 32) : Prop :=
  (∀ a x, ((![v151, v154] : Fin 2 → IVec S16 32) a x).toNat < S8x4096.size a)
instance k2_chk1.dec : ∀ (v151 : IVec S16 32) (v154 : IVec S16 32), Decidable (k2_chk1 v151 v154) := fun v151 v154 => decidable_of_iff' _ (Iff.of_eq (k2_chk1.eq_1 v151 v154))
theorem k2_idx1_inb : ∀ (v151 : IVec S16 32) (v154 : IVec S16 32) (k2_hw1 : k2_chk1 v151 v154), ∀ a x, ((![v151, v154] : Fin 2 → IVec S16 32) a x).toNat < S8x4096.size a := fun v151 v154 k2_hw1 => k2_hw1
def k2_off5 (i : grid2.Coords) (c0_i32_12 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c80_i32_11 : BitVec 32 := 80#32
  let v8 : BitVec 32 := Scalar.muli v1 c80_i32_11
  let v9 : BitVec 32 := Scalar.addi v8 c0_i32_12
  let c0_i32_13 : BitVec 32 := 0#32
  ![v9.toNat, 0]
@[reducible] def k2_t6_loop : Scf.Loop 32 :=
  let c0_i32_16 : BitVec 32 := 0#32
  let c64_i32_17 : BitVec 32 := 64#32
  let v12 : BitVec 32 := Scalar.addi c0_i32_16 c64_i32_17
  let c1_i32_18 : BitVec 32 := 1#32
  ⟨c0_i32_16, v12, c1_i32_18⟩
def k2_off6 (k2_t6 : Fin k2_t6_loop.trips) : Fin 2 → Nat :=
  let c8_i32_176 : BitVec 32 := 8#32
  let c0_i32_16 : BitVec 32 := 0#32
  let c1_i32_18 : BitVec 32 := 1#32
  let arg11 : BitVec 32 := Scf.iv c0_i32_16 c1_i32_18 k2_t6
  let c0_i32_170 : BitVec 32 := 0#32
  let v106 : BitVec 1 := Scalar.cmpi .sgt arg11 c0_i32_170
  let v107 : BitVec 32 := Scalar.extui v106
  let c0_i32_171 : BitVec 32 := 0#32
  let v108 : BitVec 1 := Scalar.cmpi .slt arg11 c0_i32_171
  let v109 : BitVec 32 := Scalar.extui v108
  let v110 : BitVec 32 := Scalar.subi v107 v109
  let c8_i32_169 : BitVec 32 := 8#32
  let c0_i32_172 : BitVec 32 := 0#32
  let v111 : BitVec 1 := Scalar.cmpi .sgt c8_i32_169 c0_i32_172
  let v112 : BitVec 32 := Scalar.extui v111
  let c0_i32_173 : BitVec 32 := 0#32
  let v113 : BitVec 1 := Scalar.cmpi .slt c8_i32_169 c0_i32_173
  let v114 : BitVec 32 := Scalar.extui v113
  let v115 : BitVec 32 := Scalar.subi v112 v114
  let v116 : BitVec 1 := Scalar.cmpi .ne v110 v115
  let v117 : BitVec 32 := Scalar.remsi arg11 c8_i32_169
  let c0_i32_174 : BitVec 32 := 0#32
  let v118 : BitVec 1 := Scalar.cmpi .ne v117 c0_i32_174
  let v119 : BitVec 1 := Scalar.andi v116 v118
  let v105 : BitVec 32 := Scalar.divsi arg11 c8_i32_169
  let c1_i32_175 : BitVec 32 := 1#32
  let v120 : BitVec 32 := Scalar.subi v105 c1_i32_175
  let v121 : BitVec 32 := Scalar.select v119 v120 v105
  let v122 : BitVec 32 := Scalar.addi c8_i32_176 v121
  let v152 : Index := Scalar.indexCast v122
  let c8_i32_177 : BitVec 32 := 8#32
  let c0_i32_178 : BitVec 32 := 0#32
  let v123 : BitVec 1 := Scalar.cmpi .eq c8_i32_177 c0_i32_178
  let c1_i32_179 : BitVec 32 := 1#32
  let v124 : BitVec 32 := Scalar.select v123 c1_i32_179 c8_i32_177
  let v125 : BitVec 32 := Scalar.remsi arg11 v124
  let c0_i32_181 : BitVec 32 := 0#32
  let v127 : BitVec 1 := Scalar.cmpi .slt v125 c0_i32_181
  let c0_i32_182 : BitVec 32 := 0#32
  let v128 : BitVec 1 := Scalar.cmpi .slt v124 c0_i32_182
  let v129 : BitVec 1 := Scalar.xori v127 v128
  let c0_i32_180 : BitVec 32 := 0#32
  let v126 : BitVec 1 := Scalar.cmpi .ne v125 c0_i32_180
  let v130 : BitVec 1 := Scalar.andi v129 v126
  let v131 : BitVec 32 := Scalar.addi v125 v124
  let v132 : BitVec 32 := Scalar.select v130 v131 v125
  let c16_i32_183 : BitVec 32 := 16#32
  let v133 : BitVec 32 := Scalar.muli v132 c16_i32_183
  let v153 : Index := Scalar.indexCast v133
  ![v152.toNat, v153.toNat]

def k2_chk2 (v151 : IVec S16 32) (v154 : IVec S16 32) : Prop :=
  (∀ a x, ((![v151, v154] : Fin 2 → IVec S16 32) a x).toNat < S8x4096.size a)
instance k2_chk2.dec : ∀ (v151 : IVec S16 32) (v154 : IVec S16 32), Decidable (k2_chk2 v151 v154) := fun v151 v154 => decidable_of_iff' _ (Iff.of_eq (k2_chk2.eq_1 v151 v154))
theorem k2_idx2_inb : ∀ (v151 : IVec S16 32) (v154 : IVec S16 32) (k2_hw2 : k2_chk2 v151 v154), ∀ a x, ((![v151, v154] : Fin 2 → IVec S16 32) a x).toNat < S8x4096.size a := fun v151 v154 k2_hw2 => k2_hw2
@[reducible] def k2_t7_loop : Scf.Loop 32 :=
  let c0_i32_29 : BitVec 32 := 0#32
  let c64_i32_30 : BitVec 32 := 64#32
  let v21 : BitVec 32 := Scalar.addi c0_i32_29 c64_i32_30
  let c1_i32_31 : BitVec 32 := 1#32
  ⟨c0_i32_29, v21, c1_i32_31⟩
def k2_off7 (k2_t7 : Fin k2_t7_loop.trips) : Fin 2 → Nat :=
  let c0_i32_176 : BitVec 32 := 0#32
  let c0_i32_29 : BitVec 32 := 0#32
  let c1_i32_31 : BitVec 32 := 1#32
  let arg11 : BitVec 32 := Scf.iv c0_i32_29 c1_i32_31 k2_t7
  let c0_i32_170 : BitVec 32 := 0#32
  let v106 : BitVec 1 := Scalar.cmpi .sgt arg11 c0_i32_170
  let v107 : BitVec 32 := Scalar.extui v106
  let c0_i32_171 : BitVec 32 := 0#32
  let v108 : BitVec 1 := Scalar.cmpi .slt arg11 c0_i32_171
  let v109 : BitVec 32 := Scalar.extui v108
  let v110 : BitVec 32 := Scalar.subi v107 v109
  let c8_i32_169 : BitVec 32 := 8#32
  let c0_i32_172 : BitVec 32 := 0#32
  let v111 : BitVec 1 := Scalar.cmpi .sgt c8_i32_169 c0_i32_172
  let v112 : BitVec 32 := Scalar.extui v111
  let c0_i32_173 : BitVec 32 := 0#32
  let v113 : BitVec 1 := Scalar.cmpi .slt c8_i32_169 c0_i32_173
  let v114 : BitVec 32 := Scalar.extui v113
  let v115 : BitVec 32 := Scalar.subi v112 v114
  let v116 : BitVec 1 := Scalar.cmpi .ne v110 v115
  let v117 : BitVec 32 := Scalar.remsi arg11 c8_i32_169
  let c0_i32_174 : BitVec 32 := 0#32
  let v118 : BitVec 1 := Scalar.cmpi .ne v117 c0_i32_174
  let v119 : BitVec 1 := Scalar.andi v116 v118
  let v105 : BitVec 32 := Scalar.divsi arg11 c8_i32_169
  let c1_i32_175 : BitVec 32 := 1#32
  let v120 : BitVec 32 := Scalar.subi v105 c1_i32_175
  let v121 : BitVec 32 := Scalar.select v119 v120 v105
  let v122 : BitVec 32 := Scalar.addi c0_i32_176 v121
  let v152 : Index := Scalar.indexCast v122
  let c8_i32_177 : BitVec 32 := 8#32
  let c0_i32_178 : BitVec 32 := 0#32
  let v123 : BitVec 1 := Scalar.cmpi .eq c8_i32_177 c0_i32_178
  let c1_i32_179 : BitVec 32 := 1#32
  let v124 : BitVec 32 := Scalar.select v123 c1_i32_179 c8_i32_177
  let v125 : BitVec 32 := Scalar.remsi arg11 v124
  let c0_i32_181 : BitVec 32 := 0#32
  let v127 : BitVec 1 := Scalar.cmpi .slt v125 c0_i32_181
  let c0_i32_182 : BitVec 32 := 0#32
  let v128 : BitVec 1 := Scalar.cmpi .slt v124 c0_i32_182
  let v129 : BitVec 1 := Scalar.xori v127 v128
  let c0_i32_180 : BitVec 32 := 0#32
  let v126 : BitVec 1 := Scalar.cmpi .ne v125 c0_i32_180
  let v130 : BitVec 1 := Scalar.andi v129 v126
  let v131 : BitVec 32 := Scalar.addi v125 v124
  let v132 : BitVec 32 := Scalar.select v130 v131 v125
  let c16_i32_183 : BitVec 32 := 16#32
  let v133 : BitVec 32 := Scalar.muli v132 c16_i32_183
  let v153 : Index := Scalar.indexCast v133
  ![v152.toNat, v153.toNat]

def k2_chk3 (v151 : IVec S16 32) (v154 : IVec S16 32) : Prop :=
  (∀ a x, ((![v151, v154] : Fin 2 → IVec S16 32) a x).toNat < S8x4096.size a)
instance k2_chk3.dec : ∀ (v151 : IVec S16 32) (v154 : IVec S16 32), Decidable (k2_chk3 v151 v154) := fun v151 v154 => decidable_of_iff' _ (Iff.of_eq (k2_chk3.eq_1 v151 v154))
theorem k2_idx3_inb : ∀ (v151 : IVec S16 32) (v154 : IVec S16 32) (k2_hw3 : k2_chk3 v151 v154), ∀ a x, ((![v151, v154] : Fin 2 → IVec S16 32) a x).toNat < S8x4096.size a := fun v151 v154 k2_hw3 => k2_hw3
@[reducible] def k2_t8_loop : Scf.Loop 32 :=
  let c0_i32_34 : BitVec 32 := 0#32
  let c64_i32_35 : BitVec 32 := 64#32
  let v22 : BitVec 32 := Scalar.addi c0_i32_34 c64_i32_35
  let c1_i32_36 : BitVec 32 := 1#32
  ⟨c0_i32_34, v22, c1_i32_36⟩
def k2_off8 (k2_t8 : Fin k2_t8_loop.trips) : Fin 2 → Nat :=
  let c16_i32_176 : BitVec 32 := 16#32
  let c0_i32_34 : BitVec 32 := 0#32
  let c1_i32_36 : BitVec 32 := 1#32
  let arg11 : BitVec 32 := Scf.iv c0_i32_34 c1_i32_36 k2_t8
  let c0_i32_170 : BitVec 32 := 0#32
  let v106 : BitVec 1 := Scalar.cmpi .sgt arg11 c0_i32_170
  let v107 : BitVec 32 := Scalar.extui v106
  let c0_i32_171 : BitVec 32 := 0#32
  let v108 : BitVec 1 := Scalar.cmpi .slt arg11 c0_i32_171
  let v109 : BitVec 32 := Scalar.extui v108
  let v110 : BitVec 32 := Scalar.subi v107 v109
  let c8_i32_169 : BitVec 32 := 8#32
  let c0_i32_172 : BitVec 32 := 0#32
  let v111 : BitVec 1 := Scalar.cmpi .sgt c8_i32_169 c0_i32_172
  let v112 : BitVec 32 := Scalar.extui v111
  let c0_i32_173 : BitVec 32 := 0#32
  let v113 : BitVec 1 := Scalar.cmpi .slt c8_i32_169 c0_i32_173
  let v114 : BitVec 32 := Scalar.extui v113
  let v115 : BitVec 32 := Scalar.subi v112 v114
  let v116 : BitVec 1 := Scalar.cmpi .ne v110 v115
  let v117 : BitVec 32 := Scalar.remsi arg11 c8_i32_169
  let c0_i32_174 : BitVec 32 := 0#32
  let v118 : BitVec 1 := Scalar.cmpi .ne v117 c0_i32_174
  let v119 : BitVec 1 := Scalar.andi v116 v118
  let v105 : BitVec 32 := Scalar.divsi arg11 c8_i32_169
  let c1_i32_175 : BitVec 32 := 1#32
  let v120 : BitVec 32 := Scalar.subi v105 c1_i32_175
  let v121 : BitVec 32 := Scalar.select v119 v120 v105
  let v122 : BitVec 32 := Scalar.addi c16_i32_176 v121
  let v152 : Index := Scalar.indexCast v122
  let c8_i32_177 : BitVec 32 := 8#32
  let c0_i32_178 : BitVec 32 := 0#32
  let v123 : BitVec 1 := Scalar.cmpi .eq c8_i32_177 c0_i32_178
  let c1_i32_179 : BitVec 32 := 1#32
  let v124 : BitVec 32 := Scalar.select v123 c1_i32_179 c8_i32_177
  let v125 : BitVec 32 := Scalar.remsi arg11 v124
  let c0_i32_181 : BitVec 32 := 0#32
  let v127 : BitVec 1 := Scalar.cmpi .slt v125 c0_i32_181
  let c0_i32_182 : BitVec 32 := 0#32
  let v128 : BitVec 1 := Scalar.cmpi .slt v124 c0_i32_182
  let v129 : BitVec 1 := Scalar.xori v127 v128
  let c0_i32_180 : BitVec 32 := 0#32
  let v126 : BitVec 1 := Scalar.cmpi .ne v125 c0_i32_180
  let v130 : BitVec 1 := Scalar.andi v129 v126
  let v131 : BitVec 32 := Scalar.addi v125 v124
  let v132 : BitVec 32 := Scalar.select v130 v131 v125
  let c16_i32_183 : BitVec 32 := 16#32
  let v133 : BitVec 32 := Scalar.muli v132 c16_i32_183
  let v153 : Index := Scalar.indexCast v133
  ![v152.toNat, v153.toNat]

def k2_chk4 (v151 : IVec S16 32) (v154 : IVec S16 32) : Prop :=
  (∀ a x, ((![v151, v154] : Fin 2 → IVec S16 32) a x).toNat < S8x4096.size a)
instance k2_chk4.dec : ∀ (v151 : IVec S16 32) (v154 : IVec S16 32), Decidable (k2_chk4 v151 v154) := fun v151 v154 => decidable_of_iff' _ (Iff.of_eq (k2_chk4.eq_1 v151 v154))
theorem k2_idx4_inb : ∀ (v151 : IVec S16 32) (v154 : IVec S16 32) (k2_hw4 : k2_chk4 v151 v154), ∀ a x, ((![v151, v154] : Fin 2 → IVec S16 32) a x).toNat < S8x4096.size a := fun v151 v154 k2_hw4 => k2_hw4
@[reducible] def k2_t9_loop : Scf.Loop 32 :=
  let c0_i32_46 : BitVec 32 := 0#32
  let c64_i32_47 : BitVec 32 := 64#32
  let v31 : BitVec 32 := Scalar.addi c0_i32_46 c64_i32_47
  let c1_i32_48 : BitVec 32 := 1#32
  ⟨c0_i32_46, v31, c1_i32_48⟩
def k2_off9 (k2_t9 : Fin k2_t9_loop.trips) : Fin 2 → Nat :=
  let c8_i32_176 : BitVec 32 := 8#32
  let c0_i32_46 : BitVec 32 := 0#32
  let c1_i32_48 : BitVec 32 := 1#32
  let arg11 : BitVec 32 := Scf.iv c0_i32_46 c1_i32_48 k2_t9
  let c0_i32_170 : BitVec 32 := 0#32
  let v106 : BitVec 1 := Scalar.cmpi .sgt arg11 c0_i32_170
  let v107 : BitVec 32 := Scalar.extui v106
  let c0_i32_171 : BitVec 32 := 0#32
  let v108 : BitVec 1 := Scalar.cmpi .slt arg11 c0_i32_171
  let v109 : BitVec 32 := Scalar.extui v108
  let v110 : BitVec 32 := Scalar.subi v107 v109
  let c8_i32_169 : BitVec 32 := 8#32
  let c0_i32_172 : BitVec 32 := 0#32
  let v111 : BitVec 1 := Scalar.cmpi .sgt c8_i32_169 c0_i32_172
  let v112 : BitVec 32 := Scalar.extui v111
  let c0_i32_173 : BitVec 32 := 0#32
  let v113 : BitVec 1 := Scalar.cmpi .slt c8_i32_169 c0_i32_173
  let v114 : BitVec 32 := Scalar.extui v113
  let v115 : BitVec 32 := Scalar.subi v112 v114
  let v116 : BitVec 1 := Scalar.cmpi .ne v110 v115
  let v117 : BitVec 32 := Scalar.remsi arg11 c8_i32_169
  let c0_i32_174 : BitVec 32 := 0#32
  let v118 : BitVec 1 := Scalar.cmpi .ne v117 c0_i32_174
  let v119 : BitVec 1 := Scalar.andi v116 v118
  let v105 : BitVec 32 := Scalar.divsi arg11 c8_i32_169
  let c1_i32_175 : BitVec 32 := 1#32
  let v120 : BitVec 32 := Scalar.subi v105 c1_i32_175
  let v121 : BitVec 32 := Scalar.select v119 v120 v105
  let v122 : BitVec 32 := Scalar.addi c8_i32_176 v121
  let v152 : Index := Scalar.indexCast v122
  let c8_i32_177 : BitVec 32 := 8#32
  let c0_i32_178 : BitVec 32 := 0#32
  let v123 : BitVec 1 := Scalar.cmpi .eq c8_i32_177 c0_i32_178
  let c1_i32_179 : BitVec 32 := 1#32
  let v124 : BitVec 32 := Scalar.select v123 c1_i32_179 c8_i32_177
  let v125 : BitVec 32 := Scalar.remsi arg11 v124
  let c0_i32_181 : BitVec 32 := 0#32
  let v127 : BitVec 1 := Scalar.cmpi .slt v125 c0_i32_181
  let c0_i32_182 : BitVec 32 := 0#32
  let v128 : BitVec 1 := Scalar.cmpi .slt v124 c0_i32_182
  let v129 : BitVec 1 := Scalar.xori v127 v128
  let c0_i32_180 : BitVec 32 := 0#32
  let v126 : BitVec 1 := Scalar.cmpi .ne v125 c0_i32_180
  let v130 : BitVec 1 := Scalar.andi v129 v126
  let v131 : BitVec 32 := Scalar.addi v125 v124
  let v132 : BitVec 32 := Scalar.select v130 v131 v125
  let c16_i32_183 : BitVec 32 := 16#32
  let v133 : BitVec 32 := Scalar.muli v132 c16_i32_183
  let v153 : Index := Scalar.indexCast v133
  ![v152.toNat, v153.toNat]

def k2_chk5 (v151 : IVec S16 32) (v154 : IVec S16 32) : Prop :=
  (∀ a x, ((![v151, v154] : Fin 2 → IVec S16 32) a x).toNat < S8x4096.size a)
instance k2_chk5.dec : ∀ (v151 : IVec S16 32) (v154 : IVec S16 32), Decidable (k2_chk5 v151 v154) := fun v151 v154 => decidable_of_iff' _ (Iff.of_eq (k2_chk5.eq_1 v151 v154))
theorem k2_idx5_inb : ∀ (v151 : IVec S16 32) (v154 : IVec S16 32) (k2_hw5 : k2_chk5 v151 v154), ∀ a x, ((![v151, v154] : Fin 2 → IVec S16 32) a x).toNat < S8x4096.size a := fun v151 v154 k2_hw5 => k2_hw5
@[reducible] def k2_t10_loop : Scf.Loop 32 :=
  let c0_i32_51 : BitVec 32 := 0#32
  let c64_i32_52 : BitVec 32 := 64#32
  let v32 : BitVec 32 := Scalar.addi c0_i32_51 c64_i32_52
  let c1_i32_53 : BitVec 32 := 1#32
  ⟨c0_i32_51, v32, c1_i32_53⟩
def k2_off10 (k2_t10 : Fin k2_t10_loop.trips) : Fin 2 → Nat :=
  let c24_i32_176 : BitVec 32 := 24#32
  let c0_i32_51 : BitVec 32 := 0#32
  let c1_i32_53 : BitVec 32 := 1#32
  let arg11 : BitVec 32 := Scf.iv c0_i32_51 c1_i32_53 k2_t10
  let c0_i32_170 : BitVec 32 := 0#32
  let v106 : BitVec 1 := Scalar.cmpi .sgt arg11 c0_i32_170
  let v107 : BitVec 32 := Scalar.extui v106
  let c0_i32_171 : BitVec 32 := 0#32
  let v108 : BitVec 1 := Scalar.cmpi .slt arg11 c0_i32_171
  let v109 : BitVec 32 := Scalar.extui v108
  let v110 : BitVec 32 := Scalar.subi v107 v109
  let c8_i32_169 : BitVec 32 := 8#32
  let c0_i32_172 : BitVec 32 := 0#32
  let v111 : BitVec 1 := Scalar.cmpi .sgt c8_i32_169 c0_i32_172
  let v112 : BitVec 32 := Scalar.extui v111
  let c0_i32_173 : BitVec 32 := 0#32
  let v113 : BitVec 1 := Scalar.cmpi .slt c8_i32_169 c0_i32_173
  let v114 : BitVec 32 := Scalar.extui v113
  let v115 : BitVec 32 := Scalar.subi v112 v114
  let v116 : BitVec 1 := Scalar.cmpi .ne v110 v115
  let v117 : BitVec 32 := Scalar.remsi arg11 c8_i32_169
  let c0_i32_174 : BitVec 32 := 0#32
  let v118 : BitVec 1 := Scalar.cmpi .ne v117 c0_i32_174
  let v119 : BitVec 1 := Scalar.andi v116 v118
  let v105 : BitVec 32 := Scalar.divsi arg11 c8_i32_169
  let c1_i32_175 : BitVec 32 := 1#32
  let v120 : BitVec 32 := Scalar.subi v105 c1_i32_175
  let v121 : BitVec 32 := Scalar.select v119 v120 v105
  let v122 : BitVec 32 := Scalar.addi c24_i32_176 v121
  let v152 : Index := Scalar.indexCast v122
  let c8_i32_177 : BitVec 32 := 8#32
  let c0_i32_178 : BitVec 32 := 0#32
  let v123 : BitVec 1 := Scalar.cmpi .eq c8_i32_177 c0_i32_178
  let c1_i32_179 : BitVec 32 := 1#32
  let v124 : BitVec 32 := Scalar.select v123 c1_i32_179 c8_i32_177
  let v125 : BitVec 32 := Scalar.remsi arg11 v124
  let c0_i32_181 : BitVec 32 := 0#32
  let v127 : BitVec 1 := Scalar.cmpi .slt v125 c0_i32_181
  let c0_i32_182 : BitVec 32 := 0#32
  let v128 : BitVec 1 := Scalar.cmpi .slt v124 c0_i32_182
  let v129 : BitVec 1 := Scalar.xori v127 v128
  let c0_i32_180 : BitVec 32 := 0#32
  let v126 : BitVec 1 := Scalar.cmpi .ne v125 c0_i32_180
  let v130 : BitVec 1 := Scalar.andi v129 v126
  let v131 : BitVec 32 := Scalar.addi v125 v124
  let v132 : BitVec 32 := Scalar.select v130 v131 v125
  let c16_i32_183 : BitVec 32 := 16#32
  let v133 : BitVec 32 := Scalar.muli v132 c16_i32_183
  let v153 : Index := Scalar.indexCast v133
  ![v152.toNat, v153.toNat]

def k2_chk6 (v151 : IVec S16 32) (v154 : IVec S16 32) : Prop :=
  (∀ a x, ((![v151, v154] : Fin 2 → IVec S16 32) a x).toNat < S8x4096.size a)
instance k2_chk6.dec : ∀ (v151 : IVec S16 32) (v154 : IVec S16 32), Decidable (k2_chk6 v151 v154) := fun v151 v154 => decidable_of_iff' _ (Iff.of_eq (k2_chk6.eq_1 v151 v154))
theorem k2_idx6_inb : ∀ (v151 : IVec S16 32) (v154 : IVec S16 32) (k2_hw6 : k2_chk6 v151 v154), ∀ a x, ((![v151, v154] : Fin 2 → IVec S16 32) a x).toNat < S8x4096.size a := fun v151 v154 k2_hw6 => k2_hw6
@[reducible] def k2_t11_loop : Scf.Loop 32 :=
  let c0_i32_63 : BitVec 32 := 0#32
  let c64_i32_64 : BitVec 32 := 64#32
  let v41 : BitVec 32 := Scalar.addi c0_i32_63 c64_i32_64
  let c1_i32_65 : BitVec 32 := 1#32
  ⟨c0_i32_63, v41, c1_i32_65⟩
def k2_off11 (k2_t11 : Fin k2_t11_loop.trips) : Fin 2 → Nat :=
  let c16_i32_176 : BitVec 32 := 16#32
  let c0_i32_63 : BitVec 32 := 0#32
  let c1_i32_65 : BitVec 32 := 1#32
  let arg11 : BitVec 32 := Scf.iv c0_i32_63 c1_i32_65 k2_t11
  let c0_i32_170 : BitVec 32 := 0#32
  let v106 : BitVec 1 := Scalar.cmpi .sgt arg11 c0_i32_170
  let v107 : BitVec 32 := Scalar.extui v106
  let c0_i32_171 : BitVec 32 := 0#32
  let v108 : BitVec 1 := Scalar.cmpi .slt arg11 c0_i32_171
  let v109 : BitVec 32 := Scalar.extui v108
  let v110 : BitVec 32 := Scalar.subi v107 v109
  let c8_i32_169 : BitVec 32 := 8#32
  let c0_i32_172 : BitVec 32 := 0#32
  let v111 : BitVec 1 := Scalar.cmpi .sgt c8_i32_169 c0_i32_172
  let v112 : BitVec 32 := Scalar.extui v111
  let c0_i32_173 : BitVec 32 := 0#32
  let v113 : BitVec 1 := Scalar.cmpi .slt c8_i32_169 c0_i32_173
  let v114 : BitVec 32 := Scalar.extui v113
  let v115 : BitVec 32 := Scalar.subi v112 v114
  let v116 : BitVec 1 := Scalar.cmpi .ne v110 v115
  let v117 : BitVec 32 := Scalar.remsi arg11 c8_i32_169
  let c0_i32_174 : BitVec 32 := 0#32
  let v118 : BitVec 1 := Scalar.cmpi .ne v117 c0_i32_174
  let v119 : BitVec 1 := Scalar.andi v116 v118
  let v105 : BitVec 32 := Scalar.divsi arg11 c8_i32_169
  let c1_i32_175 : BitVec 32 := 1#32
  let v120 : BitVec 32 := Scalar.subi v105 c1_i32_175
  let v121 : BitVec 32 := Scalar.select v119 v120 v105
  let v122 : BitVec 32 := Scalar.addi c16_i32_176 v121
  let v152 : Index := Scalar.indexCast v122
  let c8_i32_177 : BitVec 32 := 8#32
  let c0_i32_178 : BitVec 32 := 0#32
  let v123 : BitVec 1 := Scalar.cmpi .eq c8_i32_177 c0_i32_178
  let c1_i32_179 : BitVec 32 := 1#32
  let v124 : BitVec 32 := Scalar.select v123 c1_i32_179 c8_i32_177
  let v125 : BitVec 32 := Scalar.remsi arg11 v124
  let c0_i32_181 : BitVec 32 := 0#32
  let v127 : BitVec 1 := Scalar.cmpi .slt v125 c0_i32_181
  let c0_i32_182 : BitVec 32 := 0#32
  let v128 : BitVec 1 := Scalar.cmpi .slt v124 c0_i32_182
  let v129 : BitVec 1 := Scalar.xori v127 v128
  let c0_i32_180 : BitVec 32 := 0#32
  let v126 : BitVec 1 := Scalar.cmpi .ne v125 c0_i32_180
  let v130 : BitVec 1 := Scalar.andi v129 v126
  let v131 : BitVec 32 := Scalar.addi v125 v124
  let v132 : BitVec 32 := Scalar.select v130 v131 v125
  let c16_i32_183 : BitVec 32 := 16#32
  let v133 : BitVec 32 := Scalar.muli v132 c16_i32_183
  let v153 : Index := Scalar.indexCast v133
  ![v152.toNat, v153.toNat]

def k2_chk7 (v151 : IVec S16 32) (v154 : IVec S16 32) : Prop :=
  (∀ a x, ((![v151, v154] : Fin 2 → IVec S16 32) a x).toNat < S8x4096.size a)
instance k2_chk7.dec : ∀ (v151 : IVec S16 32) (v154 : IVec S16 32), Decidable (k2_chk7 v151 v154) := fun v151 v154 => decidable_of_iff' _ (Iff.of_eq (k2_chk7.eq_1 v151 v154))
theorem k2_idx7_inb : ∀ (v151 : IVec S16 32) (v154 : IVec S16 32) (k2_hw7 : k2_chk7 v151 v154), ∀ a x, ((![v151, v154] : Fin 2 → IVec S16 32) a x).toNat < S8x4096.size a := fun v151 v154 k2_hw7 => k2_hw7
@[reducible] def k2_t12_loop : Scf.Loop 32 :=
  let c0_i32_68 : BitVec 32 := 0#32
  let c64_i32_69 : BitVec 32 := 64#32
  let v42 : BitVec 32 := Scalar.addi c0_i32_68 c64_i32_69
  let c1_i32_70 : BitVec 32 := 1#32
  ⟨c0_i32_68, v42, c1_i32_70⟩
def k2_off12 (k2_t12 : Fin k2_t12_loop.trips) : Fin 2 → Nat :=
  let c32_i32_176 : BitVec 32 := 32#32
  let c0_i32_68 : BitVec 32 := 0#32
  let c1_i32_70 : BitVec 32 := 1#32
  let arg11 : BitVec 32 := Scf.iv c0_i32_68 c1_i32_70 k2_t12
  let c0_i32_170 : BitVec 32 := 0#32
  let v106 : BitVec 1 := Scalar.cmpi .sgt arg11 c0_i32_170
  let v107 : BitVec 32 := Scalar.extui v106
  let c0_i32_171 : BitVec 32 := 0#32
  let v108 : BitVec 1 := Scalar.cmpi .slt arg11 c0_i32_171
  let v109 : BitVec 32 := Scalar.extui v108
  let v110 : BitVec 32 := Scalar.subi v107 v109
  let c8_i32_169 : BitVec 32 := 8#32
  let c0_i32_172 : BitVec 32 := 0#32
  let v111 : BitVec 1 := Scalar.cmpi .sgt c8_i32_169 c0_i32_172
  let v112 : BitVec 32 := Scalar.extui v111
  let c0_i32_173 : BitVec 32 := 0#32
  let v113 : BitVec 1 := Scalar.cmpi .slt c8_i32_169 c0_i32_173
  let v114 : BitVec 32 := Scalar.extui v113
  let v115 : BitVec 32 := Scalar.subi v112 v114
  let v116 : BitVec 1 := Scalar.cmpi .ne v110 v115
  let v117 : BitVec 32 := Scalar.remsi arg11 c8_i32_169
  let c0_i32_174 : BitVec 32 := 0#32
  let v118 : BitVec 1 := Scalar.cmpi .ne v117 c0_i32_174
  let v119 : BitVec 1 := Scalar.andi v116 v118
  let v105 : BitVec 32 := Scalar.divsi arg11 c8_i32_169
  let c1_i32_175 : BitVec 32 := 1#32
  let v120 : BitVec 32 := Scalar.subi v105 c1_i32_175
  let v121 : BitVec 32 := Scalar.select v119 v120 v105
  let v122 : BitVec 32 := Scalar.addi c32_i32_176 v121
  let v152 : Index := Scalar.indexCast v122
  let c8_i32_177 : BitVec 32 := 8#32
  let c0_i32_178 : BitVec 32 := 0#32
  let v123 : BitVec 1 := Scalar.cmpi .eq c8_i32_177 c0_i32_178
  let c1_i32_179 : BitVec 32 := 1#32
  let v124 : BitVec 32 := Scalar.select v123 c1_i32_179 c8_i32_177
  let v125 : BitVec 32 := Scalar.remsi arg11 v124
  let c0_i32_181 : BitVec 32 := 0#32
  let v127 : BitVec 1 := Scalar.cmpi .slt v125 c0_i32_181
  let c0_i32_182 : BitVec 32 := 0#32
  let v128 : BitVec 1 := Scalar.cmpi .slt v124 c0_i32_182
  let v129 : BitVec 1 := Scalar.xori v127 v128
  let c0_i32_180 : BitVec 32 := 0#32
  let v126 : BitVec 1 := Scalar.cmpi .ne v125 c0_i32_180
  let v130 : BitVec 1 := Scalar.andi v129 v126
  let v131 : BitVec 32 := Scalar.addi v125 v124
  let v132 : BitVec 32 := Scalar.select v130 v131 v125
  let c16_i32_183 : BitVec 32 := 16#32
  let v133 : BitVec 32 := Scalar.muli v132 c16_i32_183
  let v153 : Index := Scalar.indexCast v133
  ![v152.toNat, v153.toNat]

def k2_chk8 (v151 : IVec S16 32) (v154 : IVec S16 32) : Prop :=
  (∀ a x, ((![v151, v154] : Fin 2 → IVec S16 32) a x).toNat < S8x4096.size a)
instance k2_chk8.dec : ∀ (v151 : IVec S16 32) (v154 : IVec S16 32), Decidable (k2_chk8 v151 v154) := fun v151 v154 => decidable_of_iff' _ (Iff.of_eq (k2_chk8.eq_1 v151 v154))
theorem k2_idx8_inb : ∀ (v151 : IVec S16 32) (v154 : IVec S16 32) (k2_hw8 : k2_chk8 v151 v154), ∀ a x, ((![v151, v154] : Fin 2 → IVec S16 32) a x).toNat < S8x4096.size a := fun v151 v154 k2_hw8 => k2_hw8
@[reducible] def k2_t13_loop : Scf.Loop 32 :=
  let c0_i32_80 : BitVec 32 := 0#32
  let c64_i32_81 : BitVec 32 := 64#32
  let v51 : BitVec 32 := Scalar.addi c0_i32_80 c64_i32_81
  let c1_i32_82 : BitVec 32 := 1#32
  ⟨c0_i32_80, v51, c1_i32_82⟩
def k2_off13 (k2_t13 : Fin k2_t13_loop.trips) : Fin 2 → Nat :=
  let c24_i32_176 : BitVec 32 := 24#32
  let c0_i32_80 : BitVec 32 := 0#32
  let c1_i32_82 : BitVec 32 := 1#32
  let arg11 : BitVec 32 := Scf.iv c0_i32_80 c1_i32_82 k2_t13
  let c0_i32_170 : BitVec 32 := 0#32
  let v106 : BitVec 1 := Scalar.cmpi .sgt arg11 c0_i32_170
  let v107 : BitVec 32 := Scalar.extui v106
  let c0_i32_171 : BitVec 32 := 0#32
  let v108 : BitVec 1 := Scalar.cmpi .slt arg11 c0_i32_171
  let v109 : BitVec 32 := Scalar.extui v108
  let v110 : BitVec 32 := Scalar.subi v107 v109
  let c8_i32_169 : BitVec 32 := 8#32
  let c0_i32_172 : BitVec 32 := 0#32
  let v111 : BitVec 1 := Scalar.cmpi .sgt c8_i32_169 c0_i32_172
  let v112 : BitVec 32 := Scalar.extui v111
  let c0_i32_173 : BitVec 32 := 0#32
  let v113 : BitVec 1 := Scalar.cmpi .slt c8_i32_169 c0_i32_173
  let v114 : BitVec 32 := Scalar.extui v113
  let v115 : BitVec 32 := Scalar.subi v112 v114
  let v116 : BitVec 1 := Scalar.cmpi .ne v110 v115
  let v117 : BitVec 32 := Scalar.remsi arg11 c8_i32_169
  let c0_i32_174 : BitVec 32 := 0#32
  let v118 : BitVec 1 := Scalar.cmpi .ne v117 c0_i32_174
  let v119 : BitVec 1 := Scalar.andi v116 v118
  let v105 : BitVec 32 := Scalar.divsi arg11 c8_i32_169
  let c1_i32_175 : BitVec 32 := 1#32
  let v120 : BitVec 32 := Scalar.subi v105 c1_i32_175
  let v121 : BitVec 32 := Scalar.select v119 v120 v105
  let v122 : BitVec 32 := Scalar.addi c24_i32_176 v121
  let v152 : Index := Scalar.indexCast v122
  let c8_i32_177 : BitVec 32 := 8#32
  let c0_i32_178 : BitVec 32 := 0#32
  let v123 : BitVec 1 := Scalar.cmpi .eq c8_i32_177 c0_i32_178
  let c1_i32_179 : BitVec 32 := 1#32
  let v124 : BitVec 32 := Scalar.select v123 c1_i32_179 c8_i32_177
  let v125 : BitVec 32 := Scalar.remsi arg11 v124
  let c0_i32_181 : BitVec 32 := 0#32
  let v127 : BitVec 1 := Scalar.cmpi .slt v125 c0_i32_181
  let c0_i32_182 : BitVec 32 := 0#32
  let v128 : BitVec 1 := Scalar.cmpi .slt v124 c0_i32_182
  let v129 : BitVec 1 := Scalar.xori v127 v128
  let c0_i32_180 : BitVec 32 := 0#32
  let v126 : BitVec 1 := Scalar.cmpi .ne v125 c0_i32_180
  let v130 : BitVec 1 := Scalar.andi v129 v126
  let v131 : BitVec 32 := Scalar.addi v125 v124
  let v132 : BitVec 32 := Scalar.select v130 v131 v125
  let c16_i32_183 : BitVec 32 := 16#32
  let v133 : BitVec 32 := Scalar.muli v132 c16_i32_183
  let v153 : Index := Scalar.indexCast v133
  ![v152.toNat, v153.toNat]

def k2_chk9 (v151 : IVec S16 32) (v154 : IVec S16 32) : Prop :=
  (∀ a x, ((![v151, v154] : Fin 2 → IVec S16 32) a x).toNat < S8x4096.size a)
instance k2_chk9.dec : ∀ (v151 : IVec S16 32) (v154 : IVec S16 32), Decidable (k2_chk9 v151 v154) := fun v151 v154 => decidable_of_iff' _ (Iff.of_eq (k2_chk9.eq_1 v151 v154))
theorem k2_idx9_inb : ∀ (v151 : IVec S16 32) (v154 : IVec S16 32) (k2_hw9 : k2_chk9 v151 v154), ∀ a x, ((![v151, v154] : Fin 2 → IVec S16 32) a x).toNat < S8x4096.size a := fun v151 v154 k2_hw9 => k2_hw9
@[reducible] def k2_t14_loop : Scf.Loop 32 :=
  let c0_i32_85 : BitVec 32 := 0#32
  let c64_i32_86 : BitVec 32 := 64#32
  let v52 : BitVec 32 := Scalar.addi c0_i32_85 c64_i32_86
  let c1_i32_87 : BitVec 32 := 1#32
  ⟨c0_i32_85, v52, c1_i32_87⟩
def k2_off14 (k2_t14 : Fin k2_t14_loop.trips) : Fin 2 → Nat :=
  let c40_i32_176 : BitVec 32 := 40#32
  let c0_i32_85 : BitVec 32 := 0#32
  let c1_i32_87 : BitVec 32 := 1#32
  let arg11 : BitVec 32 := Scf.iv c0_i32_85 c1_i32_87 k2_t14
  let c0_i32_170 : BitVec 32 := 0#32
  let v106 : BitVec 1 := Scalar.cmpi .sgt arg11 c0_i32_170
  let v107 : BitVec 32 := Scalar.extui v106
  let c0_i32_171 : BitVec 32 := 0#32
  let v108 : BitVec 1 := Scalar.cmpi .slt arg11 c0_i32_171
  let v109 : BitVec 32 := Scalar.extui v108
  let v110 : BitVec 32 := Scalar.subi v107 v109
  let c8_i32_169 : BitVec 32 := 8#32
  let c0_i32_172 : BitVec 32 := 0#32
  let v111 : BitVec 1 := Scalar.cmpi .sgt c8_i32_169 c0_i32_172
  let v112 : BitVec 32 := Scalar.extui v111
  let c0_i32_173 : BitVec 32 := 0#32
  let v113 : BitVec 1 := Scalar.cmpi .slt c8_i32_169 c0_i32_173
  let v114 : BitVec 32 := Scalar.extui v113
  let v115 : BitVec 32 := Scalar.subi v112 v114
  let v116 : BitVec 1 := Scalar.cmpi .ne v110 v115
  let v117 : BitVec 32 := Scalar.remsi arg11 c8_i32_169
  let c0_i32_174 : BitVec 32 := 0#32
  let v118 : BitVec 1 := Scalar.cmpi .ne v117 c0_i32_174
  let v119 : BitVec 1 := Scalar.andi v116 v118
  let v105 : BitVec 32 := Scalar.divsi arg11 c8_i32_169
  let c1_i32_175 : BitVec 32 := 1#32
  let v120 : BitVec 32 := Scalar.subi v105 c1_i32_175
  let v121 : BitVec 32 := Scalar.select v119 v120 v105
  let v122 : BitVec 32 := Scalar.addi c40_i32_176 v121
  let v152 : Index := Scalar.indexCast v122
  let c8_i32_177 : BitVec 32 := 8#32
  let c0_i32_178 : BitVec 32 := 0#32
  let v123 : BitVec 1 := Scalar.cmpi .eq c8_i32_177 c0_i32_178
  let c1_i32_179 : BitVec 32 := 1#32
  let v124 : BitVec 32 := Scalar.select v123 c1_i32_179 c8_i32_177
  let v125 : BitVec 32 := Scalar.remsi arg11 v124
  let c0_i32_181 : BitVec 32 := 0#32
  let v127 : BitVec 1 := Scalar.cmpi .slt v125 c0_i32_181
  let c0_i32_182 : BitVec 32 := 0#32
  let v128 : BitVec 1 := Scalar.cmpi .slt v124 c0_i32_182
  let v129 : BitVec 1 := Scalar.xori v127 v128
  let c0_i32_180 : BitVec 32 := 0#32
  let v126 : BitVec 1 := Scalar.cmpi .ne v125 c0_i32_180
  let v130 : BitVec 1 := Scalar.andi v129 v126
  let v131 : BitVec 32 := Scalar.addi v125 v124
  let v132 : BitVec 32 := Scalar.select v130 v131 v125
  let c16_i32_183 : BitVec 32 := 16#32
  let v133 : BitVec 32 := Scalar.muli v132 c16_i32_183
  let v153 : Index := Scalar.indexCast v133
  ![v152.toNat, v153.toNat]

def k2_chk10 (v151 : IVec S16 32) (v154 : IVec S16 32) : Prop :=
  (∀ a x, ((![v151, v154] : Fin 2 → IVec S16 32) a x).toNat < S8x4096.size a)
instance k2_chk10.dec : ∀ (v151 : IVec S16 32) (v154 : IVec S16 32), Decidable (k2_chk10 v151 v154) := fun v151 v154 => decidable_of_iff' _ (Iff.of_eq (k2_chk10.eq_1 v151 v154))
theorem k2_idx10_inb : ∀ (v151 : IVec S16 32) (v154 : IVec S16 32) (k2_hw10 : k2_chk10 v151 v154), ∀ a x, ((![v151, v154] : Fin 2 → IVec S16 32) a x).toNat < S8x4096.size a := fun v151 v154 k2_hw10 => k2_hw10
@[reducible] def k2_t15_loop : Scf.Loop 32 :=
  let c0_i32_97 : BitVec 32 := 0#32
  let c64_i32_98 : BitVec 32 := 64#32
  let v61 : BitVec 32 := Scalar.addi c0_i32_97 c64_i32_98
  let c1_i32_99 : BitVec 32 := 1#32
  ⟨c0_i32_97, v61, c1_i32_99⟩
def k2_off15 (k2_t15 : Fin k2_t15_loop.trips) : Fin 2 → Nat :=
  let c32_i32_176 : BitVec 32 := 32#32
  let c0_i32_97 : BitVec 32 := 0#32
  let c1_i32_99 : BitVec 32 := 1#32
  let arg11 : BitVec 32 := Scf.iv c0_i32_97 c1_i32_99 k2_t15
  let c0_i32_170 : BitVec 32 := 0#32
  let v106 : BitVec 1 := Scalar.cmpi .sgt arg11 c0_i32_170
  let v107 : BitVec 32 := Scalar.extui v106
  let c0_i32_171 : BitVec 32 := 0#32
  let v108 : BitVec 1 := Scalar.cmpi .slt arg11 c0_i32_171
  let v109 : BitVec 32 := Scalar.extui v108
  let v110 : BitVec 32 := Scalar.subi v107 v109
  let c8_i32_169 : BitVec 32 := 8#32
  let c0_i32_172 : BitVec 32 := 0#32
  let v111 : BitVec 1 := Scalar.cmpi .sgt c8_i32_169 c0_i32_172
  let v112 : BitVec 32 := Scalar.extui v111
  let c0_i32_173 : BitVec 32 := 0#32
  let v113 : BitVec 1 := Scalar.cmpi .slt c8_i32_169 c0_i32_173
  let v114 : BitVec 32 := Scalar.extui v113
  let v115 : BitVec 32 := Scalar.subi v112 v114
  let v116 : BitVec 1 := Scalar.cmpi .ne v110 v115
  let v117 : BitVec 32 := Scalar.remsi arg11 c8_i32_169
  let c0_i32_174 : BitVec 32 := 0#32
  let v118 : BitVec 1 := Scalar.cmpi .ne v117 c0_i32_174
  let v119 : BitVec 1 := Scalar.andi v116 v118
  let v105 : BitVec 32 := Scalar.divsi arg11 c8_i32_169
  let c1_i32_175 : BitVec 32 := 1#32
  let v120 : BitVec 32 := Scalar.subi v105 c1_i32_175
  let v121 : BitVec 32 := Scalar.select v119 v120 v105
  let v122 : BitVec 32 := Scalar.addi c32_i32_176 v121
  let v152 : Index := Scalar.indexCast v122
  let c8_i32_177 : BitVec 32 := 8#32
  let c0_i32_178 : BitVec 32 := 0#32
  let v123 : BitVec 1 := Scalar.cmpi .eq c8_i32_177 c0_i32_178
  let c1_i32_179 : BitVec 32 := 1#32
  let v124 : BitVec 32 := Scalar.select v123 c1_i32_179 c8_i32_177
  let v125 : BitVec 32 := Scalar.remsi arg11 v124
  let c0_i32_181 : BitVec 32 := 0#32
  let v127 : BitVec 1 := Scalar.cmpi .slt v125 c0_i32_181
  let c0_i32_182 : BitVec 32 := 0#32
  let v128 : BitVec 1 := Scalar.cmpi .slt v124 c0_i32_182
  let v129 : BitVec 1 := Scalar.xori v127 v128
  let c0_i32_180 : BitVec 32 := 0#32
  let v126 : BitVec 1 := Scalar.cmpi .ne v125 c0_i32_180
  let v130 : BitVec 1 := Scalar.andi v129 v126
  let v131 : BitVec 32 := Scalar.addi v125 v124
  let v132 : BitVec 32 := Scalar.select v130 v131 v125
  let c16_i32_183 : BitVec 32 := 16#32
  let v133 : BitVec 32 := Scalar.muli v132 c16_i32_183
  let v153 : Index := Scalar.indexCast v133
  ![v152.toNat, v153.toNat]

def k2_chk11 (v151 : IVec S16 32) (v154 : IVec S16 32) : Prop :=
  (∀ a x, ((![v151, v154] : Fin 2 → IVec S16 32) a x).toNat < S8x4096.size a)
instance k2_chk11.dec : ∀ (v151 : IVec S16 32) (v154 : IVec S16 32), Decidable (k2_chk11 v151 v154) := fun v151 v154 => decidable_of_iff' _ (Iff.of_eq (k2_chk11.eq_1 v151 v154))
theorem k2_idx11_inb : ∀ (v151 : IVec S16 32) (v154 : IVec S16 32) (k2_hw11 : k2_chk11 v151 v154), ∀ a x, ((![v151, v154] : Fin 2 → IVec S16 32) a x).toNat < S8x4096.size a := fun v151 v154 k2_hw11 => k2_hw11
@[reducible] def k2_t16_loop : Scf.Loop 32 :=
  let c0_i32_102 : BitVec 32 := 0#32
  let c64_i32_103 : BitVec 32 := 64#32
  let v62 : BitVec 32 := Scalar.addi c0_i32_102 c64_i32_103
  let c1_i32_104 : BitVec 32 := 1#32
  ⟨c0_i32_102, v62, c1_i32_104⟩
def k2_off16 (k2_t16 : Fin k2_t16_loop.trips) : Fin 2 → Nat :=
  let c48_i32_176 : BitVec 32 := 48#32
  let c0_i32_102 : BitVec 32 := 0#32
  let c1_i32_104 : BitVec 32 := 1#32
  let arg11 : BitVec 32 := Scf.iv c0_i32_102 c1_i32_104 k2_t16
  let c0_i32_170 : BitVec 32 := 0#32
  let v106 : BitVec 1 := Scalar.cmpi .sgt arg11 c0_i32_170
  let v107 : BitVec 32 := Scalar.extui v106
  let c0_i32_171 : BitVec 32 := 0#32
  let v108 : BitVec 1 := Scalar.cmpi .slt arg11 c0_i32_171
  let v109 : BitVec 32 := Scalar.extui v108
  let v110 : BitVec 32 := Scalar.subi v107 v109
  let c8_i32_169 : BitVec 32 := 8#32
  let c0_i32_172 : BitVec 32 := 0#32
  let v111 : BitVec 1 := Scalar.cmpi .sgt c8_i32_169 c0_i32_172
  let v112 : BitVec 32 := Scalar.extui v111
  let c0_i32_173 : BitVec 32 := 0#32
  let v113 : BitVec 1 := Scalar.cmpi .slt c8_i32_169 c0_i32_173
  let v114 : BitVec 32 := Scalar.extui v113
  let v115 : BitVec 32 := Scalar.subi v112 v114
  let v116 : BitVec 1 := Scalar.cmpi .ne v110 v115
  let v117 : BitVec 32 := Scalar.remsi arg11 c8_i32_169
  let c0_i32_174 : BitVec 32 := 0#32
  let v118 : BitVec 1 := Scalar.cmpi .ne v117 c0_i32_174
  let v119 : BitVec 1 := Scalar.andi v116 v118
  let v105 : BitVec 32 := Scalar.divsi arg11 c8_i32_169
  let c1_i32_175 : BitVec 32 := 1#32
  let v120 : BitVec 32 := Scalar.subi v105 c1_i32_175
  let v121 : BitVec 32 := Scalar.select v119 v120 v105
  let v122 : BitVec 32 := Scalar.addi c48_i32_176 v121
  let v152 : Index := Scalar.indexCast v122
  let c8_i32_177 : BitVec 32 := 8#32
  let c0_i32_178 : BitVec 32 := 0#32
  let v123 : BitVec 1 := Scalar.cmpi .eq c8_i32_177 c0_i32_178
  let c1_i32_179 : BitVec 32 := 1#32
  let v124 : BitVec 32 := Scalar.select v123 c1_i32_179 c8_i32_177
  let v125 : BitVec 32 := Scalar.remsi arg11 v124
  let c0_i32_181 : BitVec 32 := 0#32
  let v127 : BitVec 1 := Scalar.cmpi .slt v125 c0_i32_181
  let c0_i32_182 : BitVec 32 := 0#32
  let v128 : BitVec 1 := Scalar.cmpi .slt v124 c0_i32_182
  let v129 : BitVec 1 := Scalar.xori v127 v128
  let c0_i32_180 : BitVec 32 := 0#32
  let v126 : BitVec 1 := Scalar.cmpi .ne v125 c0_i32_180
  let v130 : BitVec 1 := Scalar.andi v129 v126
  let v131 : BitVec 32 := Scalar.addi v125 v124
  let v132 : BitVec 32 := Scalar.select v130 v131 v125
  let c16_i32_183 : BitVec 32 := 16#32
  let v133 : BitVec 32 := Scalar.muli v132 c16_i32_183
  let v153 : Index := Scalar.indexCast v133
  ![v152.toNat, v153.toNat]

def k2_chk12 (v151 : IVec S16 32) (v154 : IVec S16 32) : Prop :=
  (∀ a x, ((![v151, v154] : Fin 2 → IVec S16 32) a x).toNat < S8x4096.size a)
instance k2_chk12.dec : ∀ (v151 : IVec S16 32) (v154 : IVec S16 32), Decidable (k2_chk12 v151 v154) := fun v151 v154 => decidable_of_iff' _ (Iff.of_eq (k2_chk12.eq_1 v151 v154))
theorem k2_idx12_inb : ∀ (v151 : IVec S16 32) (v154 : IVec S16 32) (k2_hw12 : k2_chk12 v151 v154), ∀ a x, ((![v151, v154] : Fin 2 → IVec S16 32) a x).toNat < S8x4096.size a := fun v151 v154 k2_hw12 => k2_hw12
@[reducible] def k2_t17_loop : Scf.Loop 32 :=
  let c0_i32_114 : BitVec 32 := 0#32
  let c64_i32_115 : BitVec 32 := 64#32
  let v71 : BitVec 32 := Scalar.addi c0_i32_114 c64_i32_115
  let c1_i32_116 : BitVec 32 := 1#32
  ⟨c0_i32_114, v71, c1_i32_116⟩
def k2_off17 (k2_t17 : Fin k2_t17_loop.trips) : Fin 2 → Nat :=
  let c40_i32_176 : BitVec 32 := 40#32
  let c0_i32_114 : BitVec 32 := 0#32
  let c1_i32_116 : BitVec 32 := 1#32
  let arg11 : BitVec 32 := Scf.iv c0_i32_114 c1_i32_116 k2_t17
  let c0_i32_170 : BitVec 32 := 0#32
  let v106 : BitVec 1 := Scalar.cmpi .sgt arg11 c0_i32_170
  let v107 : BitVec 32 := Scalar.extui v106
  let c0_i32_171 : BitVec 32 := 0#32
  let v108 : BitVec 1 := Scalar.cmpi .slt arg11 c0_i32_171
  let v109 : BitVec 32 := Scalar.extui v108
  let v110 : BitVec 32 := Scalar.subi v107 v109
  let c8_i32_169 : BitVec 32 := 8#32
  let c0_i32_172 : BitVec 32 := 0#32
  let v111 : BitVec 1 := Scalar.cmpi .sgt c8_i32_169 c0_i32_172
  let v112 : BitVec 32 := Scalar.extui v111
  let c0_i32_173 : BitVec 32 := 0#32
  let v113 : BitVec 1 := Scalar.cmpi .slt c8_i32_169 c0_i32_173
  let v114 : BitVec 32 := Scalar.extui v113
  let v115 : BitVec 32 := Scalar.subi v112 v114
  let v116 : BitVec 1 := Scalar.cmpi .ne v110 v115
  let v117 : BitVec 32 := Scalar.remsi arg11 c8_i32_169
  let c0_i32_174 : BitVec 32 := 0#32
  let v118 : BitVec 1 := Scalar.cmpi .ne v117 c0_i32_174
  let v119 : BitVec 1 := Scalar.andi v116 v118
  let v105 : BitVec 32 := Scalar.divsi arg11 c8_i32_169
  let c1_i32_175 : BitVec 32 := 1#32
  let v120 : BitVec 32 := Scalar.subi v105 c1_i32_175
  let v121 : BitVec 32 := Scalar.select v119 v120 v105
  let v122 : BitVec 32 := Scalar.addi c40_i32_176 v121
  let v152 : Index := Scalar.indexCast v122
  let c8_i32_177 : BitVec 32 := 8#32
  let c0_i32_178 : BitVec 32 := 0#32
  let v123 : BitVec 1 := Scalar.cmpi .eq c8_i32_177 c0_i32_178
  let c1_i32_179 : BitVec 32 := 1#32
  let v124 : BitVec 32 := Scalar.select v123 c1_i32_179 c8_i32_177
  let v125 : BitVec 32 := Scalar.remsi arg11 v124
  let c0_i32_181 : BitVec 32 := 0#32
  let v127 : BitVec 1 := Scalar.cmpi .slt v125 c0_i32_181
  let c0_i32_182 : BitVec 32 := 0#32
  let v128 : BitVec 1 := Scalar.cmpi .slt v124 c0_i32_182
  let v129 : BitVec 1 := Scalar.xori v127 v128
  let c0_i32_180 : BitVec 32 := 0#32
  let v126 : BitVec 1 := Scalar.cmpi .ne v125 c0_i32_180
  let v130 : BitVec 1 := Scalar.andi v129 v126
  let v131 : BitVec 32 := Scalar.addi v125 v124
  let v132 : BitVec 32 := Scalar.select v130 v131 v125
  let c16_i32_183 : BitVec 32 := 16#32
  let v133 : BitVec 32 := Scalar.muli v132 c16_i32_183
  let v153 : Index := Scalar.indexCast v133
  ![v152.toNat, v153.toNat]

def k2_chk13 (v151 : IVec S16 32) (v154 : IVec S16 32) : Prop :=
  (∀ a x, ((![v151, v154] : Fin 2 → IVec S16 32) a x).toNat < S8x4096.size a)
instance k2_chk13.dec : ∀ (v151 : IVec S16 32) (v154 : IVec S16 32), Decidable (k2_chk13 v151 v154) := fun v151 v154 => decidable_of_iff' _ (Iff.of_eq (k2_chk13.eq_1 v151 v154))
theorem k2_idx13_inb : ∀ (v151 : IVec S16 32) (v154 : IVec S16 32) (k2_hw13 : k2_chk13 v151 v154), ∀ a x, ((![v151, v154] : Fin 2 → IVec S16 32) a x).toNat < S8x4096.size a := fun v151 v154 k2_hw13 => k2_hw13
@[reducible] def k2_t18_loop : Scf.Loop 32 :=
  let c0_i32_119 : BitVec 32 := 0#32
  let c64_i32_120 : BitVec 32 := 64#32
  let v72 : BitVec 32 := Scalar.addi c0_i32_119 c64_i32_120
  let c1_i32_121 : BitVec 32 := 1#32
  ⟨c0_i32_119, v72, c1_i32_121⟩
def k2_off18 (k2_t18 : Fin k2_t18_loop.trips) : Fin 2 → Nat :=
  let c56_i32_176 : BitVec 32 := 56#32
  let c0_i32_119 : BitVec 32 := 0#32
  let c1_i32_121 : BitVec 32 := 1#32
  let arg11 : BitVec 32 := Scf.iv c0_i32_119 c1_i32_121 k2_t18
  let c0_i32_170 : BitVec 32 := 0#32
  let v106 : BitVec 1 := Scalar.cmpi .sgt arg11 c0_i32_170
  let v107 : BitVec 32 := Scalar.extui v106
  let c0_i32_171 : BitVec 32 := 0#32
  let v108 : BitVec 1 := Scalar.cmpi .slt arg11 c0_i32_171
  let v109 : BitVec 32 := Scalar.extui v108
  let v110 : BitVec 32 := Scalar.subi v107 v109
  let c8_i32_169 : BitVec 32 := 8#32
  let c0_i32_172 : BitVec 32 := 0#32
  let v111 : BitVec 1 := Scalar.cmpi .sgt c8_i32_169 c0_i32_172
  let v112 : BitVec 32 := Scalar.extui v111
  let c0_i32_173 : BitVec 32 := 0#32
  let v113 : BitVec 1 := Scalar.cmpi .slt c8_i32_169 c0_i32_173
  let v114 : BitVec 32 := Scalar.extui v113
  let v115 : BitVec 32 := Scalar.subi v112 v114
  let v116 : BitVec 1 := Scalar.cmpi .ne v110 v115
  let v117 : BitVec 32 := Scalar.remsi arg11 c8_i32_169
  let c0_i32_174 : BitVec 32 := 0#32
  let v118 : BitVec 1 := Scalar.cmpi .ne v117 c0_i32_174
  let v119 : BitVec 1 := Scalar.andi v116 v118
  let v105 : BitVec 32 := Scalar.divsi arg11 c8_i32_169
  let c1_i32_175 : BitVec 32 := 1#32
  let v120 : BitVec 32 := Scalar.subi v105 c1_i32_175
  let v121 : BitVec 32 := Scalar.select v119 v120 v105
  let v122 : BitVec 32 := Scalar.addi c56_i32_176 v121
  let v152 : Index := Scalar.indexCast v122
  let c8_i32_177 : BitVec 32 := 8#32
  let c0_i32_178 : BitVec 32 := 0#32
  let v123 : BitVec 1 := Scalar.cmpi .eq c8_i32_177 c0_i32_178
  let c1_i32_179 : BitVec 32 := 1#32
  let v124 : BitVec 32 := Scalar.select v123 c1_i32_179 c8_i32_177
  let v125 : BitVec 32 := Scalar.remsi arg11 v124
  let c0_i32_181 : BitVec 32 := 0#32
  let v127 : BitVec 1 := Scalar.cmpi .slt v125 c0_i32_181
  let c0_i32_182 : BitVec 32 := 0#32
  let v128 : BitVec 1 := Scalar.cmpi .slt v124 c0_i32_182
  let v129 : BitVec 1 := Scalar.xori v127 v128
  let c0_i32_180 : BitVec 32 := 0#32
  let v126 : BitVec 1 := Scalar.cmpi .ne v125 c0_i32_180
  let v130 : BitVec 1 := Scalar.andi v129 v126
  let v131 : BitVec 32 := Scalar.addi v125 v124
  let v132 : BitVec 32 := Scalar.select v130 v131 v125
  let c16_i32_183 : BitVec 32 := 16#32
  let v133 : BitVec 32 := Scalar.muli v132 c16_i32_183
  let v153 : Index := Scalar.indexCast v133
  ![v152.toNat, v153.toNat]

def k2_chk14 (v151 : IVec S16 32) (v154 : IVec S16 32) : Prop :=
  (∀ a x, ((![v151, v154] : Fin 2 → IVec S16 32) a x).toNat < S8x4096.size a)
instance k2_chk14.dec : ∀ (v151 : IVec S16 32) (v154 : IVec S16 32), Decidable (k2_chk14 v151 v154) := fun v151 v154 => decidable_of_iff' _ (Iff.of_eq (k2_chk14.eq_1 v151 v154))
theorem k2_idx14_inb : ∀ (v151 : IVec S16 32) (v154 : IVec S16 32) (k2_hw14 : k2_chk14 v151 v154), ∀ a x, ((![v151, v154] : Fin 2 → IVec S16 32) a x).toNat < S8x4096.size a := fun v151 v154 k2_hw14 => k2_hw14
@[reducible] def k2_t19_loop : Scf.Loop 32 :=
  let c0_i32_131 : BitVec 32 := 0#32
  let c64_i32_132 : BitVec 32 := 64#32
  let v81 : BitVec 32 := Scalar.addi c0_i32_131 c64_i32_132
  let c1_i32_133 : BitVec 32 := 1#32
  ⟨c0_i32_131, v81, c1_i32_133⟩
def k2_off19 (k2_t19 : Fin k2_t19_loop.trips) : Fin 2 → Nat :=
  let c48_i32_176 : BitVec 32 := 48#32
  let c0_i32_131 : BitVec 32 := 0#32
  let c1_i32_133 : BitVec 32 := 1#32
  let arg11 : BitVec 32 := Scf.iv c0_i32_131 c1_i32_133 k2_t19
  let c0_i32_170 : BitVec 32 := 0#32
  let v106 : BitVec 1 := Scalar.cmpi .sgt arg11 c0_i32_170
  let v107 : BitVec 32 := Scalar.extui v106
  let c0_i32_171 : BitVec 32 := 0#32
  let v108 : BitVec 1 := Scalar.cmpi .slt arg11 c0_i32_171
  let v109 : BitVec 32 := Scalar.extui v108
  let v110 : BitVec 32 := Scalar.subi v107 v109
  let c8_i32_169 : BitVec 32 := 8#32
  let c0_i32_172 : BitVec 32 := 0#32
  let v111 : BitVec 1 := Scalar.cmpi .sgt c8_i32_169 c0_i32_172
  let v112 : BitVec 32 := Scalar.extui v111
  let c0_i32_173 : BitVec 32 := 0#32
  let v113 : BitVec 1 := Scalar.cmpi .slt c8_i32_169 c0_i32_173
  let v114 : BitVec 32 := Scalar.extui v113
  let v115 : BitVec 32 := Scalar.subi v112 v114
  let v116 : BitVec 1 := Scalar.cmpi .ne v110 v115
  let v117 : BitVec 32 := Scalar.remsi arg11 c8_i32_169
  let c0_i32_174 : BitVec 32 := 0#32
  let v118 : BitVec 1 := Scalar.cmpi .ne v117 c0_i32_174
  let v119 : BitVec 1 := Scalar.andi v116 v118
  let v105 : BitVec 32 := Scalar.divsi arg11 c8_i32_169
  let c1_i32_175 : BitVec 32 := 1#32
  let v120 : BitVec 32 := Scalar.subi v105 c1_i32_175
  let v121 : BitVec 32 := Scalar.select v119 v120 v105
  let v122 : BitVec 32 := Scalar.addi c48_i32_176 v121
  let v152 : Index := Scalar.indexCast v122
  let c8_i32_177 : BitVec 32 := 8#32
  let c0_i32_178 : BitVec 32 := 0#32
  let v123 : BitVec 1 := Scalar.cmpi .eq c8_i32_177 c0_i32_178
  let c1_i32_179 : BitVec 32 := 1#32
  let v124 : BitVec 32 := Scalar.select v123 c1_i32_179 c8_i32_177
  let v125 : BitVec 32 := Scalar.remsi arg11 v124
  let c0_i32_181 : BitVec 32 := 0#32
  let v127 : BitVec 1 := Scalar.cmpi .slt v125 c0_i32_181
  let c0_i32_182 : BitVec 32 := 0#32
  let v128 : BitVec 1 := Scalar.cmpi .slt v124 c0_i32_182
  let v129 : BitVec 1 := Scalar.xori v127 v128
  let c0_i32_180 : BitVec 32 := 0#32
  let v126 : BitVec 1 := Scalar.cmpi .ne v125 c0_i32_180
  let v130 : BitVec 1 := Scalar.andi v129 v126
  let v131 : BitVec 32 := Scalar.addi v125 v124
  let v132 : BitVec 32 := Scalar.select v130 v131 v125
  let c16_i32_183 : BitVec 32 := 16#32
  let v133 : BitVec 32 := Scalar.muli v132 c16_i32_183
  let v153 : Index := Scalar.indexCast v133
  ![v152.toNat, v153.toNat]

def k2_chk15 (v151 : IVec S16 32) (v154 : IVec S16 32) : Prop :=
  (∀ a x, ((![v151, v154] : Fin 2 → IVec S16 32) a x).toNat < S8x4096.size a)
instance k2_chk15.dec : ∀ (v151 : IVec S16 32) (v154 : IVec S16 32), Decidable (k2_chk15 v151 v154) := fun v151 v154 => decidable_of_iff' _ (Iff.of_eq (k2_chk15.eq_1 v151 v154))
theorem k2_idx15_inb : ∀ (v151 : IVec S16 32) (v154 : IVec S16 32) (k2_hw15 : k2_chk15 v151 v154), ∀ a x, ((![v151, v154] : Fin 2 → IVec S16 32) a x).toNat < S8x4096.size a := fun v151 v154 k2_hw15 => k2_hw15
@[reducible] def k2_t20_loop : Scf.Loop 32 :=
  let c0_i32_136 : BitVec 32 := 0#32
  let c64_i32_137 : BitVec 32 := 64#32
  let v82 : BitVec 32 := Scalar.addi c0_i32_136 c64_i32_137
  let c1_i32_138 : BitVec 32 := 1#32
  ⟨c0_i32_136, v82, c1_i32_138⟩
def k2_off20 (k2_t20 : Fin k2_t20_loop.trips) : Fin 2 → Nat :=
  let c64_i32_176 : BitVec 32 := 64#32
  let c0_i32_136 : BitVec 32 := 0#32
  let c1_i32_138 : BitVec 32 := 1#32
  let arg11 : BitVec 32 := Scf.iv c0_i32_136 c1_i32_138 k2_t20
  let c0_i32_170 : BitVec 32 := 0#32
  let v106 : BitVec 1 := Scalar.cmpi .sgt arg11 c0_i32_170
  let v107 : BitVec 32 := Scalar.extui v106
  let c0_i32_171 : BitVec 32 := 0#32
  let v108 : BitVec 1 := Scalar.cmpi .slt arg11 c0_i32_171
  let v109 : BitVec 32 := Scalar.extui v108
  let v110 : BitVec 32 := Scalar.subi v107 v109
  let c8_i32_169 : BitVec 32 := 8#32
  let c0_i32_172 : BitVec 32 := 0#32
  let v111 : BitVec 1 := Scalar.cmpi .sgt c8_i32_169 c0_i32_172
  let v112 : BitVec 32 := Scalar.extui v111
  let c0_i32_173 : BitVec 32 := 0#32
  let v113 : BitVec 1 := Scalar.cmpi .slt c8_i32_169 c0_i32_173
  let v114 : BitVec 32 := Scalar.extui v113
  let v115 : BitVec 32 := Scalar.subi v112 v114
  let v116 : BitVec 1 := Scalar.cmpi .ne v110 v115
  let v117 : BitVec 32 := Scalar.remsi arg11 c8_i32_169
  let c0_i32_174 : BitVec 32 := 0#32
  let v118 : BitVec 1 := Scalar.cmpi .ne v117 c0_i32_174
  let v119 : BitVec 1 := Scalar.andi v116 v118
  let v105 : BitVec 32 := Scalar.divsi arg11 c8_i32_169
  let c1_i32_175 : BitVec 32 := 1#32
  let v120 : BitVec 32 := Scalar.subi v105 c1_i32_175
  let v121 : BitVec 32 := Scalar.select v119 v120 v105
  let v122 : BitVec 32 := Scalar.addi c64_i32_176 v121
  let v152 : Index := Scalar.indexCast v122
  let c8_i32_177 : BitVec 32 := 8#32
  let c0_i32_178 : BitVec 32 := 0#32
  let v123 : BitVec 1 := Scalar.cmpi .eq c8_i32_177 c0_i32_178
  let c1_i32_179 : BitVec 32 := 1#32
  let v124 : BitVec 32 := Scalar.select v123 c1_i32_179 c8_i32_177
  let v125 : BitVec 32 := Scalar.remsi arg11 v124
  let c0_i32_181 : BitVec 32 := 0#32
  let v127 : BitVec 1 := Scalar.cmpi .slt v125 c0_i32_181
  let c0_i32_182 : BitVec 32 := 0#32
  let v128 : BitVec 1 := Scalar.cmpi .slt v124 c0_i32_182
  let v129 : BitVec 1 := Scalar.xori v127 v128
  let c0_i32_180 : BitVec 32 := 0#32
  let v126 : BitVec 1 := Scalar.cmpi .ne v125 c0_i32_180
  let v130 : BitVec 1 := Scalar.andi v129 v126
  let v131 : BitVec 32 := Scalar.addi v125 v124
  let v132 : BitVec 32 := Scalar.select v130 v131 v125
  let c16_i32_183 : BitVec 32 := 16#32
  let v133 : BitVec 32 := Scalar.muli v132 c16_i32_183
  let v153 : Index := Scalar.indexCast v133
  ![v152.toNat, v153.toNat]

def k2_chk16 (v151 : IVec S16 32) (v154 : IVec S16 32) : Prop :=
  (∀ a x, ((![v151, v154] : Fin 2 → IVec S16 32) a x).toNat < S8x4096.size a)
instance k2_chk16.dec : ∀ (v151 : IVec S16 32) (v154 : IVec S16 32), Decidable (k2_chk16 v151 v154) := fun v151 v154 => decidable_of_iff' _ (Iff.of_eq (k2_chk16.eq_1 v151 v154))
theorem k2_idx16_inb : ∀ (v151 : IVec S16 32) (v154 : IVec S16 32) (k2_hw16 : k2_chk16 v151 v154), ∀ a x, ((![v151, v154] : Fin 2 → IVec S16 32) a x).toNat < S8x4096.size a := fun v151 v154 k2_hw16 => k2_hw16
@[reducible] def k2_t21_loop : Scf.Loop 32 :=
  let c0_i32_149 : BitVec 32 := 0#32
  let c64_i32_150 : BitVec 32 := 64#32
  let v91 : BitVec 32 := Scalar.addi c0_i32_149 c64_i32_150
  let c1_i32_151 : BitVec 32 := 1#32
  ⟨c0_i32_149, v91, c1_i32_151⟩
def k2_off21 (k2_t21 : Fin k2_t21_loop.trips) : Fin 2 → Nat :=
  let c56_i32_176 : BitVec 32 := 56#32
  let c0_i32_149 : BitVec 32 := 0#32
  let c1_i32_151 : BitVec 32 := 1#32
  let arg11 : BitVec 32 := Scf.iv c0_i32_149 c1_i32_151 k2_t21
  let c0_i32_170 : BitVec 32 := 0#32
  let v106 : BitVec 1 := Scalar.cmpi .sgt arg11 c0_i32_170
  let v107 : BitVec 32 := Scalar.extui v106
  let c0_i32_171 : BitVec 32 := 0#32
  let v108 : BitVec 1 := Scalar.cmpi .slt arg11 c0_i32_171
  let v109 : BitVec 32 := Scalar.extui v108
  let v110 : BitVec 32 := Scalar.subi v107 v109
  let c8_i32_169 : BitVec 32 := 8#32
  let c0_i32_172 : BitVec 32 := 0#32
  let v111 : BitVec 1 := Scalar.cmpi .sgt c8_i32_169 c0_i32_172
  let v112 : BitVec 32 := Scalar.extui v111
  let c0_i32_173 : BitVec 32 := 0#32
  let v113 : BitVec 1 := Scalar.cmpi .slt c8_i32_169 c0_i32_173
  let v114 : BitVec 32 := Scalar.extui v113
  let v115 : BitVec 32 := Scalar.subi v112 v114
  let v116 : BitVec 1 := Scalar.cmpi .ne v110 v115
  let v117 : BitVec 32 := Scalar.remsi arg11 c8_i32_169
  let c0_i32_174 : BitVec 32 := 0#32
  let v118 : BitVec 1 := Scalar.cmpi .ne v117 c0_i32_174
  let v119 : BitVec 1 := Scalar.andi v116 v118
  let v105 : BitVec 32 := Scalar.divsi arg11 c8_i32_169
  let c1_i32_175 : BitVec 32 := 1#32
  let v120 : BitVec 32 := Scalar.subi v105 c1_i32_175
  let v121 : BitVec 32 := Scalar.select v119 v120 v105
  let v122 : BitVec 32 := Scalar.addi c56_i32_176 v121
  let v152 : Index := Scalar.indexCast v122
  let c8_i32_177 : BitVec 32 := 8#32
  let c0_i32_178 : BitVec 32 := 0#32
  let v123 : BitVec 1 := Scalar.cmpi .eq c8_i32_177 c0_i32_178
  let c1_i32_179 : BitVec 32 := 1#32
  let v124 : BitVec 32 := Scalar.select v123 c1_i32_179 c8_i32_177
  let v125 : BitVec 32 := Scalar.remsi arg11 v124
  let c0_i32_181 : BitVec 32 := 0#32
  let v127 : BitVec 1 := Scalar.cmpi .slt v125 c0_i32_181
  let c0_i32_182 : BitVec 32 := 0#32
  let v128 : BitVec 1 := Scalar.cmpi .slt v124 c0_i32_182
  let v129 : BitVec 1 := Scalar.xori v127 v128
  let c0_i32_180 : BitVec 32 := 0#32
  let v126 : BitVec 1 := Scalar.cmpi .ne v125 c0_i32_180
  let v130 : BitVec 1 := Scalar.andi v129 v126
  let v131 : BitVec 32 := Scalar.addi v125 v124
  let v132 : BitVec 32 := Scalar.select v130 v131 v125
  let c16_i32_183 : BitVec 32 := 16#32
  let v133 : BitVec 32 := Scalar.muli v132 c16_i32_183
  let v153 : Index := Scalar.indexCast v133
  ![v152.toNat, v153.toNat]

def k2_chk17 (v151 : IVec S16 32) (v154 : IVec S16 32) : Prop :=
  (∀ a x, ((![v151, v154] : Fin 2 → IVec S16 32) a x).toNat < S8x4096.size a)
instance k2_chk17.dec : ∀ (v151 : IVec S16 32) (v154 : IVec S16 32), Decidable (k2_chk17 v151 v154) := fun v151 v154 => decidable_of_iff' _ (Iff.of_eq (k2_chk17.eq_1 v151 v154))
theorem k2_idx17_inb : ∀ (v151 : IVec S16 32) (v154 : IVec S16 32) (k2_hw17 : k2_chk17 v151 v154), ∀ a x, ((![v151, v154] : Fin 2 → IVec S16 32) a x).toNat < S8x4096.size a := fun v151 v154 k2_hw17 => k2_hw17
@[reducible] def k2_t22_loop : Scf.Loop 32 :=
  let c0_i32_154 : BitVec 32 := 0#32
  let c64_i32_155 : BitVec 32 := 64#32
  let v92 : BitVec 32 := Scalar.addi c0_i32_154 c64_i32_155
  let c1_i32_156 : BitVec 32 := 1#32
  ⟨c0_i32_154, v92, c1_i32_156⟩
def k2_off22 (k2_t22 : Fin k2_t22_loop.trips) : Fin 2 → Nat :=
  let c72_i32_176 : BitVec 32 := 72#32
  let c0_i32_154 : BitVec 32 := 0#32
  let c1_i32_156 : BitVec 32 := 1#32
  let arg11 : BitVec 32 := Scf.iv c0_i32_154 c1_i32_156 k2_t22
  let c0_i32_170 : BitVec 32 := 0#32
  let v106 : BitVec 1 := Scalar.cmpi .sgt arg11 c0_i32_170
  let v107 : BitVec 32 := Scalar.extui v106
  let c0_i32_171 : BitVec 32 := 0#32
  let v108 : BitVec 1 := Scalar.cmpi .slt arg11 c0_i32_171
  let v109 : BitVec 32 := Scalar.extui v108
  let v110 : BitVec 32 := Scalar.subi v107 v109
  let c8_i32_169 : BitVec 32 := 8#32
  let c0_i32_172 : BitVec 32 := 0#32
  let v111 : BitVec 1 := Scalar.cmpi .sgt c8_i32_169 c0_i32_172
  let v112 : BitVec 32 := Scalar.extui v111
  let c0_i32_173 : BitVec 32 := 0#32
  let v113 : BitVec 1 := Scalar.cmpi .slt c8_i32_169 c0_i32_173
  let v114 : BitVec 32 := Scalar.extui v113
  let v115 : BitVec 32 := Scalar.subi v112 v114
  let v116 : BitVec 1 := Scalar.cmpi .ne v110 v115
  let v117 : BitVec 32 := Scalar.remsi arg11 c8_i32_169
  let c0_i32_174 : BitVec 32 := 0#32
  let v118 : BitVec 1 := Scalar.cmpi .ne v117 c0_i32_174
  let v119 : BitVec 1 := Scalar.andi v116 v118
  let v105 : BitVec 32 := Scalar.divsi arg11 c8_i32_169
  let c1_i32_175 : BitVec 32 := 1#32
  let v120 : BitVec 32 := Scalar.subi v105 c1_i32_175
  let v121 : BitVec 32 := Scalar.select v119 v120 v105
  let v122 : BitVec 32 := Scalar.addi c72_i32_176 v121
  let v152 : Index := Scalar.indexCast v122
  let c8_i32_177 : BitVec 32 := 8#32
  let c0_i32_178 : BitVec 32 := 0#32
  let v123 : BitVec 1 := Scalar.cmpi .eq c8_i32_177 c0_i32_178
  let c1_i32_179 : BitVec 32 := 1#32
  let v124 : BitVec 32 := Scalar.select v123 c1_i32_179 c8_i32_177
  let v125 : BitVec 32 := Scalar.remsi arg11 v124
  let c0_i32_181 : BitVec 32 := 0#32
  let v127 : BitVec 1 := Scalar.cmpi .slt v125 c0_i32_181
  let c0_i32_182 : BitVec 32 := 0#32
  let v128 : BitVec 1 := Scalar.cmpi .slt v124 c0_i32_182
  let v129 : BitVec 1 := Scalar.xori v127 v128
  let c0_i32_180 : BitVec 32 := 0#32
  let v126 : BitVec 1 := Scalar.cmpi .ne v125 c0_i32_180
  let v130 : BitVec 1 := Scalar.andi v129 v126
  let v131 : BitVec 32 := Scalar.addi v125 v124
  let v132 : BitVec 32 := Scalar.select v130 v131 v125
  let c16_i32_183 : BitVec 32 := 16#32
  let v133 : BitVec 32 := Scalar.muli v132 c16_i32_183
  let v153 : Index := Scalar.indexCast v133
  ![v152.toNat, v153.toNat]

def k2_chk18 (v151 : IVec S16 32) (v154 : IVec S16 32) : Prop :=
  (∀ a x, ((![v151, v154] : Fin 2 → IVec S16 32) a x).toNat < S8x4096.size a)
instance k2_chk18.dec : ∀ (v151 : IVec S16 32) (v154 : IVec S16 32), Decidable (k2_chk18 v151 v154) := fun v151 v154 => decidable_of_iff' _ (Iff.of_eq (k2_chk18.eq_1 v151 v154))
theorem k2_idx18_inb : ∀ (v151 : IVec S16 32) (v154 : IVec S16 32) (k2_hw18 : k2_chk18 v151 v154), ∀ a x, ((![v151, v154] : Fin 2 → IVec S16 32) a x).toNat < S8x4096.size a := fun v151 v154 k2_hw18 => k2_hw18
abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  ![arg0.toNat]

def cc3_transform_4 (i : grid3.Coords) : Fin 2 → Nat :=
  let arg0 : BitVec 32 := BitVec.ofNat 32 (i 0).val
  let c6_i32 : BitVec 32 := 6#32
  let v0 : BitVec 32 := Scalar.addi arg0 c6_i32
  let c0_i32 : BitVec 32 := 0#32
  let c0_i32_0 : BitVec 32 := 0#32
  ![c0_i32.toNat, v0.toNat]

abbrev stage3_0 : Fin 1 → Memref sig .tc .vmem S2048x4096 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S256x4096 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2048x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  bitsLt_bf16_f32 : FTy.bits .bf16 < FTy.bits .f32
  h_S1x16 : 0 < S1x16.numel
  shapeCasts_S1x16_S16 : S1x16.ShapeCasts S16
  shapeCasts_S16_S1x16 : S16.ShapeCasts S1x16
  h_S8x4096 : 0 < S8x4096.numel
  slices_S4096_S1536_0 : S4096.Slices ![0] S1536
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  slices_S4096_S2560_1536 : S4096.Slices ![1536] S2560
  dot_S2048x4096_S256x4096_S2048x256_1_1_0_0_n_n_wf : DotDims.WF S2048x4096 S256x4096 S2048x256 [1] [1] [0] [0] [] []
  hcc0_scratch4 : 0 + S_.numel ≤ 22
  hcc0_scratch5 : 1 + S_.numel ≤ 22
  hcc0_scoped0 : 2 + S_.numel ≤ 22
  hcc0_scoped1 : 3 + S_.numel ≤ 22
  hcc2_scratch4 : 11 + S_.numel ≤ 22
  hcc2_scratch5 : 12 + S_.numel ≤ 22
  hcc2_scoped0 : 13 + S_.numel ≤ 22
  hcc2_scoped1 : 14 + S_.numel ≤ 22
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S48x128.size a ≤ S4096x128.size a
  k0_t1_ok : k0_t1_loop.OK
  k0_t2_ok : k0_t2_loop.OK
  k0_off2_inb : ∀ (k0_t1 : Fin k0_t1_loop.trips) (k0_t2 : Fin k0_t2_loop.trips), ∀ (r : Fin 8), ∀ a, (k0_off2 k0_t1 k0_t2 (BitVec.ofNat 32 (16 * r.val))) a + S1x16.size a ≤ S8x4096.size a
  k0_t3_ok : k0_t3_loop.OK
  k0_t4_ok : k0_t4_loop.OK
  k0_off3_inb : ∀ (k0_t3 : Fin k0_t3_loop.trips) (k0_t4 : Fin k0_t4_loop.trips), ∀ (r : Fin 8), ∀ a, (k0_off3 k0_t3 k0_t4 (BitVec.ofNat 32 (16 * r.val))) a + S1x16.size a ≤ S8x4096.size a
  k0_t5_ok : k0_t5_loop.OK
  k0_off4_inb : ∀ k0_t5 : Fin k0_t5_loop.trips, ∀ a, (k0_off4 k0_t5) a + S1x16.size a ≤ S48x128.size a
  k0_off5_inb : ∀ i : grid0.Coords, ∀ (r : Fin 6), ∀ a, (k0_off5 i (BitVec.ofNat 32 (8 * r.val))) a + S8x4096.size a ≤ S1536x4096.size a
  k0_t6_ok : k0_t6_loop.OK
  k0_off6_inb : ∀ k0_t6 : Fin k0_t6_loop.trips, ∀ a, (k0_off6 k0_t6) a + S1x16.size a ≤ S48x128.size a
  k0_t7_ok : k0_t7_loop.OK
  k0_off7_inb : ∀ k0_t7 : Fin k0_t7_loop.trips, ∀ a, (k0_off7 k0_t7) a + S1x16.size a ≤ S48x128.size a
  k0_t8_ok : k0_t8_loop.OK
  k0_off8_inb : ∀ k0_t8 : Fin k0_t8_loop.trips, ∀ a, (k0_off8 k0_t8) a + S1x16.size a ≤ S48x128.size a
  k0_t9_ok : k0_t9_loop.OK
  k0_off9_inb : ∀ k0_t9 : Fin k0_t9_loop.trips, ∀ a, (k0_off9 k0_t9) a + S1x16.size a ≤ S48x128.size a
  k0_t10_ok : k0_t10_loop.OK
  k0_off10_inb : ∀ k0_t10 : Fin k0_t10_loop.trips, ∀ a, (k0_off10 k0_t10) a + S1x16.size a ≤ S48x128.size a
  k0_t11_ok : k0_t11_loop.OK
  k0_off11_inb : ∀ k0_t11 : Fin k0_t11_loop.trips, ∀ a, (k0_off11 k0_t11) a + S1x16.size a ≤ S48x128.size a
  k0_t12_ok : k0_t12_loop.OK
  k0_off12_inb : ∀ k0_t12 : Fin k0_t12_loop.trips, ∀ a, (k0_off12 k0_t12) a + S1x16.size a ≤ S48x128.size a
  k0_t13_ok : k0_t13_loop.OK
  k0_off13_inb : ∀ k0_t13 : Fin k0_t13_loop.trips, ∀ a, (k0_off13 k0_t13) a + S1x16.size a ≤ S48x128.size a
  k0_t14_ok : k0_t14_loop.OK
  k0_off14_inb : ∀ k0_t14 : Fin k0_t14_loop.trips, ∀ a, (k0_off14 k0_t14) a + S1x16.size a ≤ S48x128.size a
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x4096.size a ≤ S2048x4096.size a
  hwx1_0 : ∀ i : grid1.Coords, EltTy.bits .bf16 = 32 ∨ (Rect.block (s := S2048x4096) S2048x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S1536x4096.size a
  hwx1_1 : ∀ i : grid1.Coords, EltTy.bits .f32 = 32 ∨ (Rect.block (s := S1536x4096) S256x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S1536.size a
  hwx1_2 : ∀ i : grid1.Coords, EltTy.bits .f32 = 32 ∨ (Rect.block (s := S1536) S256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S2048x4096.size a
  hwx1_3 : ∀ i : grid1.Coords, EltTy.bits .f32 = 32 ∨ (Rect.block (s := S2048x4096) S2048x256.size (cc1_transform_3 i) (hinb1_3 i)).WholeWords (EltTy.packing .f32)
  hcore2 : grid2.bound 0 ≤ τ.nSC
  hsub2 : grid2.bound 1 ≤ τ.nSub
  k2_off1_inb : ∀ i : grid2.Coords, ∀ a, (k2_off1 i) a + S80x128.size a ≤ S4096x128.size a
  k2_t1_ok : k2_t1_loop.OK
  k2_t2_ok : k2_t2_loop.OK
  k2_off2_inb : ∀ (k2_t1 : Fin k2_t1_loop.trips) (k2_t2 : Fin k2_t2_loop.trips), ∀ (r : Fin 8), ∀ a, (k2_off2 k2_t1 k2_t2 (BitVec.ofNat 32 (16 * r.val))) a + S1x16.size a ≤ S8x4096.size a
  k2_t3_ok : k2_t3_loop.OK
  k2_t4_ok : k2_t4_loop.OK
  k2_off3_inb : ∀ (k2_t3 : Fin k2_t3_loop.trips) (k2_t4 : Fin k2_t4_loop.trips), ∀ (r : Fin 8), ∀ a, (k2_off3 k2_t3 k2_t4 (BitVec.ofNat 32 (16 * r.val))) a + S1x16.size a ≤ S8x4096.size a
  k2_t5_ok : k2_t5_loop.OK
  k2_off4_inb : ∀ k2_t5 : Fin k2_t5_loop.trips, ∀ a, (k2_off4 k2_t5) a + S1x16.size a ≤ S80x128.size a
  k2_off5_inb : ∀ i : grid2.Coords, ∀ (r : Fin 10), ∀ a, (k2_off5 i (BitVec.ofNat 32 (8 * r.val))) a + S8x4096.size a ≤ S2560x4096.size a
  k2_t6_ok : k2_t6_loop.OK
  k2_off6_inb : ∀ k2_t6 : Fin k2_t6_loop.trips, ∀ a, (k2_off6 k2_t6) a + S1x16.size a ≤ S80x128.size a
  k2_t7_ok : k2_t7_loop.OK
  k2_off7_inb : ∀ k2_t7 : Fin k2_t7_loop.trips, ∀ a, (k2_off7 k2_t7) a + S1x16.size a ≤ S80x128.size a
  k2_t8_ok : k2_t8_loop.OK
  k2_off8_inb : ∀ k2_t8 : Fin k2_t8_loop.trips, ∀ a, (k2_off8 k2_t8) a + S1x16.size a ≤ S80x128.size a
  k2_t9_ok : k2_t9_loop.OK
  k2_off9_inb : ∀ k2_t9 : Fin k2_t9_loop.trips, ∀ a, (k2_off9 k2_t9) a + S1x16.size a ≤ S80x128.size a
  k2_t10_ok : k2_t10_loop.OK
  k2_off10_inb : ∀ k2_t10 : Fin k2_t10_loop.trips, ∀ a, (k2_off10 k2_t10) a + S1x16.size a ≤ S80x128.size a
  k2_t11_ok : k2_t11_loop.OK
  k2_off11_inb : ∀ k2_t11 : Fin k2_t11_loop.trips, ∀ a, (k2_off11 k2_t11) a + S1x16.size a ≤ S80x128.size a
  k2_t12_ok : k2_t12_loop.OK
  k2_off12_inb : ∀ k2_t12 : Fin k2_t12_loop.trips, ∀ a, (k2_off12 k2_t12) a + S1x16.size a ≤ S80x128.size a
  k2_t13_ok : k2_t13_loop.OK
  k2_off13_inb : ∀ k2_t13 : Fin k2_t13_loop.trips, ∀ a, (k2_off13 k2_t13) a + S1x16.size a ≤ S80x128.size a
  k2_t14_ok : k2_t14_loop.OK
  k2_off14_inb : ∀ k2_t14 : Fin k2_t14_loop.trips, ∀ a, (k2_off14 k2_t14) a + S1x16.size a ≤ S80x128.size a
  k2_t15_ok : k2_t15_loop.OK
  k2_off15_inb : ∀ k2_t15 : Fin k2_t15_loop.trips, ∀ a, (k2_off15 k2_t15) a + S1x16.size a ≤ S80x128.size a
  k2_t16_ok : k2_t16_loop.OK
  k2_off16_inb : ∀ k2_t16 : Fin k2_t16_loop.trips, ∀ a, (k2_off16 k2_t16) a + S1x16.size a ≤ S80x128.size a
  k2_t17_ok : k2_t17_loop.OK
  k2_off17_inb : ∀ k2_t17 : Fin k2_t17_loop.trips, ∀ a, (k2_off17 k2_t17) a + S1x16.size a ≤ S80x128.size a
  k2_t18_ok : k2_t18_loop.OK
  k2_off18_inb : ∀ k2_t18 : Fin k2_t18_loop.trips, ∀ a, (k2_off18 k2_t18) a + S1x16.size a ≤ S80x128.size a
  k2_t19_ok : k2_t19_loop.OK
  k2_off19_inb : ∀ k2_t19 : Fin k2_t19_loop.trips, ∀ a, (k2_off19 k2_t19) a + S1x16.size a ≤ S80x128.size a
  k2_t20_ok : k2_t20_loop.OK
  k2_off20_inb : ∀ k2_t20 : Fin k2_t20_loop.trips, ∀ a, (k2_off20 k2_t20) a + S1x16.size a ≤ S80x128.size a
  k2_t21_ok : k2_t21_loop.OK
  k2_off21_inb : ∀ k2_t21 : Fin k2_t21_loop.trips, ∀ a, (k2_off21 k2_t21) a + S1x16.size a ≤ S80x128.size a
  k2_t22_ok : k2_t22_loop.OK
  k2_off22_inb : ∀ k2_t22 : Fin k2_t22_loop.trips, ∀ a, (k2_off22 k2_t22) a + S1x16.size a ≤ S80x128.size a
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S2048x4096.size a ≤ S2048x4096.size a
  hwx3_0 : ∀ i : grid3.Coords, EltTy.bits .bf16 = 32 ∨ (Rect.block (s := S2048x4096) S2048x4096.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x4096.size a ≤ S2560x4096.size a
  hwx3_1 : ∀ i : grid3.Coords, EltTy.bits .f32 = 32 ∨ (Rect.block (s := S2560x4096) S256x4096.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256.size a ≤ S2560.size a
  hwx3_2 : ∀ i : grid3.Coords, EltTy.bits .f32 = 32 ∨ (Rect.block (s := S2560) S256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_4 i = cc3_transform_4 i'
  hinb3_3 : ∀ (i : grid3.Coords) a, (cc3_transform_4 i a + 1) * S2048x256.size a ≤ S2048x4096.size a
  hwx3_3 : ∀ i : grid3.Coords, EltTy.bits .f32 = 32 ∨ (Rect.block (s := S2048x4096) S2048x256.size (cc3_transform_4 i) (hinb3_3 i)).WholeWords (EltTy.packing .f32)

variable [Facts₀]

abbrev cc0_scratch4 : DmaSems sig S_ := SemArray.consecutive 0 S_ hcc0_scratch4
abbrev cc0_scratch5 : DmaSems sig S_ := SemArray.consecutive 1 S_ hcc0_scratch5
abbrev cc0_scoped0 : DmaSems sig S_ := SemArray.consecutive 2 S_ hcc0_scoped0
abbrev cc0_scoped1 : DmaSems sig S_ := SemArray.consecutive 3 S_ hcc0_scoped1
abbrev cc2_scratch4 : DmaSems sig S_ := SemArray.consecutive 11 S_ hcc2_scratch4
abbrev cc2_scratch5 : DmaSems sig S_ := SemArray.consecutive 12 S_ hcc2_scratch5
abbrev cc2_scoped0 : DmaSems sig S_ := SemArray.consecutive 13 S_ hcc2_scoped0
abbrev cc2_scoped1 : DmaSems sig S_ := SemArray.consecutive 14 S_ hcc2_scoped1
def dot_S2048x4096_S256x4096_S2048x256_1_1_0_0_n_n : DotDims S2048x4096 S256x4096 S2048x256 where
  lhsContracting := [1]
  rhsContracting := [1]
  lhsNonContracting := [0]
  rhsNonContracting := [0]
  lhsBatch := []
  rhsBatch := []
  wf := dot_S2048x4096_S256x4096_S2048x256_1_1_0_0_n_n_wf

abbrev win1_0 : Pipeline.Window sig grid1 :=
  Pipeline.Window.ofSpec (Memref.whole main_v0) S2048x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2048x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win3_0 : Pipeline.Window sig grid3 :=
  Pipeline.Window.ofSpec (Memref.whole main_v0) S2048x4096.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v4) S256x4096.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v5) S256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v6) S2048x256.size cc3_transform_4 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S2048x4096 : Shape := ⟨2, ![2048, 4096]⟩
abbrev S4096x128 : Shape := ⟨2, ![4096, 128]⟩
abbrev S4096 : Shape := ⟨1, ![4096]⟩
abbrev S32x128x128 : Shape := ⟨3, ![32, 128, 128]⟩
abbrev S_ : Shape := ⟨0, ![]⟩
abbrev S32x2048x128 : Shape := ⟨3, ![32, 2048, 128]⟩
abbrev S1x128x128 : Shape := ⟨3, ![1, 128, 128]⟩
abbrev S128x128 : Shape := ⟨2, ![128, 128]⟩
abbrev S128x128x1 : Shape := ⟨3, ![128, 128, 1]⟩
abbrev S1 : Shape := ⟨1, ![1]⟩
abbrev S1x1x1 : Shape := ⟨3, ![1, 1, 1]⟩
abbrev S2048x128x128 : Shape := ⟨3, ![2048, 128, 128]⟩
abbrev S128x2048 : Shape := ⟨2, ![128, 2048]⟩
abbrev S2048x128 : Shape := ⟨2, ![2048, 128]⟩
abbrev S1x2048x128 : Shape := ⟨3, ![1, 2048, 128]⟩
abbrev S2048x32x128 : Shape := ⟨3, ![2048, 32, 128]⟩
abbrev S1x4096 : Shape := ⟨2, ![1, 4096]⟩

abbrev nBuf : Space → Nat
  | .hbm => 60
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x128, .f32⟩
  | .hbm, ⟨2, _⟩ => ⟨S4096x128, .i32⟩
  | .hbm, ⟨3, _⟩ => ⟨S4096, .f32⟩
  | .hbm, ⟨4, _⟩ => ⟨S32x128x128, .f32⟩
  | .hbm, ⟨5, _⟩ => ⟨S32x128x128, .i32⟩
  | .hbm, ⟨6, _⟩ => ⟨S_, .f32⟩
  | .hbm, ⟨7, _⟩ => ⟨S32x2048x128, .f32⟩
  | .hbm, ⟨8, _⟩ => ⟨S_, .i32⟩
  | .hbm, ⟨9, _⟩ => ⟨S32x128x128, .f32⟩
  | .hbm, ⟨10, _⟩ => ⟨S32x128x128, .i32⟩
  | .hbm, ⟨11, _⟩ => ⟨S2048x4096, .f32⟩
  | .hbm, ⟨12, _⟩ => ⟨S_, .i32⟩
  | .hbm, ⟨13, _⟩ => ⟨S32x2048x128, .f32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S1x128x128, .f32⟩
  | .hbm, ⟨19, _⟩ => ⟨S128x128, .f32⟩
  | .hbm, ⟨20, _⟩ => ⟨S_, .i32⟩
  | .hbm, ⟨21, _⟩ => ⟨S_, .i32⟩
  | .hbm, ⟨22, _⟩ => ⟨S1x128x128, .i32⟩
  | .hbm, ⟨23, _⟩ => ⟨S128x128, .i32⟩
  | .hbm, ⟨24, _⟩ => ⟨S_, .i32⟩
  | .hbm, ⟨25, _⟩ => ⟨S128x128, .i32⟩
  | .hbm, ⟨26, _⟩ => ⟨S128x128, .i1⟩
  | .hbm, ⟨27, _⟩ => ⟨S_, .i32⟩
  | .hbm, ⟨28, _⟩ => ⟨S128x128, .i32⟩
  | .hbm, ⟨29, _⟩ => ⟨S128x128, .i32⟩
  | .hbm, ⟨30, _⟩ => ⟨S128x128, .i32⟩
  | .hbm, ⟨31, _⟩ => ⟨S128x128x1, .i32⟩
  | .hbm, ⟨32, _⟩ => ⟨S1, .i32⟩
  | .hbm, ⟨33, _⟩ => ⟨S_, .i32⟩
  | .hbm, ⟨34, _⟩ => ⟨S128x128x1, .i32⟩
  | .hbm, ⟨35, _⟩ => ⟨S128x128x1, .i1⟩
  | .hbm, ⟨36, _⟩ => ⟨S1x1x1, .i32⟩
  | .hbm, ⟨37, _⟩ => ⟨S128x128x1, .i32⟩
  | .hbm, ⟨38, _⟩ => ⟨S128x128x1, .i1⟩
  | .hbm, ⟨39, _⟩ => ⟨S128x128x1, .i1⟩
  | .hbm, ⟨40, _⟩ => ⟨S_, .i1⟩
  | .hbm, ⟨41, _⟩ => ⟨S128x128, .i1⟩
  | .hbm, ⟨42, _⟩ => ⟨S2048x128x128, .f32⟩
  | .hbm, ⟨43, _⟩ => ⟨S2048x128x128, .i1⟩
  | .hbm, ⟨44, _⟩ => ⟨S_, .f32⟩
  | .hbm, ⟨45, _⟩ => ⟨S2048x128x128, .f32⟩
  | .hbm, ⟨46, _⟩ => ⟨S2048x128x128, .f32⟩
  | .hbm, ⟨47, _⟩ => ⟨S128x2048, .f32⟩
  | .hbm, ⟨48, _⟩ => ⟨S2048x128, .f32⟩
  | .hbm, ⟨49, _⟩ => ⟨S1x2048x128, .f32⟩
  | .hbm, ⟨50, _⟩ => ⟨S_, .i32⟩
  | .hbm, ⟨51, _⟩ => ⟨S_, .i32⟩
  | .hbm, ⟨52, _⟩ => ⟨S32x2048x128, .f32⟩
  | .hbm, ⟨53, _⟩ => ⟨S_, .i32⟩
  | .hbm, ⟨54, _⟩ => ⟨S_, .i32⟩
  | .hbm, ⟨55, _⟩ => ⟨S2048x32x128, .f32⟩
  | .hbm, ⟨56, _⟩ => ⟨S2048x4096, .f32⟩
  | .hbm, ⟨57, _⟩ => ⟨S1x4096, .f32⟩
  | .hbm, ⟨58, _⟩ => ⟨S2048x4096, .f32⟩
  | .hbm, ⟨59, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_c : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_while0c_c_4 : Ref sig .tc := ⟨.hbm, 14, rfl⟩
abbrev main_while0c_v9 : Ref sig .tc := ⟨.hbm, 15, rfl⟩
abbrev main_while0b_call0_c : Ref sig .tc := ⟨.hbm, 16, rfl⟩
abbrev main_while0b_call0_c_0 : Ref sig .tc := ⟨.hbm, 17, rfl⟩
abbrev main_while0b_call0_v0 : Ref sig .tc := ⟨.hbm, 18, rfl⟩
abbrev main_while0b_v9 : Ref sig .tc := ⟨.hbm, 19, rfl⟩
abbrev main_while0b_call1_c : Ref sig .tc := ⟨.hbm, 20, rfl⟩
abbrev main_while0b_call1_c_0 : Ref sig .tc := ⟨.hbm, 21, rfl⟩
abbrev main_while0b_call1_v0 : Ref sig .tc := ⟨.hbm, 22, rfl⟩
abbrev main_while0b_v10 : Ref sig .tc := ⟨.hbm, 23, rfl⟩
abbrev main_while0b_call2_call0_c : Ref sig .tc := ⟨.hbm, 24, rfl⟩
abbrev main_while0b_call2_call0_v0 : Ref sig .tc := ⟨.hbm, 25, rfl⟩
abbrev main_while0b_call2_call0_v1 : Ref sig .tc := ⟨.hbm, 26, rfl⟩
abbrev main_while0b_call2_call0_c_0 : Ref sig .tc := ⟨.hbm, 27, rfl⟩
abbrev main_while0b_call2_call0_v2 : Ref sig .tc := ⟨.hbm, 28, rfl⟩
abbrev main_while0b_call2_call0_v3 : Ref sig .tc := ⟨.hbm, 29, rfl⟩
abbrev main_while0b_call2_call0_v4 : Ref sig .tc := ⟨.hbm, 30, rfl⟩
abbrev main_while0b_call2_call0_v5 : Ref sig .tc := ⟨.hbm, 31, rfl⟩
abbrev main_while0b_call2_call0_c_1 : Ref sig .tc := ⟨.hbm, 32, rfl⟩
abbrev main_while0b_call2_call0_c_2 : Ref sig .tc := ⟨.hbm, 33, rfl⟩
abbrev main_while0b_call2_call0_v6 : Ref sig .tc := ⟨.hbm, 34, rfl⟩
abbrev main_while0b_call2_call0_v7 : Ref sig .tc := ⟨.hbm, 35, rfl⟩
abbrev main_while0b_call2_call0_v8 : Ref sig .tc := ⟨.hbm, 36, rfl⟩
abbrev main_while0b_call2_call0_v9 : Ref sig .tc := ⟨.hbm, 37, rfl⟩
abbrev main_while0b_call2_call0_v10 : Ref sig .tc := ⟨.hbm, 38, rfl⟩
abbrev main_while0b_call2_call0_v11 : Ref sig .tc := ⟨.hbm, 39, rfl⟩
abbrev main_while0b_call2_call0_c_3 : Ref sig .tc := ⟨.hbm, 40, rfl⟩
abbrev main_while0b_call2_call0_v12 : Ref sig .tc := ⟨.hbm, 41, rfl⟩
abbrev main_while0b_call2_call0_v13 : Ref sig .tc := ⟨.hbm, 42, rfl⟩
abbrev main_while0b_call2_call0_v14 : Ref sig .tc := ⟨.hbm, 43, rfl⟩
abbrev main_while0b_call2_call0_cst : Ref sig .tc := ⟨.hbm, 44, rfl⟩
abbrev main_while0b_call2_call0_v15 : Ref sig .tc := ⟨.hbm, 45, rfl⟩
abbrev main_while0b_call2_v0 : Ref sig .tc := ⟨.hbm, 46, rfl⟩
abbrev main_while0b_call2_v1 : Ref sig .tc := ⟨.hbm, 47, rfl⟩
abbrev main_while0b_v11 : Ref sig .tc := ⟨.hbm, 48, rfl⟩
abbrev main_while0b_call3_v0 : Ref sig .tc := ⟨.hbm, 49, rfl⟩
abbrev main_while0b_call3_c : Ref sig .tc := ⟨.hbm, 50, rfl⟩
abbrev main_while0b_call3_c_0 : Ref sig .tc := ⟨.hbm, 51, rfl⟩
abbrev main_while0b_v12 : Ref sig .tc := ⟨.hbm, 52, rfl⟩
abbrev main_while0b_c_4 : Ref sig .tc := ⟨.hbm, 53, rfl⟩
abbrev main_while0b_v13 : Ref sig .tc := ⟨.hbm, 54, rfl⟩
abbrev main_v4 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩

abbrev nD : Nat := 1
abbrev τ : Topo := Topo.v7x

variable {F : FTy → Type} [FloatOps F]

abbrev main_while0_count : Scf.Loop 32 := ⟨0#32, 32#32, 1#32⟩

class Facts₀ : Prop where
  shapeCasts_S4096x128_S32x128x128 : S4096x128.ShapeCasts S32x128x128
  bcast_S_S32x2048x128 : S_.BroadcastsInDim S32x2048x128 (![] : Fin 0 → Fin S32x2048x128.rank)
  sliceFits_S32x128x128_S1x128x128 : S32x128x128.Slices (fun _ => 0) S1x128x128
  h_S_ : 0 < S_.numel
  shapeCasts_S1x128x128_S128x128 : S1x128x128.ShapeCasts S128x128
  bcast_S_S128x128 : S_.BroadcastsInDim S128x128 (![] : Fin 0 → Fin S128x128.rank)
  bcast_S128x128_S128x128x1_0_1 : S128x128.BroadcastsInDim S128x128x1 (![0, 1] : Fin 2 → Fin S128x128x1.rank)
  bcast_S_S128x128x1 : S_.BroadcastsInDim S128x128x1 (![] : Fin 0 → Fin S128x128x1.rank)
  bcast_S1_S1x1x1_2 : S1.BroadcastsInDim S1x1x1 (![2] : Fin 1 → Fin S1x1x1.rank)
  bcast_S1x1x1_S128x128x1_0_1_2 : S1x1x1.BroadcastsInDim S128x128x1 (![0, 1, 2] : Fin 3 → Fin S128x128x1.rank)
  reducesTo_S128x128x1_S128x128_d2 : S128x128x1.ReducesTo [2] S128x128
  bcast_S128x128_S2048x128x128_1_2 : S128x128.BroadcastsInDim S2048x128x128 (![1, 2] : Fin 2 → Fin S2048x128x128.rank)
  bcast_S_S2048x128x128 : S_.BroadcastsInDim S2048x128x128 (![] : Fin 0 → Fin S2048x128x128.rank)
  transposes_S128x2048_S2048x128_1_0 : S128x2048.Transposes [1, 0] S2048x128
  bcast_S2048x128_S1x2048x128_1_2 : S2048x128.BroadcastsInDim S1x2048x128 (![1, 2] : Fin 2 → Fin S1x2048x128.rank)
  updateFits_S32x2048x128_S1x2048x128 : S32x2048x128.Slices (fun _ => 0) S1x2048x128
  transposes_S32x2048x128_S2048x32x128_1_0_2 : S32x2048x128.Transposes [1, 0, 2] S2048x32x128
  shapeCasts_S2048x32x128_S2048x4096 : S2048x32x128.ShapeCasts S2048x4096
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  gather_S2048x4096_S128x128x1_S2048x128x128_0_1_n_n_1_2_20481_wf : GatherDims.WF S2048x4096 S128x128x1 S2048x128x128 [0] [1] [] [1] [] 2 ![2048, 1]
  dot_S128x128_S2048x128x128_S128x2048_1_2_n_0_0_1_wf : DotDims.WF S128x128 S2048x128x128 S128x2048 [1] [2] [] [0] [0] [1]
  main_while0_ok : main_while0_count.OK

variable [Facts₀]

def gather_S2048x4096_S128x128x1_S2048x128x128_0_1_n_n_1_2_20481 : GatherDims S2048x4096 S128x128x1 S2048x128x128 where
  offsetDims := [0]
  collapsedSliceDims := [1]
  operandBatchingDims := []
  startIndicesBatchingDims := []
  startIndexMap := [1]
  indexVectorDim := 2
  sliceSizes := ![2048, 1]
  wf := gather_S2048x4096_S128x128x1_S2048x128x128_0_1_n_n_1_2_20481_wf
def dot_S128x128_S2048x128x128_S128x2048_1_2_n_0_0_1 : DotDims S128x128 S2048x128x128 S128x2048 where
  lhsContracting := [1]
  rhsContracting := [2]
  lhsNonContracting := []
  rhsNonContracting := [0]
  lhsBatch := [0]
  rhsBatch := [1]
  wf := dot_S128x128_S2048x128x128_S128x2048_1_2_n_0_0_1_wf

class Facts : Prop extends Facts₀ where

variable [Facts]
-- ==== Proof.Spec.lean ====
import Idealize.ShloMosaic.PureOps.Ideal
import Idealize.ShloMosaic.Lib.ValueIdx

noncomputable section

open scoped BigOperators

namespace Cert.Proof.Spec

open Idealize.ShloMosaic Idealize.ShloMosaic.ValueIdx

abbrev SX : Shape := ⟨2, ![2048, 4096]⟩
abbrev SW : Shape := ⟨2, ![4096, 128]⟩
abbrev SB : Shape := ⟨1, ![4096]⟩
abbrev SD : Shape := ⟨2, ![4096, 4096]⟩

def MaskOK (mk : IVec SW 32) : Prop := ∀ i, (mk i).toNat < 4096

def Finite {s : Shape} (v : Vec Ideal s .f32) : Prop := ∀ i, ∃ r : ℝ, v i = (r : EReal)

def col (mk : IVec SW 32) (j : Fin 4096) (k : Fin 128) : Fin 4096 :=
  ⟨(mk (ix2 j k)).toNat % 4096, Nat.mod_lt _ (by decide)⟩

def refOut (x : Vec Ideal SX .f32) (w : Vec Ideal SW .f32) (mk : IVec SW 32) (b : Vec Ideal SB .f32) : Vec Ideal SX .f32 :=
  fun i => (∑ k : Fin 128, x (ix2 (i 0) (col mk (i 1) k)) * w (ix2 (i 1) k)) + b (ix1 (i 1))

def dense (w : Vec Ideal SW .f32) (mk : IVec SW 32) : Vec Ideal SD .f32 :=
  fun jc => ∑ k : Fin 128, if (col mk (jc 0) k).val = (jc 1).val then w (ix2 (jc 0) k) else 0

def kerOut (x : Vec Ideal SX .f32) (w : Vec Ideal SW .f32) (mk : IVec SW 32) (b : Vec Ideal SB .f32) : Vec Ideal SX .f32 :=
  fun i => (∑ c : Fin 4096, x (ix2 (i 0) c) * dense w mk (ix2 (i 1) c)) + b (ix1 (i 1))

theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem kerOut_eq_refOut (x : Vec Ideal SX .f32) (w : Vec Ideal SW .f32) (mk : IVec SW 32) (b : Vec Ideal SB .f32)
    (hx : Finite x) (hw : Finite w) : kerOut x w mk b = refOut x w mk b := by
  classical
  choose xr hxr using hx
  choose wr hwr using hw
  funext i
  unfold kerOut refOut
  congr 1

  have hL : ∀ c : Fin 4096, x (ix2 (i 0) c) * dense w mk (ix2 (i 1) c)
      = ((xr (ix2 (i 0) c) * ∑ k : Fin 128, (if (col mk (i 1) k) = c then wr (ix2 (i 1) k) else 0) : ℝ) : EReal) := by
    intro c
    rw [EReal.coe_mul, coe_finset_sum, hxr]
    congr 1
    unfold dense
    refine Finset.sum_congr rfl fun k _ => ?_
    show (if (col mk (i 1) k).val = c.val then w (ix2 (i 1) k) else 0) = _
    by_cases h : col mk (i 1) k = c
    · rw [if_pos (congrArg Fin.val h), if_pos h, hwr]
    · rw [if_neg (fun h' => h (Fin.ext h')), if_neg h, EReal.coe_zero]
  have hR : ∀ k : Fin 128, x (ix2 (i 0) (col mk (i 1) k)) * w (ix2 (i 1) k)
      = ((xr (ix2 (i 0) (col mk (i 1) k)) * wr (ix2 (i 1) k) : ℝ) : EReal) := by
    intro k; rw [EReal.coe_mul, hxr, hwr]
  rw [Finset.sum_congr rfl fun c _ => hL c, Finset.sum_congr rfl fun k _ => hR k, ← coe_finset_sum, ← coe_finset_sum]
  congr 1
  simp only [Finset.mul_sum]
  rw [Finset.sum_comm]
  refine Finset.sum_congr rfl fun k _ => ?_
  simp only [mul_ite, mul_zero]
  rw [Finset.sum_ite_eq]
  simp

end Cert.Proof.Spec

end
-- ==== Proof.PreDecode.lean ====
import proofs.«207445_g73023033966933_cont_9to1_m_863_36_alg».proof.Defs
import proofs.«207445_g73023033966933_cont_9to1_m_863_36_alg».proof.Proof.Spec
import Idealize.ShloMosaic.Lib.ReduceAll
import Idealize.ShloMosaic.Lib.ValueIdx

noncomputable section

namespace Cert.Proof.PreDecode

open Idealize.ShloMosaic Idealize.ShloMosaic.ValueIdx Idealize.SL.Sem
open Cert.Pre_input_domain (S2048x4096 S4096x128 S4096 S_)

variable [hP : Cert.Pre_input_domain.Facts]

instance subsingleton_S_ : Subsingleton S_.Idx := ⟨fun a b => funext fun d => d.elim0⟩

theorem toNat_lt_of_range (v : BitVec 32) (h0 : IntOp.cmpi .sge v 0#32 = 1#1) (h1 : IntOp.cmpi .sle v 4095#32 = 1#1) :
    v.toNat < 4096 := by
  rw [IntOp.cmpi_sge] at h0
  rw [IntOp.cmpi_sle] at h1
  have z : (0#32 : BitVec 32).toInt = 0 := by decide
  have c : (4095#32 : BitVec 32).toInt = 4095 := by decide
  rw [z] at h0
  rw [c] at h1
  rw [BitVec.toInt_eq_toNat_cond] at h0 h1
  have hv := v.isLt
  split at h0 <;> omega

theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := by
    by_contra hn
    simp [Ideal.cmp, hn] at h
  induction x using EReal.rec with
  | bot => simp at hlt
  | coe r => exact ⟨r, rfl⟩
  | top => simp at hlt

theorem decode {F : FTy → Type} [FloatOps F] (a0 : FVec F S2048x4096 .f32) (a1 : FVec F S4096x128 .f32)
    (a2 : IVec S4096x128 32) (a3 : FVec F S4096 .f32)
    (h : Cert.Pre_input_domain.fn (F := F) a0 a1 a2 a3 = (fun _ => 1#1)) :
    (∀ i, FloatOps.cmpf .olt (FloatOps.hostAbsf (a0 i)) (FloatOps.ofBits (F := F) .f32 0x7F800000#32) = 1#1)
    ∧ (∀ i, FloatOps.cmpf .olt (FloatOps.hostAbsf (a1 i)) (FloatOps.ofBits (F := F) .f32 0x7F800000#32) = 1#1)
    ∧ (∀ i, FloatOps.cmpf .olt (FloatOps.hostAbsf (a3 i)) (FloatOps.ofBits (F := F) .f32 0x7F800000#32) = 1#1)
    ∧ (∀ i, IntOp.cmpi .sge (a2 i) 0#32 = 1#1 ∧ IntOp.cmpi .sle (a2 i) 4095#32 = 1#1) := by
  have e := congrFun h ix0
  dsimp only [Cert.Pre_input_domain.fn, Cert.Pre_input_domain.fn_part1] at e
  simp only [andi, IntOp.andi_eq_one] at e
  obtain ⟨⟨⟨h0, h1⟩, h3⟩, h2⟩ := e
  refine ⟨fun i => ?_, fun i => ?_, fun i => ?_, fun i => ?_⟩
  · exact Host.reduce_andi_all _ _ _ _ _ h0 i
  · exact Host.reduce_andi_all _ _ _ _ _ h1 i
  · exact Host.reduce_andi_all _ _ _ _ _ h3 i
  · exact IntOp.andi_eq_one.1 (Host.reduce_andi_all _ _ _ _ _ h2 i)

theorem maskOK_of_pre_F {F : FTy → Type} [FloatOps F] (a0 : FVec F S2048x4096 .f32) (a1 : FVec F S4096x128 .f32)
    (a2 : IVec S4096x128 32) (a3 : FVec F S4096 .f32)
    (h : Cert.Pre_input_domain.fn (F := F) a0 a1 a2 a3 = (fun _ => 1#1)) : Spec.MaskOK a2 := fun i =>
  toNat_lt_of_range _ ((decode a0 a1 a2 a3 h).2.2.2 i).1 ((decode a0 a1 a2 a3 h).2.2.2 i).2

theorem finite_of_pre (a0 : FVec Ideal S2048x4096 .f32) (a1 : FVec Ideal S4096x128 .f32)
    (a2 : IVec S4096x128 32) (a3 : FVec Ideal S4096 .f32)
    (h : Cert.Pre_input_domain.fn (F := Ideal) a0 a1 a2 a3 = (fun _ => 1#1)) :
    Spec.Finite a0 ∧ Spec.Finite a1 ∧ Spec.Finite a3 := by
  obtain ⟨h0, h1, h3, -⟩ := decode a0 a1 a2 a3 h
  exact ⟨fun i => real_of_abs_lt_top _ (h0 i), fun i => real_of_abs_lt_top _ (h1 i), fun i => real_of_abs_lt_top _ (h3 i)⟩

section KernelIdeal

theorem maskOK_KernelIdeal (m : (ℓ : Loc Cert.KernelIdeal.nD Cert.KernelIdeal.τ Cert.KernelIdeal.sig) → Buf (Elt Ideal) ℓ)
    (h : Cert.Pre_KernelIdeal m) (c : Dev Cert.KernelIdeal.nD) :
    Spec.MaskOK (m ((c.tc : Thread Cert.KernelIdeal.nD Cert.KernelIdeal.τ).loc Cert.KernelIdeal.main_arg2)) :=
  maskOK_of_pre_F _ _ _ _ (h c)

theorem finite_KernelIdeal (m : (ℓ : Loc Cert.KernelIdeal.nD Cert.KernelIdeal.τ Cert.KernelIdeal.sig) → Buf (Elt Ideal) ℓ)
    (h : Cert.Pre_KernelIdeal m) (c : Dev Cert.KernelIdeal.nD) :
    Spec.Finite (m ((c.tc : Thread Cert.KernelIdeal.nD Cert.KernelIdeal.τ).loc Cert.KernelIdeal.main_arg0))
    ∧ Spec.Finite (m ((c.tc : Thread Cert.KernelIdeal.nD Cert.KernelIdeal.τ).loc Cert.KernelIdeal.main_arg1))
    ∧ Spec.Finite (m ((c.tc : Thread Cert.KernelIdeal.nD Cert.KernelIdeal.τ).loc Cert.KernelIdeal.main_arg3)) :=
  finite_of_pre _ _ _ _ (h c)

end KernelIdeal

theorem maskOK_Kernel (m : (ℓ : Loc Cert.Kernel.nD Cert.Kernel.τ Cert.Kernel.sig) → Buf (Elt Bits) ℓ)
    (h : Cert.Pre_Kernel m) (c : Dev Cert.Kernel.nD) :
    Spec.MaskOK (m ((c.tc : Thread Cert.Kernel.nD Cert.Kernel.τ).loc Cert.Kernel.main_arg2)) :=
  maskOK_of_pre_F _ _ _ _ (h c)

end Cert.Proof.PreDecode

end
-- ==== Proof.SpecF.lean ====
import Idealize.ShloMosaic.PureOps.Ideal
import Idealize.ShloMosaic.Lib.ValueIdx

noncomputable section

open scoped BigOperators

namespace Cert.Proof.SpecF

open Idealize.ShloMosaic Idealize.ShloMosaic.ValueIdx

abbrev SBk : Shape := ⟨2, ![8, 4096]⟩

abbrev S16 : Shape := ⟨1, ![16]⟩

section Generic
variable {F : FTy → Type} [FloatOps F]

theorem storeIdx_apply {s : Shape} {e : EltTy} {d : Fin 1 → Nat} (f : Vec F s e) (idxs : Fin s.rank → IVec ⟨1, d⟩ 32)
    (v : Vec F ⟨1, d⟩ e) (add : Bool) (h : ∀ a x, (idxs a x).toNat < s.size a) (j : s.Idx) :
    storeIdx f idxs v (fun _ => 1#1) add h j
      = (List.finRange (d 0)).foldl (fun y k =>
          if (∀ a, (j a).val = (idxs a (Shape.ofLane k)).toNat) then
            (if add then Elt.idxAdd e y (v (Shape.ofLane k)) else v (Shape.ofLane k)) else y) (f j) := by
  unfold storeIdx
  generalize List.finRange (d 0) = l
  induction l generalizing f with
  | nil => rfl
  | cons k l ih =>
    rw [List.foldl_cons, List.foldl_cons, ih]
    congr 1
    rw [if_pos (show ((fun _ => 1#1 : IVec ⟨1, d⟩ 1) (Shape.ofLane k) = 1) from rfl)]
    by_cases hj : ∀ a, (j a).val = (idxs a (Shape.ofLane k)).toNat
    · have hji : idxAt idxs h (Shape.ofLane k) = j := by
        funext a; exact Fin.ext (hj a).symm
      rw [if_pos hj]
      show (if (∀ a, (j a).val = (idxAt idxs h (Shape.ofLane k) a).val) then _ else _) = _
      rw [if_pos (show ∀ a, (j a).val = (idxAt idxs h (Shape.ofLane k) a).val from hj), hji]
    · rw [if_neg hj]
      show (if (∀ a, (j a).val = (idxAt idxs h (Shape.ofLane k) a).val) then _ else _) = _
      rw [if_neg (show ¬ ∀ a, (j a).val = (idxAt idxs h (Shape.ofLane k) a).val from hj)]

theorem foldl_ite_of_forall_not {α β : Type*} (p : β → Prop) [DecidablePred p] (g : α → β → α) (l : List β) (y0 : α)
    (hl : ∀ k ∈ l, ¬ p k) : l.foldl (fun y k => if p k then g y k else y) y0 = y0 := by
  induction l generalizing y0 with
  | nil => rfl
  | cons k l ih =>
    rw [List.foldl_cons, if_neg (hl k (List.mem_cons_self ..))]
    exact ih y0 fun k' hk' => hl k' (List.mem_cons_of_mem _ hk')

theorem foldl_ite_const {α β : Type*} (p : β → Prop) [DecidablePred p] (z : α) (l : List β) (y0 : α)
    (hl : ∃ k ∈ l, p k) : l.foldl (fun y k => if p k then z else y) y0 = z := by
  induction l generalizing y0 with
  | nil => obtain ⟨k, hk, _⟩ := hl; cases hk
  | cons k l ih =>
    rw [List.foldl_cons]
    by_cases hl' : ∃ k' ∈ l, p k'
    · exact ih _ hl'
    · have hpk : p k := by
        obtain ⟨k', hk', hp⟩ := hl
        rcases List.mem_cons.mp hk' with rfl | hmem
        · exact hp
        · exact absurd ⟨k', hmem, hp⟩ hl'
      rw [if_pos hpk]
      exact foldl_ite_of_forall_not p (fun _ _ => z) l z fun k' hk' hp => hl' ⟨k', hk', hp⟩

theorem foldl_ite_add {β : Type*} (p : β → Prop) [DecidablePred p] (v : β → EReal) (l : List β) (y0 : EReal) :
    l.foldl (fun y k => if p k then y + v k else y) y0 = y0 + (l.map fun k => if p k then v k else 0).sum := by
  induction l generalizing y0 with
  | nil => simp
  | cons k l ih =>
    rw [List.foldl_cons, ih, List.map_cons, List.sum_cons]
    by_cases hp : p k
    · rw [if_pos hp, if_pos hp, add_assoc]
    · rw [if_neg hp, if_neg hp, zero_add]

theorem ofLane_eq_ix1 (k : Fin ((![16] : Fin 1 → Nat) 0)) : (Shape.ofLane k : S16.Idx) = ix1 (n := 16) k := by
  funext a
  match a with
  | ⟨0, _⟩ => rfl

theorem storeIdx_blk_apply (blk : Vec F SBk .f32) (rowv idx : IVec S16 32) (v : Vec F S16 .f32) (add : Bool)
    (h : ∀ a x, ((![rowv, idx] : Fin 2 → IVec S16 32) a x).toNat < SBk.size a) (j : SBk.Idx) :
    storeIdx blk ![rowv, idx] v (fun _ => 1#1) add h j
      = (List.finRange 16).foldl (fun y k =>
          if ((j 0).val = (rowv (ix1 k)).toNat ∧ (j 1).val = (idx (ix1 k)).toNat) then
            (if add then Elt.idxAdd .f32 y (v (ix1 k)) else v (ix1 k)) else y) (blk j) := by
  rw [storeIdx_apply]
  show (List.finRange 16).foldl _ _ = _
  congr 1
  funext y k
  rw [ofLane_eq_ix1]
  by_cases hc : (j 0).val = (rowv (ix1 k)).toNat ∧ (j 1).val = (idx (ix1 k)).toNat
  · rw [if_pos hc, if_pos]
    intro a
    match a with
    | ⟨0, _⟩ => exact hc.1
    | ⟨1, _⟩ => exact hc.2
  · rw [if_neg hc, if_neg]
    intro hall
    exact hc ⟨hall 0, hall 1⟩

theorem storeIdx_of_not_named (blk : Vec F SBk .f32) (rowv idx : IVec S16 32) (v : Vec F S16 .f32) (add : Bool)
    (h : ∀ a x, ((![rowv, idx] : Fin 2 → IVec S16 32) a x).toNat < SBk.size a)
    (r : Nat) (hrow : ∀ x, (rowv x).toNat = r) (j : SBk.Idx)
    (hj : ¬ ((j 0).val = r ∧ ∃ k : Fin 16, (idx (ix1 k)).toNat = (j 1).val)) :
    storeIdx blk ![rowv, idx] v (fun _ => 1#1) add h j = blk j := by
  rw [storeIdx_blk_apply]
  apply foldl_ite_of_forall_not
    (p := fun k : Fin 16 => (j 0).val = (rowv (ix1 k)).toNat ∧ (j 1).val = (idx (ix1 k)).toNat)
    (g := fun y k => if add then Elt.idxAdd .f32 y (v (ix1 k)) else v (ix1 k))
  intro k _ hk
  exact hj ⟨hk.1.trans (hrow _), k, hk.2.symm⟩

theorem storeIdx_const_of_named (blk : Vec F SBk .f32) (rowv idx : IVec S16 32) (z : Elt F .f32)
    (h : ∀ a x, ((![rowv, idx] : Fin 2 → IVec S16 32) a x).toNat < SBk.size a)
    (r : Nat) (hrow : ∀ x, (rowv x).toNat = r) (j : SBk.Idx)
    (hj : (j 0).val = r ∧ ∃ k : Fin 16, (idx (ix1 k)).toNat = (j 1).val) :
    storeIdx blk ![rowv, idx] (fun _ => z) (fun _ => 1#1) false h j = z := by
  rw [storeIdx_blk_apply]
  simp only [Bool.false_eq_true, if_false]
  apply foldl_ite_const
    (p := fun k : Fin 16 => (j 0).val = (rowv (ix1 k)).toNat ∧ (j 1).val = (idx (ix1 k)).toNat)
  obtain ⟨h0, k, hk⟩ := hj
  exact ⟨k, List.mem_finRange k, h0.trans (hrow _).symm, hk.symm⟩

def stepRow (i : Nat) : Fin 8 := ⟨i / 8 % 8, Nat.mod_lt _ (by decide)⟩

def stepCol (i : Nat) (x : Fin 16) : Fin 128 := ⟨16 * (i % 8) + x.val, by have := x.isLt; omega⟩

def rowVec (i : Nat) : IVec S16 32 := fun _ => BitVec.ofNat 32 (i / 8 % 8)

def idxVec (mr : Fin 8 → Fin 128 → BitVec 32) (i : Nat) : IVec S16 32 := fun x => mr (stepRow i) (stepCol i (x 0))

def valVec (wr : Fin 8 → Fin 128 → Elt F .f32) (i : Nat) : Vec F S16 .f32 := fun x => wr (stepRow i) (stepCol i (x 0))

def StepOK (mr : Fin 8 → Fin 128 → BitVec 32) (i : Nat) : Prop :=
  ∀ a x, ((![rowVec i, idxVec mr i] : Fin 2 → IVec S16 32) a x).toNat < SBk.size a

open Classical in

def stepAdd (wr : Fin 8 → Fin 128 → Elt F .f32) (mr : Fin 8 → Fin 128 → BitVec 32) (i : Nat) (blk : Vec F SBk .f32) :
    Vec F SBk .f32 :=
  if h : StepOK mr i then storeIdx blk ![rowVec i, idxVec mr i] (valVec wr i) (fun _ => 1#1) true h else blk

open Classical in

def stepClr (z : Elt F .f32) (mr : Fin 8 → Fin 128 → BitVec 32) (i : Nat) (blk : Vec F SBk .f32) : Vec F SBk .f32 :=
  if h : StepOK mr i then storeIdx blk ![rowVec i, idxVec mr i] (fun _ => z) (fun _ => 1#1) false h else blk

def foldAdd (wr : Fin 8 → Fin 128 → Elt F .f32) (mr : Fin 8 → Fin 128 → BitVec 32) : Nat → Vec F SBk .f32 → Vec F SBk .f32
  | 0, blk => blk
  | n + 1, blk => stepAdd wr mr n (foldAdd wr mr n blk)

def foldClr (z : Elt F .f32) (mr : Fin 8 → Fin 128 → BitVec 32) : Nat → Vec F SBk .f32 → Vec F SBk .f32
  | 0, blk => blk
  | n + 1, blk => stepClr z mr n (foldClr z mr n blk)

@[simp] theorem foldAdd_zero (wr : Fin 8 → Fin 128 → Elt F .f32) (mr : Fin 8 → Fin 128 → BitVec 32) (blk : Vec F SBk .f32) :
    foldAdd wr mr 0 blk = blk := rfl
theorem foldAdd_succ (wr : Fin 8 → Fin 128 → Elt F .f32) (mr : Fin 8 → Fin 128 → BitVec 32) (n : Nat) (blk : Vec F SBk .f32) :
    foldAdd wr mr (n + 1) blk = stepAdd wr mr n (foldAdd wr mr n blk) := rfl
@[simp] theorem foldClr_zero (z : Elt F .f32) (mr : Fin 8 → Fin 128 → BitVec 32) (blk : Vec F SBk .f32) :
    foldClr z mr 0 blk = blk := rfl
theorem foldClr_succ (z : Elt F .f32) (mr : Fin 8 → Fin 128 → BitVec 32) (n : Nat) (blk : Vec F SBk .f32) :
    foldClr z mr (n + 1) blk = stepClr z mr n (foldClr z mr n blk) := rfl

theorem rowVec_toNat (i : Nat) (x : S16.Idx) : (rowVec i x).toNat = i / 8 % 8 := by
  show (BitVec.ofNat 32 (i / 8 % 8)).toNat = _
  rw [BitVec.toNat_ofNat]
  have : i / 8 % 8 < 8 := Nat.mod_lt _ (by decide)
  omega

theorem stepOK_of_lt (mr : Fin 8 → Fin 128 → BitVec 32) (hm : ∀ r k, (mr r k).toNat < 4096) (i : Nat) : StepOK mr i := by
  intro a x
  match a with
  | ⟨0, _⟩ =>
    show (rowVec i x).toNat < 8
    rw [rowVec_toNat]
    exact Nat.mod_lt _ (by decide)
  | ⟨1, _⟩ => exact hm _ _

theorem storeIdx_eq_stepAdd (wr : Fin 8 → Fin 128 → Elt F .f32) (mr : Fin 8 → Fin 128 → BitVec 32) (n : Nat) (hn : n < 64)
    (blk : Vec F SBk .f32) (rowv idx : IVec S16 32) (v : Vec F S16 .f32)
    (h : ∀ a x, ((![rowv, idx] : Fin 2 → IVec S16 32) a x).toNat < SBk.size a)
    (hrow : ∀ x, (rowv x).toNat = n / 8) (hidx : ∀ x, idx x = mr (stepRow n) (stepCol n (x 0)))
    (hv : ∀ x, v x = wr (stepRow n) (stepCol n (x 0))) :
    storeIdx blk ![rowv, idx] v (fun _ => 1#1) true h = stepAdd wr mr n blk := by
  have e1 : rowv = rowVec n := by
    funext x
    apply BitVec.eq_of_toNat_eq
    rw [hrow, rowVec_toNat]
    omega
  have e2 : idx = idxVec mr n := funext hidx
  have e3 : v = valVec wr n := funext hv
  subst e1 e2 e3
  unfold stepAdd
  rw [dif_pos (show StepOK mr n from h)]

theorem storeIdx_eq_stepClr (z : Elt F .f32) (mr : Fin 8 → Fin 128 → BitVec 32) (n : Nat) (hn : n < 64)
    (blk : Vec F SBk .f32) (rowv idx : IVec S16 32) (v : Vec F S16 .f32)
    (h : ∀ a x, ((![rowv, idx] : Fin 2 → IVec S16 32) a x).toNat < SBk.size a)
    (hrow : ∀ x, (rowv x).toNat = n / 8) (hidx : ∀ x, idx x = mr (stepRow n) (stepCol n (x 0)))
    (hv : ∀ x, v x = z) :
    storeIdx blk ![rowv, idx] v (fun _ => 1#1) false h = stepClr z mr n blk := by
  have e1 : rowv = rowVec n := by
    funext x
    apply BitVec.eq_of_toNat_eq
    rw [hrow, rowVec_toNat]
    omega
  have e2 : idx = idxVec mr n := funext hidx
  have e3 : v = fun _ => z := funext hv
  subst e1 e2 e3
  unfold stepClr
  rw [dif_pos (show StepOK mr n from h)]

theorem stepAdd_of_not_named (wr : Fin 8 → Fin 128 → Elt F .f32) (mr : Fin 8 → Fin 128 → BitVec 32)
    (hm : ∀ r k, (mr r k).toNat < 4096) (n : Nat) (blk : Vec F SBk .f32) (j : SBk.Idx)
    (hj : ¬ ((j 0).val = n / 8 % 8 ∧ ∃ k : Fin 16, (idxVec mr n (ix1 k)).toNat = (j 1).val)) :
    stepAdd wr mr n blk j = blk j := by
  unfold stepAdd
  rw [dif_pos (stepOK_of_lt mr hm n)]
  exact storeIdx_of_not_named _ _ _ _ _ _ (n / 8 % 8) (rowVec_toNat n) j hj

theorem stepClr_of_not_named (z : Elt F .f32) (mr : Fin 8 → Fin 128 → BitVec 32)
    (hm : ∀ r k, (mr r k).toNat < 4096) (n : Nat) (blk : Vec F SBk .f32) (j : SBk.Idx)
    (hj : ¬ ((j 0).val = n / 8 % 8 ∧ ∃ k : Fin 16, (idxVec mr n (ix1 k)).toNat = (j 1).val)) :
    stepClr z mr n blk j = blk j := by
  unfold stepClr
  rw [dif_pos (stepOK_of_lt mr hm n)]
  exact storeIdx_of_not_named _ _ _ _ _ _ (n / 8 % 8) (rowVec_toNat n) j hj

theorem stepClr_of_named (z : Elt F .f32) (mr : Fin 8 → Fin 128 → BitVec 32)
    (hm : ∀ r k, (mr r k).toNat < 4096) (n : Nat) (blk : Vec F SBk .f32) (j : SBk.Idx)
    (hj : (j 0).val = n / 8 % 8 ∧ ∃ k : Fin 16, (idxVec mr n (ix1 k)).toNat = (j 1).val) :
    stepClr z mr n blk j = z := by
  unfold stepClr
  rw [dif_pos (stepOK_of_lt mr hm n)]
  exact storeIdx_const_of_named _ _ _ z _ (n / 8 % 8) (rowVec_toNat n) j hj

def Touched (mr : Fin 8 → Fin 128 → BitVec 32) (n : Nat) (j : SBk.Idx) : Prop :=
  ∃ i, i < n ∧ ((j 0).val = i / 8 % 8 ∧ ∃ k : Fin 16, (idxVec mr i (ix1 k)).toNat = (j 1).val)

theorem touched_succ (mr : Fin 8 → Fin 128 → BitVec 32) (n : Nat) (j : SBk.Idx) :
    Touched mr (n + 1) j ↔
      Touched mr n j ∨ ((j 0).val = n / 8 % 8 ∧ ∃ k : Fin 16, (idxVec mr n (ix1 k)).toNat = (j 1).val) := by
  constructor
  · rintro ⟨i, hi, hk⟩
    rcases Nat.lt_succ_iff_lt_or_eq.mp hi with hlt | rfl
    · exact Or.inl ⟨i, hlt, hk⟩
    · exact Or.inr hk
  · rintro (⟨i, hi, hk⟩ | hk)
    · exact ⟨i, Nat.lt_succ_of_lt hi, hk⟩
    · exact ⟨n, Nat.lt_succ_self n, hk⟩

theorem foldAdd_of_not_touched (wr : Fin 8 → Fin 128 → Elt F .f32) (mr : Fin 8 → Fin 128 → BitVec 32)
    (hm : ∀ r k, (mr r k).toNat < 4096) (n : Nat) (blk : Vec F SBk .f32) (j : SBk.Idx) (hj : ¬ Touched mr n j) :
    foldAdd wr mr n blk j = blk j := by
  induction n with
  | zero => rfl
  | succ n ih =>
    rw [touched_succ, not_or] at hj
    rw [foldAdd_succ, stepAdd_of_not_named wr mr hm n _ j hj.2]
    exact ih hj.1

theorem foldClr_of_not_touched (z : Elt F .f32) (mr : Fin 8 → Fin 128 → BitVec 32)
    (hm : ∀ r k, (mr r k).toNat < 4096) (n : Nat) (blk : Vec F SBk .f32) (j : SBk.Idx) (hj : ¬ Touched mr n j) :
    foldClr z mr n blk j = blk j := by
  induction n with
  | zero => rfl
  | succ n ih =>
    rw [touched_succ, not_or] at hj
    rw [foldClr_succ, stepClr_of_not_named z mr hm n _ j hj.2]
    exact ih hj.1

theorem foldClr_of_touched (z : Elt F .f32) (mr : Fin 8 → Fin 128 → BitVec 32)
    (hm : ∀ r k, (mr r k).toNat < 4096) (n : Nat) (blk : Vec F SBk .f32) (j : SBk.Idx) (hj : Touched mr n j) :
    foldClr z mr n blk j = z := by
  induction n with
  | zero => obtain ⟨i, hi, _⟩ := hj; exact absurd hi (Nat.not_lt_zero i)
  | succ n ih =>
    rw [foldClr_succ]
    by_cases hn : ((j 0).val = n / 8 % 8 ∧ ∃ k : Fin 16, (idxVec mr n (ix1 k)).toNat = (j 1).val)
    · exact stepClr_of_named z mr hm n _ j hn
    · rw [stepClr_of_not_named z mr hm n _ j hn]
      rcases (touched_succ mr n j).mp hj with ht | ht
      · exact ih ht
      · exact absurd ht hn

theorem foldClr_foldAdd (wr : Fin 8 → Fin 128 → Elt F .f32) (mr : Fin 8 → Fin 128 → BitVec 32)
    (hm : ∀ r k, (mr r k).toNat < 4096) (z : Elt F .f32) :
    foldClr z mr 64 (foldAdd wr mr 64 (fun _ => z)) = fun _ => z := by
  funext j
  by_cases ht : Touched mr 64 j
  · exact foldClr_of_touched z mr hm 64 _ j ht
  · rw [foldClr_of_not_touched z mr hm 64 _ j ht, foldAdd_of_not_touched wr mr hm 64 _ j ht]

end Generic

theorem storeIdx_add_apply (blk : Vec Ideal SBk .f32) (rowv idx : IVec S16 32) (v : Vec Ideal S16 .f32)
    (h : ∀ a x, ((![rowv, idx] : Fin 2 → IVec S16 32) a x).toNat < SBk.size a)
    (r : Fin 8) (hrow : ∀ x, (rowv x).toNat = r.val) (c : Fin 4096) :
    storeIdx blk ![rowv, idx] v (fun _ => 1#1) true h (ix2 r c)
      = blk (ix2 r c) + ∑ k : Fin 16, if (idx (ix1 k)).toNat = c.val then v (ix1 k) else 0 := by
  rw [storeIdx_blk_apply, Fin.sum_univ_def]
  simp only [if_true, Elt.idxAdd_f32, Ideal.idxAddf_def]
  rw [foldl_ite_add
    (p := fun k : Fin 16 => ((ix2 r c : SBk.Idx) 0).val = (rowv (ix1 k)).toNat ∧ ((ix2 r c : SBk.Idx) 1).val = (idx (ix1 k)).toNat)
    (v := fun k => v (ix1 k))]
  congr 2
  congr 1
  funext k
  by_cases hc : (idx (ix1 k)).toNat = c.val
  · rw [if_pos hc, if_pos ⟨(hrow _).symm, hc.symm⟩]
  · rw [if_neg hc, if_neg (fun h' => hc h'.2.symm)]

theorem sum_fin_mul {M : Type*} [AddCommMonoid M] (m n : ℕ) (f : Fin (m * n) → M) :
    ∑ k, f k = ∑ a : Fin m, ∑ b : Fin n, f (finProdFinEquiv (a, b)) := by
  rw [← finProdFinEquiv.sum_comp, Fintype.sum_prod_type]

theorem sum_range64 {M : Type*} [AddCommMonoid M] (f : ℕ → M) :
    ∑ i ∈ Finset.range 64, f i = ∑ a : Fin 8, ∑ b : Fin 8, f (b.val + 8 * a.val) := by
  rw [Finset.sum_range]
  exact sum_fin_mul 8 8 (fun i => f i.val)

theorem sum_fin128 {M : Type*} [AddCommMonoid M] (f : Fin 128 → M) :
    ∑ k, f k = ∑ a : Fin 8, ∑ b : Fin 16, f ⟨b.val + 16 * a.val, by have := a.isLt; have := b.isLt; omega⟩ :=
  sum_fin_mul 8 16 f

theorem foldAdd_apply_range (wr : Fin 8 → Fin 128 → Elt Ideal .f32) (mr : Fin 8 → Fin 128 → BitVec 32)
    (hm : ∀ r k, (mr r k).toNat < 4096) (r : Fin 8) (c : Fin 4096) (n : Nat) (blk : Vec Ideal SBk .f32) :
    foldAdd wr mr n blk (ix2 r c)
      = blk (ix2 r c) + ∑ i ∈ Finset.range n, if stepRow i = r then
          (∑ x : Fin 16, if (mr r (stepCol i x)).toNat = c.val then wr r (stepCol i x) else 0) else 0 := by
  induction n with
  | zero => simp
  | succ n ih =>
    rw [foldAdd_succ, Finset.sum_range_succ, ← add_assoc, ← ih]
    by_cases hr : stepRow n = r
    · subst hr
      rw [if_pos rfl]
      unfold stepAdd
      rw [dif_pos (stepOK_of_lt mr hm n)]
      exact storeIdx_add_apply _ _ _ _ _ (stepRow n) (rowVec_toNat n) c
    · rw [if_neg hr, add_zero]
      apply stepAdd_of_not_named wr mr hm n
      intro h'
      exact hr (Fin.ext h'.1.symm)

theorem foldAdd_apply (wr : Fin 8 → Fin 128 → Elt Ideal .f32) (mr : Fin 8 → Fin 128 → BitVec 32)
    (hm : ∀ r k, (mr r k).toNat < 4096) (r : Fin 8) (c : Fin 4096) :
    foldAdd wr mr 64 (fun _ => (0 : EReal)) (ix2 r c) = ∑ k : Fin 128, if (mr r k).toNat = c.val then wr r k else 0 := by
  rw [foldAdd_apply_range wr mr hm r c 64]
  show (0 : EReal) + _ = _
  rw [zero_add, sum_range64, sum_fin128]
  have hrow : ∀ a b : Fin 8, stepRow (b.val + 8 * a.val) = a := by
    intro a b
    apply Fin.ext
    show (b.val + 8 * a.val) / 8 % 8 = a.val
    have := a.isLt; have := b.isLt
    omega
  have hcol : ∀ (a b : Fin 8) (x : Fin 16),
      stepCol (b.val + 8 * a.val) x = ⟨x.val + 16 * b.val, by have := x.isLt; have := b.isLt; omega⟩ := by
    intro a b x
    apply Fin.ext
    show 16 * ((b.val + 8 * a.val) % 8) + x.val = x.val + 16 * b.val
    have := a.isLt; have := b.isLt
    omega
  simp only [hrow, hcol]
  rw [Finset.sum_comm]
  simp only [Finset.sum_ite_eq', Finset.mem_univ, if_true]

end Cert.Proof.SpecF

end
-- ==== Proof.DenseF.lean ====
import proofs.«207445_g73023033966933_cont_9to1_m_863_36_alg».proof.Proof.SpecF

noncomputable section

namespace Cert.Proof.DenseF

open Idealize.ShloMosaic Idealize.ShloMosaic.ValueIdx

variable {F : FTy → Type} [FloatOps F]

abbrev SWt : Shape := ⟨2, ![4096, 128]⟩
abbrev SDn : Shape := ⟨2, ![4096, 4096]⟩

def rowsW (w : Vec F SWt .f32) (base : ℕ) : Fin 8 → Fin 128 → Elt F .f32 :=
  fun r k => w (ix2 ⟨(base + r.val) % 4096, Nat.mod_lt _ (by decide)⟩ k)

def rowsM (mk : IVec SWt 32) (base : ℕ) : Fin 8 → Fin 128 → BitVec 32 :=
  fun r k => mk (ix2 ⟨(base + r.val) % 4096, Nat.mod_lt _ (by decide)⟩ k)

def subBlock (w : Vec F SWt .f32) (mk : IVec SWt 32) (z : Elt F .f32) (base : ℕ) : Vec F SpecF.SBk .f32 :=
  SpecF.foldAdd (rowsW w base) (rowsM mk base) 64 (fun _ => z)

def denseF (w : Vec F SWt .f32) (mk : IVec SWt 32) (z : Elt F .f32) : Vec F SDn .f32 :=
  fun jc => subBlock w mk z (8 * ((jc 0).val / 8)) (ix2 ⟨(jc 0).val % 8, Nat.mod_lt _ (by decide)⟩ (jc 1))

end Cert.Proof.DenseF

end
-- ==== Proof.DenseIdeal.lean ====
import proofs.«207445_g73023033966933_cont_9to1_m_863_36_alg».proof.Proof.Spec
import proofs.«207445_g73023033966933_cont_9to1_m_863_36_alg».proof.Proof.DenseF

noncomputable section

open scoped BigOperators

namespace Cert.Proof.DenseIdeal

open Idealize.ShloMosaic Idealize.ShloMosaic.ValueIdx

theorem base_add_row (j : Fin 4096) :
    (⟨(8 * (j.val / 8) + j.val % 8) % 4096, Nat.mod_lt _ (by decide)⟩ : Fin 4096) = j := by
  apply Fin.ext
  show (8 * (j.val / 8) + j.val % 8) % 4096 = j.val
  have := j.isLt
  omega

theorem denseF_eq_dense (w : Vec Ideal Spec.SW .f32) (mk : IVec Spec.SW 32) (hmk : Spec.MaskOK mk) :
    DenseF.denseF w mk (0 : EReal) = Spec.dense w mk := by
  funext jc
  unfold DenseF.denseF DenseF.subBlock
  refine (SpecF.foldAdd_apply (DenseF.rowsW w (8 * ((jc 0).val / 8))) (DenseF.rowsM mk (8 * ((jc 0).val / 8)))
    (fun r k => hmk _) ⟨(jc 0).val % 8, Nat.mod_lt _ (by decide)⟩ (jc 1)).trans ?_
  unfold Spec.dense
  refine Finset.sum_congr rfl fun k _ => ?_
  have hj : (⟨(8 * ((jc 0).val / 8) + (jc 0).val % 8) % 4096, Nat.mod_lt _ (by decide)⟩ : Fin 4096) = jc 0 :=
    base_add_row (jc 0)
  have hW : DenseF.rowsW w (8 * ((jc 0).val / 8)) ⟨(jc 0).val % 8, Nat.mod_lt _ (by decide)⟩ k = w (ix2 (jc 0) k) := by
    unfold DenseF.rowsW
    show w (ix2 ⟨(8 * ((jc 0).val / 8) + (jc 0).val % 8) % 4096, _⟩ k) = _
    rw [hj]
  have hM : DenseF.rowsM mk (8 * ((jc 0).val / 8)) ⟨(jc 0).val % 8, Nat.mod_lt _ (by decide)⟩ k = mk (ix2 (jc 0) k) := by
    unfold DenseF.rowsM
    show mk (ix2 ⟨(8 * ((jc 0).val / 8) + (jc 0).val % 8) % 4096, _⟩ k) = _
    rw [hj]
  have hcol : (Spec.col mk (jc 0) k).val = (mk (ix2 (jc 0) k)).toNat := by
    show (mk (ix2 (jc 0) k)).toNat % 4096 = _
    exact Nat.mod_eq_of_lt (hmk _)
  rw [hW, hM, hcol]

theorem kerOut_denseF_eq_refOut (x : Vec Ideal Spec.SX .f32) (w : Vec Ideal Spec.SW .f32) (mk : IVec Spec.SW 32)
    (b : Vec Ideal Spec.SB .f32) (hmk : Spec.MaskOK mk) (hx : Spec.Finite x) (hw : Spec.Finite w) :
    (fun i : Spec.SX.Idx => (∑ c : Fin 4096, x (ix2 (i 0) c) * DenseF.denseF w mk (0 : EReal) (ix2 (i 1) c)) + b (ix1 (i 1)))
      = Spec.refOut x w mk b := by
  rw [denseF_eq_dense w mk hmk]
  exact Spec.kerOut_eq_refOut x w mk b hx hw

end Cert.Proof.DenseIdeal

end
-- ==== Proof.RefOps.lean ====
import proofs.«207445_g73023033966933_cont_9to1_m_863_36_alg».proof.ReferenceIdeal
import proofs.«207445_g73023033966933_cont_9to1_m_863_36_alg».proof.Proof.Gen.ReferenceIdeal
import proofs.«207445_g73023033966933_cont_9to1_m_863_36_alg».proof.Proof.Spec
import Idealize.ShloMosaic.Lib.DynamicIndex
import Idealize.ShloMosaic.Lib.Pipeline.Value
import Idealize.ShloMosaic.Lib.IdealHost
import Idealize.ShloMosaic.Lib.ReduceAll
import Idealize.ShloMosaic.Lib.ValueIdx
import Idealize.ShloMosaic.Lib.Scf
import Idealize.ShloMosaic.PureOps.Ideal.Laws

noncomputable section

namespace Cert.Proof.Ref

open Idealize.ShloMosaic Idealize.ShloMosaic.ValueIdx
open Cert.ReferenceIdeal Cert.ReferenceIdeal.Gen
open scoped BigOperators

variable {F : FTy → Type} [FloatOps F]

def starts (ctr : IVec S_ 32) : Fin 3 → Int :=
  fun a => ((![ctr, constantI S_ 32 0#32, constantI S_ 32 0#32] : Fin 3 → IVec S_ 32) a (Shape.Idx.first h_S_)).toInt

def slot {α : Type} (W : S32x128x128.Idx → α) (ctr : IVec S_ 32) : S128x128.Idx → α :=
  shapeCast S128x128 (Host.dynamicSlice S1x128x128 W (starts ctr) sliceFits_S32x128x128_S1x128x128) shapeCasts_S1x128x128_S128x128

def normIdx (mc : IVec S128x128 32) : IVec S128x128 32 :=
  select (cmpi .slt mc (broadcastInDim S128x128 ![] bcast_S_S128x128 (constantI S_ 32 0#32)))
    (addi mc (broadcastInDim S128x128 ![] bcast_S_S128x128 (constantI S_ 32 4096#32))) mc

def idx3 (mc : IVec S128x128 32) : IVec S128x128x1 32 :=
  broadcastInDim S128x128x1 ![0, 1] bcast_S128x128_S128x128x1_0_1 (normIdx mc)

def inBounds (mc : IVec S128x128 32) : IVec S128x128 1 :=
  Host.reduce IntOp.andi
    (andi (cmpi .sge (idx3 mc) (broadcastInDim S128x128x1 ![] bcast_S_S128x128x1 (constantI S_ 32 0#32)))
      (cmpi .sle (idx3 mc) (broadcastInDim S128x128x1 ![0, 1, 2] bcast_S1x1x1_S128x128x1_0_1_2
        (broadcastInDim S1x1x1 ![2] bcast_S1_S1x1x1_2 (constantI S1 32 4095#32)))))
    (constantI S_ 1 1#1) reducesTo_S128x128x1_S128x128_d2 h_S_

def gathered (x : Vec F S2048x4096 .f32) (mc : IVec S128x128 32) : Vec F S2048x128x128 .f32 :=
  select (broadcastInDim S2048x128x128 ![1, 2] bcast_S128x128_S2048x128x128_1_2 (inBounds mc))
    (Host.gather gather_S2048x4096_S128x128x1_S2048x128x128_0_1_n_n_1_2_20481 x (idx3 mc))
    (broadcastInDim S2048x128x128 ![] bcast_S_S2048x128x128 (constant S_ .f32 0x7FC00000#32))

def blockOut (x : Vec F S2048x4096 .f32) (wc : Vec F S128x128 .f32) (mc : IVec S128x128 32) : Vec F S2048x128 .f32 :=
  transpose S2048x128 [1, 0]
    (Host.dotGeneral dot_S128x128_S2048x128x128_S128x2048_1_2_n_0_0_1 none wc (gathered x mc))
    transposes_S128x2048_S2048x128_1_0

def putSlot (acc : Vec F S32x2048x128 .f32) (blk : Vec F S2048x128 .f32) (ctr : IVec S_ 32) : Vec F S32x2048x128 .f32 :=
  Host.dynamicUpdateSlice acc (broadcastInDim S1x2048x128 ![1, 2] bcast_S2048x128_S1x2048x128_1_2 blk) (starts ctr)
    updateFits_S32x2048x128_S1x2048x128

def finish (acc : Vec F S32x2048x128 .f32) (bias : Vec F S4096 .f32) : Vec F S2048x4096 .f32 :=
  addf (shapeCast S2048x4096 (transpose S2048x32x128 [1, 0, 2] acc transposes_S32x2048x128_S2048x32x128_1_0_2)
      shapeCasts_S2048x32x128_S2048x4096)
    (broadcastInDim S2048x4096 ![0, 1] bcast_S1x4096_S2048x4096_0_1
      (broadcastInDim S1x4096 ![1] bcast_S4096_S1x4096_1 bias))

def nrn (c : Fin 32) (j : Fin 128) : Fin 4096 := ⟨c.val * 128 + j.val, by omega⟩

theorem toInt_iv32 {k : ℕ} (hk : k < 32) : (Scf.iv 0#32 1#32 k).toInt = (k : ℤ) := by
  unfold Scf.iv
  rw [BitVec.zero_add, BitVec.mul_one]
  exact toInt_ofNat_of_lt (by omega)

theorem starts_iv {k : ℕ} (hk : k < 32) (a : Fin 3) :
    starts (fun _ => Scf.iv 0#32 1#32 k) a = (((![k, 0, 0] : Fin 3 → ℕ) a : ℕ) : ℤ) := by
  match a with
  | ⟨0, _⟩ => exact toInt_iv32 hk
  | ⟨1, _⟩ => rfl
  | ⟨2, _⟩ => rfl

theorem slot_apply {α : Type} (W : S32x128x128.Idx → α) {k : ℕ} (hk : k < 32) (j kk : Fin 128) :
    slot W (fun _ => Scf.iv 0#32 1#32 k) (ix2 j kk) = W (ix3 ⟨k, hk⟩ j kk) := by
  unfold slot
  refine (shapeCast_apply _ _ (ix2 j kk) (ix3 (0 : Fin 1) j kk) (by
    rw [Shape.rowMajor_val_two, Shape.rowMajor_val_three]
    show (0 * 128 + j.val) * 128 + kk.val = j.val * 128 + kk.val
    omega)).trans ?_
  rw [Host.dynamicSlice_eq_extractStridedSlice S1x128x128 W _ (![k, 0, 0] : Fin 3 → ℕ) sliceFits_S32x128x128_S1x128x128
    ⟨rfl, fun a => by match a with
      | ⟨0, _⟩ => show k + 1 ≤ 32; omega
      | ⟨1, _⟩ => show 0 + 128 ≤ 128; omega
      | ⟨2, _⟩ => show 0 + 128 ≤ 128; omega⟩ (starts_iv hk)]
  refine extractStridedSlice_apply _ _ _ _ _ (fun a => ?_)
  match a with
  | ⟨0, _⟩ => show k = k + 0; omega
  | ⟨1, _⟩ => show j.val = 0 + j.val; omega
  | ⟨2, _⟩ => show kk.val = 0 + kk.val; omega

theorem stack_apply {α : Type} (w : S4096x128.Idx → α) (c : Fin 32) (j kk : Fin 128) :
    shapeCast S32x128x128 w shapeCasts_S4096x128_S32x128x128 (ix3 c j kk) = w (ix2 (nrn c j) kk) :=
  shapeCast_apply _ _ _ _ (by
    rw [Shape.rowMajor_val_two, Shape.rowMajor_val_three]
    show (c.val * 128 + j.val) * 128 + kk.val = (c.val * 128 + j.val) * 128 + kk.val
    rfl)

theorem toInt_of_lt {v : BitVec 32} (h : v.toNat < 4096) : v.toInt = (v.toNat : ℤ) := by
  rw [BitVec.toInt_eq_toNat_cond]
  split <;> omega

theorem normIdx_apply (mc : IVec S128x128 32) (i : S128x128.Idx) (h : (mc i).toNat < 4096) : normIdx mc i = mc i := by
  unfold normIdx
  exact select_slt_zero_of_nonneg mc _ _ i (by rw [toInt_of_lt h]; omega)

theorem idx3_apply (mc : IVec S128x128 32) (j kk : Fin 128) (u : Fin 1) : idx3 mc (ix3 j kk u) = normIdx mc (ix2 j kk) :=
  broadcastInDim_apply _ _ _ _ _ (fun a => by match a with | ⟨0, _⟩ => rfl | ⟨1, _⟩ => rfl)

theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l (fun n hn => h n (List.mem_cons_of_mem _ hn))

theorem inBounds_apply (mc : IVec S128x128 32) (hmc : ∀ i, (mc i).toNat < 4096) (i : S128x128.Idx) : inBounds mc i = 1#1 := by
  unfold inBounds
  rw [Host.reduce_eq_foldl]
  refine foldl_andi_one _ _ (fun n _ => ?_)
  obtain ⟨j, kk, u, rfl⟩ : ∃ (j kk : Fin 128) (u : Fin 1), n = ix3 j kk u := ⟨n 0, n 1, n 2, eq_ix3 n⟩
  show IntOp.andi (IntOp.cmpi .sge (idx3 mc (ix3 j kk u)) 0#32) (IntOp.cmpi .sle (idx3 mc (ix3 j kk u)) 4095#32) = 1#1
  rw [idx3_apply, normIdx_apply mc _ (hmc _)]
  have h0 : (0#32 : BitVec 32).toInt = 0 := by decide
  have h1 : (4095#32 : BitVec 32).toInt = 4095 := by decide
  have h := hmc (ix2 j kk)
  exact IntOp.andi_eq_one.2 ⟨IntOp.cmpi_sge.2 (by rw [toInt_of_lt h, h0]; omega), IntOp.cmpi_sle.2 (by rw [toInt_of_lt h, h1]; omega)⟩

theorem gather_apply {α : Type} (x : S2048x4096.Idx → α) (idx : IVec S128x128x1 32) (b : Fin 2048) (j kk : Fin 128) :
    Host.gather gather_S2048x4096_S128x128x1_S2048x128x128_0_1_n_n_1_2_20481 x idx (ix3 b j kk)
      = x (ix2 b ⟨min (idx (ix3 j kk (0 : Fin 1))).toInt.toNat 4095, by omega⟩) := by
  unfold Host.gather
  congr 1
  funext a
  refine Fin.ext ?_
  match a with
  | ⟨0, _⟩ =>
    show gather_S2048x4096_S128x128x1_S2048x128x128_0_1_n_n_1_2_20481.start (ix3 b j kk) idx 0
      + gather_S2048x4096_S128x128x1_S2048x128x128_0_1_n_n_1_2_20481.batchCoord (ix3 b j kk) 0
      + gather_S2048x4096_S128x128x1_S2048x128x128_0_1_n_n_1_2_20481.offCoord (ix3 b j kk) 0 = b.val
    rw [GatherDims.batchCoord_eq_zero _ _ _ List.not_mem_nil]
    have hst : gather_S2048x4096_S128x128x1_S2048x128x128_0_1_n_n_1_2_20481.start (ix3 b j kk) idx 0 = 0 := by
      unfold GatherDims.start
      rw [dif_neg (by decide)]
    have hoff : gather_S2048x4096_S128x128x1_S2048x128x128_0_1_n_n_1_2_20481.offCoord (ix3 b j kk) 0 = b.val := by
      unfold GatherDims.offCoord
      rw [dif_pos (by decide)]
      rfl
    rw [hst, hoff]
    omega
  | ⟨1, _⟩ =>
    have hsi : gather_S2048x4096_S128x128x1_S2048x128x128_0_1_n_n_1_2_20481.siIdx (ix3 b j kk) ⟨0, Nat.one_pos⟩ = ix3 j kk (0 : Fin 1) := by
      funext c; refine Fin.ext ?_
      match c with
      | ⟨0, _⟩ => rfl
      | ⟨1, _⟩ => rfl
      | ⟨2, _⟩ => rfl
    show min (idx (gather_S2048x4096_S128x128x1_S2048x128x128_0_1_n_n_1_2_20481.siIdx (ix3 b j kk) ⟨0, Nat.one_pos⟩)).toInt.toNat (4096 - 1) + 0 + 0 = _
    rw [hsi]
    rfl

theorem dot_apply (wc : FVec Ideal S128x128 .f32) (g : FVec Ideal S2048x128x128 .f32) (j : Fin 128) (b : Fin 2048) :
    Host.dotGeneral (F := Ideal) (φ₁ := .f32) (φ₂ := .f32) dot_S128x128_S2048x128x128_S128x2048_1_2_n_0_0_1 none wc g (ix2 j b)
      = ∑ kk : Fin 128, wc (ix2 j kk) * g (ix3 b j kk) := by
  show FloatOps.dotGeneral (F := Ideal) (φ₁ := .f32) (φ₂ := .f32) dot_S128x128_S2048x128x128_S128x2048_1_2_n_0_0_1 none .single wc g (ix2 j b) = _
  rw [Ideal.dotGeneral_apply]
  rw [← (contrEquiv1 dot_S128x128_S2048x128x128_S128x2048_1_2_n_0_0_1 128 rfl rfl).symm.sum_comp]
  refine Finset.sum_congr rfl (fun kk _ => ?_)
  have hk := contrEquiv1_symm_val dot_S128x128_S2048x128x128_S128x2048_1_2_n_0_0_1 128 rfl rfl kk
  congr 2
  · funext a; refine Fin.ext ?_
    match a with
    | ⟨0, _⟩ => rfl
    | ⟨1, _⟩ => exact hk
  · funext a; refine Fin.ext ?_
    match a with
    | ⟨0, _⟩ => rfl
    | ⟨1, _⟩ => rfl
    | ⟨2, _⟩ => exact hk

theorem gathered_apply (x : Vec Ideal S2048x4096 .f32) (mc : IVec S128x128 32) (hmc : ∀ i, (mc i).toNat < 4096)
    (b : Fin 2048) (j kk : Fin 128) :
    gathered x mc (ix3 b j kk) = x (ix2 b ⟨(mc (ix2 j kk)).toNat, hmc _⟩) := by
  unfold gathered
  rw [select_apply]
  have hb : broadcastInDim S2048x128x128 ![1, 2] bcast_S128x128_S2048x128x128_1_2 (inBounds mc) (ix3 b j kk) = 1#1 :=
    (broadcastInDim_apply _ _ _ (ix3 b j kk) (ix2 j kk) (fun a => by match a with | ⟨0, _⟩ => rfl | ⟨1, _⟩ => rfl)).trans
      (inBounds_apply mc hmc _)
  rw [hb, select_one, gather_apply]
  have h := hmc (ix2 j kk)
  have hv : min (idx3 mc (ix3 j kk (0 : Fin 1))).toInt.toNat 4095 = (mc (ix2 j kk)).toNat := by
    rw [idx3_apply, normIdx_apply mc _ h, toInt_of_lt h, Int.toNat_natCast]
    omega
  exact congrArg (fun v => x (ix2 b v)) (Fin.ext hv)

theorem blockOut_apply (x : Vec Ideal S2048x4096 .f32) (wc : Vec Ideal S128x128 .f32) (mc : IVec S128x128 32)
    (hmc : ∀ i, (mc i).toNat < 4096) (b : Fin 2048) (j : Fin 128) :
    blockOut x wc mc (ix2 b j) = ∑ kk : Fin 128, wc (ix2 j kk) * x (ix2 b ⟨(mc (ix2 j kk)).toNat, hmc _⟩) := by
  unfold blockOut
  refine (transpose_apply _ _ _ (ix2 b j) (ix2 j b) (fun a => by match a with | ⟨0, _⟩ => rfl | ⟨1, _⟩ => rfl)).trans ?_
  rw [dot_apply]
  exact Finset.sum_congr rfl (fun kk _ => by rw [gathered_apply x mc hmc])

theorem putSlot_apply (acc : Vec F S32x2048x128 .f32) (blk : Vec F S2048x128 .f32) {k : ℕ} (hk : k < 32)
    (c : Fin 32) (b : Fin 2048) (j : Fin 128) :
    putSlot acc blk (fun _ => Scf.iv 0#32 1#32 k) (ix3 c b j) = if c.val = k then blk (ix2 b j) else acc (ix3 c b j) := by
  unfold putSlot
  rw [Host.dynamicUpdateSlice_eq_updateSlice acc _ _ updateFits_S32x2048x128_S1x2048x128 (![k, 0, 0] : Fin 3 → ℕ)
    (fun a => by
      rw [starts_iv hk]
      match a with
      | ⟨0, _⟩ => show (min (max ((k : ℕ) : ℤ) 0) (((32 - 1 : ℕ) : ℕ) : ℤ)).toNat = k; omega
      | ⟨1, _⟩ => show (min (max ((0 : ℕ) : ℤ) 0) (((2048 - 2048 : ℕ) : ℕ) : ℤ)).toNat = 0; omega
      | ⟨2, _⟩ => show (min (max ((0 : ℕ) : ℤ) 0) (((128 - 128 : ℕ) : ℕ) : ℤ)).toNat = 0; omega)
    ⟨rfl, fun a => by match a with
      | ⟨0, _⟩ => show k + 1 ≤ 32; omega
      | ⟨1, _⟩ => show 0 + 2048 ≤ 2048; omega
      | ⟨2, _⟩ => show 0 + 128 ≤ 128; omega⟩]
  unfold updateSlice
  by_cases hc : c.val = k
  · rw [if_pos hc, dif_pos (fun a => by match a with
      | ⟨0, _⟩ => show k ≤ c.val ∧ c.val < k + 1; omega
      | ⟨1, _⟩ => show 0 ≤ b.val ∧ b.val < 0 + 2048; omega
      | ⟨2, _⟩ => show 0 ≤ j.val ∧ j.val < 0 + 128; omega)]
    exact broadcastInDim_apply _ _ _ _ (ix2 b j) (fun a => by match a with
      | ⟨0, _⟩ => rfl
      | ⟨1, _⟩ => rfl)
  · rw [if_neg hc, dif_neg (fun h => hc (by
      have h0 := h ⟨0, by decide⟩
      have h0' : k ≤ c.val ∧ c.val < k + 1 := h0
      omega))]

theorem finish_apply (acc : Vec Ideal S32x2048x128 .f32) (bias : Vec Ideal S4096 .f32) (b : Fin 2048) (n : Fin 4096) :
    finish acc bias (ix2 b n)
      = acc (ix3 (⟨n.val / 128, by omega⟩ : Fin 32) b (⟨n.val % 128, Nat.mod_lt _ (by decide)⟩ : Fin 128)) + bias (ix1 n) := by
  unfold finish
  rw [addf_apply]
  congr 1
  · refine (shapeCast_apply _ _ (ix2 b n)
      (ix3 b (⟨n.val / 128, by omega⟩ : Fin 32) (⟨n.val % 128, Nat.mod_lt _ (by decide)⟩ : Fin 128)) (by
        rw [Shape.rowMajor_val_two, Shape.rowMajor_val_three]
        show (b.val * 32 + n.val / 128) * 128 + n.val % 128 = b.val * 4096 + n.val
        omega)).trans ?_
    exact transpose_apply _ _ _ _ _ (fun a => by match a with | ⟨0, _⟩ => rfl | ⟨1, _⟩ => rfl | ⟨2, _⟩ => rfl)
  · refine (broadcastInDim_apply _ _ _ (ix2 b n) (ix2 (0 : Fin 1) n) (fun a => by match a with | ⟨0, _⟩ => rfl | ⟨1, _⟩ => rfl)).trans ?_
    exact broadcastInDim_apply _ _ _ _ (ix1 n) (fun a => by match a with | ⟨0, _⟩ => rfl)

theorem trip_block (x : Vec Ideal S2048x4096 .f32) (w : Vec Ideal S4096x128 .f32) (mk : IVec S4096x128 32)
    (hmk : Spec.MaskOK mk) {k : ℕ} (hk : k < 32) (b : Fin 2048) (j : Fin 128) :
    blockOut x (slot (shapeCast S32x128x128 w shapeCasts_S4096x128_S32x128x128) (fun _ => Scf.iv 0#32 1#32 k))
        (slot (shapeCast S32x128x128 mk shapeCasts_S4096x128_S32x128x128) (fun _ => Scf.iv 0#32 1#32 k)) (ix2 b j)
      = ∑ kk : Fin 128, x (ix2 b (Spec.col mk (nrn ⟨k, hk⟩ j) kk)) * w (ix2 (nrn ⟨k, hk⟩ j) kk) := by
  have hsl : ∀ (j' kk' : Fin 128), slot (shapeCast S32x128x128 mk shapeCasts_S4096x128_S32x128x128) (fun _ => Scf.iv 0#32 1#32 k) (ix2 j' kk')
      = mk (ix2 (nrn ⟨k, hk⟩ j') kk') := fun j' kk' => by rw [slot_apply _ hk, stack_apply]
  have hmc : ∀ i, (slot (shapeCast S32x128x128 mk shapeCasts_S4096x128_S32x128x128) (fun _ => Scf.iv 0#32 1#32 k) i).toNat < 4096 := fun i => by
    obtain ⟨j', kk', rfl⟩ : ∃ (j' kk' : Fin 128), i = ix2 j' kk' := ⟨i 0, i 1, eq_ix2 i⟩
    rw [hsl]; exact hmk _
  rw [blockOut_apply x _ _ hmc]
  refine Finset.sum_congr rfl (fun kk _ => ?_)
  rw [mul_comm]
  refine congrArg₂ (· * ·) ?_ ?_
  · refine congrArg (fun v => x (ix2 b v)) (Fin.ext ?_)
    show (slot (shapeCast S32x128x128 mk shapeCasts_S4096x128_S32x128x128) (fun _ => Scf.iv 0#32 1#32 k) (ix2 j kk)).toNat
      = (mk (ix2 (nrn ⟨k, hk⟩ j) kk)).toNat % 4096
    rw [hsl, Nat.mod_eq_of_lt (hmk _)]
  · rw [slot_apply _ hk, stack_apply]

theorem nrn_divmod (n : Fin 4096) :
    nrn (⟨n.val / 128, by omega⟩ : Fin 32) (⟨n.val % 128, Nat.mod_lt _ (by decide)⟩ : Fin 128) = n :=
  Fin.ext (by show n.val / 128 * 128 + n.val % 128 = n.val; omega)

theorem finish_eq (acc : Vec Ideal S32x2048x128 .f32) (x : Vec Ideal S2048x4096 .f32) (w : Vec Ideal S4096x128 .f32)
    (mk : IVec S4096x128 32) (bias : Vec Ideal S4096 .f32)
    (h : ∀ (c : Fin 32) (b : Fin 2048) (j : Fin 128),
      acc (ix3 c b j) = ∑ kk : Fin 128, x (ix2 b (Spec.col mk (nrn c j) kk)) * w (ix2 (nrn c j) kk)) :
    finish acc bias = Spec.refOut x w mk bias := by
  funext i
  obtain ⟨b, n, rfl⟩ : ∃ (b : Fin 2048) (n : Fin 4096), i = ix2 b n := ⟨i 0, i 1, eq_ix2 i⟩
  rw [finish_apply, h, nrn_divmod]
  rfl

end Cert.Proof.Ref

end
-- ==== Proof.RefRun.lean ====
import proofs.«207445_g73023033966933_cont_9to1_m_863_36_alg».proof.Defs
import proofs.«207445_g73023033966933_cont_9to1_m_863_36_alg».proof.Proof.Gen.ReferenceIdeal
import proofs.«207445_g73023033966933_cont_9to1_m_863_36_alg».proof.Proof.Gen.ReferenceIdeal.Run
import proofs.«207445_g73023033966933_cont_9to1_m_863_36_alg».proof.Proof.Spec
import proofs.«207445_g73023033966933_cont_9to1_m_863_36_alg».proof.Proof.RefOps

noncomputable section

namespace Cert.Proof.Ref

open Idealize.ShloMosaic Idealize.ShloMosaic.TcCoe Idealize.ShloMosaic.ValueIdx
open Idealize.SL.Sem
open Idealize.ShloMosaic.StableHlo
open Cert.ReferenceIdeal Cert.ReferenceIdeal.Gen Cert.ReferenceIdeal.Value
open scoped BigOperators

variable {F : FTy → Type} [FloatOps F]

def WritesFrom (ops : List (HloOp τ sig (Elt F))) (lo : ℕ) : Prop :=
  ∀ op ∈ ops, ∀ d ∈ op.writes, ∃ y : Ref sig .tc, d = Proc.devRef .tc y ∧ lo ≤ y.idx.val

theorem WritesFrom.notw {ops : List (HloOp τ sig (Elt F))} {lo : ℕ} (h : WritesFrom ops lo) (b : Ref sig .tc)
    (hb : b.idx.val < lo) (V : Valuation τ sig (Elt F)) :
    after ops V (Proc.devRef .tc b) = V (Proc.devRef .tc b) :=
  after_of_forall_not_mem ops V (fun op hop hd => by
    obtain ⟨y, e, hy⟩ := h op hop _ hd
    have := Proc.devRef_injective _ e
    subst this
    omega)

set_option maxRecDepth 100000 in
set_option maxHeartbeats 4000000 in
theorem wf_pre : WritesFrom (hostOps0 (F := F)) 4 := by
  intro op hop; fin_cases hop <;> (intro d hd; exact ⟨_, Finset.mem_singleton.mp hd, by decide⟩)
set_option maxRecDepth 100000 in
set_option maxHeartbeats 4000000 in
theorem wf_cond : WritesFrom (condOps (F := F)) 14 := by
  intro op hop; fin_cases hop <;> (intro d hd; exact ⟨_, Finset.mem_singleton.mp hd, by decide⟩)
set_option maxRecDepth 100000 in
set_option maxHeartbeats 4000000 in
theorem wf_b0 : WritesFrom (while0Ops0 (F := F)) 16 := by
  intro op hop; fin_cases hop <;> (intro d hd; exact ⟨_, Finset.mem_singleton.mp hd, by decide⟩)
set_option maxRecDepth 100000 in
set_option maxHeartbeats 4000000 in
theorem wf_b1 : WritesFrom (while0Ops0_1 (F := F)) 20 := by
  intro op hop; fin_cases hop <;> (intro d hd; exact ⟨_, Finset.mem_singleton.mp hd, by decide⟩)
set_option maxRecDepth 100000 in
set_option maxHeartbeats 4000000 in
theorem wf_b2 : WritesFrom (while0Ops0_2 (F := F)) 24 := by
  intro op hop; fin_cases hop <;> (intro d hd; exact ⟨_, Finset.mem_singleton.mp hd, by decide⟩)
set_option maxRecDepth 100000 in
set_option maxHeartbeats 4000000 in
theorem wf_b3 : WritesFrom (while0Ops0_3 (F := F)) 49 := by
  intro op hop; fin_cases hop <;> (intro d hd; exact ⟨_, Finset.mem_singleton.mp hd, by decide⟩)
set_option maxRecDepth 100000 in
set_option maxHeartbeats 4000000 in
theorem wf_b4 : WritesFrom (while0Ops0_4 (F := F)) 12 := by
  intro op hop; fin_cases hop <;> (intro d hd; exact ⟨_, Finset.mem_singleton.mp hd, by decide⟩)
set_option maxRecDepth 100000 in
set_option maxHeartbeats 4000000 in
theorem wf_post : WritesFrom (hostOps0_1 (F := F)) 55 := by
  intro op hop; fin_cases hop <;> (intro d hd; exact ⟨_, Finset.mem_singleton.mp hd, by decide⟩)

theorem stage0 (X : Valuation τ sig (Elt F)) :
    after (while0Ops0 (F := F)) X (Proc.devRef .tc main_while0b_v9)
      = slot (X (Proc.devRef .tc main_v3_0)) (X (Proc.devRef .tc main_v3_3)) := by
  after_results
  refine congrArg (fun st => shapeCast S128x128 (Host.dynamicSlice S1x128x128 (X (Proc.devRef .tc main_v3_0)) st
    sliceFits_S32x128x128_S1x128x128) shapeCasts_S1x128x128_S128x128) (funext fun a => ?_)
  match a with
  | ⟨0, _⟩ => rfl
  | ⟨1, _⟩ => rfl
  | ⟨2, _⟩ => rfl

theorem stage1 (X : Valuation τ sig (Elt F)) :
    after (while0Ops0_1 (F := F)) X (Proc.devRef .tc main_while0b_v10)
      = slot (X (Proc.devRef .tc main_v3_1)) (X (Proc.devRef .tc main_v3_3)) := by
  after_results
  refine congrArg (fun st => shapeCast S128x128 (Host.dynamicSlice S1x128x128 (X (Proc.devRef .tc main_v3_1)) st
    sliceFits_S32x128x128_S1x128x128) shapeCasts_S1x128x128_S128x128) (funext fun a => ?_)
  match a with
  | ⟨0, _⟩ => rfl
  | ⟨1, _⟩ => rfl
  | ⟨2, _⟩ => rfl

set_option maxRecDepth 100000 in
set_option maxHeartbeats 4000000 in
theorem stage2 (X : Valuation τ sig (Elt F)) :
    after (while0Ops0_2 (F := F)) X (Proc.devRef .tc main_while0b_v11)
      = blockOut (X (Proc.devRef .tc main_v3_2)) (X (Proc.devRef .tc main_while0b_v9)) (X (Proc.devRef .tc main_while0b_v10)) := by
  after_results_simp
  rfl

theorem stage3 (X : Valuation τ sig (Elt F)) :
    after (while0Ops0_3 (F := F)) X (Proc.devRef .tc main_while0b_v12)
      = putSlot (X (Proc.devRef .tc main_v3_4)) (X (Proc.devRef .tc main_while0b_v11)) (X (Proc.devRef .tc main_v3_3)) := by
  after_results
  refine congrArg (fun st => Host.dynamicUpdateSlice (X (Proc.devRef .tc main_v3_4))
    (broadcastInDim S1x2048x128 ![1, 2] bcast_S2048x128_S1x2048x128_1_2 (X (Proc.devRef .tc main_while0b_v11))) st
    updateFits_S32x2048x128_S1x2048x128) (funext fun a => ?_)
  match a with
  | ⟨0, _⟩ => rfl
  | ⟨1, _⟩ => rfl
  | ⟨2, _⟩ => rfl

theorem stage4 (X : Valuation τ sig (Elt F)) :
    after (while0Ops0_4 (F := F)) X (Proc.devRef .tc main_v3_4) = X (Proc.devRef .tc main_while0b_v12) := by
  after_results
  rfl

theorem body_acc (X : Valuation τ sig (Elt F)) :
    afterL (bodyI (F := F)) X (Proc.devRef .tc main_v3_4)
      = putSlot (X (Proc.devRef .tc main_v3_4))
          (blockOut (X (Proc.devRef .tc main_v3_2))
            (slot (X (Proc.devRef .tc main_v3_0)) (X (Proc.devRef .tc main_v3_3)))
            (slot (X (Proc.devRef .tc main_v3_1)) (X (Proc.devRef .tc main_v3_3))))
          (X (Proc.devRef .tc main_v3_3)) := by
  simp only [afterL_cons, afterL_nil]
  rw [stage4, stage3, stage2,
    wf_b2.notw main_v3_4 (by decide), wf_b2.notw main_v3_3 (by decide),
    wf_b1.notw main_v3_4 (by decide), wf_b1.notw main_v3_3 (by decide), wf_b1.notw main_v3_2 (by decide),
    wf_b1.notw main_while0b_v9 (by decide), stage1, stage0,
    wf_b0.notw main_v3_4 (by decide), wf_b0.notw main_v3_3 (by decide), wf_b0.notw main_v3_2 (by decide),
    wf_b0.notw main_v3_1 (by decide)]

theorem trip_const (b : Ref sig .tc) (hb : b.idx.val < 12) (X : Valuation τ sig (Elt F)) :
    afterL (bodyI (F := F)) (after condOps X) (Proc.devRef .tc b) = X (Proc.devRef .tc b) := by
  simp only [afterL_cons, afterL_nil]
  rw [wf_b4.notw b hb, wf_b3.notw b (by omega), wf_b2.notw b (by omega), wf_b1.notw b (by omega),
    wf_b0.notw b (by omega), wf_cond.notw b (by omega)]

variable (m : (ℓ : Loc nD τ sig) → Buf (Elt F) ℓ)

theorem atK_const (b : Ref sig .tc) (hb : b.idx.val < 12) (c : Dev nD) :
    ∀ k, atK m k c (Proc.devRef .tc b) = entryContents preI m c (Proc.devRef .tc b)
  | 0 => rfl
  | k + 1 => by
    rw [show atK m (k + 1) c = afterL bodyI (after condOps (atK m k c)) from rfl, trip_const b hb, atK_const b hb c k]

theorem entry_arg (b : Ref sig .tc) (hb : b.idx.val < 4) (c : Dev nD) :
    entryContents preI m c (Proc.devRef .tc b) = m ((c.tc : Thread nD τ).loc b) := by
  simp only [entryContents, afterL_cons, afterL_nil]
  rw [wf_pre.notw b hb]

set_option maxRecDepth 100000 in
theorem entry_w (c : Dev nD) : entryContents preI m c (Proc.devRef .tc main_v3_0)
    = shapeCast S32x128x128 (m ((c.tc : Thread nD τ).loc main_arg1)) shapeCasts_S4096x128_S32x128x128 := by
  simp only [entryContents, afterL_cons, afterL_nil]
  after_results
  rfl

set_option maxRecDepth 100000 in
theorem entry_mk (c : Dev nD) : entryContents preI m c (Proc.devRef .tc main_v3_1)
    = shapeCast S32x128x128 (m ((c.tc : Thread nD τ).loc main_arg2)) shapeCasts_S4096x128_S32x128x128 := by
  simp only [entryContents, afterL_cons, afterL_nil]
  after_results
  rfl

set_option maxRecDepth 100000 in
theorem entry_x (c : Dev nD) : entryContents preI m c (Proc.devRef .tc main_v3_2) = m ((c.tc : Thread nD τ).loc main_arg0) := by
  simp only [entryContents, afterL_cons, afterL_nil]
  after_results
  rfl

theorem final_arg (b : Ref sig .tc) (hb : b.idx.val < 4) (c : Dev nD) :
    finalContents condOps preI bodyI postI 32 m c (Proc.devRef .tc b) = m ((c.tc : Thread nD τ).loc b) := by
  show afterL postI (after condOps (atK m 32 c)) (Proc.devRef .tc b) = _
  simp only [afterL_cons, afterL_nil]
  rw [wf_post.notw b (by omega), wf_cond.notw b (by omega), atK_const m b (by omega) c 32, entry_arg m b hb]

set_option maxRecDepth 100000 in

theorem post_v8 (Y : Valuation τ sig (Elt F)) :
    afterL (postI (F := F)) Y (Proc.devRef .tc main_v8)
      = finish (Y (Proc.devRef .tc main_v3_4)) (Y (Proc.devRef .tc main_arg3)) := by
  simp only [afterL_cons, afterL_nil]
  after_results
  rfl

section Value
variable (m : (ℓ : Loc nD τ sig) → Buf (Elt Ideal) ℓ)

abbrev xA (c : Dev nD) : Vec Ideal S2048x4096 .f32 := m ((c.tc : Thread nD τ).loc main_arg0)
abbrev wA (c : Dev nD) : Vec Ideal S4096x128 .f32 := m ((c.tc : Thread nD τ).loc main_arg1)
abbrev mkA (c : Dev nD) : IVec S4096x128 32 := m ((c.tc : Thread nD τ).loc main_arg2)
abbrev accAt (k : ℕ) (c : Dev nD) : Vec Ideal S32x2048x128 .f32 := atK m k c (Proc.devRef .tc main_v3_4)

theorem atK_acc (c : Dev nD) (hmk : Spec.MaskOK (mkA m c)) :
    ∀ k, k ≤ 32 → ∀ (c' : Fin 32) (b : Fin 2048) (j : Fin 128), c'.val < k →
      accAt m k c (ix3 c' b j)
        = ∑ kk : Fin 128, xA m c (ix2 b (Spec.col (mkA m c) (nrn c' j) kk)) * wA m c (ix2 (nrn c' j) kk)
  | 0, _, c', _, _, h => absurd h (Nat.not_lt_zero _)
  | k + 1, hk, c', b, j, h => by
    have hk' : k < 32 := by omega
    show (atK m (k + 1) c (Proc.devRef .tc main_v3_4) : Vec Ideal S32x2048x128 .f32) (ix3 c' b j) = _
    rw [show atK m (k + 1) c = afterL bodyI (after condOps (atK m k c)) from rfl, body_acc,
      wf_cond.notw main_v3_4 (by decide), wf_cond.notw main_v3_3 (by decide), wf_cond.notw main_v3_2 (by decide),
      wf_cond.notw main_v3_1 (by decide), wf_cond.notw main_v3_0 (by decide),
      atK_ctr m c k, atK_const m main_v3_0 (by decide) c k, atK_const m main_v3_1 (by decide) c k,
      atK_const m main_v3_2 (by decide) c k, entry_w, entry_mk, entry_x]
    refine (putSlot_apply _ _ hk' c' b j).trans ?_
    by_cases hc : c'.val = k
    · rw [if_pos hc]
      obtain rfl : c' = ⟨k, hk'⟩ := Fin.ext hc
      exact trip_block _ _ _ hmk hk' b j
    · rw [if_neg hc]
      exact atK_acc c hmk k (by omega) c' b j (by omega)

theorem final_v8 (c : Dev nD) (hmk : Spec.MaskOK (m ((c.tc : Thread nD τ).loc main_arg2))) :
    finalContents condOps preI bodyI postI 32 m c (Proc.devRef .tc main_v8)
      = Spec.refOut (m ((c.tc : Thread nD τ).loc main_arg0)) (m ((c.tc : Thread nD τ).loc main_arg1))
          (m ((c.tc : Thread nD τ).loc main_arg2)) (m ((c.tc : Thread nD τ).loc main_arg3)) := by
  show afterL postI (after condOps (atK m 32 c)) (Proc.devRef .tc main_v8) = _
  rw [post_v8, wf_cond.notw main_v3_4 (by decide), wf_cond.notw main_arg3 (by decide),
    atK_const m main_arg3 (by decide) c 32, entry_arg m main_arg3 (by decide)]
  exact finish_eq _ _ _ _ _ (fun c' b j => atK_acc m c hmk 32 le_rfl c' b j c'.isLt)

end Value

theorem run (m' : (ℓ : Loc Cert.ReferenceIdeal.nD Cert.ReferenceIdeal.τ Cert.ReferenceIdeal.sig) → Buf (Elt Ideal) ℓ)
    (g' : Dev Cert.ReferenceIdeal.nD → PrngReg)
    (hm : ∀ c : Dev Cert.ReferenceIdeal.nD, Spec.MaskOK (m' ((c.tc : Thread Cert.ReferenceIdeal.nD Cert.ReferenceIdeal.τ).loc Cert.ReferenceIdeal.main_arg2))) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_v8)
          = Spec.refOut (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) := by
  refine (θ_run _ _ _).mono (fun r h c => ?_) (run_fold (F := Ideal) m' g')
  exact ⟨(h c main_v8 rfl).trans (final_v8 m' c (hm c)),
    (h c main_arg0 rfl).trans (final_arg m' main_arg0 (by decide) c),
    (h c main_arg1 rfl).trans (final_arg m' main_arg1 (by decide) c),
    (h c main_arg2 rfl).trans (final_arg m' main_arg2 (by decide) c),
    (h c main_arg3 rfl).trans (final_arg m' main_arg3 (by decide) c)⟩

theorem frame (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) := by
  refine (θ_run _ _ _).mono (fun r h c => ?_) (run_fold (F := Ideal) m' g')
  exact ⟨(h c main_arg0 rfl).trans (final_arg m' main_arg0 (by decide) c),
    (h c main_arg1 rfl).trans (final_arg m' main_arg1 (by decide) c),
    (h c main_arg2 rfl).trans (final_arg m' main_arg2 (by decide) c),
    (h c main_arg3 rfl).trans (final_arg m' main_arg3 (by decide) c)⟩

end Cert.Proof.Ref

end
-- ==== Proof.KI.Common.lean ====
import proofs.«207445_g73023033966933_cont_9to1_m_863_36_alg».proof.Defs
import proofs.«207445_g73023033966933_cont_9to1_m_863_36_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic
import Idealize.ShloMosaic.Lib.Writes
import proofs.«207445_g73023033966933_cont_9to1_m_863_36_alg».proof.Proof.Gen.KernelIdeal
import proofs.«207445_g73023033966933_cont_9to1_m_863_36_alg».proof.Proof.Gen.KernelIdeal.Skeleton
import proofs.«207445_g73023033966933_cont_9to1_m_863_36_alg».proof.Proof.Gen.KernelIdeal.Launch
import proofs.«207445_g73023033966933_cont_9to1_m_863_36_alg».proof.Proof.Gen.KernelIdeal.Points

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL

def EP : Emb UP (MT nD τ sig (HIx 2) (Elt F) ℕ UU ℕ) :=
  (Emb.inl : Emb UP (UP × Counters)).trans (embR (A := UH) (B := UP × Counters))

instance EP_landsIn : (EP : Emb UP 𝕄).LandsIn (upEmb : UEmb _ 𝕄) := by unfold EP; infer_instance

abbrev xLoc (d : Dev nD) : Loc nD τ sig := (SparseCore.T d).loc main_arg0
abbrev wLoc (d : Dev nD) : Loc nD τ sig := (SparseCore.T d).loc main_arg1
abbrev mLoc (d : Dev nD) : Loc nD τ sig := (SparseCore.T d).loc main_arg2
abbrev bLoc (d : Dev nD) : Loc nD τ sig := (SparseCore.T d).loc main_arg3
abbrev x16Loc (d : Dev nD) : Loc nD τ sig := (SparseCore.T d).loc main_v0
abbrev d0Loc (d : Dev nD) : Loc nD τ sig := (SparseCore.T d).loc main_v1
abbrev b0Loc (d : Dev nD) : Loc nD τ sig := (SparseCore.T d).loc main_v2
abbrev o3Loc (d : Dev nD) : Loc nD τ sig := (SparseCore.T d).loc main_v3
abbrev d1Loc (d : Dev nD) : Loc nD τ sig := (SparseCore.T d).loc main_v4
abbrev b1Loc (d : Dev nD) : Loc nD τ sig := (SparseCore.T d).loc main_v5
abbrev o6Loc (d : Dev nD) : Loc nD τ sig := (SparseCore.T d).loc main_v6

def PreOK (m : (ℓ : Loc nD τ sig) → Buf (Elt F) ℓ) : Prop :=
  ∀ (d : Dev nD) (i : S4096x128.Idx), ((m (mLoc d) : IVec S4096x128 32) i).toNat < 4096

/-- A view written with pieces that all hold z reads z wherever it read z before or a piece lands. -/
theorem pfx_read_writes_const {sg : RefSig} {κ : Kind} {sp : Space} {s : Shape} {e : EltTy} {Val : EltTy → Type}
    (v : View sg κ sp s e) (f : v.ty.Contents Val) (z : Val e) (Ls : List (View.Piece Val s e))
    (hL : ∀ p ∈ Ls, ∀ x : p.1.shape.Idx, p.2 x = z) (y : s.Idx)
    (h : v.read Val f y = z ∨ ∃ p ∈ Ls, y ∈ p.1.set) : v.read Val (v.writes Val f Ls) y = z := by
  by_cases hc : ∃ p ∈ Ls, y ∈ p.1.set
  · exact View.read_writes_apply_of_pieces v f (fun _ => z) Ls hL y hc
  · rcases h with h | h
    · rw [View.read_writes_apply_of_forall_not_mem v f y Ls (fun p hp hy => hc ⟨p, hp, hy⟩)]; exact h
    · exact absurd h hc

end Cert.Proof.KI

end
-- ==== Proof.Cover.lean ====
import proofs.«207445_g73023033966933_cont_9to1_m_863_36_alg».proof.Proof.KI.Common

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

abbrev coords0 (c : Fin 2) (s : Fin 16) : grid0.Coords :=
  fun | 0 => c | 1 => s | ⟨_ + 2, h⟩ => absurd h (Nat.not_lt.2 (Nat.le_add_left _ _))

abbrev piece0 (L : grid0.Coords) (r : Fin 6) : Finset S1536x4096.Idx :=
  ((Memref.whole main_v1_scv : Memref sig .scVector .hbm S1536x4096 .f32).slice
    (Rect.unit (s := S1536x4096) (k0_off5 L (BitVec.ofNat 32 (8 * r.val))) S8x4096.size (Gen.k0_off5_inb L r)) (fun _ => rfl)).view.set

abbrev T0 : Type := Fin 2 × Fin 16 × Fin 6
abbrev K0 (t : T0) : Finset S1536x4096.Idx := piece0 (coords0 t.1 t.2.1) t.2.2

theorem piece0_eq (L : grid0.Coords) (r : Fin 6) :
    piece0 L r = (Rect.unit (s := S1536x4096) (k0_off5 L (BitVec.ofNat 32 (8 * r.val))) S8x4096.size (Gen.k0_off5_inb L r)).set := by
  show ((View.whole (main_v1_scv : Ref sig .scVector)).slice _).set = _
  rw [View.set_slice]; exact Finset.map_refl

theorem mem_piece0 (L : grid0.Coords) (r : Fin 6) (i : S1536x4096.Idx) :
    i ∈ piece0 L r ↔ 96 * (L 1).val + 48 * (L 0).val + 8 * r.val ≤ (i 0).val
      ∧ (i 0).val < 96 * (L 1).val + 48 * (L 0).val + 8 * r.val + 8 := by
  rw [piece0_eq, Rect.mem_set_unit, Gen.k0_off5_eq, Fin.forall_fin_two]
  have h1 : (i 1).val < 4096 := (i 1).isLt
  show (96 * (L 1).val + 48 * (L 0).val + 8 * r.val ≤ (i 0).val ∧ (i 0).val < 96 * (L 1).val + 48 * (L 0).val + 8 * r.val + 8)
    ∧ (0 ≤ (i 1).val ∧ (i 1).val < 0 + 4096) ↔ _
  omega

theorem pieces0_disjoint : ∀ t ∈ (Finset.univ : Finset T0), ∀ t' ∈ (Finset.univ : Finset T0), t ≠ t' → Disjoint (K0 t) (K0 t') := by
  rintro ⟨c, s, r⟩ - ⟨c', s', r'⟩ - h
  have hne : c.val ≠ c'.val ∨ s.val ≠ s'.val ∨ r.val ≠ r'.val := by
    by_contra hn
    simp only [not_or, not_not] at hn
    exact h (Prod.ext (Fin.ext hn.1) (Prod.ext (Fin.ext hn.2.1) (Fin.ext hn.2.2)))
  rw [Finset.disjoint_left]
  intro i hi hi'
  rw [mem_piece0] at hi hi'
  have e1 : ((coords0 c s) 1).val = s.val := rfl
  have e0 : ((coords0 c s) 0).val = c.val := rfl
  have e1' : ((coords0 c' s') 1).val = s'.val := rfl
  have e0' : ((coords0 c' s') 0).val = c'.val := rfl
  simp only [e1, e0, e1', e0'] at hi hi'
  omega

theorem pieces0_cover : (Finset.univ : Finset T0).biUnion K0 = Finset.univ := by
  ext i
  simp only [Finset.mem_biUnion, Finset.mem_univ, true_and, iff_true]
  have hi : (i 0).val < 1536 := (i 0).isLt
  refine ⟨(⟨(i 0).val % 96 / 48, by omega⟩, ⟨(i 0).val / 96, by omega⟩, ⟨(i 0).val % 48 / 8, by omega⟩), ?_⟩
  rw [mem_piece0]
  show 96 * ((i 0).val / 96) + 48 * ((i 0).val % 96 / 48) + 8 * ((i 0).val % 48 / 8) ≤ (i 0).val
    ∧ (i 0).val < 96 * ((i 0).val / 96) + 48 * ((i 0).val % 96 / 48) + 8 * ((i 0).val % 48 / 8) + 8
  omega

theorem d0Pts_pieces (d : Dev nD) (f : Buf (Elt F) (d0Loc d)) :
    (d0Loc d ↦{fullShare} f : sProp 𝕄) = bigSep Finset.univ fun t : T0 => d0Loc d ↦[K0 t]{fullShare} f := by
  rw [← pointsTo_biUnion Finset.univ (ℓ := d0Loc d) K0 pieces0_disjoint, pieces0_cover]; try rfl

abbrev coords2 (c : Fin 2) (s : Fin 16) : grid2.Coords :=
  fun | 0 => c | 1 => s | ⟨_ + 2, h⟩ => absurd h (Nat.not_lt.2 (Nat.le_add_left _ _))

abbrev piece1 (L : grid2.Coords) (r : Fin 10) : Finset S2560x4096.Idx :=
  ((Memref.whole main_v4_scv : Memref sig .scVector .hbm S2560x4096 .f32).slice
    (Rect.unit (s := S2560x4096) (k2_off5 L (BitVec.ofNat 32 (8 * r.val))) S8x4096.size (Gen.k2_off5_inb L r)) (fun _ => rfl)).view.set

abbrev T1 : Type := Fin 2 × Fin 16 × Fin 10
abbrev K1 (t : T1) : Finset S2560x4096.Idx := piece1 (coords2 t.1 t.2.1) t.2.2

theorem piece1_eq (L : grid2.Coords) (r : Fin 10) :
    piece1 L r = (Rect.unit (s := S2560x4096) (k2_off5 L (BitVec.ofNat 32 (8 * r.val))) S8x4096.size (Gen.k2_off5_inb L r)).set := by
  show ((View.whole (main_v4_scv : Ref sig .scVector)).slice _).set = _
  rw [View.set_slice]; exact Finset.map_refl

theorem mem_piece1 (L : grid2.Coords) (r : Fin 10) (i : S2560x4096.Idx) :
    i ∈ piece1 L r ↔ 160 * (L 1).val + 80 * (L 0).val + 8 * r.val ≤ (i 0).val
      ∧ (i 0).val < 160 * (L 1).val + 80 * (L 0).val + 8 * r.val + 8 := by
  rw [piece1_eq, Rect.mem_set_unit, Gen.k2_off5_eq, Fin.forall_fin_two]
  have h1 : (i 1).val < 4096 := (i 1).isLt
  show (160 * (L 1).val + 80 * (L 0).val + 8 * r.val ≤ (i 0).val ∧ (i 0).val < 160 * (L 1).val + 80 * (L 0).val + 8 * r.val + 8)
    ∧ (0 ≤ (i 1).val ∧ (i 1).val < 0 + 4096) ↔ _
  omega

theorem pieces1_disjoint : ∀ t ∈ (Finset.univ : Finset T1), ∀ t' ∈ (Finset.univ : Finset T1), t ≠ t' → Disjoint (K1 t) (K1 t') := by
  rintro ⟨c, s, r⟩ - ⟨c', s', r'⟩ - h
  have hne : c.val ≠ c'.val ∨ s.val ≠ s'.val ∨ r.val ≠ r'.val := by
    by_contra hn
    simp only [not_or, not_not] at hn
    exact h (Prod.ext (Fin.ext hn.1) (Prod.ext (Fin.ext hn.2.1) (Fin.ext hn.2.2)))
  rw [Finset.disjoint_left]
  intro i hi hi'
  rw [mem_piece1] at hi hi'
  have e1 : ((coords2 c s) 1).val = s.val := rfl
  have e0 : ((coords2 c s) 0).val = c.val := rfl
  have e1' : ((coords2 c' s') 1).val = s'.val := rfl
  have e0' : ((coords2 c' s') 0).val = c'.val := rfl
  simp only [e1, e0, e1', e0'] at hi hi'
  omega

theorem pieces1_cover : (Finset.univ : Finset T1).biUnion K1 = Finset.univ := by
  ext i
  simp only [Finset.mem_biUnion, Finset.mem_univ, true_and, iff_true]
  have hi : (i 0).val < 2560 := (i 0).isLt
  refine ⟨(⟨(i 0).val % 160 / 80, by omega⟩, ⟨(i 0).val / 160, by omega⟩, ⟨(i 0).val % 80 / 8, by omega⟩), ?_⟩
  rw [mem_piece1]
  show 160 * ((i 0).val / 160) + 80 * ((i 0).val % 160 / 80) + 8 * ((i 0).val % 80 / 8) ≤ (i 0).val
    ∧ (i 0).val < 160 * ((i 0).val / 160) + 80 * ((i 0).val % 160 / 80) + 8 * ((i 0).val % 80 / 8) + 8
  omega

theorem d1Pts_pieces (d : Dev nD) (f : Buf (Elt F) (d1Loc d)) :
    (d1Loc d ↦{fullShare} f : sProp 𝕄) = bigSep Finset.univ fun t : T1 => d1Loc d ↦[K1 t]{fullShare} f := by
  rw [← pointsTo_biUnion Finset.univ (ℓ := d1Loc d) K1 pieces1_disjoint, pieces1_cover]; try rfl

end Cert.Proof.KI

end
-- ==== Proof.KI.Pay.lean ====
import proofs.«207445_g73023033966933_cont_9to1_m_863_36_alg».proof.Proof.KI.Common
import proofs.«207445_g73023033966933_cont_9to1_m_863_36_alg».proof.Proof.DenseF
import proofs.«207445_g73023033966933_cont_9to1_m_863_36_alg».proof.Proof.Cover

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 2) (Elt F) ℕ UU ℕ

theorem nCore_zero : (K (F := F)).nCore 0 = grid0.bound 0 := rfl
theorem nSub_zero : (K (F := F)).nSub 0 = grid0.bound 1 := rfl
theorem nCore_one : (K (F := F)).nCore 1 = grid2.bound 0 := rfl
theorem nSub_one : (K (F := F)).nSub 1 = grid2.bound 1 := rfl

abbrev pieceM0 (L : grid0.Coords) (r : Fin 6) : Memref sig .scVector .hbm S8x4096 .f32 :=
  (Memref.whole main_v1_scv : Memref sig .scVector .hbm S1536x4096 .f32).slice
    (Rect.unit (s := S1536x4096) (k0_off5 L (BitVec.ofNat 32 (8 * r.val))) S8x4096.size (Gen.k0_off5_inb L r)) (fun _ => rfl)

abbrev pieceM1 (L : grid2.Coords) (r : Fin 10) : Memref sig .scVector .hbm S8x4096 .f32 :=
  (Memref.whole main_v4_scv : Memref sig .scVector .hbm S2560x4096 .f32).slice
    (Rect.unit (s := S2560x4096) (k2_off5 L (BitVec.ofNat 32 (8 * r.val))) S8x4096.size (Gen.k2_off5_inb L r)) (fun _ => rfl)

def qC (c : ℕ) : PosShare TreeShare := Transfers.shareTokN fullShare c
def qT (c i : ℕ) : PosShare TreeShare := Transfers.shareTokN (qC c) i

variable (m : (ℓ : Loc nD τ sig) → Buf (Elt F) ℓ) (ρ : Dev nD → PrngReg)

abbrev wRd (d : Dev nD) (q : PosShare TreeShare) : sProp 𝕄 := wLoc d ↦{q} m (wLoc d)
abbrev mRd (d : Dev nD) (q : PosShare TreeShare) : sProp 𝕄 := mLoc d ↦{q} m (mLoc d)

def tile0 (d : Dev nD) (L : grid0.Coords) (f : Buf (Elt F) (d0Loc d)) : sProp 𝕄 :=
  bigSep Finset.univ fun r : Fin 6 => d0Loc d ↦[piece0 L r]{fullShare} f
def tile1 (d : Dev nD) (L : grid2.Coords) (f : Buf (Elt F) (d1Loc d)) : sProp 𝕄 :=
  bigSep Finset.univ fun r : Fin 10 => d1Loc d ↦[piece1 L r]{fullShare} f

variable [FloatOps F]

def zeroF : Elt F .f32 := (Scalar.ofBits .f32 0x00000000#32 : F .f32)

def dense0 (d : Dev nD) : Buf (Elt F) (d0Loc d) :=
  fun i => DenseF.denseF (m (wLoc d)) (m (mLoc d)) zeroF
    (ix2 ⟨(i 0).val % 4096, Nat.mod_lt _ (by decide)⟩ ⟨(i 1).val % 4096, Nat.mod_lt _ (by decide)⟩)

def dense1 (d : Dev nD) : Buf (Elt F) (d1Loc d) :=
  fun i => DenseF.denseF (m (wLoc d)) (m (mLoc d)) zeroF
    (ix2 ⟨(1536 + (i 0).val) % 4096, Nat.mod_lt _ (by decide)⟩ ⟨(i 1).val % 4096, Nat.mod_lt _ (by decide)⟩)

def go0 (d : Dev nD) (c : Fin (grid0.bound 0)) (i : Fin (grid0.bound 1)) : sProp 𝕄 :=
  iprop(wRd m d (qT c.val i.val) ∗ mRd m d (qT c.val i.val) ∗ tile0 d (coords0 c i) (m (d0Loc d)))
def td0 (d : Dev nD) (c : Fin (grid0.bound 0)) (i : Fin (grid0.bound 1)) : sProp 𝕄 :=
  iprop(wRd m d (qT c.val i.val) ∗ mRd m d (qT c.val i.val) ∗ tile0 d (coords0 c i) (dense0 m d))
def go1 (d : Dev nD) (c : Fin (grid2.bound 0)) (i : Fin (grid2.bound 1)) : sProp 𝕄 :=
  iprop(wRd m d (qT c.val i.val) ∗ mRd m d (qT c.val i.val) ∗ tile1 d (coords2 c i) (m (d1Loc d)))
def td1 (d : Dev nD) (c : Fin (grid2.bound 0)) (i : Fin (grid2.bound 1)) : sProp 𝕄 :=
  iprop(wRd m d (qT c.val i.val) ∗ mRd m d (qT c.val i.val) ∗ tile1 d (coords2 c i) (dense1 m d))

def st0 (d : Dev nD) (c : Fin (grid0.bound 0)) : sProp 𝕄 :=
  iprop(wRd m d (qC c.val) ∗ mRd m d (qC c.val) ∗ bigSep Finset.univ fun i : Fin (grid0.bound 1) => tile0 d (coords0 c i) (m (d0Loc d)))
def dn0 (d : Dev nD) (c : Fin (grid0.bound 0)) : sProp 𝕄 :=
  iprop(wRd m d (qC c.val) ∗ mRd m d (qC c.val) ∗ bigSep Finset.univ fun i : Fin (grid0.bound 1) => tile0 d (coords0 c i) (dense0 m d))
def st1 (d : Dev nD) (c : Fin (grid2.bound 0)) : sProp 𝕄 :=
  iprop(wRd m d (qC c.val) ∗ mRd m d (qC c.val) ∗ bigSep Finset.univ fun i : Fin (grid2.bound 1) => tile1 d (coords2 c i) (m (d1Loc d)))
def dn1 (d : Dev nD) (c : Fin (grid2.bound 0)) : sProp 𝕄 :=
  iprop(wRd m d (qC c.val) ∗ mRd m d (qC c.val) ∗ bigSep Finset.univ fun i : Fin (grid2.bound 1) => tile1 d (coords2 c i) (dense1 m d))

def P : (K (F := F)).Pay (nD := nD) (Val := Elt F) (Name := ℕ) (U := UU) where
  st := fun q d c => match q with
    | 0 => st0 m d (Fin.cast nCore_zero c)
    | 1 => st1 m d (Fin.cast nCore_one c)
  dn := fun q d c => match q with
    | 0 => dn0 m d (Fin.cast nCore_zero c)
    | 1 => dn1 m d (Fin.cast nCore_one c)
  go := fun q d c i => match q with
    | 0 => go0 m d (Fin.cast nCore_zero c) (Fin.cast nSub_zero i)
    | 1 => go1 m d (Fin.cast nCore_one c) (Fin.cast nSub_one i)
  td := fun q d c i => match q with
    | 0 => td0 m d (Fin.cast nCore_zero c) (Fin.cast nSub_zero i)
    | 1 => td1 m d (Fin.cast nCore_one c) (Fin.cast nSub_one i)
  x := fun _ _ => iprop(emp)

instance P_storable : (P (F := F) m).IsStorable where
  st q d c := match q with
    | 0 => by unfold P st0 tile0; dsimp only; infer_instance
    | 1 => by unfold P st1 tile1; dsimp only; infer_instance
  dn q d c := match q with
    | 0 => by unfold P dn0 tile0; dsimp only; infer_instance
    | 1 => by unfold P dn1 tile1; dsimp only; infer_instance
  go q d c i := match q with
    | 0 => by unfold P go0 tile0; dsimp only; infer_instance
    | 1 => by unfold P go1 tile1; dsimp only; infer_instance
  td q d c i := match q with
    | 0 => by unfold P td0 tile0; dsimp only; infer_instance
    | 1 => by unfold P td1 tile1; dsimp only; infer_instance

end Cert.Proof.KI

end
-- ==== Proof.KI.Launch.lean ====
import proofs.«207445_g73023033966933_cont_9to1_m_863_36_alg».proof.Proof.KI.Pay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 2) (Elt F) ℕ UU ℕ

variable (m : (ℓ : Loc nD τ sig) → Buf (Elt F) ℓ) (ρ : Dev nD → PrngReg)

omit m in
theorem bigSep_tasks0 (Φ : Fin (grid0.bound 1) → sProp 𝕄) :
    (bigSep Finset.univ fun i : Fin ((K (F := F)).nSub 0) => Φ (Fin.cast nSub_zero i)) = bigSep Finset.univ Φ :=
  bigSep_congr fun _ _ => congrArg Φ (Fin.ext rfl)
omit m in
theorem bigSep_tasks1 (Φ : Fin (grid2.bound 1) → sProp 𝕄) :
    (bigSep Finset.univ fun i : Fin ((K (F := F)).nSub 1) => Φ (Fin.cast nSub_one i)) = bigSep Finset.univ Φ :=
  bigSep_congr fun _ _ => congrArg Φ (Fin.ext rfl)

theorem share16 (ℓ : Loc nD τ sig) (f : Buf (Elt F) ℓ) (q : PosShare TreeShare) :
    (ℓ ↦{q} f : sProp 𝕄) ⊢ iprop((bigSep Finset.univ fun i : Fin 16 => ℓ ↦{Transfers.shareTokN q i.val} f)
      ∗ ((bigSep Finset.univ fun i : Fin 16 => ℓ ↦{Transfers.shareTokN q i.val} f) -∗ ℓ ↦{q} f)) := by
  iintro H
  ihave H' := (Transfers.pointsTo_toks_split q 16) $$ H
  icases H' with ⟨Hd, Hs⟩
  isplitl [Hs]; · iexact Hs
  iintro Hs
  iapply (Transfers.pointsTo_toks_join q 16)
  isplitl [Hd]; · iexact Hd
  iexact Hs

variable [FloatOps F]

theorem vecSplit0 : (K (F := F)).VecSplit' (P m) 0 := by
  intro d c
  show st0 m d (Fin.cast nCore_zero c) ⊢ |={Set.univ}=> iprop(
      (bigSep Finset.univ fun i : Fin ((K (F := F)).nSub 0) => go0 m d (Fin.cast nCore_zero c) (Fin.cast nSub_zero i))
      ∗ ((bigSep Finset.univ fun i : Fin ((K (F := F)).nSub 0) => td0 m d (Fin.cast nCore_zero c) (Fin.cast nSub_zero i))
          -∗ dn0 m d (Fin.cast nCore_zero c)))
  rw [bigSep_tasks0 (F := F) (fun i => go0 m d (Fin.cast nCore_zero c) i), bigSep_tasks0 (F := F) (fun i => td0 m d (Fin.cast nCore_zero c) i)]
  unfold st0 dn0 go0 td0
  rw [bigSep_sep', bigSep_sep', bigSep_sep', bigSep_sep']
  iintro ⟨Hw, Hm, Ht⟩
  ihave Hw' := (share16 (wLoc d) (m (wLoc d)) (qC (Fin.cast nCore_zero c).val)) $$ Hw
  icases Hw' with ⟨Hws, Hwj⟩
  ihave Hm' := (share16 (mLoc d) (m (mLoc d)) (qC (Fin.cast nCore_zero c).val)) $$ Hm
  icases Hm' with ⟨Hms, Hmj⟩
  imodintro
  isplitl [Hws Hms Ht]
  · isplitl [Hws]; · iexact Hws
    isplitl [Hms]; · iexact Hms
    iexact Ht
  iintro ⟨Hws, Hms, Ht⟩
  isplitl [Hwj Hws]; · iapply Hwj; iexact Hws
  isplitl [Hmj Hms]; · iapply Hmj; iexact Hms
  iexact Ht

theorem vecSplit1 : (K (F := F)).VecSplit' (P m) 1 := by
  intro d c
  show st1 m d (Fin.cast nCore_one c) ⊢ |={Set.univ}=> iprop(
      (bigSep Finset.univ fun i : Fin ((K (F := F)).nSub 1) => go1 m d (Fin.cast nCore_one c) (Fin.cast nSub_one i))
      ∗ ((bigSep Finset.univ fun i : Fin ((K (F := F)).nSub 1) => td1 m d (Fin.cast nCore_one c) (Fin.cast nSub_one i))
          -∗ dn1 m d (Fin.cast nCore_one c)))
  rw [bigSep_tasks1 (F := F) (fun i => go1 m d (Fin.cast nCore_one c) i), bigSep_tasks1 (F := F) (fun i => td1 m d (Fin.cast nCore_one c) i)]
  unfold st1 dn1 go1 td1
  rw [bigSep_sep', bigSep_sep', bigSep_sep', bigSep_sep']
  iintro ⟨Hw, Hm, Ht⟩
  ihave Hw' := (share16 (wLoc d) (m (wLoc d)) (qC (Fin.cast nCore_one c).val)) $$ Hw
  icases Hw' with ⟨Hws, Hwj⟩
  ihave Hm' := (share16 (mLoc d) (m (mLoc d)) (qC (Fin.cast nCore_one c).val)) $$ Hm
  icases Hm' with ⟨Hms, Hmj⟩
  imodintro
  isplitl [Hws Hms Ht]
  · isplitl [Hws]; · iexact Hws
    isplitl [Hms]; · iexact Hms
    iexact Ht
  iintro ⟨Hws, Hms, Ht⟩
  isplitl [Hwj Hws]; · iapply Hwj; iexact Hws
  isplitl [Hmj Hms]; · iapply Hmj; iexact Hms
  iexact Ht

section Fin

variable (OUT : (d : Dev nD) → Buf (Elt F) (o6Loc d))

def FIN (d : Dev nD) : sProp 𝕄 :=
  iprop((xLoc d ↦{fullShare} m (xLoc d)) ∗ (wLoc d ↦{fullShare} m (wLoc d)) ∗ (mLoc d ↦{fullShare} m (mLoc d))
    ∗ (bLoc d ↦{fullShare} m (bLoc d)) ∗ o6Loc d ↦{fullShare} OUT d)

def fq (d : Dev nD) (s' : Phys nD τ sig (Elt F)) : Prop :=
  s'.mem.mem (o6Loc d) = OUT d ∧ s'.mem.mem (xLoc d) = m (xLoc d) ∧ s'.mem.mem (wLoc d) = m (wLoc d)
    ∧ s'.mem.mem (mLoc d) = m (mLoc d) ∧ s'.mem.mem (bLoc d) = m (bLoc d)

omit [FloatOps F] in
theorem agree_step (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr
  · ipureintro; exact funext fun i => h i (Finset.mem_univ i)
  · iexact HSI

omit [FloatOps F] in
theorem hfin (d : Dev nD) (s' : Phys nD τ sig (Elt F)) : iprop(FIN m OUT d ∗ SI s') ⊢ (⌜fq m OUT d s'⌝ : sProp 𝕄) := by
  unfold FIN
  iintro ⟨⟨Hx, Hw, Hm, Hb, Ho⟩, HSI⟩
  ihave H := (agree_step (xLoc d) _ s') $$ [Hx HSI]
  · isplitl [Hx] <;> iassumption
  icases H with ⟨%hx, HSI⟩
  ihave H := (agree_step (wLoc d) _ s') $$ [Hw HSI]
  · isplitl [Hw] <;> iassumption
  icases H with ⟨%hw, HSI⟩
  ihave H := (agree_step (mLoc d) _ s') $$ [Hm HSI]
  · isplitl [Hm] <;> iassumption
  icases H with ⟨%hm, HSI⟩
  ihave H := (agree_step (bLoc d) _ s') $$ [Hb HSI]
  · isplitl [Hb] <;> iassumption
  icases H with ⟨%hb, HSI⟩
  ihave H := (agree_step (o6Loc d) _ s') $$ [Ho HSI]
  · isplitl [Ho] <;> iassumption
  icases H with ⟨%ho, -⟩
  ipureintro; exact ⟨ho, hx, hw, hm, hb⟩

def QC : PUnit × MemSt nD τ sig (Elt F) → Prop := fun r => ∀ c : Dev nD,
  r.2.mem (o6Loc c) = OUT c ∧ r.2.mem (xLoc c) = m (xLoc c) ∧ r.2.mem (wLoc c) = m (wLoc c)
    ∧ r.2.mem (mLoc c) = m (mLoc c) ∧ r.2.mem (bLoc c) = m (bLoc c)

end Fin

end Cert.Proof.KI

end
-- ==== Proof.KB.Common.lean ====
import proofs.«207445_g73023033966933_cont_9to1_m_863_36_alg».proof.Defs
import proofs.«207445_g73023033966933_cont_9to1_m_863_36_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic
import Idealize.ShloMosaic.Lib.Writes
import proofs.«207445_g73023033966933_cont_9to1_m_863_36_alg».proof.Proof.Gen.Kernel
import proofs.«207445_g73023033966933_cont_9to1_m_863_36_alg».proof.Proof.Gen.Kernel.Skeleton
import proofs.«207445_g73023033966933_cont_9to1_m_863_36_alg».proof.Proof.Gen.Kernel.Launch
import proofs.«207445_g73023033966933_cont_9to1_m_863_36_alg».proof.Proof.Gen.Kernel.Points

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL

def EP : Emb UP (MT nD τ sig (HIx 2) (Elt F) ℕ UU ℕ) :=
  (Emb.inl : Emb UP (UP × Counters)).trans (embR (A := UH) (B := UP × Counters))

instance EP_landsIn : (EP : Emb UP 𝕄).LandsIn (upEmb : UEmb _ 𝕄) := by unfold EP; infer_instance

abbrev xLoc (d : Dev nD) : Loc nD τ sig := (SparseCore.T d).loc main_arg0
abbrev wLoc (d : Dev nD) : Loc nD τ sig := (SparseCore.T d).loc main_arg1
abbrev mLoc (d : Dev nD) : Loc nD τ sig := (SparseCore.T d).loc main_arg2
abbrev bLoc (d : Dev nD) : Loc nD τ sig := (SparseCore.T d).loc main_arg3
abbrev x16Loc (d : Dev nD) : Loc nD τ sig := (SparseCore.T d).loc main_v0
abbrev d0Loc (d : Dev nD) : Loc nD τ sig := (SparseCore.T d).loc main_v1
abbrev b0Loc (d : Dev nD) : Loc nD τ sig := (SparseCore.T d).loc main_v2
abbrev o3Loc (d : Dev nD) : Loc nD τ sig := (SparseCore.T d).loc main_v3
abbrev d1Loc (d : Dev nD) : Loc nD τ sig := (SparseCore.T d).loc main_v4
abbrev b1Loc (d : Dev nD) : Loc nD τ sig := (SparseCore.T d).loc main_v5
abbrev o6Loc (d : Dev nD) : Loc nD τ sig := (SparseCore.T d).loc main_v6

def PreOK (m : (ℓ : Loc nD τ sig) → Buf (Elt F) ℓ) : Prop :=
  ∀ (d : Dev nD) (i : S4096x128.Idx), ((m (mLoc d) : IVec S4096x128 32) i).toNat < 4096

/-- A view written with pieces that all hold z reads z wherever it read z before or a piece lands. -/
theorem pfx_read_writes_const {sg : RefSig} {κ : Kind} {sp : Space} {s : Shape} {e : EltTy} {Val : EltTy → Type}
    (v : View sg κ sp s e) (f : v.ty.Contents Val) (z : Val e) (Ls : List (View.Piece Val s e))
    (hL : ∀ p ∈ Ls, ∀ x : p.1.shape.Idx, p.2 x = z) (y : s.Idx)
    (h : v.read Val f y = z ∨ ∃ p ∈ Ls, y ∈ p.1.set) : v.read Val (v.writes Val f Ls) y = z := by
  by_cases hc : ∃ p ∈ Ls, y ∈ p.1.set
  · exact View.read_writes_apply_of_pieces v f (fun _ => z) Ls hL y hc
  · rcases h with h | h
    · rw [View.read_writes_apply_of_forall_not_mem v f y Ls (fun p hp hy => hc ⟨p, hp, hy⟩)]; exact h
    · exact absurd h hc

end Cert.Proof.KB

end
-- ==== Proof.KB.Cover.lean ====
import proofs.«207445_g73023033966933_cont_9to1_m_863_36_alg».proof.Proof.KB.Common

noncomputable section

namespace Cert.Proof.KB

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

abbrev coords0 (c : Fin 2) (s : Fin 16) : grid0.Coords :=
  fun | 0 => c | 1 => s | ⟨_ + 2, h⟩ => absurd h (Nat.not_lt.2 (Nat.le_add_left _ _))

abbrev piece0 (L : grid0.Coords) (r : Fin 6) : Finset S1536x4096.Idx :=
  ((Memref.whole main_v1_scv : Memref sig .scVector .hbm S1536x4096 .f32).slice
    (Rect.unit (s := S1536x4096) (k0_off5 L (BitVec.ofNat 32 (8 * r.val))) S8x4096.size (Gen.k0_off5_inb L r)) (fun _ => rfl)).view.set

abbrev T0 : Type := Fin 2 × Fin 16 × Fin 6
abbrev K0 (t : T0) : Finset S1536x4096.Idx := piece0 (coords0 t.1 t.2.1) t.2.2

theorem piece0_eq (L : grid0.Coords) (r : Fin 6) :
    piece0 L r = (Rect.unit (s := S1536x4096) (k0_off5 L (BitVec.ofNat 32 (8 * r.val))) S8x4096.size (Gen.k0_off5_inb L r)).set := by
  show ((View.whole (main_v1_scv : Ref sig .scVector)).slice _).set = _
  rw [View.set_slice]; exact Finset.map_refl

theorem mem_piece0 (L : grid0.Coords) (r : Fin 6) (i : S1536x4096.Idx) :
    i ∈ piece0 L r ↔ 96 * (L 1).val + 48 * (L 0).val + 8 * r.val ≤ (i 0).val
      ∧ (i 0).val < 96 * (L 1).val + 48 * (L 0).val + 8 * r.val + 8 := by
  rw [piece0_eq, Rect.mem_set_unit, Gen.k0_off5_eq, Fin.forall_fin_two]
  have h1 : (i 1).val < 4096 := (i 1).isLt
  show (96 * (L 1).val + 48 * (L 0).val + 8 * r.val ≤ (i 0).val ∧ (i 0).val < 96 * (L 1).val + 48 * (L 0).val + 8 * r.val + 8)
    ∧ (0 ≤ (i 1).val ∧ (i 1).val < 0 + 4096) ↔ _
  omega

theorem pieces0_disjoint : ∀ t ∈ (Finset.univ : Finset T0), ∀ t' ∈ (Finset.univ : Finset T0), t ≠ t' → Disjoint (K0 t) (K0 t') := by
  rintro ⟨c, s, r⟩ - ⟨c', s', r'⟩ - h
  have hne : c.val ≠ c'.val ∨ s.val ≠ s'.val ∨ r.val ≠ r'.val := by
    by_contra hn
    simp only [not_or, not_not] at hn
    exact h (Prod.ext (Fin.ext hn.1) (Prod.ext (Fin.ext hn.2.1) (Fin.ext hn.2.2)))
  rw [Finset.disjoint_left]
  intro i hi hi'
  rw [mem_piece0] at hi hi'
  have e1 : ((coords0 c s) 1).val = s.val := rfl
  have e0 : ((coords0 c s) 0).val = c.val := rfl
  have e1' : ((coords0 c' s') 1).val = s'.val := rfl
  have e0' : ((coords0 c' s') 0).val = c'.val := rfl
  simp only [e1, e0, e1', e0'] at hi hi'
  omega

theorem pieces0_cover : (Finset.univ : Finset T0).biUnion K0 = Finset.univ := by
  ext i
  simp only [Finset.mem_biUnion, Finset.mem_univ, true_and, iff_true]
  have hi : (i 0).val < 1536 := (i 0).isLt
  refine ⟨(⟨(i 0).val % 96 / 48, by omega⟩, ⟨(i 0).val / 96, by omega⟩, ⟨(i 0).val % 48 / 8, by omega⟩), ?_⟩
  rw [mem_piece0]
  show 96 * ((i 0).val / 96) + 48 * ((i 0).val % 96 / 48) + 8 * ((i 0).val % 48 / 8) ≤ (i 0).val
    ∧ (i 0).val < 96 * ((i 0).val / 96) + 48 * ((i 0).val % 96 / 48) + 8 * ((i 0).val % 48 / 8) + 8
  omega

theorem d0Pts_pieces (d : Dev nD) (f : Buf (Elt F) (d0Loc d)) :
    (d0Loc d ↦{fullShare} f : sProp 𝕄) = bigSep Finset.univ fun t : T0 => d0Loc d ↦[K0 t]{fullShare} f := by
  rw [← pointsTo_biUnion Finset.univ (ℓ := d0Loc d) K0 pieces0_disjoint, pieces0_cover]; try rfl

abbrev coords2 (c : Fin 2) (s : Fin 16) : grid2.Coords :=
  fun | 0 => c | 1 => s | ⟨_ + 2, h⟩ => absurd h (Nat.not_lt.2 (Nat.le_add_left _ _))

abbrev piece1 (L : grid2.Coords) (r : Fin 10) : Finset S2560x4096.Idx :=
  ((Memref.whole main_v4_scv : Memref sig .scVector .hbm S2560x4096 .f32).slice
    (Rect.unit (s := S2560x4096) (k2_off5 L (BitVec.ofNat 32 (8 * r.val))) S8x4096.size (Gen.k2_off5_inb L r)) (fun _ => rfl)).view.set

abbrev T1 : Type := Fin 2 × Fin 16 × Fin 10
abbrev K1 (t : T1) : Finset S2560x4096.Idx := piece1 (coords2 t.1 t.2.1) t.2.2

theorem piece1_eq (L : grid2.Coords) (r : Fin 10) :
    piece1 L r = (Rect.unit (s := S2560x4096) (k2_off5 L (BitVec.ofNat 32 (8 * r.val))) S8x4096.size (Gen.k2_off5_inb L r)).set := by
  show ((View.whole (main_v4_scv : Ref sig .scVector)).slice _).set = _
  rw [View.set_slice]; exact Finset.map_refl

theorem mem_piece1 (L : grid2.Coords) (r : Fin 10) (i : S2560x4096.Idx) :
    i ∈ piece1 L r ↔ 160 * (L 1).val + 80 * (L 0).val + 8 * r.val ≤ (i 0).val
      ∧ (i 0).val < 160 * (L 1).val + 80 * (L 0).val + 8 * r.val + 8 := by
  rw [piece1_eq, Rect.mem_set_unit, Gen.k2_off5_eq, Fin.forall_fin_two]
  have h1 : (i 1).val < 4096 := (i 1).isLt
  show (160 * (L 1).val + 80 * (L 0).val + 8 * r.val ≤ (i 0).val ∧ (i 0).val < 160 * (L 1).val + 80 * (L 0).val + 8 * r.val + 8)
    ∧ (0 ≤ (i 1).val ∧ (i 1).val < 0 + 4096) ↔ _
  omega

theorem pieces1_disjoint : ∀ t ∈ (Finset.univ : Finset T1), ∀ t' ∈ (Finset.univ : Finset T1), t ≠ t' → Disjoint (K1 t) (K1 t') := by
  rintro ⟨c, s, r⟩ - ⟨c', s', r'⟩ - h
  have hne : c.val ≠ c'.val ∨ s.val ≠ s'.val ∨ r.val ≠ r'.val := by
    by_contra hn
    simp only [not_or, not_not] at hn
    exact h (Prod.ext (Fin.ext hn.1) (Prod.ext (Fin.ext hn.2.1) (Fin.ext hn.2.2)))
  rw [Finset.disjoint_left]
  intro i hi hi'
  rw [mem_piece1] at hi hi'
  have e1 : ((coords2 c s) 1).val = s.val := rfl
  have e0 : ((coords2 c s) 0).val = c.val := rfl
  have e1' : ((coords2 c' s') 1).val = s'.val := rfl
  have e0' : ((coords2 c' s') 0).val = c'.val := rfl
  simp only [e1, e0, e1', e0'] at hi hi'
  omega

theorem pieces1_cover : (Finset.univ : Finset T1).biUnion K1 = Finset.univ := by
  ext i
  simp only [Finset.mem_biUnion, Finset.mem_univ, true_and, iff_true]
  have hi : (i 0).val < 2560 := (i 0).isLt
  refine ⟨(⟨(i 0).val % 160 / 80, by omega⟩, ⟨(i 0).val / 160, by omega⟩, ⟨(i 0).val % 80 / 8, by omega⟩), ?_⟩
  rw [mem_piece1]
  show 160 * ((i 0).val / 160) + 80 * ((i 0).val % 160 / 80) + 8 * ((i 0).val % 80 / 8) ≤ (i 0).val
    ∧ (i 0).val < 160 * ((i 0).val / 160) + 80 * ((i 0).val % 160 / 80) + 8 * ((i 0).val % 80 / 8) + 8
  omega

theorem d1Pts_pieces (d : Dev nD) (f : Buf (Elt F) (d1Loc d)) :
    (d1Loc d ↦{fullShare} f : sProp 𝕄) = bigSep Finset.univ fun t : T1 => d1Loc d ↦[K1 t]{fullShare} f := by
  rw [← pointsTo_biUnion Finset.univ (ℓ := d1Loc d) K1 pieces1_disjoint, pieces1_cover]; try rfl

end Cert.Proof.KB

end
-- ==== Proof.KB.Pay.lean ====
import proofs.«207445_g73023033966933_cont_9to1_m_863_36_alg».proof.Proof.KB.Common
import proofs.«207445_g73023033966933_cont_9to1_m_863_36_alg».proof.Proof.DenseF
import proofs.«207445_g73023033966933_cont_9to1_m_863_36_alg».proof.Proof.KB.Cover

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 2) (Elt F) ℕ UU ℕ

theorem nCore_zero : (K (F := F)).nCore 0 = grid0.bound 0 := rfl
theorem nSub_zero : (K (F := F)).nSub 0 = grid0.bound 1 := rfl
theorem nCore_one : (K (F := F)).nCore 1 = grid2.bound 0 := rfl
theorem nSub_one : (K (F := F)).nSub 1 = grid2.bound 1 := rfl

abbrev pieceM0 (L : grid0.Coords) (r : Fin 6) : Memref sig .scVector .hbm S8x4096 .f32 :=
  (Memref.whole main_v1_scv : Memref sig .scVector .hbm S1536x4096 .f32).slice
    (Rect.unit (s := S1536x4096) (k0_off5 L (BitVec.ofNat 32 (8 * r.val))) S8x4096.size (Gen.k0_off5_inb L r)) (fun _ => rfl)

abbrev pieceM1 (L : grid2.Coords) (r : Fin 10) : Memref sig .scVector .hbm S8x4096 .f32 :=
  (Memref.whole main_v4_scv : Memref sig .scVector .hbm S2560x4096 .f32).slice
    (Rect.unit (s := S2560x4096) (k2_off5 L (BitVec.ofNat 32 (8 * r.val))) S8x4096.size (Gen.k2_off5_inb L r)) (fun _ => rfl)

def qC (c : ℕ) : PosShare TreeShare := Transfers.shareTokN fullShare c
def qT (c i : ℕ) : PosShare TreeShare := Transfers.shareTokN (qC c) i

variable (m : (ℓ : Loc nD τ sig) → Buf (Elt F) ℓ) (ρ : Dev nD → PrngReg)

abbrev wRd (d : Dev nD) (q : PosShare TreeShare) : sProp 𝕄 := wLoc d ↦{q} m (wLoc d)
abbrev mRd (d : Dev nD) (q : PosShare TreeShare) : sProp 𝕄 := mLoc d ↦{q} m (mLoc d)

def tile0 (d : Dev nD) (L : grid0.Coords) (f : Buf (Elt F) (d0Loc d)) : sProp 𝕄 :=
  bigSep Finset.univ fun r : Fin 6 => d0Loc d ↦[piece0 L r]{fullShare} f
def tile1 (d : Dev nD) (L : grid2.Coords) (f : Buf (Elt F) (d1Loc d)) : sProp 𝕄 :=
  bigSep Finset.univ fun r : Fin 10 => d1Loc d ↦[piece1 L r]{fullShare} f

variable [FloatOps F]

def zeroF : Elt F .f32 := (Scalar.ofBits .f32 0x00000000#32 : F .f32)

def dense0 (d : Dev nD) : Buf (Elt F) (d0Loc d) :=
  fun i => DenseF.denseF (m (wLoc d)) (m (mLoc d)) zeroF
    (ix2 ⟨(i 0).val % 4096, Nat.mod_lt _ (by decide)⟩ ⟨(i 1).val % 4096, Nat.mod_lt _ (by decide)⟩)

def dense1 (d : Dev nD) : Buf (Elt F) (d1Loc d) :=
  fun i => DenseF.denseF (m (wLoc d)) (m (mLoc d)) zeroF
    (ix2 ⟨(1536 + (i 0).val) % 4096, Nat.mod_lt _ (by decide)⟩ ⟨(i 1).val % 4096, Nat.mod_lt _ (by decide)⟩)

def go0 (d : Dev nD) (c : Fin (grid0.bound 0)) (i : Fin (grid0.bound 1)) : sProp 𝕄 :=
  iprop(wRd m d (qT c.val i.val) ∗ mRd m d (qT c.val i.val) ∗ tile0 d (coords0 c i) (m (d0Loc d)))
def td0 (d : Dev nD) (c : Fin (grid0.bound 0)) (i : Fin (grid0.bound 1)) : sProp 𝕄 :=
  iprop(wRd m d (qT c.val i.val) ∗ mRd m d (qT c.val i.val) ∗ tile0 d (coords0 c i) (dense0 m d))
def go1 (d : Dev nD) (c : Fin (grid2.bound 0)) (i : Fin (grid2.bound 1)) : sProp 𝕄 :=
  iprop(wRd m d (qT c.val i.val) ∗ mRd m d (qT c.val i.val) ∗ tile1 d (coords2 c i) (m (d1Loc d)))
def td1 (d : Dev nD) (c : Fin (grid2.bound 0)) (i : Fin (grid2.bound 1)) : sProp 𝕄 :=
  iprop(wRd m d (qT c.val i.val) ∗ mRd m d (qT c.val i.val) ∗ tile1 d (coords2 c i) (dense1 m d))

def st0 (d : Dev nD) (c : Fin (grid0.bound 0)) : sProp 𝕄 :=
  iprop(wRd m d (qC c.val) ∗ mRd m d (qC c.val) ∗ bigSep Finset.univ fun i : Fin (grid0.bound 1) => tile0 d (coords0 c i) (m (d0Loc d)))
def dn0 (d : Dev nD) (c : Fin (grid0.bound 0)) : sProp 𝕄 :=
  iprop(wRd m d (qC c.val) ∗ mRd m d (qC c.val) ∗ bigSep Finset.univ fun i : Fin (grid0.bound 1) => tile0 d (coords0 c i) (dense0 m d))
def st1 (d : Dev nD) (c : Fin (grid2.bound 0)) : sProp 𝕄 :=
  iprop(wRd m d (qC c.val) ∗ mRd m d (qC c.val) ∗ bigSep Finset.univ fun i : Fin (grid2.bound 1) => tile1 d (coords2 c i) (m (d1Loc d)))
def dn1 (d : Dev nD) (c : Fin (grid2.bound 0)) : sProp 𝕄 :=
  iprop(wRd m d (qC c.val) ∗ mRd m d (qC c.val) ∗ bigSep Finset.univ fun i : Fin (grid2.bound 1) => tile1 d (coords2 c i) (dense1 m d))

def P : (K (F := F)).Pay (nD := nD) (Val := Elt F) (Name := ℕ) (U := UU) where
  st := fun q d c => match q with
    | 0 => st0 m d (Fin.cast nCore_zero c)
    | 1 => st1 m d (Fin.cast nCore_one c)
  dn := fun q d c => match q with
    | 0 => dn0 m d (Fin.cast nCore_zero c)
    | 1 => dn1 m d (Fin.cast nCore_one c)
  go := fun q d c i => match q with
    | 0 => go0 m d (Fin.cast nCore_zero c) (Fin.cast nSub_zero i)
    | 1 => go1 m d (Fin.cast nCore_one c) (Fin.cast nSub_one i)
  td := fun q d c i => match q with
    | 0 => td0 m d (Fin.cast nCore_zero c) (Fin.cast nSub_zero i)
    | 1 => td1 m d (Fin.cast nCore_one c) (Fin.cast nSub_one i)
  x := fun _ _ => iprop(emp)

instance P_storable : (P (F := F) m).IsStorable where
  st q d c := match q with
    | 0 => by unfold P st0 tile0; dsimp only; infer_instance
    | 1 => by unfold P st1 tile1; dsimp only; infer_instance
  dn q d c := match q with
    | 0 => by unfold P dn0 tile0; dsimp only; infer_instance
    | 1 => by unfold P dn1 tile1; dsimp only; infer_instance
  go q d c i := match q with
    | 0 => by unfold P go0 tile0; dsimp only; infer_instance
    | 1 => by unfold P go1 tile1; dsimp only; infer_instance
  td q d c i := match q with
    | 0 => by unfold P td0 tile0; dsimp only; infer_instance
    | 1 => by unfold P td1 tile1; dsimp only; infer_instance

end Cert.Proof.KB

end
-- ==== Proof.KB.Launch.lean ====
import proofs.«207445_g73023033966933_cont_9to1_m_863_36_alg».proof.Proof.KB.Pay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 2) (Elt F) ℕ UU ℕ

variable (m : (ℓ : Loc nD τ sig) → Buf (Elt F) ℓ) (ρ : Dev nD → PrngReg)

omit m in
theorem bigSep_tasks0 (Φ : Fin (grid0.bound 1) → sProp 𝕄) :
    (bigSep Finset.univ fun i : Fin ((K (F := F)).nSub 0) => Φ (Fin.cast nSub_zero i)) = bigSep Finset.univ Φ :=
  bigSep_congr fun _ _ => congrArg Φ (Fin.ext rfl)
omit m in
theorem bigSep_tasks1 (Φ : Fin (grid2.bound 1) → sProp 𝕄) :
    (bigSep Finset.univ fun i : Fin ((K (F := F)).nSub 1) => Φ (Fin.cast nSub_one i)) = bigSep Finset.univ Φ :=
  bigSep_congr fun _ _ => congrArg Φ (Fin.ext rfl)

theorem share16 (ℓ : Loc nD τ sig) (f : Buf (Elt F) ℓ) (q : PosShare TreeShare) :
    (ℓ ↦{q} f : sProp 𝕄) ⊢ iprop((bigSep Finset.univ fun i : Fin 16 => ℓ ↦{Transfers.shareTokN q i.val} f)
      ∗ ((bigSep Finset.univ fun i : Fin 16 => ℓ ↦{Transfers.shareTokN q i.val} f) -∗ ℓ ↦{q} f)) := by
  iintro H
  ihave H' := (Transfers.pointsTo_toks_split q 16) $$ H
  icases H' with ⟨Hd, Hs⟩
  isplitl [Hs]; · iexact Hs
  iintro Hs
  iapply (Transfers.pointsTo_toks_join q 16)
  isplitl [Hd]; · iexact Hd
  iexact Hs

variable [FloatOps F]

theorem vecSplit0 : (K (F := F)).VecSplit' (P m) 0 := by
  intro d c
  show st0 m d (Fin.cast nCore_zero c) ⊢ |={Set.univ}=> iprop(
      (bigSep Finset.univ fun i : Fin ((K (F := F)).nSub 0) => go0 m d (Fin.cast nCore_zero c) (Fin.cast nSub_zero i))
      ∗ ((bigSep Finset.univ fun i : Fin ((K (F := F)).nSub 0) => td0 m d (Fin.cast nCore_zero c) (Fin.cast nSub_zero i))
          -∗ dn0 m d (Fin.cast nCore_zero c)))
  rw [bigSep_tasks0 (F := F) (fun i => go0 m d (Fin.cast nCore_zero c) i), bigSep_tasks0 (F := F) (fun i => td0 m d (Fin.cast nCore_zero c) i)]
  unfold st0 dn0 go0 td0
  rw [bigSep_sep', bigSep_sep', bigSep_sep', bigSep_sep']
  iintro ⟨Hw, Hm, Ht⟩
  ihave Hw' := (share16 (wLoc d) (m (wLoc d)) (qC (Fin.cast nCore_zero c).val)) $$ Hw
  icases Hw' with ⟨Hws, Hwj⟩
  ihave Hm' := (share16 (mLoc d) (m (mLoc d)) (qC (Fin.cast nCore_zero c).val)) $$ Hm
  icases Hm' with ⟨Hms, Hmj⟩
  imodintro
  isplitl [Hws Hms Ht]
  · isplitl [Hws]; · iexact Hws
    isplitl [Hms]; · iexact Hms
    iexact Ht
  iintro ⟨Hws, Hms, Ht⟩
  isplitl [Hwj Hws]; · iapply Hwj; iexact Hws
  isplitl [Hmj Hms]; · iapply Hmj; iexact Hms
  iexact Ht

theorem vecSplit1 : (K (F := F)).VecSplit' (P m) 1 := by
  intro d c
  show st1 m d (Fin.cast nCore_one c) ⊢ |={Set.univ}=> iprop(
      (bigSep Finset.univ fun i : Fin ((K (F := F)).nSub 1) => go1 m d (Fin.cast nCore_one c) (Fin.cast nSub_one i))
      ∗ ((bigSep Finset.univ fun i : Fin ((K (F := F)).nSub 1) => td1 m d (Fin.cast nCore_one c) (Fin.cast nSub_one i))
          -∗ dn1 m d (Fin.cast nCore_one c)))
  rw [bigSep_tasks1 (F := F) (fun i => go1 m d (Fin.cast nCore_one c) i), bigSep_tasks1 (F := F) (fun i => td1 m d (Fin.cast nCore_one c) i)]
  unfold st1 dn1 go1 td1
  rw [bigSep_sep', bigSep_sep', bigSep_sep', bigSep_sep']
  iintro ⟨Hw, Hm, Ht⟩
  ihave Hw' := (share16 (wLoc d) (m (wLoc d)) (qC (Fin.cast nCore_one c).val)) $$ Hw
  icases Hw' with ⟨Hws, Hwj⟩
  ihave Hm' := (share16 (mLoc d) (m (mLoc d)) (qC (Fin.cast nCore_one c).val)) $$ Hm
  icases Hm' with ⟨Hms, Hmj⟩
  imodintro
  isplitl [Hws Hms Ht]
  · isplitl [Hws]; · iexact Hws
    isplitl [Hms]; · iexact Hms
    iexact Ht
  iintro ⟨Hws, Hms, Ht⟩
  isplitl [Hwj Hws]; · iapply Hwj; iexact Hws
  isplitl [Hmj Hms]; · iapply Hmj; iexact Hms
  iexact Ht

section Fin

variable (OUT : (d : Dev nD) → Buf (Elt F) (o6Loc d))

def FIN (d : Dev nD) : sProp 𝕄 :=
  iprop((xLoc d ↦{fullShare} m (xLoc d)) ∗ (wLoc d ↦{fullShare} m (wLoc d)) ∗ (mLoc d ↦{fullShare} m (mLoc d))
    ∗ (bLoc d ↦{fullShare} m (bLoc d)) ∗ o6Loc d ↦{fullShare} OUT d)

def fq (d : Dev nD) (s' : Phys nD τ sig (Elt F)) : Prop :=
  s'.mem.mem (o6Loc d) = OUT d ∧ s'.mem.mem (xLoc d) = m (xLoc d) ∧ s'.mem.mem (wLoc d) = m (wLoc d)
    ∧ s'.mem.mem (mLoc d) = m (mLoc d) ∧ s'.mem.mem (bLoc d) = m (bLoc d)

omit [FloatOps F] in
theorem agree_step (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr
  · ipureintro; exact funext fun i => h i (Finset.mem_univ i)
  · iexact HSI

omit [FloatOps F] in
theorem hfin (d : Dev nD) (s' : Phys nD τ sig (Elt F)) : iprop(FIN m OUT d ∗ SI s') ⊢ (⌜fq m OUT d s'⌝ : sProp 𝕄) := by
  unfold FIN
  iintro ⟨⟨Hx, Hw, Hm, Hb, Ho⟩, HSI⟩
  ihave H := (agree_step (xLoc d) _ s') $$ [Hx HSI]
  · isplitl [Hx] <;> iassumption
  icases H with ⟨%hx, HSI⟩
  ihave H := (agree_step (wLoc d) _ s') $$ [Hw HSI]
  · isplitl [Hw] <;> iassumption
  icases H with ⟨%hw, HSI⟩
  ihave H := (agree_step (mLoc d) _ s') $$ [Hm HSI]
  · isplitl [Hm] <;> iassumption
  icases H with ⟨%hm, HSI⟩
  ihave H := (agree_step (bLoc d) _ s') $$ [Hb HSI]
  · isplitl [Hb] <;> iassumption
  icases H with ⟨%hb, HSI⟩
  ihave H := (agree_step (o6Loc d) _ s') $$ [Ho HSI]
  · isplitl [Ho] <;> iassumption
  icases H with ⟨%ho, -⟩
  ipureintro; exact ⟨ho, hx, hw, hm, hb⟩

def QC : PUnit × MemSt nD τ sig (Elt F) → Prop := fun r => ∀ c : Dev nD,
  r.2.mem (o6Loc c) = OUT c ∧ r.2.mem (xLoc c) = m (xLoc c) ∧ r.2.mem (wLoc c) = m (wLoc c)
    ∧ r.2.mem (mLoc c) = m (mLoc c) ∧ r.2.mem (bLoc c) = m (bLoc c)

end Fin

end Cert.Proof.KB

end
-- ==== Proof.Assemble.lean ====
import proofs.«207445_g73023033966933_cont_9to1_m_863_36_alg».proof.Defs
import proofs.«207445_g73023033966933_cont_9to1_m_863_36_alg».proof.Proof.Spec
import proofs.«207445_g73023033966933_cont_9to1_m_863_36_alg».proof.Proof.PreDecode
import proofs.«207445_g73023033966933_cont_9to1_m_863_36_alg».proof.Proof.DenseIdeal
import proofs.«207445_g73023033966933_cont_9to1_m_863_36_alg».proof.Proof.RefRun
import proofs.«207445_g73023033966933_cont_9to1_m_863_36_alg».proof.Proof.KI.Launch
import proofs.«207445_g73023033966933_cont_9to1_m_863_36_alg».proof.Proof.KB.Launch
import proofs.«207445_g73023033966933_cont_9to1_m_863_36_alg».proof.Proof.Gen.Kernel
import proofs.«207445_g73023033966933_cont_9to1_m_863_36_alg».proof.Proof.Gen.KernelIdeal
import proofs.«207445_g73023033966933_cont_9to1_m_863_36_alg».proof.Proof.Gen.ReferenceIdeal
import proofs.«207445_g73023033966933_cont_9to1_m_863_36_alg».proof.Proof.Gen.Pre_input_domain

noncomputable section

namespace Cert.Proof

open Idealize.ShloMosaic Idealize.ShloMosaic.ValueIdx Idealize.SL.Sem
open scoped BigOperators

def kerVal (x : Vec Ideal Spec.SX .f32) (w : Vec Ideal Spec.SW .f32) (mk : IVec Spec.SW 32) (b : Vec Ideal Spec.SB .f32) :
    Vec Ideal Spec.SX .f32 :=
  fun i => (∑ cc : Fin 4096, x (ix2 (i 0) cc) * DenseF.denseF w mk (0 : EReal) (ix2 (i 1) cc)) + b (ix1 (i 1))

section Assemble

variable
  (OUTI : ((ℓ : Loc Cert.KernelIdeal.nD Cert.KernelIdeal.τ Cert.KernelIdeal.sig) → Buf (Elt Ideal) ℓ)
    → (d : Dev Cert.KernelIdeal.nD) → Buf (Elt Ideal) (KI.o6Loc d))
  (hKI : ∀ (m : (ℓ : Loc Cert.KernelIdeal.nD Cert.KernelIdeal.τ Cert.KernelIdeal.sig) → Buf (Elt Ideal) ℓ)
    (ρ : Dev Cert.KernelIdeal.nD → PrngReg), KI.PreOK m →
    θ_run (Cert.KernelIdeal.defs (F := Ideal)) (Cert.KernelIdeal.threads (F := Ideal)) ⟨m, fun _ => 0, ρ⟩ (KI.QC m (OUTI m)))
  (OUTB : ((ℓ : Loc Cert.Kernel.nD Cert.Kernel.τ Cert.Kernel.sig) → Buf (Elt Bits) ℓ)
    → (d : Dev Cert.Kernel.nD) → Buf (Elt Bits) (KB.o6Loc d))
  (hKB : ∀ (m : (ℓ : Loc Cert.Kernel.nD Cert.Kernel.τ Cert.Kernel.sig) → Buf (Elt Bits) ℓ)
    (ρ : Dev Cert.Kernel.nD → PrngReg), KB.PreOK m →
    θ_run (Cert.Kernel.defs (F := Bits)) (Cert.Kernel.threads (F := Bits)) ⟨m, fun _ => 0, ρ⟩ (KB.QC m (OUTB m)))
  (out_ideal : ∀ (m : (ℓ : Loc Cert.KernelIdeal.nD Cert.KernelIdeal.τ Cert.KernelIdeal.sig) → Buf (Elt Ideal) ℓ)
    (c : Dev Cert.KernelIdeal.nD), Spec.MaskOK (m (KI.mLoc c)) →
    OUTI m c = kerVal (m (KI.xLoc c)) (m (KI.wLoc c)) (m (KI.mLoc c)) (m (KI.bLoc c)))

include hKB in
theorem frame_Kernel_of : Cert.frame_Kernel := fun m g hpre =>
  (θ_run _ _ _).mono (fun r h c => ⟨(h c).2.1, (h c).2.2.1, (h c).2.2.2.1, (h c).2.2.2.2⟩)
    (hKB m g fun d i => PreDecode.maskOK_Kernel m hpre d i)

include hKI in
theorem frame_KernelIdeal_of : Cert.frame_KernelIdeal := fun m g hpre =>
  (θ_run _ _ _).mono (fun r h c => ⟨(h c).2.1, (h c).2.2.1, (h c).2.2.2.1, (h c).2.2.2.2⟩)
    (hKI m g fun d i => PreDecode.maskOK_KernelIdeal m hpre d i)

theorem frame_ReferenceIdeal_of : Cert.frame_ReferenceIdeal := fun m g _ => Ref.frame m g

include hKI out_ideal in
theorem algebraic_of : Cert.algebraic_KernelIdeal_ReferenceIdeal := fun m g m' g' hpre hagree => by
  have hmk : ∀ c, Spec.MaskOK (m (KI.mLoc c)) := fun c => PreDecode.maskOK_KernelIdeal m hpre c
  have hfin := fun c => PreDecode.finite_KernelIdeal m hpre c
  have hmk' : ∀ c : Dev Cert.ReferenceIdeal.nD,
      Spec.MaskOK (m' ((c.tc : Thread Cert.ReferenceIdeal.nD Cert.ReferenceIdeal.τ).loc Cert.ReferenceIdeal.main_arg2)) := fun c => by
    rw [(hagree c).2.2.1]; exact hmk c
  refine ⟨fun c => OUTI m c, (θ_run _ _ _).mono (fun r h c => h c) (hKI m g fun d i => hmk d i),
    (θ_run _ _ _).mono (fun r h c => ⟨?_, (h c).2⟩) (Ref.run m' g' hmk')⟩
  rw [(h c).1, (hagree c).1, (hagree c).2.1, (hagree c).2.2.1, (hagree c).2.2.2]
  exact ((DenseIdeal.kerOut_denseF_eq_refOut _ _ _ _ (hmk c) (hfin c).1 (hfin c).2.1).symm.trans (out_ideal m c (hmk c)).symm)

include hKI hKB out_ideal in

theorem claim_of : Cert.Claim :=
  ⟨Cert.Kernel.Gen.facts, Cert.KernelIdeal.Gen.facts, Cert.ReferenceIdeal.Gen.facts, Cert.Pre_input_domain.Gen.facts,
    frame_Kernel_of OUTB hKB, frame_KernelIdeal_of OUTI hKI, frame_ReferenceIdeal_of, trivial, algebraic_of OUTI hKI out_ideal⟩

end Assemble

end Cert.Proof

end
-- ==== Proof.KI.Adm.lean ====
import proofs.«207445_g73023033966933_cont_9to1_m_863_36_alg».proof.Proof.KI.Common

noncomputable section

namespace Cert.Proof.KI

open Cert.KernelIdeal Cert.KernelIdeal.Gen
open Idealize.ShloMosaic

variable {F : FTy → Type}

abbrev adm : (p : Fin 2) → (pcfgs (F := F) p).Adm := fun p => (cfgs p).toPCfg_adm

end Cert.Proof.KI

end
-- ==== Proof.KI.Region1Defs.lean ====
import proofs.«207445_g73023033966933_cont_9to1_m_863_36_alg».proof.Proof.KI.Common
import proofs.«207445_g73023033966933_cont_9to1_m_863_36_alg».proof.Proof.KI.Adm
import Idealize.ShloMosaic.Lib.Pipeline.FrameBody

set_option maxRecDepth 16384

noncomputable section

namespace Cert.Proof.KI

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

abbrev reg1_rX : Rect S2048x4096 := Rect.unit (s := S2048x4096) ![0, 0] S2048x4096.size inb_S2048x4096_S2048x4096_0_0
abbrev reg1_rW : Rect S256x4096 := Rect.unit (s := S256x4096) ![0, 0] S256x4096.size inb_S256x4096_S256x4096_0_0
abbrev reg1_rB : Rect S256 := Rect.unit (s := S256) ![0] S256.size inb_S256_S256_0
abbrev reg1_rO : Rect S2048x256 := Rect.unit (s := S2048x256) ![0, 0] S2048x256.size inb_S2048x256_S2048x256_0_0

def reg1_out (x0 : Vec F S2048x4096 .bf16) (x1 : Vec F S256x4096 .f32) (x2 : Vec F S256 .f32) : Vec F S2048x256 .f32 :=
  View.canon [⟨reg1_rO, k1_pay1 (View.ld x0 reg1_rX) (View.ld x1 reg1_rW) (View.ld x2 reg1_rB)⟩]

theorem reg1_cover (p0 : Vec F S2048x256 .f32) (y : S2048x256.Idx) :
    ∃ pc ∈ ([⟨reg1_rO, p0⟩] : List (View.Piece (Elt F) S2048x256 .f32)), y ∈ pc.1.set :=
  View.cover_of_tiled [⟨reg1_rO, p0⟩] S2048x256.size (by rfl) y

set_option maxHeartbeats 1000000 in

theorem reg1_kernel (c : Dev nD) (E : Set ℕ) (i : grid1.Coords)
    (arg1 : Memref sig .tc .vmem S2048x4096 .bf16) (harg1 : arg1.IsWhole) (arg2 : Memref sig .tc .vmem S256x4096 .f32) (harg2 : arg2.IsWhole)
    (arg3 : Memref sig .tc .vmem S256 .f32) (harg3 : arg3.IsWhole) (arg4 : Memref sig .tc .vmem S2048x256 .f32) (harg4 : arg4.IsWhole)
    (x0 : Vec F S2048x4096 .bf16) (x1 : Vec F S256x4096 .f32) (x2 : Vec F S256 .f32) (Kt : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (reg1_out x0 x1 x2)) -∗ Kt ⟨⟩))
      ⊢ wp frame (wpE (defs₀ (F := F)) Variants.none c none) E (cc1__matmul_first_body i arg1 harg1 arg2 harg2 arg3 harg3 arg4 harg4) Kt := by
  simp only [cc1__matmul_first_body_eq_skeleton]; unfold cc1__matmul_first_body_skel
  unfold owns
  iintro ⟨⟨%f0, %hf0, H0⟩, ⟨%f1, %hf1, H1⟩, ⟨%f2, %hf2, H2⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H4
  ipureintro
  exact View.read_writes_eq_canon _ _ _ (reg1_cover _)

section Data

variable (x16 : (c : Dev nD) → Buf (Elt F) (x16Loc c)) (dn : (c : Dev nD) → Buf (Elt F) (d0Loc c))
  (bs : (c : Dev nD) → Buf (Elt F) (b0Loc c)) (o3 : (c : Dev nD) → Buf (Elt F) (o3Loc c))
  (O : Dev nD → CellTallies nD τ sig (HIx 2)) (b : ℕ)

def reg1_A (c : Dev nD) : (w : Fin cfg1.W) → Buf (Elt F) ((cfg1.win w).arr.view.loc (c : Thread nD τ))
  | ⟨0, _⟩ => x16 c
  | ⟨1, _⟩ => dn c
  | ⟨2, _⟩ => bs c
  | ⟨3, _⟩ => o3 c

def reg1_blk (c : Dev nD) (w : Fin cfg1.W) (t : Fin cfg1.N) : ((cfg1.win w).xblock (cfg1.grid.coords t)).Idx → Elt F (cfg1.win w).elt :=
  ((cfg1.win w).blk t).view.read (Elt F) (reg1_A x16 dn bs o3 c w)

def reg1_rec (c : Dev nD) : Set (SemLoc sig × HIx 2) := {p | (K (F := F)).lev ((T c : Thread nD τ), p.1) p.2 ≤ b}

def reg1_dat (c : Dev nD) : Dat τ (Elt F) (HIx 2) ℕ UU ℕ cfg1 c where
  A := reg1_A x16 dn bs o3 c
  after w t := match w with
    | ⟨0, _⟩ => reg1_blk x16 dn bs o3 c 0 t
    | ⟨1, _⟩ => reg1_blk x16 dn bs o3 c 1 t
    | ⟨2, _⟩ => reg1_blk x16 dn bs o3 c 2 t
    | ⟨3, _⟩ => reg1_out (reg1_blk x16 dn bs o3 c 0 t) (reg1_blk x16 dn bs o3 c 1 t) (reg1_blk x16 dn bs o3 c 2 t)
  Φ _ := Pipeline.scopedRest (Ix := HIx 2) (Name := ℕ) (U := UU) (Lvl := ℕ) (Val := Elt F) spec1 c
  q _ := fullShare
  owed _ := O c
  recorded _ := reg1_rec (F := F) b c

def junkDat {cfg : Cfg sig Λ₀} (c : Dev nD) : Dat τ (Elt F) (HIx 2) ℕ UU ℕ cfg c where
  A _ := fun _ => Classical.arbitrary _
  after _ _ := fun _ => Classical.arbitrary _
  Φ _ := BI.emp
  q _ := fullShare
  owed _ := 0

def reg1_dats : (p : Fin 2) → (c : Dev nD) → Dat τ (Elt F) (HIx 2) ℕ UU ℕ (Pipeline.pin (pcfgs (F := F)) adm p) c
  | ⟨0, _⟩ => fun c => reg1_dat x16 dn bs o3 O b c
  | ⟨1, _⟩ => fun c => junkDat c

def reg1_result (c : Dev nD) : Buf (Elt F) (o3Loc c) := (reg1_dat x16 dn bs o3 O b c).arrAt 3 cfg1.N

def reg1_pre (c : Dev nD) : sProp 𝕄 :=
  iprop((x16Loc c ↦{fullShare} x16 c) ∗ (d0Loc c ↦{fullShare} dn c) ∗ (b0Loc c ↦{fullShare} bs c) ∗ (o3Loc c ↦{fullShare} o3 c)
    ∗ ∃ W, ⌜(K (F := F)).WBelow (T c) W b⌝ ∗ owes (T c : Thread nD τ) (O c) W)

def reg1_post (c : Dev nD) : sProp 𝕄 :=
  iprop((x16Loc c ↦{fullShare} x16 c) ∗ (d0Loc c ↦{fullShare} dn c) ∗ (b0Loc c ↦{fullShare} bs c) ∗ (o3Loc c ↦{fullShare} reg1_result x16 dn bs o3 O b c)
    ∗ ∃ W, ⌜(K (F := F)).WBelow (T c) W b⌝ ∗ owes (T c : Thread nD τ) (O c) W)

theorem reg1_A_eq (c : Dev nD) (w : Fin cfg1.W) : (reg1_dat x16 dn bs o3 O b c).A w = reg1_A x16 dn bs o3 c w := by dsimp only [reg1_dat]
theorem reg1_after0 (c : Dev nD) (t : Fin cfg1.N) : (reg1_dat x16 dn bs o3 O b c).after 0 t = reg1_blk x16 dn bs o3 c 0 t := by dsimp only [reg1_dat]
theorem reg1_after1 (c : Dev nD) (t : Fin cfg1.N) : (reg1_dat x16 dn bs o3 O b c).after 1 t = reg1_blk x16 dn bs o3 c 1 t := by dsimp only [reg1_dat]
theorem reg1_after2 (c : Dev nD) (t : Fin cfg1.N) : (reg1_dat x16 dn bs o3 O b c).after 2 t = reg1_blk x16 dn bs o3 c 2 t := by dsimp only [reg1_dat]
theorem reg1_after3 (c : Dev nD) (t : Fin cfg1.N) : (reg1_dat x16 dn bs o3 O b c).after 3 t
    = reg1_out (reg1_blk x16 dn bs o3 c 0 t) (reg1_blk x16 dn bs o3 c 1 t) (reg1_blk x16 dn bs o3 c 2 t) := by dsimp only [reg1_dat]

theorem reg1_before0 (c : Dev nD) (t : Fin cfg1.N) (d) : (reg1_dat x16 dn bs o3 O b c).before 0 t d = reg1_blk x16 dn bs o3 c 0 t :=
  ((reg1_dat x16 dn bs o3 O b c).before_in_eq_fetched 0 rfl (fun _ => rfl) (fun _ _ _ => rfl)
    (fun t => by rw [reg1_after0]; unfold Dat.blockOf reg1_blk; rw [reg1_A_eq]; try rfl) t d).trans
    (by unfold Dat.fetched Dat.blockOf reg1_blk; rw [reg1_A_eq]; try rfl)
theorem reg1_before1 (c : Dev nD) (t : Fin cfg1.N) (d) : (reg1_dat x16 dn bs o3 O b c).before 1 t d = reg1_blk x16 dn bs o3 c 1 t :=
  ((reg1_dat x16 dn bs o3 O b c).before_in_eq_fetched 1 rfl (fun _ => rfl) (fun _ _ _ => rfl)
    (fun t => by rw [reg1_after1]; unfold Dat.blockOf reg1_blk; rw [reg1_A_eq]; try rfl) t d).trans
    (by unfold Dat.fetched Dat.blockOf reg1_blk; rw [reg1_A_eq]; try rfl)
theorem reg1_before2 (c : Dev nD) (t : Fin cfg1.N) (d) : (reg1_dat x16 dn bs o3 O b c).before 2 t d = reg1_blk x16 dn bs o3 c 2 t :=
  ((reg1_dat x16 dn bs o3 O b c).before_in_eq_fetched 2 rfl (fun _ => rfl) (fun _ _ _ => rfl)
    (fun t => by rw [reg1_after2]; unfold Dat.blockOf reg1_blk; rw [reg1_A_eq]; try rfl) t d).trans
    (by unfold Dat.fetched Dat.blockOf reg1_blk; rw [reg1_A_eq]; try rfl)

theorem reg1_body (c : Dev nD) : BodyObligation (reg1_dat x16 dn bs o3 O b c) (defs₀ (F := F)) 𝒱₀ (none : HIx 2) Set.univ := fun t => by
  rw [bigSep_W1, bigSep_W1]
  show iprop((reg1_dat x16 dn bs o3 O b c).Φ t.castSucc ∗ (reg1_dat x16 dn bs o3 O b c).owesAt none t.castSucc
      ∗ (∃ d, owns (c : Thread nD τ) (st1_0 t) fullShare ((reg1_dat x16 dn bs o3 O b c).before 0 t d))
      ∗ (∃ d, owns (c : Thread nD τ) (st1_1 t) fullShare ((reg1_dat x16 dn bs o3 O b c).before 1 t d))
      ∗ (∃ d, owns (c : Thread nD τ) (st1_2 t) fullShare ((reg1_dat x16 dn bs o3 O b c).before 2 t d))
      ∗ (∃ d, owns (c : Thread nD τ) (st1_3 t) fullShare ((reg1_dat x16 dn bs o3 O b c).before 3 t d)))
    ⊢ wp frame (wpE (defs₀ (F := F)) Variants.none c none) Set.univ (bodyAt1 t) (fun _ =>
        iprop((reg1_dat x16 dn bs o3 O b c).Φ t.succ ∗ (reg1_dat x16 dn bs o3 O b c).owesAt none t.succ
          ∗ owns (c : Thread nD τ) (st1_0 t) fullShare ((reg1_dat x16 dn bs o3 O b c).after 0 t)
          ∗ owns (c : Thread nD τ) (st1_1 t) fullShare ((reg1_dat x16 dn bs o3 O b c).after 1 t)
          ∗ owns (c : Thread nD τ) (st1_2 t) fullShare ((reg1_dat x16 dn bs o3 O b c).after 2 t)
          ∗ owns (c : Thread nD τ) (st1_3 t) fullShare ((reg1_dat x16 dn bs o3 O b c).after 3 t)))
  unfold bodyAt1
  simp only [reg1_before0, reg1_before1, reg1_before2]
  rw [show (reg1_dat x16 dn bs o3 O b c).Φ t.succ = (reg1_dat x16 dn bs o3 O b c).Φ t.castSucc from rfl,
    show (reg1_dat x16 dn bs o3 O b c).owesAt none t.succ = (reg1_dat x16 dn bs o3 O b c).owesAt none t.castSucc from rfl,
    reg1_after0, reg1_after1, reg1_after2, reg1_after3]
  iintro ⟨HΦ, Ho, ⟨%d0, H0⟩, ⟨%d1, H1⟩, ⟨%d2, H2⟩, ⟨%d3, H3⟩⟩
  iapply (reg1_kernel c Set.univ _ _ _ _ _ _ _ _ _ (reg1_blk x16 dn bs o3 c 0 t) (reg1_blk x16 dn bs o3 c 1 t) (reg1_blk x16 dn bs o3 c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem reg1_arrAt0 (c : Dev nD) : (reg1_dat x16 dn bs o3 O b c).arrAt 0 cfg1.N = x16 c :=
  ((reg1_dat x16 dn bs o3 O b c).arrAt_in 0 rfl _).trans (reg1_A_eq x16 dn bs o3 O b c 0)
theorem reg1_arrAt1 (c : Dev nD) : (reg1_dat x16 dn bs o3 O b c).arrAt 1 cfg1.N = dn c :=
  ((reg1_dat x16 dn bs o3 O b c).arrAt_in 1 rfl _).trans (reg1_A_eq x16 dn bs o3 O b c 1)
theorem reg1_arrAt2 (c : Dev nD) : (reg1_dat x16 dn bs o3 O b c).arrAt 2 cfg1.N = bs c :=
  ((reg1_dat x16 dn bs o3 O b c).arrAt_in 2 rfl _).trans (reg1_A_eq x16 dn bs o3 O b c 2)

end Data

end Cert.Proof.KI

end
-- ==== Proof.KI.Region3Defs.lean ====
import proofs.«207445_g73023033966933_cont_9to1_m_863_36_alg».proof.Proof.KI.Common
import proofs.«207445_g73023033966933_cont_9to1_m_863_36_alg».proof.Proof.KI.Region1Defs
import Idealize.ShloMosaic.Lib.Pipeline.FrameBody

set_option maxRecDepth 16384

noncomputable section

namespace Cert.Proof.KI

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

abbrev reg3_rX : Rect S2048x4096 := Rect.unit (s := S2048x4096) ![0, 0] S2048x4096.size inb_S2048x4096_S2048x4096_0_0
abbrev reg3_rW : Rect S256x4096 := Rect.unit (s := S256x4096) ![0, 0] S256x4096.size inb_S256x4096_S256x4096_0_0
abbrev reg3_rB : Rect S256 := Rect.unit (s := S256) ![0] S256.size inb_S256_S256_0
abbrev reg3_rO : Rect S2048x256 := Rect.unit (s := S2048x256) ![0, 0] S2048x256.size inb_S2048x256_S2048x256_0_0

def reg3_out (x0 : Vec F S2048x4096 .bf16) (x1 : Vec F S256x4096 .f32) (x2 : Vec F S256 .f32) : Vec F S2048x256 .f32 :=
  View.canon [⟨reg3_rO, k3_pay1 (View.ld x0 reg3_rX) (View.ld x1 reg3_rW) (View.ld x2 reg3_rB)⟩]

theorem reg3_cover (p0 : Vec F S2048x256 .f32) (y : S2048x256.Idx) :
    ∃ pc ∈ ([⟨reg3_rO, p0⟩] : List (View.Piece (Elt F) S2048x256 .f32)), y ∈ pc.1.set :=
  View.cover_of_tiled [⟨reg3_rO, p0⟩] S2048x256.size (by rfl) y

set_option maxHeartbeats 1000000 in

theorem reg3_kernel (c : Dev nD) (E : Set ℕ) (i : grid3.Coords)
    (arg1 : Memref sig .tc .vmem S2048x4096 .bf16) (harg1 : arg1.IsWhole) (arg2 : Memref sig .tc .vmem S256x4096 .f32) (harg2 : arg2.IsWhole)
    (arg3 : Memref sig .tc .vmem S256 .f32) (harg3 : arg3.IsWhole) (argH : Memref sig .tc .hbm S2048x4096 .f32) (hargH : argH.IsWhole)
    (arg4 : Memref sig .tc .vmem S2048x256 .f32) (harg4 : arg4.IsWhole)
    (x0 : Vec F S2048x4096 .bf16) (x1 : Vec F S256x4096 .f32) (x2 : Vec F S256 .f32) (Kt : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (reg3_out x0 x1 x2)) -∗ Kt ⟨⟩))
      ⊢ wp frame (wpE (defs₀ (F := F)) Variants.none c none) E (cc3__matmul_rest_body i arg1 harg1 arg2 harg2 arg3 harg3 argH hargH arg4 harg4) Kt := by
  simp only [cc3__matmul_rest_body_eq_skeleton]; unfold cc3__matmul_rest_body_skel
  unfold owns
  iintro ⟨⟨%f0, %hf0, H0⟩, ⟨%f1, %hf1, H1⟩, ⟨%f2, %hf2, H2⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H4
  ipureintro
  exact View.read_writes_eq_canon _ _ _ (reg3_cover _)

section Data

variable (x16 : (c : Dev nD) → Buf (Elt F) (x16Loc c)) (dn : (c : Dev nD) → Buf (Elt F) (d1Loc c))
  (bs : (c : Dev nD) → Buf (Elt F) (b1Loc c)) (o6 : (c : Dev nD) → Buf (Elt F) (o6Loc c))
  (O : Dev nD → CellTallies nD τ sig (HIx 2)) (b : ℕ)

def reg3_A (c : Dev nD) : (w : Fin cfg3.W) → Buf (Elt F) ((cfg3.win w).arr.view.loc (c : Thread nD τ))
  | ⟨0, _⟩ => x16 c
  | ⟨1, _⟩ => dn c
  | ⟨2, _⟩ => bs c
  | ⟨3, _⟩ => o6 c

def reg3_blk (c : Dev nD) (w : Fin cfg3.W) (t : Fin cfg3.N) : ((cfg3.win w).xblock (cfg3.grid.coords t)).Idx → Elt F (cfg3.win w).elt :=
  ((cfg3.win w).blk t).view.read (Elt F) (reg3_A x16 dn bs o6 c w)

def reg3_rec (c : Dev nD) : Set (SemLoc sig × HIx 2) := {p | (K (F := F)).lev ((T c : Thread nD τ), p.1) p.2 ≤ b}

def reg3_dat (c : Dev nD) : Dat τ (Elt F) (HIx 2) ℕ UU ℕ cfg3 c where
  A := reg3_A x16 dn bs o6 c
  after w t := match w with
    | ⟨0, _⟩ => reg3_blk x16 dn bs o6 c 0 t
    | ⟨1, _⟩ => reg3_blk x16 dn bs o6 c 1 t
    | ⟨2, _⟩ => reg3_blk x16 dn bs o6 c 2 t
    | ⟨3, _⟩ => reg3_out (reg3_blk x16 dn bs o6 c 0 t) (reg3_blk x16 dn bs o6 c 1 t) (reg3_blk x16 dn bs o6 c 2 t)
  Φ _ := Pipeline.scopedRest (Ix := HIx 2) (Name := ℕ) (U := UU) (Lvl := ℕ) (Val := Elt F) spec3 c
  q _ := fullShare
  owed _ := O c
  recorded _ := reg3_rec (F := F) b c

def reg3_dats : (p : Fin 2) → (c : Dev nD) → Dat τ (Elt F) (HIx 2) ℕ UU ℕ (Pipeline.pin (pcfgs (F := F)) adm p) c
  | ⟨0, _⟩ => fun c => junkDat c
  | ⟨1, _⟩ => fun c => reg3_dat x16 dn bs o6 O b c

def reg3_result (c : Dev nD) : Buf (Elt F) (o6Loc c) := (reg3_dat x16 dn bs o6 O b c).arrAt 3 cfg3.N

def reg3_pre (c : Dev nD) : sProp 𝕄 :=
  iprop((x16Loc c ↦{fullShare} x16 c) ∗ (d1Loc c ↦{fullShare} dn c) ∗ (b1Loc c ↦{fullShare} bs c) ∗ (o6Loc c ↦{fullShare} o6 c)
    ∗ ∃ W, ⌜(K (F := F)).WBelow (T c) W b⌝ ∗ owes (T c : Thread nD τ) (O c) W)

def reg3_post (c : Dev nD) : sProp 𝕄 :=
  iprop((x16Loc c ↦{fullShare} x16 c) ∗ (d1Loc c ↦{fullShare} dn c) ∗ (b1Loc c ↦{fullShare} bs c) ∗ (o6Loc c ↦{fullShare} reg3_result x16 dn bs o6 O b c)
    ∗ ∃ W, ⌜(K (F := F)).WBelow (T c) W b⌝ ∗ owes (T c : Thread nD τ) (O c) W)

theorem reg3_A_eq (c : Dev nD) (w : Fin cfg3.W) : (reg3_dat x16 dn bs o6 O b c).A w = reg3_A x16 dn bs o6 c w := by dsimp only [reg3_dat]
theorem reg3_after0 (c : Dev nD) (t : Fin cfg3.N) : (reg3_dat x16 dn bs o6 O b c).after 0 t = reg3_blk x16 dn bs o6 c 0 t := by dsimp only [reg3_dat]
theorem reg3_after1 (c : Dev nD) (t : Fin cfg3.N) : (reg3_dat x16 dn bs o6 O b c).after 1 t = reg3_blk x16 dn bs o6 c 1 t := by dsimp only [reg3_dat]
theorem reg3_after2 (c : Dev nD) (t : Fin cfg3.N) : (reg3_dat x16 dn bs o6 O b c).after 2 t = reg3_blk x16 dn bs o6 c 2 t := by dsimp only [reg3_dat]
theorem reg3_after3 (c : Dev nD) (t : Fin cfg3.N) : (reg3_dat x16 dn bs o6 O b c).after 3 t
    = reg3_out (reg3_blk x16 dn bs o6 c 0 t) (reg3_blk x16 dn bs o6 c 1 t) (reg3_blk x16 dn bs o6 c 2 t) := by dsimp only [reg3_dat]

theorem reg3_before0 (c : Dev nD) (t : Fin cfg3.N) (d) : (reg3_dat x16 dn bs o6 O b c).before 0 t d = reg3_blk x16 dn bs o6 c 0 t :=
  ((reg3_dat x16 dn bs o6 O b c).before_in_eq_fetched 0 rfl (fun _ => rfl) (fun _ _ _ => rfl)
    (fun t => by rw [reg3_after0]; unfold Dat.blockOf reg3_blk; rw [reg3_A_eq]; try rfl) t d).trans
    (by unfold Dat.fetched Dat.blockOf reg3_blk; rw [reg3_A_eq]; try rfl)
theorem reg3_before1 (c : Dev nD) (t : Fin cfg3.N) (d) : (reg3_dat x16 dn bs o6 O b c).before 1 t d = reg3_blk x16 dn bs o6 c 1 t :=
  ((reg3_dat x16 dn bs o6 O b c).before_in_eq_fetched 1 rfl (fun _ => rfl) (fun _ _ _ => rfl)
    (fun t => by rw [reg3_after1]; unfold Dat.blockOf reg3_blk; rw [reg3_A_eq]; try rfl) t d).trans
    (by unfold Dat.fetched Dat.blockOf reg3_blk; rw [reg3_A_eq]; try rfl)
theorem reg3_before2 (c : Dev nD) (t : Fin cfg3.N) (d) : (reg3_dat x16 dn bs o6 O b c).before 2 t d = reg3_blk x16 dn bs o6 c 2 t :=
  ((reg3_dat x16 dn bs o6 O b c).before_in_eq_fetched 2 rfl (fun _ => rfl) (fun _ _ _ => rfl)
    (fun t => by rw [reg3_after2]; unfold Dat.blockOf reg3_blk; rw [reg3_A_eq]; try rfl) t d).trans
    (by unfold Dat.fetched Dat.blockOf reg3_blk; rw [reg3_A_eq]; try rfl)

theorem reg3_body (c : Dev nD) : BodyObligation (reg3_dat x16 dn bs o6 O b c) (defs₀ (F := F)) 𝒱₀ (none : HIx 2) Set.univ := fun t => by
  rw [bigSep_W3, bigSep_W3]
  show iprop((reg3_dat x16 dn bs o6 O b c).Φ t.castSucc ∗ (reg3_dat x16 dn bs o6 O b c).owesAt none t.castSucc
      ∗ (∃ d, owns (c : Thread nD τ) (st3_0 t) fullShare ((reg3_dat x16 dn bs o6 O b c).before 0 t d))
      ∗ (∃ d, owns (c : Thread nD τ) (st3_1 t) fullShare ((reg3_dat x16 dn bs o6 O b c).before 1 t d))
      ∗ (∃ d, owns (c : Thread nD τ) (st3_2 t) fullShare ((reg3_dat x16 dn bs o6 O b c).before 2 t d))
      ∗ (∃ d, owns (c : Thread nD τ) (st3_3 t) fullShare ((reg3_dat x16 dn bs o6 O b c).before 3 t d)))
    ⊢ wp frame (wpE (defs₀ (F := F)) Variants.none c none) Set.univ (bodyAt3 t) (fun _ =>
        iprop((reg3_dat x16 dn bs o6 O b c).Φ t.succ ∗ (reg3_dat x16 dn bs o6 O b c).owesAt none t.succ
          ∗ owns (c : Thread nD τ) (st3_0 t) fullShare ((reg3_dat x16 dn bs o6 O b c).after 0 t)
          ∗ owns (c : Thread nD τ) (st3_1 t) fullShare ((reg3_dat x16 dn bs o6 O b c).after 1 t)
          ∗ owns (c : Thread nD τ) (st3_2 t) fullShare ((reg3_dat x16 dn bs o6 O b c).after 2 t)
          ∗ owns (c : Thread nD τ) (st3_3 t) fullShare ((reg3_dat x16 dn bs o6 O b c).after 3 t)))
  unfold bodyAt3
  simp only [reg3_before0, reg3_before1, reg3_before2]
  rw [show (reg3_dat x16 dn bs o6 O b c).Φ t.succ = (reg3_dat x16 dn bs o6 O b c).Φ t.castSucc from rfl,
    show (reg3_dat x16 dn bs o6 O b c).owesAt none t.succ = (reg3_dat x16 dn bs o6 O b c).owesAt none t.castSucc from rfl,
    reg3_after0, reg3_after1, reg3_after2, reg3_after3]
  iintro ⟨HΦ, Ho, ⟨%d0, H0⟩, ⟨%d1, H1⟩, ⟨%d2, H2⟩, ⟨%d3, H3⟩⟩
  iapply (reg3_kernel c Set.univ _ _ _ _ _ _ _ _ _ _ _ (reg3_blk x16 dn bs o6 c 0 t) (reg3_blk x16 dn bs o6 c 1 t) (reg3_blk x16 dn bs o6 c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem reg3_arrAt0 (c : Dev nD) : (reg3_dat x16 dn bs o6 O b c).arrAt 0 cfg3.N = x16 c :=
  ((reg3_dat x16 dn bs o6 O b c).arrAt_in 0 rfl _).trans (reg3_A_eq x16 dn bs o6 O b c 0)
theorem reg3_arrAt1 (c : Dev nD) : (reg3_dat x16 dn bs o6 O b c).arrAt 1 cfg3.N = dn c :=
  ((reg3_dat x16 dn bs o6 O b c).arrAt_in 1 rfl _).trans (reg3_A_eq x16 dn bs o6 O b c 1)
theorem reg3_arrAt2 (c : Dev nD) : (reg3_dat x16 dn bs o6 O b c).arrAt 2 cfg3.N = bs c :=
  ((reg3_dat x16 dn bs o6 O b c).arrAt_in 2 rfl _).trans (reg3_A_eq x16 dn bs o6 O b c 2)

end Data

end Cert.Proof.KI

end
-- ==== Proof.KI.ResultValue.lean ====
import proofs.«207445_g73023033966933_cont_9to1_m_863_36_alg».proof.Proof.KI.Region1Defs
import proofs.«207445_g73023033966933_cont_9to1_m_863_36_alg».proof.Proof.KI.Region3Defs
import Idealize.ShloMosaic.Lib.Pipeline.Value
import Idealize.ShloMosaic.Lib.ValueIdx

set_option maxRecDepth 16384

noncomputable section

namespace Cert.Proof.KI

open Cert.KernelIdeal Cert.KernelIdeal.Gen

open Idealize.ShloMosaic
open Idealize.ShloMosaic.ValueIdx
open Idealize.ShloMosaic.SparseCore (S V T)
open Idealize.ShloMosaic.SparseCore.Cfg (HIx)
open Idealize.ShloMosaic.Pipeline (Dat Cfg Window)

variable {F : FTy → Type} [FloatOps F]

def rvRows {n : ℕ} (hn : 0 < n) (dn : Vec F ⟨2, ![n, 4096]⟩ .f32) (q : ℕ) : Vec F S256x4096 .f32 :=
  fun y => dn (ix2 ⟨(256 * q + (y 0).val) % n, Nat.mod_lt _ hn⟩ (y 1))

def rvBias {n : ℕ} (hn : 0 < n) (bs : Vec F ⟨1, ![n]⟩ .f32) (q : ℕ) : Vec F S256 .f32 :=
  fun y => bs (ix1 ⟨(256 * q + (y 0).val) % n, Nat.mod_lt _ hn⟩)

theorem hz2 : (![0, 0] : Fin 2 → Nat) = fun _ => 0 := funext fun a => by fin_cases a <;> rfl
theorem hz1 : (![0] : Fin 1 → Nat) = fun _ => 0 := funext fun a => by fin_cases a; rfl

def rv1_G (x : Vec F S2048x4096 .bf16) (dn : Vec F S1536x4096 .f32) (bs : Vec F S1536 .f32) : Vec F S2048x4096 .f32 :=
  fun i => k1_pay1 x (rvRows (n := 1536) (by decide) dn ((i 1).val / 256)) (rvBias (n := 1536) (by decide) bs ((i 1).val / 256))
    (ix2 (i 0) ⟨(i 1).val % 256, Nat.mod_lt _ (by decide)⟩)

theorem rv1_idx : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 1) = t.val
    ∧ win1_3.index t (0 : Fin 2) = 0 ∧ win1_3.index t (1 : Fin 2) = t.val :=
  (by decide +kernel : ∀ t : Fin grid1.N, _)

section Data

variable (x16 : (c : Dev nD) → Buf (Elt F) (x16Loc c)) (dn : (c : Dev nD) → Buf (Elt F) (d0Loc c))
  (bs : (c : Dev nD) → Buf (Elt F) (b0Loc c)) (o3 : (c : Dev nD) → Buf (Elt F) (o3Loc c))
  (O : Dev nD → CellTallies nD τ sig (HIx 2)) (b : ℕ)

theorem rv1_blk0 (c : Dev nD) (t : Fin cfg1.N) : reg1_blk x16 dn bs o3 c 0 t = x16 c := by
  obtain ⟨e00, e01, -⟩ := rv1_idx t
  funext y
  show x16 c (((cfg1.win 0).blk t).view.emb y) = x16 c y
  congr 1
  funext a; apply Fin.ext
  match a with
  | ⟨0, _⟩ => show win1_0.index t (0 : Fin 2) * 2048 + 1 * (y 0).val = (y 0).val; omega
  | ⟨1, _⟩ => show win1_0.index t (1 : Fin 2) * 4096 + 1 * (y 1).val = (y 1).val; omega

theorem rv1_blk1 (c : Dev nD) (t : Fin cfg1.N) : reg1_blk x16 dn bs o3 c 1 t = rvRows (n := 1536) (by decide) (dn c) t.val := by
  obtain ⟨-, -, e10, e11, -⟩ := rv1_idx t
  have ht : t.val < 6 := lt_of_lt_of_eq t.isLt N_1
  funext y
  have h0 : (y 0).val < 256 := (y 0).isLt
  show dn c (((cfg1.win 1).blk t).view.emb y) = dn c (ix2 ⟨(256 * t.val + (y 0).val) % 1536, _⟩ (y 1))
  congr 1
  funext a; apply Fin.ext
  match a with
  | ⟨0, _⟩ => show win1_1.index t (0 : Fin 2) * 256 + 1 * (y 0).val = (256 * t.val + (y 0).val) % 1536; omega
  | ⟨1, _⟩ => show win1_1.index t (1 : Fin 2) * 4096 + 1 * (y 1).val = (y 1).val; omega

theorem rv1_blk2 (c : Dev nD) (t : Fin cfg1.N) : reg1_blk x16 dn bs o3 c 2 t = rvBias (n := 1536) (by decide) (bs c) t.val := by
  obtain ⟨-, -, -, -, e20, -⟩ := rv1_idx t
  have ht : t.val < 6 := lt_of_lt_of_eq t.isLt N_1
  funext y
  have h0 : (y 0).val < 256 := (y 0).isLt
  show bs c (((cfg1.win 2).blk t).view.emb y) = bs c (ix1 ⟨(256 * t.val + (y 0).val) % 1536, _⟩)
  congr 1
  funext a; apply Fin.ext
  match a with
  | ⟨0, _⟩ => show win1_2.index t (0 : Fin 1) * 256 + 1 * (y 0).val = (256 * t.val + (y 0).val) % 1536; omega

theorem rv1_flushed (c : Dev nD) (t : Fin cfg1.N) :
    (reg1_dat x16 dn bs o3 O b c).flushed 3 t = ((cfg1.win 3).blk t).view.read (Elt F) (rv1_G (x16 c) (dn c) (bs c)) := by
  show (cfg1.win 3).cut (grid1.coords t) ((reg1_dat x16 dn bs o3 O b c).after 3 t) = _
  rw [reg1_after3, rv1_blk0, rv1_blk1, rv1_blk2]
  unfold reg1_out
  rw [View.canon_unit_zero hz2]
  simp only [View.ld_unit_zero (S := S2048x4096) hz2, View.ld_unit_zero (S := S256x4096) hz2, View.ld_unit_zero (S := S256) hz1]
  obtain ⟨-, -, -, -, -, e30, e31⟩ := rv1_idx t
  funext j
  have h1 : (j 1).val < 256 := (j 1).isLt
  have hE0 : ((((cfg1.win 3).blk t).view.emb j) 0).val = (j 0).val := by
    show win1_3.index t (0 : Fin 2) * 2048 + 1 * (j 0).val = _; omega
  have hE1 : ((((cfg1.win 3).blk t).view.emb j) 1).val = 256 * t.val + (j 1).val := by
    show win1_3.index t (1 : Fin 2) * 256 + 1 * (j 1).val = _; omega
  have hq : ((((cfg1.win 3).blk t).view.emb j) 1).val / 256 = t.val := by rw [hE1]; omega
  have hr : ((((cfg1.win 3).blk t).view.emb j) 1).val % 256 = (j 1).val := by rw [hE1]; omega
  show k1_pay1 (x16 c) (rvRows (n := 1536) (by decide) (dn c) t.val) (rvBias (n := 1536) (by decide) (bs c) t.val) j
    = k1_pay1 (x16 c) (rvRows (n := 1536) (by decide) (dn c) (((((cfg1.win 3).blk t).view.emb j) 1).val / 256))
        (rvBias (n := 1536) (by decide) (bs c) (((((cfg1.win 3).blk t).view.emb j) 1).val / 256))
        (ix2 ((((cfg1.win 3).blk t).view.emb j) 0) ⟨((((cfg1.win 3).blk t).view.emb j) 1).val % 256, Nat.mod_lt _ (by decide)⟩)
  rw [hq]
  congr 1
  funext a; apply Fin.ext
  match a with
  | ⟨0, _⟩ => exact hE0.symm
  | ⟨1, _⟩ => exact hr.symm

theorem rv1_mem_blk (t : Fin cfg1.N) (i : S2048x4096.Idx) :
    i ∈ ((cfg1.win 3).blk t).view.set ↔ 256 * t.val ≤ (i 1).val ∧ (i 1).val < 256 * t.val + 256 := by
  obtain ⟨-, -, -, -, -, e30, e31⟩ := rv1_idx t
  have hi0 : (i 0).val < 2048 := (i 0).isLt
  show i ∈ ((View.whole main_v3).slice (win1_3.rect t)).set ↔ _
  rw [View.set_slice_whole, Rect.mem_set_unit]
  constructor
  · intro h
    have b1 : win1_3.index t (1 : Fin 2) * 256 ≤ (i 1).val ∧ (i 1).val < win1_3.index t (1 : Fin 2) * 256 + 256 := h 1
    omega
  · intro h a
    match a with
    | ⟨0, _⟩ => show win1_3.index t (0 : Fin 2) * 2048 ≤ (i 0).val ∧ (i 0).val < win1_3.index t (0 : Fin 2) * 2048 + 2048; omega
    | ⟨1, _⟩ => show win1_3.index t (1 : Fin 2) * 256 ≤ (i 1).val ∧ (i 1).val < win1_3.index t (1 : Fin 2) * 256 + 256; omega

theorem rv1_covered (i : S2048x4096.Idx) :
    (∃ t : Fin cfg1.N, (cfg1.win 3).flush t = true ∧ i ∈ ((cfg1.win 3).blk t).view.set) ↔ (i 1).val < 1536 := by
  constructor
  · rintro ⟨t, -, hi⟩
    rw [rv1_mem_blk] at hi
    have ht : t.val < 6 := lt_of_lt_of_eq t.isLt N_1
    omega
  · intro h
    refine ⟨⟨(i 1).val / 256, by rw [show cfg1.N = 6 from N_1]; omega⟩, flush1_3 _, ?_⟩
    rw [rv1_mem_blk]
    show 256 * ((i 1).val / 256) ≤ (i 1).val ∧ (i 1).val < 256 * ((i 1).val / 256) + 256
    omega

theorem reg1_result_eq (c : Dev nD) (i : S2048x4096.Idx) :
    reg1_result x16 dn bs o3 O b c i = if (i 1).val < 1536 then rv1_G (x16 c) (dn c) (bs c) i else o3 c i := by
  unfold reg1_result
  rw [(reg1_dat x16 dn bs o3 O b c).arrAt_eq_piecewise 3 _ (fun t _ => rv1_flushed x16 dn bs o3 O b c t) i, reg1_A_eq]
  exact if_congr (rv1_covered i) rfl rfl

end Data

def rv3_G (x : Vec F S2048x4096 .bf16) (dn : Vec F S2560x4096 .f32) (bs : Vec F S2560 .f32) : Vec F S2048x4096 .f32 :=
  fun i => k3_pay1 x (rvRows (n := 2560) (by decide) dn (((i 1).val - 1536) / 256)) (rvBias (n := 2560) (by decide) bs (((i 1).val - 1536) / 256))
    (ix2 (i 0) ⟨(i 1).val % 256, Nat.mod_lt _ (by decide)⟩)

theorem rv3_idx : ∀ t : Fin cfg3.N, win3_0.index t (0 : Fin 2) = 0 ∧ win3_0.index t (1 : Fin 2) = 0
    ∧ win3_1.index t (0 : Fin 2) = t.val ∧ win3_1.index t (1 : Fin 2) = 0
    ∧ win3_2.index t (0 : Fin 1) = t.val
    ∧ win3_3.index t (0 : Fin 2) = 0 ∧ win3_3.index t (1 : Fin 2) = t.val + 6 :=
  (by decide +kernel : ∀ t : Fin grid3.N, _)

section Data3

variable (x16 : (c : Dev nD) → Buf (Elt F) (x16Loc c)) (dn : (c : Dev nD) → Buf (Elt F) (d1Loc c))
  (bs : (c : Dev nD) → Buf (Elt F) (b1Loc c)) (o6 : (c : Dev nD) → Buf (Elt F) (o6Loc c))
  (O : Dev nD → CellTallies nD τ sig (HIx 2)) (b : ℕ)

theorem rv3_blk0 (c : Dev nD) (t : Fin cfg3.N) : reg3_blk x16 dn bs o6 c 0 t = x16 c := by
  obtain ⟨e00, e01, -⟩ := rv3_idx t
  funext y
  show x16 c (((cfg3.win 0).blk t).view.emb y) = x16 c y
  congr 1
  funext a; apply Fin.ext
  match a with
  | ⟨0, _⟩ => show win3_0.index t (0 : Fin 2) * 2048 + 1 * (y 0).val = (y 0).val; omega
  | ⟨1, _⟩ => show win3_0.index t (1 : Fin 2) * 4096 + 1 * (y 1).val = (y 1).val; omega

theorem rv3_blk1 (c : Dev nD) (t : Fin cfg3.N) : reg3_blk x16 dn bs o6 c 1 t = rvRows (n := 2560) (by decide) (dn c) t.val := by
  obtain ⟨-, -, e10, e11, -⟩ := rv3_idx t
  have ht : t.val < 10 := lt_of_lt_of_eq t.isLt N_3
  funext y
  have h0 : (y 0).val < 256 := (y 0).isLt
  show dn c (((cfg3.win 1).blk t).view.emb y) = dn c (ix2 ⟨(256 * t.val + (y 0).val) % 2560, _⟩ (y 1))
  congr 1
  funext a; apply Fin.ext
  match a with
  | ⟨0, _⟩ => show win3_1.index t (0 : Fin 2) * 256 + 1 * (y 0).val = (256 * t.val + (y 0).val) % 2560; omega
  | ⟨1, _⟩ => show win3_1.index t (1 : Fin 2) * 4096 + 1 * (y 1).val = (y 1).val; omega

theorem rv3_blk2 (c : Dev nD) (t : Fin cfg3.N) : reg3_blk x16 dn bs o6 c 2 t = rvBias (n := 2560) (by decide) (bs c) t.val := by
  obtain ⟨-, -, -, -, e20, -⟩ := rv3_idx t
  have ht : t.val < 10 := lt_of_lt_of_eq t.isLt N_3
  funext y
  have h0 : (y 0).val < 256 := (y 0).isLt
  show bs c (((cfg3.win 2).blk t).view.emb y) = bs c (ix1 ⟨(256 * t.val + (y 0).val) % 2560, _⟩)
  congr 1
  funext a; apply Fin.ext
  match a with
  | ⟨0, _⟩ => show win3_2.index t (0 : Fin 1) * 256 + 1 * (y 0).val = (256 * t.val + (y 0).val) % 2560; omega

theorem rv3_flushed (c : Dev nD) (t : Fin cfg3.N) :
    (reg3_dat x16 dn bs o6 O b c).flushed 3 t = ((cfg3.win 3).blk t).view.read (Elt F) (rv3_G (x16 c) (dn c) (bs c)) := by
  show (cfg3.win 3).cut (grid3.coords t) ((reg3_dat x16 dn bs o6 O b c).after 3 t) = _
  rw [reg3_after3, rv3_blk0, rv3_blk1, rv3_blk2]
  unfold reg3_out
  rw [View.canon_unit_zero hz2]
  simp only [View.ld_unit_zero (S := S2048x4096) hz2, View.ld_unit_zero (S := S256x4096) hz2, View.ld_unit_zero (S := S256) hz1]
  obtain ⟨-, -, -, -, -, e30, e31⟩ := rv3_idx t
  funext j
  have h1 : (j 1).val < 256 := (j 1).isLt
  have hE0 : ((((cfg3.win 3).blk t).view.emb j) 0).val = (j 0).val := by
    show win3_3.index t (0 : Fin 2) * 2048 + 1 * (j 0).val = _; omega
  have hE1 : ((((cfg3.win 3).blk t).view.emb j) 1).val = 256 * (t.val + 6) + (j 1).val := by
    show win3_3.index t (1 : Fin 2) * 256 + 1 * (j 1).val = _; omega
  have hq : (((((cfg3.win 3).blk t).view.emb j) 1).val - 1536) / 256 = t.val := by rw [hE1]; omega
  have hr : ((((cfg3.win 3).blk t).view.emb j) 1).val % 256 = (j 1).val := by rw [hE1]; omega
  show k3_pay1 (x16 c) (rvRows (n := 2560) (by decide) (dn c) t.val) (rvBias (n := 2560) (by decide) (bs c) t.val) j
    = k3_pay1 (x16 c) (rvRows (n := 2560) (by decide) (dn c) ((((((cfg3.win 3).blk t).view.emb j) 1).val - 1536) / 256))
        (rvBias (n := 2560) (by decide) (bs c) ((((((cfg3.win 3).blk t).view.emb j) 1).val - 1536) / 256))
        (ix2 ((((cfg3.win 3).blk t).view.emb j) 0) ⟨((((cfg3.win 3).blk t).view.emb j) 1).val % 256, Nat.mod_lt _ (by decide)⟩)
  rw [hq]
  congr 1
  funext a; apply Fin.ext
  match a with
  | ⟨0, _⟩ => exact hE0.symm
  | ⟨1, _⟩ => exact hr.symm

theorem rv3_mem_blk (t : Fin cfg3.N) (i : S2048x4096.Idx) :
    i ∈ ((cfg3.win 3).blk t).view.set ↔ 1536 + 256 * t.val ≤ (i 1).val ∧ (i 1).val < 1536 + 256 * t.val + 256 := by
  obtain ⟨-, -, -, -, -, e30, e31⟩ := rv3_idx t
  have hi0 : (i 0).val < 2048 := (i 0).isLt
  show i ∈ ((View.whole main_v6).slice (win3_3.rect t)).set ↔ _
  rw [View.set_slice_whole, Rect.mem_set_unit]
  constructor
  · intro h
    have b1 : win3_3.index t (1 : Fin 2) * 256 ≤ (i 1).val ∧ (i 1).val < win3_3.index t (1 : Fin 2) * 256 + 256 := h 1
    omega
  · intro h a
    match a with
    | ⟨0, _⟩ => show win3_3.index t (0 : Fin 2) * 2048 ≤ (i 0).val ∧ (i 0).val < win3_3.index t (0 : Fin 2) * 2048 + 2048; omega
    | ⟨1, _⟩ => show win3_3.index t (1 : Fin 2) * 256 ≤ (i 1).val ∧ (i 1).val < win3_3.index t (1 : Fin 2) * 256 + 256; omega

theorem rv3_covered (i : S2048x4096.Idx) :
    (∃ t : Fin cfg3.N, (cfg3.win 3).flush t = true ∧ i ∈ ((cfg3.win 3).blk t).view.set) ↔ 1536 ≤ (i 1).val := by
  have hi1 : (i 1).val < 4096 := (i 1).isLt
  constructor
  · rintro ⟨t, -, hi⟩
    rw [rv3_mem_blk] at hi
    omega
  · intro h
    refine ⟨⟨((i 1).val - 1536) / 256, by rw [show cfg3.N = 10 from N_3]; omega⟩, flush3_3 _, ?_⟩
    rw [rv3_mem_blk]
    show 1536 + 256 * (((i 1).val - 1536) / 256) ≤ (i 1).val ∧ (i 1).val < 1536 + 256 * (((i 1).val - 1536) / 256) + 256
    omega

theorem reg3_result_eq (c : Dev nD) (i : S2048x4096.Idx) :
    reg3_result x16 dn bs o6 O b c i = if 1536 ≤ (i 1).val then rv3_G (x16 c) (dn c) (bs c) i else o6 c i := by
  unfold reg3_result
  rw [(reg3_dat x16 dn bs o6 O b c).arrAt_eq_piecewise 3 _ (fun t _ => rv3_flushed x16 dn bs o6 O b c t) i, reg3_A_eq]
  exact if_congr (rv3_covered i) rfl rfl

end Data3

end Cert.Proof.KI

end
-- ==== Proof.KI.CallSplit.lean ====
import proofs.«207445_g73023033966933_cont_9to1_m_863_36_alg».proof.Proof.KI.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 2) (Elt F) ℕ UU ℕ

variable (m : (ℓ : Loc nD τ sig) → Buf (Elt F) ℓ)

theorem d0_tiles (d : Dev nD) (f : Buf (Elt F) (d0Loc d)) :
    (d0Loc d ↦{fullShare} f : sProp 𝕄) = bigSep Finset.univ fun c : Fin 2 => bigSep Finset.univ fun i : Fin 16 => tile0 d (coords0 c i) f := by
  rw [d0Pts_pieces]
  show bigSep (Finset.univ : Finset (Fin 2 × Fin 16 × Fin 6)) _ = _
  rw [← Finset.univ_product_univ, SparseCore.bigSep_product]
  refine bigSep_congr fun c _ => ?_
  rw [← Finset.univ_product_univ, SparseCore.bigSep_product]
  rfl
theorem d1_tiles (d : Dev nD) (f : Buf (Elt F) (d1Loc d)) :
    (d1Loc d ↦{fullShare} f : sProp 𝕄) = bigSep Finset.univ fun c : Fin 2 => bigSep Finset.univ fun i : Fin 16 => tile1 d (coords2 c i) f := by
  rw [d1Pts_pieces]
  show bigSep (Finset.univ : Finset (Fin 2 × Fin 16 × Fin 10)) _ = _
  rw [← Finset.univ_product_univ, SparseCore.bigSep_product]
  refine bigSep_congr fun c _ => ?_
  rw [← Finset.univ_product_univ, SparseCore.bigSep_product]
  rfl

theorem share2 (ℓ : Loc nD τ sig) (f : Buf (Elt F) ℓ) :
    (ℓ ↦{fullShare} f : sProp 𝕄) ⊢ iprop((bigSep Finset.univ fun c : Fin 2 => ℓ ↦{qC c.val} f)
      ∗ ((bigSep Finset.univ fun c : Fin 2 => ℓ ↦{qC c.val} f) -∗ ℓ ↦{fullShare} f)) := by
  iintro H
  ihave H' := (Transfers.pointsTo_toks_split fullShare 2) $$ H
  icases H' with ⟨Hd, Hs⟩
  isplitl [Hs]; · iexact Hs
  iintro Hs
  iapply (Transfers.pointsTo_toks_join fullShare 2)
  isplitl [Hd]; · iexact Hd
  iexact Hs

variable [FloatOps F]

omit m in
theorem bigSep_cores0 (Φ : Fin (grid0.bound 0) → sProp 𝕄) :
    (bigSep Finset.univ fun c : Fin ((K (F := F)).nCore 0) => Φ (Fin.cast nCore_zero c)) = bigSep Finset.univ Φ :=
  bigSep_congr fun _ _ => congrArg Φ (Fin.ext rfl)
omit m in
theorem bigSep_cores1 (Φ : Fin (grid2.bound 0) → sProp 𝕄) :
    (bigSep Finset.univ fun c : Fin ((K (F := F)).nCore 1) => Φ (Fin.cast nCore_one c)) = bigSep Finset.univ Φ :=
  bigSep_congr fun _ _ => congrArg Φ (Fin.ext rfl)

theorem call0_split (d : Dev nD) :
    iprop((wLoc d ↦{fullShare} m (wLoc d)) ∗ (mLoc d ↦{fullShare} m (mLoc d)) ∗ (d0Loc d ↦{fullShare} m (d0Loc d)))
      ⊢ (iprop((bigSep Finset.univ fun c : Fin ((K (F := F)).nCore 0) => (P m).st 0 d c)
          ∗ ((bigSep Finset.univ fun c : Fin ((K (F := F)).nCore 0) => (P m).dn 0 d c)
              -∗ iprop((wLoc d ↦{fullShare} m (wLoc d)) ∗ (mLoc d ↦{fullShare} m (mLoc d)) ∗ (d0Loc d ↦{fullShare} dense0 m d)))) : sProp 𝕄) := by
  show _ ⊢ iprop((bigSep Finset.univ fun c : Fin ((K (F := F)).nCore 0) => st0 m d (Fin.cast nCore_zero c))
      ∗ ((bigSep Finset.univ fun c : Fin ((K (F := F)).nCore 0) => dn0 m d (Fin.cast nCore_zero c)) -∗ _))
  rw [bigSep_cores0 (F := F) (fun c => st0 m d c), bigSep_cores0 (F := F) (fun c => dn0 m d c)]
  unfold st0 dn0
  rw [bigSep_sep', bigSep_sep', bigSep_sep', bigSep_sep', d0_tiles, d0_tiles]
  iintro ⟨Hw, Hm, Hd⟩
  ihave Hw' := (share2 (wLoc d) (m (wLoc d))) $$ Hw
  icases Hw' with ⟨Hws, Hwj⟩
  ihave Hm' := (share2 (mLoc d) (m (mLoc d))) $$ Hm
  icases Hm' with ⟨Hms, Hmj⟩
  isplitl [Hws Hms Hd]
  · isplitl [Hws]; · iexact Hws
    isplitl [Hms]; · iexact Hms
    iexact Hd
  iintro ⟨Hws, Hms, Hd⟩
  isplitl [Hwj Hws]; · iapply Hwj; iexact Hws
  isplitl [Hmj Hms]; · iapply Hmj; iexact Hms
  iexact Hd

theorem call1_split (d : Dev nD) :
    iprop((wLoc d ↦{fullShare} m (wLoc d)) ∗ (mLoc d ↦{fullShare} m (mLoc d)) ∗ (d1Loc d ↦{fullShare} m (d1Loc d)))
      ⊢ (iprop((bigSep Finset.univ fun c : Fin ((K (F := F)).nCore 1) => (P m).st 1 d c)
          ∗ ((bigSep Finset.univ fun c : Fin ((K (F := F)).nCore 1) => (P m).dn 1 d c)
              -∗ iprop((wLoc d ↦{fullShare} m (wLoc d)) ∗ (mLoc d ↦{fullShare} m (mLoc d)) ∗ (d1Loc d ↦{fullShare} dense1 m d)))) : sProp 𝕄) := by
  show _ ⊢ iprop((bigSep Finset.univ fun c : Fin ((K (F := F)).nCore 1) => st1 m d (Fin.cast nCore_one c))
      ∗ ((bigSep Finset.univ fun c : Fin ((K (F := F)).nCore 1) => dn1 m d (Fin.cast nCore_one c)) -∗ _))
  rw [bigSep_cores1 (F := F) (fun c => st1 m d c), bigSep_cores1 (F := F) (fun c => dn1 m d c)]
  unfold st1 dn1
  rw [bigSep_sep', bigSep_sep', bigSep_sep', bigSep_sep', d1_tiles, d1_tiles]
  iintro ⟨Hw, Hm, Hd⟩
  ihave Hw' := (share2 (wLoc d) (m (wLoc d))) $$ Hw
  icases Hw' with ⟨Hws, Hwj⟩
  ihave Hm' := (share2 (mLoc d) (m (mLoc d))) $$ Hm
  icases Hm' with ⟨Hms, Hmj⟩
  isplitl [Hws Hms Hd]
  · isplitl [Hws]; · iexact Hws
    isplitl [Hms]; · iexact Hms
    iexact Hd
  iintro ⟨Hws, Hms, Hd⟩
  isplitl [Hwj Hws]; · iapply Hwj; iexact Hws
  isplitl [Hmj Hms]; · iapply Hmj; iexact Hms
  iexact Hd

end Cert.Proof.KI

end
-- ==== Proof.KI.Main.lean ====
import proofs.«207445_g73023033966933_cont_9to1_m_863_36_alg».proof.Proof.KI.Launch
import proofs.«207445_g73023033966933_cont_9to1_m_863_36_alg».proof.Proof.KI.Adm

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.ValueIdx

variable {F : FTy → Type}

local notation "𝕄" => MT nD τ sig (HIx 2) (Elt F) ℕ UU ℕ

variable (m : (ℓ : Loc nD τ sig) → Buf (Elt F) ℓ) (ρ : Dev nD → PrngReg)

variable [FloatOps F]

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj),
      (1 : Counters)))

def G (d : Dev nD) : sProp 𝕄 :=
  iprop((bigSep Finset.univ fun p : Fin 2 => Pipeline.cellsGhost (Pipeline.pin (pcfgs (F := F)) adm) EP p d)
    ∗ (bigSep Finset.univ fun p : Fin 2 => Pipeline.toksInit (Pipeline.pin (pcfgs (F := F)) adm) EP p d))

omit [FloatOps F] in
theorem bigSep_emp' {I : Type} (s : Finset I) : (bigSep s fun _ => iprop(emp)) = (iprop(emp) : sProp 𝕄) := bigSep_emp_const s

omit [FloatOps F] in
theorem own_EP (x : UP) :
    (BI.own (((Emb.inl : Emb UP (UP × Counters)).trans (embR (A := UH) (B := UP × Counters))) x) : sProp 𝕄) = BI.own (EP (F := F) x) := rfl

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P m).x q thr) := by
  unfold u₀
  iintro Hu
  ihave H := (ownU_pair _ _) $$ Hu
  icases H with ⟨HH, HR⟩
  ihave H2 := (own_pair_emb (embR (A := UH) (B := UP × Counters)) _ _) $$ HR
  icases H2 with ⟨HP, -⟩
  ihave HP := (Entails.of_eq (own_EP (F := F) _)) $$ HP
  imod (Pipeline.fund_ghost (Pipeline.pin (pcfgs (F := F)) adm) (EP (F := F)) cellOf_inj) $$ HP with ⟨Hg, Ht⟩
  imodintro
  isplitl [HH]; · iexact HH
  isplitl [Hg Ht]
  · unfold G
    rw [bigSep_sep']
    isplitl [Hg]; · iexact Hg
    iexact Ht
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

include m in
theorem wp_unary (d : Dev nD) (x y : Ref sig .tc) (hxy : x ≠ y) (f : x.ty.Contents (Elt F) → y.ty.Contents (Elt F)) (hx hy)
    (fx : Buf (Elt F) ((SparseCore.T d).loc x)) (fy : Buf (Elt F) ((SparseCore.T d).loc y)) (Φ : PUnit → sProp 𝕄) :
    iprop(boundary (SparseCore.T d) ∗ ((SparseCore.T d).loc x ↦{fullShare} fx) ∗ ((SparseCore.T d).loc y ↦{fullShare} fy)
        ∗ (iprop(boundary (SparseCore.T d) ∗ ((SparseCore.T d).loc x ↦{fullShare} fx) ∗ ((SparseCore.T d).loc y ↦{fullShare} f fx)) -∗ Φ ⟨⟩))
      ⊢ wp frame (wpE ((K (F := F)).defs (D (F := F))) 𝒱 (SparseCore.T d) none) Set.univ
          (hlo rfl (StableHlo.unary x y f hx hy) (fun _ => .ret ⟨⟩)) Φ := by
  let x' : DevRef τ sig := Proc.devRef .tc x
  let y' : DevRef τ sig := Proc.devRef .tc y
  have hne : x' ≠ y' := StableHlo.devRef_ne_of_ne hxy
  let V0 : Valuation τ sig (Elt F) := Function.update (Function.update (fun b => m (d, b)) x' fx) y' fy
  have hVx : V0 x' = fx := (Function.update_of_ne hne _ _).trans (Function.update_self _ _ _)
  have hVy : V0 y' = fy := Function.update_self _ _ _
  have hheld : ∀ W : Valuation τ sig (Elt F), (held (SparseCore.T d) ({x', y'} : Finset (DevRef τ sig)) W : sProp 𝕄)
      = iprop(((SparseCore.T d).loc x ↦{fullShare} W x') ∗ ((SparseCore.T d).loc y ↦{fullShare} W y')) := by
    intro W; unfold held
    rw [SparseCore.bigSep_insert' (by rw [Finset.mem_singleton]; exact hne), bigSep_singleton]
  have hpre : (held (SparseCore.T d) ({x', y'} : Finset (DevRef τ sig)) V0 : sProp 𝕄)
      = iprop(((SparseCore.T d).loc x ↦{fullShare} fx) ∗ ((SparseCore.T d).loc y ↦{fullShare} fy)) := by
    rw [hheld, hVx, hVy]
  have hres : (held (SparseCore.T d) ({x', y'} : Finset (DevRef τ sig)) ((StableHlo.unary x y f hx hy).result V0) : sProp 𝕄)
      = iprop(((SparseCore.T d).loc x ↦{fullShare} fx) ∗ ((SparseCore.T d).loc y ↦{fullShare} f fx)) := by
    rw [hheld, StableHlo.unary_result_ne x y f hx hy V0 hxy, StableHlo.unary_result x y f hx hy V0, hVx]
  iintro ⟨Hb, Hx, Hy, Hk⟩
  iapply (wp_hlo_within 𝒱 (SparseCore.T d) none Set.univ (op := StableHlo.unary x y f hx hy) (S := {x', y'})
      (by rw [StableHlo.unary_bufs]) (V := V0)) $$ [Hb Hx Hy]
  · isplitl [Hb]; · iexact Hb
    iapply (Entails.of_eq hpre.symm)
    isplitl [Hx]; · iexact Hx
    iexact Hy
  iintro ⟨Hb, Hh⟩
  rw [wp_ret]; imodintro
  iapply Hk
  isplitl [Hb]; · iexact Hb
  iapply (Entails.of_eq hres)
  iexact Hh

end Cert.Proof.KI

end
-- ==== Proof.KI.HMain.lean ====
import proofs.«207445_g73023033966933_cont_9to1_m_863_36_alg».proof.Proof.KI.CallSplit
import proofs.«207445_g73023033966933_cont_9to1_m_863_36_alg».proof.Proof.KI.Main

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 2) (Elt F) ℕ UU ℕ

variable (m : (ℓ : Loc nD τ sig) → Buf (Elt F) ℓ) (ρ : Dev nD → PrngReg)

theorem unscopedBufs_eq (d : Dev nD) (W : (b : Ref sig .tc) → Buf (Elt F) ((d.tc : Thread nD τ).loc b)) :
    (unscopedBufs d W : sProp 𝕄) = iprop((xLoc d ↦{fullShare} W main_arg0) ∗ (wLoc d ↦{fullShare} W main_arg1) ∗ (mLoc d ↦{fullShare} W main_arg2)
      ∗ (bLoc d ↦{fullShare} W main_arg3) ∗ (x16Loc d ↦{fullShare} W main_v0) ∗ (d0Loc d ↦{fullShare} W main_v1) ∗ (b0Loc d ↦{fullShare} W main_v2)
      ∗ (o3Loc d ↦{fullShare} W main_v3) ∗ (d1Loc d ↦{fullShare} W main_v4) ∗ (b1Loc d ↦{fullShare} W main_v5) ∗ (o6Loc d ↦{fullShare} W main_v6)) := by
  unfold unscopedBufs
  rw [show (Finset.univ.filter fun b : Ref sig .tc => ¬ b.isScoped)
      = {main_arg0, main_arg1, main_arg2, main_arg3, main_v0, main_v1, main_v2, main_v3, main_v4, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem tcSt_debts (d : Dev nD) (n : ℕ) :
    ((K (F := F)).tcSt EH d n : sProp 𝕄)
      ⊢ iprop((∃ W, ⌜(K (F := F)).WBelow (T d) W (8 * n)⌝ ∗ owes (T d : Thread nD τ) ((K (F := F)).Otc d n) W)
        ∗ ((∃ W, ⌜(K (F := F)).WBelow (T d) W (8 * n)⌝ ∗ owes (T d : Thread nD τ) ((K (F := F)).Otc d n) W) -∗ (K (F := F)).tcSt EH d n)) := by
  unfold SparseCore.Cfg.tcSt
  iintro ⟨HW, Hrest⟩
  isplitl [HW]; · iexact HW
  iintro HW
  isplitl [HW]; · iexact HW
  iexact Hrest

theorem tcSt_debts' (d : Dev nD) (n n' : ℕ) (h : n' = n) :
    ((K (F := F)).tcSt EH d n' : sProp 𝕄)
      ⊢ iprop((∃ W, ⌜(K (F := F)).WBelow (T d) W (8 * n)⌝ ∗ owes (T d : Thread nD τ) ((K (F := F)).Otc d n) W)
        ∗ ((∃ W, ⌜(K (F := F)).WBelow (T d) W (8 * n)⌝ ∗ owes (T d : Thread nD τ) ((K (F := F)).Otc d n) W) -∗ (K (F := F)).tcSt EH d n)) := by
  subst h; exact tcSt_debts d n'

variable [FloatOps F]

theorem G_eq (d : Dev nD) : G (F := F) d
    = iprop((Pipeline.cellsGhost (Pipeline.pin (pcfgs (F := F)) adm) EP 0 d ∗ Pipeline.cellsGhost (Pipeline.pin (pcfgs (F := F)) adm) EP 1 d)
      ∗ (Pipeline.toksInit (Pipeline.pin (pcfgs (F := F)) adm) EP 0 d ∗ Pipeline.toksInit (Pipeline.pin (pcfgs (F := F)) adm) EP 1 d)) := by
  unfold G
  rw [show (Finset.univ : Finset (Fin 2)) = {0, 1} by decide, SparseCore.bigSep_insert' (by decide), bigSep_singleton,
    SparseCore.bigSep_insert' (by decide), bigSep_singleton]

def x16v (c : Dev nD) : Buf (Elt F) (x16Loc c) := (truncf .bf16 (m (xLoc c) : FVec F S2048x4096 .f32) Facts₀.bitsLt_bf16_f32 : FVec F S2048x4096 .bf16)

def b0v (c : Dev nD) : Buf (Elt F) (b0Loc c) := (extractStridedSlice S1536 ![0] (m (bLoc c) : FVec F S4096 .f32) Facts₀.slices_S4096_S1536_0 : FVec F S1536 .f32)
def b1v (c : Dev nD) : Buf (Elt F) (b1Loc c) := (extractStridedSlice S2560 ![1536] (m (bLoc c) : FVec F S4096 .f32) Facts₀.slices_S4096_S2560_1536 : FVec F S2560 .f32)

section Regions

variable (res1 : ((c : Dev nD) → Buf (Elt F) (x16Loc c)) → ((c : Dev nD) → Buf (Elt F) (d0Loc c)) → ((c : Dev nD) → Buf (Elt F) (b0Loc c)) → ((c : Dev nD) → Buf (Elt F) (o3Loc c)) → (c : Dev nD) → Buf (Elt F) (o3Loc c))
variable (res3 : ((c : Dev nD) → Buf (Elt F) (x16Loc c)) → ((c : Dev nD) → Buf (Elt F) (d1Loc c)) → ((c : Dev nD) → Buf (Elt F) (b1Loc c)) → ((c : Dev nD) → Buf (Elt F) (o6Loc c)) → (c : Dev nD) → Buf (Elt F) (o6Loc c))

def Hreg1 : Prop :=
  ∀ (x16 : (c : Dev nD) → Buf (Elt F) (x16Loc c)) (dn : (c : Dev nD) → Buf (Elt F) (d0Loc c))
    (bs : (c : Dev nD) → Buf (Elt F) (b0Loc c)) (o : (c : Dev nD) → Buf (Elt F) (o3Loc c)) (c : Dev nD) (Q : PUnit → sProp 𝕄),
    iprop((iprop(boundary (T c : Thread nD τ) ∗ (x16Loc c ↦{fullShare} x16 c) ∗ (d0Loc c ↦{fullShare} dn c) ∗ (b0Loc c ↦{fullShare} bs c)
            ∗ (o3Loc c ↦{fullShare} res1 x16 dn bs o c)
            ∗ ∃ W, ⌜(K (F := F)).WBelow (T c) W (8 * 1)⌝ ∗ owes (T c : Thread nD τ) ((K (F := F)).Otc c 1) W) -∗ Q ⟨⟩)
        ∗ boundary (T c : Thread nD τ)
        ∗ ((x16Loc c ↦{fullShare} x16 c) ∗ (d0Loc c ↦{fullShare} dn c) ∗ (b0Loc c ↦{fullShare} bs c) ∗ (o3Loc c ↦{fullShare} o c)
            ∗ ∃ W, ⌜(K (F := F)).WBelow (T c) W (8 * 1)⌝ ∗ owes (T c : Thread nD τ) ((K (F := F)).Otc c 1) W)
        ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE ((K (F := F)).defs D) 𝒱 (T c : Thread nD τ) none) Set.univ
          (Prog.lift (.customCall (SparseCore.inner (Pipeline.entry 0)) ())) Q

def Hreg3 : Prop :=
  ∀ (x16 : (c : Dev nD) → Buf (Elt F) (x16Loc c)) (dn : (c : Dev nD) → Buf (Elt F) (d1Loc c))
    (bs : (c : Dev nD) → Buf (Elt F) (b1Loc c)) (o : (c : Dev nD) → Buf (Elt F) (o6Loc c)) (c : Dev nD) (Q : PUnit → sProp 𝕄),
    iprop((iprop(boundary (T c : Thread nD τ) ∗ (x16Loc c ↦{fullShare} x16 c) ∗ (d1Loc c ↦{fullShare} dn c) ∗ (b1Loc c ↦{fullShare} bs c)
            ∗ (o6Loc c ↦{fullShare} res3 x16 dn bs o c)
            ∗ ∃ W, ⌜(K (F := F)).WBelow (T c) W (8 * 2)⌝ ∗ owes (T c : Thread nD τ) ((K (F := F)).Otc c 2) W) -∗ Q ⟨⟩)
        ∗ boundary (T c : Thread nD τ)
        ∗ ((x16Loc c ↦{fullShare} x16 c) ∗ (d1Loc c ↦{fullShare} dn c) ∗ (b1Loc c ↦{fullShare} bs c) ∗ (o6Loc c ↦{fullShare} o c)
            ∗ ∃ W, ⌜(K (F := F)).WBelow (T c) W (8 * 2)⌝ ∗ owes (T c : Thread nD τ) ((K (F := F)).Otc c 2) W)
        ∗ levAts (K (F := F)).L (K (F := F)).lev
        ∗ Pipeline.cellsGhost (Pipeline.pin (pcfgs (F := F)) adm) EP 1 c ∗ Pipeline.toksInit (Pipeline.pin (pcfgs (F := F)) adm) EP 1 c)
      ⊢ wp frame (wpE ((K (F := F)).defs D) 𝒱 (T c : Thread nD τ) none) Set.univ
          (Prog.lift (.customCall (SparseCore.inner (Pipeline.entry 1)) ())) Q

def o3v (c : Dev nD) : Buf (Elt F) (o3Loc c) := res1 (x16v m) (dense0 m) (b0v m) (fun c => m (o3Loc c)) c
def OUTv (c : Dev nD) : Buf (Elt F) (o6Loc c) := res3 (x16v m) (dense1 m) (b1v m) (fun c => (o3v m res1 c : Buf (Elt F) (o6Loc c))) c

theorem hmain (hreg1 : Hreg1 (F := F) res1) (hreg3 : Hreg3 (F := F) res3) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN m (OUTv m res1 res3) d) := by
  unfold SparseCore.Cfg.tcRes
  rw [unscopedBufs_eq, G_eq]
  simp only [main, wp_bind, wp_pure]
  iintro ⟨#Hctx, Hst, ⟨Hb, ⟨Hx, Hw, Hm, Hbi, Hx16, Hd0, Hb0, Ho3, Hd1, Hb1, Ho6⟩, -, -⟩, ⟨Hg0, Hg1⟩, ⟨Ht0, Ht1⟩⟩

  iapply (wp_unary m d main_arg0 main_v0 (by decide) _ _ _ (m (xLoc d)) (m (x16Loc d)) _) $$ [Hst Hb Hx Hw Hm Hbi Hx16 Hd0 Hb0 Ho3 Hd1 Hb1 Ho6 Hg0 Hg1 Ht0 Ht1]
  isplitl [Hb]; · iexact Hb
  isplitl [Hx]; · iexact Hx
  isplitl [Hx16]; · iexact Hx16
  iintro ⟨Hb, Hx, Hx16⟩

  ihave Hc := (call0_split m d) $$ [Hw Hm Hd0]
  · isplitl [Hw]; · iexact Hw
    isplitl [Hm]; · iexact Hm
    iexact Hd0
  icases Hc with ⟨Hst0, Hback0⟩
  iapply ((K (F := F)).wp_run (D (F := F)) 𝒱 (EH := EH) (P := P m) κ d 0) $$ [Hst Hb Hx Hbi Hx16 Hb0 Ho3 Hd1 Hb1 Ho6 Hg0 Hg1 Ht0 Ht1 Hst0 Hback0]
  isplitr; · iexact Hctx
  isplitl [Hst]; · iexact Hst
  isplitl [Hst0]; · iexact Hst0
  iintro ⟨Hst, Hdn⟩
  ihave Hr := Hback0 $$ Hdn
  icases Hr with ⟨Hw, Hm, Hd0⟩

  iapply (wp_unary m d main_arg3 main_v2 (by decide) _ _ _ (m (bLoc d)) (m (b0Loc d)) _) $$ [Hst Hb Hx Hw Hm Hbi Hx16 Hd0 Hb0 Ho3 Hd1 Hb1 Ho6 Hg0 Hg1 Ht0 Ht1]
  isplitl [Hb]; · iexact Hb
  isplitl [Hbi]; · iexact Hbi
  isplitl [Hb0]; · iexact Hb0
  iintro ⟨Hb, Hbi, Hb0⟩

  ihave Hs := (tcSt_debts' d 1 ((0 : Fin 2).val + 1) rfl) $$ Hst
  icases Hs with ⟨HW, HstBack⟩
  iapply (hreg1 (x16v m) (dense0 m) (b0v m) (fun c => m (o3Loc c)) d _) $$ [HW HstBack Hb Hx Hw Hm Hbi Hx16 Hd0 Hb0 Ho3 Hd1 Hb1 Ho6 Hg0 Hg1 Ht0 Ht1]
  isplitr [Hb Hx16 Hd0 Hb0 Ho3 HW Hg0 Ht0]
  rotate_left
  · isplitl [Hb]; · iexact Hb
    isplitl [Hx16 Hd0 Hb0 Ho3 HW]
    · isplitl [Hx16]; · iexact Hx16
      isplitl [Hd0]; · iexact Hd0
      isplitl [Hb0]; · iexact Hb0
      isplitl [Ho3]; · iexact Ho3
      iexact HW
    isplitr
    · iapply (SparseCore.Cfg.ctx_levAts κ); iexact Hctx
    isplitl [Hg0]; · iexact Hg0
    iexact Ht0
  iintro ⟨Hb, Hx16, Hd0, Hb0, Ho3, HW⟩
  ihave Hst := HstBack $$ HW

  ihave Hc := (call1_split m d) $$ [Hw Hm Hd1]
  · isplitl [Hw]; · iexact Hw
    isplitl [Hm]; · iexact Hm
    iexact Hd1
  icases Hc with ⟨Hst1, Hback1⟩
  iapply ((K (F := F)).wp_run (D (F := F)) 𝒱 (EH := EH) (P := P m) κ d 1) $$ [Hst Hb Hx Hbi Hx16 Hd0 Hb0 Ho3 Hb1 Ho6 Hg1 Ht1 Hst1 Hback1]
  isplitr; · iexact Hctx
  isplitl [Hst]; · iexact Hst
  isplitl [Hst1]; · iexact Hst1
  iintro ⟨Hst, Hdn⟩
  ihave Hr := Hback1 $$ Hdn
  icases Hr with ⟨Hw, Hm, Hd1⟩

  iapply (wp_unary m d main_arg3 main_v5 (by decide) _ _ _ (m (bLoc d)) (m (b1Loc d)) _) $$ [Hst Hb Hx Hw Hm Hbi Hx16 Hd0 Hb0 Ho3 Hd1 Hb1 Ho6 Hg1 Ht1]
  isplitl [Hb]; · iexact Hb
  isplitl [Hbi]; · iexact Hbi
  isplitl [Hb1]; · iexact Hb1
  iintro ⟨Hb, Hbi, Hb1⟩

  iapply (wp_unary m d main_v3 main_v6 (by decide) _ _ _ (o3v m res1 d) (m (o6Loc d)) _) $$ [Hst Hb Hx Hw Hm Hbi Hx16 Hd0 Hb0 Ho3 Hd1 Hb1 Ho6 Hg1 Ht1]
  isplitl [Hb]; · iexact Hb
  isplitl [Ho3]; · iexact Ho3
  isplitl [Ho6]; · iexact Ho6
  iintro ⟨Hb, Ho3, Ho6⟩

  ihave Hs := (tcSt_debts' d 2 ((1 : Fin 2).val + 1) rfl) $$ Hst
  icases Hs with ⟨HW, HstBack⟩
  iapply (hreg3 (x16v m) (dense1 m) (b1v m) (fun c => (o3v m res1 c : Buf (Elt F) (o6Loc c))) d _) $$ [HW HstBack Hb Hx Hw Hm Hbi Hx16 Hd0 Hb0 Ho3 Hd1 Hb1 Ho6 Hg1 Ht1]
  isplitr [Hb Hx16 Hd1 Hb1 Ho6 HW Hg1 Ht1]
  rotate_left
  · isplitl [Hb]; · iexact Hb
    isplitl [Hx16 Hd1 Hb1 Ho6 HW]
    · isplitl [Hx16]; · iexact Hx16
      isplitl [Hd1]; · iexact Hd1
      isplitl [Hb1]; · iexact Hb1
      isplitl [Ho6]; · iexact Ho6
      iexact HW
    isplitr
    · iapply (SparseCore.Cfg.ctx_levAts κ); iexact Hctx
    isplitl [Hg1]; · iexact Hg1
    iexact Ht1
  iintro ⟨Hb, Hx16, Hd1, Hb1, Ho6, HW⟩
  ihave Hst := HstBack $$ HW
  imodintro
  isplitl [Hst]; · iexact Hst
  unfold FIN
  isplitl [Hx]; · iexact Hx
  isplitl [Hw]; · iexact Hw
  isplitl [Hm]; · iexact Hm
  isplitl [Hbi]; · iexact Hbi
  iexact Ho6

end Regions

end Cert.Proof.KI

end
-- ==== Proof.MatmulIdeal.lean ====
import proofs.«207445_g73023033966933_cont_9to1_m_863_36_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.Proof.KI

open Cert.KernelIdeal Cert.KernelIdeal.Gen
open Idealize.ShloMosaic Idealize.ShloMosaic.ValueIdx
open scoped BigOperators

theorem lhs_mm_0 (i : S2048x256.Idx) (q : dot_S2048x4096_S256x4096_S2048x256_1_1_0_0_n_n.contr.Idx) :
    (dot_S2048x4096_S256x4096_S2048x256_1_1_0_0_n_n.lhsIdx i q 0).val = (i 0).val := by
  unfold DotDims.lhsIdx
  rw [dif_neg (show ¬(0 : Fin S2048x4096.rank) ∈ dot_S2048x4096_S256x4096_S2048x256_1_1_0_0_n_n.lhsBatch by decide),
    dif_pos (show (0 : Fin S2048x4096.rank) ∈ dot_S2048x4096_S256x4096_S2048x256_1_1_0_0_n_n.lhsNonContracting by decide)]
  rfl

theorem lhs_mm_1 (i : S2048x256.Idx) (q : dot_S2048x4096_S256x4096_S2048x256_1_1_0_0_n_n.contr.Idx) :
    (dot_S2048x4096_S256x4096_S2048x256_1_1_0_0_n_n.lhsIdx i q 1).val = (q ⟨0, by decide⟩).val :=
  dot_S2048x4096_S256x4096_S2048x256_1_1_0_0_n_n.lhsIdx_val_of_single rfl i q

theorem rhs_mm_0 (i : S2048x256.Idx) (q : dot_S2048x4096_S256x4096_S2048x256_1_1_0_0_n_n.contr.Idx) :
    (dot_S2048x4096_S256x4096_S2048x256_1_1_0_0_n_n.rhsIdx i q 0).val = (i 1).val := by
  unfold DotDims.rhsIdx
  rw [dif_neg (show ¬(0 : Fin S256x4096.rank) ∈ dot_S2048x4096_S256x4096_S2048x256_1_1_0_0_n_n.rhsBatch by decide),
    dif_pos (show (0 : Fin S256x4096.rank) ∈ dot_S2048x4096_S256x4096_S2048x256_1_1_0_0_n_n.rhsNonContracting by decide)]
  rfl

theorem rhs_mm_1 (i : S2048x256.Idx) (q : dot_S2048x4096_S256x4096_S2048x256_1_1_0_0_n_n.contr.Idx) :
    (dot_S2048x4096_S256x4096_S2048x256_1_1_0_0_n_n.rhsIdx i q 1).val = (q ⟨0, by decide⟩).val :=
  dot_S2048x4096_S256x4096_S2048x256_1_1_0_0_n_n.rhsIdx_val_of_single rfl i q

theorem mm_apply {φ₁ φ₂ : FTy} (l : FVec Ideal S2048x4096 φ₁) (r : FVec Ideal S256x4096 φ₂) (b : Fin 2048) (j : Fin 256) :
    FloatOps.matmul dot_S2048x4096_S256x4096_S2048x256_1_1_0_0_n_n none l r (constant S2048x256 .f32 0x00000000#32) (ix2 b j)
      = ∑ c : Fin 4096, l (ix2 b c) * r (ix2 j c) := by
  rw [Ideal.matmul_constant_zero_apply, ← Equiv.sum_comp (contrEquiv1 dot_S2048x4096_S256x4096_S2048x256_1_1_0_0_n_n 4096 rfl rfl).symm]
  refine Finset.sum_congr rfl fun k _ => ?_
  have hk := contrEquiv1_symm_val dot_S2048x4096_S256x4096_S2048x256_1_1_0_0_n_n 4096 rfl rfl k
  have el : dot_S2048x4096_S256x4096_S2048x256_1_1_0_0_n_n.lhsIdx (ix2 b j) ((contrEquiv1 dot_S2048x4096_S256x4096_S2048x256_1_1_0_0_n_n 4096 rfl rfl).symm k) = ix2 b k := funext fun a => Fin.ext (by
    match a with
    | ⟨0, _⟩ => exact lhs_mm_0 _ _
    | ⟨1, _⟩ => exact (lhs_mm_1 _ _).trans hk)
  have er : dot_S2048x4096_S256x4096_S2048x256_1_1_0_0_n_n.rhsIdx (ix2 b j) ((contrEquiv1 dot_S2048x4096_S256x4096_S2048x256_1_1_0_0_n_n 4096 rfl rfl).symm k) = ix2 j k := funext fun a => Fin.ext (by
    match a with
    | ⟨0, _⟩ => exact rhs_mm_0 _ _
    | ⟨1, _⟩ => exact (rhs_mm_1 _ _).trans hk)
  rw [el, er]

theorem k1_pay1_apply (x0 : Vec Ideal S2048x4096 .bf16) (x1 : Vec Ideal S256x4096 .f32) (x2 : Vec Ideal S256 .f32)
    (b : Fin 2048) (j : Fin 256) :
    Gen.k1_pay1 (F := Ideal) x0 x1 x2 (ix2 b j)
      = (∑ c : Fin 4096, (x0 (ix2 b c) : EReal) * (x1 (ix2 j c) : EReal)) + (x2 (ix1 j) : EReal) := by
  unfold Gen.k1_pay1
  simp only [shapeCast_self, matmul]
  rw [addf_apply, broadcastTo_1b_ab_apply, shapeCast_a_1a_apply, mm_apply]
  rfl

theorem k3_pay1_apply (x0 : Vec Ideal S2048x4096 .bf16) (x1 : Vec Ideal S256x4096 .f32) (x2 : Vec Ideal S256 .f32)
    (b : Fin 2048) (j : Fin 256) :
    Gen.k3_pay1 (F := Ideal) x0 x1 x2 (ix2 b j)
      = (∑ c : Fin 4096, (x0 (ix2 b c) : EReal) * (x1 (ix2 j c) : EReal)) + (x2 (ix1 j) : EReal) := by
  unfold Gen.k3_pay1
  simp only [shapeCast_self, matmul]
  rw [addf_apply, broadcastTo_1b_ab_apply, shapeCast_a_1a_apply, mm_apply]
  rfl

end Cert.Proof.KI

end
-- ==== Proof.OutIdeal.lean ====
import proofs.«207445_g73023033966933_cont_9to1_m_863_36_alg».proof.Proof.KI.ResultValue
import proofs.«207445_g73023033966933_cont_9to1_m_863_36_alg».proof.Proof.KI.Pay
import proofs.«207445_g73023033966933_cont_9to1_m_863_36_alg».proof.Proof.KI.HMain
import proofs.«207445_g73023033966933_cont_9to1_m_863_36_alg».proof.Proof.MatmulIdeal
import proofs.«207445_g73023033966933_cont_9to1_m_863_36_alg».proof.Proof.DenseIdeal
import Idealize.ShloMosaic.PureOps.Ideal.Laws
import Idealize.ShloMosaic.Lib.ValueIdx
import Idealize.ShloMosaic.Lib.Pipeline.Value

set_option maxRecDepth 16384

noncomputable section

open scoped BigOperators

namespace Cert.Proof.OutIdeal

open Cert.KernelIdeal Cert.KernelIdeal.Gen
open Cert.Proof.KI

open Idealize.ShloMosaic
open Idealize.ShloMosaic.ValueIdx
open Idealize.ShloMosaic.SparseCore (S V T)
open Idealize.ShloMosaic.SparseCore.Cfg (HIx)

theorem rv1_G_ideal (x : Vec Ideal S2048x4096 .bf16) (dn : Vec Ideal S1536x4096 .f32) (bs : Vec Ideal S1536 .f32)
    (bb : Fin 2048) (jj : Fin 4096) (h : jj.val < 1536) :
    rv1_G x dn bs (ix2 bb jj)
      = (∑ cc : Fin 4096, (x (ix2 bb cc) : EReal) * (dn (ix2 ⟨jj.val, h⟩ cc) : EReal)) + (bs (ix1 ⟨jj.val, h⟩) : EReal) := by
  have e : (256 * (jj.val / 256) + jj.val % 256) % 1536 = jj.val := by omega
  show Gen.k1_pay1 (F := Ideal) x (rvRows (n := 1536) (by decide) dn (jj.val / 256)) (rvBias (n := 1536) (by decide) bs (jj.val / 256))
      (ix2 bb ⟨jj.val % 256, Nat.mod_lt _ (by decide)⟩) = _
  rw [k1_pay1_apply]
  congr 1
  · refine Finset.sum_congr rfl fun cc _ => ?_
    congr 1
    show dn (ix2 ⟨(256 * (jj.val / 256) + jj.val % 256) % 1536, _⟩ cc) = dn (ix2 ⟨jj.val, h⟩ cc)
    congr 2
    exact Fin.ext e
  · show bs (ix1 ⟨(256 * (jj.val / 256) + jj.val % 256) % 1536, _⟩) = bs (ix1 ⟨jj.val, h⟩)
    congr 2
    exact Fin.ext e

theorem rv3_G_ideal (x : Vec Ideal S2048x4096 .bf16) (dn : Vec Ideal S2560x4096 .f32) (bs : Vec Ideal S2560 .f32)
    (bb : Fin 2048) (jj : Fin 4096) (h : 1536 ≤ jj.val) :
    rv3_G x dn bs (ix2 bb jj)
      = (∑ cc : Fin 4096, (x (ix2 bb cc) : EReal) * (dn (ix2 ⟨jj.val - 1536, by have := jj.isLt; omega⟩ cc) : EReal))
          + (bs (ix1 ⟨jj.val - 1536, by have := jj.isLt; omega⟩) : EReal) := by
  have hjj : jj.val < 4096 := jj.isLt
  have e : (256 * ((jj.val - 1536) / 256) + jj.val % 256) % 2560 = jj.val - 1536 := by omega
  show Gen.k3_pay1 (F := Ideal) x (rvRows (n := 2560) (by decide) dn ((jj.val - 1536) / 256)) (rvBias (n := 2560) (by decide) bs ((jj.val - 1536) / 256))
      (ix2 bb ⟨jj.val % 256, Nat.mod_lt _ (by decide)⟩) = _
  rw [k3_pay1_apply]
  congr 1
  · refine Finset.sum_congr rfl fun cc _ => ?_
    congr 1
    show dn (ix2 ⟨(256 * ((jj.val - 1536) / 256) + jj.val % 256) % 2560, _⟩ cc) = dn (ix2 ⟨jj.val - 1536, _⟩ cc)
    congr 2
    exact Fin.ext e
  · show bs (ix1 ⟨(256 * ((jj.val - 1536) / 256) + jj.val % 256) % 2560, _⟩) = bs (ix1 ⟨jj.val - 1536, _⟩)
    congr 2
    exact Fin.ext e

section Main

variable (m : (ℓ : Loc nD τ sig) → Buf (Elt Ideal) ℓ)

theorem b0v_apply (c : Dev nD) (j : Fin 4096) (h : j.val < 1536) : b0v m c (ix1 ⟨j.val, h⟩) = m (bLoc c) (ix1 j) := by
  unfold b0v
  refine extractStridedSlice_apply _ _ _ _ (ix1 j) fun a => ?_
  match a with
  | ⟨0, _⟩ => show j.val = 0 + j.val; omega

theorem b1v_apply (c : Dev nD) (j : Fin 4096) (h : 1536 ≤ j.val) :
    b1v m c (ix1 ⟨j.val - 1536, by have := j.isLt; omega⟩) = m (bLoc c) (ix1 j) := by
  unfold b1v
  refine extractStridedSlice_apply _ _ _ _ (ix1 j) fun a => ?_
  match a with
  | ⟨0, _⟩ => show j.val = 1536 + (j.val - 1536); omega

theorem zeroF_ideal : (zeroF : Elt Ideal .f32) = (0 : EReal) := Ideal.ofBits_zero_f32

theorem dense0_apply (c : Dev nD) (j cc : Fin 4096) (h : j.val < 1536) :
    dense0 m c (ix2 ⟨j.val, h⟩ cc) = DenseF.denseF (m (wLoc c)) (m (mLoc c)) (0 : EReal) (ix2 j cc) := by
  unfold dense0
  rw [zeroF_ideal]
  show DenseF.denseF (m (wLoc c)) (m (mLoc c)) (0 : EReal) (ix2 ⟨j.val % 4096, _⟩ ⟨cc.val % 4096, _⟩) = _
  congr 2
  · exact Fin.ext (Nat.mod_eq_of_lt j.isLt)
  · exact Fin.ext (Nat.mod_eq_of_lt cc.isLt)

theorem dense1_apply (c : Dev nD) (j cc : Fin 4096) (h : 1536 ≤ j.val) :
    dense1 m c (ix2 ⟨j.val - 1536, by have := j.isLt; omega⟩ cc) = DenseF.denseF (m (wLoc c)) (m (mLoc c)) (0 : EReal) (ix2 j cc) := by
  unfold dense1
  rw [zeroF_ideal]
  show DenseF.denseF (m (wLoc c)) (m (mLoc c)) (0 : EReal) (ix2 ⟨(1536 + (j.val - 1536)) % 4096, _⟩ ⟨cc.val % 4096, _⟩) = _
  congr 2
  · exact Fin.ext (by show (1536 + (j.val - 1536)) % 4096 = j.val; have := j.isLt; omega)
  · exact Fin.ext (Nat.mod_eq_of_lt cc.isLt)

variable (O1 O3 : Dev nD → CellTallies nD τ sig (HIx 2)) (l1 l3 : ℕ)

abbrev oi_res1 : ((c : Dev nD) → Buf (Elt Ideal) (x16Loc c)) → ((c : Dev nD) → Buf (Elt Ideal) (d0Loc c)) → ((c : Dev nD) → Buf (Elt Ideal) (b0Loc c))
    → ((c : Dev nD) → Buf (Elt Ideal) (o3Loc c)) → (c : Dev nD) → Buf (Elt Ideal) (o3Loc c) :=
  fun x16 dn bs o c => reg1_result x16 dn bs o O1 l1 c
abbrev oi_res3 : ((c : Dev nD) → Buf (Elt Ideal) (x16Loc c)) → ((c : Dev nD) → Buf (Elt Ideal) (d1Loc c)) → ((c : Dev nD) → Buf (Elt Ideal) (b1Loc c))
    → ((c : Dev nD) → Buf (Elt Ideal) (o6Loc c)) → (c : Dev nD) → Buf (Elt Ideal) (o6Loc c) :=
  fun x16 dn bs o c => reg3_result x16 dn bs o O3 l3 c

abbrev oi_out (c : Dev nD) : Buf (Elt Ideal) (o6Loc c) := OUTv m (oi_res1 O1 l1) (oi_res3 O3 l3) c

def kerOutF (x : Vec Ideal Spec.SX .f32) (w : Vec Ideal Spec.SW .f32) (mk : IVec Spec.SW 32) (bi : Vec Ideal Spec.SB .f32) : Vec Ideal Spec.SX .f32 :=
  fun i => (∑ cc : Fin 4096, x (ix2 (i 0) cc) * DenseF.denseF w mk (0 : EReal) (ix2 (i 1) cc)) + bi (ix1 (i 1))

theorem kerOutF_apply (x : Vec Ideal Spec.SX .f32) (w : Vec Ideal Spec.SW .f32) (mk : IVec Spec.SW 32) (bi : Vec Ideal Spec.SB .f32)
    (bb : Fin 2048) (jj : Fin 4096) :
    kerOutF x w mk bi (ix2 bb jj) = (∑ cc : Fin 4096, x (ix2 bb cc) * DenseF.denseF w mk (0 : EReal) (ix2 jj cc)) + bi (ix1 jj) := rfl

theorem oi_out_eq (c : Dev nD) :
    oi_out m O1 O3 l1 l3 c = kerOutF (m (xLoc c)) (m (wLoc c)) (m (mLoc c)) (m (bLoc c)) := by
  refine funext fun (i : Spec.SX.Idx) => ?_
  obtain ⟨bb, jj, rfl⟩ : ∃ (bb : Fin 2048) (jj : Fin 4096), i = ix2 bb jj := ⟨i 0, i 1, eq_ix2 (n0 := 2048) (n1 := 4096) i⟩
  refine Eq.trans ?_ (kerOutF_apply (m (xLoc c)) (m (wLoc c)) (m (mLoc c)) (m (bLoc c)) bb jj).symm
  have hjj : jj.val < 4096 := jj.isLt
  show reg3_result (x16v m) (dense1 m) (b1v m) (fun c => (o3v m (oi_res1 O1 l1) c : Buf (Elt Ideal) (o6Loc c))) O3 l3 c (ix2 bb jj) = _
  rw [reg3_result_eq]
  by_cases h : 1536 ≤ jj.val
  · refine (if_pos (show 1536 ≤ ((ix2 bb jj : S2048x4096.Idx) 1).val from h)).trans ?_
    rw [rv3_G_ideal _ _ _ bb jj h, b1v_apply m c jj h]
    congr 1
    refine Finset.sum_congr rfl fun cc _ => ?_
    rw [dense1_apply m c jj cc h]
    rfl
  · refine (if_neg (show ¬ 1536 ≤ ((ix2 bb jj : S2048x4096.Idx) 1).val from h)).trans ?_
    have h' : jj.val < 1536 := by omega
    show reg1_result (x16v m) (dense0 m) (b0v m) (fun c => m (o3Loc c)) O1 l1 c (ix2 bb jj) = _
    rw [reg1_result_eq]
    refine (if_pos (show ((ix2 bb jj : S2048x4096.Idx) 1).val < 1536 from h')).trans ?_
    rw [rv1_G_ideal _ _ _ bb jj h', b0v_apply m c jj h']
    congr 1
    refine Finset.sum_congr rfl fun cc _ => ?_
    rw [dense0_apply m c jj cc h']
    rfl

theorem out_ideal (c : Dev nD) (hmk : Spec.MaskOK (m (mLoc c))) :
    OUTv m (fun x16 dn bs o c => reg1_result x16 dn bs o (fun c => (K (F := Ideal)).Otc c 1) (8 * 1) c)
        (fun x16 dn bs o c => reg3_result x16 dn bs o (fun c => (K (F := Ideal)).Otc c 2) (8 * 2) c) c
      = kerOutF (m (xLoc c)) (m (wLoc c)) (m (mLoc c)) (m (bLoc c)) :=
  oi_out_eq m (fun c => (K (F := Ideal)).Otc c 1) (fun c => (K (F := Ideal)).Otc c 2) (8 * 1) (8 * 2) c

end Main

end Cert.Proof.OutIdeal

end
-- ==== Proof.KI.Region1.lean ====
import proofs.«207445_g73023033966933_cont_9to1_m_863_36_alg».proof.Proof.KI.Region1Defs

set_option maxRecDepth 16384

noncomputable section

namespace Cert.Proof.KI

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

section Data

variable (x16 : (c : Dev nD) → Buf (Elt F) (x16Loc c)) (dn : (c : Dev nD) → Buf (Elt F) (d0Loc c))
  (bs : (c : Dev nD) → Buf (Elt F) (b0Loc c)) (o3 : (c : Dev nD) → Buf (Elt F) (o3Loc c))
  (O : Dev nD → CellTallies nD τ sig (HIx 2)) (b : ℕ)

variable (lv : GSem nD τ sig → HIx 2 → ℕ) (hlv : (K (F := F)).Refines lv) (hO : ∀ c g, O c g none = 0)

include hlv hO in

theorem reg1_waits (c : Dev nD) :
    (levAts (K (F := F)).L lv : sProp 𝕄) ⊢ Pipeline.cellsWaits (Pipeline.pin (pcfgs (F := F)) adm) (reg1_dats x16 dn bs o3 O b) (none : HIx 2) 0 c :=
  Pipeline.cellsWaits_intro (Pipeline.pin (pcfgs (F := F)) adm) (reg1_dats x16 dn bs o3 O b) (none : HIx 2) 0 c
    fun w s t => (K (F := F)).mayWait_none _ (hO c) lv hlv

set_option backward.isDefEq.respectTransparency.types false in

def reg1 : Pipeline.RegionSeg (pcfgs (F := F)) adm (reg1_dats x16 dn bs o3 O b) (none : HIx 2) defs₀ 𝒱₀ (K (F := F)).L lv 0 where
  win := launch1.win.to₀
  block_pos := launch1.block_pos
  stage_whole := launch1.stage_whole
  K := PEmpty
  osem k := k.elim
  ho := Pipeline.OwnSemFacts.none _
  hbody c := (reg1_body x16 dn bs o3 O b c).loose
  hwaits c := reg1_waits x16 dn bs o3 O b lv hlv hO c
  pre := reg1_pre x16 dn bs o3 O b
  post := reg1_post x16 dn bs o3 O b
  X _ := BI.emp
  Y _ := BI.emp
  Z _ := BI.emp
  hentry c := by
    rw [Pipeline.ownSems0_none, Pipeline.arrays_eq (Pipeline.pin (pcfgs (F := F)) adm) (reg1_dats x16 dn bs o3 O b) 0 c launch1.arr_whole
      ((reg1_dats x16 dn bs o3 O b 0 c).share_full fun _ => rfl), bigSep_W1]
    unfold reg1_pre
    iintro ⟨⟨Hx, Hd, Hb, Ho, HO⟩, -, -⟩
    imodintro
    isplitl [Hx Hd Hb Ho]
    · isplitl [Hx]; · iexact Hx
      isplitl [Hd]; · iexact Hd
      isplitl [Hb]; · iexact Hb
      iexact Ho
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p (Finset.mem_coe.mp hp))
      iexact HO
    isplitr <;> iempintro
  hin c := by
    rw [show (reg1_dats x16 dn bs o3 O b 0 c).Φ 0
      = Pipeline.scopedRest (Ix := HIx 2) (Name := ℕ) (U := UU) (Lvl := ℕ) (Val := Elt F) spec1 c from rfl]
    iintro ⟨-, -, Hr⟩; iexact Hr
  hout c := by
    rw [Pipeline.ownSems0_none, show (reg1_dats x16 dn bs o3 O b 0 c).Φ (Fin.last _)
      = Pipeline.scopedRest (Ix := HIx 2) (Name := ℕ) (U := UU) (Lvl := ℕ) (Val := Elt F) spec1 c from rfl]
    iintro Hr
    isplitr; · iempintro
    isplitr; · iempintro
    iexact Hr
  hexit c := by
    rw [Pipeline.arrays_eq (Pipeline.pin (pcfgs (F := F)) adm) (reg1_dats x16 dn bs o3 O b) 0 c launch1.arr_whole
      ((reg1_dats x16 dn bs o3 O b 0 c).share_full fun _ => rfl), bigSep_W1]
    unfold reg1_post reg1_result
    rw [show (reg1_dats x16 dn bs o3 O b 0 c).arrAt 0 (Pipeline.pin (pcfgs (F := F)) adm 0).N = x16 c from reg1_arrAt0 x16 dn bs o3 O b c,
      show (reg1_dats x16 dn bs o3 O b 0 c).arrAt 1 (Pipeline.pin (pcfgs (F := F)) adm 0).N = dn c from reg1_arrAt1 x16 dn bs o3 O b c,
      show (reg1_dats x16 dn bs o3 O b 0 c).arrAt 2 (Pipeline.pin (pcfgs (F := F)) adm 0).N = bs c from reg1_arrAt2 x16 dn bs o3 O b c]
    iintro ⟨⟨Hx, Hd, Hb, Ho⟩, HO, -, -⟩
    imodintro
    isplitl [Hx]; · iexact Hx
    isplitl [Hd]; · iexact Hd
    isplitl [Hb]; · iexact Hb
    isplitl [Ho]; · iexact Ho
    unfold Pipeline.Dat.owesAt Pipeline.owesWithin
    icases HO with ⟨%W, %hW, HO⟩; iexists W; isplitr
    · ipureintro
      intro p hp
      rcases hW (Finset.mem_coe.mpr hp) with h | ⟨w, s, rfl⟩
      · exact h
      · exact Nat.zero_le _
    iexact HO

include hlv hO in
set_option backward.isDefEq.respectTransparency.types false in

theorem region1_wp_inner (c : Dev nD) (Q : PUnit → sProp 𝕄) :
    iprop((iprop(boundary (T c : Thread nD τ) ∗ reg1_post x16 dn bs o3 O b c) -∗ Q ⟨⟩)
        ∗ boundary (T c : Thread nD τ) ∗ reg1_pre x16 dn bs o3 O b c ∗ levAts (K (F := F)).L lv
        ∗ Pipeline.cellsGhost (Pipeline.pin (pcfgs (F := F)) adm) EP 0 c ∗ Pipeline.toksInit (Pipeline.pin (pcfgs (F := F)) adm) EP 0 c)
      ⊢ wp frame (wpE (D (F := F)) 𝒱 (T c : Thread nD τ) none) Set.univ
          (.op (.customCall (Pipeline.entry 0) ()) fun _ => .ret ⟨⟩) Q := by
  have h := Pipeline.RegionSeg.wp (pcfgs (F := F)) adm (reg1_dats x16 dn bs o3 O b) (none : HIx 2) cellOf_inj EP defs₀ 𝒱₀
    (K (F := F)).L lv (reg1 x16 dn bs o3 O b lv hlv hO) c none (fun u hu => by cases hu) (fun _ => .ret ⟨⟩) Q
  rw [show (reg1 x16 dn bs o3 O b lv hlv hO).pre c = reg1_pre x16 dn bs o3 O b c from rfl,
    show (reg1 x16 dn bs o3 O b lv hlv hO).post c = reg1_post x16 dn bs o3 O b c from rfl] at h
  refine BIBase.Entails.trans ?_ h
  iintro ⟨Hk, Hb, Hpre, Hlev, Hg, Ht⟩
  isplitl [Hk]
  · iintro H
    rw [wp_ret]
    imodintro
    iapply Hk; iexact H
  isplitl [Hb]; · iexact Hb
  isplitl [Hpre]; · iexact Hpre
  isplitl [Hlev]; · iexact Hlev
  isplitl [Hg]; · iexact Hg
  iexact Ht

theorem lift_entry0 :
    (SparseCore.liftProg (Q := 2) (Prog.op (TpuEff.customCall (Pipeline.entry 0) ()) (fun _ => Prog.ret PUnit.unit)
        : Prog (TpuEff nD τ sig (Elt F) (ΛP (F := F)) .tc) PUnit))
      = Prog.lift (.customCall (SparseCore.inner (Pipeline.entry 0)) ()) := rfl

include hlv hO in

theorem region1_wp (c : Dev nD) (Q : PUnit → sProp 𝕄) :
    iprop((iprop(boundary (T c : Thread nD τ) ∗ reg1_post x16 dn bs o3 O b c) -∗ Q ⟨⟩)
        ∗ boundary (T c : Thread nD τ) ∗ reg1_pre x16 dn bs o3 O b c ∗ levAts (K (F := F)).L lv
        ∗ Pipeline.cellsGhost (Pipeline.pin (pcfgs (F := F)) adm) EP 0 c ∗ Pipeline.toksInit (Pipeline.pin (pcfgs (F := F)) adm) EP 0 c)
      ⊢ wp frame (wpE ((K (F := F)).defs D) 𝒱 (T c : Thread nD τ) none) Set.univ
          (Prog.lift (.customCall (SparseCore.inner (Pipeline.entry 0)) ())) Q := by
  rw [← lift_entry0]
  exact (region1_wp_inner x16 dn bs o3 O b lv hlv hO c Q).trans
    ((K (F := F)).wp_liftProg D 𝒱 (T c : Thread nD τ) Set.univ none _ Q)

end Data

end Cert.Proof.KI

end
-- ==== Proof.KI.Region3.lean ====
import proofs.«207445_g73023033966933_cont_9to1_m_863_36_alg».proof.Proof.KI.Region3Defs

set_option maxRecDepth 16384

noncomputable section

namespace Cert.Proof.KI

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

section Data

variable (x16 : (c : Dev nD) → Buf (Elt F) (x16Loc c)) (dn : (c : Dev nD) → Buf (Elt F) (d1Loc c))
  (bs : (c : Dev nD) → Buf (Elt F) (b1Loc c)) (o6 : (c : Dev nD) → Buf (Elt F) (o6Loc c))
  (O : Dev nD → CellTallies nD τ sig (HIx 2)) (b : ℕ)

variable (lv : GSem nD τ sig → HIx 2 → ℕ) (hlv : (K (F := F)).Refines lv) (hO : ∀ c g, O c g none = 0)

include hlv hO in

theorem reg3_waits (c : Dev nD) :
    (levAts (K (F := F)).L lv : sProp 𝕄) ⊢ Pipeline.cellsWaits (Pipeline.pin (pcfgs (F := F)) adm) (reg3_dats x16 dn bs o6 O b) (none : HIx 2) 1 c :=
  Pipeline.cellsWaits_intro (Pipeline.pin (pcfgs (F := F)) adm) (reg3_dats x16 dn bs o6 O b) (none : HIx 2) 1 c
    fun w s t => (K (F := F)).mayWait_none _ (hO c) lv hlv

set_option backward.isDefEq.respectTransparency.types false in

def reg3 : Pipeline.RegionSeg (pcfgs (F := F)) adm (reg3_dats x16 dn bs o6 O b) (none : HIx 2) defs₀ 𝒱₀ (K (F := F)).L lv 1 where
  win := launch3.win.to₀
  block_pos := launch3.block_pos
  stage_whole := launch3.stage_whole
  K := PEmpty
  osem k := k.elim
  ho := Pipeline.OwnSemFacts.none _
  hbody c := (reg3_body x16 dn bs o6 O b c).loose
  hwaits c := reg3_waits x16 dn bs o6 O b lv hlv hO c
  pre := reg3_pre x16 dn bs o6 O b
  post := reg3_post x16 dn bs o6 O b
  X _ := BI.emp
  Y _ := BI.emp
  Z _ := BI.emp
  hentry c := by
    rw [Pipeline.ownSems0_none, Pipeline.arrays_eq (Pipeline.pin (pcfgs (F := F)) adm) (reg3_dats x16 dn bs o6 O b) 1 c launch3.arr_whole
      ((reg3_dats x16 dn bs o6 O b 1 c).share_full fun _ => rfl), bigSep_W3]
    unfold reg3_pre
    iintro ⟨⟨Hx, Hd, Hb, Ho, HO⟩, -, -⟩
    imodintro
    isplitl [Hx Hd Hb Ho]
    · isplitl [Hx]; · iexact Hx
      isplitl [Hd]; · iexact Hd
      isplitl [Hb]; · iexact Hb
      iexact Ho
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p (Finset.mem_coe.mp hp))
      iexact HO
    isplitr <;> iempintro
  hin c := by
    rw [show (reg3_dats x16 dn bs o6 O b 1 c).Φ 0
      = Pipeline.scopedRest (Ix := HIx 2) (Name := ℕ) (U := UU) (Lvl := ℕ) (Val := Elt F) spec3 c from rfl]
    iintro ⟨-, -, Hr⟩; iexact Hr
  hout c := by
    rw [Pipeline.ownSems0_none, show (reg3_dats x16 dn bs o6 O b 1 c).Φ (Fin.last _)
      = Pipeline.scopedRest (Ix := HIx 2) (Name := ℕ) (U := UU) (Lvl := ℕ) (Val := Elt F) spec3 c from rfl]
    iintro Hr
    isplitr; · iempintro
    isplitr; · iempintro
    iexact Hr
  hexit c := by
    rw [Pipeline.arrays_eq (Pipeline.pin (pcfgs (F := F)) adm) (reg3_dats x16 dn bs o6 O b) 1 c launch3.arr_whole
      ((reg3_dats x16 dn bs o6 O b 1 c).share_full fun _ => rfl), bigSep_W3]
    unfold reg3_post reg3_result
    rw [show (reg3_dats x16 dn bs o6 O b 1 c).arrAt 0 (Pipeline.pin (pcfgs (F := F)) adm 1).N = x16 c from reg3_arrAt0 x16 dn bs o6 O b c,
      show (reg3_dats x16 dn bs o6 O b 1 c).arrAt 1 (Pipeline.pin (pcfgs (F := F)) adm 1).N = dn c from reg3_arrAt1 x16 dn bs o6 O b c,
      show (reg3_dats x16 dn bs o6 O b 1 c).arrAt 2 (Pipeline.pin (pcfgs (F := F)) adm 1).N = bs c from reg3_arrAt2 x16 dn bs o6 O b c]
    iintro ⟨⟨Hx, Hd, Hb, Ho⟩, HO, -, -⟩
    imodintro
    isplitl [Hx]; · iexact Hx
    isplitl [Hd]; · iexact Hd
    isplitl [Hb]; · iexact Hb
    isplitl [Ho]; · iexact Ho
    unfold Pipeline.Dat.owesAt Pipeline.owesWithin
    icases HO with ⟨%W, %hW, HO⟩; iexists W; isplitr
    · ipureintro
      intro p hp
      rcases hW (Finset.mem_coe.mpr hp) with h | ⟨w, s, rfl⟩
      · exact h
      · exact Nat.zero_le _
    iexact HO

include hlv hO in
set_option backward.isDefEq.respectTransparency.types false in

theorem region3_wp_inner (c : Dev nD) (Q : PUnit → sProp 𝕄) :
    iprop((iprop(boundary (T c : Thread nD τ) ∗ reg3_post x16 dn bs o6 O b c) -∗ Q ⟨⟩)
        ∗ boundary (T c : Thread nD τ) ∗ reg3_pre x16 dn bs o6 O b c ∗ levAts (K (F := F)).L lv
        ∗ Pipeline.cellsGhost (Pipeline.pin (pcfgs (F := F)) adm) EP 1 c ∗ Pipeline.toksInit (Pipeline.pin (pcfgs (F := F)) adm) EP 1 c)
      ⊢ wp frame (wpE (D (F := F)) 𝒱 (T c : Thread nD τ) none) Set.univ
          (.op (.customCall (Pipeline.entry 1) ()) fun _ => .ret ⟨⟩) Q := by
  have h := Pipeline.RegionSeg.wp (pcfgs (F := F)) adm (reg3_dats x16 dn bs o6 O b) (none : HIx 2) cellOf_inj EP defs₀ 𝒱₀
    (K (F := F)).L lv (reg3 x16 dn bs o6 O b lv hlv hO) c none (fun u hu => by cases hu) (fun _ => .ret ⟨⟩) Q
  rw [show (reg3 x16 dn bs o6 O b lv hlv hO).pre c = reg3_pre x16 dn bs o6 O b c from rfl,
    show (reg3 x16 dn bs o6 O b lv hlv hO).post c = reg3_post x16 dn bs o6 O b c from rfl] at h
  refine BIBase.Entails.trans ?_ h
  iintro ⟨Hk, Hb, Hpre, Hlev, Hg, Ht⟩
  isplitl [Hk]
  · iintro H
    rw [wp_ret]
    imodintro
    iapply Hk; iexact H
  isplitl [Hb]; · iexact Hb
  isplitl [Hpre]; · iexact Hpre
  isplitl [Hlev]; · iexact Hlev
  isplitl [Hg]; · iexact Hg
  iexact Ht

theorem lift_entry1 :
    (SparseCore.liftProg (Q := 2) (Prog.op (TpuEff.customCall (Pipeline.entry 1) ()) (fun _ => Prog.ret PUnit.unit)
        : Prog (TpuEff nD τ sig (Elt F) (ΛP (F := F)) .tc) PUnit))
      = Prog.lift (.customCall (SparseCore.inner (Pipeline.entry 1)) ()) := rfl

include hlv hO in

theorem region3_wp (c : Dev nD) (Q : PUnit → sProp 𝕄) :
    iprop((iprop(boundary (T c : Thread nD τ) ∗ reg3_post x16 dn bs o6 O b c) -∗ Q ⟨⟩)
        ∗ boundary (T c : Thread nD τ) ∗ reg3_pre x16 dn bs o6 O b c ∗ levAts (K (F := F)).L lv
        ∗ Pipeline.cellsGhost (Pipeline.pin (pcfgs (F := F)) adm) EP 1 c ∗ Pipeline.toksInit (Pipeline.pin (pcfgs (F := F)) adm) EP 1 c)
      ⊢ wp frame (wpE ((K (F := F)).defs D) 𝒱 (T c : Thread nD τ) none) Set.univ
          (Prog.lift (.customCall (SparseCore.inner (Pipeline.entry 1)) ())) Q := by
  rw [← lift_entry1]
  exact (region3_wp_inner x16 dn bs o6 O b lv hlv hO c Q).trans
    ((K (F := F)).wp_liftProg D 𝒱 (T c : Thread nD τ) Set.univ none _ Q)

end Data

end Cert.Proof.KI

end
-- ==== Proof.KI.Run.lean ====
import proofs.«207445_g73023033966933_cont_9to1_m_863_36_alg».proof.Proof.KI.HMain
import proofs.«207445_g73023033966933_cont_9to1_m_863_36_alg».proof.Proof.KI.Region1
import proofs.«207445_g73023033966933_cont_9to1_m_863_36_alg».proof.Proof.KI.Region3

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 2) (Elt F) ℕ UU ℕ

variable (m : (ℓ : Loc nD τ sig) → Buf (Elt F) ℓ) (ρ : Dev nD → PrngReg)

theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

variable [FloatOps F]

def res1 : ((c : Dev nD) → Buf (Elt F) (x16Loc c)) → ((c : Dev nD) → Buf (Elt F) (d0Loc c)) → ((c : Dev nD) → Buf (Elt F) (b0Loc c)) → ((c : Dev nD) → Buf (Elt F) (o3Loc c)) → (c : Dev nD) → Buf (Elt F) (o3Loc c) :=
  fun x16 dn bs o c => reg1_result x16 dn bs o (fun c => (K (F := F)).Otc c 1) (8 * 1) c
def res3 : ((c : Dev nD) → Buf (Elt F) (x16Loc c)) → ((c : Dev nD) → Buf (Elt F) (d1Loc c)) → ((c : Dev nD) → Buf (Elt F) (b1Loc c)) → ((c : Dev nD) → Buf (Elt F) (o6Loc c)) → (c : Dev nD) → Buf (Elt F) (o6Loc c) :=
  fun x16 dn bs o c => reg3_result x16 dn bs o (fun c => (K (F := F)).Otc c 2) (8 * 2) c

def OUT (d : Dev nD) : Buf (Elt F) (o6Loc d) := OUTv m (res1 (F := F)) (res3 (F := F)) d

omit m in

theorem hreg1 : Hreg1 (F := F) (res1 (F := F)) := fun x16 dn bs o c Q => by
  have h := region1_wp x16 dn bs o (fun c => (K (F := F)).Otc c 1) (8 * 1) (K (F := F)).lev
    (SparseCore.Cfg.refines_self _) (fun c g => Otc_none c 1 g) c Q
  unfold reg1_pre reg1_post at h
  exact h

omit m in

theorem hreg3 : Hreg3 (F := F) (res3 (F := F)) := fun x16 dn bs o c Q => by
  have h := region3_wp x16 dn bs o (fun c => (K (F := F)).Otc c 2) (8 * 2) (K (F := F)).lev
    (SparseCore.Cfg.refines_self _) (fun c g => Otc_none c 2 g) c Q
  unfold reg3_pre reg3_post at h
  exact h

section Run

variable (hT0 : (K (F := F)).TileObl (D (F := F)) 𝒱 (P m) v₀ 0) (hT1 : (K (F := F)).TileObl (D (F := F)) 𝒱 (P m) v₀ 1)

include hT0 hT1 in

theorem run_main [∀ e, Nonempty (Elt F e)] :
    θ_run (Cert.KernelIdeal.defs (F := F)) (Cert.KernelIdeal.threads (F := F)) ⟨m, fun _ => 0, ρ⟩ (QC m (OUT m)) :=
  SparseCore.Cfg.θ_run_sc (K := K (F := F)) (D := D (F := F)) (𝒱 := 𝒱) (EH := EH) (P := P m) facts v₀
    (fun q hq => match q with | 0 => nomatch hq | 1 => nomatch hq)
    (fun q _ => match q with | 0 => hT0 | 1 => hT1)
    (fun q _ => match q with | 0 => SparseCore.Cfg.VecSplit.of_plain (vecSplit0 m) | 1 => SparseCore.Cfg.VecSplit.of_plain (vecSplit1 m))
    m ρ main (G (F := F)) (FIN m (OUT m)) (u₀ (F := F)) (sep_elim_left.trans (hu₀ m))
    (hmain m ρ (res1 (F := F)) (res3 (F := F)) hreg1 hreg3) (fq m (OUT m)) (hfin m (OUT m)) (QC m (OUT m)) (fun _ h => h)

end Run

end Cert.Proof.KI

end
-- ==== Proof.KI.Scatter.lean ====
import proofs.«207445_g73023033966933_cont_9to1_m_863_36_alg».proof.Proof.KI.Common
import proofs.«207445_g73023033966933_cont_9to1_m_863_36_alg».proof.Proof.SpecF
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 2) (Elt F) ℕ UU ℕ

/-- The row word every scatter loop computes at trip n: the floor division of n by eight. -/
abbrev rowWord (n : Nat) : BitVec 32 :=
  Scalar.select
    (Scalar.andi
      (Scalar.cmpi .ne
        (Scalar.subi (Scalar.extui (Scalar.cmpi .sgt (Scf.iv 0#32 1#32 n) 0#32)) (Scalar.extui (Scalar.cmpi .slt (Scf.iv 0#32 1#32 n) 0#32)))
        (Scalar.subi (Scalar.extui (Scalar.cmpi .sgt 8#32 0#32)) (Scalar.extui (Scalar.cmpi .slt 8#32 0#32))))
      (Scalar.cmpi .ne (Scalar.remsi (Scf.iv 0#32 1#32 n) 8#32) 0#32))
    (Scalar.subi (Scalar.divsi (Scf.iv 0#32 1#32 n) 8#32) 1#32)
    (Scalar.divsi (Scf.iv 0#32 1#32 n) 8#32)

theorem rowWord_toNat : ∀ k : Fin 64, (rowWord k.val).toNat = k.val / 8 := by decide +kernel

/-- Rows 8 b … 8 b + 7 of a scratch of N rows of 128 words. -/
def rows {α : Type} {N : ℕ} (f : (⟨2, ![N, 128]⟩ : Shape).Idx → α) (b : ℕ) (hb : 8 * b + 8 ≤ N) : Fin 8 → Fin 128 → α :=
  fun r q => f (ix2 (⟨8 * b + r.val, by have := r.isLt; omega⟩ : Fin N) q)

/-- Trip n of sub-block b: every row lane is n / 8, lane x of its 1 x 16 load is the word at row 8 b + n / 8, column 16 (n mod 8) + x, and the index vectors are in range. -/
theorem scat_facts {N : ℕ} (fw : (⟨2, ![N, 128]⟩ : Shape).Idx → Elt F .f32) (fm : (⟨2, ![N, 128]⟩ : Shape).Idx → BitVec 32)
    (hfm : ∀ j, (fm j).toNat < 4096) (b : ℕ) (hb : 8 * b + 8 ≤ N) (n : ℕ) (hn : n < 64)
    (off : Fin 2 → Nat) (inb : ∀ a, off a + S1x16.size a ≤ (⟨2, ![N, 128]⟩ : Shape).size a) (hoff : off = ![8 * b + n / 8, 16 * (n % 8)])
    (vm : S1x16.Idx → BitVec 32) (vw : S1x16.Idx → Elt F .f32)
    (hvm : vm = fun y => fm ((Rect.unit (s := ⟨2, ![N, 128]⟩) off S1x16.size inb).toLoadRect.idx y))
    (hvw : vw = fun y => fw ((Rect.unit (s := ⟨2, ![N, 128]⟩) off S1x16.size inb).toLoadRect.idx y)) :
    (∀ x : S16.Idx, ((broadcast S16 (rowWord n) : IVec S16 32) x).toNat = n / 8)
    ∧ (∀ x : S16.Idx, shapeCast S16 vm shapeCasts_S1x16_S16 x = rows fm b hb (SpecF.stepRow n) (SpecF.stepCol n (x 0)))
    ∧ (∀ x : S16.Idx, shapeCast S16 vw shapeCasts_S1x16_S16 x = rows fw b hb (SpecF.stepRow n) (SpecF.stepCol n (x 0)))
    ∧ (∀ a x, ((![broadcast S16 (rowWord n), shapeCast S16 vm shapeCasts_S1x16_S16] : Fin 2 → IVec S16 32) a x).toNat < S8x4096.size a) := by
  subst hvm hvw hoff
  have hrow : ∀ x : S16.Idx, ((broadcast S16 (rowWord n) : IVec S16 32) x).toNat = n / 8 := fun _ => rowWord_toNat ⟨n, hn⟩
  have hrd : ∀ {α : Type} (g : (⟨2, ![N, 128]⟩ : Shape).Idx → α) (x : S16.Idx),
      shapeCast S16 (fun y : S1x16.Idx => g ((Rect.unit (s := ⟨2, ![N, 128]⟩) ![8 * b + n / 8, 16 * (n % 8)] S1x16.size inb).toLoadRect.idx y)) shapeCasts_S1x16_S16 x
        = rows g b hb (SpecF.stepRow n) (SpecF.stepCol n (x 0)) := by
    intro α g x
    refine (shapeCast_dropUnit_apply ![16] _ _ x).trans ?_
    unfold rows
    congr 1
    funext a
    match a with
    | ⟨0, _⟩ => exact Fin.ext (Eq.trans rfl (show 8 * b + n / 8 = 8 * b + n / 8 % 8 by omega))
    | ⟨1, _⟩ => exact Fin.ext ((show _ = 16 * (n % 8) + 1 * (x 0).val from rfl).trans (by rw [Nat.one_mul]; rfl))
  refine ⟨hrow, hrd fm, hrd fw, fun a x => ?_⟩
  match a with
  | ⟨0, _⟩ => exact (lt_of_eq_of_lt (hrow x) (by omega) : ((broadcast S16 (rowWord n) : IVec S16 32) x).toNat < 8)
  | ⟨1, _⟩ => exact lt_of_eq_of_lt (congrArg BitVec.toNat (hrd fm x)) (hfm _)

section Wp

variable [FloatOps F] (d : Dev nD) (cC : Fin τ.nSC) (cJ : Fin τ.nSub)
variable {N : ℕ} (mW : Memref sig .scVector .vmem ⟨2, ![N, 128]⟩ .f32) (mM : Memref sig .scVector .vmem ⟨2, ![N, 128]⟩ .i32)
variable (base : Memref sig .scVector .vmem S8x4096 .f32) (up : Vec F S8x4096 .f32 → Buf (Elt F) (base.view.loc (V d cC cJ)))
variable (fw : Buf (Elt F) (mW.view.loc (V d cC cJ))) (fm : Buf (Elt F) (mM.view.loc (V d cC cJ)))

/-- The block held whole: every index is its own, reading gives the contents, storing gives the payload. -/
structure WholeBlk : Prop where
  set : (base.access (.whole S8x4096)).set = Finset.univ
  read : ∀ g, (base.access (.whole S8x4096)).read (Elt F) (up g) = g
  write : ∀ g w, (base.access (.whole S8x4096)).write (Elt F) (up g) w Finset.univ = up w

/-- What a scatter loop holds: its block at the contents g, the weight rows and the mask rows. -/
abbrev scatRes (g : Vec F S8x4096 .f32) : sProp 𝕄 :=
  iprop((base.view.loc (V d cC cJ) ↦{fullShare} up g) ∗ (mW.view.loc (V d cC cJ) ↦{fullShare} fw) ∗ (mM.view.loc (V d cC cJ) ↦{fullShare} fm))

/-- A counted loop of 64 trips whose trip k takes the block from g to step k g leaves the fold of the 64 steps. -/
theorem scat_loop (step : ℕ → Vec F S8x4096 .f32 → Vec F S8x4096 .f32) (fold : ℕ → Vec F S8x4096 .f32)
    (hfold : ∀ n, fold (n + 1) = step n (fold n))
    (lp : Scf.Loop 32) (ok : lp.OK) (htr : Scf.trips lp.lb lp.ub lp.st = 64)
    (body : Fin lp.trips → Unit → Prog (TpuEff nD τ sig (Elt F) Λ₀ (.scVector cC cJ)) Unit)
    (h : ∀ (k : Fin lp.trips), k.val < 64 → ∀ g : Vec F S8x4096 .f32, scatRes d cC cJ mW mM base up fw fm g
      ⊢ wp frame (wpE (defs₀ (F := F)) 𝒱₀ (V d cC cJ) none) Set.univ (body k ()) fun _ => scatRes d cC cJ mW mM base up fw fm (step k.val g)) :
    scatRes d cC cJ mW mM base up fw fm (fold 0)
      ⊢ wp frame (wpE (defs₀ (F := F)) 𝒱₀ (V d cC cJ) none) Set.univ (Scf.Loop.for lp ok () body) fun _ => scatRes d cC cJ mW mM base up fw fm (fold 64) := by
  refine BIBase.Entails.trans ?_ (Scf.wp_for frame (wpE (defs₀ (F := F)) 𝒱₀ (V d cC cJ) none) Set.univ lp.lb lp.ub lp.st ok () _
    (fun n _ => scatRes d cC cJ mW mM base up fw fm (fold n)) (fun k _ => by rw [hfold]; exact h k (htr ▸ k.isLt) _))
  iintro H
  isplitl [H]
  · iexact H
  · iintro %_ H
    rw [htr]
    iexact H

theorem scat_loopAdd (wr : Fin 8 → Fin 128 → Elt F .f32) (mr : Fin 8 → Fin 128 → BitVec 32) (blk : Vec F S8x4096 .f32)
    (lp : Scf.Loop 32) (ok : lp.OK) (htr : Scf.trips lp.lb lp.ub lp.st = 64)
    (body : Fin lp.trips → Unit → Prog (TpuEff nD τ sig (Elt F) Λ₀ (.scVector cC cJ)) Unit)
    (h : ∀ (k : Fin lp.trips), k.val < 64 → ∀ g : Vec F S8x4096 .f32, scatRes d cC cJ mW mM base up fw fm g
      ⊢ wp frame (wpE (defs₀ (F := F)) 𝒱₀ (V d cC cJ) none) Set.univ (body k ()) fun _ => scatRes d cC cJ mW mM base up fw fm (SpecF.stepAdd wr mr k.val g)) :
    scatRes d cC cJ mW mM base up fw fm blk
      ⊢ wp frame (wpE (defs₀ (F := F)) 𝒱₀ (V d cC cJ) none) Set.univ (Scf.Loop.for lp ok () body) fun _ => scatRes d cC cJ mW mM base up fw fm (SpecF.foldAdd wr mr 64 blk) :=
  scat_loop d cC cJ mW mM base up fw fm (SpecF.stepAdd wr mr) (fun n => SpecF.foldAdd wr mr n blk) (fun _ => rfl) lp ok htr body h

theorem scat_loopClr (z : Elt F .f32) (mr : Fin 8 → Fin 128 → BitVec 32) (blk : Vec F S8x4096 .f32)
    (lp : Scf.Loop 32) (ok : lp.OK) (htr : Scf.trips lp.lb lp.ub lp.st = 64)
    (body : Fin lp.trips → Unit → Prog (TpuEff nD τ sig (Elt F) Λ₀ (.scVector cC cJ)) Unit)
    (h : ∀ (k : Fin lp.trips), k.val < 64 → ∀ g : Vec F S8x4096 .f32, scatRes d cC cJ mW mM base up fw fm g
      ⊢ wp frame (wpE (defs₀ (F := F)) 𝒱₀ (V d cC cJ) none) Set.univ (body k ()) fun _ => scatRes d cC cJ mW mM base up fw fm (SpecF.stepClr z mr k.val g)) :
    scatRes d cC cJ mW mM base up fw fm blk
      ⊢ wp frame (wpE (defs₀ (F := F)) 𝒱₀ (V d cC cJ) none) Set.univ (Scf.Loop.for lp ok () body) fun _ => scatRes d cC cJ mW mM base up fw fm (SpecF.foldClr z mr 64 blk) :=
  scat_loop d cC cJ mW mM base up fw fm (SpecF.stepClr z mr) (fun n => SpecF.foldClr z mr n blk) (fun _ => rfl) lp ok htr body h

variable (fw' : (⟨2, ![N, 128]⟩ : Shape).Idx → Elt F .f32) (fm' : (⟨2, ![N, 128]⟩ : Shape).Idx → BitVec 32)
variable (hW : ∀ lr : LoadRect ⟨2, ![N, 128]⟩, mW.view.readAt (Elt F) lr fw = fun y => fw' (lr.idx y))
variable (hM : ∀ lr : LoadRect ⟨2, ![N, 128]⟩, mM.view.readAt (Elt F) lr fm = fun y => fm' (lr.idx y))
variable (hfm : ∀ j, (fm' j).toNat < 4096) (hB : WholeBlk d cC cJ base up) (b : ℕ) (hb : 8 * b + 8 ≤ N)

include hW hM hfm hB

/-- One accumulating trip is the accumulating step of the fold. -/
theorem tripAdd (n : ℕ) (hn : n < 64) (g : Vec F S8x4096 .f32) (off : Fin 2 → Nat) (inb : ∀ a, off a + S1x16.size a ≤ (⟨2, ![N, 128]⟩ : Shape).size a)
    (hoff : off = ![8 * b + n / 8, 16 * (n % 8)])
    {hlM : mM.view.LoadsAt (Rect.unit (s := ⟨2, ![N, 128]⟩) off S1x16.size inb).toLoadRect} {hlW : mW.view.LoadsAt (Rect.unit (s := ⟨2, ![N, 128]⟩) off S1x16.size inb).toLoadRect}
    (dec : ∀ a b : IVec S16 32, Decidable (∀ i x, ((![a, b] : Fin 2 → IVec S16 32) i x).toNat < S8x4096.size i))
    {hs : (base.access (.whole S8x4096)).Stores Finset.univ} :
    scatRes d cC cJ mW mM base up fw fm g
      ⊢ wp frame (wpE (defs₀ (F := F)) 𝒱₀ (V d cC cJ) none) Set.univ
          (Prog.op (.load mM (Rect.unit (s := ⟨2, ![N, 128]⟩) off S1x16.size inb).toLoadRect hlM) fun v =>
            Prog.op (.assume (∀ i x, ((![broadcast S16 (rowWord n), shapeCast S16 v shapeCasts_S1x16_S16] : Fin 2 → IVec S16 32) i x).toNat < S8x4096.size i) (dec _ _)) fun hw =>
              Prog.op (.load mW (Rect.unit (s := ⟨2, ![N, 128]⟩) off S1x16.size inb).toLoadRect hlW) fun w =>
                SparseCore.vectorStoreIdx base ![broadcast S16 (rowWord n), shapeCast S16 v shapeCasts_S1x16_S16] (shapeCast S16 w shapeCasts_S1x16_S16) (fun _ => 1#1) true hw.down hs >>= fun _ => Prog.ret ())
          fun _ => scatRes d cC cJ mW mM base up fw fm (SpecF.stepAdd (rows fw' b hb) (rows fm' b hb) n g) := by
  have ⟨hrow, hidx, hval, hchk⟩ := scat_facts fw' fm' hfm b hb n hn off inb hoff _ _
    (hM (Rect.unit (s := ⟨2, ![N, 128]⟩) off S1x16.size inb).toLoadRect) (hW (Rect.unit (s := ⟨2, ![N, 128]⟩) off S1x16.size inb).toLoadRect)
  iintro ⟨Hb, Hw, Hm⟩
  iapply (wp_load 𝒱₀ (V d cC cJ) none Set.univ (m := mM) (S := Finset.univ) (Finset.subset_univ _)) $$ Hm; iintro Hm
  rw [wp_assume_of _ _ _ _ hchk]
  iapply (wp_load 𝒱₀ (V d cC cJ) none Set.univ (m := mW) (S := Finset.univ) (Finset.subset_univ _)) $$ Hw; iintro Hw
  ihave Hb := (Entails.of_eq (show (base.view.loc (V d cC cJ) ↦{fullShare} up g : sProp 𝕄)
    = ((base.access (.whole S8x4096)).loc (V d cC cJ) ↦[(base.access (.whole S8x4096)).set]{fullShare} up g) by rw [hB.set])) $$ Hb
  iapply (SparseCore.wp_vectorStoreIdx 𝒱₀ (V d cC cJ) none Set.univ (base := base)) $$ Hb; iintro Hb
  rw [wp_ret]
  imodintro
  rw [hB.read, hB.write, hB.set, SpecF.storeIdx_eq_stepAdd (rows fw' b hb) (rows fm' b hb) n hn g _ _ _ _ hrow hidx hval]
  isplitl [Hb]; · iexact Hb
  isplitl [Hw]; · iexact Hw
  iexact Hm

/-- One overwriting trip is the overwriting step of the fold. -/
theorem tripClr (z : Elt F .f32) (n : ℕ) (hn : n < 64) (g : Vec F S8x4096 .f32) (off : Fin 2 → Nat) (inb : ∀ a, off a + S1x16.size a ≤ (⟨2, ![N, 128]⟩ : Shape).size a)
    (hoff : off = ![8 * b + n / 8, 16 * (n % 8)])
    {hlM : mM.view.LoadsAt (Rect.unit (s := ⟨2, ![N, 128]⟩) off S1x16.size inb).toLoadRect}
    (dec : ∀ a b : IVec S16 32, Decidable (∀ i x, ((![a, b] : Fin 2 → IVec S16 32) i x).toNat < S8x4096.size i))
    {hs : (base.access (.whole S8x4096)).Stores Finset.univ} :
    scatRes d cC cJ mW mM base up fw fm g
      ⊢ wp frame (wpE (defs₀ (F := F)) 𝒱₀ (V d cC cJ) none) Set.univ
          (Prog.op (.load mM (Rect.unit (s := ⟨2, ![N, 128]⟩) off S1x16.size inb).toLoadRect hlM) fun v =>
            Prog.op (.assume (∀ i x, ((![broadcast S16 (rowWord n), shapeCast S16 v shapeCasts_S1x16_S16] : Fin 2 → IVec S16 32) i x).toNat < S8x4096.size i) (dec _ _)) fun hw =>
              SparseCore.vectorStoreIdx base ![broadcast S16 (rowWord n), shapeCast S16 v shapeCasts_S1x16_S16] (fun _ => z) (fun _ => 1#1) false hw.down hs >>= fun _ => Prog.ret ())
          fun _ => scatRes d cC cJ mW mM base up fw fm (SpecF.stepClr z (rows fm' b hb) n g) := by
  have ⟨hrow, hidx, _, hchk⟩ := scat_facts fw' fm' hfm b hb n hn off inb hoff _ _
    (hM (Rect.unit (s := ⟨2, ![N, 128]⟩) off S1x16.size inb).toLoadRect) rfl
  iintro ⟨Hb, Hw, Hm⟩
  iapply (wp_load 𝒱₀ (V d cC cJ) none Set.univ (m := mM) (S := Finset.univ) (Finset.subset_univ _)) $$ Hm; iintro Hm
  rw [wp_assume_of _ _ _ _ hchk]
  ihave Hb := (Entails.of_eq (show (base.view.loc (V d cC cJ) ↦{fullShare} up g : sProp 𝕄)
    = ((base.access (.whole S8x4096)).loc (V d cC cJ) ↦[(base.access (.whole S8x4096)).set]{fullShare} up g) by rw [hB.set])) $$ Hb
  iapply (SparseCore.wp_vectorStoreIdx 𝒱₀ (V d cC cJ) none Set.univ (base := base)) $$ Hb; iintro Hb
  rw [wp_ret]
  imodintro
  rw [hB.read, hB.write, hB.set, SpecF.storeIdx_eq_stepClr z (rows fm' b hb) n hn g _ _ _ _ hrow hidx (fun _ => rfl)]
  isplitl [Hb]; · iexact Hb
  isplitl [Hw]; · iexact Hw
  iexact Hm

end Wp

end Cert.Proof.KI

end
-- ==== Proof.KI.Tile0Defs.lean ====
import proofs.«207445_g73023033966933_cont_9to1_m_863_36_alg».proof.Proof.KI.Common
import proofs.«207445_g73023033966933_cont_9to1_m_863_36_alg».proof.Proof.SpecF
import proofs.«207445_g73023033966933_cont_9to1_m_863_36_alg».proof.Proof.KI.Scatter

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "wV" => (Memref.whole Cert.KernelIdeal.main_arg1_scv : Memref Cert.KernelIdeal.sig Kind.scVector Space.hbm Cert.KernelIdeal.S4096x128 EltTy.f32)
local notation "mV" => (Memref.whole Cert.KernelIdeal.main_arg2_scv : Memref Cert.KernelIdeal.sig Kind.scVector Space.hbm Cert.KernelIdeal.S4096x128 EltTy.i32)
local notation "dV" => (Memref.whole Cert.KernelIdeal.main_v1_scv : Memref Cert.KernelIdeal.sig Kind.scVector Space.hbm Cert.KernelIdeal.S1536x4096 EltTy.f32)
local notation "bA" => (Memref.whole Cert.KernelIdeal.cc0_scratch0 : Memref Cert.KernelIdeal.sig Kind.scVector Space.vmem Cert.KernelIdeal.S8x4096 EltTy.f32)
local notation "bB" => (Memref.whole Cert.KernelIdeal.cc0_scratch1 : Memref Cert.KernelIdeal.sig Kind.scVector Space.vmem Cert.KernelIdeal.S8x4096 EltTy.f32)
local notation "sW" => (Memref.whole Cert.KernelIdeal.cc0_scratch2 : Memref Cert.KernelIdeal.sig Kind.scVector Space.vmem Cert.KernelIdeal.S48x128 EltTy.f32)
local notation "sM" => (Memref.whole Cert.KernelIdeal.cc0_scratch3 : Memref Cert.KernelIdeal.sig Kind.scVector Space.vmem Cert.KernelIdeal.S48x128 EltTy.i32)

abbrev cV (L : grid0.Coords) : Fin τ.nSC := (L 0).castLE hcore0
abbrev jV (L : grid0.Coords) : Fin τ.nSub := (L 1).castLE hsub0

abbrev t0_wRows (L : grid0.Coords) : Memref sig .scVector .hbm S48x128 .f32 :=
  (wV).slice (Rect.unit (s := S4096x128) (k0_off1 L) S48x128.size (k0_off1_inb L)) (fun _ => rfl)
abbrev t0_mRows (L : grid0.Coords) : Memref sig .scVector .hbm S48x128 .i32 :=
  (mV).slice (Rect.unit (s := S4096x128) (k0_off1 L) S48x128.size (k0_off1_inb L)) (fun _ => rfl)

abbrev t0_piece0 (L : grid0.Coords) : Memref sig .scVector .hbm S8x4096 .f32 :=
  (dV).slice (Rect.unit (s := S1536x4096) (k0_off5 L 0#32) S8x4096.size (k0_off5_inb L 0)) (fun _ => rfl)
abbrev t0_piece1 (L : grid0.Coords) : Memref sig .scVector .hbm S8x4096 .f32 :=
  (dV).slice (Rect.unit (s := S1536x4096) (k0_off5 L 8#32) S8x4096.size (k0_off5_inb L 1)) (fun _ => rfl)
abbrev t0_piece2 (L : grid0.Coords) : Memref sig .scVector .hbm S8x4096 .f32 :=
  (dV).slice (Rect.unit (s := S1536x4096) (k0_off5 L 16#32) S8x4096.size (k0_off5_inb L 2)) (fun _ => rfl)
abbrev t0_piece3 (L : grid0.Coords) : Memref sig .scVector .hbm S8x4096 .f32 :=
  (dV).slice (Rect.unit (s := S1536x4096) (k0_off5 L 24#32) S8x4096.size (k0_off5_inb L 3)) (fun _ => rfl)
abbrev t0_piece4 (L : grid0.Coords) : Memref sig .scVector .hbm S8x4096 .f32 :=
  (dV).slice (Rect.unit (s := S1536x4096) (k0_off5 L 32#32) S8x4096.size (k0_off5_inb L 4)) (fun _ => rfl)
abbrev t0_piece5 (L : grid0.Coords) : Memref sig .scVector .hbm S8x4096 .f32 :=
  (dV).slice (Rect.unit (s := S1536x4096) (k0_off5 L 40#32) S8x4096.size (k0_off5_inb L 5)) (fun _ => rfl)

variable [FloatOps F]

def t0_z : Elt F .f32 := (Scalar.ofBits .f32 0x00000000#32 : F .f32)

def t0_wr (fw : Vec F S48x128 .f32) (sb : Fin 6) : Fin 8 → Fin 128 → Elt F .f32 :=
  fun r k => fw (ValueIdx.ix2 (⟨8 * sb.val + r.val, by have := sb.isLt; have := r.isLt; omega⟩ : Fin 48) k)
def t0_mr (fm : IVec S48x128 32) (sb : Fin 6) : Fin 8 → Fin 128 → BitVec 32 :=
  fun r k => fm (ValueIdx.ix2 (⟨8 * sb.val + r.val, by have := sb.isLt; have := r.isLt; omega⟩ : Fin 48) k)

def t0_blk (fw : Vec F S48x128 .f32) (fm : IVec S48x128 32) (sb : Fin 6) : Vec F S8x4096 .f32 :=
  SpecF.foldAdd (t0_wr fw sb) (t0_mr fm sb) 64 (fun _ => t0_z)

variable (m : (ℓ : Loc nD τ sig) → Buf (Elt F) ℓ)

def t0_fw (d : Dev nD) (L : grid0.Coords) : Vec F S48x128 .f32 := (t0_wRows L).view.read (Elt F) (m (wLoc d))
def t0_fm (d : Dev nD) (L : grid0.Coords) : IVec S48x128 32 := (t0_mRows L).view.read (Elt F) (m (mLoc d))

def t0_tail (i : grid0.Coords) (arg2 : Memref sig .scVector .hbm S4096x128 .f32) (harg2 : arg2.IsWhole) (arg3 : Memref sig .scVector .hbm S4096x128 .i32) (harg3 : arg3.IsWhole) (arg4 : Memref sig .scVector .hbm S1536x4096 .f32) (harg4 : arg4.IsWhole) (arg5 : Memref sig .scVector .vmem S8x4096 .f32) (harg5 : arg5.IsWhole) (arg6 : Memref sig .scVector .vmem S8x4096 .f32) (harg6 : arg6.IsWhole) (arg7 : Memref sig .scVector .vmem S48x128 .f32) (harg7 : arg7.IsWhole) (arg8 : Memref sig .scVector .vmem S48x128 .i32) (harg8 : arg8.IsWhole) (arg9 : DmaSems sig S_) (arg10 : DmaSems sig S_) (v65_r0 : DmaSems sig S_) (v65_r1 : DmaSems sig S_) (v4 : FVec F S16 .f32) :
    Prog (TpuEff nD τ sig (Elt F) Λ₀ (.scVector ((i 0).castLE hcore0) ((i 1).castLE hsub0))) PUnit := do
  let v50 : Memref sig .scVector .hbm S8x4096 .f32 := arg4.slice (Rect.unit (s := S1536x4096) (k0_off5 i 24#32) S8x4096.size (k0_off5_inb i 3)) (fun _ => rfl)
  Prog.lift (.waitDma2 arg10.sem arg6 v50 harg6.wordExact (View.wordExact_bits rfl))
  Scf.Loop.for k0_t13_loop k0_t13_ok ⟨⟩ (k0_t13_body i arg2 harg2 arg3 harg3 arg4 harg4 arg5 harg5 arg6 harg6 arg7 harg7 arg8 harg8 arg9 arg10 v65_r0 v65_r1 v4)
  Scf.Loop.for k0_t14_loop k0_t14_ok ⟨⟩ (k0_t14_body i arg2 harg2 arg3 harg3 arg4 harg4 arg5 harg5 arg6 harg6 arg7 harg7 arg8 harg8 arg9 arg10 v65_r0 v65_r1)
  let v56 : Memref sig .scVector .hbm S8x4096 .f32 := arg4.slice (Rect.unit (s := S1536x4096) (k0_off5 i 40#32) S8x4096.size (k0_off5_inb i 5)) (fun _ => rfl)
  Prog.lift (.enqueueDma arg6 (.here v56) (.dma arg10.sem) harg6.wordExact (View.wordExact_bits rfl) ⟨Or.inl rfl, trivial⟩)
  let v60 : Memref sig .scVector .hbm S8x4096 .f32 := arg4.slice (Rect.unit (s := S1536x4096) (k0_off5 i 32#32) S8x4096.size (k0_off5_inb i 4)) (fun _ => rfl)
  Prog.lift (.waitDma2 arg9.sem arg5 v60 harg5.wordExact (View.wordExact_bits rfl))
  let v64 : Memref sig .scVector .hbm S8x4096 .f32 := arg4.slice (Rect.unit (s := S1536x4096) (k0_off5 i 40#32) S8x4096.size (k0_off5_inb i 5)) (fun _ => rfl)
  Prog.lift (.waitDma2 arg10.sem arg6 v64 harg6.wordExact (View.wordExact_bits rfl))
  pure ⟨⟩

section Tile

variable (d : Dev nD) (L : grid0.Coords)

local notation "THR" => V d (cV L) (jV L)
local notation "WP" => wp frame (wpE (defs₀ (F := F)) 𝒱₀ (V d (cV L) (jV L)) none) Set.univ
local notation "AT[" f "]" => f L (wV) (Memref.isWhole_whole _) (mV) (Memref.isWhole_whole _) (dV) (Memref.isWhole_whole _) (bA) (Memref.isWhole_whole _) (bB) (Memref.isWhole_whole _) (sW) (Memref.isWhole_whole _) (sM) (Memref.isWhole_whole _) cc0_scratch4 cc0_scratch5 cc0_scoped0 cc0_scoped1

abbrev t0_cA : GSem nD τ sig := (V d (cV L) (jV L), .dma cc0_scratch4.sem)
abbrev t0_cB : GSem nD τ sig := (V d (cV L) (jV L), .dma cc0_scratch5.sem)
abbrev t0_cW : GSem nD τ sig := (V d (cV L) (jV L), .dma cc0_scoped0.sem)
abbrev t0_cM : GSem nD τ sig := (V d (cV L) (jV L), .dma cc0_scoped1.sem)

abbrev t0_own {sp : Space} {s : Shape} {e : EltTy} (M : Memref sig .scVector sp s e) (q : PosShare TreeShare)
    (f : Buf (Elt F) (M.view.loc (V d (cV L) (jV L)))) : sProp 𝕄 :=
  M.view.loc (V d (cV L) (jV L)) ↦[M.view.set]{q} f

abbrev t0_landed (P : Memref sig .scVector .hbm S8x4096 .f32) (B : Memref sig .scVector .vmem S8x4096 .f32)
    (g : Buf (Elt F) (P.view.loc (V d (cV L) (jV L)))) (blk : Buf (Elt F) (B.view.loc (V d (cV L) (jV L)))) :
    Buf (Elt F) (P.view.loc (V d (cV L) (jV L))) :=
  P.view.writes (Elt F) g [⟨Rect.whole S8x4096, ReadAs.same.apply (B.view.read (Elt F) blk)⟩]

abbrev t0_flight (sem : DmaSem sig) (P : Memref sig .scVector .hbm S8x4096 .f32) (B : Memref sig .scVector .vmem S8x4096 .f32)
    (g : Buf (Elt F) (P.view.loc (V d (cV L) (jV L)))) (blk : Buf (Elt F) (B.view.loc (V d (cV L) (jV L)))) : sProp 𝕄 :=
  Transfers.Flight (countersEmb (U := UU)) (V d (cV L) (jV L)) (SemLoc.dma sem) (default : HIx 2) 1048576
    iprop(t0_own d L P fullShare (t0_landed d L P B g blk) ∗ t0_own d L B fullShare blk)

def t0_fix (qw qm : PosShare TreeShare) (fw : Vec F S48x128 .f32) (fm : IVec S48x128 32) : sProp 𝕄 :=
  iprop(((wV).view.loc THR ↦{qw} m (wLoc d)) ∗ ((mV).view.loc THR ↦{qm} m (mLoc d))
    ∗ ((sW).view.loc THR ↦{fullShare} fw) ∗ ((sM).view.loc THR ↦{fullShare} fm)
    ∗ semVal (t0_cW d L) 0 ∗ semVal (t0_cM d L) 0)

theorem t0_seq {α β : Type} (p : Prog (TpuEff nD τ sig (Elt F) Λ₀ (.scVector (cV L) (jV L))) α)
    (k : α → Prog (TpuEff nD τ sig (Elt F) Λ₀ (.scVector (cV L) (jV L))) β) (P : sProp 𝕄) (Q : α → sProp 𝕄) (Φ : β → sProp 𝕄)
    (hp : P ⊢ WP p Q) : iprop(P ∗ (∀ a, Q a -∗ WP (k a) Φ)) ⊢ WP (p >>= k) Φ := by
  rw [wp_bind]
  exact (BI.sep_mono_l hp).trans (wp_wand_r frame _ _)

omit [FloatOps F] in

theorem t0_own_whole (b : Ref sig .scVector) (q : PosShare TreeShare) (f : Buf (Elt F) ((V d (cV L) (jV L)).loc b)) :
    ((Memref.whole b).view.loc THR ↦[(Memref.whole b).view.set]{q} f : sProp 𝕄) = ((Memref.whole b).view.loc THR ↦{q} f) := by
  simp only [Memref.view_whole, View.set_whole]

abbrev t0_rows (o : Fin 2 → Nat) (ho : ∀ a, o a + S8x4096.size a ≤ S1536x4096.size a) : Memref sig .scVector .hbm S8x4096 .f32 :=
  (dV).slice (Rect.unit (s := S1536x4096) o S8x4096.size ho) (fun _ => rfl)

omit [FloatOps F] in

theorem t0_land_eq (o : Fin 2 → Nat) (ho : ∀ a, o a + S8x4096.size a ≤ S1536x4096.size a)
    (g G : Buf (Elt F) (d0Loc d)) (w : S8x4096.Idx → Elt F .f32)
    (h : ∀ y, G ((t0_rows o ho).view.emb y) = w y) :
    (t0_own d L (t0_rows o ho) fullShare ((t0_rows o ho).view.writes (Elt F) g [⟨Rect.whole S8x4096, w⟩]) : sProp 𝕄)
      = t0_own d L (t0_rows o ho) fullShare G := by
  apply pointsTo_congr
  intro i hi
  obtain ⟨y, -, rfl⟩ := Finset.mem_map.mp hi
  have e := congrFun (View.write_univ_eq_writes_whole (Val := Elt F) (t0_rows o ho).view g [] w) ((t0_rows o ho).view.emb y)
  rw [View.writes_nil, View.write_emb_of_mem _ _ (Finset.mem_univ _)] at e
  exact e.symm.trans (by rw [h y]; rfl)

theorem t0_wholeA : WholeBlk (F := F) d (cV L) (jV L) (bA) (fun g => g) :=
  ⟨Memref.set_access_whole cc0_scratch0, Memref.read_access_whole (Elt F) cc0_scratch0, Memref.write_access_whole_univ (Elt F) cc0_scratch0⟩
theorem t0_wholeB : WholeBlk (F := F) d (cV L) (jV L) (bB) (fun g => g) :=
  ⟨Memref.set_access_whole cc0_scratch1, Memref.read_access_whole (Elt F) cc0_scratch1, Memref.write_access_whole_univ (Elt F) cc0_scratch1⟩

section Loops

variable (fw : Vec F S48x128 .f32) (fm : IVec S48x128 32)
variable (v1 : BitVec 32) (v4 : FVec F S16 .f32) (c0 : BitVec 32)

theorem t0_loop_t5 (hfm : ∀ i, (fm i).toNat < 4096) (blk : Vec F S8x4096 .f32) :
    (iprop(((bA).view.loc THR ↦{fullShare} blk) ∗ ((sW).view.loc THR ↦{fullShare} fw) ∗ ((sM).view.loc THR ↦{fullShare} fm)) : sProp 𝕄)
      ⊢ WP (Scf.Loop.for k0_t5_loop k0_t5_ok ⟨⟩ (AT[k0_t5_body])) fun _ => iprop(((bA).view.loc THR ↦{fullShare} SpecF.foldAdd (t0_wr fw 0) (t0_mr fm 0) 64 blk)
          ∗ ((sW).view.loc THR ↦{fullShare} fw) ∗ ((sM).view.loc THR ↦{fullShare} fm)) :=
  scat_loopAdd d _ _ (sW) (sM) (bA) (fun g => g) fw fm _ _ blk k0_t5_loop k0_t5_ok (by decide) _ fun k hk g => by
    unfold k0_t5_body k0_part1
    simp only [Prog.lift, Prog.bind_op, Prog.bind_ret, Prog.pure_eq_ret]
    exact tripAdd d _ _ (sW) (sM) (bA) (fun g => g) fw fm fw fm (fun _ => rfl) (fun _ => rfl) hfm (t0_wholeA d L) 0 (by decide) k.val hk g _ _ ((by decide +kernel : ∀ k : Fin k0_t5_loop.trips, k0_off4 k = ![8 * 0 + k.val / 8, 16 * (k.val % 8)]) k) k0_chk1.dec

theorem t0_loop_t6 (hfm : ∀ i, (fm i).toNat < 4096) (blk : Vec F S8x4096 .f32) :
    (iprop(((bB).view.loc THR ↦{fullShare} blk) ∗ ((sW).view.loc THR ↦{fullShare} fw) ∗ ((sM).view.loc THR ↦{fullShare} fm)) : sProp 𝕄)
      ⊢ WP (Scf.Loop.for k0_t6_loop k0_t6_ok ⟨⟩ (AT[k0_t6_body] v1 v4)) fun _ => iprop(((bB).view.loc THR ↦{fullShare} SpecF.foldAdd (t0_wr fw 1) (t0_mr fm 1) 64 blk)
          ∗ ((sW).view.loc THR ↦{fullShare} fw) ∗ ((sM).view.loc THR ↦{fullShare} fm)) :=
  scat_loopAdd d _ _ (sW) (sM) (bB) (fun g => g) fw fm _ _ blk k0_t6_loop k0_t6_ok (by decide) _ fun k hk g => by
    unfold k0_t6_body k0_part2
    simp only [Prog.lift, Prog.bind_op, Prog.bind_ret, Prog.pure_eq_ret]
    exact tripAdd d _ _ (sW) (sM) (bB) (fun g => g) fw fm fw fm (fun _ => rfl) (fun _ => rfl) hfm (t0_wholeB d L) 1 (by decide) k.val hk g _ _ ((by decide +kernel : ∀ k : Fin k0_t6_loop.trips, k0_off6 k = ![8 * 1 + k.val / 8, 16 * (k.val % 8)]) k) k0_chk2.dec

theorem t0_loop_t7 (hfm : ∀ i, (fm i).toNat < 4096) (blk : Vec F S8x4096 .f32) :
    (iprop(((bA).view.loc THR ↦{fullShare} blk) ∗ ((sW).view.loc THR ↦{fullShare} fw) ∗ ((sM).view.loc THR ↦{fullShare} fm)) : sProp 𝕄)
      ⊢ WP (Scf.Loop.for k0_t7_loop k0_t7_ok ⟨⟩ (AT[k0_t7_body] v1 (fun _ => t0_z))) fun _ => iprop(((bA).view.loc THR ↦{fullShare} SpecF.foldClr t0_z (t0_mr fm 0) 64 blk)
          ∗ ((sW).view.loc THR ↦{fullShare} fw) ∗ ((sM).view.loc THR ↦{fullShare} fm)) :=
  scat_loopClr d _ _ (sW) (sM) (bA) (fun g => g) fw fm _ _ blk k0_t7_loop k0_t7_ok (by decide) _ fun k hk g => by
    unfold k0_t7_body k0_part3
    simp only [Prog.lift, Prog.bind_op, Prog.bind_ret, Prog.pure_eq_ret]
    exact tripClr d _ _ (sW) (sM) (bA) (fun g => g) fw fm fw fm (fun _ => rfl) (fun _ => rfl) hfm (t0_wholeA d L) 0 (by decide) _ k.val hk g _ _ ((by decide +kernel : ∀ k : Fin k0_t7_loop.trips, k0_off7 k = ![8 * 0 + k.val / 8, 16 * (k.val % 8)]) k) k0_chk3.dec

theorem t0_loop_t8 (hfm : ∀ i, (fm i).toNat < 4096) (blk : Vec F S8x4096 .f32) :
    (iprop(((bA).view.loc THR ↦{fullShare} blk) ∗ ((sW).view.loc THR ↦{fullShare} fw) ∗ ((sM).view.loc THR ↦{fullShare} fm)) : sProp 𝕄)
      ⊢ WP (Scf.Loop.for k0_t8_loop k0_t8_ok ⟨⟩ (AT[k0_t8_body] v1 v4)) fun _ => iprop(((bA).view.loc THR ↦{fullShare} SpecF.foldAdd (t0_wr fw 2) (t0_mr fm 2) 64 blk)
          ∗ ((sW).view.loc THR ↦{fullShare} fw) ∗ ((sM).view.loc THR ↦{fullShare} fm)) :=
  scat_loopAdd d _ _ (sW) (sM) (bA) (fun g => g) fw fm _ _ blk k0_t8_loop k0_t8_ok (by decide) _ fun k hk g => by
    unfold k0_t8_body k0_part4
    simp only [Prog.lift, Prog.bind_op, Prog.bind_ret, Prog.pure_eq_ret]
    exact tripAdd d _ _ (sW) (sM) (bA) (fun g => g) fw fm fw fm (fun _ => rfl) (fun _ => rfl) hfm (t0_wholeA d L) 2 (by decide) k.val hk g _ _ ((by decide +kernel : ∀ k : Fin k0_t8_loop.trips, k0_off8 k = ![8 * 2 + k.val / 8, 16 * (k.val % 8)]) k) k0_chk4.dec

theorem t0_loop_t9 (hfm : ∀ i, (fm i).toNat < 4096) (blk : Vec F S8x4096 .f32) :
    (iprop(((bB).view.loc THR ↦{fullShare} blk) ∗ ((sW).view.loc THR ↦{fullShare} fw) ∗ ((sM).view.loc THR ↦{fullShare} fm)) : sProp 𝕄)
      ⊢ WP (Scf.Loop.for k0_t9_loop k0_t9_ok ⟨⟩ (AT[k0_t9_body] v1 (fun _ => t0_z) 0#32)) fun _ => iprop(((bB).view.loc THR ↦{fullShare} SpecF.foldClr t0_z (t0_mr fm 1) 64 blk)
          ∗ ((sW).view.loc THR ↦{fullShare} fw) ∗ ((sM).view.loc THR ↦{fullShare} fm)) :=
  scat_loopClr d _ _ (sW) (sM) (bB) (fun g => g) fw fm _ _ blk k0_t9_loop k0_t9_ok (by decide) _ fun k hk g => by
    unfold k0_t9_body k0_part5
    simp only [Prog.lift, Prog.bind_op, Prog.bind_ret, Prog.pure_eq_ret]
    exact tripClr d _ _ (sW) (sM) (bB) (fun g => g) fw fm fw fm (fun _ => rfl) (fun _ => rfl) hfm (t0_wholeB d L) 1 (by decide) _ k.val hk g _ _ ((by decide +kernel : ∀ k : Fin k0_t9_loop.trips, k0_off9 k = ![8 * 1 + k.val / 8, 16 * (k.val % 8)]) k) k0_chk5.dec

theorem t0_loop_t10 (hfm : ∀ i, (fm i).toNat < 4096) (blk : Vec F S8x4096 .f32) :
    (iprop(((bB).view.loc THR ↦{fullShare} blk) ∗ ((sW).view.loc THR ↦{fullShare} fw) ∗ ((sM).view.loc THR ↦{fullShare} fm)) : sProp 𝕄)
      ⊢ WP (Scf.Loop.for k0_t10_loop k0_t10_ok ⟨⟩ (AT[k0_t10_body] v1 v4 c0)) fun _ => iprop(((bB).view.loc THR ↦{fullShare} SpecF.foldAdd (t0_wr fw 3) (t0_mr fm 3) 64 blk)
          ∗ ((sW).view.loc THR ↦{fullShare} fw) ∗ ((sM).view.loc THR ↦{fullShare} fm)) :=
  scat_loopAdd d _ _ (sW) (sM) (bB) (fun g => g) fw fm _ _ blk k0_t10_loop k0_t10_ok (by decide) _ fun k hk g => by
    unfold k0_t10_body k0_part6
    simp only [Prog.lift, Prog.bind_op, Prog.bind_ret, Prog.pure_eq_ret]
    exact tripAdd d _ _ (sW) (sM) (bB) (fun g => g) fw fm fw fm (fun _ => rfl) (fun _ => rfl) hfm (t0_wholeB d L) 3 (by decide) k.val hk g _ _ ((by decide +kernel : ∀ k : Fin k0_t10_loop.trips, k0_off10 k = ![8 * 3 + k.val / 8, 16 * (k.val % 8)]) k) k0_chk6.dec

theorem t0_loop_t11 (hfm : ∀ i, (fm i).toNat < 4096) (blk : Vec F S8x4096 .f32) :
    (iprop(((bA).view.loc THR ↦{fullShare} blk) ∗ ((sW).view.loc THR ↦{fullShare} fw) ∗ ((sM).view.loc THR ↦{fullShare} fm)) : sProp 𝕄)
      ⊢ WP (Scf.Loop.for k0_t11_loop k0_t11_ok ⟨⟩ (AT[k0_t11_body] v1 (fun _ => t0_z) c0)) fun _ => iprop(((bA).view.loc THR ↦{fullShare} SpecF.foldClr t0_z (t0_mr fm 2) 64 blk)
          ∗ ((sW).view.loc THR ↦{fullShare} fw) ∗ ((sM).view.loc THR ↦{fullShare} fm)) :=
  scat_loopClr d _ _ (sW) (sM) (bA) (fun g => g) fw fm _ _ blk k0_t11_loop k0_t11_ok (by decide) _ fun k hk g => by
    unfold k0_t11_body k0_part7
    simp only [Prog.lift, Prog.bind_op, Prog.bind_ret, Prog.pure_eq_ret]
    exact tripClr d _ _ (sW) (sM) (bA) (fun g => g) fw fm fw fm (fun _ => rfl) (fun _ => rfl) hfm (t0_wholeA d L) 2 (by decide) _ k.val hk g _ _ ((by decide +kernel : ∀ k : Fin k0_t11_loop.trips, k0_off11 k = ![8 * 2 + k.val / 8, 16 * (k.val % 8)]) k) k0_chk7.dec

theorem t0_loop_t12 (hfm : ∀ i, (fm i).toNat < 4096) (blk : Vec F S8x4096 .f32) :
    (iprop(((bA).view.loc THR ↦{fullShare} blk) ∗ ((sW).view.loc THR ↦{fullShare} fw) ∗ ((sM).view.loc THR ↦{fullShare} fm)) : sProp 𝕄)
      ⊢ WP (Scf.Loop.for k0_t12_loop k0_t12_ok ⟨⟩ (AT[k0_t12_body] v1 v4 c0)) fun _ => iprop(((bA).view.loc THR ↦{fullShare} SpecF.foldAdd (t0_wr fw 4) (t0_mr fm 4) 64 blk)
          ∗ ((sW).view.loc THR ↦{fullShare} fw) ∗ ((sM).view.loc THR ↦{fullShare} fm)) :=
  scat_loopAdd d _ _ (sW) (sM) (bA) (fun g => g) fw fm _ _ blk k0_t12_loop k0_t12_ok (by decide) _ fun k hk g => by
    unfold k0_t12_body k0_part8
    simp only [Prog.lift, Prog.bind_op, Prog.bind_ret, Prog.pure_eq_ret]
    exact tripAdd d _ _ (sW) (sM) (bA) (fun g => g) fw fm fw fm (fun _ => rfl) (fun _ => rfl) hfm (t0_wholeA d L) 4 (by decide) k.val hk g _ _ ((by decide +kernel : ∀ k : Fin k0_t12_loop.trips, k0_off12 k = ![8 * 4 + k.val / 8, 16 * (k.val % 8)]) k) k0_chk8.dec

theorem t0_loop_t13 (hfm : ∀ i, (fm i).toNat < 4096) (blk : Vec F S8x4096 .f32) :
    (iprop(((bB).view.loc THR ↦{fullShare} blk) ∗ ((sW).view.loc THR ↦{fullShare} fw) ∗ ((sM).view.loc THR ↦{fullShare} fm)) : sProp 𝕄)
      ⊢ WP (Scf.Loop.for k0_t13_loop k0_t13_ok ⟨⟩ (AT[k0_t13_body] (fun _ => t0_z))) fun _ => iprop(((bB).view.loc THR ↦{fullShare} SpecF.foldClr t0_z (t0_mr fm 3) 64 blk)
          ∗ ((sW).view.loc THR ↦{fullShare} fw) ∗ ((sM).view.loc THR ↦{fullShare} fm)) :=
  scat_loopClr d _ _ (sW) (sM) (bB) (fun g => g) fw fm _ _ blk k0_t13_loop k0_t13_ok (by decide) _ fun k hk g => by
    unfold k0_t13_body k0_part9
    simp only [Prog.lift, Prog.bind_op, Prog.bind_ret, Prog.pure_eq_ret]
    exact tripClr d _ _ (sW) (sM) (bB) (fun g => g) fw fm fw fm (fun _ => rfl) (fun _ => rfl) hfm (t0_wholeB d L) 3 (by decide) _ k.val hk g _ _ ((by decide +kernel : ∀ k : Fin k0_t13_loop.trips, k0_off13 k = ![8 * 3 + k.val / 8, 16 * (k.val % 8)]) k) k0_chk9.dec

theorem t0_loop_t14 (hfm : ∀ i, (fm i).toNat < 4096) (blk : Vec F S8x4096 .f32) :
    (iprop(((bB).view.loc THR ↦{fullShare} blk) ∗ ((sW).view.loc THR ↦{fullShare} fw) ∗ ((sM).view.loc THR ↦{fullShare} fm)) : sProp 𝕄)
      ⊢ WP (Scf.Loop.for k0_t14_loop k0_t14_ok ⟨⟩ (AT[k0_t14_body])) fun _ => iprop(((bB).view.loc THR ↦{fullShare} SpecF.foldAdd (t0_wr fw 5) (t0_mr fm 5) 64 blk)
          ∗ ((sW).view.loc THR ↦{fullShare} fw) ∗ ((sM).view.loc THR ↦{fullShare} fm)) :=
  scat_loopAdd d _ _ (sW) (sM) (bB) (fun g => g) fw fm _ _ blk k0_t14_loop k0_t14_ok (by decide) _ fun k hk g => by
    unfold k0_t14_body k0_part10
    simp only [Prog.lift, Prog.bind_op, Prog.bind_ret, Prog.pure_eq_ret]
    exact tripAdd d _ _ (sW) (sM) (bB) (fun g => g) fw fm fw fm (fun _ => rfl) (fun _ => rfl) hfm (t0_wholeB d L) 5 (by decide) k.val hk g _ _ ((by decide +kernel : ∀ k : Fin k0_t14_loop.trips, k0_off14 k = ![8 * 5 + k.val / 8, 16 * (k.val % 8)]) k) k0_chk10.dec

end Loops

def t0_GOK (fw : Vec F S48x128 .f32) (fm : IVec S48x128 32) (G0 : Buf (Elt F) (d0Loc d)) : Prop :=
  (∀ j, G0 ((t0_piece0 L).view.emb j) = t0_blk fw fm 0 j) ∧ (∀ j, G0 ((t0_piece1 L).view.emb j) = t0_blk fw fm 1 j)
  ∧ (∀ j, G0 ((t0_piece2 L).view.emb j) = t0_blk fw fm 2 j) ∧ (∀ j, G0 ((t0_piece3 L).view.emb j) = t0_blk fw fm 3 j)
  ∧ (∀ j, G0 ((t0_piece4 L).view.emb j) = t0_blk fw fm 4 j) ∧ (∀ j, G0 ((t0_piece5 L).view.emb j) = t0_blk fw fm 5 j)

theorem t0_root_eq :
    AT[cc0_densify_chunk0_skel (F := F)]
      = (AT[k0_part11] >>= fun r => AT[k0_part12] r.1 r.2 >>= fun c0 => AT[k0_part13] r.1 r.2 c0 >>= fun _ => AT[t0_tail] r.2) := by
  rfl

def T0Part11 : Prop :=
  ∀ (O : CellTallies nD τ sig (HIx 2)) (qw qm : PosShare TreeShare)
    (hpre : PreOK m) (hO : ∀ g, O g none = 0) (W : Waits sig (HIx 2)) (Φ : (Σ' (_ : BitVec 32), FVec F S16 .f32) → sProp 𝕄),
    iprop(levAts (K (F := F)).L (K (F := F)).lev
        ∗ ((wV).view.loc THR ↦{qw} m (wLoc d)) ∗ ((mV).view.loc THR ↦{qm} m (mLoc d))
        ∗ (∃ f, (bA).view.loc THR ↦{fullShare} f) ∗ (∃ f, (bB).view.loc THR ↦{fullShare} f)
        ∗ (∃ f, (sW).view.loc THR ↦{fullShare} f) ∗ (∃ f, (sM).view.loc THR ↦{fullShare} f)
        ∗ semVal (t0_cW d L) 0 ∗ semVal (t0_cM d L) 0 ∗ owes THR O W
        ∗ (∀ W', ⌜∀ p ∈ W', p ∈ W ∨ p.2 = none⌝ -∗ t0_fix m d L qw qm (t0_fw m d L) (t0_fm m d L)
            ∗ ((bA).view.loc THR ↦{fullShare} t0_blk (t0_fw m d L) (t0_fm m d L) 0) ∗ ((bB).view.loc THR ↦{fullShare} (fun _ => t0_z))
            ∗ owes THR O W' -∗ Φ ⟨Scalar.addi (Scalar.muli (BitVec.ofNat 32 (L 1).val) 2#32) (BitVec.ofNat 32 (L 0).val), k0_pay2⟩))
      ⊢ WP (AT[k0_part11]) Φ

def T0Part12 : Prop :=
  ∀ (O : CellTallies nD τ sig (HIx 2)) (qw qm : PosShare TreeShare)
    (fw : Vec F S48x128 .f32) (fm : IVec S48x128 32) (G0 : Buf (Elt F) (d0Loc d))
    (hO : ∀ g, O g none = 0) (hfm : ∀ i, (fm i).toNat < 4096) (hG : t0_GOK d L fw fm G0) (W : Waits sig (HIx 2)) (v1 : BitVec 32)
    (g0 : Buf (Elt F) ((t0_piece0 L).view.loc THR)) (g1 : Buf (Elt F) ((t0_piece1 L).view.loc THR)) (g2 : Buf (Elt F) ((t0_piece2 L).view.loc THR))
    (Φ : BitVec 32 → sProp 𝕄),
    iprop(levAts (K (F := F)).L (K (F := F)).lev ∗ t0_fix m d L qw qm fw fm
        ∗ ((bA).view.loc THR ↦{fullShare} t0_blk fw fm 0) ∗ ((bB).view.loc THR ↦{fullShare} (fun _ => t0_z))
        ∗ semVal (t0_cA d L) 0 ∗ semVal (t0_cB d L) 0
        ∗ t0_own d L (t0_piece0 L) fullShare g0 ∗ t0_own d L (t0_piece1 L) fullShare g1 ∗ t0_own d L (t0_piece2 L) fullShare g2
        ∗ owes THR O W
        ∗ (∀ W', ⌜∀ p ∈ W', p ∈ W ∨ p.2 = none⌝ -∗ t0_fix m d L qw qm fw fm
            ∗ t0_own d L (t0_piece0 L) fullShare G0 ∗ t0_own d L (t0_piece1 L) fullShare G0
            ∗ t0_flight d L cc0_scratch4.sem (t0_piece2 L) (bA) g2 (t0_blk fw fm 2)
            ∗ ((bB).view.loc THR ↦{fullShare} t0_blk fw fm 1) ∗ semVal (t0_cB d L) 0
            ∗ owes THR O W' -∗ Φ 0#32))
      ⊢ WP (AT[k0_part12] v1 (fun _ => t0_z)) Φ

def T0Part13 : Prop :=
  ∀ (O : CellTallies nD τ sig (HIx 2)) (qw qm : PosShare TreeShare)
    (fw : Vec F S48x128 .f32) (fm : IVec S48x128 32) (G0 : Buf (Elt F) (d0Loc d))
    (hO : ∀ g, O g none = 0) (hfm : ∀ i, (fm i).toNat < 4096) (hG : t0_GOK d L fw fm G0) (W : Waits sig (HIx 2)) (v1 : BitVec 32)
    (g2 : Buf (Elt F) ((t0_piece2 L).view.loc THR)) (g3 : Buf (Elt F) ((t0_piece3 L).view.loc THR)) (g4 : Buf (Elt F) ((t0_piece4 L).view.loc THR))
    (Φ : PUnit → sProp 𝕄),
    iprop(levAts (K (F := F)).L (K (F := F)).lev ∗ t0_fix m d L qw qm fw fm
        ∗ t0_flight d L cc0_scratch4.sem (t0_piece2 L) (bA) g2 (t0_blk fw fm 2)
        ∗ ((bB).view.loc THR ↦{fullShare} t0_blk fw fm 1) ∗ semVal (t0_cB d L) 0
        ∗ t0_own d L (t0_piece3 L) fullShare g3 ∗ t0_own d L (t0_piece4 L) fullShare g4
        ∗ owes THR O W
        ∗ (∀ W', ⌜∀ p ∈ W', p ∈ W ∨ p.2 = none⌝ -∗ t0_fix m d L qw qm fw fm
            ∗ t0_own d L (t0_piece2 L) fullShare G0
            ∗ t0_flight d L cc0_scratch5.sem (t0_piece3 L) (bB) g3 (t0_blk fw fm 3)
            ∗ t0_flight d L cc0_scratch4.sem (t0_piece4 L) (bA) g4 (t0_blk fw fm 4)
            ∗ owes THR O W' -∗ Φ ⟨⟩))
      ⊢ WP (AT[k0_part13] v1 (fun _ => t0_z) 0#32) Φ

def T0Tail : Prop :=
  ∀ (O : CellTallies nD τ sig (HIx 2)) (qw qm : PosShare TreeShare)
    (fw : Vec F S48x128 .f32) (fm : IVec S48x128 32) (G0 : Buf (Elt F) (d0Loc d))
    (hO : ∀ g, O g none = 0) (hfm : ∀ i, (fm i).toNat < 4096) (hG : t0_GOK d L fw fm G0) (W : Waits sig (HIx 2))
    (g3 : Buf (Elt F) ((t0_piece3 L).view.loc THR)) (g4 : Buf (Elt F) ((t0_piece4 L).view.loc THR)) (g5 : Buf (Elt F) ((t0_piece5 L).view.loc THR))
    (Φ : PUnit → sProp 𝕄),
    iprop(levAts (K (F := F)).L (K (F := F)).lev ∗ t0_fix m d L qw qm fw fm
        ∗ t0_flight d L cc0_scratch5.sem (t0_piece3 L) (bB) g3 (t0_blk fw fm 3)
        ∗ t0_flight d L cc0_scratch4.sem (t0_piece4 L) (bA) g4 (t0_blk fw fm 4)
        ∗ t0_own d L (t0_piece5 L) fullShare g5
        ∗ owes THR O W
        ∗ (∀ W', ⌜∀ p ∈ W', p ∈ W ∨ p.2 = none⌝ -∗ t0_fix m d L qw qm fw fm
            ∗ t0_own d L (t0_piece3 L) fullShare G0 ∗ t0_own d L (t0_piece4 L) fullShare G0 ∗ t0_own d L (t0_piece5 L) fullShare G0
            ∗ (∃ f, (bA).view.loc THR ↦{fullShare} f) ∗ (∃ f, (bB).view.loc THR ↦{fullShare} f)
            ∗ semVal (t0_cA d L) 0 ∗ semVal (t0_cB d L) 0
            ∗ owes THR O W' -∗ Φ ⟨⟩))
      ⊢ WP (AT[t0_tail] (fun _ => t0_z)) Φ

end Tile

end Cert.Proof.KI

end
-- ==== Proof.KI.PieceValue.lean ====
import proofs.«207445_g73023033966933_cont_9to1_m_863_36_alg».proof.Proof.KI.Pay

noncomputable section

namespace Cert.Proof.KI

open Cert.KernelIdeal Cert.KernelIdeal.Gen

open Idealize.ShloMosaic
open Idealize.ShloMosaic.SparseCore (S V T)
open Idealize.ShloMosaic.ValueIdx

variable {F : FTy → Type} [FloatOps F]
variable (m : (ℓ : Loc nD τ sig) → Buf (Elt F) ℓ)

theorem row0_lt (L : grid0.Coords) (r : Fin 6) (a : Fin 8) :
    96 * (L 1).val + 48 * (L 0).val + 8 * r.val + a.val < 4096 := by
  have h1 : (L 1).val < 16 := (L 1).isLt
  have h0 : (L 0).val < 2 := (L 0).isLt
  have := r.isLt; have := a.isLt
  omega

theorem tileRow0_lt (L : grid0.Coords) (a : Fin 48) : 96 * (L 1).val + 48 * (L 0).val + a.val < 4096 := by
  have h1 : (L 1).val < 16 := (L 1).isLt
  have h0 : (L 0).val < 2 := (L 0).isLt
  have := a.isLt
  omega

theorem pieceM0_emb_row (L : grid0.Coords) (r : Fin 6) (y : S8x4096.Idx) :
    (((pieceM0 L r).view.emb y) 0).val = 96 * (L 1).val + 48 * (L 0).val + 8 * r.val + (y 0).val := by
  show (k0_off5 L (BitVec.ofNat 32 (8 * r.val))) 0 + 1 * (y 0).val = _
  rw [Gen.k0_off5_eq]
  show 96 * (L 1).val + 48 * (L 0).val + 8 * r.val + 1 * (y 0).val = _
  omega

theorem pieceM0_emb_col (L : grid0.Coords) (r : Fin 6) (y : S8x4096.Idx) :
    (((pieceM0 L r).view.emb y) 1).val = (y 1).val := by
  show (k0_off5 L (BitVec.ofNat 32 (8 * r.val))) 1 + 1 * (y 1).val = _
  rw [Gen.k0_off5_eq]
  show 0 + 1 * (y 1).val = _
  omega

theorem dense0_piece (d : Dev nD) (L : grid0.Coords) (r : Fin 6)
    (wr : Fin 8 → Fin 128 → Elt F .f32) (mr : Fin 8 → Fin 128 → BitVec 32)
    (hwr : ∀ (a : Fin 8) (k : Fin 128), wr a k = (m (wLoc d) : Vec F S4096x128 .f32) (ix2 ⟨_, row0_lt L r a⟩ k))
    (hmr : ∀ (a : Fin 8) (k : Fin 128), mr a k = (m (mLoc d) : IVec S4096x128 32) (ix2 ⟨_, row0_lt L r a⟩ k))
    (y : S8x4096.Idx) :
    dense0 m d ((pieceM0 L r).view.emb y) = SpecF.foldAdd wr mr 64 (fun _ => zeroF) y := by
  have h0 := pieceM0_emb_row L r y
  have h1 := pieceM0_emb_col L r y
  generalize (pieceM0 L r).view.emb y = i at h0 h1
  have hL1 : (L 1).val < 16 := (L 1).isLt
  have hL0 : (L 0).val < 2 := (L 0).isLt
  have hr := r.isLt
  have hy0 : (y 0).val < 8 := (y 0).isLt
  have hy1 : (y 1).val < 4096 := (y 1).isLt
  have hb : 8 * ((i 0).val % 4096 / 8) = 96 * (L 1).val + 48 * (L 0).val + 8 * r.val := by omega
  show SpecF.foldAdd (DenseF.rowsW (m (wLoc d)) (8 * ((i 0).val % 4096 / 8))) (DenseF.rowsM (m (mLoc d)) (8 * ((i 0).val % 4096 / 8))) 64
      (fun _ => zeroF) (ix2 ⟨(i 0).val % 4096 % 8, Nat.mod_lt _ (by decide)⟩ ⟨(i 1).val % 4096, Nat.mod_lt _ (by decide)⟩) = _
  rw [hb]
  have hW : DenseF.rowsW (m (wLoc d)) (96 * (L 1).val + 48 * (L 0).val + 8 * r.val) = wr := by
    funext a k
    rw [hwr a k]
    have hx : (⟨(96 * (L 1).val + 48 * (L 0).val + 8 * r.val + a.val) % 4096, Nat.mod_lt _ (by decide)⟩ : Fin 4096)
        = ⟨96 * (L 1).val + 48 * (L 0).val + 8 * r.val + a.val, row0_lt L r a⟩ :=
      Fin.ext (Nat.mod_eq_of_lt (row0_lt L r a))
    show (m (wLoc d) : Vec F S4096x128 .f32) (ix2 ⟨(96 * (L 1).val + 48 * (L 0).val + 8 * r.val + a.val) % 4096, _⟩ k) = _
    rw [hx]
  have hM : DenseF.rowsM (m (mLoc d)) (96 * (L 1).val + 48 * (L 0).val + 8 * r.val) = mr := by
    funext a k
    rw [hmr a k]
    have hx : (⟨(96 * (L 1).val + 48 * (L 0).val + 8 * r.val + a.val) % 4096, Nat.mod_lt _ (by decide)⟩ : Fin 4096)
        = ⟨96 * (L 1).val + 48 * (L 0).val + 8 * r.val + a.val, row0_lt L r a⟩ :=
      Fin.ext (Nat.mod_eq_of_lt (row0_lt L r a))
    show (m (mLoc d) : IVec S4096x128 32) (ix2 ⟨(96 * (L 1).val + 48 * (L 0).val + 8 * r.val + a.val) % 4096, _⟩ k) = _
    rw [hx]
  have hy : (ix2 (⟨(i 0).val % 4096 % 8, Nat.mod_lt _ (by decide)⟩ : Fin 8) (⟨(i 1).val % 4096, Nat.mod_lt _ (by decide)⟩ : Fin 4096)
      : S8x4096.Idx) = y := by
    funext b
    match b with
    | ⟨0, _⟩ => exact Fin.ext (show (i 0).val % 4096 % 8 = (y 0).val by omega)
    | ⟨1, _⟩ => exact Fin.ext (show (i 1).val % 4096 = (y 1).val by omega)
  rw [hW, hM, hy]

theorem dense0_piece_scratch (d : Dev nD) (L : grid0.Coords) (r : Fin 6)
    (fw : Vec F S48x128 .f32) (fm : IVec S48x128 32)
    (hfw : ∀ (a : Fin 48) (k : Fin 128), fw (ix2 a k) = (m (wLoc d) : Vec F S4096x128 .f32) (ix2 ⟨_, tileRow0_lt L a⟩ k))
    (hfm : ∀ (a : Fin 48) (k : Fin 128), fm (ix2 a k) = (m (mLoc d) : IVec S4096x128 32) (ix2 ⟨_, tileRow0_lt L a⟩ k))
    (y : S8x4096.Idx) :
    dense0 m d ((pieceM0 L r).view.emb y)
      = SpecF.foldAdd (fun a k => fw (ix2 (⟨8 * r.val + a.val, by have := r.isLt; have := a.isLt; omega⟩ : Fin 48) k))
          (fun a k => fm (ix2 (⟨8 * r.val + a.val, by have := r.isLt; have := a.isLt; omega⟩ : Fin 48) k)) 64 (fun _ => zeroF) y := by
  apply dense0_piece m d L r
  · intro a k
    show fw (ix2 _ k) = _
    rw [hfw]
    congr 2
    apply Fin.ext
    show 96 * (L 1).val + 48 * (L 0).val + (8 * r.val + a.val) = 96 * (L 1).val + 48 * (L 0).val + 8 * r.val + a.val
    omega
  · intro a k
    show fm (ix2 _ k) = _
    rw [hfm]
    congr 2
    apply Fin.ext
    show 96 * (L 1).val + 48 * (L 0).val + (8 * r.val + a.val) = 96 * (L 1).val + 48 * (L 0).val + 8 * r.val + a.val
    omega

theorem wRows0_read (d : Dev nD) (L : grid0.Coords) (a : Fin 48) (k : Fin 128) :
    ((Memref.whole main_arg1_scv : Memref sig .scVector .hbm S4096x128 .f32).slice
        (Rect.unit (s := S4096x128) (k0_off1 L) S48x128.size (Gen.k0_off1_inb L)) (fun _ => rfl)).view.read (Elt F) (m (wLoc d)) (ix2 a k)
      = (m (wLoc d) : Vec F S4096x128 .f32) (ix2 ⟨_, tileRow0_lt L a⟩ k) := by
  rw [View.read_apply]
  show (m (wLoc d) : Vec F S4096x128 .f32) _ = _
  congr 1
  funext b
  match b with
  | ⟨0, _⟩ =>
    apply Fin.ext
    show (k0_off1 L) 0 + 1 * a.val = 96 * (L 1).val + 48 * (L 0).val + a.val
    rw [Gen.k0_off1_eq]
    show 96 * (L 1).val + 48 * (L 0).val + 1 * a.val = _
    omega
  | ⟨1, _⟩ =>
    apply Fin.ext
    show (k0_off1 L) 1 + 1 * k.val = k.val
    rw [Gen.k0_off1_eq]
    show 0 + 1 * k.val = _
    omega

theorem mRows0_read (d : Dev nD) (L : grid0.Coords) (a : Fin 48) (k : Fin 128) :
    ((Memref.whole main_arg2_scv : Memref sig .scVector .hbm S4096x128 .i32).slice
        (Rect.unit (s := S4096x128) (k0_off1 L) S48x128.size (Gen.k0_off1_inb L)) (fun _ => rfl)).view.read (Elt F) (m (mLoc d)) (ix2 a k)
      = (m (mLoc d) : IVec S4096x128 32) (ix2 ⟨_, tileRow0_lt L a⟩ k) := by
  rw [View.read_apply]
  show (m (mLoc d) : IVec S4096x128 32) _ = _
  congr 1
  funext b
  match b with
  | ⟨0, _⟩ =>
    apply Fin.ext
    show (k0_off1 L) 0 + 1 * a.val = 96 * (L 1).val + 48 * (L 0).val + a.val
    rw [Gen.k0_off1_eq]
    show 96 * (L 1).val + 48 * (L 0).val + 1 * a.val = _
    omega
  | ⟨1, _⟩ =>
    apply Fin.ext
    show (k0_off1 L) 1 + 1 * k.val = k.val
    rw [Gen.k0_off1_eq]
    show 0 + 1 * k.val = _
    omega

theorem row1_lt (L : grid2.Coords) (r : Fin 10) (a : Fin 8) :
    160 * (L 1).val + 80 * (L 0).val + 1536 + 8 * r.val + a.val < 4096 := by
  have h1 : (L 1).val < 16 := (L 1).isLt
  have h0 : (L 0).val < 2 := (L 0).isLt
  have := r.isLt; have := a.isLt
  omega

theorem tileRow1_lt (L : grid2.Coords) (a : Fin 80) : 160 * (L 1).val + 80 * (L 0).val + 1536 + a.val < 4096 := by
  have h1 : (L 1).val < 16 := (L 1).isLt
  have h0 : (L 0).val < 2 := (L 0).isLt
  have := a.isLt
  omega

theorem pieceM1_emb_row (L : grid2.Coords) (r : Fin 10) (y : S8x4096.Idx) :
    (((pieceM1 L r).view.emb y) 0).val = 160 * (L 1).val + 80 * (L 0).val + 8 * r.val + (y 0).val := by
  show (k2_off5 L (BitVec.ofNat 32 (8 * r.val))) 0 + 1 * (y 0).val = _
  rw [Gen.k2_off5_eq]
  show 160 * (L 1).val + 80 * (L 0).val + 8 * r.val + 1 * (y 0).val = _
  omega

theorem pieceM1_emb_col (L : grid2.Coords) (r : Fin 10) (y : S8x4096.Idx) :
    (((pieceM1 L r).view.emb y) 1).val = (y 1).val := by
  show (k2_off5 L (BitVec.ofNat 32 (8 * r.val))) 1 + 1 * (y 1).val = _
  rw [Gen.k2_off5_eq]
  show 0 + 1 * (y 1).val = _
  omega

theorem dense1_piece (d : Dev nD) (L : grid2.Coords) (r : Fin 10)
    (wr : Fin 8 → Fin 128 → Elt F .f32) (mr : Fin 8 → Fin 128 → BitVec 32)
    (hwr : ∀ (a : Fin 8) (k : Fin 128), wr a k = (m (wLoc d) : Vec F S4096x128 .f32) (ix2 ⟨_, row1_lt L r a⟩ k))
    (hmr : ∀ (a : Fin 8) (k : Fin 128), mr a k = (m (mLoc d) : IVec S4096x128 32) (ix2 ⟨_, row1_lt L r a⟩ k))
    (y : S8x4096.Idx) :
    dense1 m d ((pieceM1 L r).view.emb y) = SpecF.foldAdd wr mr 64 (fun _ => zeroF) y := by
  have h0 := pieceM1_emb_row L r y
  have h1 := pieceM1_emb_col L r y
  generalize (pieceM1 L r).view.emb y = i at h0 h1
  have hL1 : (L 1).val < 16 := (L 1).isLt
  have hL0 : (L 0).val < 2 := (L 0).isLt
  have hr := r.isLt
  have hy0 : (y 0).val < 8 := (y 0).isLt
  have hy1 : (y 1).val < 4096 := (y 1).isLt
  have hb : 8 * ((1536 + (i 0).val) % 4096 / 8) = 160 * (L 1).val + 80 * (L 0).val + 1536 + 8 * r.val := by omega
  show SpecF.foldAdd (DenseF.rowsW (m (wLoc d)) (8 * ((1536 + (i 0).val) % 4096 / 8))) (DenseF.rowsM (m (mLoc d)) (8 * ((1536 + (i 0).val) % 4096 / 8))) 64
      (fun _ => zeroF) (ix2 ⟨(1536 + (i 0).val) % 4096 % 8, Nat.mod_lt _ (by decide)⟩ ⟨(i 1).val % 4096, Nat.mod_lt _ (by decide)⟩) = _
  rw [hb]
  have hW : DenseF.rowsW (m (wLoc d)) (160 * (L 1).val + 80 * (L 0).val + 1536 + 8 * r.val) = wr := by
    funext a k
    rw [hwr a k]
    have hx : (⟨(160 * (L 1).val + 80 * (L 0).val + 1536 + 8 * r.val + a.val) % 4096, Nat.mod_lt _ (by decide)⟩ : Fin 4096)
        = ⟨160 * (L 1).val + 80 * (L 0).val + 1536 + 8 * r.val + a.val, row1_lt L r a⟩ :=
      Fin.ext (Nat.mod_eq_of_lt (row1_lt L r a))
    show (m (wLoc d) : Vec F S4096x128 .f32) (ix2 ⟨(160 * (L 1).val + 80 * (L 0).val + 1536 + 8 * r.val + a.val) % 4096, _⟩ k) = _
    rw [hx]
  have hM : DenseF.rowsM (m (mLoc d)) (160 * (L 1).val + 80 * (L 0).val + 1536 + 8 * r.val) = mr := by
    funext a k
    rw [hmr a k]
    have hx : (⟨(160 * (L 1).val + 80 * (L 0).val + 1536 + 8 * r.val + a.val) % 4096, Nat.mod_lt _ (by decide)⟩ : Fin 4096)
        = ⟨160 * (L 1).val + 80 * (L 0).val + 1536 + 8 * r.val + a.val, row1_lt L r a⟩ :=
      Fin.ext (Nat.mod_eq_of_lt (row1_lt L r a))
    show (m (mLoc d) : IVec S4096x128 32) (ix2 ⟨(160 * (L 1).val + 80 * (L 0).val + 1536 + 8 * r.val + a.val) % 4096, _⟩ k) = _
    rw [hx]
  have hy : (ix2 (⟨(1536 + (i 0).val) % 4096 % 8, Nat.mod_lt _ (by decide)⟩ : Fin 8) (⟨(i 1).val % 4096, Nat.mod_lt _ (by decide)⟩ : Fin 4096)
      : S8x4096.Idx) = y := by
    funext b
    match b with
    | ⟨0, _⟩ => exact Fin.ext (show (1536 + (i 0).val) % 4096 % 8 = (y 0).val by omega)
    | ⟨1, _⟩ => exact Fin.ext (show (i 1).val % 4096 = (y 1).val by omega)
  rw [hW, hM, hy]

theorem dense1_piece_scratch (d : Dev nD) (L : grid2.Coords) (r : Fin 10)
    (fw : Vec F S80x128 .f32) (fm : IVec S80x128 32)
    (hfw : ∀ (a : Fin 80) (k : Fin 128), fw (ix2 a k) = (m (wLoc d) : Vec F S4096x128 .f32) (ix2 ⟨_, tileRow1_lt L a⟩ k))
    (hfm : ∀ (a : Fin 80) (k : Fin 128), fm (ix2 a k) = (m (mLoc d) : IVec S4096x128 32) (ix2 ⟨_, tileRow1_lt L a⟩ k))
    (y : S8x4096.Idx) :
    dense1 m d ((pieceM1 L r).view.emb y)
      = SpecF.foldAdd (fun a k => fw (ix2 (⟨8 * r.val + a.val, by have := r.isLt; have := a.isLt; omega⟩ : Fin 80) k))
          (fun a k => fm (ix2 (⟨8 * r.val + a.val, by have := r.isLt; have := a.isLt; omega⟩ : Fin 80) k)) 64 (fun _ => zeroF) y := by
  apply dense1_piece m d L r
  · intro a k
    show fw (ix2 _ k) = _
    rw [hfw]
    congr 2
    apply Fin.ext
    show 160 * (L 1).val + 80 * (L 0).val + 1536 + (8 * r.val + a.val) = 160 * (L 1).val + 80 * (L 0).val + 1536 + 8 * r.val + a.val
    omega
  · intro a k
    show fm (ix2 _ k) = _
    rw [hfm]
    congr 2
    apply Fin.ext
    show 160 * (L 1).val + 80 * (L 0).val + 1536 + (8 * r.val + a.val) = 160 * (L 1).val + 80 * (L 0).val + 1536 + 8 * r.val + a.val
    omega

theorem wRows1_read (d : Dev nD) (L : grid2.Coords) (a : Fin 80) (k : Fin 128) :
    ((Memref.whole main_arg1_scv : Memref sig .scVector .hbm S4096x128 .f32).slice
        (Rect.unit (s := S4096x128) (k2_off1 L) S80x128.size (Gen.k2_off1_inb L)) (fun _ => rfl)).view.read (Elt F) (m (wLoc d)) (ix2 a k)
      = (m (wLoc d) : Vec F S4096x128 .f32) (ix2 ⟨_, tileRow1_lt L a⟩ k) := by
  rw [View.read_apply]
  show (m (wLoc d) : Vec F S4096x128 .f32) _ = _
  congr 1
  funext b
  match b with
  | ⟨0, _⟩ =>
    apply Fin.ext
    show (k2_off1 L) 0 + 1 * a.val = 160 * (L 1).val + 80 * (L 0).val + 1536 + a.val
    rw [Gen.k2_off1_eq]
    show 160 * (L 1).val + 80 * (L 0).val + 1536 + 1 * a.val = _
    omega
  | ⟨1, _⟩ =>
    apply Fin.ext
    show (k2_off1 L) 1 + 1 * k.val = k.val
    rw [Gen.k2_off1_eq]
    show 0 + 1 * k.val = _
    omega

theorem mRows1_read (d : Dev nD) (L : grid2.Coords) (a : Fin 80) (k : Fin 128) :
    ((Memref.whole main_arg2_scv : Memref sig .scVector .hbm S4096x128 .i32).slice
        (Rect.unit (s := S4096x128) (k2_off1 L) S80x128.size (Gen.k2_off1_inb L)) (fun _ => rfl)).view.read (Elt F) (m (mLoc d)) (ix2 a k)
      = (m (mLoc d) : IVec S4096x128 32) (ix2 ⟨_, tileRow1_lt L a⟩ k) := by
  rw [View.read_apply]
  show (m (mLoc d) : IVec S4096x128 32) _ = _
  congr 1
  funext b
  match b with
  | ⟨0, _⟩ =>
    apply Fin.ext
    show (k2_off1 L) 0 + 1 * a.val = 160 * (L 1).val + 80 * (L 0).val + 1536 + a.val
    rw [Gen.k2_off1_eq]
    show 160 * (L 1).val + 80 * (L 0).val + 1536 + 1 * a.val = _
    omega
  | ⟨1, _⟩ =>
    apply Fin.ext
    show (k2_off1 L) 1 + 1 * k.val = k.val
    rw [Gen.k2_off1_eq]
    show 0 + 1 * k.val = _
    omega

end Cert.Proof.KI

end
-- ==== Proof.KI.Tile0Obl.lean ====
import proofs.«207445_g73023033966933_cont_9to1_m_863_36_alg».proof.Proof.KI.PieceValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 2) (Elt F) ℕ UU ℕ

local notation "wV" => (Memref.whole Cert.KernelIdeal.main_arg1_scv : Memref Cert.KernelIdeal.sig Kind.scVector Space.hbm Cert.KernelIdeal.S4096x128 EltTy.f32)
local notation "mV" => (Memref.whole Cert.KernelIdeal.main_arg2_scv : Memref Cert.KernelIdeal.sig Kind.scVector Space.hbm Cert.KernelIdeal.S4096x128 EltTy.i32)
local notation "dV" => (Memref.whole Cert.KernelIdeal.main_v1_scv : Memref Cert.KernelIdeal.sig Kind.scVector Space.hbm Cert.KernelIdeal.S1536x4096 EltTy.f32)
local notation "bA" => (Memref.whole Cert.KernelIdeal.cc0_scratch0 : Memref Cert.KernelIdeal.sig Kind.scVector Space.vmem Cert.KernelIdeal.S8x4096 EltTy.f32)
local notation "bB" => (Memref.whole Cert.KernelIdeal.cc0_scratch1 : Memref Cert.KernelIdeal.sig Kind.scVector Space.vmem Cert.KernelIdeal.S8x4096 EltTy.f32)
local notation "sW" => (Memref.whole Cert.KernelIdeal.cc0_scratch2 : Memref Cert.KernelIdeal.sig Kind.scVector Space.vmem Cert.KernelIdeal.S48x128 EltTy.f32)
local notation "sM" => (Memref.whole Cert.KernelIdeal.cc0_scratch3 : Memref Cert.KernelIdeal.sig Kind.scVector Space.vmem Cert.KernelIdeal.S48x128 EltTy.i32)

variable (m : (ℓ : Loc nD τ sig) → Buf (Elt F) ℓ)

theorem obl_bigSep_six (Φ : Fin 6 → sProp 𝕄) :
    bigSep Finset.univ Φ = iprop(Φ 0 ∗ Φ 1 ∗ Φ 2 ∗ Φ 3 ∗ Φ 4 ∗ Φ 5) := by
  rw [show (Finset.univ : Finset (Fin 6)) = {0, 1, 2, 3, 4, 5} from by decide,
    bigSep_insert (by decide), bigSep_insert (by decide), bigSep_insert (by decide), bigSep_insert (by decide),
    bigSep_insert (by decide), bigSep_singleton]
  rfl

def obl0_tile (d : Dev nD) (L : grid0.Coords) (f : Buf (Elt F) (d0Loc d)) : sProp 𝕄 :=
  iprop((d0Loc d ↦[piece0 L 0]{fullShare} f) ∗ (d0Loc d ↦[piece0 L 1]{fullShare} f)
    ∗ (d0Loc d ↦[piece0 L 2]{fullShare} f) ∗ (d0Loc d ↦[piece0 L 3]{fullShare} f)
    ∗ (d0Loc d ↦[piece0 L 4]{fullShare} f) ∗ (d0Loc d ↦[piece0 L 5]{fullShare} f))

theorem tile0_eq (d : Dev nD) (L : grid0.Coords) (f : Buf (Elt F) (d0Loc d)) : tile0 d L f = obl0_tile d L f := by
  unfold tile0 obl0_tile
  exact obl_bigSep_six (fun r => (d0Loc d ↦[piece0 L r]{fullShare} f : sProp 𝕄))

variable [FloatOps F]

def obl0_fw (d : Dev nD) (L : grid0.Coords) : Vec F S48x128 .f32 :=
  ((wV).slice (Rect.unit (s := S4096x128) (k0_off1 L) S48x128.size (Gen.k0_off1_inb L)) (fun _ => rfl)).view.read (Elt F) (m (wLoc d))
def obl0_fm (d : Dev nD) (L : grid0.Coords) : IVec S48x128 32 :=
  ((mV).slice (Rect.unit (s := S4096x128) (k0_off1 L) S48x128.size (Gen.k0_off1_inb L)) (fun _ => rfl)).view.read (Elt F) (m (mLoc d))

def obl0_GOK (d : Dev nD) (L : grid0.Coords) (G0 : Buf (Elt F) (d0Loc d)) : Prop :=
  ∀ (r : Fin 6) (j : S8x4096.Idx), G0 ((pieceM0 L r).view.emb j)
    = SpecF.foldAdd (fun a k => obl0_fw m d L (ix2 (⟨8 * r.val + a.val, by have := r.isLt; have := a.isLt; omega⟩ : Fin 48) k))
        (fun a k => obl0_fm m d L (ix2 (⟨8 * r.val + a.val, by have := r.isLt; have := a.isLt; omega⟩ : Fin 48) k)) 64 (fun _ => zeroF) j

theorem obl0_GOK_dense (d : Dev nD) (L : grid0.Coords) : obl0_GOK m d L (dense0 m d) :=
  fun r j => dense0_piece_scratch m d L r (obl0_fw m d L) (obl0_fm m d L) (wRows0_read m d L) (mRows0_read m d L) j

theorem defs₀_vector0 (c : Fin τ.nSC) (s : Fin τ.nSub) :
    defs₀ (F := F) (.scVector c s) 0 ()
      = SparseCore.onTile hcore0 hsub0 (fun c s => cc0_densify_chunk0 (coords0 c s)
          wV (Memref.isWhole_whole _) mV (Memref.isWhole_whole _) dV (Memref.isWhole_whole _)
          bA (Memref.isWhole_whole _) bB (Memref.isWhole_whole _) sW (Memref.isWhole_whole _) sM (Memref.isWhole_whole _)
          cc0_scratch4 cc0_scratch5 cc0_scoped0 cc0_scoped1) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem P_go0 (d : Dev nD) (c : Fin ((K (F := F)).nCore 0)) (i : Fin ((K (F := F)).nSub 0)) :
    (P m).go 0 d c i = iprop((wLoc d ↦{qT c.val i.val} m (wLoc d)) ∗ (mLoc d ↦{qT c.val i.val} m (mLoc d))
      ∗ obl0_tile d (coords0 (Fin.cast nCore_zero c) (Fin.cast nSub_zero i)) (m (d0Loc d))) := by
  show go0 m d (Fin.cast nCore_zero c) (Fin.cast nSub_zero i) = _
  unfold go0
  rw [tile0_eq]
  rfl

theorem P_td0 (d : Dev nD) (c : Fin ((K (F := F)).nCore 0)) (i : Fin ((K (F := F)).nSub 0)) :
    (P m).td 0 d c i = iprop((wLoc d ↦{qT c.val i.val} m (wLoc d)) ∗ (mLoc d ↦{qT c.val i.val} m (mLoc d))
      ∗ obl0_tile d (coords0 (Fin.cast nCore_zero c) (Fin.cast nSub_zero i)) (dense0 m d)) := by
  show td0 m d (Fin.cast nCore_zero c) (Fin.cast nSub_zero i) = _
  unfold td0
  rw [tile0_eq]
  rfl

def Tile0Body : Prop :=
  ∀ (d : Dev nD) (L : grid0.Coords) (O : CellTallies nD τ sig (HIx 2)) (W : Waits sig (HIx 2)) (hO : ∀ g, O g none = 0)
    (q : PosShare TreeShare) (G0 : Buf (Elt F) (d0Loc d)) (hG : obl0_GOK m d L G0),
    iprop(levAts (K (F := F)).L (K (F := F)).lev ∗ emp
        ∗ ((wLoc d ↦{q} m (wLoc d)) ∗ (mLoc d ↦{q} m (mLoc d)) ∗ obl0_tile d L (m (d0Loc d)))
        ∗ scopedBufs (V d ((L 0).castLE hcore0) ((L 1).castLE hsub0)) ∗ scopedSems0 (V d ((L 0).castLE hcore0) ((L 1).castLE hsub0))
        ∗ owes (V d ((L 0).castLE hcore0) ((L 1).castLE hsub0)) O W)
      ⊢ wp frame (wpE (defs₀ (F := F)) 𝒱₀ (V d ((L 0).castLE hcore0) ((L 1).castLE hsub0)) none) Set.univ
          (cc0_densify_chunk0 L wV (Memref.isWhole_whole _) mV (Memref.isWhole_whole _) dV (Memref.isWhole_whole _)
            bA (Memref.isWhole_whole _) bB (Memref.isWhole_whole _) sW (Memref.isWhole_whole _) sM (Memref.isWhole_whole _)
            cc0_scratch4 cc0_scratch5 cc0_scoped0 cc0_scoped1)
          fun _ => iprop(((wLoc d ↦{q} m (wLoc d)) ∗ (mLoc d ↦{q} m (mLoc d)) ∗ obl0_tile d L G0)
            ∗ scopedBufs (V d ((L 0).castLE hcore0) ((L 1).castLE hsub0)) ∗ scopedSems0 (V d ((L 0).castLE hcore0) ((L 1).castLE hsub0))
            ∗ ∃ W', ⌜∀ p ∈ W', p ∈ W ∨ p.2 = none⌝ ∗ owes (V d ((L 0).castLE hcore0) ((L 1).castLE hsub0)) O W')

set_option maxRecDepth 2048 in

theorem tileObl0 (hF : (K (F := F)).Facts) (hpre : PreOK m) (htb : Tile0Body m) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  rw [P_go0 m d c i, P_td0 m d c i]
  exact (htb d (coords0 ⟨_, hc.1⟩ ⟨_, hc.2⟩) O W hO (qT c.val i.val) (dense0 m d) (obl0_GOK_dense m d _)).trans
    (wp_mono frame _ _ fun _ => obl_post)

end Cert.Proof.KI

end
-- ==== Proof.KI.Tile0Body.lean ====
import proofs.«207445_g73023033966933_cont_9to1_m_863_36_alg».proof.Proof.KI.Tile0Defs
import proofs.«207445_g73023033966933_cont_9to1_m_863_36_alg».proof.Proof.KI.Tile0Obl

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "wV" => (Memref.whole Cert.KernelIdeal.main_arg1_scv : Memref Cert.KernelIdeal.sig Kind.scVector Space.hbm Cert.KernelIdeal.S4096x128 EltTy.f32)
local notation "mV" => (Memref.whole Cert.KernelIdeal.main_arg2_scv : Memref Cert.KernelIdeal.sig Kind.scVector Space.hbm Cert.KernelIdeal.S4096x128 EltTy.i32)
local notation "dV" => (Memref.whole Cert.KernelIdeal.main_v1_scv : Memref Cert.KernelIdeal.sig Kind.scVector Space.hbm Cert.KernelIdeal.S1536x4096 EltTy.f32)
local notation "bA" => (Memref.whole Cert.KernelIdeal.cc0_scratch0 : Memref Cert.KernelIdeal.sig Kind.scVector Space.vmem Cert.KernelIdeal.S8x4096 EltTy.f32)
local notation "bB" => (Memref.whole Cert.KernelIdeal.cc0_scratch1 : Memref Cert.KernelIdeal.sig Kind.scVector Space.vmem Cert.KernelIdeal.S8x4096 EltTy.f32)
local notation "sW" => (Memref.whole Cert.KernelIdeal.cc0_scratch2 : Memref Cert.KernelIdeal.sig Kind.scVector Space.vmem Cert.KernelIdeal.S48x128 EltTy.f32)
local notation "sM" => (Memref.whole Cert.KernelIdeal.cc0_scratch3 : Memref Cert.KernelIdeal.sig Kind.scVector Space.vmem Cert.KernelIdeal.S48x128 EltTy.i32)

variable [FloatOps F] (m : (ℓ : Loc nD τ sig) → Buf (Elt F) ℓ)

section Tile

variable (d : Dev nD) (L : grid0.Coords)

local notation "THR" => V d (cV L) (jV L)
local notation "WP" => wp frame (wpE (defs₀ (F := F)) 𝒱₀ (V d (cV L) (jV L)) none) Set.univ
local notation "AT[" f "]" => f L (wV) (Memref.isWhole_whole _) (mV) (Memref.isWhole_whole _) (dV) (Memref.isWhole_whole _) (bA) (Memref.isWhole_whole _) (bB) (Memref.isWhole_whole _) (sW) (Memref.isWhole_whole _) (sM) (Memref.isWhole_whole _) cc0_scratch4 cc0_scratch5 cc0_scoped0 cc0_scoped1

omit [FloatOps F] in

theorem tb0_ownSems0 :
    (ownSems0 (V d (cV L) (jV L)) : sProp 𝕄)
      = iprop(semVal (t0_cA d L) 0 ∗ semVal (t0_cB d L) 0 ∗ semVal (t0_cW d L) 0 ∗ semVal (t0_cM d L) 0
          ∗ bigSep (((((ownCells (V d (cV L) (jV L))).erase (t0_cA d L)).erase (t0_cB d L)).erase (t0_cW d L)).erase (t0_cM d L))
              fun g => semVal g 0) := by
  unfold SparseCore.Cfg.ownSems0
  rw [SparseCore.bigSep_erase' ((mem_ownCells (g := t0_cA d L)).mpr ⟨rfl, by
      show (SemLoc.dma cc0_scratch4.sem : SemLoc sig).isScoped .scVector = true; decide⟩),
    SparseCore.bigSep_erase' (Finset.mem_erase.mpr ⟨by simp [t0_cA, t0_cB]; decide, (mem_ownCells (g := t0_cB d L)).mpr ⟨rfl, by
      show (SemLoc.dma cc0_scratch5.sem : SemLoc sig).isScoped .scVector = true; decide⟩⟩),
    SparseCore.bigSep_erase' (Finset.mem_erase.mpr ⟨by simp [t0_cB, t0_cW]; decide, Finset.mem_erase.mpr ⟨by simp [t0_cA, t0_cW]; decide,
      (mem_ownCells (g := t0_cW d L)).mpr ⟨rfl, by show (SemLoc.dma cc0_scoped0.sem : SemLoc sig).isScoped .scVector = true; decide⟩⟩⟩),
    SparseCore.bigSep_erase' (Finset.mem_erase.mpr ⟨by simp [t0_cW, t0_cM]; decide, Finset.mem_erase.mpr ⟨by simp [t0_cB, t0_cM]; decide,
      Finset.mem_erase.mpr ⟨by simp [t0_cA, t0_cM]; decide,
      (mem_ownCells (g := t0_cM d L)).mpr ⟨rfl, by show (SemLoc.dma cc0_scoped1.sem : SemLoc sig).isScoped .scVector = true; decide⟩⟩⟩⟩)]

omit [FloatOps F] in

theorem tb0_ownBufs :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

omit [FloatOps F] in

omit [FloatOps F] in

theorem tb0_fm_lt (hpre : PreOK m) (i : S48x128.Idx) : ((t0_fm m d L) i).toNat < 4096 := by
  unfold t0_fm
  rw [View.read_apply]
  exact hpre d _

def tb0_tile (f : Buf (Elt F) (d0Loc d)) : sProp 𝕄 :=
  iprop((d0Loc d ↦[(t0_piece0 L).view.set]{fullShare} f) ∗ (d0Loc d ↦[(t0_piece1 L).view.set]{fullShare} f)
    ∗ (d0Loc d ↦[(t0_piece2 L).view.set]{fullShare} f) ∗ (d0Loc d ↦[(t0_piece3 L).view.set]{fullShare} f)
    ∗ (d0Loc d ↦[(t0_piece4 L).view.set]{fullShare} f) ∗ (d0Loc d ↦[(t0_piece5 L).view.set]{fullShare} f))

theorem tb0_tile_body (h11 : T0Part11 m d L) (h12 : T0Part12 m d L) (h13 : T0Part13 m d L) (htl : T0Tail m d L)
    (hF : (K (F := F)).Facts) (hpre : PreOK m) (O : CellTallies nD τ sig (HIx 2)) (W : Waits sig (HIx 2)) (hO : ∀ g, O g none = 0)
    (q : PosShare TreeShare) (G0 : Buf (Elt F) (d0Loc d)) (hG : t0_GOK d L (t0_fw m d L) (t0_fm m d L) G0) :
    iprop(levAts (K (F := F)).L (K (F := F)).lev ∗ emp
        ∗ ((wLoc d ↦{q} m (wLoc d)) ∗ (mLoc d ↦{q} m (mLoc d)) ∗ tb0_tile d L (m (d0Loc d)))
        ∗ scopedBufs THR ∗ scopedSems0 THR ∗ owes THR O W)
      ⊢ WP (AT[cc0_densify_chunk0]) fun _ =>
          iprop(((wLoc d ↦{q} m (wLoc d)) ∗ (mLoc d ↦{q} m (mLoc d)) ∗ tb0_tile d L G0) ∗ scopedBufs THR ∗ scopedSems0 THR
            ∗ ∃ W', ⌜∀ p ∈ W', p ∈ W ∨ p.2 = none⌝ ∗ owes THR O W') := by
  rw [cc0_densify_chunk0_eq_skeleton, t0_root_eq]
  simp only [wp_bind]
  rw [(K (F := F)).scopedBufs_V hF d (cV L) (jV L), SparseCore.Cfg.scopedSems0_V (Val := Elt F) d (cV L) (jV L), tb0_ownSems0, tb0_ownBufs]
  unfold tb0_tile
  have hfm : ∀ i, (t0_fm m d L i).toNat < 4096 := tb0_fm_lt m d L hpre
  iintro ⟨#Hlv, -, ⟨Hw, Hm, Hp0, Hp1, Hp2, Hp3, Hp4, Hp5⟩, ⟨⟨%fA, HbA⟩, ⟨%fB, HbB⟩, ⟨%fW, HsW⟩, ⟨%fM, HsM⟩, Hbufs⟩, ⟨HcA, HcB, HcW, HcM, Hsems⟩, HO⟩

  iapply (h11 O q q hpre hO W _)
  isplitr; · iexact Hlv
  isplitl [Hw]; · iexact Hw
  isplitl [Hm]; · iexact Hm
  isplitl [HbA]; · iexists _; iexact HbA
  isplitl [HbB]; · iexists _; iexact HbB
  isplitl [HsW]; · iexists _; iexact HsW
  isplitl [HsM]; · iexists _; iexact HsM
  isplitl [HcW]; · iexact HcW
  isplitl [HcM]; · iexact HcM
  isplitl [HO]; · iexact HO
  iintro %W1 %hW1 ⟨Hfix, HbA, HbB, HO⟩

  iapply (h12 O q q (t0_fw m d L) (t0_fm m d L) G0 hO hfm hG W1 _ (m (d0Loc d)) (m (d0Loc d)) (m (d0Loc d)) _)
  isplitr; · iexact Hlv
  isplitl [Hfix]; · iexact Hfix
  isplitl [HbA]; · iexact HbA
  isplitl [HbB]; · iexact HbB
  isplitl [HcA]; · iexact HcA
  isplitl [HcB]; · iexact HcB
  isplitl [Hp0]; · iexact Hp0
  isplitl [Hp1]; · iexact Hp1
  isplitl [Hp2]; · iexact Hp2
  isplitl [HO]; · iexact HO
  iintro %W2 %hW2 ⟨Hfix, Hp0, Hp1, Hfl2, HbB, HcB, HO⟩

  iapply (h13 O q q (t0_fw m d L) (t0_fm m d L) G0 hO hfm hG W2 _ (m (d0Loc d)) (m (d0Loc d)) (m (d0Loc d)) _)
  isplitr; · iexact Hlv
  isplitl [Hfix]; · iexact Hfix
  isplitl [Hfl2]; · iexact Hfl2
  isplitl [HbB]; · iexact HbB
  isplitl [HcB]; · iexact HcB
  isplitl [Hp3]; · iexact Hp3
  isplitl [Hp4]; · iexact Hp4
  isplitl [HO]; · iexact HO
  iintro %W3 %hW3 ⟨Hfix, Hp2, Hfl3, Hfl4, HO⟩

  iapply (htl O q q (t0_fw m d L) (t0_fm m d L) G0 hO hfm hG W3 (m (d0Loc d)) (m (d0Loc d)) (m (d0Loc d)) _)
  isplitr; · iexact Hlv
  isplitl [Hfix]; · iexact Hfix
  isplitl [Hfl3]; · iexact Hfl3
  isplitl [Hfl4]; · iexact Hfl4
  isplitl [Hp5]; · iexact Hp5
  isplitl [HO]; · iexact HO
  iintro %W4 %hW4 ⟨Hfix, Hp3, Hp4, Hp5, HbA, HbB, HcA, HcB, HO⟩
  unfold t0_fix
  icases Hfix with ⟨Hw, Hm, HsW, HsM, HcW, HcM⟩
  isplitl [Hw Hm Hp0 Hp1 Hp2 Hp3 Hp4 Hp5]
  · isplitl [Hw]; · iexact Hw
    isplitl [Hm]; · iexact Hm
    isplitl [Hp0]; · iexact Hp0
    isplitl [Hp1]; · iexact Hp1
    isplitl [Hp2]; · iexact Hp2
    isplitl [Hp3]; · iexact Hp3
    isplitl [Hp4]; · iexact Hp4
    iexact Hp5
  isplitl [HbA HbB HsW HsM Hbufs]
  · isplitl [HbA]; · iexact HbA
    isplitl [HbB]; · iexact HbB
    isplitl [HsW]; · iexists _; iexact HsW
    isplitl [HsM]; · iexists _; iexact HsM
    iexact Hbufs
  isplitl [HcA HcB HcW HcM Hsems]
  · isplitl [HcA]; · iexact HcA
    isplitl [HcB]; · iexact HcB
    isplitl [HcW]; · iexact HcW
    isplitl [HcM]; · iexact HcM
    iexact Hsems
  iexists W4
  isplitr
  · ipureintro
    intro p hp
    rcases hW4 p hp with h | h
    · rcases hW3 p h with h | h
      · rcases hW2 p h with h | h
        · exact hW1 p h
        · exact Or.inr h
      · exact Or.inr h
    · exact Or.inr h
  · iexact HO

end Tile

theorem tile0Body_of (h11 : ∀ d L, T0Part11 m d L) (h12 : ∀ d L, T0Part12 m d L) (h13 : ∀ d L, T0Part13 m d L)
    (htl : ∀ d L, T0Tail m d L) (hF : (K (F := F)).Facts) (hpre : PreOK m) : Tile0Body m :=
  fun d L O W hO q G0 hG =>
    tb0_tile_body m d L (h11 d L) (h12 d L) (h13 d L) (htl d L) hF hpre O W hO q G0 ⟨hG 0, hG 1, hG 2, hG 3, hG 4, hG 5⟩

end Cert.Proof.KI

end
-- ==== Proof.KI.Tile0.lean ====
import proofs.«207445_g73023033966933_cont_9to1_m_863_36_alg».proof.Proof.KI.Tile0Defs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "wV" => (Memref.whole Cert.KernelIdeal.main_arg1_scv : Memref Cert.KernelIdeal.sig Kind.scVector Space.hbm Cert.KernelIdeal.S4096x128 EltTy.f32)
local notation "mV" => (Memref.whole Cert.KernelIdeal.main_arg2_scv : Memref Cert.KernelIdeal.sig Kind.scVector Space.hbm Cert.KernelIdeal.S4096x128 EltTy.i32)
local notation "dV" => (Memref.whole Cert.KernelIdeal.main_v1_scv : Memref Cert.KernelIdeal.sig Kind.scVector Space.hbm Cert.KernelIdeal.S1536x4096 EltTy.f32)
local notation "bA" => (Memref.whole Cert.KernelIdeal.cc0_scratch0 : Memref Cert.KernelIdeal.sig Kind.scVector Space.vmem Cert.KernelIdeal.S8x4096 EltTy.f32)
local notation "bB" => (Memref.whole Cert.KernelIdeal.cc0_scratch1 : Memref Cert.KernelIdeal.sig Kind.scVector Space.vmem Cert.KernelIdeal.S8x4096 EltTy.f32)
local notation "sW" => (Memref.whole Cert.KernelIdeal.cc0_scratch2 : Memref Cert.KernelIdeal.sig Kind.scVector Space.vmem Cert.KernelIdeal.S48x128 EltTy.f32)
local notation "sM" => (Memref.whole Cert.KernelIdeal.cc0_scratch3 : Memref Cert.KernelIdeal.sig Kind.scVector Space.vmem Cert.KernelIdeal.S48x128 EltTy.i32)

variable [FloatOps F] (m : (ℓ : Loc nD τ sig) → Buf (Elt F) ℓ)

section Tile

variable (d : Dev nD) (L : grid0.Coords)

local notation "THR" => V d (cV L) (jV L)
local notation "WP" => wp frame (wpE (defs₀ (F := F)) 𝒱₀ (V d (cV L) (jV L)) none) Set.univ
local notation "AT[" f "]" => f L (wV) (Memref.isWhole_whole _) (mV) (Memref.isWhole_whole _) (dV) (Memref.isWhole_whole _) (bA) (Memref.isWhole_whole _) (bB) (Memref.isWhole_whole _) (sW) (Memref.isWhole_whole _) (sM) (Memref.isWhole_whole _) cc0_scratch4 cc0_scratch5 cc0_scoped0 cc0_scoped1

variable (O : CellTallies nD τ sig (HIx 2))
variable (qw qm : PosShare TreeShare) (fw : Vec F S48x128 .f32) (fm : IVec S48x128 32)
variable (G0 : Buf (Elt F) (d0Loc d))

theorem part12_spec : T0Part12 m d L := by
  intro O qw qm fw fm G0 hO hfm hG W v1 g0 g1 g2 Φ
  have hmr : ∀ (sb : Fin 6) (r : Fin 8) (k : Fin 128), (t0_mr fm sb r k).toNat < 4096 := fun sb r k => hfm _
  have hclr7 := t0_loop_t7 d L fw fm v1 hfm (t0_blk fw fm 0)
  rw [show SpecF.foldClr t0_z (t0_mr fm 0) 64 (t0_blk fw fm 0) = (fun _ => t0_z) from SpecF.foldClr_foldAdd _ _ (hmr 0) _] at hclr7
  rw [k0_part12_eq_skeleton]; rw [k0_part12_skel]
  unfold t0_fix
  iintro ⟨#Hlv, ⟨Hw, Hm, HsW, HsM, HcW, HcM⟩, HbA, HbB, HcA, HcB, Hp0, Hp1, Hp2, HO, Hk⟩
  ihave Hmw := ((K (F := F)).mayWaits_none (thr := V d (cV L) (jV L)) hO) $$ Hlv

  ihave HbA := (Entails.of_eq (t0_own_whole (F := F) d L cc0_scratch0 fullShare _).symm) $$ HbA
  sl_exec
  iapply (t0_seq d L _ _ _ _ _ (t0_loop_t6 d L fw fm v1 (fun _ => t0_z) hfm (fun _ => t0_z)))
  isplitl [HbB HsW HsM]
  · isplitl [HbB]; · iexact HbB
    isplitl [HsW]; · iexact HsW
    iexact HsM
  iintro %_ ⟨HbB, HsW, HsM⟩

  ihave HbB := (Entails.of_eq (t0_own_whole (F := F) d L cc0_scratch1 fullShare _).symm) $$ HbB
  sl_exec
  ihave Hp0 := (Entails.of_eq (t0_land_eq (F := F) d L (k0_off5 L 0#32) (k0_off5_inb L 0) _ G0 _ ?hl0)) $$ Hp0
  case hl0 => exact fun y => (hG.1 y).trans rfl

  ihave HbA := (Entails.of_eq (t0_own_whole (F := F) d L cc0_scratch0 fullShare _)) $$ HbA
  iapply (t0_seq d L _ _ _ _ _ hclr7)
  isplitl [HbA HsW HsM]
  · isplitl [HbA]; · iexact HbA
    isplitl [HsW]; · iexact HsW
    iexact HsM
  iintro %_ ⟨HbA, HsW, HsM⟩
  iapply (t0_seq d L _ _ _ _ _ (t0_loop_t8 d L fw fm v1 (fun _ => t0_z) hfm (fun _ => t0_z)))
  isplitl [HbA HsW HsM]
  · isplitl [HbA]; · iexact HbA
    isplitl [HsW]; · iexact HsW
    iexact HsM
  iintro %_ ⟨HbA, HsW, HsM⟩

  ihave HbA := (Entails.of_eq (t0_own_whole (F := F) d L cc0_scratch0 fullShare _).symm) $$ HbA
  sl_exec
  sl_step
  ihave Hp1 := (Entails.of_eq (t0_land_eq (F := F) d L (k0_off5 L 8#32) (k0_off5_inb L 1) _ G0 _ ?hl1)) $$ Hp1
  case hl1 => exact fun y => (hG.2.1 y).trans rfl
  ihave HbB := (Entails.of_eq (t0_own_whole (F := F) d L cc0_scratch1 fullShare _)) $$ HbB
  iapply Hk $$ %(insert (SemLoc.dma cc0_scratch5.sem, (default : HIx 2)) (insert (SemLoc.dma cc0_scratch4.sem, (default : HIx 2)) W)) %(by
    intro p hp
    rcases Finset.mem_insert.mp hp with hp | hp
    · exact .inr (hp ▸ rfl)
    rcases Finset.mem_insert.mp hp with hp | hp
    · exact .inr (hp ▸ rfl)
    exact .inl hp)
  isplitl [Hw Hm HsW HsM HcW HcM]
  · isplitl [Hw]; · iexact Hw
    isplitl [Hm]; · iexact Hm
    isplitl [HsW]; · iexact HsW
    isplitl [HsM]; · iexact HsM
    isplitl [HcW]; · iexact HcW
    iexact HcM
  isplitl [Hp0]; · iexact Hp0
  isplitl [Hp1]; · iexact Hp1
  isplitl [HcA]; · iexact HcA
  isplitl [HbB]; · iexact HbB
  isplitl [HcB]; · iexact HcB
  iexact HO

end Tile

end Cert.Proof.KI

end
-- ==== Proof.KI.Tile0c.lean ====
import proofs.«207445_g73023033966933_cont_9to1_m_863_36_alg».proof.Proof.KI.Tile0Defs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "wV" => (Memref.whole Cert.KernelIdeal.main_arg1_scv : Memref Cert.KernelIdeal.sig Kind.scVector Space.hbm Cert.KernelIdeal.S4096x128 EltTy.f32)
local notation "mV" => (Memref.whole Cert.KernelIdeal.main_arg2_scv : Memref Cert.KernelIdeal.sig Kind.scVector Space.hbm Cert.KernelIdeal.S4096x128 EltTy.i32)
local notation "dV" => (Memref.whole Cert.KernelIdeal.main_v1_scv : Memref Cert.KernelIdeal.sig Kind.scVector Space.hbm Cert.KernelIdeal.S1536x4096 EltTy.f32)
local notation "bA" => (Memref.whole Cert.KernelIdeal.cc0_scratch0 : Memref Cert.KernelIdeal.sig Kind.scVector Space.vmem Cert.KernelIdeal.S8x4096 EltTy.f32)
local notation "bB" => (Memref.whole Cert.KernelIdeal.cc0_scratch1 : Memref Cert.KernelIdeal.sig Kind.scVector Space.vmem Cert.KernelIdeal.S8x4096 EltTy.f32)
local notation "sW" => (Memref.whole Cert.KernelIdeal.cc0_scratch2 : Memref Cert.KernelIdeal.sig Kind.scVector Space.vmem Cert.KernelIdeal.S48x128 EltTy.f32)
local notation "sM" => (Memref.whole Cert.KernelIdeal.cc0_scratch3 : Memref Cert.KernelIdeal.sig Kind.scVector Space.vmem Cert.KernelIdeal.S48x128 EltTy.i32)

variable [FloatOps F] (m : (ℓ : Loc nD τ sig) → Buf (Elt F) ℓ)

section Tile

variable (d : Dev nD) (L : grid0.Coords)

local notation "THR" => V d (cV L) (jV L)
local notation "WP" => wp frame (wpE (defs₀ (F := F)) 𝒱₀ (V d (cV L) (jV L)) none) Set.univ
local notation "AT[" f "]" => f L (wV) (Memref.isWhole_whole _) (mV) (Memref.isWhole_whole _) (dV) (Memref.isWhole_whole _) (bA) (Memref.isWhole_whole _) (bB) (Memref.isWhole_whole _) (sW) (Memref.isWhole_whole _) (sM) (Memref.isWhole_whole _) cc0_scratch4 cc0_scratch5 cc0_scoped0 cc0_scoped1

variable (O : CellTallies nD τ sig (HIx 2))
variable (qw qm : PosShare TreeShare) (fw : Vec F S48x128 .f32) (fm : IVec S48x128 32)
variable (G0 : Buf (Elt F) (d0Loc d))

theorem part13_spec : T0Part13 m d L := by
  intro O qw qm fw fm G0 hO hfm hG W v1 g2 g3 g4 Φ
  rw [k0_part13_eq_skeleton]; rw [k0_part13_skel]
  unfold t0_fix
  obtain ⟨-, -, hG2, -, -, -⟩ := hG
  iintro ⟨#Hlv, ⟨Hw, Hm, HsW, HsM, HcW, HcM⟩, HF2, HbB, HcB, Hp3, Hp4, HO, Hk⟩
  ihave Hmw := ((K (F := F)).mayWaits_none (thr := V d (cV L) (jV L)) hO) $$ Hlv

  iapply (t0_seq (F := F) d L _ _ _ _ _ (t0_loop_t9 (F := F) d L fw fm v1 hfm (t0_blk fw fm 1)))
  isplitl [HbB HsW HsM]
  · isplitl [HbB]; · iexact HbB
    isplitl [HsW]; · iexact HsW
    iexact HsM
  iintro %_ ⟨HbB, HsW, HsM⟩
  rw [show SpecF.foldClr t0_z (t0_mr fm 1) 64 (t0_blk fw fm 1) = fun _ => t0_z from
    SpecF.foldClr_foldAdd _ _ (fun r k => hfm _) _]
  iapply (t0_seq (F := F) d L _ _ _ _ _ (t0_loop_t10 (F := F) d L fw fm v1 (fun _ => t0_z) 0#32 hfm _))
  isplitl [HbB HsW HsM]
  · isplitl [HbB]; · iexact HbB
    isplitl [HsW]; · iexact HsW
    iexact HsM
  iintro %_ ⟨HbB, HsW, HsM⟩

  ihave HbB := (Entails.of_eq (t0_own_whole (F := F) d L cc0_scratch1 fullShare _).symm) $$ HbB
  sl_exec

  iapply (t0_seq (F := F) d L _ _ _ _ _ (t0_loop_t11 (F := F) d L fw fm v1 0#32 hfm (t0_blk fw fm 2)))
  isplitl [HF2_src HsW HsM]
  · isplitl [HF2_src]
    · iapply (Entails.of_eq (t0_own_whole (F := F) d L cc0_scratch0 fullShare _)); iexact HF2_src
    isplitl [HsW]; · iexact HsW
    iexact HsM
  iintro %_ ⟨HbA, HsW, HsM⟩
  rw [show SpecF.foldClr t0_z (t0_mr fm 2) 64 (t0_blk fw fm 2) = fun _ => t0_z from
    SpecF.foldClr_foldAdd _ _ (fun r k => hfm _) _]
  iapply (t0_seq (F := F) d L _ _ _ _ _ (t0_loop_t12 (F := F) d L fw fm v1 (fun _ => t0_z) 0#32 hfm _))
  isplitl [HbA HsW HsM]
  · isplitl [HbA]; · iexact HbA
    isplitl [HsW]; · iexact HsW
    iexact HsM
  iintro %_ ⟨HbA, HsW, HsM⟩

  ihave HbA := (Entails.of_eq (t0_own_whole (F := F) d L cc0_scratch0 fullShare _).symm) $$ HbA
  sl_exec
  sl_step
  sl_unfold_run_names
  iapply Hk $$ %(insert ((SemLoc.dma cc0_scratch4.sem : SemLoc sig), (default : HIx 2)) W)
    %(fun p hp => by
      simp only [Finset.mem_insert] at hp
      rcases hp with rfl | hp
      exacts [.inr rfl, .inl hp])
  isplitl [Hw Hm HsW HsM HcW HcM]
  · isplitl [Hw]; · iexact Hw
    isplitl [Hm]; · iexact Hm
    isplitl [HsW]; · iexact HsW
    isplitl [HsM]; · iexact HsM
    isplitl [HcW]; · iexact HcW
    iexact HcM
  isplitl [HF2_dst]
  · iapply (Entails.of_eq (t0_land_eq (F := F) d L (k0_off5 L 16#32) (k0_off5_inb L 2) _ G0 _ (fun y => (hG2 y).trans rfl)))
    iexact HF2_dst
  isplitl [HcB]; · iexact HcB
  isplitl [HF2]; · iexact HF2
  iexact HO

theorem tail_spec : T0Tail m d L := by
  intro O qw qm fw fm G0 hO hfm hG W g3 g4 g5 Φ
  unfold t0_tail
  unfold t0_fix
  obtain ⟨-, -, -, hG3, hG4, hG5⟩ := hG
  iintro ⟨#Hlv, ⟨Hw, Hm, HsW, HsM, HcW, HcM⟩, HF3, HF4, Hp5, HO, Hk⟩
  ihave Hmw := ((K (F := F)).mayWaits_none (thr := V d (cV L) (jV L)) hO) $$ Hlv

  sl_exec

  iapply (t0_seq (F := F) d L _ _ _ _ _ (t0_loop_t13 (F := F) d L fw fm hfm (t0_blk fw fm 3)))
  isplitl [HF3_src HsW HsM]
  · isplitl [HF3_src]
    · iapply (Entails.of_eq (t0_own_whole (F := F) d L cc0_scratch1 fullShare _)); iexact HF3_src
    isplitl [HsW]; · iexact HsW
    iexact HsM
  iintro %_ ⟨HbB, HsW, HsM⟩
  rw [show SpecF.foldClr t0_z (t0_mr fm 3) 64 (t0_blk fw fm 3) = fun _ => t0_z from
    SpecF.foldClr_foldAdd _ _ (fun r k => hfm _) _]
  iapply (t0_seq (F := F) d L _ _ _ _ _ (t0_loop_t14 (F := F) d L fw fm hfm _))
  isplitl [HbB HsW HsM]
  · isplitl [HbB]; · iexact HbB
    isplitl [HsW]; · iexact HsW
    iexact HsM
  iintro %_ ⟨HbB, HsW, HsM⟩

  sl_exec
  sl_step
  sl_unfold_run_names
  iapply Hk $$ %(insert ((SemLoc.dma cc0_scratch5.sem : SemLoc sig), (default : HIx 2))
      (insert ((SemLoc.dma cc0_scratch4.sem : SemLoc sig), (none : HIx 2)) (insert ((SemLoc.dma cc0_scratch5.sem : SemLoc sig), (none : HIx 2)) W)))
    %(fun p hp => by
      simp only [Finset.mem_insert] at hp
      rcases hp with rfl | rfl | rfl | hp
      exacts [.inr rfl, .inr rfl, .inr rfl, .inl hp])
  isplitl [Hw Hm HsW HsM HcW HcM]
  · isplitl [Hw]; · iexact Hw
    isplitl [Hm]; · iexact Hm
    isplitl [HsW]; · iexact HsW
    isplitl [HsM]; · iexact HsM
    isplitl [HcW]; · iexact HcW
    iexact HcM
  isplitl [HF3_dst]
  · iapply (Entails.of_eq (t0_land_eq (F := F) d L (k0_off5 L 24#32) (k0_off5_inb L 3) _ G0 _ (fun y => (hG3 y).trans rfl)))
    iexact HF3_dst
  isplitl [HF4_dst]
  · iapply (Entails.of_eq (t0_land_eq (F := F) d L (k0_off5 L 32#32) (k0_off5_inb L 4) _ G0 _ (fun y => (hG4 y).trans rfl)))
    iexact HF4_dst
  isplitl [Hp5]
  · iapply (Entails.of_eq (t0_land_eq (F := F) d L (k0_off5 L 40#32) (k0_off5_inb L 5) _ G0 _ (fun y => (hG5 y).trans rfl)))
    iexact Hp5
  isplitl [HF4_src]
  · iexists _; iapply (Entails.of_eq (t0_own_whole (F := F) d L cc0_scratch0 fullShare _)); iexact HF4_src
  isplitl [HbB]; · iexists _; iexact HbB
  isplitl [HF4]; · iexact HF4
  isplitl [HF3]; · iexact HF3
  iexact HO

end Tile

end Cert.Proof.KI

end
-- ==== Proof.KI.Prefix0.lean ====
import proofs.«207445_g73023033966933_cont_9to1_m_863_36_alg».proof.Proof.KI.Common
import Idealize.ShloMosaic.Lib.Writes
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

abbrev pfxC (L : grid0.Coords) : Fin τ.nSC := (L 0).castLE hcore0
abbrev pfxJ (L : grid0.Coords) : Fin τ.nSub := (L 1).castLE hsub0

abbrev pfxThr (d : Dev nD) (L : grid0.Coords) : Thread nD τ := V d (pfxC L) (pfxJ L)

local notation "wW" => (Memref.whole Cert.KernelIdeal.main_arg1_scv : Memref Cert.KernelIdeal.sig Kind.scVector Space.hbm Cert.KernelIdeal.S4096x128 EltTy.f32)
local notation "mW" => (Memref.whole Cert.KernelIdeal.main_arg2_scv : Memref Cert.KernelIdeal.sig Kind.scVector Space.hbm Cert.KernelIdeal.S4096x128 EltTy.i32)
local notation "dW" => (Memref.whole Cert.KernelIdeal.main_v1_scv : Memref Cert.KernelIdeal.sig Kind.scVector Space.hbm Cert.KernelIdeal.S1536x4096 EltTy.f32)
local notation "blkA" => (Memref.whole Cert.KernelIdeal.cc0_scratch0 : Memref Cert.KernelIdeal.sig Kind.scVector Space.vmem Cert.KernelIdeal.S8x4096 EltTy.f32)
local notation "blkB" => (Memref.whole Cert.KernelIdeal.cc0_scratch1 : Memref Cert.KernelIdeal.sig Kind.scVector Space.vmem Cert.KernelIdeal.S8x4096 EltTy.f32)
local notation "wvS" => (Memref.whole Cert.KernelIdeal.cc0_scratch2 : Memref Cert.KernelIdeal.sig Kind.scVector Space.vmem Cert.KernelIdeal.S48x128 EltTy.f32)
local notation "mvS" => (Memref.whole Cert.KernelIdeal.cc0_scratch3 : Memref Cert.KernelIdeal.sig Kind.scVector Space.vmem Cert.KernelIdeal.S48x128 EltTy.i32)

variable (m : (ℓ : Loc nD τ sig) → Buf (Elt F) ℓ)
variable [FloatOps F]
variable (d : Dev nD) (L : grid0.Coords)

open Idealize.ShloMosaic.ValueIdx

def pfxWid (L : grid0.Coords) : BitVec 32 :=
  Scalar.addi (Scalar.muli (BitVec.ofNat 32 (L 1).val) 2#32) (BitVec.ofNat 32 (L 0).val)

abbrev pfxWRows (L : grid0.Coords) : Memref sig .scVector .hbm S48x128 .f32 :=
  (wW).slice (Rect.unit (s := S4096x128) (k0_off1 L) S48x128.size (k0_off1_inb L)) (fun _ => rfl)
abbrev pfxMRows (L : grid0.Coords) : Memref sig .scVector .hbm S48x128 .i32 :=
  (mW).slice (Rect.unit (s := S4096x128) (k0_off1 L) S48x128.size (k0_off1_inb L)) (fun _ => rfl)

def pfxWv (d : Dev nD) (L : grid0.Coords) : Buf (Elt F) ((pfxThr d L).loc cc0_scratch2) :=
  (pfxWRows L).view.read (Elt F) (m (wLoc d))
def pfxMv (d : Dev nD) (L : grid0.Coords) : Buf (Elt F) ((pfxThr d L).loc cc0_scratch3) :=
  (pfxMRows L).view.read (Elt F) (m (mLoc d))

def pfxZ : Elt F .f32 := (Scalar.ofBits .f32 0x00000000#32 : F .f32)

theorem pfx_pay2_cast (x : S1x16.Idx) : shapeCast S1x16 (k0_pay2 (F := F)) shapeCasts_S16_S1x16 x = pfxZ := rfl

theorem pfx_mem_piece (r c : Nat) (off : Fin 8 → Fin 2 → Nat) (inb : ∀ u a, off u a + S1x16.size a ≤ S8x4096.size a)
    (hoff : ∀ u : Fin 8, off u = ![r, 128 * c + 16 * u.val]) (u : Fin 8) (j : S8x4096.Idx)
    (h0 : (j 0).val = r) (h1 : 128 * c + 16 * u.val ≤ (j 1).val) (h2 : (j 1).val < 128 * c + 16 * u.val + 16) :
    j ∈ (Rect.unit (s := S8x4096) (off u) S1x16.size (inb u)).set := by
  rw [Rect.mem_set_unit, hoff u]
  intro a
  match a with
  | ⟨0, _⟩ =>
    show r ≤ (j 0).val ∧ (j 0).val < r + 1
    omega
  | ⟨1, _⟩ =>
    show 128 * c + 16 * u.val ≤ (j 1).val ∧ (j 1).val < 128 * c + 16 * u.val + 16
    omega

theorem pfx_zero_step {sg : RefSig} {κ : Kind} {sp : Space} (v : View sg κ sp S8x4096 .f32) (g : v.ty.Contents (Elt F)) (r c : Nat)
    (off : Fin 8 → Fin 2 → Nat) (inb : ∀ u a, off u a + S1x16.size a ≤ S8x4096.size a)
    (hoff : ∀ u : Fin 8, off u = ![r, 128 * c + 16 * u.val])
    (w : S1x16.Idx → Elt F .f32) (hw : ∀ x, w x = pfxZ)
    (hg : ∀ j : S8x4096.Idx, ((j 0).val < r ∨ ((j 0).val = r ∧ (j 1).val < 128 * c)) → v.read (Elt F) g j = pfxZ)
    (j : S8x4096.Idx) (hj : (j 0).val < r ∨ ((j 0).val = r ∧ (j 1).val < 128 * (c + 1))) :
    v.read (Elt F) (v.writes (Elt F) g
      [⟨Rect.unit (s := S8x4096) (off 7) S1x16.size (inb 7), w⟩,
        ⟨Rect.unit (s := S8x4096) (off 6) S1x16.size (inb 6), w⟩,
        ⟨Rect.unit (s := S8x4096) (off 5) S1x16.size (inb 5), w⟩,
        ⟨Rect.unit (s := S8x4096) (off 4) S1x16.size (inb 4), w⟩,
        ⟨Rect.unit (s := S8x4096) (off 3) S1x16.size (inb 3), w⟩,
        ⟨Rect.unit (s := S8x4096) (off 2) S1x16.size (inb 2), w⟩,
        ⟨Rect.unit (s := S8x4096) (off 1) S1x16.size (inb 1), w⟩,
        ⟨Rect.unit (s := S8x4096) (off 0) S1x16.size (inb 0), w⟩]) j = pfxZ := by
  apply pfx_read_writes_const
  · intro p hp x
    simp only [List.mem_cons, List.mem_nil_iff, or_false] at hp
    rcases hp with rfl | rfl | rfl | rfl | rfl | rfl | rfl | rfl
    · exact hw x
    · exact hw x
    · exact hw x
    · exact hw x
    · exact hw x
    · exact hw x
    · exact hw x
    · exact hw x
  · by_cases hold : (j 0).val < r ∨ ((j 0).val = r ∧ (j 1).val < 128 * c)
    · exact Or.inl (hg j hold)
    right
    have hj0 : (j 0).val = r := by omega
    have hlo : 128 * c ≤ (j 1).val := by omega
    have hhi : (j 1).val < 128 * c + 128 := by omega
    have hu : ((j 1).val - 128 * c) / 16 < 8 := by omega
    have hu1 : 128 * c + 16 * (((j 1).val - 128 * c) / 16) ≤ (j 1).val := by omega
    have hu2 : (j 1).val < 128 * c + 16 * (((j 1).val - 128 * c) / 16) + 16 := by omega
    generalize ((j 1).val - 128 * c) / 16 = u at hu hu1 hu2
    have h8 : u = 7 ∨ u = 6 ∨ u = 5 ∨ u = 4 ∨ u = 3 ∨ u = 2 ∨ u = 1 ∨ u = 0 := by omega
    rcases h8 with rfl | rfl | rfl | rfl | rfl | rfl | rfl | rfl
    · exact ⟨_, List.Mem.head _, pfx_mem_piece r c off inb hoff 7 j hj0 (by simpa using hu1) (by simpa using hu2)⟩
    · exact ⟨_, List.Mem.tail _ (List.Mem.head _), pfx_mem_piece r c off inb hoff 6 j hj0 (by simpa using hu1) (by simpa using hu2)⟩
    · exact ⟨_, List.Mem.tail _ (List.Mem.tail _ (List.Mem.head _)), pfx_mem_piece r c off inb hoff 5 j hj0 (by simpa using hu1) (by simpa using hu2)⟩
    · exact ⟨_, List.Mem.tail _ (List.Mem.tail _ (List.Mem.tail _ (List.Mem.head _))), pfx_mem_piece r c off inb hoff 4 j hj0 (by simpa using hu1) (by simpa using hu2)⟩
    · exact ⟨_, List.Mem.tail _ (List.Mem.tail _ (List.Mem.tail _ (List.Mem.tail _ (List.Mem.head _)))), pfx_mem_piece r c off inb hoff 3 j hj0 (by simpa using hu1) (by simpa using hu2)⟩
    · exact ⟨_, List.Mem.tail _ (List.Mem.tail _ (List.Mem.tail _ (List.Mem.tail _ (List.Mem.tail _ (List.Mem.head _))))), pfx_mem_piece r c off inb hoff 2 j hj0 (by simpa using hu1) (by simpa using hu2)⟩
    · exact ⟨_, List.Mem.tail _ (List.Mem.tail _ (List.Mem.tail _ (List.Mem.tail _ (List.Mem.tail _ (List.Mem.tail _ (List.Mem.head _)))))), pfx_mem_piece r c off inb hoff 1 j hj0 (by simpa using hu1) (by simpa using hu2)⟩
    · exact ⟨_, List.Mem.tail _ (List.Mem.tail _ (List.Mem.tail _ (List.Mem.tail _ (List.Mem.tail _ (List.Mem.tail _ (List.Mem.tail _ (List.Mem.head _))))))), pfx_mem_piece r c off inb hoff 0 j hj0 (by simpa using hu1) (by simpa using hu2)⟩

def pfx_invA (d : Dev nD) (L : grid0.Coords) (k : Nat) (_ : PUnit) : sProp 𝕄 :=
  iprop(∃ f : Vec F S8x4096 .f32, ⌜∀ j : S8x4096.Idx, (j 0).val < k → f j = pfxZ⌝
    ∗ ((blkA).view.loc (pfxThr d L) ↦{fullShare} f))

def pfx_invA2 (d : Dev nD) (L : grid0.Coords) (k1 : Nat) (k : Nat) (_ : PUnit) : sProp 𝕄 :=
  iprop(∃ f : Vec F S8x4096 .f32, ⌜∀ j : S8x4096.Idx, ((j 0).val < k1 ∨ ((j 0).val = k1 ∧ (j 1).val < 128 * k)) → f j = pfxZ⌝
    ∗ ((blkA).view.loc (pfxThr d L) ↦{fullShare} f))

def pfx_invB (d : Dev nD) (L : grid0.Coords) (k : Nat) (_ : PUnit) : sProp 𝕄 :=
  iprop(∃ f : Vec F S8x4096 .f32, ⌜∀ j : S8x4096.Idx, (j 0).val < k → f j = pfxZ⌝
    ∗ ((blkB).view.loc (pfxThr d L) ↦{fullShare} f))
def pfx_invB2 (d : Dev nD) (L : grid0.Coords) (k1 : Nat) (k : Nat) (_ : PUnit) : sProp 𝕄 :=
  iprop(∃ f : Vec F S8x4096 .f32, ⌜∀ j : S8x4096.Idx, ((j 0).val < k1 ∨ ((j 0).val = k1 ∧ (j 1).val < 128 * k)) → f j = pfxZ⌝
    ∗ ((blkB).view.loc (pfxThr d L) ↦{fullShare} f))

theorem pfx_zeroA_step (k1 : Fin k0_t1_loop.trips) (k2 : Fin k0_t2_loop.trips) (g : Vec F S8x4096 .f32)
    (hg : ∀ j : S8x4096.Idx, ((j 0).val < k1.val ∨ ((j 0).val = k1.val ∧ (j 1).val < 128 * k2.val)) → g j = pfxZ) :
    ∀ j : S8x4096.Idx, ((j 0).val < k1.val ∨ ((j 0).val = k1.val ∧ (j 1).val < 128 * (k2.val + 1))) →
      ((blkA).view.writes (Elt F) g
        [⟨Rect.unit (s := S8x4096) (k0_off2 k1 k2 112#32) S1x16.size (k0_off2_inb k1 k2 7), shapeCast S1x16 (k0_pay2 (F := F)) shapeCasts_S16_S1x16⟩,
        ⟨Rect.unit (s := S8x4096) (k0_off2 k1 k2 96#32) S1x16.size (k0_off2_inb k1 k2 6), shapeCast S1x16 (k0_pay2 (F := F)) shapeCasts_S16_S1x16⟩,
        ⟨Rect.unit (s := S8x4096) (k0_off2 k1 k2 80#32) S1x16.size (k0_off2_inb k1 k2 5), shapeCast S1x16 (k0_pay2 (F := F)) shapeCasts_S16_S1x16⟩,
        ⟨Rect.unit (s := S8x4096) (k0_off2 k1 k2 64#32) S1x16.size (k0_off2_inb k1 k2 4), shapeCast S1x16 (k0_pay2 (F := F)) shapeCasts_S16_S1x16⟩,
        ⟨Rect.unit (s := S8x4096) (k0_off2 k1 k2 48#32) S1x16.size (k0_off2_inb k1 k2 3), shapeCast S1x16 (k0_pay2 (F := F)) shapeCasts_S16_S1x16⟩,
        ⟨Rect.unit (s := S8x4096) (k0_off2 k1 k2 32#32) S1x16.size (k0_off2_inb k1 k2 2), shapeCast S1x16 (k0_pay2 (F := F)) shapeCasts_S16_S1x16⟩,
        ⟨Rect.unit (s := S8x4096) (k0_off2 k1 k2 16#32) S1x16.size (k0_off2_inb k1 k2 1), shapeCast S1x16 (k0_pay2 (F := F)) shapeCasts_S16_S1x16⟩,
        ⟨Rect.unit (s := S8x4096) (k0_off2 k1 k2 0#32) S1x16.size (k0_off2_inb k1 k2 0), shapeCast S1x16 (k0_pay2 (F := F)) shapeCasts_S16_S1x16⟩]) j = pfxZ := by
  intro j hj
  exact pfx_zero_step (F := F) (blkA).view g k1.val k2.val (fun u => k0_off2 k1 k2 (BitVec.ofNat 32 (16 * u.val)))
    (fun u => Gen.k0_off2_inb k1 k2 u) (fun u => Gen.k0_off2_eq k1 k2 u) _ (fun x => pfx_pay2_cast x) hg j hj

theorem pfx_zeroB_step (k3 : Fin k0_t3_loop.trips) (k4 : Fin k0_t4_loop.trips) (g : Vec F S8x4096 .f32)
    (hg : ∀ j : S8x4096.Idx, ((j 0).val < k3.val ∨ ((j 0).val = k3.val ∧ (j 1).val < 128 * k4.val)) → g j = pfxZ) :
    ∀ j : S8x4096.Idx, ((j 0).val < k3.val ∨ ((j 0).val = k3.val ∧ (j 1).val < 128 * (k4.val + 1))) →
      ((blkB).view.writes (Elt F) g
        [⟨Rect.unit (s := S8x4096) (k0_off3 k3 k4 112#32) S1x16.size (k0_off3_inb k3 k4 7), shapeCast S1x16 (k0_pay2 (F := F)) shapeCasts_S16_S1x16⟩,
        ⟨Rect.unit (s := S8x4096) (k0_off3 k3 k4 96#32) S1x16.size (k0_off3_inb k3 k4 6), shapeCast S1x16 (k0_pay2 (F := F)) shapeCasts_S16_S1x16⟩,
        ⟨Rect.unit (s := S8x4096) (k0_off3 k3 k4 80#32) S1x16.size (k0_off3_inb k3 k4 5), shapeCast S1x16 (k0_pay2 (F := F)) shapeCasts_S16_S1x16⟩,
        ⟨Rect.unit (s := S8x4096) (k0_off3 k3 k4 64#32) S1x16.size (k0_off3_inb k3 k4 4), shapeCast S1x16 (k0_pay2 (F := F)) shapeCasts_S16_S1x16⟩,
        ⟨Rect.unit (s := S8x4096) (k0_off3 k3 k4 48#32) S1x16.size (k0_off3_inb k3 k4 3), shapeCast S1x16 (k0_pay2 (F := F)) shapeCasts_S16_S1x16⟩,
        ⟨Rect.unit (s := S8x4096) (k0_off3 k3 k4 32#32) S1x16.size (k0_off3_inb k3 k4 2), shapeCast S1x16 (k0_pay2 (F := F)) shapeCasts_S16_S1x16⟩,
        ⟨Rect.unit (s := S8x4096) (k0_off3 k3 k4 16#32) S1x16.size (k0_off3_inb k3 k4 1), shapeCast S1x16 (k0_pay2 (F := F)) shapeCasts_S16_S1x16⟩,
        ⟨Rect.unit (s := S8x4096) (k0_off3 k3 k4 0#32) S1x16.size (k0_off3_inb k3 k4 0), shapeCast S1x16 (k0_pay2 (F := F)) shapeCasts_S16_S1x16⟩]) j = pfxZ := by
  intro j hj
  exact pfx_zero_step (F := F) (blkB).view g k3.val k4.val (fun u => k0_off3 k3 k4 (BitVec.ofNat 32 (16 * u.val)))
    (fun u => Gen.k0_off3_inb k3 k4 u) (fun u => Gen.k0_off3_eq k3 k4 u) _ (fun x => pfx_pay2_cast x) hg j hj

theorem pfx_wp_then_pure {α β : Type} (thr : Thread nD τ) (p : Prog (TpuEff nD τ sig (Elt F) Λ₀ thr.2) α) (b : β)
    (Φ : β → sProp 𝕄) :
    wp frame (wpE (defs₀ (F := F)) 𝒱₀ thr none) Set.univ p (fun _ => Φ b)
      ⊢ wp frame (wpE (defs₀ (F := F)) 𝒱₀ thr none) Set.univ (p >>= fun _ => pure b) Φ := by
  rw [wp_bind]
  exact wp_mono _ _ _ fun _ => le_wp_ret _ _ _ _ _

theorem pfx_part11 (qw qm : PosShare TreeShare) (O : CellTallies nD τ sig (HIx 2)) (W : Waits sig (HIx 2))
    (fA : Buf (Elt F) ((pfxThr d L).loc cc0_scratch0)) (fB : Buf (Elt F) ((pfxThr d L).loc cc0_scratch1))
    (fw : Buf (Elt F) ((pfxThr d L).loc cc0_scratch2)) (fm : Buf (Elt F) ((pfxThr d L).loc cc0_scratch3))
    (Φ : (Σ' (_ : BitVec 32), FVec F S16 .f32) → sProp 𝕄) :
    iprop(Transfers.MayWaits (pfxThr d L) (none : HIx 2) O
        ∗ ((wW).view.loc (pfxThr d L) ↦{qw} m (wLoc d))
        ∗ ((mW).view.loc (pfxThr d L) ↦{qm} m (mLoc d))
        ∗ ((blkA).view.loc (pfxThr d L) ↦{fullShare} fA)
        ∗ ((blkB).view.loc (pfxThr d L) ↦{fullShare} fB)
        ∗ ((wvS).view.loc (pfxThr d L) ↦{fullShare} fw)
        ∗ ((mvS).view.loc (pfxThr d L) ↦{fullShare} fm)
        ∗ semVal (pfxThr d L, SemLoc.dma cc0_scoped0.sem) 0
        ∗ semVal (pfxThr d L, SemLoc.dma cc0_scoped1.sem) 0
        ∗ owes (pfxThr d L) O W
        ∗ (∀ W', ⌜∀ p ∈ W', p ∈ W ∨ p.2 = none⌝ -∗
            (Transfers.MayWaits (pfxThr d L) (none : HIx 2) O
              ∗ ((wW).view.loc (pfxThr d L) ↦{qw} m (wLoc d))
              ∗ ((mW).view.loc (pfxThr d L) ↦{qm} m (mLoc d))
              ∗ ((blkA).view.loc (pfxThr d L) ↦{fullShare} (fun _ => pfxZ))
              ∗ ((blkB).view.loc (pfxThr d L) ↦{fullShare} (fun _ => pfxZ))
              ∗ ((wvS).view.loc (pfxThr d L) ↦{fullShare} pfxWv m d L)
              ∗ ((mvS).view.loc (pfxThr d L) ↦{fullShare} pfxMv m d L)
              ∗ semVal (pfxThr d L, SemLoc.dma cc0_scoped0.sem) 0
              ∗ semVal (pfxThr d L, SemLoc.dma cc0_scoped1.sem) 0
              ∗ owes (pfxThr d L) O W') -∗
            wp frame (wpE (defs₀ (F := F)) 𝒱₀ (pfxThr d L) none) Set.univ
              (Scf.Loop.for k0_t5_loop k0_t5_ok ⟨⟩
                (k0_t5_body L wW (Memref.isWhole_whole _) mW (Memref.isWhole_whole _) dW (Memref.isWhole_whole _)
                  blkA (Memref.isWhole_whole _) blkB (Memref.isWhole_whole _) wvS (Memref.isWhole_whole _) mvS (Memref.isWhole_whole _)
                  cc0_scratch4 cc0_scratch5 cc0_scoped0 cc0_scoped1))
              (fun _ => Φ ⟨pfxWid L, k0_pay2⟩)))
      ⊢ wp frame (wpE (defs₀ (F := F)) 𝒱₀ (pfxThr d L) none) Set.univ
          (k0_part11 L wW (Memref.isWhole_whole _) mW (Memref.isWhole_whole _) dW (Memref.isWhole_whole _)
            blkA (Memref.isWhole_whole _) blkB (Memref.isWhole_whole _) wvS (Memref.isWhole_whole _) mvS (Memref.isWhole_whole _)
            cc0_scratch4 cc0_scratch5 cc0_scoped0 cc0_scoped1) Φ := by
  rw [k0_part11_eq_skeleton]
  unfold k0_part11_skel
  iintro ⟨#Hmw, Hw, Hm, HA, HB, Hwv, Hmv, Hs0, Hs1, HO, Hk⟩
  sl_exec

  sl_for (pfx_invA (F := F) d L) $$ [HA]
  case region =>
    intro k1 _
    unfold pfx_invA
    iintro ⟨%f, %hf, HA⟩
    sl_exec
    sl_for (pfx_invA2 (F := F) d L k1.val) $$ [HA]
    case region =>
      intro k2 _
      unfold pfx_invA2
      iintro ⟨%g, %hg, HA⟩
      sl_exec
      sl_step
      iexists _
      isplitr
      pick_goal 2
      · iexact HA
      · ipureintro
        exact pfx_zeroA_step k1 k2 g hg
    · unfold pfx_invA2
      iexists f
      isplitr
      · ipureintro
        intro j hj
        exact hf j (by omega)
      · iexact HA
    iintro %_ HI
    unfold pfx_invA2
    icases HI with ⟨%g, %hg, HA⟩
    sl_exec
    sl_step
    iexists g
    isplitr
    · ipureintro
      intro j hj
      have ht : Scf.trips k0_t2_loop.lb k0_t2_loop.ub k0_t2_loop.st = 32 := by decide
      rw [ht] at hg
      have h1 : (j 1).val < 4096 := (j 1).isLt
      exact hg j (by omega)
    · iexact HA
  · unfold pfx_invA
    iexists fA
    isplitr
    · ipureintro
      intro j hj
      exact absurd hj (Nat.not_lt_zero _)
    · iexact HA
  iintro %_ HI
  unfold pfx_invA
  icases HI with ⟨%fA', %hfA', HA⟩
  have eA : fA' = fun _ => pfxZ := by
    funext j
    have ht : Scf.trips k0_t1_loop.lb k0_t1_loop.ub k0_t1_loop.st = 8 := by decide
    rw [ht] at hfA'
    exact hfA' j (j 0).isLt
  subst eA
  sl_exec

  sl_for (pfx_invB (F := F) d L) $$ [HB]
  case region =>
    intro k3 _
    unfold pfx_invB
    iintro ⟨%f, %hf, HB⟩
    sl_exec
    sl_for (pfx_invB2 (F := F) d L k3.val) $$ [HB]
    case region =>
      intro k4 _
      unfold pfx_invB2
      iintro ⟨%g, %hg, HB⟩
      sl_exec
      sl_step
      iexists _
      isplitr
      pick_goal 2
      · iexact HB
      · ipureintro
        exact pfx_zeroB_step k3 k4 g hg
    · unfold pfx_invB2
      iexists f
      isplitr
      · ipureintro
        intro j hj
        exact hf j (by omega)
      · iexact HB
    iintro %_ HI
    unfold pfx_invB2
    icases HI with ⟨%g, %hg, HB⟩
    sl_exec
    sl_step
    iexists g
    isplitr
    · ipureintro
      intro j hj
      have ht : Scf.trips k0_t4_loop.lb k0_t4_loop.ub k0_t4_loop.st = 32 := by decide
      rw [ht] at hg
      have h1 : (j 1).val < 4096 := (j 1).isLt
      exact hg j (by omega)
    · iexact HB
  · unfold pfx_invB
    iexists fB
    isplitr
    · ipureintro
      intro j hj
      exact absurd hj (Nat.not_lt_zero _)
    · iexact HB
  iintro %_ HI
  unfold pfx_invB
  icases HI with ⟨%fB', %hfB', HB⟩
  have eB : fB' = fun _ => pfxZ := by
    funext j
    have ht : Scf.trips k0_t3_loop.lb k0_t3_loop.ub k0_t3_loop.st = 8 := by decide
    rw [ht] at hfB'
    exact hfB' j (j 0).isLt
  subst eB
  sl_exec

  have eW : (wvS).view.write (Elt F) fw (pfx_part11.sl.dma0 m d L) Finset.univ = pfxWv m d L := View.write_whole_univ _ _ _
  have eM : (mvS).view.write (Elt F) fm (pfx_part11.sl.dma0_1 m d L) Finset.univ = pfxMv m d L := View.write_whole_univ _ _ _
  rw [eW, eM]
  have hW'' : ∀ p ∈ insert (SemLoc.dma cc0_scoped1.sem, (default : HIx 2)) (insert (SemLoc.dma cc0_scoped0.sem, (default : HIx 2)) W),
      p ∈ W ∨ p.2 = none := by
    intro p hp
    rcases Finset.mem_insert.mp hp with hp | hp
    · exact .inr (hp ▸ rfl)
    rcases Finset.mem_insert.mp hp with hp | hp
    · exact .inr (hp ▸ rfl)
    · exact .inl hp
  iapply (pfx_wp_then_pure (F := F) (pfxThr d L) _ _ Φ)
  iapply Hk $$ %_ %hW'' [Hw Hm HA HB Hwv Hmv Hs0 Hs1 HO]
  isplitr; · iexact Hmw
  isplitl [Hw]; · iexact Hw
  isplitl [Hm]; · iexact Hm
  isplitl [HA]; · iexact HA
  isplitl [HB]; · iexact HB
  isplitl [Hwv]; · iexact Hwv
  isplitl [Hmv]; · iexact Hmv
  isplitl [Hs0]; · iexact Hs0
  isplitl [Hs1]; · iexact Hs1
  iexact HO

end Cert.Proof.KI

end
-- ==== Proof.KI.Tile0p11.lean ====
import proofs.«207445_g73023033966933_cont_9to1_m_863_36_alg».proof.Proof.KI.Tile0Defs
import proofs.«207445_g73023033966933_cont_9to1_m_863_36_alg».proof.Proof.KI.Prefix0

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "wV" => (Memref.whole Cert.KernelIdeal.main_arg1_scv : Memref Cert.KernelIdeal.sig Kind.scVector Space.hbm Cert.KernelIdeal.S4096x128 EltTy.f32)
local notation "mV" => (Memref.whole Cert.KernelIdeal.main_arg2_scv : Memref Cert.KernelIdeal.sig Kind.scVector Space.hbm Cert.KernelIdeal.S4096x128 EltTy.i32)
local notation "dV" => (Memref.whole Cert.KernelIdeal.main_v1_scv : Memref Cert.KernelIdeal.sig Kind.scVector Space.hbm Cert.KernelIdeal.S1536x4096 EltTy.f32)
local notation "bA" => (Memref.whole Cert.KernelIdeal.cc0_scratch0 : Memref Cert.KernelIdeal.sig Kind.scVector Space.vmem Cert.KernelIdeal.S8x4096 EltTy.f32)
local notation "bB" => (Memref.whole Cert.KernelIdeal.cc0_scratch1 : Memref Cert.KernelIdeal.sig Kind.scVector Space.vmem Cert.KernelIdeal.S8x4096 EltTy.f32)
local notation "sW" => (Memref.whole Cert.KernelIdeal.cc0_scratch2 : Memref Cert.KernelIdeal.sig Kind.scVector Space.vmem Cert.KernelIdeal.S48x128 EltTy.f32)
local notation "sM" => (Memref.whole Cert.KernelIdeal.cc0_scratch3 : Memref Cert.KernelIdeal.sig Kind.scVector Space.vmem Cert.KernelIdeal.S48x128 EltTy.i32)

variable [FloatOps F] (m : (ℓ : Loc nD τ sig) → Buf (Elt F) ℓ)

section Tile

variable (d : Dev nD) (L : grid0.Coords)

local notation "THR" => V d (cV L) (jV L)
local notation "WP" => wp frame (wpE (defs₀ (F := F)) 𝒱₀ (V d (cV L) (jV L)) none) Set.univ
local notation "AT[" f "]" => f L (wV) (Memref.isWhole_whole _) (mV) (Memref.isWhole_whole _) (dV) (Memref.isWhole_whole _) (bA) (Memref.isWhole_whole _) (bB) (Memref.isWhole_whole _) (sW) (Memref.isWhole_whole _) (sM) (Memref.isWhole_whole _) cc0_scratch4 cc0_scratch5 cc0_scoped0 cc0_scoped1

variable (O : CellTallies nD τ sig (HIx 2))
variable (qw qm : PosShare TreeShare)

theorem t0_fm_lt (hpre : PreOK m) : ∀ i, ((t0_fm m d L) i).toNat < 4096 := by
  intro i
  unfold t0_fm
  rw [View.read_apply]
  exact hpre d _

theorem part11_spec : T0Part11 m d L := by
  intro O qw qm hpre hO W Φ
  iintro ⟨#Hlv, Hw, Hm, ⟨%fA, HA⟩, ⟨%fB, HB⟩, ⟨%fw, Hwv⟩, ⟨%fm, Hmv⟩, Hs0, Hs1, HO, Hk⟩
  ihave Hmw := ((K (F := F)).mayWaits_none (thr := THR) hO) $$ Hlv
  iapply (pfx_part11 (F := F) m d L qw qm O W fA fB fw fm Φ)
  isplitl [Hmw]; · iexact Hmw
  isplitl [Hw]; · iexact Hw
  isplitl [Hm]; · iexact Hm
  isplitl [HA]; · iexact HA
  isplitl [HB]; · iexact HB
  isplitl [Hwv]; · iexact Hwv
  isplitl [Hmv]; · iexact Hmv
  isplitl [Hs0]; · iexact Hs0
  isplitl [Hs1]; · iexact Hs1
  isplitl [HO]; · iexact HO
  iintro %W' %hW' ⟨Hmw, Hw, Hm, HA, HB, Hwv, Hmv, Hs0, Hs1, HO⟩

  iapply (wp_wand_r frame (wpE (defs₀ (F := F)) 𝒱₀ THR none) Set.univ)
  isplitl [HA Hwv Hmv]
  · iapply (t0_loop_t5 (F := F) d L (pfxWv m d L) (pfxMv m d L) (t0_fm_lt m d L hpre) (fun _ => pfxZ))
    isplitl [HA]; · iexact HA
    isplitl [Hwv]; · iexact Hwv
    iexact Hmv
  iintro %_ ⟨HA, Hwv, Hmv⟩
  unfold pfxWid
  iapply Hk $$ %W' %hW' [Hw Hm HA HB Hwv Hmv Hs0 Hs1 HO]
  unfold t0_fix
  isplitl [Hw Hm Hwv Hmv Hs0 Hs1]
  · isplitl [Hw]; · iexact Hw
    isplitl [Hm]; · iexact Hm
    isplitl [Hwv]; · iexact Hwv
    isplitl [Hmv]; · iexact Hmv
    isplitl [Hs0]; · iexact Hs0
    iexact Hs1
  isplitl [HA]; · iexact HA
  isplitl [HB]; · iexact HB
  iexact HO

end Tile

end Cert.Proof.KI

end
-- ==== Proof.KI.Tile0Close.lean ====
import proofs.«207445_g73023033966933_cont_9to1_m_863_36_alg».proof.Proof.KI.Tile0Body
import proofs.«207445_g73023033966933_cont_9to1_m_863_36_alg».proof.Proof.KI.Tile0
import proofs.«207445_g73023033966933_cont_9to1_m_863_36_alg».proof.Proof.KI.Tile0c
import proofs.«207445_g73023033966933_cont_9to1_m_863_36_alg».proof.Proof.KI.Tile0p11
import proofs.«207445_g73023033966933_cont_9to1_m_863_36_alg».proof.Proof.KI.Tile0Obl

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F] (m : (ℓ : Loc nD τ sig) → Buf (Elt F) ℓ)

theorem tileObl0_closed (hpre : PreOK m) : (K (F := F)).TileObl (D (F := F)) 𝒱 (P m) v₀ 0 :=
  tileObl0 m facts hpre (tile0Body_of m (part11_spec m) (part12_spec m) (part13_spec m) (tail_spec m) facts hpre)

end Cert.Proof.KI

end
-- ==== Proof.KI.Tile1Defs.lean ====
import proofs.«207445_g73023033966933_cont_9to1_m_863_36_alg».proof.Proof.KI.Common
import proofs.«207445_g73023033966933_cont_9to1_m_863_36_alg».proof.Proof.SpecF
import proofs.«207445_g73023033966933_cont_9to1_m_863_36_alg».proof.Proof.KI.Scatter

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "wV" => (Memref.whole Cert.KernelIdeal.main_arg1_scv : Memref Cert.KernelIdeal.sig Kind.scVector Space.hbm Cert.KernelIdeal.S4096x128 EltTy.f32)
local notation "mV" => (Memref.whole Cert.KernelIdeal.main_arg2_scv : Memref Cert.KernelIdeal.sig Kind.scVector Space.hbm Cert.KernelIdeal.S4096x128 EltTy.i32)
local notation "dV" => (Memref.whole Cert.KernelIdeal.main_v4_scv : Memref Cert.KernelIdeal.sig Kind.scVector Space.hbm Cert.KernelIdeal.S2560x4096 EltTy.f32)
local notation "bA" => (Memref.whole Cert.KernelIdeal.cc2_scratch0 : Memref Cert.KernelIdeal.sig Kind.scVector Space.vmem Cert.KernelIdeal.S8x4096 EltTy.f32)
local notation "bB" => (Memref.whole Cert.KernelIdeal.cc2_scratch1 : Memref Cert.KernelIdeal.sig Kind.scVector Space.vmem Cert.KernelIdeal.S8x4096 EltTy.f32)
local notation "sW" => (Memref.whole Cert.KernelIdeal.cc2_scratch2 : Memref Cert.KernelIdeal.sig Kind.scVector Space.vmem Cert.KernelIdeal.S80x128 EltTy.f32)
local notation "sM" => (Memref.whole Cert.KernelIdeal.cc2_scratch3 : Memref Cert.KernelIdeal.sig Kind.scVector Space.vmem Cert.KernelIdeal.S80x128 EltTy.i32)

abbrev t1_cV (L : grid2.Coords) : Fin τ.nSC := (L 0).castLE hcore2
abbrev t1_jV (L : grid2.Coords) : Fin τ.nSub := (L 1).castLE hsub2

abbrev t1_wRows (L : grid2.Coords) : Memref sig .scVector .hbm S80x128 .f32 :=
  (wV).slice (Rect.unit (s := S4096x128) (k2_off1 L) S80x128.size (k2_off1_inb L)) (fun _ => rfl)
abbrev t1_mRows (L : grid2.Coords) : Memref sig .scVector .hbm S80x128 .i32 :=
  (mV).slice (Rect.unit (s := S4096x128) (k2_off1 L) S80x128.size (k2_off1_inb L)) (fun _ => rfl)

abbrev t1_piece0 (L : grid2.Coords) : Memref sig .scVector .hbm S8x4096 .f32 :=
  (dV).slice (Rect.unit (s := S2560x4096) (k2_off5 L 0#32) S8x4096.size (k2_off5_inb L 0)) (fun _ => rfl)
abbrev t1_piece1 (L : grid2.Coords) : Memref sig .scVector .hbm S8x4096 .f32 :=
  (dV).slice (Rect.unit (s := S2560x4096) (k2_off5 L 8#32) S8x4096.size (k2_off5_inb L 1)) (fun _ => rfl)
abbrev t1_piece2 (L : grid2.Coords) : Memref sig .scVector .hbm S8x4096 .f32 :=
  (dV).slice (Rect.unit (s := S2560x4096) (k2_off5 L 16#32) S8x4096.size (k2_off5_inb L 2)) (fun _ => rfl)
abbrev t1_piece3 (L : grid2.Coords) : Memref sig .scVector .hbm S8x4096 .f32 :=
  (dV).slice (Rect.unit (s := S2560x4096) (k2_off5 L 24#32) S8x4096.size (k2_off5_inb L 3)) (fun _ => rfl)
abbrev t1_piece4 (L : grid2.Coords) : Memref sig .scVector .hbm S8x4096 .f32 :=
  (dV).slice (Rect.unit (s := S2560x4096) (k2_off5 L 32#32) S8x4096.size (k2_off5_inb L 4)) (fun _ => rfl)
abbrev t1_piece5 (L : grid2.Coords) : Memref sig .scVector .hbm S8x4096 .f32 :=
  (dV).slice (Rect.unit (s := S2560x4096) (k2_off5 L 40#32) S8x4096.size (k2_off5_inb L 5)) (fun _ => rfl)
abbrev t1_piece6 (L : grid2.Coords) : Memref sig .scVector .hbm S8x4096 .f32 :=
  (dV).slice (Rect.unit (s := S2560x4096) (k2_off5 L 48#32) S8x4096.size (k2_off5_inb L 6)) (fun _ => rfl)
abbrev t1_piece7 (L : grid2.Coords) : Memref sig .scVector .hbm S8x4096 .f32 :=
  (dV).slice (Rect.unit (s := S2560x4096) (k2_off5 L 56#32) S8x4096.size (k2_off5_inb L 7)) (fun _ => rfl)
abbrev t1_piece8 (L : grid2.Coords) : Memref sig .scVector .hbm S8x4096 .f32 :=
  (dV).slice (Rect.unit (s := S2560x4096) (k2_off5 L 64#32) S8x4096.size (k2_off5_inb L 8)) (fun _ => rfl)
abbrev t1_piece9 (L : grid2.Coords) : Memref sig .scVector .hbm S8x4096 .f32 :=
  (dV).slice (Rect.unit (s := S2560x4096) (k2_off5 L 72#32) S8x4096.size (k2_off5_inb L 9)) (fun _ => rfl)

variable [FloatOps F]

def t1_z : Elt F .f32 := (Scalar.ofBits .f32 0x00000000#32 : F .f32)

def t1_wr (fw : Vec F S80x128 .f32) (sb : Fin 10) : Fin 8 → Fin 128 → Elt F .f32 :=
  fun r k => fw (ValueIdx.ix2 (⟨8 * sb.val + r.val, by have := sb.isLt; have := r.isLt; omega⟩ : Fin 80) k)
def t1_mr (fm : IVec S80x128 32) (sb : Fin 10) : Fin 8 → Fin 128 → BitVec 32 :=
  fun r k => fm (ValueIdx.ix2 (⟨8 * sb.val + r.val, by have := sb.isLt; have := r.isLt; omega⟩ : Fin 80) k)

def t1_blk (fw : Vec F S80x128 .f32) (fm : IVec S80x128 32) (sb : Fin 10) : Vec F S8x4096 .f32 :=
  SpecF.foldAdd (t1_wr fw sb) (t1_mr fm sb) 64 (fun _ => t1_z)

theorem t1_clr_blk (fw : Vec F S80x128 .f32) (fm : IVec S80x128 32) (hfm : ∀ i, (fm i).toNat < 4096) (sb : Fin 10) :
    SpecF.foldClr t1_z (t1_mr fm sb) 64 (t1_blk fw fm sb) = fun _ => t1_z :=
  SpecF.foldClr_foldAdd _ _ (fun r k => hfm _) _

theorem t1_add_z (fw : Vec F S80x128 .f32) (fm : IVec S80x128 32) (sb : Fin 10) :
    SpecF.foldAdd (t1_wr fw sb) (t1_mr fm sb) 64 (fun _ => t1_z) = t1_blk fw fm sb := rfl

variable (m : (ℓ : Loc nD τ sig) → Buf (Elt F) ℓ)

def t1_fw (d : Dev nD) (L : grid2.Coords) : Vec F S80x128 .f32 := (t1_wRows L).view.read (Elt F) (m (wLoc d))
def t1_fm (d : Dev nD) (L : grid2.Coords) : IVec S80x128 32 := (t1_mRows L).view.read (Elt F) (m (mLoc d))

def t1_tail (i : grid2.Coords) (arg2 : Memref sig .scVector .hbm S4096x128 .f32) (harg2 : arg2.IsWhole) (arg3 : Memref sig .scVector .hbm S4096x128 .i32) (harg3 : arg3.IsWhole) (arg4 : Memref sig .scVector .hbm S2560x4096 .f32) (harg4 : arg4.IsWhole) (arg5 : Memref sig .scVector .vmem S8x4096 .f32) (harg5 : arg5.IsWhole) (arg6 : Memref sig .scVector .vmem S8x4096 .f32) (harg6 : arg6.IsWhole) (arg7 : Memref sig .scVector .vmem S80x128 .f32) (harg7 : arg7.IsWhole) (arg8 : Memref sig .scVector .vmem S80x128 .i32) (harg8 : arg8.IsWhole) (arg9 : DmaSems sig S_) (arg10 : DmaSems sig S_) (v105_r0 : DmaSems sig S_) (v105_r1 : DmaSems sig S_) (v4 : FVec F S16 .f32) :
    Prog (TpuEff nD τ sig (Elt F) Λ₀ (.scVector ((i 0).castLE hcore2) ((i 1).castLE hsub2))) PUnit := do
  let v86 : Memref sig .scVector .hbm S8x4096 .f32 := arg4.slice (Rect.unit (s := S2560x4096) (k2_off5 i 64#32) S8x4096.size (k2_off5_inb i 8)) (fun _ => rfl)
  Prog.lift (.enqueueDma arg5 (.here v86) (.dma arg9.sem) harg5.wordExact (View.wordExact_bits rfl) ⟨Or.inl rfl, trivial⟩)
  let v90 : Memref sig .scVector .hbm S8x4096 .f32 := arg4.slice (Rect.unit (s := S2560x4096) (k2_off5 i 56#32) S8x4096.size (k2_off5_inb i 7)) (fun _ => rfl)
  Prog.lift (.waitDma2 arg10.sem arg6 v90 harg6.wordExact (View.wordExact_bits rfl))
  Scf.Loop.for k2_t21_loop k2_t21_ok ⟨⟩ (k2_t21_body i arg2 harg2 arg3 harg3 arg4 harg4 arg5 harg5 arg6 harg6 arg7 harg7 arg8 harg8 arg9 arg10 v105_r0 v105_r1 v4)
  Scf.Loop.for k2_t22_loop k2_t22_ok ⟨⟩ (k2_t22_body i arg2 harg2 arg3 harg3 arg4 harg4 arg5 harg5 arg6 harg6 arg7 harg7 arg8 harg8 arg9 arg10 v105_r0 v105_r1)
  let v96 : Memref sig .scVector .hbm S8x4096 .f32 := arg4.slice (Rect.unit (s := S2560x4096) (k2_off5 i 72#32) S8x4096.size (k2_off5_inb i 9)) (fun _ => rfl)
  Prog.lift (.enqueueDma arg6 (.here v96) (.dma arg10.sem) harg6.wordExact (View.wordExact_bits rfl) ⟨Or.inl rfl, trivial⟩)
  let v100 : Memref sig .scVector .hbm S8x4096 .f32 := arg4.slice (Rect.unit (s := S2560x4096) (k2_off5 i 64#32) S8x4096.size (k2_off5_inb i 8)) (fun _ => rfl)
  Prog.lift (.waitDma2 arg9.sem arg5 v100 harg5.wordExact (View.wordExact_bits rfl))
  let v104 : Memref sig .scVector .hbm S8x4096 .f32 := arg4.slice (Rect.unit (s := S2560x4096) (k2_off5 i 72#32) S8x4096.size (k2_off5_inb i 9)) (fun _ => rfl)
  Prog.lift (.waitDma2 arg10.sem arg6 v104 harg6.wordExact (View.wordExact_bits rfl))
  pure ⟨⟩

section Tile

variable (d : Dev nD) (L : grid2.Coords)

local notation "THR" => V d (t1_cV L) (t1_jV L)
local notation "WP" => wp frame (wpE (defs₀ (F := F)) 𝒱₀ (V d (t1_cV L) (t1_jV L)) none) Set.univ
local notation "AT[" f "]" => f L (wV) (Memref.isWhole_whole _) (mV) (Memref.isWhole_whole _) (dV) (Memref.isWhole_whole _) (bA) (Memref.isWhole_whole _) (bB) (Memref.isWhole_whole _) (sW) (Memref.isWhole_whole _) (sM) (Memref.isWhole_whole _) cc2_scratch4 cc2_scratch5 cc2_scoped0 cc2_scoped1

abbrev t1_cA : GSem nD τ sig := (V d (t1_cV L) (t1_jV L), .dma cc2_scratch4.sem)
abbrev t1_cB : GSem nD τ sig := (V d (t1_cV L) (t1_jV L), .dma cc2_scratch5.sem)
abbrev t1_cW : GSem nD τ sig := (V d (t1_cV L) (t1_jV L), .dma cc2_scoped0.sem)
abbrev t1_cM : GSem nD τ sig := (V d (t1_cV L) (t1_jV L), .dma cc2_scoped1.sem)

abbrev t1_own {sp : Space} {s : Shape} {e : EltTy} (M : Memref sig .scVector sp s e) (q : PosShare TreeShare)
    (f : Buf (Elt F) (M.view.loc (V d (t1_cV L) (t1_jV L)))) : sProp 𝕄 :=
  M.view.loc (V d (t1_cV L) (t1_jV L)) ↦[M.view.set]{q} f

abbrev t1_landed (P : Memref sig .scVector .hbm S8x4096 .f32) (B : Memref sig .scVector .vmem S8x4096 .f32)
    (g : Buf (Elt F) (P.view.loc (V d (t1_cV L) (t1_jV L)))) (blk : Buf (Elt F) (B.view.loc (V d (t1_cV L) (t1_jV L)))) :
    Buf (Elt F) (P.view.loc (V d (t1_cV L) (t1_jV L))) :=
  P.view.writes (Elt F) g [⟨Rect.whole S8x4096, ReadAs.same.apply (B.view.read (Elt F) blk)⟩]

abbrev t1_flight (sem : DmaSem sig) (P : Memref sig .scVector .hbm S8x4096 .f32) (B : Memref sig .scVector .vmem S8x4096 .f32)
    (g : Buf (Elt F) (P.view.loc (V d (t1_cV L) (t1_jV L)))) (blk : Buf (Elt F) (B.view.loc (V d (t1_cV L) (t1_jV L)))) : sProp 𝕄 :=
  Transfers.Flight (countersEmb (U := UU)) (V d (t1_cV L) (t1_jV L)) (.dma sem) (none : HIx 2) (P.view.amount (SemLoc.dma (sig := sig) sem))
    iprop(t1_own d L P fullShare (t1_landed d L P B g blk) ∗ t1_own d L B fullShare blk)

def t1_fix (qw qm : PosShare TreeShare) (fw : Vec F S80x128 .f32) (fm : IVec S80x128 32) : sProp 𝕄 :=
  iprop(((wV).view.loc THR ↦{qw} m (wLoc d)) ∗ ((mV).view.loc THR ↦{qm} m (mLoc d))
    ∗ ((sW).view.loc THR ↦{fullShare} fw) ∗ ((sM).view.loc THR ↦{fullShare} fm)
    ∗ semVal (t1_cW d L) 0 ∗ semVal (t1_cM d L) 0)

def t1_GOK (fw : Vec F S80x128 .f32) (fm : IVec S80x128 32) (G0 : Buf (Elt F) (d1Loc d)) : Prop :=
  (∀ j, G0 ((t1_piece0 L).view.emb j) = t1_blk fw fm 0 j)
  ∧ (∀ j, G0 ((t1_piece1 L).view.emb j) = t1_blk fw fm 1 j)
  ∧ (∀ j, G0 ((t1_piece2 L).view.emb j) = t1_blk fw fm 2 j)
  ∧ (∀ j, G0 ((t1_piece3 L).view.emb j) = t1_blk fw fm 3 j)
  ∧ (∀ j, G0 ((t1_piece4 L).view.emb j) = t1_blk fw fm 4 j)
  ∧ (∀ j, G0 ((t1_piece5 L).view.emb j) = t1_blk fw fm 5 j)
  ∧ (∀ j, G0 ((t1_piece6 L).view.emb j) = t1_blk fw fm 6 j)
  ∧ (∀ j, G0 ((t1_piece7 L).view.emb j) = t1_blk fw fm 7 j)
  ∧ (∀ j, G0 ((t1_piece8 L).view.emb j) = t1_blk fw fm 8 j)
  ∧ (∀ j, G0 ((t1_piece9 L).view.emb j) = t1_blk fw fm 9 j)

abbrev t1_pieceAt (off : Fin 2 → Nat) (inb : ∀ a, off a + S8x4096.size a ≤ S2560x4096.size a) : Memref sig .scVector .hbm S8x4096 .f32 :=
  (dV).slice (Rect.unit (s := S2560x4096) off S8x4096.size inb) (fun _ => rfl)

theorem t1_own_writes (off : Fin 2 → Nat) (inb : ∀ a, off a + S8x4096.size a ≤ S2560x4096.size a)
    (g : Buf (Elt F) (d1Loc d)) (w : S8x4096.Idx → Elt F .f32) (G0 : Buf (Elt F) (d1Loc d))
    (h : ∀ j, G0 ((t1_pieceAt off inb).view.emb j) = w j) :
    (t1_own d L (t1_pieceAt off inb) fullShare ((t1_pieceAt off inb).view.writes (Elt F) g [⟨Rect.whole S8x4096, w⟩]) : sProp 𝕄)
      = t1_own d L (t1_pieceAt off inb) fullShare G0 := by
  apply pointsTo_congr
  intro i hi
  obtain ⟨y, -, rfl⟩ := Finset.mem_map.mp hi
  rw [← View.write_univ_eq_writes_whole, View.writes_nil, View.write_emb_of_mem _ _ (Finset.mem_univ _), h y]
  rfl

def t1_tile (f : Buf (Elt F) (d1Loc d)) : sProp 𝕄 :=
  iprop((d1Loc d ↦[(t1_piece0 L).view.set]{fullShare} f)
    ∗ (d1Loc d ↦[(t1_piece1 L).view.set]{fullShare} f)
    ∗ (d1Loc d ↦[(t1_piece2 L).view.set]{fullShare} f)
    ∗ (d1Loc d ↦[(t1_piece3 L).view.set]{fullShare} f)
    ∗ (d1Loc d ↦[(t1_piece4 L).view.set]{fullShare} f)
    ∗ (d1Loc d ↦[(t1_piece5 L).view.set]{fullShare} f)
    ∗ (d1Loc d ↦[(t1_piece6 L).view.set]{fullShare} f)
    ∗ (d1Loc d ↦[(t1_piece7 L).view.set]{fullShare} f)
    ∗ (d1Loc d ↦[(t1_piece8 L).view.set]{fullShare} f)
    ∗ (d1Loc d ↦[(t1_piece9 L).view.set]{fullShare} f))

theorem t1_wholeA : WholeBlk (F := F) d (t1_cV L) (t1_jV L) (bA) (fun g => g) :=
  ⟨Memref.set_access_whole cc2_scratch0, Memref.read_access_whole (Elt F) cc2_scratch0, Memref.write_access_whole_univ (Elt F) cc2_scratch0⟩
theorem t1_wholeB : WholeBlk (F := F) d (t1_cV L) (t1_jV L) (bB) (fun g => g) :=
  ⟨Memref.set_access_whole cc2_scratch1, Memref.read_access_whole (Elt F) cc2_scratch1, Memref.write_access_whole_univ (Elt F) cc2_scratch1⟩

section Loops

variable (fw : Vec F S80x128 .f32) (fm : IVec S80x128 32)
variable (v1 : BitVec 32) (v4 : FVec F S16 .f32) (c0 v67 c40 : BitVec 32)

theorem t1_loop_t5 (hfm : ∀ i, (fm i).toNat < 4096) (blk : Vec F S8x4096 .f32) :
    (iprop(((bA).view.loc THR ↦{fullShare} blk) ∗ ((sW).view.loc THR ↦{fullShare} fw) ∗ ((sM).view.loc THR ↦{fullShare} fm)) : sProp 𝕄)
      ⊢ WP (Scf.Loop.for k2_t5_loop k2_t5_ok ⟨⟩ (AT[k2_t5_body])) fun _ => iprop(((bA).view.loc THR ↦{fullShare} SpecF.foldAdd (t1_wr fw 0) (t1_mr fm 0) 64 blk)
          ∗ ((sW).view.loc THR ↦{fullShare} fw) ∗ ((sM).view.loc THR ↦{fullShare} fm)) :=
  scat_loopAdd d _ _ (sW) (sM) (bA) (fun g => g) fw fm _ _ blk k2_t5_loop k2_t5_ok (by decide) _ fun k hk g => by
    unfold k2_t5_body k2_part1
    simp only [Prog.lift, Prog.bind_op, Prog.bind_ret, Prog.pure_eq_ret]
    exact tripAdd d _ _ (sW) (sM) (bA) (fun g => g) fw fm fw fm (fun _ => rfl) (fun _ => rfl) hfm (t1_wholeA d L) 0 (by decide) k.val hk g _ _ ((by decide +kernel : ∀ k : Fin k2_t5_loop.trips, k2_off4 k = ![8 * 0 + k.val / 8, 16 * (k.val % 8)]) k) k2_chk1.dec

theorem t1_loop_t6 (hfm : ∀ i, (fm i).toNat < 4096) (blk : Vec F S8x4096 .f32) :
    (iprop(((bB).view.loc THR ↦{fullShare} blk) ∗ ((sW).view.loc THR ↦{fullShare} fw) ∗ ((sM).view.loc THR ↦{fullShare} fm)) : sProp 𝕄)
      ⊢ WP (Scf.Loop.for k2_t6_loop k2_t6_ok ⟨⟩ (AT[k2_t6_body] v1 v4)) fun _ => iprop(((bB).view.loc THR ↦{fullShare} SpecF.foldAdd (t1_wr fw 1) (t1_mr fm 1) 64 blk)
          ∗ ((sW).view.loc THR ↦{fullShare} fw) ∗ ((sM).view.loc THR ↦{fullShare} fm)) :=
  scat_loopAdd d _ _ (sW) (sM) (bB) (fun g => g) fw fm _ _ blk k2_t6_loop k2_t6_ok (by decide) _ fun k hk g => by
    unfold k2_t6_body k2_part2
    simp only [Prog.lift, Prog.bind_op, Prog.bind_ret, Prog.pure_eq_ret]
    exact tripAdd d _ _ (sW) (sM) (bB) (fun g => g) fw fm fw fm (fun _ => rfl) (fun _ => rfl) hfm (t1_wholeB d L) 1 (by decide) k.val hk g _ _ ((by decide +kernel : ∀ k : Fin k2_t6_loop.trips, k2_off6 k = ![8 * 1 + k.val / 8, 16 * (k.val % 8)]) k) k2_chk2.dec

theorem t1_loop_t7 (hfm : ∀ i, (fm i).toNat < 4096) (blk : Vec F S8x4096 .f32) :
    (iprop(((bA).view.loc THR ↦{fullShare} blk) ∗ ((sW).view.loc THR ↦{fullShare} fw) ∗ ((sM).view.loc THR ↦{fullShare} fm)) : sProp 𝕄)
      ⊢ WP (Scf.Loop.for k2_t7_loop k2_t7_ok ⟨⟩ (AT[k2_t7_body] v1 (fun _ => t1_z))) fun _ => iprop(((bA).view.loc THR ↦{fullShare} SpecF.foldClr t1_z (t1_mr fm 0) 64 blk)
          ∗ ((sW).view.loc THR ↦{fullShare} fw) ∗ ((sM).view.loc THR ↦{fullShare} fm)) :=
  scat_loopClr d _ _ (sW) (sM) (bA) (fun g => g) fw fm _ _ blk k2_t7_loop k2_t7_ok (by decide) _ fun k hk g => by
    unfold k2_t7_body k2_part3
    simp only [Prog.lift, Prog.bind_op, Prog.bind_ret, Prog.pure_eq_ret]
    exact tripClr d _ _ (sW) (sM) (bA) (fun g => g) fw fm fw fm (fun _ => rfl) (fun _ => rfl) hfm (t1_wholeA d L) 0 (by decide) _ k.val hk g _ _ ((by decide +kernel : ∀ k : Fin k2_t7_loop.trips, k2_off7 k = ![8 * 0 + k.val / 8, 16 * (k.val % 8)]) k) k2_chk3.dec

theorem t1_loop_t8 (hfm : ∀ i, (fm i).toNat < 4096) (blk : Vec F S8x4096 .f32) :
    (iprop(((bA).view.loc THR ↦{fullShare} blk) ∗ ((sW).view.loc THR ↦{fullShare} fw) ∗ ((sM).view.loc THR ↦{fullShare} fm)) : sProp 𝕄)
      ⊢ WP (Scf.Loop.for k2_t8_loop k2_t8_ok ⟨⟩ (AT[k2_t8_body] v1 v4)) fun _ => iprop(((bA).view.loc THR ↦{fullShare} SpecF.foldAdd (t1_wr fw 2) (t1_mr fm 2) 64 blk)
          ∗ ((sW).view.loc THR ↦{fullShare} fw) ∗ ((sM).view.loc THR ↦{fullShare} fm)) :=
  scat_loopAdd d _ _ (sW) (sM) (bA) (fun g => g) fw fm _ _ blk k2_t8_loop k2_t8_ok (by decide) _ fun k hk g => by
    unfold k2_t8_body k2_part4
    simp only [Prog.lift, Prog.bind_op, Prog.bind_ret, Prog.pure_eq_ret]
    exact tripAdd d _ _ (sW) (sM) (bA) (fun g => g) fw fm fw fm (fun _ => rfl) (fun _ => rfl) hfm (t1_wholeA d L) 2 (by decide) k.val hk g _ _ ((by decide +kernel : ∀ k : Fin k2_t8_loop.trips, k2_off8 k = ![8 * 2 + k.val / 8, 16 * (k.val % 8)]) k) k2_chk4.dec

theorem t1_loop_t9 (hfm : ∀ i, (fm i).toNat < 4096) (blk : Vec F S8x4096 .f32) :
    (iprop(((bB).view.loc THR ↦{fullShare} blk) ∗ ((sW).view.loc THR ↦{fullShare} fw) ∗ ((sM).view.loc THR ↦{fullShare} fm)) : sProp 𝕄)
      ⊢ WP (Scf.Loop.for k2_t9_loop k2_t9_ok ⟨⟩ (AT[k2_t9_body] v1 (fun _ => t1_z) 0#32)) fun _ => iprop(((bB).view.loc THR ↦{fullShare} SpecF.foldClr t1_z (t1_mr fm 1) 64 blk)
          ∗ ((sW).view.loc THR ↦{fullShare} fw) ∗ ((sM).view.loc THR ↦{fullShare} fm)) :=
  scat_loopClr d _ _ (sW) (sM) (bB) (fun g => g) fw fm _ _ blk k2_t9_loop k2_t9_ok (by decide) _ fun k hk g => by
    unfold k2_t9_body k2_part5
    simp only [Prog.lift, Prog.bind_op, Prog.bind_ret, Prog.pure_eq_ret]
    exact tripClr d _ _ (sW) (sM) (bB) (fun g => g) fw fm fw fm (fun _ => rfl) (fun _ => rfl) hfm (t1_wholeB d L) 1 (by decide) _ k.val hk g _ _ ((by decide +kernel : ∀ k : Fin k2_t9_loop.trips, k2_off9 k = ![8 * 1 + k.val / 8, 16 * (k.val % 8)]) k) k2_chk5.dec

theorem t1_loop_t10 (hfm : ∀ i, (fm i).toNat < 4096) (blk : Vec F S8x4096 .f32) :
    (iprop(((bB).view.loc THR ↦{fullShare} blk) ∗ ((sW).view.loc THR ↦{fullShare} fw) ∗ ((sM).view.loc THR ↦{fullShare} fm)) : sProp 𝕄)
      ⊢ WP (Scf.Loop.for k2_t10_loop k2_t10_ok ⟨⟩ (AT[k2_t10_body] v1 v4 c0)) fun _ => iprop(((bB).view.loc THR ↦{fullShare} SpecF.foldAdd (t1_wr fw 3) (t1_mr fm 3) 64 blk)
          ∗ ((sW).view.loc THR ↦{fullShare} fw) ∗ ((sM).view.loc THR ↦{fullShare} fm)) :=
  scat_loopAdd d _ _ (sW) (sM) (bB) (fun g => g) fw fm _ _ blk k2_t10_loop k2_t10_ok (by decide) _ fun k hk g => by
    unfold k2_t10_body k2_part6
    simp only [Prog.lift, Prog.bind_op, Prog.bind_ret, Prog.pure_eq_ret]
    exact tripAdd d _ _ (sW) (sM) (bB) (fun g => g) fw fm fw fm (fun _ => rfl) (fun _ => rfl) hfm (t1_wholeB d L) 3 (by decide) k.val hk g _ _ ((by decide +kernel : ∀ k : Fin k2_t10_loop.trips, k2_off10 k = ![8 * 3 + k.val / 8, 16 * (k.val % 8)]) k) k2_chk6.dec

theorem t1_loop_t11 (hfm : ∀ i, (fm i).toNat < 4096) (blk : Vec F S8x4096 .f32) :
    (iprop(((bA).view.loc THR ↦{fullShare} blk) ∗ ((sW).view.loc THR ↦{fullShare} fw) ∗ ((sM).view.loc THR ↦{fullShare} fm)) : sProp 𝕄)
      ⊢ WP (Scf.Loop.for k2_t11_loop k2_t11_ok ⟨⟩ (AT[k2_t11_body] v1 (fun _ => t1_z) c0)) fun _ => iprop(((bA).view.loc THR ↦{fullShare} SpecF.foldClr t1_z (t1_mr fm 2) 64 blk)
          ∗ ((sW).view.loc THR ↦{fullShare} fw) ∗ ((sM).view.loc THR ↦{fullShare} fm)) :=
  scat_loopClr d _ _ (sW) (sM) (bA) (fun g => g) fw fm _ _ blk k2_t11_loop k2_t11_ok (by decide) _ fun k hk g => by
    unfold k2_t11_body k2_part7
    simp only [Prog.lift, Prog.bind_op, Prog.bind_ret, Prog.pure_eq_ret]
    exact tripClr d _ _ (sW) (sM) (bA) (fun g => g) fw fm fw fm (fun _ => rfl) (fun _ => rfl) hfm (t1_wholeA d L) 2 (by decide) _ k.val hk g _ _ ((by decide +kernel : ∀ k : Fin k2_t11_loop.trips, k2_off11 k = ![8 * 2 + k.val / 8, 16 * (k.val % 8)]) k) k2_chk7.dec

theorem t1_loop_t12 (hfm : ∀ i, (fm i).toNat < 4096) (blk : Vec F S8x4096 .f32) :
    (iprop(((bA).view.loc THR ↦{fullShare} blk) ∗ ((sW).view.loc THR ↦{fullShare} fw) ∗ ((sM).view.loc THR ↦{fullShare} fm)) : sProp 𝕄)
      ⊢ WP (Scf.Loop.for k2_t12_loop k2_t12_ok ⟨⟩ (AT[k2_t12_body] v1 v4 c0)) fun _ => iprop(((bA).view.loc THR ↦{fullShare} SpecF.foldAdd (t1_wr fw 4) (t1_mr fm 4) 64 blk)
          ∗ ((sW).view.loc THR ↦{fullShare} fw) ∗ ((sM).view.loc THR ↦{fullShare} fm)) :=
  scat_loopAdd d _ _ (sW) (sM) (bA) (fun g => g) fw fm _ _ blk k2_t12_loop k2_t12_ok (by decide) _ fun k hk g => by
    unfold k2_t12_body k2_part8
    simp only [Prog.lift, Prog.bind_op, Prog.bind_ret, Prog.pure_eq_ret]
    exact tripAdd d _ _ (sW) (sM) (bA) (fun g => g) fw fm fw fm (fun _ => rfl) (fun _ => rfl) hfm (t1_wholeA d L) 4 (by decide) k.val hk g _ _ ((by decide +kernel : ∀ k : Fin k2_t12_loop.trips, k2_off12 k = ![8 * 4 + k.val / 8, 16 * (k.val % 8)]) k) k2_chk8.dec

theorem t1_loop_t13 (hfm : ∀ i, (fm i).toNat < 4096) (blk : Vec F S8x4096 .f32) :
    (iprop(((bB).view.loc THR ↦{fullShare} blk) ∗ ((sW).view.loc THR ↦{fullShare} fw) ∗ ((sM).view.loc THR ↦{fullShare} fm)) : sProp 𝕄)
      ⊢ WP (Scf.Loop.for k2_t13_loop k2_t13_ok ⟨⟩ (AT[k2_t13_body] v1 (fun _ => t1_z))) fun _ => iprop(((bB).view.loc THR ↦{fullShare} SpecF.foldClr t1_z (t1_mr fm 3) 64 blk)
          ∗ ((sW).view.loc THR ↦{fullShare} fw) ∗ ((sM).view.loc THR ↦{fullShare} fm)) :=
  scat_loopClr d _ _ (sW) (sM) (bB) (fun g => g) fw fm _ _ blk k2_t13_loop k2_t13_ok (by decide) _ fun k hk g => by
    unfold k2_t13_body k2_part9
    simp only [Prog.lift, Prog.bind_op, Prog.bind_ret, Prog.pure_eq_ret]
    exact tripClr d _ _ (sW) (sM) (bB) (fun g => g) fw fm fw fm (fun _ => rfl) (fun _ => rfl) hfm (t1_wholeB d L) 3 (by decide) _ k.val hk g _ _ ((by decide +kernel : ∀ k : Fin k2_t13_loop.trips, k2_off13 k = ![8 * 3 + k.val / 8, 16 * (k.val % 8)]) k) k2_chk9.dec

theorem t1_loop_t14 (hfm : ∀ i, (fm i).toNat < 4096) (blk : Vec F S8x4096 .f32) :
    (iprop(((bB).view.loc THR ↦{fullShare} blk) ∗ ((sW).view.loc THR ↦{fullShare} fw) ∗ ((sM).view.loc THR ↦{fullShare} fm)) : sProp 𝕄)
      ⊢ WP (Scf.Loop.for k2_t14_loop k2_t14_ok ⟨⟩ (AT[k2_t14_body] v1 v4)) fun _ => iprop(((bB).view.loc THR ↦{fullShare} SpecF.foldAdd (t1_wr fw 5) (t1_mr fm 5) 64 blk)
          ∗ ((sW).view.loc THR ↦{fullShare} fw) ∗ ((sM).view.loc THR ↦{fullShare} fm)) :=
  scat_loopAdd d _ _ (sW) (sM) (bB) (fun g => g) fw fm _ _ blk k2_t14_loop k2_t14_ok (by decide) _ fun k hk g => by
    unfold k2_t14_body k2_part10
    simp only [Prog.lift, Prog.bind_op, Prog.bind_ret, Prog.pure_eq_ret]
    exact tripAdd d _ _ (sW) (sM) (bB) (fun g => g) fw fm fw fm (fun _ => rfl) (fun _ => rfl) hfm (t1_wholeB d L) 5 (by decide) k.val hk g _ _ ((by decide +kernel : ∀ k : Fin k2_t14_loop.trips, k2_off14 k = ![8 * 5 + k.val / 8, 16 * (k.val % 8)]) k) k2_chk10.dec

theorem t1_loop_t15 (hfm : ∀ i, (fm i).toNat < 4096) (blk : Vec F S8x4096 .f32) :
    (iprop(((bA).view.loc THR ↦{fullShare} blk) ∗ ((sW).view.loc THR ↦{fullShare} fw) ∗ ((sM).view.loc THR ↦{fullShare} fm)) : sProp 𝕄)
      ⊢ WP (Scf.Loop.for k2_t15_loop k2_t15_ok ⟨⟩ (AT[k2_t15_body] v1 (fun _ => t1_z))) fun _ => iprop(((bA).view.loc THR ↦{fullShare} SpecF.foldClr t1_z (t1_mr fm 4) 64 blk)
          ∗ ((sW).view.loc THR ↦{fullShare} fw) ∗ ((sM).view.loc THR ↦{fullShare} fm)) :=
  scat_loopClr d _ _ (sW) (sM) (bA) (fun g => g) fw fm _ _ blk k2_t15_loop k2_t15_ok (by decide) _ fun k hk g => by
    unfold k2_t15_body k2_part11
    simp only [Prog.lift, Prog.bind_op, Prog.bind_ret, Prog.pure_eq_ret]
    exact tripClr d _ _ (sW) (sM) (bA) (fun g => g) fw fm fw fm (fun _ => rfl) (fun _ => rfl) hfm (t1_wholeA d L) 4 (by decide) _ k.val hk g _ _ ((by decide +kernel : ∀ k : Fin k2_t15_loop.trips, k2_off15 k = ![8 * 4 + k.val / 8, 16 * (k.val % 8)]) k) k2_chk11.dec

theorem t1_loop_t16 (hfm : ∀ i, (fm i).toNat < 4096) (blk : Vec F S8x4096 .f32) :
    (iprop(((bA).view.loc THR ↦{fullShare} blk) ∗ ((sW).view.loc THR ↦{fullShare} fw) ∗ ((sM).view.loc THR ↦{fullShare} fm)) : sProp 𝕄)
      ⊢ WP (Scf.Loop.for k2_t16_loop k2_t16_ok ⟨⟩ (AT[k2_t16_body] v1 v4)) fun _ => iprop(((bA).view.loc THR ↦{fullShare} SpecF.foldAdd (t1_wr fw 6) (t1_mr fm 6) 64 blk)
          ∗ ((sW).view.loc THR ↦{fullShare} fw) ∗ ((sM).view.loc THR ↦{fullShare} fm)) :=
  scat_loopAdd d _ _ (sW) (sM) (bA) (fun g => g) fw fm _ _ blk k2_t16_loop k2_t16_ok (by decide) _ fun k hk g => by
    unfold k2_t16_body k2_part12
    simp only [Prog.lift, Prog.bind_op, Prog.bind_ret, Prog.pure_eq_ret]
    exact tripAdd d _ _ (sW) (sM) (bA) (fun g => g) fw fm fw fm (fun _ => rfl) (fun _ => rfl) hfm (t1_wholeA d L) 6 (by decide) k.val hk g _ _ ((by decide +kernel : ∀ k : Fin k2_t16_loop.trips, k2_off16 k = ![8 * 6 + k.val / 8, 16 * (k.val % 8)]) k) k2_chk12.dec

theorem t1_loop_t17 (hfm : ∀ i, (fm i).toNat < 4096) (blk : Vec F S8x4096 .f32) :
    (iprop(((bB).view.loc THR ↦{fullShare} blk) ∗ ((sW).view.loc THR ↦{fullShare} fw) ∗ ((sM).view.loc THR ↦{fullShare} fm)) : sProp 𝕄)
      ⊢ WP (Scf.Loop.for k2_t17_loop k2_t17_ok ⟨⟩ (AT[k2_t17_body] v1 (fun _ => t1_z) v67 c40)) fun _ => iprop(((bB).view.loc THR ↦{fullShare} SpecF.foldClr t1_z (t1_mr fm 5) 64 blk)
          ∗ ((sW).view.loc THR ↦{fullShare} fw) ∗ ((sM).view.loc THR ↦{fullShare} fm)) :=
  scat_loopClr d _ _ (sW) (sM) (bB) (fun g => g) fw fm _ _ blk k2_t17_loop k2_t17_ok (by decide) _ fun k hk g => by
    unfold k2_t17_body k2_part13
    simp only [Prog.lift, Prog.bind_op, Prog.bind_ret, Prog.pure_eq_ret]
    exact tripClr d _ _ (sW) (sM) (bB) (fun g => g) fw fm fw fm (fun _ => rfl) (fun _ => rfl) hfm (t1_wholeB d L) 5 (by decide) _ k.val hk g _ _ ((by decide +kernel : ∀ k : Fin k2_t17_loop.trips, k2_off17 k = ![8 * 5 + k.val / 8, 16 * (k.val % 8)]) k) k2_chk13.dec

theorem t1_loop_t18 (hfm : ∀ i, (fm i).toNat < 4096) (blk : Vec F S8x4096 .f32) :
    (iprop(((bB).view.loc THR ↦{fullShare} blk) ∗ ((sW).view.loc THR ↦{fullShare} fw) ∗ ((sM).view.loc THR ↦{fullShare} fm)) : sProp 𝕄)
      ⊢ WP (Scf.Loop.for k2_t18_loop k2_t18_ok ⟨⟩ (AT[k2_t18_body] v1 v4 v67 c40)) fun _ => iprop(((bB).view.loc THR ↦{fullShare} SpecF.foldAdd (t1_wr fw 7) (t1_mr fm 7) 64 blk)
          ∗ ((sW).view.loc THR ↦{fullShare} fw) ∗ ((sM).view.loc THR ↦{fullShare} fm)) :=
  scat_loopAdd d _ _ (sW) (sM) (bB) (fun g => g) fw fm _ _ blk k2_t18_loop k2_t18_ok (by decide) _ fun k hk g => by
    unfold k2_t18_body k2_part14
    simp only [Prog.lift, Prog.bind_op, Prog.bind_ret, Prog.pure_eq_ret]
    exact tripAdd d _ _ (sW) (sM) (bB) (fun g => g) fw fm fw fm (fun _ => rfl) (fun _ => rfl) hfm (t1_wholeB d L) 7 (by decide) k.val hk g _ _ ((by decide +kernel : ∀ k : Fin k2_t18_loop.trips, k2_off18 k = ![8 * 7 + k.val / 8, 16 * (k.val % 8)]) k) k2_chk14.dec

theorem t1_loop_t19 (hfm : ∀ i, (fm i).toNat < 4096) (blk : Vec F S8x4096 .f32) :
    (iprop(((bA).view.loc THR ↦{fullShare} blk) ∗ ((sW).view.loc THR ↦{fullShare} fw) ∗ ((sM).view.loc THR ↦{fullShare} fm)) : sProp 𝕄)
      ⊢ WP (Scf.Loop.for k2_t19_loop k2_t19_ok ⟨⟩ (AT[k2_t19_body] v1 (fun _ => t1_z) v67 c40)) fun _ => iprop(((bA).view.loc THR ↦{fullShare} SpecF.foldClr t1_z (t1_mr fm 6) 64 blk)
          ∗ ((sW).view.loc THR ↦{fullShare} fw) ∗ ((sM).view.loc THR ↦{fullShare} fm)) :=
  scat_loopClr d _ _ (sW) (sM) (bA) (fun g => g) fw fm _ _ blk k2_t19_loop k2_t19_ok (by decide) _ fun k hk g => by
    unfold k2_t19_body k2_part15
    simp only [Prog.lift, Prog.bind_op, Prog.bind_ret, Prog.pure_eq_ret]
    exact tripClr d _ _ (sW) (sM) (bA) (fun g => g) fw fm fw fm (fun _ => rfl) (fun _ => rfl) hfm (t1_wholeA d L) 6 (by decide) _ k.val hk g _ _ ((by decide +kernel : ∀ k : Fin k2_t19_loop.trips, k2_off19 k = ![8 * 6 + k.val / 8, 16 * (k.val % 8)]) k) k2_chk15.dec

theorem t1_loop_t20 (hfm : ∀ i, (fm i).toNat < 4096) (blk : Vec F S8x4096 .f32) :
    (iprop(((bA).view.loc THR ↦{fullShare} blk) ∗ ((sW).view.loc THR ↦{fullShare} fw) ∗ ((sM).view.loc THR ↦{fullShare} fm)) : sProp 𝕄)
      ⊢ WP (Scf.Loop.for k2_t20_loop k2_t20_ok ⟨⟩ (AT[k2_t20_body] v1 v4 v67 c40)) fun _ => iprop(((bA).view.loc THR ↦{fullShare} SpecF.foldAdd (t1_wr fw 8) (t1_mr fm 8) 64 blk)
          ∗ ((sW).view.loc THR ↦{fullShare} fw) ∗ ((sM).view.loc THR ↦{fullShare} fm)) :=
  scat_loopAdd d _ _ (sW) (sM) (bA) (fun g => g) fw fm _ _ blk k2_t20_loop k2_t20_ok (by decide) _ fun k hk g => by
    unfold k2_t20_body k2_part16
    simp only [Prog.lift, Prog.bind_op, Prog.bind_ret, Prog.pure_eq_ret]
    exact tripAdd d _ _ (sW) (sM) (bA) (fun g => g) fw fm fw fm (fun _ => rfl) (fun _ => rfl) hfm (t1_wholeA d L) 8 (by decide) k.val hk g _ _ ((by decide +kernel : ∀ k : Fin k2_t20_loop.trips, k2_off20 k = ![8 * 8 + k.val / 8, 16 * (k.val % 8)]) k) k2_chk16.dec

theorem t1_loop_t21 (hfm : ∀ i, (fm i).toNat < 4096) (blk : Vec F S8x4096 .f32) :
    (iprop(((bB).view.loc THR ↦{fullShare} blk) ∗ ((sW).view.loc THR ↦{fullShare} fw) ∗ ((sM).view.loc THR ↦{fullShare} fm)) : sProp 𝕄)
      ⊢ WP (Scf.Loop.for k2_t21_loop k2_t21_ok ⟨⟩ (AT[k2_t21_body] (fun _ => t1_z))) fun _ => iprop(((bB).view.loc THR ↦{fullShare} SpecF.foldClr t1_z (t1_mr fm 7) 64 blk)
          ∗ ((sW).view.loc THR ↦{fullShare} fw) ∗ ((sM).view.loc THR ↦{fullShare} fm)) :=
  scat_loopClr d _ _ (sW) (sM) (bB) (fun g => g) fw fm _ _ blk k2_t21_loop k2_t21_ok (by decide) _ fun k hk g => by
    unfold k2_t21_body k2_part17
    simp only [Prog.lift, Prog.bind_op, Prog.bind_ret, Prog.pure_eq_ret]
    exact tripClr d _ _ (sW) (sM) (bB) (fun g => g) fw fm fw fm (fun _ => rfl) (fun _ => rfl) hfm (t1_wholeB d L) 7 (by decide) _ k.val hk g _ _ ((by decide +kernel : ∀ k : Fin k2_t21_loop.trips, k2_off21 k = ![8 * 7 + k.val / 8, 16 * (k.val % 8)]) k) k2_chk17.dec

theorem t1_loop_t22 (hfm : ∀ i, (fm i).toNat < 4096) (blk : Vec F S8x4096 .f32) :
    (iprop(((bB).view.loc THR ↦{fullShare} blk) ∗ ((sW).view.loc THR ↦{fullShare} fw) ∗ ((sM).view.loc THR ↦{fullShare} fm)) : sProp 𝕄)
      ⊢ WP (Scf.Loop.for k2_t22_loop k2_t22_ok ⟨⟩ (AT[k2_t22_body])) fun _ => iprop(((bB).view.loc THR ↦{fullShare} SpecF.foldAdd (t1_wr fw 9) (t1_mr fm 9) 64 blk)
          ∗ ((sW).view.loc THR ↦{fullShare} fw) ∗ ((sM).view.loc THR ↦{fullShare} fm)) :=
  scat_loopAdd d _ _ (sW) (sM) (bB) (fun g => g) fw fm _ _ blk k2_t22_loop k2_t22_ok (by decide) _ fun k hk g => by
    unfold k2_t22_body k2_part18
    simp only [Prog.lift, Prog.bind_op, Prog.bind_ret, Prog.pure_eq_ret]
    exact tripAdd d _ _ (sW) (sM) (bB) (fun g => g) fw fm fw fm (fun _ => rfl) (fun _ => rfl) hfm (t1_wholeB d L) 9 (by decide) k.val hk g _ _ ((by decide +kernel : ∀ k : Fin k2_t22_loop.trips, k2_off22 k = ![8 * 9 + k.val / 8, 16 * (k.val % 8)]) k) k2_chk18.dec

end Loops

theorem t1_root_eq :
    AT[cc2_densify_chunk1_skel (F := F)]
      = (AT[k2_part19] >>= fun r => AT[k2_part20] r.1 r.2 >>= fun c0 => AT[k2_part21] r.1 r.2 c0 >>= fun _ =>
          AT[k2_part22] r.1 r.2 >>= fun s => AT[k2_part23] r.1 r.2 s.1 s.2 >>= fun _ => AT[t1_tail] r.2) := rfl

def T1Part19 : Prop :=
  ∀ (O : CellTallies nD τ sig (HIx 2)) (qw qm : PosShare TreeShare)
    (hpre : PreOK m) (hO : ∀ g, O g none = 0) (W : Waits sig (HIx 2)) (Φ : (Σ' (_ : BitVec 32), FVec F S16 .f32) → sProp 𝕄),
    iprop(levAts (K (F := F)).L (K (F := F)).lev
        ∗ ((wV).view.loc THR ↦{qw} m (wLoc d)) ∗ ((mV).view.loc THR ↦{qm} m (mLoc d))
        ∗ (∃ f, (bA).view.loc THR ↦{fullShare} f) ∗ (∃ f, (bB).view.loc THR ↦{fullShare} f)
        ∗ (∃ f, (sW).view.loc THR ↦{fullShare} f) ∗ (∃ f, (sM).view.loc THR ↦{fullShare} f)
        ∗ semVal (t1_cW d L) 0 ∗ semVal (t1_cM d L) 0 ∗ owes THR O W
        ∗ (∀ W', ⌜∀ p ∈ W', p ∈ W ∨ p.2 = none⌝ -∗ t1_fix m d L qw qm (t1_fw m d L) (t1_fm m d L)
            ∗ ((bA).view.loc THR ↦{fullShare} t1_blk (t1_fw m d L) (t1_fm m d L) 0) ∗ ((bB).view.loc THR ↦{fullShare} (fun _ => t1_z))
            ∗ owes THR O W' -∗ Φ ⟨Scalar.addi (Scalar.muli (BitVec.ofNat 32 (L 1).val) 2#32) (BitVec.ofNat 32 (L 0).val), k2_pay2⟩))
      ⊢ WP (AT[k2_part19]) Φ

def T1Part20 : Prop :=
  ∀ (O : CellTallies nD τ sig (HIx 2)) (qw qm : PosShare TreeShare)
    (fw : Vec F S80x128 .f32) (fm : IVec S80x128 32) (G0 : Buf (Elt F) (d1Loc d))
    (hO : ∀ g, O g none = 0) (hfm : ∀ i, (fm i).toNat < 4096) (hG : t1_GOK d L fw fm G0) (W : Waits sig (HIx 2)) (v1 : BitVec 32)
    (g0 : Buf (Elt F) ((t1_piece0 L).view.loc THR)) (g1 : Buf (Elt F) ((t1_piece1 L).view.loc THR)) (g2 : Buf (Elt F) ((t1_piece2 L).view.loc THR))
    (Φ : BitVec 32 → sProp 𝕄),
    iprop(levAts (K (F := F)).L (K (F := F)).lev ∗ t1_fix m d L qw qm fw fm
        ∗ ((bA).view.loc THR ↦{fullShare} t1_blk fw fm 0) ∗ ((bB).view.loc THR ↦{fullShare} (fun _ => t1_z))
        ∗ semVal (t1_cA d L) 0 ∗ semVal (t1_cB d L) 0
        ∗ t1_own d L (t1_piece0 L) fullShare g0 ∗ t1_own d L (t1_piece1 L) fullShare g1 ∗ t1_own d L (t1_piece2 L) fullShare g2
        ∗ owes THR O W
        ∗ (∀ W', ⌜∀ p ∈ W', p ∈ W ∨ p.2 = none⌝ -∗ t1_fix m d L qw qm fw fm
            ∗ t1_own d L (t1_piece0 L) fullShare G0 ∗ t1_own d L (t1_piece1 L) fullShare G0
            ∗ t1_flight d L cc2_scratch4.sem (t1_piece2 L) (bA) g2 (t1_blk fw fm 2)
            ∗ ((bB).view.loc THR ↦{fullShare} t1_blk fw fm 1) ∗ semVal (t1_cB d L) 0
            ∗ owes THR O W' -∗ Φ 0#32))
      ⊢ WP (AT[k2_part20] v1 (fun _ => t1_z)) Φ

def T1Part21 : Prop :=
  ∀ (O : CellTallies nD τ sig (HIx 2)) (qw qm : PosShare TreeShare)
    (fw : Vec F S80x128 .f32) (fm : IVec S80x128 32) (G0 : Buf (Elt F) (d1Loc d))
    (hO : ∀ g, O g none = 0) (hfm : ∀ i, (fm i).toNat < 4096) (hG : t1_GOK d L fw fm G0) (W : Waits sig (HIx 2)) (v1 : BitVec 32)
    (g2 : Buf (Elt F) ((t1_piece2 L).view.loc THR)) (g3 : Buf (Elt F) ((t1_piece3 L).view.loc THR)) (g4 : Buf (Elt F) ((t1_piece4 L).view.loc THR))
    (Φ : PUnit → sProp 𝕄),
    iprop(levAts (K (F := F)).L (K (F := F)).lev ∗ t1_fix m d L qw qm fw fm
        ∗ t1_flight d L cc2_scratch4.sem (t1_piece2 L) (bA) g2 (t1_blk fw fm 2)
        ∗ ((bB).view.loc THR ↦{fullShare} t1_blk fw fm 1) ∗ semVal (t1_cB d L) 0
        ∗ t1_own d L (t1_piece3 L) fullShare g3 ∗ t1_own d L (t1_piece4 L) fullShare g4
        ∗ owes THR O W
        ∗ (∀ W', ⌜∀ p ∈ W', p ∈ W ∨ p.2 = none⌝ -∗ t1_fix m d L qw qm fw fm
            ∗ t1_own d L (t1_piece2 L) fullShare G0
            ∗ t1_flight d L cc2_scratch5.sem (t1_piece3 L) (bB) g3 (t1_blk fw fm 3)
            ∗ t1_flight d L cc2_scratch4.sem (t1_piece4 L) (bA) g4 (t1_blk fw fm 4)
            ∗ owes THR O W' -∗ Φ ⟨⟩))
      ⊢ WP (AT[k2_part21] v1 (fun _ => t1_z) 0#32) Φ

def T1Part22 : Prop :=
  ∀ (O : CellTallies nD τ sig (HIx 2)) (qw qm : PosShare TreeShare)
    (fw : Vec F S80x128 .f32) (fm : IVec S80x128 32) (G0 : Buf (Elt F) (d1Loc d))
    (hO : ∀ g, O g none = 0) (hfm : ∀ i, (fm i).toNat < 4096) (hG : t1_GOK d L fw fm G0) (W : Waits sig (HIx 2)) (v1 : BitVec 32)
    (g3 : Buf (Elt F) ((t1_piece3 L).view.loc THR)) (g4 : Buf (Elt F) ((t1_piece4 L).view.loc THR)) (g5 : Buf (Elt F) ((t1_piece5 L).view.loc THR)) (g6 : Buf (Elt F) ((t1_piece6 L).view.loc THR))
    (Φ : (Σ' (_ : BitVec 32), BitVec 32) → sProp 𝕄),
    iprop(levAts (K (F := F)).L (K (F := F)).lev ∗ t1_fix m d L qw qm fw fm
        ∗ t1_flight d L cc2_scratch5.sem (t1_piece3 L) (bB) g3 (t1_blk fw fm 3)
        ∗ t1_flight d L cc2_scratch4.sem (t1_piece4 L) (bA) g4 (t1_blk fw fm 4)
        ∗ t1_own d L (t1_piece5 L) fullShare g5 ∗ t1_own d L (t1_piece6 L) fullShare g6
        ∗ owes THR O W
        ∗ (∀ W', ⌜∀ p ∈ W', p ∈ W ∨ p.2 = none⌝ -∗ t1_fix m d L qw qm fw fm
            ∗ t1_own d L (t1_piece3 L) fullShare G0 ∗ t1_own d L (t1_piece4 L) fullShare G0
            ∗ t1_flight d L cc2_scratch5.sem (t1_piece5 L) (bB) g5 (t1_blk fw fm 5)
            ∗ t1_flight d L cc2_scratch4.sem (t1_piece6 L) (bA) g6 (t1_blk fw fm 6)
            ∗ owes THR O W' -∗ Φ ⟨Scalar.muli v1 80#32, 40#32⟩))
      ⊢ WP (AT[k2_part22] v1 (fun _ => t1_z)) Φ

def T1Part23 : Prop :=
  ∀ (O : CellTallies nD τ sig (HIx 2)) (qw qm : PosShare TreeShare)
    (fw : Vec F S80x128 .f32) (fm : IVec S80x128 32) (G0 : Buf (Elt F) (d1Loc d))
    (hO : ∀ g, O g none = 0) (hfm : ∀ i, (fm i).toNat < 4096) (hG : t1_GOK d L fw fm G0) (W : Waits sig (HIx 2)) (v1 v67 c40 : BitVec 32)
    (g5 : Buf (Elt F) ((t1_piece5 L).view.loc THR)) (g6 : Buf (Elt F) ((t1_piece6 L).view.loc THR)) (g7 : Buf (Elt F) ((t1_piece7 L).view.loc THR))
    (Φ : PUnit → sProp 𝕄),
    iprop(levAts (K (F := F)).L (K (F := F)).lev ∗ t1_fix m d L qw qm fw fm
        ∗ t1_flight d L cc2_scratch5.sem (t1_piece5 L) (bB) g5 (t1_blk fw fm 5)
        ∗ t1_flight d L cc2_scratch4.sem (t1_piece6 L) (bA) g6 (t1_blk fw fm 6)
        ∗ t1_own d L (t1_piece7 L) fullShare g7
        ∗ owes THR O W
        ∗ (∀ W', ⌜∀ p ∈ W', p ∈ W ∨ p.2 = none⌝ -∗ t1_fix m d L qw qm fw fm
            ∗ t1_own d L (t1_piece5 L) fullShare G0 ∗ t1_own d L (t1_piece6 L) fullShare G0
            ∗ t1_flight d L cc2_scratch5.sem (t1_piece7 L) (bB) g7 (t1_blk fw fm 7)
            ∗ ((bA).view.loc THR ↦{fullShare} t1_blk fw fm 8) ∗ semVal (t1_cA d L) 0
            ∗ owes THR O W' -∗ Φ ⟨⟩))
      ⊢ WP (AT[k2_part23] v1 (fun _ => t1_z) v67 c40) Φ

def T1Tail : Prop :=
  ∀ (O : CellTallies nD τ sig (HIx 2)) (qw qm : PosShare TreeShare)
    (fw : Vec F S80x128 .f32) (fm : IVec S80x128 32) (G0 : Buf (Elt F) (d1Loc d))
    (hO : ∀ g, O g none = 0) (hfm : ∀ i, (fm i).toNat < 4096) (hG : t1_GOK d L fw fm G0) (W : Waits sig (HIx 2))
    (g7 : Buf (Elt F) ((t1_piece7 L).view.loc THR)) (g8 : Buf (Elt F) ((t1_piece8 L).view.loc THR)) (g9 : Buf (Elt F) ((t1_piece9 L).view.loc THR))
    (Φ : PUnit → sProp 𝕄),
    iprop(levAts (K (F := F)).L (K (F := F)).lev ∗ t1_fix m d L qw qm fw fm
        ∗ t1_flight d L cc2_scratch5.sem (t1_piece7 L) (bB) g7 (t1_blk fw fm 7)
        ∗ ((bA).view.loc THR ↦{fullShare} t1_blk fw fm 8) ∗ semVal (t1_cA d L) 0
        ∗ t1_own d L (t1_piece8 L) fullShare g8 ∗ t1_own d L (t1_piece9 L) fullShare g9
        ∗ owes THR O W
        ∗ (∀ W', ⌜∀ p ∈ W', p ∈ W ∨ p.2 = none⌝ -∗ t1_fix m d L qw qm fw fm
            ∗ t1_own d L (t1_piece7 L) fullShare G0 ∗ t1_own d L (t1_piece8 L) fullShare G0 ∗ t1_own d L (t1_piece9 L) fullShare G0
            ∗ (∃ f, (bA).view.loc THR ↦{fullShare} f) ∗ (∃ f, (bB).view.loc THR ↦{fullShare} f)
            ∗ semVal (t1_cA d L) 0 ∗ semVal (t1_cB d L) 0
            ∗ owes THR O W' -∗ Φ ⟨⟩))
      ⊢ WP (AT[t1_tail] (fun _ => t1_z)) Φ

end Tile

end Cert.Proof.KI

end
-- ==== Proof.KI.Tile1Obl.lean ====
import proofs.«207445_g73023033966933_cont_9to1_m_863_36_alg».proof.Proof.KI.Tile0Obl

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 2) (Elt F) ℕ UU ℕ

local notation "wV" => (Memref.whole Cert.KernelIdeal.main_arg1_scv : Memref Cert.KernelIdeal.sig Kind.scVector Space.hbm Cert.KernelIdeal.S4096x128 EltTy.f32)
local notation "mV" => (Memref.whole Cert.KernelIdeal.main_arg2_scv : Memref Cert.KernelIdeal.sig Kind.scVector Space.hbm Cert.KernelIdeal.S4096x128 EltTy.i32)
local notation "dV" => (Memref.whole Cert.KernelIdeal.main_v4_scv : Memref Cert.KernelIdeal.sig Kind.scVector Space.hbm Cert.KernelIdeal.S2560x4096 EltTy.f32)
local notation "bA" => (Memref.whole Cert.KernelIdeal.cc2_scratch0 : Memref Cert.KernelIdeal.sig Kind.scVector Space.vmem Cert.KernelIdeal.S8x4096 EltTy.f32)
local notation "bB" => (Memref.whole Cert.KernelIdeal.cc2_scratch1 : Memref Cert.KernelIdeal.sig Kind.scVector Space.vmem Cert.KernelIdeal.S8x4096 EltTy.f32)
local notation "sW" => (Memref.whole Cert.KernelIdeal.cc2_scratch2 : Memref Cert.KernelIdeal.sig Kind.scVector Space.vmem Cert.KernelIdeal.S80x128 EltTy.f32)
local notation "sM" => (Memref.whole Cert.KernelIdeal.cc2_scratch3 : Memref Cert.KernelIdeal.sig Kind.scVector Space.vmem Cert.KernelIdeal.S80x128 EltTy.i32)

variable (m : (ℓ : Loc nD τ sig) → Buf (Elt F) ℓ)

theorem obl_bigSep_ten (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} from by decide,
    bigSep_insert (by decide), bigSep_insert (by decide), bigSep_insert (by decide), bigSep_insert (by decide),
    bigSep_insert (by decide), bigSep_insert (by decide), bigSep_insert (by decide), bigSep_insert (by decide),
    bigSep_insert (by decide), bigSep_singleton]
  rfl

def obl1_tile (d : Dev nD) (L : grid2.Coords) (f : Buf (Elt F) (d1Loc d)) : sProp 𝕄 :=
  iprop((d1Loc d ↦[piece1 L 0]{fullShare} f) ∗ (d1Loc d ↦[piece1 L 1]{fullShare} f)
    ∗ (d1Loc d ↦[piece1 L 2]{fullShare} f) ∗ (d1Loc d ↦[piece1 L 3]{fullShare} f)
    ∗ (d1Loc d ↦[piece1 L 4]{fullShare} f) ∗ (d1Loc d ↦[piece1 L 5]{fullShare} f)
    ∗ (d1Loc d ↦[piece1 L 6]{fullShare} f) ∗ (d1Loc d ↦[piece1 L 7]{fullShare} f)
    ∗ (d1Loc d ↦[piece1 L 8]{fullShare} f) ∗ (d1Loc d ↦[piece1 L 9]{fullShare} f))

theorem tile1_eq (d : Dev nD) (L : grid2.Coords) (f : Buf (Elt F) (d1Loc d)) : tile1 d L f = obl1_tile d L f := by
  unfold tile1 obl1_tile
  exact obl_bigSep_ten (fun r => (d1Loc d ↦[piece1 L r]{fullShare} f : sProp 𝕄))

variable [FloatOps F]

def obl1_fw (d : Dev nD) (L : grid2.Coords) : Vec F S80x128 .f32 :=
  ((wV).slice (Rect.unit (s := S4096x128) (k2_off1 L) S80x128.size (Gen.k2_off1_inb L)) (fun _ => rfl)).view.read (Elt F) (m (wLoc d))
def obl1_fm (d : Dev nD) (L : grid2.Coords) : IVec S80x128 32 :=
  ((mV).slice (Rect.unit (s := S4096x128) (k2_off1 L) S80x128.size (Gen.k2_off1_inb L)) (fun _ => rfl)).view.read (Elt F) (m (mLoc d))

def obl1_GOK (d : Dev nD) (L : grid2.Coords) (G0 : Buf (Elt F) (d1Loc d)) : Prop :=
  ∀ (r : Fin 10) (j : S8x4096.Idx), G0 ((pieceM1 L r).view.emb j)
    = SpecF.foldAdd (fun a k => obl1_fw m d L (ix2 (⟨8 * r.val + a.val, by have := r.isLt; have := a.isLt; omega⟩ : Fin 80) k))
        (fun a k => obl1_fm m d L (ix2 (⟨8 * r.val + a.val, by have := r.isLt; have := a.isLt; omega⟩ : Fin 80) k)) 64 (fun _ => zeroF) j

theorem obl1_GOK_dense (d : Dev nD) (L : grid2.Coords) : obl1_GOK m d L (dense1 m d) :=
  fun r j => dense1_piece_scratch m d L r (obl1_fw m d L) (obl1_fm m d L) (wRows1_read m d L) (mRows1_read m d L) j

theorem defs₀_vector2 (c : Fin τ.nSC) (s : Fin τ.nSub) :
    defs₀ (F := F) (.scVector c s) 2 ()
      = SparseCore.onTile hcore2 hsub2 (fun c s => cc2_densify_chunk1 (coords2 c s)
          wV (Memref.isWhole_whole _) mV (Memref.isWhole_whole _) dV (Memref.isWhole_whole _)
          bA (Memref.isWhole_whole _) bB (Memref.isWhole_whole _) sW (Memref.isWhole_whole _) sM (Memref.isWhole_whole _)
          cc2_scratch4 cc2_scratch5 cc2_scoped0 cc2_scoped1) ⟨⟩ c s := rfl

theorem P_go1 (d : Dev nD) (c : Fin ((K (F := F)).nCore 1)) (i : Fin ((K (F := F)).nSub 1)) :
    (P m).go 1 d c i = iprop((wLoc d ↦{qT c.val i.val} m (wLoc d)) ∗ (mLoc d ↦{qT c.val i.val} m (mLoc d))
      ∗ obl1_tile d (coords2 (Fin.cast nCore_one c) (Fin.cast nSub_one i)) (m (d1Loc d))) := by
  show go1 m d (Fin.cast nCore_one c) (Fin.cast nSub_one i) = _
  unfold go1
  rw [tile1_eq]
  rfl

theorem P_td1 (d : Dev nD) (c : Fin ((K (F := F)).nCore 1)) (i : Fin ((K (F := F)).nSub 1)) :
    (P m).td 1 d c i = iprop((wLoc d ↦{qT c.val i.val} m (wLoc d)) ∗ (mLoc d ↦{qT c.val i.val} m (mLoc d))
      ∗ obl1_tile d (coords2 (Fin.cast nCore_one c) (Fin.cast nSub_one i)) (dense1 m d)) := by
  show td1 m d (Fin.cast nCore_one c) (Fin.cast nSub_one i) = _
  unfold td1
  rw [tile1_eq]
  rfl

def Tile1Body : Prop :=
  ∀ (d : Dev nD) (L : grid2.Coords) (O : CellTallies nD τ sig (HIx 2)) (W : Waits sig (HIx 2)) (hO : ∀ g, O g none = 0)
    (q : PosShare TreeShare) (G0 : Buf (Elt F) (d1Loc d)) (hG : obl1_GOK m d L G0),
    iprop(levAts (K (F := F)).L (K (F := F)).lev ∗ emp
        ∗ ((wLoc d ↦{q} m (wLoc d)) ∗ (mLoc d ↦{q} m (mLoc d)) ∗ obl1_tile d L (m (d1Loc d)))
        ∗ scopedBufs (V d ((L 0).castLE hcore2) ((L 1).castLE hsub2)) ∗ scopedSems0 (V d ((L 0).castLE hcore2) ((L 1).castLE hsub2))
        ∗ owes (V d ((L 0).castLE hcore2) ((L 1).castLE hsub2)) O W)
      ⊢ wp frame (wpE (defs₀ (F := F)) 𝒱₀ (V d ((L 0).castLE hcore2) ((L 1).castLE hsub2)) none) Set.univ
          (cc2_densify_chunk1 L wV (Memref.isWhole_whole _) mV (Memref.isWhole_whole _) dV (Memref.isWhole_whole _)
            bA (Memref.isWhole_whole _) bB (Memref.isWhole_whole _) sW (Memref.isWhole_whole _) sM (Memref.isWhole_whole _)
            cc2_scratch4 cc2_scratch5 cc2_scoped0 cc2_scoped1)
          fun _ => iprop(((wLoc d ↦{q} m (wLoc d)) ∗ (mLoc d ↦{q} m (mLoc d)) ∗ obl1_tile d L G0)
            ∗ scopedBufs (V d ((L 0).castLE hcore2) ((L 1).castLE hsub2)) ∗ scopedSems0 (V d ((L 0).castLE hcore2) ((L 1).castLE hsub2))
            ∗ ∃ W', ⌜∀ p ∈ W', p ∈ W ∨ p.2 = none⌝ ∗ owes (V d ((L 0).castLE hcore2) ((L 1).castLE hsub2)) O W')

set_option maxRecDepth 2048 in

theorem tileObl1 (hF : (K (F := F)).Facts) (hpre : PreOK m) (htb : Tile1Body m) :
    (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_vector2]; simp only [SparseCore.onTile, hc, and_self, ↓reduceDIte]
  rw [P_go1 m d c i, P_td1 m d c i]
  exact (htb d (coords2 ⟨_, hc.1⟩ ⟨_, hc.2⟩) O W hO (qT c.val i.val) (dense1 m d) (obl1_GOK_dense m d _)).trans
    (wp_mono frame _ _ fun _ => obl_post)

end Cert.Proof.KI

end
-- ==== Proof.KI.Tile1Body.lean ====
import proofs.«207445_g73023033966933_cont_9to1_m_863_36_alg».proof.Proof.KI.Tile1Defs
import proofs.«207445_g73023033966933_cont_9to1_m_863_36_alg».proof.Proof.KI.Tile1Obl

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "wV" => (Memref.whole Cert.KernelIdeal.main_arg1_scv : Memref Cert.KernelIdeal.sig Kind.scVector Space.hbm Cert.KernelIdeal.S4096x128 EltTy.f32)
local notation "mV" => (Memref.whole Cert.KernelIdeal.main_arg2_scv : Memref Cert.KernelIdeal.sig Kind.scVector Space.hbm Cert.KernelIdeal.S4096x128 EltTy.i32)
local notation "dV" => (Memref.whole Cert.KernelIdeal.main_v4_scv : Memref Cert.KernelIdeal.sig Kind.scVector Space.hbm Cert.KernelIdeal.S2560x4096 EltTy.f32)
local notation "bA" => (Memref.whole Cert.KernelIdeal.cc2_scratch0 : Memref Cert.KernelIdeal.sig Kind.scVector Space.vmem Cert.KernelIdeal.S8x4096 EltTy.f32)
local notation "bB" => (Memref.whole Cert.KernelIdeal.cc2_scratch1 : Memref Cert.KernelIdeal.sig Kind.scVector Space.vmem Cert.KernelIdeal.S8x4096 EltTy.f32)
local notation "sW" => (Memref.whole Cert.KernelIdeal.cc2_scratch2 : Memref Cert.KernelIdeal.sig Kind.scVector Space.vmem Cert.KernelIdeal.S80x128 EltTy.f32)
local notation "sM" => (Memref.whole Cert.KernelIdeal.cc2_scratch3 : Memref Cert.KernelIdeal.sig Kind.scVector Space.vmem Cert.KernelIdeal.S80x128 EltTy.i32)

variable [FloatOps F] (m : (ℓ : Loc nD τ sig) → Buf (Elt F) ℓ)

section Tile

variable (d : Dev nD) (L : grid2.Coords)

local notation "THR" => V d (t1_cV L) (t1_jV L)
local notation "WP" => wp frame (wpE (defs₀ (F := F)) 𝒱₀ (V d (t1_cV L) (t1_jV L)) none) Set.univ
local notation "AT[" f "]" => f L (wV) (Memref.isWhole_whole _) (mV) (Memref.isWhole_whole _) (dV) (Memref.isWhole_whole _) (bA) (Memref.isWhole_whole _) (bB) (Memref.isWhole_whole _) (sW) (Memref.isWhole_whole _) (sM) (Memref.isWhole_whole _) cc2_scratch4 cc2_scratch5 cc2_scoped0 cc2_scoped1

omit [FloatOps F] in

theorem tb1_ownSems0 :
    (ownSems0 (V d (t1_cV L) (t1_jV L)) : sProp 𝕄)
      = iprop(semVal (t1_cA d L) 0 ∗ semVal (t1_cB d L) 0 ∗ semVal (t1_cW d L) 0 ∗ semVal (t1_cM d L) 0
          ∗ bigSep (((((ownCells (V d (t1_cV L) (t1_jV L))).erase (t1_cA d L)).erase (t1_cB d L)).erase (t1_cW d L)).erase (t1_cM d L))
              fun g => semVal g 0) := by
  unfold SparseCore.Cfg.ownSems0
  rw [SparseCore.bigSep_erase' ((mem_ownCells (g := t1_cA d L)).mpr ⟨rfl, by
      show (SemLoc.dma cc2_scratch4.sem : SemLoc sig).isScoped .scVector = true; decide⟩),
    SparseCore.bigSep_erase' (Finset.mem_erase.mpr ⟨by simp [t1_cA, t1_cB]; decide, (mem_ownCells (g := t1_cB d L)).mpr ⟨rfl, by
      show (SemLoc.dma cc2_scratch5.sem : SemLoc sig).isScoped .scVector = true; decide⟩⟩),
    SparseCore.bigSep_erase' (Finset.mem_erase.mpr ⟨by simp [t1_cB, t1_cW]; decide, Finset.mem_erase.mpr ⟨by simp [t1_cA, t1_cW]; decide,
      (mem_ownCells (g := t1_cW d L)).mpr ⟨rfl, by show (SemLoc.dma cc2_scoped0.sem : SemLoc sig).isScoped .scVector = true; decide⟩⟩⟩),
    SparseCore.bigSep_erase' (Finset.mem_erase.mpr ⟨by simp [t1_cW, t1_cM]; decide, Finset.mem_erase.mpr ⟨by simp [t1_cB, t1_cM]; decide,
      Finset.mem_erase.mpr ⟨by simp [t1_cA, t1_cM]; decide,
      (mem_ownCells (g := t1_cM d L)).mpr ⟨rfl, by show (SemLoc.dma cc2_scoped1.sem : SemLoc sig).isScoped .scVector = true; decide⟩⟩⟩⟩)]

omit [FloatOps F] in

theorem tb1_ownBufs :
    (ownBufs (V d (t1_cV L) (t1_jV L)) : sProp 𝕄)
      = iprop((∃ f, (V d (t1_cV L) (t1_jV L)).loc cc2_scratch0 ↦{fullShare} f) ∗ (∃ f, (V d (t1_cV L) (t1_jV L)).loc cc2_scratch1 ↦{fullShare} f)
          ∗ (∃ f, (V d (t1_cV L) (t1_jV L)).loc cc2_scratch2 ↦{fullShare} f) ∗ (∃ f, (V d (t1_cV L) (t1_jV L)).loc cc2_scratch3 ↦{fullShare} f)
          ∗ bigSep (((((ownRefs (τ := τ) (.scVector (t1_cV L) (t1_jV L))).erase ((Proc.scVector (t1_cV L) (t1_jV L)).devRef cc2_scratch0)).erase
              ((Proc.scVector (t1_cV L) (t1_jV L)).devRef cc2_scratch1)).erase ((Proc.scVector (t1_cV L) (t1_jV L)).devRef cc2_scratch2)).erase
              ((Proc.scVector (t1_cV L) (t1_jV L)).devRef cc2_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (t1_cV L) (t1_jV L))
    (b := (Proc.scVector (t1_cV L) (t1_jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (t1_cV L) (t1_jV L)) (b := (Proc.scVector (t1_cV L) (t1_jV L)).devRef cc2_scratch1) rfl⟩),
    SparseCore.bigSep_erase' (Finset.mem_erase.mpr ⟨fun e => absurd (Proc.devRef_injective _ e) (show (cc2_scratch2 : Ref sig .scVector) ≠ cc2_scratch1 by decide),
      Finset.mem_erase.mpr ⟨fun e => absurd (Proc.devRef_injective _ e) (show (cc2_scratch2 : Ref sig .scVector) ≠ cc2_scratch0 by decide),
    SparseCore.Cfg.mem_ownRefs_of_owner (p := Proc.scVector (t1_cV L) (t1_jV L)) (b := (Proc.scVector (t1_cV L) (t1_jV L)).devRef cc2_scratch2) rfl⟩⟩),
    SparseCore.bigSep_erase' (Finset.mem_erase.mpr ⟨fun e => absurd (Proc.devRef_injective _ e) (show (cc2_scratch3 : Ref sig .scVector) ≠ cc2_scratch2 by decide),
      Finset.mem_erase.mpr ⟨fun e => absurd (Proc.devRef_injective _ e) (show (cc2_scratch3 : Ref sig .scVector) ≠ cc2_scratch1 by decide),
      Finset.mem_erase.mpr ⟨fun e => absurd (Proc.devRef_injective _ e) (show (cc2_scratch3 : Ref sig .scVector) ≠ cc2_scratch0 by decide),
    SparseCore.Cfg.mem_ownRefs_of_owner (p := Proc.scVector (t1_cV L) (t1_jV L)) (b := (Proc.scVector (t1_cV L) (t1_jV L)).devRef cc2_scratch3) rfl⟩⟩⟩)]

theorem tb1_fm_lt (hpre : PreOK m) (i : S80x128.Idx) : ((t1_fm m d L) i).toNat < 4096 := by
  unfold t1_fm
  rw [View.read_apply]
  exact hpre d _

omit [FloatOps F] in

theorem tb1_waits_trans {W W1 W2 : Waits sig (HIx 2)} (h1 : ∀ p ∈ W1, p ∈ W ∨ p.2 = none) (h2 : ∀ p ∈ W2, p ∈ W1 ∨ p.2 = none) :
    ∀ p ∈ W2, p ∈ W ∨ p.2 = none := fun p hp => (h2 p hp).elim (h1 p) Or.inr

set_option maxHeartbeats 1600000 in

theorem tb1_tile_body (h19 : T1Part19 m d L) (h20 : T1Part20 m d L) (h21 : T1Part21 m d L) (h22 : T1Part22 m d L) (h23 : T1Part23 m d L) (htl : T1Tail m d L)
    (hF : (K (F := F)).Facts) (hpre : PreOK m) (O : CellTallies nD τ sig (HIx 2)) (W : Waits sig (HIx 2)) (hO : ∀ g, O g none = 0)
    (q : PosShare TreeShare) (G0 : Buf (Elt F) (d1Loc d)) (hG : t1_GOK d L (t1_fw m d L) (t1_fm m d L) G0) :
    iprop(levAts (K (F := F)).L (K (F := F)).lev ∗ emp
        ∗ ((wLoc d ↦{q} m (wLoc d)) ∗ (mLoc d ↦{q} m (mLoc d)) ∗ t1_tile d L (m (d1Loc d)))
        ∗ scopedBufs THR ∗ scopedSems0 THR ∗ owes THR O W)
      ⊢ WP (AT[cc2_densify_chunk1]) fun _ =>
          iprop(((wLoc d ↦{q} m (wLoc d)) ∗ (mLoc d ↦{q} m (mLoc d)) ∗ t1_tile d L G0) ∗ scopedBufs THR ∗ scopedSems0 THR
            ∗ ∃ W', ⌜∀ p ∈ W', p ∈ W ∨ p.2 = none⌝ ∗ owes THR O W') := by
  rw [cc2_densify_chunk1_eq_skeleton, t1_root_eq]
  simp only [wp_bind]
  rw [(K (F := F)).scopedBufs_V hF d (t1_cV L) (t1_jV L), SparseCore.Cfg.scopedSems0_V (Val := Elt F) d (t1_cV L) (t1_jV L), tb1_ownSems0, tb1_ownBufs]
  unfold t1_tile
  have hfm : ∀ i, (t1_fm m d L i).toNat < 4096 := tb1_fm_lt m d L hpre
  iintro ⟨#Hlv, -, ⟨Hw, Hm, Hp0, Hp1, Hp2, Hp3, Hp4, Hp5, Hp6, Hp7, Hp8, Hp9⟩, ⟨⟨%fA, HbA⟩, ⟨%fB, HbB⟩, ⟨%fW, HsW⟩, ⟨%fM, HsM⟩, Hbufs⟩, ⟨HcA, HcB, HcW, HcM, Hsems⟩, HO⟩

  iapply (h19 O q q hpre hO W _)
  isplitr; · iexact Hlv
  isplitl [Hw]; · iexact Hw
  isplitl [Hm]; · iexact Hm
  isplitl [HbA]; · iexists _; iexact HbA
  isplitl [HbB]; · iexists _; iexact HbB
  isplitl [HsW]; · iexists _; iexact HsW
  isplitl [HsM]; · iexists _; iexact HsM
  isplitl [HcW]; · iexact HcW
  isplitl [HcM]; · iexact HcM
  isplitl [HO]; · iexact HO
  iintro %W1 %hW1 ⟨Hfix, HbA, HbB, HO⟩

  iapply (h20 O q q (t1_fw m d L) (t1_fm m d L) G0 hO hfm hG W1 _ (m (d1Loc d)) (m (d1Loc d)) (m (d1Loc d)) _)
  isplitr; · iexact Hlv
  isplitl [Hfix]; · iexact Hfix
  isplitl [HbA]; · iexact HbA
  isplitl [HbB]; · iexact HbB
  isplitl [HcA]; · iexact HcA
  isplitl [HcB]; · iexact HcB
  isplitl [Hp0]; · iexact Hp0
  isplitl [Hp1]; · iexact Hp1
  isplitl [Hp2]; · iexact Hp2
  isplitl [HO]; · iexact HO
  iintro %W2 %hW2 ⟨Hfix, Hp0, Hp1, HfA, HbB, HcB, HO⟩
  have hW2' := tb1_waits_trans hW1 hW2

  iapply (h21 O q q (t1_fw m d L) (t1_fm m d L) G0 hO hfm hG W2 _ (m (d1Loc d)) (m (d1Loc d)) (m (d1Loc d)) _)
  isplitr; · iexact Hlv
  isplitl [Hfix]; · iexact Hfix
  isplitl [HfA]; · iexact HfA
  isplitl [HbB]; · iexact HbB
  isplitl [HcB]; · iexact HcB
  isplitl [Hp3]; · iexact Hp3
  isplitl [Hp4]; · iexact Hp4
  isplitl [HO]; · iexact HO
  iintro %W3 %hW3 ⟨Hfix, Hp2, HfB, HfA, HO⟩
  have hW3' := tb1_waits_trans hW2' hW3

  iapply (h22 O q q (t1_fw m d L) (t1_fm m d L) G0 hO hfm hG W3 _ (m (d1Loc d)) (m (d1Loc d)) (m (d1Loc d)) (m (d1Loc d)) _)
  isplitr; · iexact Hlv
  isplitl [Hfix]; · iexact Hfix
  isplitl [HfB]; · iexact HfB
  isplitl [HfA]; · iexact HfA
  isplitl [Hp5]; · iexact Hp5
  isplitl [Hp6]; · iexact Hp6
  isplitl [HO]; · iexact HO
  iintro %W4 %hW4 ⟨Hfix, Hp3, Hp4, HfB, HfA, HO⟩
  have hW4' := tb1_waits_trans hW3' hW4

  iapply (h23 O q q (t1_fw m d L) (t1_fm m d L) G0 hO hfm hG W4 _ _ _ (m (d1Loc d)) (m (d1Loc d)) (m (d1Loc d)) _)
  isplitr; · iexact Hlv
  isplitl [Hfix]; · iexact Hfix
  isplitl [HfB]; · iexact HfB
  isplitl [HfA]; · iexact HfA
  isplitl [Hp7]; · iexact Hp7
  isplitl [HO]; · iexact HO
  iintro %W5 %hW5 ⟨Hfix, Hp5, Hp6, HfB, HbA, HcA, HO⟩
  have hW5' := tb1_waits_trans hW4' hW5

  iapply (htl O q q (t1_fw m d L) (t1_fm m d L) G0 hO hfm hG W5 (m (d1Loc d)) (m (d1Loc d)) (m (d1Loc d)) _)
  isplitr; · iexact Hlv
  isplitl [Hfix]; · iexact Hfix
  isplitl [HfB]; · iexact HfB
  isplitl [HbA]; · iexact HbA
  isplitl [HcA]; · iexact HcA
  isplitl [Hp8]; · iexact Hp8
  isplitl [Hp9]; · iexact Hp9
  isplitl [HO]; · iexact HO
  iintro %W6 %hW6 ⟨Hfix, Hp7, Hp8, Hp9, HbA, HbB, HcA, HcB, HO⟩
  have hW6' := tb1_waits_trans hW5' hW6

  unfold t1_fix
  icases Hfix with ⟨Hw, Hm, HsW, HsM, HcW, HcM⟩
  isplitl [Hw Hm Hp0 Hp1 Hp2 Hp3 Hp4 Hp5 Hp6 Hp7 Hp8 Hp9]
  · isplitl [Hw]; · iexact Hw
    isplitl [Hm]; · iexact Hm
    isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    isplitl [Hp6]; · iexact Hp6
    isplitl [Hp7]; · iexact Hp7
    isplitl [Hp8]; · iexact Hp8
    iexact Hp9
  isplitl [HbA HbB HsW HsM Hbufs]
  · isplitl [HbA]; · iexact HbA
    isplitl [HbB]; · iexact HbB
    isplitl [HsW]; · iexists _; iexact HsW
    isplitl [HsM]; · iexists _; iexact HsM
    iexact Hbufs
  isplitl [HcA HcB HcW HcM Hsems]
  · isplitl [HcA]; · iexact HcA
    isplitl [HcB]; · iexact HcB
    isplitl [HcW]; · iexact HcW
    isplitl [HcM]; · iexact HcM
    iexact Hsems
  iexists W6
  isplitr
  · ipureintro; exact hW6'
  · iexact HO

end Tile

theorem tb1_tile_eq (d : Dev nD) (L : grid2.Coords) (f : Buf (Elt F) (d1Loc d)) : (obl1_tile d L f : sProp 𝕄) = t1_tile d L f := rfl

theorem tb1_GOK_of (d : Dev nD) (L : grid2.Coords) (G0 : Buf (Elt F) (d1Loc d)) (hG : obl1_GOK m d L G0) :
    t1_GOK d L (t1_fw m d L) (t1_fm m d L) G0 :=
  ⟨hG 0, hG 1, hG 2, hG 3, hG 4, hG 5, hG 6, hG 7, hG 8, hG 9⟩

theorem tile1Body_of (h19 : ∀ d L, T1Part19 m d L) (h20 : ∀ d L, T1Part20 m d L) (h21 : ∀ d L, T1Part21 m d L) (h22 : ∀ d L, T1Part22 m d L)
    (h23 : ∀ d L, T1Part23 m d L) (htl : ∀ d L, T1Tail m d L)
    (hF : (K (F := F)).Facts) (hpre : PreOK m) : Tile1Body m := by
  intro d L O W hO q G0 hG
  rw [tb1_tile_eq, tb1_tile_eq]
  exact tb1_tile_body m d L (h19 d L) (h20 d L) (h21 d L) (h22 d L) (h23 d L) (htl d L) hF hpre O W hO q G0 (tb1_GOK_of m d L G0 hG)

end Cert.Proof.KI

end
-- ==== Proof.KI.Prefix1.lean ====
import proofs.«207445_g73023033966933_cont_9to1_m_863_36_alg».proof.Proof.KI.Common
import Idealize.ShloMosaic.Lib.Writes
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 2) (Elt F) ℕ UU ℕ

abbrev pfx1C (L : grid2.Coords) : Fin τ.nSC := (L 0).castLE hcore2
abbrev pfx1J (L : grid2.Coords) : Fin τ.nSub := (L 1).castLE hsub2

abbrev pfx1Thr (d : Dev nD) (L : grid2.Coords) : Thread nD τ := V d (pfx1C L) (pfx1J L)

local notation "wW" => (Memref.whole Cert.KernelIdeal.main_arg1_scv : Memref Cert.KernelIdeal.sig Kind.scVector Space.hbm Cert.KernelIdeal.S4096x128 EltTy.f32)
local notation "mW" => (Memref.whole Cert.KernelIdeal.main_arg2_scv : Memref Cert.KernelIdeal.sig Kind.scVector Space.hbm Cert.KernelIdeal.S4096x128 EltTy.i32)
local notation "dW" => (Memref.whole Cert.KernelIdeal.main_v4_scv : Memref Cert.KernelIdeal.sig Kind.scVector Space.hbm Cert.KernelIdeal.S2560x4096 EltTy.f32)
local notation "blkA" => (Memref.whole Cert.KernelIdeal.cc2_scratch0 : Memref Cert.KernelIdeal.sig Kind.scVector Space.vmem Cert.KernelIdeal.S8x4096 EltTy.f32)
local notation "blkB" => (Memref.whole Cert.KernelIdeal.cc2_scratch1 : Memref Cert.KernelIdeal.sig Kind.scVector Space.vmem Cert.KernelIdeal.S8x4096 EltTy.f32)
local notation "wvS" => (Memref.whole Cert.KernelIdeal.cc2_scratch2 : Memref Cert.KernelIdeal.sig Kind.scVector Space.vmem Cert.KernelIdeal.S80x128 EltTy.f32)
local notation "mvS" => (Memref.whole Cert.KernelIdeal.cc2_scratch3 : Memref Cert.KernelIdeal.sig Kind.scVector Space.vmem Cert.KernelIdeal.S80x128 EltTy.i32)

variable (m : (ℓ : Loc nD τ sig) → Buf (Elt F) ℓ)
variable [FloatOps F]
variable (d : Dev nD) (L : grid2.Coords)

def pfx1Wid (L : grid2.Coords) : BitVec 32 :=
  Scalar.addi (Scalar.muli (BitVec.ofNat 32 (L 1).val) 2#32) (BitVec.ofNat 32 (L 0).val)

abbrev pfx1WRows (L : grid2.Coords) : Memref sig .scVector .hbm S80x128 .f32 :=
  (wW).slice (Rect.unit (s := S4096x128) (k2_off1 L) S80x128.size (k2_off1_inb L)) (fun _ => rfl)
abbrev pfx1MRows (L : grid2.Coords) : Memref sig .scVector .hbm S80x128 .i32 :=
  (mW).slice (Rect.unit (s := S4096x128) (k2_off1 L) S80x128.size (k2_off1_inb L)) (fun _ => rfl)

def pfx1Wv (d : Dev nD) (L : grid2.Coords) : Buf (Elt F) ((pfx1Thr d L).loc cc2_scratch2) :=
  (pfx1WRows L).view.read (Elt F) (m (wLoc d))
def pfx1Mv (d : Dev nD) (L : grid2.Coords) : Buf (Elt F) ((pfx1Thr d L).loc cc2_scratch3) :=
  (pfx1MRows L).view.read (Elt F) (m (mLoc d))

def pfx1Z : Elt F .f32 := (Scalar.ofBits .f32 0x00000000#32 : F .f32)

theorem pfx1_pay2_cast (x : S1x16.Idx) : shapeCast S1x16 (k2_pay2 (F := F)) shapeCasts_S16_S1x16 x = pfx1Z := rfl

theorem pfx1_mem_piece (r c : Nat) (off : Fin 8 → Fin 2 → Nat) (inb : ∀ u a, off u a + S1x16.size a ≤ S8x4096.size a)
    (hoff : ∀ u : Fin 8, off u = ![r, 128 * c + 16 * u.val]) (u : Fin 8) (j : S8x4096.Idx)
    (h0 : (j 0).val = r) (h1 : 128 * c + 16 * u.val ≤ (j 1).val) (h2 : (j 1).val < 128 * c + 16 * u.val + 16) :
    j ∈ (Rect.unit (s := S8x4096) (off u) S1x16.size (inb u)).set := by
  rw [Rect.mem_set_unit, hoff u]
  intro a
  match a with
  | ⟨0, _⟩ =>
    show r ≤ (j 0).val ∧ (j 0).val < r + 1
    omega
  | ⟨1, _⟩ =>
    show 128 * c + 16 * u.val ≤ (j 1).val ∧ (j 1).val < 128 * c + 16 * u.val + 16
    omega

theorem pfx1_zero_step {sg : RefSig} {κ : Kind} {sp : Space} (v : View sg κ sp S8x4096 .f32) (g : v.ty.Contents (Elt F)) (r c : Nat)
    (off : Fin 8 → Fin 2 → Nat) (inb : ∀ u a, off u a + S1x16.size a ≤ S8x4096.size a)
    (hoff : ∀ u : Fin 8, off u = ![r, 128 * c + 16 * u.val])
    (w : S1x16.Idx → Elt F .f32) (hw : ∀ x, w x = pfx1Z)
    (hg : ∀ j : S8x4096.Idx, ((j 0).val < r ∨ ((j 0).val = r ∧ (j 1).val < 128 * c)) → v.read (Elt F) g j = pfx1Z)
    (j : S8x4096.Idx) (hj : (j 0).val < r ∨ ((j 0).val = r ∧ (j 1).val < 128 * (c + 1))) :
    v.read (Elt F) (v.writes (Elt F) g
      [⟨Rect.unit (s := S8x4096) (off 7) S1x16.size (inb 7), w⟩,
        ⟨Rect.unit (s := S8x4096) (off 6) S1x16.size (inb 6), w⟩,
        ⟨Rect.unit (s := S8x4096) (off 5) S1x16.size (inb 5), w⟩,
        ⟨Rect.unit (s := S8x4096) (off 4) S1x16.size (inb 4), w⟩,
        ⟨Rect.unit (s := S8x4096) (off 3) S1x16.size (inb 3), w⟩,
        ⟨Rect.unit (s := S8x4096) (off 2) S1x16.size (inb 2), w⟩,
        ⟨Rect.unit (s := S8x4096) (off 1) S1x16.size (inb 1), w⟩,
        ⟨Rect.unit (s := S8x4096) (off 0) S1x16.size (inb 0), w⟩]) j = pfx1Z := by
  apply pfx_read_writes_const
  · intro p hp x
    simp only [List.mem_cons, List.mem_nil_iff, or_false] at hp
    rcases hp with rfl | rfl | rfl | rfl | rfl | rfl | rfl | rfl
    · exact hw x
    · exact hw x
    · exact hw x
    · exact hw x
    · exact hw x
    · exact hw x
    · exact hw x
    · exact hw x
  · by_cases hold : (j 0).val < r ∨ ((j 0).val = r ∧ (j 1).val < 128 * c)
    · exact Or.inl (hg j hold)
    right
    have hj0 : (j 0).val = r := by omega
    have hlo : 128 * c ≤ (j 1).val := by omega
    have hhi : (j 1).val < 128 * c + 128 := by omega
    have hu : ((j 1).val - 128 * c) / 16 < 8 := by omega
    have hu1 : 128 * c + 16 * (((j 1).val - 128 * c) / 16) ≤ (j 1).val := by omega
    have hu2 : (j 1).val < 128 * c + 16 * (((j 1).val - 128 * c) / 16) + 16 := by omega
    generalize ((j 1).val - 128 * c) / 16 = u at hu hu1 hu2
    have h8 : u = 7 ∨ u = 6 ∨ u = 5 ∨ u = 4 ∨ u = 3 ∨ u = 2 ∨ u = 1 ∨ u = 0 := by omega
    rcases h8 with rfl | rfl | rfl | rfl | rfl | rfl | rfl | rfl
    · exact ⟨_, List.Mem.head _, pfx1_mem_piece r c off inb hoff 7 j hj0 (by simpa using hu1) (by simpa using hu2)⟩
    · exact ⟨_, List.Mem.tail _ (List.Mem.head _), pfx1_mem_piece r c off inb hoff 6 j hj0 (by simpa using hu1) (by simpa using hu2)⟩
    · exact ⟨_, List.Mem.tail _ (List.Mem.tail _ (List.Mem.head _)), pfx1_mem_piece r c off inb hoff 5 j hj0 (by simpa using hu1) (by simpa using hu2)⟩
    · exact ⟨_, List.Mem.tail _ (List.Mem.tail _ (List.Mem.tail _ (List.Mem.head _))), pfx1_mem_piece r c off inb hoff 4 j hj0 (by simpa using hu1) (by simpa using hu2)⟩
    · exact ⟨_, List.Mem.tail _ (List.Mem.tail _ (List.Mem.tail _ (List.Mem.tail _ (List.Mem.head _)))), pfx1_mem_piece r c off inb hoff 3 j hj0 (by simpa using hu1) (by simpa using hu2)⟩
    · exact ⟨_, List.Mem.tail _ (List.Mem.tail _ (List.Mem.tail _ (List.Mem.tail _ (List.Mem.tail _ (List.Mem.head _))))), pfx1_mem_piece r c off inb hoff 2 j hj0 (by simpa using hu1) (by simpa using hu2)⟩
    · exact ⟨_, List.Mem.tail _ (List.Mem.tail _ (List.Mem.tail _ (List.Mem.tail _ (List.Mem.tail _ (List.Mem.tail _ (List.Mem.head _)))))), pfx1_mem_piece r c off inb hoff 1 j hj0 (by simpa using hu1) (by simpa using hu2)⟩
    · exact ⟨_, List.Mem.tail _ (List.Mem.tail _ (List.Mem.tail _ (List.Mem.tail _ (List.Mem.tail _ (List.Mem.tail _ (List.Mem.tail _ (List.Mem.head _))))))), pfx1_mem_piece r c off inb hoff 0 j hj0 (by simpa using hu1) (by simpa using hu2)⟩

def pfx1_invA (d : Dev nD) (L : grid2.Coords) (k : Nat) (_ : PUnit) : sProp 𝕄 :=
  iprop(∃ f : Vec F S8x4096 .f32, ⌜∀ j : S8x4096.Idx, (j 0).val < k → f j = pfx1Z⌝
    ∗ ((blkA).view.loc (pfx1Thr d L) ↦{fullShare} f))

def pfx1_invA2 (d : Dev nD) (L : grid2.Coords) (k1 : Nat) (k : Nat) (_ : PUnit) : sProp 𝕄 :=
  iprop(∃ f : Vec F S8x4096 .f32, ⌜∀ j : S8x4096.Idx, ((j 0).val < k1 ∨ ((j 0).val = k1 ∧ (j 1).val < 128 * k)) → f j = pfx1Z⌝
    ∗ ((blkA).view.loc (pfx1Thr d L) ↦{fullShare} f))

def pfx1_invB (d : Dev nD) (L : grid2.Coords) (k : Nat) (_ : PUnit) : sProp 𝕄 :=
  iprop(∃ f : Vec F S8x4096 .f32, ⌜∀ j : S8x4096.Idx, (j 0).val < k → f j = pfx1Z⌝
    ∗ ((blkB).view.loc (pfx1Thr d L) ↦{fullShare} f))
def pfx1_invB2 (d : Dev nD) (L : grid2.Coords) (k1 : Nat) (k : Nat) (_ : PUnit) : sProp 𝕄 :=
  iprop(∃ f : Vec F S8x4096 .f32, ⌜∀ j : S8x4096.Idx, ((j 0).val < k1 ∨ ((j 0).val = k1 ∧ (j 1).val < 128 * k)) → f j = pfx1Z⌝
    ∗ ((blkB).view.loc (pfx1Thr d L) ↦{fullShare} f))

theorem pfx1_zeroA_step (k1 : Fin k2_t1_loop.trips) (k2 : Fin k2_t2_loop.trips) (g : Vec F S8x4096 .f32)
    (hg : ∀ j : S8x4096.Idx, ((j 0).val < k1.val ∨ ((j 0).val = k1.val ∧ (j 1).val < 128 * k2.val)) → g j = pfx1Z) :
    ∀ j : S8x4096.Idx, ((j 0).val < k1.val ∨ ((j 0).val = k1.val ∧ (j 1).val < 128 * (k2.val + 1))) →
      ((blkA).view.writes (Elt F) g
        [⟨Rect.unit (s := S8x4096) (k2_off2 k1 k2 112#32) S1x16.size (k2_off2_inb k1 k2 7), shapeCast S1x16 (k2_pay2 (F := F)) shapeCasts_S16_S1x16⟩,
        ⟨Rect.unit (s := S8x4096) (k2_off2 k1 k2 96#32) S1x16.size (k2_off2_inb k1 k2 6), shapeCast S1x16 (k2_pay2 (F := F)) shapeCasts_S16_S1x16⟩,
        ⟨Rect.unit (s := S8x4096) (k2_off2 k1 k2 80#32) S1x16.size (k2_off2_inb k1 k2 5), shapeCast S1x16 (k2_pay2 (F := F)) shapeCasts_S16_S1x16⟩,
        ⟨Rect.unit (s := S8x4096) (k2_off2 k1 k2 64#32) S1x16.size (k2_off2_inb k1 k2 4), shapeCast S1x16 (k2_pay2 (F := F)) shapeCasts_S16_S1x16⟩,
        ⟨Rect.unit (s := S8x4096) (k2_off2 k1 k2 48#32) S1x16.size (k2_off2_inb k1 k2 3), shapeCast S1x16 (k2_pay2 (F := F)) shapeCasts_S16_S1x16⟩,
        ⟨Rect.unit (s := S8x4096) (k2_off2 k1 k2 32#32) S1x16.size (k2_off2_inb k1 k2 2), shapeCast S1x16 (k2_pay2 (F := F)) shapeCasts_S16_S1x16⟩,
        ⟨Rect.unit (s := S8x4096) (k2_off2 k1 k2 16#32) S1x16.size (k2_off2_inb k1 k2 1), shapeCast S1x16 (k2_pay2 (F := F)) shapeCasts_S16_S1x16⟩,
        ⟨Rect.unit (s := S8x4096) (k2_off2 k1 k2 0#32) S1x16.size (k2_off2_inb k1 k2 0), shapeCast S1x16 (k2_pay2 (F := F)) shapeCasts_S16_S1x16⟩]) j = pfx1Z := by
  intro j hj
  exact pfx1_zero_step (F := F) (blkA).view g k1.val k2.val (fun u => k2_off2 k1 k2 (BitVec.ofNat 32 (16 * u.val)))
    (fun u => Gen.k2_off2_inb k1 k2 u) (fun u => Gen.k2_off2_eq k1 k2 u) _ (fun x => pfx1_pay2_cast x) hg j hj

theorem pfx1_zeroB_step (k3 : Fin k2_t3_loop.trips) (k4 : Fin k2_t4_loop.trips) (g : Vec F S8x4096 .f32)
    (hg : ∀ j : S8x4096.Idx, ((j 0).val < k3.val ∨ ((j 0).val = k3.val ∧ (j 1).val < 128 * k4.val)) → g j = pfx1Z) :
    ∀ j : S8x4096.Idx, ((j 0).val < k3.val ∨ ((j 0).val = k3.val ∧ (j 1).val < 128 * (k4.val + 1))) →
      ((blkB).view.writes (Elt F) g
        [⟨Rect.unit (s := S8x4096) (k2_off3 k3 k4 112#32) S1x16.size (k2_off3_inb k3 k4 7), shapeCast S1x16 (k2_pay2 (F := F)) shapeCasts_S16_S1x16⟩,
        ⟨Rect.unit (s := S8x4096) (k2_off3 k3 k4 96#32) S1x16.size (k2_off3_inb k3 k4 6), shapeCast S1x16 (k2_pay2 (F := F)) shapeCasts_S16_S1x16⟩,
        ⟨Rect.unit (s := S8x4096) (k2_off3 k3 k4 80#32) S1x16.size (k2_off3_inb k3 k4 5), shapeCast S1x16 (k2_pay2 (F := F)) shapeCasts_S16_S1x16⟩,
        ⟨Rect.unit (s := S8x4096) (k2_off3 k3 k4 64#32) S1x16.size (k2_off3_inb k3 k4 4), shapeCast S1x16 (k2_pay2 (F := F)) shapeCasts_S16_S1x16⟩,
        ⟨Rect.unit (s := S8x4096) (k2_off3 k3 k4 48#32) S1x16.size (k2_off3_inb k3 k4 3), shapeCast S1x16 (k2_pay2 (F := F)) shapeCasts_S16_S1x16⟩,
        ⟨Rect.unit (s := S8x4096) (k2_off3 k3 k4 32#32) S1x16.size (k2_off3_inb k3 k4 2), shapeCast S1x16 (k2_pay2 (F := F)) shapeCasts_S16_S1x16⟩,
        ⟨Rect.unit (s := S8x4096) (k2_off3 k3 k4 16#32) S1x16.size (k2_off3_inb k3 k4 1), shapeCast S1x16 (k2_pay2 (F := F)) shapeCasts_S16_S1x16⟩,
        ⟨Rect.unit (s := S8x4096) (k2_off3 k3 k4 0#32) S1x16.size (k2_off3_inb k3 k4 0), shapeCast S1x16 (k2_pay2 (F := F)) shapeCasts_S16_S1x16⟩]) j = pfx1Z := by
  intro j hj
  exact pfx1_zero_step (F := F) (blkB).view g k3.val k4.val (fun u => k2_off3 k3 k4 (BitVec.ofNat 32 (16 * u.val)))
    (fun u => Gen.k2_off3_inb k3 k4 u) (fun u => Gen.k2_off3_eq k3 k4 u) _ (fun x => pfx1_pay2_cast x) hg j hj

theorem pfx1_wp_then_pure {α β : Type} (thr : Thread nD τ) (p : Prog (TpuEff nD τ sig (Elt F) Λ₀ thr.2) α) (b : β)
    (Φ : β → sProp 𝕄) :
    wp frame (wpE (defs₀ (F := F)) 𝒱₀ thr none) Set.univ p (fun _ => Φ b)
      ⊢ wp frame (wpE (defs₀ (F := F)) 𝒱₀ thr none) Set.univ (p >>= fun _ => pure b) Φ := by
  rw [wp_bind]
  exact wp_mono _ _ _ fun _ => le_wp_ret _ _ _ _ _

theorem pfx1_part19 (qw qm : PosShare TreeShare) (O : CellTallies nD τ sig (HIx 2)) (W : Waits sig (HIx 2))
    (fA : Buf (Elt F) ((pfx1Thr d L).loc cc2_scratch0)) (fB : Buf (Elt F) ((pfx1Thr d L).loc cc2_scratch1))
    (fw : Buf (Elt F) ((pfx1Thr d L).loc cc2_scratch2)) (fm : Buf (Elt F) ((pfx1Thr d L).loc cc2_scratch3))
    (Φ : (Σ' (_ : BitVec 32), FVec F S16 .f32) → sProp 𝕄) :
    iprop(Transfers.MayWaits (pfx1Thr d L) (none : HIx 2) O
        ∗ ((wW).view.loc (pfx1Thr d L) ↦{qw} m (wLoc d))
        ∗ ((mW).view.loc (pfx1Thr d L) ↦{qm} m (mLoc d))
        ∗ ((blkA).view.loc (pfx1Thr d L) ↦{fullShare} fA)
        ∗ ((blkB).view.loc (pfx1Thr d L) ↦{fullShare} fB)
        ∗ ((wvS).view.loc (pfx1Thr d L) ↦{fullShare} fw)
        ∗ ((mvS).view.loc (pfx1Thr d L) ↦{fullShare} fm)
        ∗ semVal (pfx1Thr d L, SemLoc.dma cc2_scoped0.sem) 0
        ∗ semVal (pfx1Thr d L, SemLoc.dma cc2_scoped1.sem) 0
        ∗ owes (pfx1Thr d L) O W
        ∗ (∀ W', ⌜∀ p ∈ W', p ∈ W ∨ p.2 = none⌝ -∗
            (Transfers.MayWaits (pfx1Thr d L) (none : HIx 2) O
              ∗ ((wW).view.loc (pfx1Thr d L) ↦{qw} m (wLoc d))
              ∗ ((mW).view.loc (pfx1Thr d L) ↦{qm} m (mLoc d))
              ∗ ((blkA).view.loc (pfx1Thr d L) ↦{fullShare} (fun _ => pfx1Z))
              ∗ ((blkB).view.loc (pfx1Thr d L) ↦{fullShare} (fun _ => pfx1Z))
              ∗ ((wvS).view.loc (pfx1Thr d L) ↦{fullShare} pfx1Wv m d L)
              ∗ ((mvS).view.loc (pfx1Thr d L) ↦{fullShare} pfx1Mv m d L)
              ∗ semVal (pfx1Thr d L, SemLoc.dma cc2_scoped0.sem) 0
              ∗ semVal (pfx1Thr d L, SemLoc.dma cc2_scoped1.sem) 0
              ∗ owes (pfx1Thr d L) O W') -∗
            wp frame (wpE (defs₀ (F := F)) 𝒱₀ (pfx1Thr d L) none) Set.univ
              (Scf.Loop.for k2_t5_loop k2_t5_ok ⟨⟩
                (k2_t5_body L wW (Memref.isWhole_whole _) mW (Memref.isWhole_whole _) dW (Memref.isWhole_whole _)
                  blkA (Memref.isWhole_whole _) blkB (Memref.isWhole_whole _) wvS (Memref.isWhole_whole _) mvS (Memref.isWhole_whole _)
                  cc2_scratch4 cc2_scratch5 cc2_scoped0 cc2_scoped1))
              (fun _ => Φ ⟨pfx1Wid L, k2_pay2⟩)))
      ⊢ wp frame (wpE (defs₀ (F := F)) 𝒱₀ (pfx1Thr d L) none) Set.univ
          (k2_part19 L wW (Memref.isWhole_whole _) mW (Memref.isWhole_whole _) dW (Memref.isWhole_whole _)
            blkA (Memref.isWhole_whole _) blkB (Memref.isWhole_whole _) wvS (Memref.isWhole_whole _) mvS (Memref.isWhole_whole _)
            cc2_scratch4 cc2_scratch5 cc2_scoped0 cc2_scoped1) Φ := by
  rw [k2_part19_eq_skeleton]
  unfold k2_part19_skel
  iintro ⟨#Hmw, Hw, Hm, HA, HB, Hwv, Hmv, Hs0, Hs1, HO, Hk⟩
  sl_exec

  sl_for (pfx1_invA (F := F) d L) $$ [HA]
  case region =>
    intro k1 _
    unfold pfx1_invA
    iintro ⟨%f, %hf, HA⟩
    sl_exec
    sl_for (pfx1_invA2 (F := F) d L k1.val) $$ [HA]
    case region =>
      intro k2 _
      unfold pfx1_invA2
      iintro ⟨%g, %hg, HA⟩
      sl_exec
      sl_step
      iexists _
      isplitr
      pick_goal 2
      · iexact HA
      · ipureintro
        exact pfx1_zeroA_step k1 k2 g hg
    · unfold pfx1_invA2
      iexists f
      isplitr
      · ipureintro
        intro j hj
        exact hf j (by omega)
      · iexact HA
    iintro %_ HI
    unfold pfx1_invA2
    icases HI with ⟨%g, %hg, HA⟩
    sl_exec
    sl_step
    iexists g
    isplitr
    · ipureintro
      intro j hj
      have ht : Scf.trips k2_t2_loop.lb k2_t2_loop.ub k2_t2_loop.st = 32 := by decide
      rw [ht] at hg
      have h1 : (j 1).val < 4096 := (j 1).isLt
      exact hg j (by omega)
    · iexact HA
  · unfold pfx1_invA
    iexists fA
    isplitr
    · ipureintro
      intro j hj
      exact absurd hj (Nat.not_lt_zero _)
    · iexact HA
  iintro %_ HI
  unfold pfx1_invA
  icases HI with ⟨%fA', %hfA', HA⟩
  have eA : fA' = fun _ => pfx1Z := by
    funext j
    have ht : Scf.trips k2_t1_loop.lb k2_t1_loop.ub k2_t1_loop.st = 8 := by decide
    rw [ht] at hfA'
    exact hfA' j (j 0).isLt
  subst eA
  sl_exec

  sl_for (pfx1_invB (F := F) d L) $$ [HB]
  case region =>
    intro k3 _
    unfold pfx1_invB
    iintro ⟨%f, %hf, HB⟩
    sl_exec
    sl_for (pfx1_invB2 (F := F) d L k3.val) $$ [HB]
    case region =>
      intro k4 _
      unfold pfx1_invB2
      iintro ⟨%g, %hg, HB⟩
      sl_exec
      sl_step
      iexists _
      isplitr
      pick_goal 2
      · iexact HB
      · ipureintro
        exact pfx1_zeroB_step k3 k4 g hg
    · unfold pfx1_invB2
      iexists f
      isplitr
      · ipureintro
        intro j hj
        exact hf j (by omega)
      · iexact HB
    iintro %_ HI
    unfold pfx1_invB2
    icases HI with ⟨%g, %hg, HB⟩
    sl_exec
    sl_step
    iexists g
    isplitr
    · ipureintro
      intro j hj
      have ht : Scf.trips k2_t4_loop.lb k2_t4_loop.ub k2_t4_loop.st = 32 := by decide
      rw [ht] at hg
      have h1 : (j 1).val < 4096 := (j 1).isLt
      exact hg j (by omega)
    · iexact HB
  · unfold pfx1_invB
    iexists fB
    isplitr
    · ipureintro
      intro j hj
      exact absurd hj (Nat.not_lt_zero _)
    · iexact HB
  iintro %_ HI
  unfold pfx1_invB
  icases HI with ⟨%fB', %hfB', HB⟩
  have eB : fB' = fun _ => pfx1Z := by
    funext j
    have ht : Scf.trips k2_t3_loop.lb k2_t3_loop.ub k2_t3_loop.st = 8 := by decide
    rw [ht] at hfB'
    exact hfB' j (j 0).isLt
  subst eB
  sl_exec

  have eW : (wvS).view.write (Elt F) fw (pfx1_part19.sl.dma0 m d L) Finset.univ = pfx1Wv m d L := View.write_whole_univ _ _ _
  have eM : (mvS).view.write (Elt F) fm (pfx1_part19.sl.dma0_1 m d L) Finset.univ = pfx1Mv m d L := View.write_whole_univ _ _ _
  rw [eW, eM]
  have hW'' : ∀ p ∈ insert (SemLoc.dma cc2_scoped1.sem, (default : HIx 2)) (insert (SemLoc.dma cc2_scoped0.sem, (default : HIx 2)) W),
      p ∈ W ∨ p.2 = none := by
    intro p hp
    rcases Finset.mem_insert.mp hp with hp | hp
    · exact .inr (hp ▸ rfl)
    rcases Finset.mem_insert.mp hp with hp | hp
    · exact .inr (hp ▸ rfl)
    · exact .inl hp
  iapply (pfx1_wp_then_pure (F := F) (pfx1Thr d L) _ _ Φ)
  iapply Hk $$ %_ %hW'' [Hw Hm HA HB Hwv Hmv Hs0 Hs1 HO]
  isplitr; · iexact Hmw
  isplitl [Hw]; · iexact Hw
  isplitl [Hm]; · iexact Hm
  isplitl [HA]; · iexact HA
  isplitl [HB]; · iexact HB
  isplitl [Hwv]; · iexact Hwv
  isplitl [Hmv]; · iexact Hmv
  isplitl [Hs0]; · iexact Hs0
  isplitl [Hs1]; · iexact Hs1
  iexact HO

end Cert.Proof.KI

end
-- ==== Proof.KI.Tile1p19.lean ====
import proofs.«207445_g73023033966933_cont_9to1_m_863_36_alg».proof.Proof.KI.Tile1Defs
import proofs.«207445_g73023033966933_cont_9to1_m_863_36_alg».proof.Proof.KI.Prefix1

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "wV" => (Memref.whole Cert.KernelIdeal.main_arg1_scv : Memref Cert.KernelIdeal.sig Kind.scVector Space.hbm Cert.KernelIdeal.S4096x128 EltTy.f32)
local notation "mV" => (Memref.whole Cert.KernelIdeal.main_arg2_scv : Memref Cert.KernelIdeal.sig Kind.scVector Space.hbm Cert.KernelIdeal.S4096x128 EltTy.i32)
local notation "dV" => (Memref.whole Cert.KernelIdeal.main_v4_scv : Memref Cert.KernelIdeal.sig Kind.scVector Space.hbm Cert.KernelIdeal.S2560x4096 EltTy.f32)
local notation "bA" => (Memref.whole Cert.KernelIdeal.cc2_scratch0 : Memref Cert.KernelIdeal.sig Kind.scVector Space.vmem Cert.KernelIdeal.S8x4096 EltTy.f32)
local notation "bB" => (Memref.whole Cert.KernelIdeal.cc2_scratch1 : Memref Cert.KernelIdeal.sig Kind.scVector Space.vmem Cert.KernelIdeal.S8x4096 EltTy.f32)
local notation "sW" => (Memref.whole Cert.KernelIdeal.cc2_scratch2 : Memref Cert.KernelIdeal.sig Kind.scVector Space.vmem Cert.KernelIdeal.S80x128 EltTy.f32)
local notation "sM" => (Memref.whole Cert.KernelIdeal.cc2_scratch3 : Memref Cert.KernelIdeal.sig Kind.scVector Space.vmem Cert.KernelIdeal.S80x128 EltTy.i32)

variable [FloatOps F] (m : (ℓ : Loc nD τ sig) → Buf (Elt F) ℓ)

section Tile

variable (d : Dev nD) (L : grid2.Coords)

local notation "THR" => V d (t1_cV L) (t1_jV L)
local notation "WP" => wp frame (wpE (defs₀ (F := F)) 𝒱₀ (V d (t1_cV L) (t1_jV L)) none) Set.univ
local notation "AT[" f "]" => f L (wV) (Memref.isWhole_whole _) (mV) (Memref.isWhole_whole _) (dV) (Memref.isWhole_whole _) (bA) (Memref.isWhole_whole _) (bB) (Memref.isWhole_whole _) (sW) (Memref.isWhole_whole _) (sM) (Memref.isWhole_whole _) cc2_scratch4 cc2_scratch5 cc2_scoped0 cc2_scoped1

variable (O : CellTallies nD τ sig (HIx 2))
variable (qw qm : PosShare TreeShare)

theorem t1_fm_lt (hpre : PreOK m) : ∀ i, ((t1_fm m d L) i).toNat < 4096 := by
  intro i
  unfold t1_fm
  rw [View.read_apply]
  exact hpre d _

theorem part19_spec : T1Part19 m d L := by
  intro O qw qm hpre hO W Φ
  iintro ⟨#Hlv, Hw, Hm, ⟨%fA, HA⟩, ⟨%fB, HB⟩, ⟨%fw, Hwv⟩, ⟨%fm, Hmv⟩, Hs0, Hs1, HO, Hk⟩
  ihave Hmw := ((K (F := F)).mayWaits_none (thr := THR) hO) $$ Hlv
  iapply (pfx1_part19 (F := F) m d L qw qm O W fA fB fw fm Φ)
  isplitl [Hmw]; · iexact Hmw
  isplitl [Hw]; · iexact Hw
  isplitl [Hm]; · iexact Hm
  isplitl [HA]; · iexact HA
  isplitl [HB]; · iexact HB
  isplitl [Hwv]; · iexact Hwv
  isplitl [Hmv]; · iexact Hmv
  isplitl [Hs0]; · iexact Hs0
  isplitl [Hs1]; · iexact Hs1
  isplitl [HO]; · iexact HO
  iintro %W' %hW' ⟨Hmw, Hw, Hm, HA, HB, Hwv, Hmv, Hs0, Hs1, HO⟩

  iapply (wp_wand_r frame (wpE (defs₀ (F := F)) 𝒱₀ THR none) Set.univ)
  isplitl [HA Hwv Hmv]
  · iapply (t1_loop_t5 (F := F) d L (pfx1Wv m d L) (pfx1Mv m d L) (t1_fm_lt m d L hpre) (fun _ => pfx1Z))
    isplitl [HA]; · iexact HA
    isplitl [Hwv]; · iexact Hwv
    iexact Hmv
  iintro %_ ⟨HA, Hwv, Hmv⟩
  unfold pfx1Wid
  iapply Hk $$ %W' %hW' [Hw Hm HA HB Hwv Hmv Hs0 Hs1 HO]
  unfold t1_fix
  isplitl [Hw Hm Hwv Hmv Hs0 Hs1]
  · isplitl [Hw]; · iexact Hw
    isplitl [Hm]; · iexact Hm
    isplitl [Hwv]; · iexact Hwv
    isplitl [Hmv]; · iexact Hmv
    isplitl [Hs0]; · iexact Hs0
    iexact Hs1
  isplitl [HA]; · iexact HA
  isplitl [HB]; · iexact HB
  iexact HO

end Tile

end Cert.Proof.KI

end
-- ==== Proof.KI.Tile1p20.lean ====
import proofs.«207445_g73023033966933_cont_9to1_m_863_36_alg».proof.Proof.KI.Tile1Defs
import Idealize.ShloMosaic.Lib.Exec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "wV" => (Memref.whole Cert.KernelIdeal.main_arg1_scv : Memref Cert.KernelIdeal.sig Kind.scVector Space.hbm Cert.KernelIdeal.S4096x128 EltTy.f32)
local notation "mV" => (Memref.whole Cert.KernelIdeal.main_arg2_scv : Memref Cert.KernelIdeal.sig Kind.scVector Space.hbm Cert.KernelIdeal.S4096x128 EltTy.i32)
local notation "dV" => (Memref.whole Cert.KernelIdeal.main_v4_scv : Memref Cert.KernelIdeal.sig Kind.scVector Space.hbm Cert.KernelIdeal.S2560x4096 EltTy.f32)
local notation "bA" => (Memref.whole Cert.KernelIdeal.cc2_scratch0 : Memref Cert.KernelIdeal.sig Kind.scVector Space.vmem Cert.KernelIdeal.S8x4096 EltTy.f32)
local notation "bB" => (Memref.whole Cert.KernelIdeal.cc2_scratch1 : Memref Cert.KernelIdeal.sig Kind.scVector Space.vmem Cert.KernelIdeal.S8x4096 EltTy.f32)
local notation "sW" => (Memref.whole Cert.KernelIdeal.cc2_scratch2 : Memref Cert.KernelIdeal.sig Kind.scVector Space.vmem Cert.KernelIdeal.S80x128 EltTy.f32)
local notation "sM" => (Memref.whole Cert.KernelIdeal.cc2_scratch3 : Memref Cert.KernelIdeal.sig Kind.scVector Space.vmem Cert.KernelIdeal.S80x128 EltTy.i32)

variable [FloatOps F]
variable (m : (ℓ : Loc nD τ sig) → Buf (Elt F) ℓ)
variable (d : Dev nD) (L : grid2.Coords)

local notation "THR" => V d (t1_cV L) (t1_jV L)
local notation "WP" => wp frame (wpE (defs₀ (F := F)) 𝒱₀ (V d (t1_cV L) (t1_jV L)) none) Set.univ
local notation "AT[" f "]" => f L (wV) (Memref.isWhole_whole _) (mV) (Memref.isWhole_whole _) (dV) (Memref.isWhole_whole _) (bA) (Memref.isWhole_whole _) (bB) (Memref.isWhole_whole _) (sW) (Memref.isWhole_whole _) (sM) (Memref.isWhole_whole _) cc2_scratch4 cc2_scratch5 cc2_scoped0 cc2_scoped1

variable (O : CellTallies nD τ sig (HIx 2))
variable (qw qm : PosShare TreeShare) (fw : Vec F S80x128 .f32) (fm : IVec S80x128 32)
variable (G0 : Buf (Elt F) (d1Loc d))

theorem part20_spec : T1Part20 m d L := by
  intro O qw qm fw fm G0 hO hfm hG W v1 g0 g1 g2 Φ
  rw [k2_part20_eq_skeleton]; rw [k2_part20_skel]
  unfold t1_fix
  iintro ⟨#Hlv, ⟨Hw, Hm, HsW, HsM, HcW, HcM⟩, HbA, HbB, HcA, HcB, Hp0, Hp1, Hp2, HO, Hk⟩
  ihave Hmw := ((K (F := F)).mayWaits_none (thr := V d (t1_cV L) (t1_jV L)) hO) $$ Hlv

  have h6 := t1_loop_t6 d L fw fm v1 (fun _ => t1_z) hfm (fun _ => t1_z); rw [t1_add_z] at h6
  have h7 := t1_loop_t7 d L fw fm v1 hfm (t1_blk fw fm 0); rw [t1_clr_blk fw fm hfm 0] at h7
  have h8 := t1_loop_t8 d L fw fm v1 (fun _ => t1_z) hfm (fun _ => t1_z); rw [t1_add_z] at h8

  sl_exec

  iapply (exec_cut frame _ Set.univ h6) $$ [HbB HsW HsM]
  · isplitl [HbB]; · iexact HbB
    isplitl [HsW]; · iexact HsW
    iexact HsM
  iintro %_ ⟨HbB, HsW, HsM⟩

  sl_exec

  iapply (exec_cut frame _ Set.univ h7) $$ [HbA HsW HsM]
  · isplitl [HbA]; · iexact HbA
    isplitl [HsW]; · iexact HsW
    iexact HsM
  iintro %_ ⟨HbA, HsW, HsM⟩
  iapply (exec_cut frame _ Set.univ h8) $$ [HbA HsW HsM]
  · isplitl [HbA]; · iexact HbA
    isplitl [HsW]; · iexact HsW
    iexact HsM
  iintro %_ ⟨HbA, HsW, HsM⟩

  sl_exec
  sl_step
  iapply Hk $$ %(insert (SemLoc.dma cc2_scratch5.sem, (none : HIx 2)) (insert (SemLoc.dma cc2_scratch4.sem, (none : HIx 2)) W)) %(by
    intro p hp
    rcases Finset.mem_insert.mp hp with rfl | hp
    · exact .inr rfl
    rcases Finset.mem_insert.mp hp with rfl | hp
    · exact .inr rfl
    · exact .inl hp)
  isplitl [Hw Hm HsW HsM HcW HcM]
  · isplitl [Hw]; · iexact Hw
    isplitl [Hm]; · iexact Hm
    isplitl [HsW]; · iexact HsW
    isplitl [HsM]; · iexact HsM
    isplitl [HcW]; · iexact HcW
    iexact HcM
  isplitl [Hp0]
  · iapply (Entails.of_eq (t1_own_writes d L (k2_off5 L 0#32) (k2_off5_inb L 0) _ _ G0 (fun j => hG.1 j))); iexact Hp0
  isplitl [Hp1]
  · iapply (Entails.of_eq (t1_own_writes d L (k2_off5 L 8#32) (k2_off5_inb L 1) _ _ G0 (fun j => hG.2.1 j))); iexact Hp1
  isplitl [HcA]
  · iexact HcA
  isplitl [HbB]; · iexact HbB
  isplitl [HcB]; · iexact HcB
  iexact HO

end Cert.Proof.KI

end
-- ==== Proof.KI.Tile1p21.lean ====
import proofs.«207445_g73023033966933_cont_9to1_m_863_36_alg».proof.Proof.KI.Tile1Defs
import Idealize.ShloMosaic.Lib.Exec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "wV" => (Memref.whole Cert.KernelIdeal.main_arg1_scv : Memref Cert.KernelIdeal.sig Kind.scVector Space.hbm Cert.KernelIdeal.S4096x128 EltTy.f32)
local notation "mV" => (Memref.whole Cert.KernelIdeal.main_arg2_scv : Memref Cert.KernelIdeal.sig Kind.scVector Space.hbm Cert.KernelIdeal.S4096x128 EltTy.i32)
local notation "dV" => (Memref.whole Cert.KernelIdeal.main_v4_scv : Memref Cert.KernelIdeal.sig Kind.scVector Space.hbm Cert.KernelIdeal.S2560x4096 EltTy.f32)
local notation "bA" => (Memref.whole Cert.KernelIdeal.cc2_scratch0 : Memref Cert.KernelIdeal.sig Kind.scVector Space.vmem Cert.KernelIdeal.S8x4096 EltTy.f32)
local notation "bB" => (Memref.whole Cert.KernelIdeal.cc2_scratch1 : Memref Cert.KernelIdeal.sig Kind.scVector Space.vmem Cert.KernelIdeal.S8x4096 EltTy.f32)
local notation "sW" => (Memref.whole Cert.KernelIdeal.cc2_scratch2 : Memref Cert.KernelIdeal.sig Kind.scVector Space.vmem Cert.KernelIdeal.S80x128 EltTy.f32)
local notation "sM" => (Memref.whole Cert.KernelIdeal.cc2_scratch3 : Memref Cert.KernelIdeal.sig Kind.scVector Space.vmem Cert.KernelIdeal.S80x128 EltTy.i32)

variable [FloatOps F]
variable (m : (ℓ : Loc nD τ sig) → Buf (Elt F) ℓ)
variable (d : Dev nD) (L : grid2.Coords)

local notation "THR" => V d (t1_cV L) (t1_jV L)
local notation "WP" => wp frame (wpE (defs₀ (F := F)) 𝒱₀ (V d (t1_cV L) (t1_jV L)) none) Set.univ
local notation "AT[" f "]" => f L (wV) (Memref.isWhole_whole _) (mV) (Memref.isWhole_whole _) (dV) (Memref.isWhole_whole _) (bA) (Memref.isWhole_whole _) (bB) (Memref.isWhole_whole _) (sW) (Memref.isWhole_whole _) (sM) (Memref.isWhole_whole _) cc2_scratch4 cc2_scratch5 cc2_scoped0 cc2_scoped1

variable (O : CellTallies nD τ sig (HIx 2))
variable (qw qm : PosShare TreeShare) (fw : Vec F S80x128 .f32) (fm : IVec S80x128 32)
variable (G0 : Buf (Elt F) (d1Loc d))

theorem p21_mr_lt (hfm : ∀ i, (fm i).toNat < 4096) (sb : Fin 10) (r : Fin 8) (k : Fin 128) : (t1_mr fm sb r k).toNat < 4096 :=
  hfm _

theorem p21_clr (hfm : ∀ i, (fm i).toNat < 4096) (sb : Fin 10) :
    SpecF.foldClr (t1_z (F := F)) (t1_mr fm sb) 64 (t1_blk fw fm sb) = fun _ => t1_z :=
  SpecF.foldClr_foldAdd (t1_wr fw sb) (t1_mr fm sb) (p21_mr_lt fm hfm sb) t1_z

omit [FloatOps F] in

theorem p21_own_whole (b : Ref sig .scVector) (q : PosShare TreeShare) (f : Buf (Elt F) ((V d (t1_cV L) (t1_jV L)).loc b)) :
    ((Memref.whole b).view.loc THR ↦[(Memref.whole b).view.set]{q} f : sProp 𝕄) = ((Memref.whole b).view.loc THR ↦{q} f) := by
  simp only [Memref.view_whole, View.set_whole]

theorem p21_waits {W W₀ : Waits sig (HIx 2)} (h : ∀ p ∈ W, p ∈ W₀ ∨ p.2 = none) (s : SemLoc sig) :
    ∀ p ∈ insert (s, (none : HIx 2)) W, p ∈ W₀ ∨ p.2 = none := fun p hp =>
  (Finset.mem_insert.mp hp).elim (fun e => .inr (e ▸ rfl)) (h p)

set_option maxHeartbeats 4000000 in

theorem part21_spec : T1Part21 m d L := by
  intro O qw qm fw fm G0 hO hfm hG W v1 g2 g3 g4 Φ

  have h9 := t1_loop_t9 (F := F) (d := d) (L := L) (fw := fw) (fm := fm) (v1 := v1) hfm (t1_blk fw fm 1)
  rw [p21_clr fw fm hfm 1] at h9
  have h10 := t1_loop_t10 (F := F) (d := d) (L := L) (fw := fw) (fm := fm) (v1 := v1) (v4 := fun _ => t1_z) (c0 := 0#32) hfm (fun _ => t1_z)
  have h11 := t1_loop_t11 (F := F) (d := d) (L := L) (fw := fw) (fm := fm) (v1 := v1) (c0 := 0#32) hfm (t1_blk fw fm 2)
  rw [p21_clr fw fm hfm 2] at h11
  have h12 := t1_loop_t12 (F := F) (d := d) (L := L) (fw := fw) (fm := fm) (v1 := v1) (v4 := fun _ => t1_z) (c0 := 0#32) hfm (fun _ => t1_z)
  rw [k2_part21_eq_skeleton]; rw [k2_part21_skel]
  unfold t1_fix
  iintro ⟨#Hlv, ⟨Hw, Hm, HsW, HsM, HcW, HcM⟩, HfA, HbB, HcB, Hp3, Hp4, HO, Hk⟩
  ihave Hmw := ((K (F := F)).mayWaits_none (thr := V d (t1_cV L) (t1_jV L)) hO) $$ Hlv

  iapply (exec_cut frame _ Set.univ h9) $$ [HbB HsW HsM]
  · isplitl [HbB]; · iexact HbB
    isplitl [HsW]; · iexact HsW
    iexact HsM
  iintro %_ ⟨HbB, HsW, HsM⟩
  iapply (exec_cut frame _ Set.univ h10) $$ [HbB HsW HsM]
  · isplitl [HbB]; · iexact HbB
    isplitl [HsW]; · iexact HsW
    iexact HsM
  iintro %_ ⟨HbB, HsW, HsM⟩

  sl_exec

  ihave HbA := (Entails.of_eq (p21_own_whole (F := F) d L cc2_scratch0 fullShare _)) $$ HfA_src
  iapply (exec_cut frame _ Set.univ h11) $$ [HbA HsW HsM]
  · isplitl [HbA]; · iexact HbA
    isplitl [HsW]; · iexact HsW
    iexact HsM
  iintro %_ ⟨HbA, HsW, HsM⟩
  iapply (exec_cut frame _ Set.univ h12) $$ [HbA HsW HsM]
  · isplitl [HbA]; · iexact HbA
    isplitl [HsW]; · iexact HsW
    iexact HsM
  iintro %_ ⟨HbA, HsW, HsM⟩

  sl_exec
  sl_step

  iapply Hk $$ %(insert (SemLoc.dma cc2_scratch4.sem, (none : HIx 2)) W) %(p21_waits (fun p hp => Or.inl hp) _) [Hw Hm HsW HsM HcW HcM HfA_dst HcB HfA HO]
  isplitl [Hw Hm HsW HsM HcW HcM]
  · isplitl [Hw]; · iexact Hw
    isplitl [Hm]; · iexact Hm
    isplitl [HsW]; · iexact HsW
    isplitl [HsM]; · iexact HsM
    isplitl [HcW]; · iexact HcW
    iexact HcM
  isplitl [HfA_dst]
  · iapply (Entails.of_eq (t1_own_writes d L (k2_off5 L 16#32) (k2_off5_inb L 2) _ _ G0 (fun j => hG.2.2.1 j))); iexact HfA_dst
  isplitl [HcB]; · iexact HcB
  isplitl [HfA]; · iexact HfA
  iexact HO

end Cert.Proof.KI

end
-- ==== Proof.KI.Tile1p22.lean ====
import proofs.«207445_g73023033966933_cont_9to1_m_863_36_alg».proof.Proof.KI.Tile1Defs
import Idealize.ShloMosaic.Lib.Exec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "wV" => (Memref.whole Cert.KernelIdeal.main_arg1_scv : Memref Cert.KernelIdeal.sig Kind.scVector Space.hbm Cert.KernelIdeal.S4096x128 EltTy.f32)
local notation "mV" => (Memref.whole Cert.KernelIdeal.main_arg2_scv : Memref Cert.KernelIdeal.sig Kind.scVector Space.hbm Cert.KernelIdeal.S4096x128 EltTy.i32)
local notation "dV" => (Memref.whole Cert.KernelIdeal.main_v4_scv : Memref Cert.KernelIdeal.sig Kind.scVector Space.hbm Cert.KernelIdeal.S2560x4096 EltTy.f32)
local notation "bA" => (Memref.whole Cert.KernelIdeal.cc2_scratch0 : Memref Cert.KernelIdeal.sig Kind.scVector Space.vmem Cert.KernelIdeal.S8x4096 EltTy.f32)
local notation "bB" => (Memref.whole Cert.KernelIdeal.cc2_scratch1 : Memref Cert.KernelIdeal.sig Kind.scVector Space.vmem Cert.KernelIdeal.S8x4096 EltTy.f32)
local notation "sW" => (Memref.whole Cert.KernelIdeal.cc2_scratch2 : Memref Cert.KernelIdeal.sig Kind.scVector Space.vmem Cert.KernelIdeal.S80x128 EltTy.f32)
local notation "sM" => (Memref.whole Cert.KernelIdeal.cc2_scratch3 : Memref Cert.KernelIdeal.sig Kind.scVector Space.vmem Cert.KernelIdeal.S80x128 EltTy.i32)

variable [FloatOps F]
variable (m : (ℓ : Loc nD τ sig) → Buf (Elt F) ℓ)
variable (d : Dev nD) (L : grid2.Coords)

local notation "THR" => V d (t1_cV L) (t1_jV L)
local notation "WP" => wp frame (wpE (defs₀ (F := F)) 𝒱₀ (V d (t1_cV L) (t1_jV L)) none) Set.univ
local notation "AT[" f "]" => f L (wV) (Memref.isWhole_whole _) (mV) (Memref.isWhole_whole _) (dV) (Memref.isWhole_whole _) (bA) (Memref.isWhole_whole _) (bB) (Memref.isWhole_whole _) (sW) (Memref.isWhole_whole _) (sM) (Memref.isWhole_whole _) cc2_scratch4 cc2_scratch5 cc2_scoped0 cc2_scoped1

variable (O : CellTallies nD τ sig (HIx 2))
variable (qw qm : PosShare TreeShare) (fw : Vec F S80x128 .f32) (fm : IVec S80x128 32)
variable (G0 : Buf (Elt F) (d1Loc d))

omit [FloatOps F] in

theorem p22_own_bA (f : Vec F S8x4096 .f32) :
    (t1_own d L (bA) fullShare (f : Buf (Elt F) ((bA).view.loc (V d (t1_cV L) (t1_jV L)))) : sProp 𝕄) = ((bA).view.loc (V d (t1_cV L) (t1_jV L)) ↦{fullShare} f) := by
  simp only [t1_own, Memref.view_whole, View.set_whole]
omit [FloatOps F] in
theorem p22_own_bB (f : Vec F S8x4096 .f32) :
    (t1_own d L (bB) fullShare (f : Buf (Elt F) ((bB).view.loc (V d (t1_cV L) (t1_jV L)))) : sProp 𝕄) = ((bB).view.loc (V d (t1_cV L) (t1_jV L)) ↦{fullShare} f) := by
  simp only [t1_own, Memref.view_whole, View.set_whole]

theorem part22_spec : T1Part22 m d L := by
  intro O qw qm fw fm G0 hO hfm hG W v1 g3 g4 g5 g6 Φ

  have h13 := t1_loop_t13 d L fw fm v1 hfm (t1_blk fw fm 3); rw [t1_clr_blk fw fm hfm 3] at h13
  have h14 := t1_loop_t14 d L fw fm v1 (fun _ => t1_z) hfm (fun _ => t1_z); rw [t1_add_z] at h14
  have h15 := t1_loop_t15 d L fw fm v1 hfm (t1_blk fw fm 4); rw [t1_clr_blk fw fm hfm 4] at h15
  have h16 := t1_loop_t16 d L fw fm v1 (fun _ => t1_z) hfm (fun _ => t1_z); rw [t1_add_z] at h16
  rw [k2_part22_eq_skeleton]; rw [k2_part22_skel]
  unfold t1_fix
  iintro ⟨#Hlv, ⟨Hw, Hm, HsW, HsM, HcW, HcM⟩, HfB, HfA, Hp5, Hp6, HO, Hk⟩
  ihave Hmw := ((K (F := F)).mayWaits_none (thr := V d (t1_cV L) (t1_jV L)) hO) $$ Hlv

  sl_exec

  ihave HbB := (Entails.of_eq (p22_own_bB (F := F) d L _)) $$ HfB_src
  iapply (exec_cut frame _ Set.univ h13) $$ [HbB HsW HsM]
  · isplitl [HbB]; · iexact HbB
    isplitl [HsW]; · iexact HsW
    iexact HsM
  iintro %_ ⟨HbB, HsW, HsM⟩
  iapply (exec_cut frame _ Set.univ h14) $$ [HbB HsW HsM]
  · isplitl [HbB]; · iexact HbB
    isplitl [HsW]; · iexact HsW
    iexact HsM
  iintro %_ ⟨HbB, HsW, HsM⟩
  ihave HbB' := (Entails.of_eq (p22_own_bB (F := F) d L _).symm) $$ HbB

  sl_exec

  ihave HbA := (Entails.of_eq (p22_own_bA (F := F) d L _)) $$ HfA_src
  iapply (exec_cut frame _ Set.univ h15) $$ [HbA HsW HsM]
  · isplitl [HbA]; · iexact HbA
    isplitl [HsW]; · iexact HsW
    iexact HsM
  iintro %_ ⟨HbA, HsW, HsM⟩
  iapply (exec_cut frame _ Set.univ h16) $$ [HbA HsW HsM]
  · isplitl [HbA]; · iexact HbA
    isplitl [HsW]; · iexact HsW
    iexact HsM
  iintro %_ ⟨HbA, HsW, HsM⟩
  ihave HbA' := (Entails.of_eq (p22_own_bA (F := F) d L _).symm) $$ HbA

  sl_exec
  sl_step
  sl_unfold_run_names
  iapply Hk $$ %(insert (SemLoc.dma cc2_scratch4.sem, (none : HIx 2)) (insert (SemLoc.dma cc2_scratch5.sem, (none : HIx 2)) W)) %(by
    intro p hp
    rcases Finset.mem_insert.mp hp with rfl | hp
    · exact .inr rfl
    rcases Finset.mem_insert.mp hp with rfl | hp
    · exact .inr rfl
    · exact .inl hp)
  isplitl [Hw Hm HsW HsM HcW HcM]
  · isplitl [Hw]; · iexact Hw
    isplitl [Hm]; · iexact Hm
    isplitl [HsW]; · iexact HsW
    isplitl [HsM]; · iexact HsM
    isplitl [HcW]; · iexact HcW
    iexact HcM

  isplitl [HfB_dst]
  · iapply (Entails.of_eq (t1_own_writes d L (k2_off5 L 24#32) (k2_off5_inb L 3) _ _ G0 (fun j => hG.2.2.2.1 j))); iexact HfB_dst
  isplitl [HfA_dst]
  · iapply (Entails.of_eq (t1_own_writes d L (k2_off5 L 32#32) (k2_off5_inb L 4) _ _ G0 (fun j => hG.2.2.2.2.1 j))); iexact HfA_dst
  isplitl [HfB]; · iexact HfB
  isplitl [HfA]; · iexact HfA
  iexact HO

end Cert.Proof.KI

end
-- ==== Proof.KI.ScatterBind.lean ====
import proofs.«207445_g73023033966933_cont_9to1_m_863_36_alg».proof.Proof.KI.Common

noncomputable section

namespace Cert.Proof.KI

open Cert.KernelIdeal Cert.KernelIdeal.Gen

open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (SparseCore.Cfg.HIx 2) (Elt F) ℕ UU ℕ

theorem scat_bind {α β : Type} (c : Thread nD τ) {p : Prog (TpuEff nD τ sig (Elt F) Λ₀ c.2) α} {k : α → Prog (TpuEff nD τ sig (Elt F) Λ₀ c.2) β}
    {P : sProp 𝕄} {R : α → sProp 𝕄} {Q : β → sProp 𝕄}
    (h : P ⊢ wp frame (wpE (defs₀ (F := F)) 𝒱₀ c none) Set.univ p R) :
    iprop(P ∗ (∀ a, R a -∗ wp frame (wpE (defs₀ (F := F)) 𝒱₀ c none) Set.univ (k a) Q))
      ⊢ wp frame (wpE (defs₀ (F := F)) 𝒱₀ c none) Set.univ (p >>= k) Q := by
  rw [wp_bind]
  iintro ⟨HP, HK⟩
  iapply (wp_wand_r frame (wpE (defs₀ (F := F)) 𝒱₀ c none) Set.univ)
  isplitl [HP]
  · iapply h; iexact HP
  · iexact HK

end Cert.Proof.KI

end
-- ==== Proof.KI.Tile1p23.lean ====
import proofs.«207445_g73023033966933_cont_9to1_m_863_36_alg».proof.Proof.KI.Tile1Defs
import Idealize.ShloMosaic.Lib.Exec
import proofs.«207445_g73023033966933_cont_9to1_m_863_36_alg».proof.Proof.KI.ScatterBind

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "wV" => (Memref.whole Cert.KernelIdeal.main_arg1_scv : Memref Cert.KernelIdeal.sig Kind.scVector Space.hbm Cert.KernelIdeal.S4096x128 EltTy.f32)
local notation "mV" => (Memref.whole Cert.KernelIdeal.main_arg2_scv : Memref Cert.KernelIdeal.sig Kind.scVector Space.hbm Cert.KernelIdeal.S4096x128 EltTy.i32)
local notation "dV" => (Memref.whole Cert.KernelIdeal.main_v4_scv : Memref Cert.KernelIdeal.sig Kind.scVector Space.hbm Cert.KernelIdeal.S2560x4096 EltTy.f32)
local notation "bA" => (Memref.whole Cert.KernelIdeal.cc2_scratch0 : Memref Cert.KernelIdeal.sig Kind.scVector Space.vmem Cert.KernelIdeal.S8x4096 EltTy.f32)
local notation "bB" => (Memref.whole Cert.KernelIdeal.cc2_scratch1 : Memref Cert.KernelIdeal.sig Kind.scVector Space.vmem Cert.KernelIdeal.S8x4096 EltTy.f32)
local notation "sW" => (Memref.whole Cert.KernelIdeal.cc2_scratch2 : Memref Cert.KernelIdeal.sig Kind.scVector Space.vmem Cert.KernelIdeal.S80x128 EltTy.f32)
local notation "sM" => (Memref.whole Cert.KernelIdeal.cc2_scratch3 : Memref Cert.KernelIdeal.sig Kind.scVector Space.vmem Cert.KernelIdeal.S80x128 EltTy.i32)

variable [FloatOps F]
variable (m : (ℓ : Loc nD τ sig) → Buf (Elt F) ℓ)
variable (d : Dev nD) (L : grid2.Coords)

local notation "THR" => V d (t1_cV L) (t1_jV L)
local notation "WP" => wp frame (wpE (defs₀ (F := F)) 𝒱₀ (V d (t1_cV L) (t1_jV L)) none) Set.univ
local notation "AT[" f "]" => f L (wV) (Memref.isWhole_whole _) (mV) (Memref.isWhole_whole _) (dV) (Memref.isWhole_whole _) (bA) (Memref.isWhole_whole _) (bB) (Memref.isWhole_whole _) (sW) (Memref.isWhole_whole _) (sM) (Memref.isWhole_whole _) cc2_scratch4 cc2_scratch5 cc2_scoped0 cc2_scoped1

variable (O : CellTallies nD τ sig (HIx 2))
variable (qw qm : PosShare TreeShare) (fw : Vec F S80x128 .f32) (fm : IVec S80x128 32)
variable (G0 : Buf (Elt F) (d1Loc d))

theorem part23_spec : T1Part23 m d L := by
  intro O qw qm fw fm G0 hO hfm hG W v1 v67 c40 g5 g6 g7 Φ
  have hclr17 := t1_loop_t17 d L fw fm v1 v67 c40 hfm (t1_blk fw fm 5)
  rw [show SpecF.foldClr t1_z (t1_mr fm 5) 64 (t1_blk fw fm 5) = (fun _ => t1_z) from SpecF.foldClr_foldAdd _ _ (fun r k => hfm _) _] at hclr17
  have hclr19 := t1_loop_t19 d L fw fm v1 v67 c40 hfm (t1_blk fw fm 6)
  rw [show SpecF.foldClr t1_z (t1_mr fm 6) 64 (t1_blk fw fm 6) = (fun _ => t1_z) from SpecF.foldClr_foldAdd _ _ (fun r k => hfm _) _] at hclr19
  have own_whole : ∀ (b : Ref sig .scVector) (f : Buf (Elt F) ((V d (t1_cV L) (t1_jV L)).loc b)),
      ((Memref.whole b).view.loc THR ↦[(Memref.whole b).view.set]{fullShare} f : sProp 𝕄) = ((Memref.whole b).view.loc THR ↦{fullShare} f) := by
    intro b f; simp only [Memref.view_whole, View.set_whole]
  rw [k2_part23_eq_skeleton]; rw [k2_part23_skel]
  unfold t1_fix
  iintro ⟨#Hlv, ⟨Hw, Hm, HsW, HsM, HcW, HcM⟩, HF5, HF6, Hp7, HO, Hk⟩
  ihave Hmw := ((K (F := F)).mayWaits_none (thr := V d (t1_cV L) (t1_jV L)) hO) $$ Hlv

  sl_exec
  ihave Hp5 := (Entails.of_eq (t1_own_writes (F := F) d L (k2_off5 L 40#32) (k2_off5_inb L 5) _ _ G0 ?hl5)) $$ HF5_dst
  case hl5 => exact fun y => (hG.2.2.2.2.2.1 y).trans rfl

  ihave HbB := (Entails.of_eq (own_whole cc2_scratch1 _)) $$ HF5_src
  iapply (scat_bind (V d (t1_cV L) (t1_jV L)) hclr17)
  isplitl [HbB HsW HsM]
  · isplitl [HbB]; · iexact HbB
    isplitl [HsW]; · iexact HsW
    iexact HsM
  iintro %_ ⟨HbB, HsW, HsM⟩
  iapply (scat_bind (V d (t1_cV L) (t1_jV L)) (t1_loop_t18 d L fw fm v1 (fun _ => t1_z) v67 c40 hfm (fun _ => t1_z)))
  isplitl [HbB HsW HsM]
  · isplitl [HbB]; · iexact HbB
    isplitl [HsW]; · iexact HsW
    iexact HsM
  iintro %_ ⟨HbB, HsW, HsM⟩

  ihave HbB := (Entails.of_eq (own_whole cc2_scratch1 _).symm) $$ HbB
  sl_exec
  ihave Hp6 := (Entails.of_eq (t1_own_writes (F := F) d L (k2_off5 L 48#32) (k2_off5_inb L 6) _ _ G0 ?hl6)) $$ HF6_dst
  case hl6 => exact fun y => (hG.2.2.2.2.2.2.1 y).trans rfl

  ihave HbA := (Entails.of_eq (own_whole cc2_scratch0 _)) $$ HF6_src
  iapply (scat_bind (V d (t1_cV L) (t1_jV L)) hclr19)
  isplitl [HbA HsW HsM]
  · isplitl [HbA]; · iexact HbA
    isplitl [HsW]; · iexact HsW
    iexact HsM
  iintro %_ ⟨HbA, HsW, HsM⟩
  iapply (scat_bind (V d (t1_cV L) (t1_jV L)) (t1_loop_t20 d L fw fm v1 (fun _ => t1_z) v67 c40 hfm (fun _ => t1_z)))
  isplitl [HbA HsW HsM]
  · isplitl [HbA]; · iexact HbA
    isplitl [HsW]; · iexact HsW
    iexact HsM
  iintro %_ ⟨HbA, HsW, HsM⟩
  sl_step
  iapply Hk $$ %(insert (SemLoc.dma cc2_scratch4.sem, (default : HIx 2)) (insert (SemLoc.dma cc2_scratch5.sem, (default : HIx 2)) W)) %(by
    intro p hp
    rcases Finset.mem_insert.mp hp with hp | hp
    · exact .inr (hp ▸ rfl)
    rcases Finset.mem_insert.mp hp with hp | hp
    · exact .inr (hp ▸ rfl)
    exact .inl hp)
  isplitl [Hw Hm HsW HsM HcW HcM]
  · isplitl [Hw]; · iexact Hw
    isplitl [Hm]; · iexact Hm
    isplitl [HsW]; · iexact HsW
    isplitl [HsM]; · iexact HsM
    isplitl [HcW]; · iexact HcW
    iexact HcM
  isplitl [Hp5]; · iexact Hp5
  isplitl [Hp6]; · iexact Hp6
  isplitl [HF5]; · iexact HF5
  isplitl [HbA]; · iexact HbA
  isplitl [HF6]; · iexact HF6
  iexact HO

end Cert.Proof.KI

end
-- ==== Proof.KI.Tile1tail.lean ====
import proofs.«207445_g73023033966933_cont_9to1_m_863_36_alg».proof.Proof.KI.Tile1Defs
import Idealize.ShloMosaic.Lib.Exec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "wV" => (Memref.whole Cert.KernelIdeal.main_arg1_scv : Memref Cert.KernelIdeal.sig Kind.scVector Space.hbm Cert.KernelIdeal.S4096x128 EltTy.f32)
local notation "mV" => (Memref.whole Cert.KernelIdeal.main_arg2_scv : Memref Cert.KernelIdeal.sig Kind.scVector Space.hbm Cert.KernelIdeal.S4096x128 EltTy.i32)
local notation "dV" => (Memref.whole Cert.KernelIdeal.main_v4_scv : Memref Cert.KernelIdeal.sig Kind.scVector Space.hbm Cert.KernelIdeal.S2560x4096 EltTy.f32)
local notation "bA" => (Memref.whole Cert.KernelIdeal.cc2_scratch0 : Memref Cert.KernelIdeal.sig Kind.scVector Space.vmem Cert.KernelIdeal.S8x4096 EltTy.f32)
local notation "bB" => (Memref.whole Cert.KernelIdeal.cc2_scratch1 : Memref Cert.KernelIdeal.sig Kind.scVector Space.vmem Cert.KernelIdeal.S8x4096 EltTy.f32)
local notation "sW" => (Memref.whole Cert.KernelIdeal.cc2_scratch2 : Memref Cert.KernelIdeal.sig Kind.scVector Space.vmem Cert.KernelIdeal.S80x128 EltTy.f32)
local notation "sM" => (Memref.whole Cert.KernelIdeal.cc2_scratch3 : Memref Cert.KernelIdeal.sig Kind.scVector Space.vmem Cert.KernelIdeal.S80x128 EltTy.i32)

variable [FloatOps F]
variable (m : (ℓ : Loc nD τ sig) → Buf (Elt F) ℓ)
variable (d : Dev nD) (L : grid2.Coords)

local notation "THR" => V d (t1_cV L) (t1_jV L)
local notation "WP" => wp frame (wpE (defs₀ (F := F)) 𝒱₀ (V d (t1_cV L) (t1_jV L)) none) Set.univ
local notation "AT[" f "]" => f L (wV) (Memref.isWhole_whole _) (mV) (Memref.isWhole_whole _) (dV) (Memref.isWhole_whole _) (bA) (Memref.isWhole_whole _) (bB) (Memref.isWhole_whole _) (sW) (Memref.isWhole_whole _) (sM) (Memref.isWhole_whole _) cc2_scratch4 cc2_scratch5 cc2_scoped0 cc2_scoped1

variable (O : CellTallies nD τ sig (HIx 2))
variable (qw qm : PosShare TreeShare) (fw : Vec F S80x128 .f32) (fm : IVec S80x128 32)
variable (G0 : Buf (Elt F) (d1Loc d))

set_option maxHeartbeats 1600000 in

theorem tail1_spec : T1Tail m d L := by
  intro O qw qm fw fm G0 hO hfm hG W g7 g8 g9 Φ
  rw [t1_tail]
  unfold t1_fix
  iintro ⟨#Hlv, ⟨Hw, Hm, HsW, HsM, HcW, HcM⟩, Hfl7, HbA, HcA, Hp8, Hp9, HO, Hk⟩
  ihave Hmw := ((K (F := F)).mayWaits_none (thr := V d (t1_cV L) (t1_jV L)) hO) $$ Hlv

  have h21 := t1_loop_t21 d L fw fm hfm (t1_blk fw fm 7)
  rw [t1_clr_blk fw fm hfm 7] at h21
  have h22 := t1_loop_t22 d L fw fm hfm (fun _ => t1_z)
  rw [t1_add_z] at h22

  sl_exec
  ihave HbB := (Entails.of_eq (show (t1_own d L (bB) fullShare (t1_blk fw fm 7) : sProp 𝕄) = ((bB).view.loc THR ↦{fullShare} t1_blk fw fm 7) from by
    unfold t1_own; rw [(Memref.isWhole_whole _).set_eq_univ])) $$ Hfl7_src
  iapply (exec_cut frame _ Set.univ h21) $$ [HbB HsW HsM]
  · isplitl [HbB]; · iexact HbB
    isplitl [HsW]; · iexact HsW
    iexact HsM
  iintro %_ ⟨HbB, HsW, HsM⟩
  iapply (exec_cut frame _ Set.univ h22) $$ [HbB HsW HsM]
  · isplitl [HbB]; · iexact HbB
    isplitl [HsW]; · iexact HsW
    iexact HsM
  iintro %_ ⟨HbB, HsW, HsM⟩

  sl_exec
  sl_step
  iapply Hk $$ %(insert (SemLoc.dma cc2_scratch5.sem, (none : HIx 2)) (insert (SemLoc.dma cc2_scratch4.sem, (none : HIx 2)) (insert (SemLoc.dma cc2_scratch5.sem, (none : HIx 2)) W))) %(by
    intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp)
  isplitl [Hw Hm HsW HsM HcW HcM]
  · isplitl [Hw]; · iexact Hw
    isplitl [Hm]; · iexact Hm
    isplitl [HsW]; · iexact HsW
    isplitl [HsM]; · iexact HsM
    isplitl [HcW]; · iexact HcW
    iexact HcM
  isplitl [Hfl7_dst]
  · iapply (Entails.of_eq (t1_own_writes d L (k2_off5 L 56#32) (k2_off5_inb L 7) _ _ G0 (fun j => (hG.2.2.2.2.2.2.2.1 j).trans rfl))); iexact Hfl7_dst
  isplitl [Hp8]
  · iapply (Entails.of_eq (t1_own_writes d L (k2_off5 L 64#32) (k2_off5_inb L 8) _ _ G0 (fun j => hG.2.2.2.2.2.2.2.2.1 j))); iexact Hp8
  isplitl [Hp9]
  · iapply (Entails.of_eq (t1_own_writes d L (k2_off5 L 72#32) (k2_off5_inb L 9) _ _ G0 (fun j => hG.2.2.2.2.2.2.2.2.2 j))); iexact Hp9
  isplitl [HbA]; · iexists _; iexact HbA
  isplitl [HbB]; · iexists _; iexact HbB
  isplitl [HcA]; · iexact HcA
  isplitl [Hfl7]; · iexact Hfl7
  iexact HO

end Cert.Proof.KI

end
-- ==== Proof.KI.Tile1Close.lean ====
import proofs.«207445_g73023033966933_cont_9to1_m_863_36_alg».proof.Proof.KI.Tile1Body
import proofs.«207445_g73023033966933_cont_9to1_m_863_36_alg».proof.Proof.KI.Tile1Obl
import proofs.«207445_g73023033966933_cont_9to1_m_863_36_alg».proof.Proof.KI.Tile1p19
import proofs.«207445_g73023033966933_cont_9to1_m_863_36_alg».proof.Proof.KI.Tile1p20
import proofs.«207445_g73023033966933_cont_9to1_m_863_36_alg».proof.Proof.KI.Tile1p21
import proofs.«207445_g73023033966933_cont_9to1_m_863_36_alg».proof.Proof.KI.Tile1p22
import proofs.«207445_g73023033966933_cont_9to1_m_863_36_alg».proof.Proof.KI.Tile1p23
import proofs.«207445_g73023033966933_cont_9to1_m_863_36_alg».proof.Proof.KI.Tile1tail

noncomputable section

namespace Cert.Proof.KI

open Cert.KernelIdeal Cert.KernelIdeal.Gen

open Idealize.ShloMosaic
open Idealize.ShloMosaic.SparseCore (S V T)
open Idealize.ShloMosaic.SparseCore.Cfg (HIx)

variable {F : FTy → Type} [FloatOps F]
variable (m : (ℓ : Loc nD τ sig) → Buf (Elt F) ℓ)

theorem tile1Body (hF : (K (F := F)).Facts) (hpre : PreOK m) : Tile1Body m :=
  tile1Body_of m (part19_spec m) (part20_spec m) (part21_spec m) (part22_spec m) (part23_spec m) (tail1_spec m) hF hpre

theorem tileObl1_closed (hpre : PreOK m) : (K (F := F)).TileObl (D (F := F)) 𝒱 (P m) v₀ 1 :=
  tileObl1 m facts hpre (tile1Body m facts hpre)

end Cert.Proof.KI

end
-- ==== Proof.KI.Close.lean ====
import proofs.«207445_g73023033966933_cont_9to1_m_863_36_alg».proof.Proof.KI.Run
import proofs.«207445_g73023033966933_cont_9to1_m_863_36_alg».proof.Proof.KI.Tile0Close
import proofs.«207445_g73023033966933_cont_9to1_m_863_36_alg».proof.Proof.KI.Tile1Close

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F] (m : (ℓ : Loc nD τ sig) → Buf (Elt F) ℓ) (ρ : Dev nD → PrngReg)

theorem run [∀ e, Nonempty (Elt F e)] (hpre : PreOK m) :
    θ_run (Cert.KernelIdeal.defs (F := F)) (Cert.KernelIdeal.threads (F := F)) ⟨m, fun _ => 0, ρ⟩ (QC m (OUT m)) :=
  run_main m ρ (tileObl0_closed m hpre) (tileObl1_closed m hpre)

end Cert.Proof.KI

end
-- ==== Proof.KB.CallSplit.lean ====
import proofs.«207445_g73023033966933_cont_9to1_m_863_36_alg».proof.Proof.KB.Launch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 2) (Elt F) ℕ UU ℕ

variable (m : (ℓ : Loc nD τ sig) → Buf (Elt F) ℓ)

theorem d0_tiles (d : Dev nD) (f : Buf (Elt F) (d0Loc d)) :
    (d0Loc d ↦{fullShare} f : sProp 𝕄) = bigSep Finset.univ fun c : Fin 2 => bigSep Finset.univ fun i : Fin 16 => tile0 d (coords0 c i) f := by
  rw [d0Pts_pieces]
  show bigSep (Finset.univ : Finset (Fin 2 × Fin 16 × Fin 6)) _ = _
  rw [← Finset.univ_product_univ, SparseCore.bigSep_product]
  refine bigSep_congr fun c _ => ?_
  rw [← Finset.univ_product_univ, SparseCore.bigSep_product]
  rfl
theorem d1_tiles (d : Dev nD) (f : Buf (Elt F) (d1Loc d)) :
    (d1Loc d ↦{fullShare} f : sProp 𝕄) = bigSep Finset.univ fun c : Fin 2 => bigSep Finset.univ fun i : Fin 16 => tile1 d (coords2 c i) f := by
  rw [d1Pts_pieces]
  show bigSep (Finset.univ : Finset (Fin 2 × Fin 16 × Fin 10)) _ = _
  rw [← Finset.univ_product_univ, SparseCore.bigSep_product]
  refine bigSep_congr fun c _ => ?_
  rw [← Finset.univ_product_univ, SparseCore.bigSep_product]
  rfl

theorem share2 (ℓ : Loc nD τ sig) (f : Buf (Elt F) ℓ) :
    (ℓ ↦{fullShare} f : sProp 𝕄) ⊢ iprop((bigSep Finset.univ fun c : Fin 2 => ℓ ↦{qC c.val} f)
      ∗ ((bigSep Finset.univ fun c : Fin 2 => ℓ ↦{qC c.val} f) -∗ ℓ ↦{fullShare} f)) := by
  iintro H
  ihave H' := (Transfers.pointsTo_toks_split fullShare 2) $$ H
  icases H' with ⟨Hd, Hs⟩
  isplitl [Hs]; · iexact Hs
  iintro Hs
  iapply (Transfers.pointsTo_toks_join fullShare 2)
  isplitl [Hd]; · iexact Hd
  iexact Hs

variable [FloatOps F]

omit m in
theorem bigSep_cores0 (Φ : Fin (grid0.bound 0) → sProp 𝕄) :
    (bigSep Finset.univ fun c : Fin ((K (F := F)).nCore 0) => Φ (Fin.cast nCore_zero c)) = bigSep Finset.univ Φ :=
  bigSep_congr fun _ _ => congrArg Φ (Fin.ext rfl)
omit m in
theorem bigSep_cores1 (Φ : Fin (grid2.bound 0) → sProp 𝕄) :
    (bigSep Finset.univ fun c : Fin ((K (F := F)).nCore 1) => Φ (Fin.cast nCore_one c)) = bigSep Finset.univ Φ :=
  bigSep_congr fun _ _ => congrArg Φ (Fin.ext rfl)

theorem call0_split (d : Dev nD) :
    iprop((wLoc d ↦{fullShare} m (wLoc d)) ∗ (mLoc d ↦{fullShare} m (mLoc d)) ∗ (d0Loc d ↦{fullShare} m (d0Loc d)))
      ⊢ (iprop((bigSep Finset.univ fun c : Fin ((K (F := F)).nCore 0) => (P m).st 0 d c)
          ∗ ((bigSep Finset.univ fun c : Fin ((K (F := F)).nCore 0) => (P m).dn 0 d c)
              -∗ iprop((wLoc d ↦{fullShare} m (wLoc d)) ∗ (mLoc d ↦{fullShare} m (mLoc d)) ∗ (d0Loc d ↦{fullShare} dense0 m d)))) : sProp 𝕄) := by
  show _ ⊢ iprop((bigSep Finset.univ fun c : Fin ((K (F := F)).nCore 0) => st0 m d (Fin.cast nCore_zero c))
      ∗ ((bigSep Finset.univ fun c : Fin ((K (F := F)).nCore 0) => dn0 m d (Fin.cast nCore_zero c)) -∗ _))
  rw [bigSep_cores0 (F := F) (fun c => st0 m d c), bigSep_cores0 (F := F) (fun c => dn0 m d c)]
  unfold st0 dn0
  rw [bigSep_sep', bigSep_sep', bigSep_sep', bigSep_sep', d0_tiles, d0_tiles]
  iintro ⟨Hw, Hm, Hd⟩
  ihave Hw' := (share2 (wLoc d) (m (wLoc d))) $$ Hw
  icases Hw' with ⟨Hws, Hwj⟩
  ihave Hm' := (share2 (mLoc d) (m (mLoc d))) $$ Hm
  icases Hm' with ⟨Hms, Hmj⟩
  isplitl [Hws Hms Hd]
  · isplitl [Hws]; · iexact Hws
    isplitl [Hms]; · iexact Hms
    iexact Hd
  iintro ⟨Hws, Hms, Hd⟩
  isplitl [Hwj Hws]; · iapply Hwj; iexact Hws
  isplitl [Hmj Hms]; · iapply Hmj; iexact Hms
  iexact Hd

theorem call1_split (d : Dev nD) :
    iprop((wLoc d ↦{fullShare} m (wLoc d)) ∗ (mLoc d ↦{fullShare} m (mLoc d)) ∗ (d1Loc d ↦{fullShare} m (d1Loc d)))
      ⊢ (iprop((bigSep Finset.univ fun c : Fin ((K (F := F)).nCore 1) => (P m).st 1 d c)
          ∗ ((bigSep Finset.univ fun c : Fin ((K (F := F)).nCore 1) => (P m).dn 1 d c)
              -∗ iprop((wLoc d ↦{fullShare} m (wLoc d)) ∗ (mLoc d ↦{fullShare} m (mLoc d)) ∗ (d1Loc d ↦{fullShare} dense1 m d)))) : sProp 𝕄) := by
  show _ ⊢ iprop((bigSep Finset.univ fun c : Fin ((K (F := F)).nCore 1) => st1 m d (Fin.cast nCore_one c))
      ∗ ((bigSep Finset.univ fun c : Fin ((K (F := F)).nCore 1) => dn1 m d (Fin.cast nCore_one c)) -∗ _))
  rw [bigSep_cores1 (F := F) (fun c => st1 m d c), bigSep_cores1 (F := F) (fun c => dn1 m d c)]
  unfold st1 dn1
  rw [bigSep_sep', bigSep_sep', bigSep_sep', bigSep_sep', d1_tiles, d1_tiles]
  iintro ⟨Hw, Hm, Hd⟩
  ihave Hw' := (share2 (wLoc d) (m (wLoc d))) $$ Hw
  icases Hw' with ⟨Hws, Hwj⟩
  ihave Hm' := (share2 (mLoc d) (m (mLoc d))) $$ Hm
  icases Hm' with ⟨Hms, Hmj⟩
  isplitl [Hws Hms Hd]
  · isplitl [Hws]; · iexact Hws
    isplitl [Hms]; · iexact Hms
    iexact Hd
  iintro ⟨Hws, Hms, Hd⟩
  isplitl [Hwj Hws]; · iapply Hwj; iexact Hws
  isplitl [Hmj Hms]; · iapply Hmj; iexact Hms
  iexact Hd

end Cert.Proof.KB

end
-- ==== Proof.KB.Adm.lean ====
import proofs.«207445_g73023033966933_cont_9to1_m_863_36_alg».proof.Proof.KB.Common

noncomputable section

namespace Cert.Proof.KB

open Cert.Kernel Cert.Kernel.Gen
open Idealize.ShloMosaic

variable {F : FTy → Type}

abbrev adm : (p : Fin 2) → (pcfgs (F := F) p).Adm := fun p => (cfgs p).toPCfg_adm

end Cert.Proof.KB

end
-- ==== Proof.KB.Main.lean ====
import proofs.«207445_g73023033966933_cont_9to1_m_863_36_alg».proof.Proof.KB.Launch
import proofs.«207445_g73023033966933_cont_9to1_m_863_36_alg».proof.Proof.KB.Adm

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.ValueIdx

variable {F : FTy → Type}

local notation "𝕄" => MT nD τ sig (HIx 2) (Elt F) ℕ UU ℕ

variable (m : (ℓ : Loc nD τ sig) → Buf (Elt F) ℓ) (ρ : Dev nD → PrngReg)

variable [FloatOps F]

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj),
      (1 : Counters)))

def G (d : Dev nD) : sProp 𝕄 :=
  iprop((bigSep Finset.univ fun p : Fin 2 => Pipeline.cellsGhost (Pipeline.pin (pcfgs (F := F)) adm) EP p d)
    ∗ (bigSep Finset.univ fun p : Fin 2 => Pipeline.toksInit (Pipeline.pin (pcfgs (F := F)) adm) EP p d))

omit [FloatOps F] in
theorem bigSep_emp' {I : Type} (s : Finset I) : (bigSep s fun _ => iprop(emp)) = (iprop(emp) : sProp 𝕄) := bigSep_emp_const s

omit [FloatOps F] in
theorem own_EP (x : UP) :
    (BI.own (((Emb.inl : Emb UP (UP × Counters)).trans (embR (A := UH) (B := UP × Counters))) x) : sProp 𝕄) = BI.own (EP (F := F) x) := rfl

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P m).x q thr) := by
  unfold u₀
  iintro Hu
  ihave H := (ownU_pair _ _) $$ Hu
  icases H with ⟨HH, HR⟩
  ihave H2 := (own_pair_emb (embR (A := UH) (B := UP × Counters)) _ _) $$ HR
  icases H2 with ⟨HP, -⟩
  ihave HP := (Entails.of_eq (own_EP (F := F) _)) $$ HP
  imod (Pipeline.fund_ghost (Pipeline.pin (pcfgs (F := F)) adm) (EP (F := F)) cellOf_inj) $$ HP with ⟨Hg, Ht⟩
  imodintro
  isplitl [HH]; · iexact HH
  isplitl [Hg Ht]
  · unfold G
    rw [bigSep_sep']
    isplitl [Hg]; · iexact Hg
    iexact Ht
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

include m in
theorem wp_unary (d : Dev nD) (x y : Ref sig .tc) (hxy : x ≠ y) (f : x.ty.Contents (Elt F) → y.ty.Contents (Elt F)) (hx hy)
    (fx : Buf (Elt F) ((SparseCore.T d).loc x)) (fy : Buf (Elt F) ((SparseCore.T d).loc y)) (Φ : PUnit → sProp 𝕄) :
    iprop(boundary (SparseCore.T d) ∗ ((SparseCore.T d).loc x ↦{fullShare} fx) ∗ ((SparseCore.T d).loc y ↦{fullShare} fy)
        ∗ (iprop(boundary (SparseCore.T d) ∗ ((SparseCore.T d).loc x ↦{fullShare} fx) ∗ ((SparseCore.T d).loc y ↦{fullShare} f fx)) -∗ Φ ⟨⟩))
      ⊢ wp frame (wpE ((K (F := F)).defs (D (F := F))) 𝒱 (SparseCore.T d) none) Set.univ
          (hlo rfl (StableHlo.unary x y f hx hy) (fun _ => .ret ⟨⟩)) Φ := by
  let x' : DevRef τ sig := Proc.devRef .tc x
  let y' : DevRef τ sig := Proc.devRef .tc y
  have hne : x' ≠ y' := StableHlo.devRef_ne_of_ne hxy
  let V0 : Valuation τ sig (Elt F) := Function.update (Function.update (fun b => m (d, b)) x' fx) y' fy
  have hVx : V0 x' = fx := (Function.update_of_ne hne _ _).trans (Function.update_self _ _ _)
  have hVy : V0 y' = fy := Function.update_self _ _ _
  have hheld : ∀ W : Valuation τ sig (Elt F), (held (SparseCore.T d) ({x', y'} : Finset (DevRef τ sig)) W : sProp 𝕄)
      = iprop(((SparseCore.T d).loc x ↦{fullShare} W x') ∗ ((SparseCore.T d).loc y ↦{fullShare} W y')) := by
    intro W; unfold held
    rw [SparseCore.bigSep_insert' (by rw [Finset.mem_singleton]; exact hne), bigSep_singleton]
  have hpre : (held (SparseCore.T d) ({x', y'} : Finset (DevRef τ sig)) V0 : sProp 𝕄)
      = iprop(((SparseCore.T d).loc x ↦{fullShare} fx) ∗ ((SparseCore.T d).loc y ↦{fullShare} fy)) := by
    rw [hheld, hVx, hVy]
  have hres : (held (SparseCore.T d) ({x', y'} : Finset (DevRef τ sig)) ((StableHlo.unary x y f hx hy).result V0) : sProp 𝕄)
      = iprop(((SparseCore.T d).loc x ↦{fullShare} fx) ∗ ((SparseCore.T d).loc y ↦{fullShare} f fx)) := by
    rw [hheld, StableHlo.unary_result_ne x y f hx hy V0 hxy, StableHlo.unary_result x y f hx hy V0, hVx]
  iintro ⟨Hb, Hx, Hy, Hk⟩
  iapply (wp_hlo_within 𝒱 (SparseCore.T d) none Set.univ (op := StableHlo.unary x y f hx hy) (S := {x', y'})
      (by rw [StableHlo.unary_bufs]) (V := V0)) $$ [Hb Hx Hy]
  · isplitl [Hb]; · iexact Hb
    iapply (Entails.of_eq hpre.symm)
    isplitl [Hx]; · iexact Hx
    iexact Hy
  iintro ⟨Hb, Hh⟩
  rw [wp_ret]; imodintro
  iapply Hk
  isplitl [Hb]; · iexact Hb
  iapply (Entails.of_eq hres)
  iexact Hh

end Cert.Proof.KB

end
-- ==== Proof.KB.HMain.lean ====
import proofs.«207445_g73023033966933_cont_9to1_m_863_36_alg».proof.Proof.KB.CallSplit
import proofs.«207445_g73023033966933_cont_9to1_m_863_36_alg».proof.Proof.KB.Main

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 2) (Elt F) ℕ UU ℕ

variable (m : (ℓ : Loc nD τ sig) → Buf (Elt F) ℓ) (ρ : Dev nD → PrngReg)

theorem unscopedBufs_eq (d : Dev nD) (W : (b : Ref sig .tc) → Buf (Elt F) ((d.tc : Thread nD τ).loc b)) :
    (unscopedBufs d W : sProp 𝕄) = iprop((xLoc d ↦{fullShare} W main_arg0) ∗ (wLoc d ↦{fullShare} W main_arg1) ∗ (mLoc d ↦{fullShare} W main_arg2)
      ∗ (bLoc d ↦{fullShare} W main_arg3) ∗ (x16Loc d ↦{fullShare} W main_v0) ∗ (d0Loc d ↦{fullShare} W main_v1) ∗ (b0Loc d ↦{fullShare} W main_v2)
      ∗ (o3Loc d ↦{fullShare} W main_v3) ∗ (d1Loc d ↦{fullShare} W main_v4) ∗ (b1Loc d ↦{fullShare} W main_v5) ∗ (o6Loc d ↦{fullShare} W main_v6)) := by
  unfold unscopedBufs
  rw [show (Finset.univ.filter fun b : Ref sig .tc => ¬ b.isScoped)
      = {main_arg0, main_arg1, main_arg2, main_arg3, main_v0, main_v1, main_v2, main_v3, main_v4, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem tcSt_debts (d : Dev nD) (n : ℕ) :
    ((K (F := F)).tcSt EH d n : sProp 𝕄)
      ⊢ iprop((∃ W, ⌜(K (F := F)).WBelow (T d) W (8 * n)⌝ ∗ owes (T d : Thread nD τ) ((K (F := F)).Otc d n) W)
        ∗ ((∃ W, ⌜(K (F := F)).WBelow (T d) W (8 * n)⌝ ∗ owes (T d : Thread nD τ) ((K (F := F)).Otc d n) W) -∗ (K (F := F)).tcSt EH d n)) := by
  unfold SparseCore.Cfg.tcSt
  iintro ⟨HW, Hrest⟩
  isplitl [HW]; · iexact HW
  iintro HW
  isplitl [HW]; · iexact HW
  iexact Hrest

theorem tcSt_debts' (d : Dev nD) (n n' : ℕ) (h : n' = n) :
    ((K (F := F)).tcSt EH d n' : sProp 𝕄)
      ⊢ iprop((∃ W, ⌜(K (F := F)).WBelow (T d) W (8 * n)⌝ ∗ owes (T d : Thread nD τ) ((K (F := F)).Otc d n) W)
        ∗ ((∃ W, ⌜(K (F := F)).WBelow (T d) W (8 * n)⌝ ∗ owes (T d : Thread nD τ) ((K (F := F)).Otc d n) W) -∗ (K (F := F)).tcSt EH d n)) := by
  subst h; exact tcSt_debts d n'

variable [FloatOps F]

theorem G_eq (d : Dev nD) : G (F := F) d
    = iprop((Pipeline.cellsGhost (Pipeline.pin (pcfgs (F := F)) adm) EP 0 d ∗ Pipeline.cellsGhost (Pipeline.pin (pcfgs (F := F)) adm) EP 1 d)
      ∗ (Pipeline.toksInit (Pipeline.pin (pcfgs (F := F)) adm) EP 0 d ∗ Pipeline.toksInit (Pipeline.pin (pcfgs (F := F)) adm) EP 1 d)) := by
  unfold G
  rw [show (Finset.univ : Finset (Fin 2)) = {0, 1} by decide, SparseCore.bigSep_insert' (by decide), bigSep_singleton,
    SparseCore.bigSep_insert' (by decide), bigSep_singleton]

def x16v (c : Dev nD) : Buf (Elt F) (x16Loc c) := (truncf .bf16 (m (xLoc c) : FVec F S2048x4096 .f32) Facts₀.bitsLt_bf16_f32 : FVec F S2048x4096 .bf16)

def b0v (c : Dev nD) : Buf (Elt F) (b0Loc c) := (extractStridedSlice S1536 ![0] (m (bLoc c) : FVec F S4096 .f32) Facts₀.slices_S4096_S1536_0 : FVec F S1536 .f32)
def b1v (c : Dev nD) : Buf (Elt F) (b1Loc c) := (extractStridedSlice S2560 ![1536] (m (bLoc c) : FVec F S4096 .f32) Facts₀.slices_S4096_S2560_1536 : FVec F S2560 .f32)

section Regions

variable (res1 : ((c : Dev nD) → Buf (Elt F) (x16Loc c)) → ((c : Dev nD) → Buf (Elt F) (d0Loc c)) → ((c : Dev nD) → Buf (Elt F) (b0Loc c)) → ((c : Dev nD) → Buf (Elt F) (o3Loc c)) → (c : Dev nD) → Buf (Elt F) (o3Loc c))
variable (res3 : ((c : Dev nD) → Buf (Elt F) (x16Loc c)) → ((c : Dev nD) → Buf (Elt F) (d1Loc c)) → ((c : Dev nD) → Buf (Elt F) (b1Loc c)) → ((c : Dev nD) → Buf (Elt F) (o6Loc c)) → (c : Dev nD) → Buf (Elt F) (o6Loc c))

def Hreg1 : Prop :=
  ∀ (x16 : (c : Dev nD) → Buf (Elt F) (x16Loc c)) (dn : (c : Dev nD) → Buf (Elt F) (d0Loc c))
    (bs : (c : Dev nD) → Buf (Elt F) (b0Loc c)) (o : (c : Dev nD) → Buf (Elt F) (o3Loc c)) (c : Dev nD) (Q : PUnit → sProp 𝕄),
    iprop((iprop(boundary (T c : Thread nD τ) ∗ (x16Loc c ↦{fullShare} x16 c) ∗ (d0Loc c ↦{fullShare} dn c) ∗ (b0Loc c ↦{fullShare} bs c)
            ∗ (o3Loc c ↦{fullShare} res1 x16 dn bs o c)
            ∗ ∃ W, ⌜(K (F := F)).WBelow (T c) W (8 * 1)⌝ ∗ owes (T c : Thread nD τ) ((K (F := F)).Otc c 1) W) -∗ Q ⟨⟩)
        ∗ boundary (T c : Thread nD τ)
        ∗ ((x16Loc c ↦{fullShare} x16 c) ∗ (d0Loc c ↦{fullShare} dn c) ∗ (b0Loc c ↦{fullShare} bs c) ∗ (o3Loc c ↦{fullShare} o c)
            ∗ ∃ W, ⌜(K (F := F)).WBelow (T c) W (8 * 1)⌝ ∗ owes (T c : Thread nD τ) ((K (F := F)).Otc c 1) W)
        ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE ((K (F := F)).defs D) 𝒱 (T c : Thread nD τ) none) Set.univ
          (Prog.lift (.customCall (SparseCore.inner (Pipeline.entry 0)) ())) Q

def Hreg3 : Prop :=
  ∀ (x16 : (c : Dev nD) → Buf (Elt F) (x16Loc c)) (dn : (c : Dev nD) → Buf (Elt F) (d1Loc c))
    (bs : (c : Dev nD) → Buf (Elt F) (b1Loc c)) (o : (c : Dev nD) → Buf (Elt F) (o6Loc c)) (c : Dev nD) (Q : PUnit → sProp 𝕄),
    iprop((iprop(boundary (T c : Thread nD τ) ∗ (x16Loc c ↦{fullShare} x16 c) ∗ (d1Loc c ↦{fullShare} dn c) ∗ (b1Loc c ↦{fullShare} bs c)
            ∗ (o6Loc c ↦{fullShare} res3 x16 dn bs o c)
            ∗ ∃ W, ⌜(K (F := F)).WBelow (T c) W (8 * 2)⌝ ∗ owes (T c : Thread nD τ) ((K (F := F)).Otc c 2) W) -∗ Q ⟨⟩)
        ∗ boundary (T c : Thread nD τ)
        ∗ ((x16Loc c ↦{fullShare} x16 c) ∗ (d1Loc c ↦{fullShare} dn c) ∗ (b1Loc c ↦{fullShare} bs c) ∗ (o6Loc c ↦{fullShare} o c)
            ∗ ∃ W, ⌜(K (F := F)).WBelow (T c) W (8 * 2)⌝ ∗ owes (T c : Thread nD τ) ((K (F := F)).Otc c 2) W)
        ∗ levAts (K (F := F)).L (K (F := F)).lev
        ∗ Pipeline.cellsGhost (Pipeline.pin (pcfgs (F := F)) adm) EP 1 c ∗ Pipeline.toksInit (Pipeline.pin (pcfgs (F := F)) adm) EP 1 c)
      ⊢ wp frame (wpE ((K (F := F)).defs D) 𝒱 (T c : Thread nD τ) none) Set.univ
          (Prog.lift (.customCall (SparseCore.inner (Pipeline.entry 1)) ())) Q

def o3v (c : Dev nD) : Buf (Elt F) (o3Loc c) := res1 (x16v m) (dense0 m) (b0v m) (fun c => m (o3Loc c)) c
def OUTv (c : Dev nD) : Buf (Elt F) (o6Loc c) := res3 (x16v m) (dense1 m) (b1v m) (fun c => (o3v m res1 c : Buf (Elt F) (o6Loc c))) c

theorem hmain (hreg1 : Hreg1 (F := F) res1) (hreg3 : Hreg3 (F := F) res3) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN m (OUTv m res1 res3) d) := by
  unfold SparseCore.Cfg.tcRes
  rw [unscopedBufs_eq, G_eq]
  simp only [main, wp_bind, wp_pure]
  iintro ⟨#Hctx, Hst, ⟨Hb, ⟨Hx, Hw, Hm, Hbi, Hx16, Hd0, Hb0, Ho3, Hd1, Hb1, Ho6⟩, -, -⟩, ⟨Hg0, Hg1⟩, ⟨Ht0, Ht1⟩⟩

  iapply (wp_unary m d main_arg0 main_v0 (by decide) _ _ _ (m (xLoc d)) (m (x16Loc d)) _) $$ [Hst Hb Hx Hw Hm Hbi Hx16 Hd0 Hb0 Ho3 Hd1 Hb1 Ho6 Hg0 Hg1 Ht0 Ht1]
  isplitl [Hb]; · iexact Hb
  isplitl [Hx]; · iexact Hx
  isplitl [Hx16]; · iexact Hx16
  iintro ⟨Hb, Hx, Hx16⟩

  ihave Hc := (call0_split m d) $$ [Hw Hm Hd0]
  · isplitl [Hw]; · iexact Hw
    isplitl [Hm]; · iexact Hm
    iexact Hd0
  icases Hc with ⟨Hst0, Hback0⟩
  iapply ((K (F := F)).wp_run (D (F := F)) 𝒱 (EH := EH) (P := P m) κ d 0) $$ [Hst Hb Hx Hbi Hx16 Hb0 Ho3 Hd1 Hb1 Ho6 Hg0 Hg1 Ht0 Ht1 Hst0 Hback0]
  isplitr; · iexact Hctx
  isplitl [Hst]; · iexact Hst
  isplitl [Hst0]; · iexact Hst0
  iintro ⟨Hst, Hdn⟩
  ihave Hr := Hback0 $$ Hdn
  icases Hr with ⟨Hw, Hm, Hd0⟩

  iapply (wp_unary m d main_arg3 main_v2 (by decide) _ _ _ (m (bLoc d)) (m (b0Loc d)) _) $$ [Hst Hb Hx Hw Hm Hbi Hx16 Hd0 Hb0 Ho3 Hd1 Hb1 Ho6 Hg0 Hg1 Ht0 Ht1]
  isplitl [Hb]; · iexact Hb
  isplitl [Hbi]; · iexact Hbi
  isplitl [Hb0]; · iexact Hb0
  iintro ⟨Hb, Hbi, Hb0⟩

  ihave Hs := (tcSt_debts' d 1 ((0 : Fin 2).val + 1) rfl) $$ Hst
  icases Hs with ⟨HW, HstBack⟩
  iapply (hreg1 (x16v m) (dense0 m) (b0v m) (fun c => m (o3Loc c)) d _) $$ [HW HstBack Hb Hx Hw Hm Hbi Hx16 Hd0 Hb0 Ho3 Hd1 Hb1 Ho6 Hg0 Hg1 Ht0 Ht1]
  isplitr [Hb Hx16 Hd0 Hb0 Ho3 HW Hg0 Ht0]
  rotate_left
  · isplitl [Hb]; · iexact Hb
    isplitl [Hx16 Hd0 Hb0 Ho3 HW]
    · isplitl [Hx16]; · iexact Hx16
      isplitl [Hd0]; · iexact Hd0
      isplitl [Hb0]; · iexact Hb0
      isplitl [Ho3]; · iexact Ho3
      iexact HW
    isplitr
    · iapply (SparseCore.Cfg.ctx_levAts κ); iexact Hctx
    isplitl [Hg0]; · iexact Hg0
    iexact Ht0
  iintro ⟨Hb, Hx16, Hd0, Hb0, Ho3, HW⟩
  ihave Hst := HstBack $$ HW

  ihave Hc := (call1_split m d) $$ [Hw Hm Hd1]
  · isplitl [Hw]; · iexact Hw
    isplitl [Hm]; · iexact Hm
    iexact Hd1
  icases Hc with ⟨Hst1, Hback1⟩
  iapply ((K (F := F)).wp_run (D (F := F)) 𝒱 (EH := EH) (P := P m) κ d 1) $$ [Hst Hb Hx Hbi Hx16 Hd0 Hb0 Ho3 Hb1 Ho6 Hg1 Ht1 Hst1 Hback1]
  isplitr; · iexact Hctx
  isplitl [Hst]; · iexact Hst
  isplitl [Hst1]; · iexact Hst1
  iintro ⟨Hst, Hdn⟩
  ihave Hr := Hback1 $$ Hdn
  icases Hr with ⟨Hw, Hm, Hd1⟩

  iapply (wp_unary m d main_arg3 main_v5 (by decide) _ _ _ (m (bLoc d)) (m (b1Loc d)) _) $$ [Hst Hb Hx Hw Hm Hbi Hx16 Hd0 Hb0 Ho3 Hd1 Hb1 Ho6 Hg1 Ht1]
  isplitl [Hb]; · iexact Hb
  isplitl [Hbi]; · iexact Hbi
  isplitl [Hb1]; · iexact Hb1
  iintro ⟨Hb, Hbi, Hb1⟩

  iapply (wp_unary m d main_v3 main_v6 (by decide) _ _ _ (o3v m res1 d) (m (o6Loc d)) _) $$ [Hst Hb Hx Hw Hm Hbi Hx16 Hd0 Hb0 Ho3 Hd1 Hb1 Ho6 Hg1 Ht1]
  isplitl [Hb]; · iexact Hb
  isplitl [Ho3]; · iexact Ho3
  isplitl [Ho6]; · iexact Ho6
  iintro ⟨Hb, Ho3, Ho6⟩

  ihave Hs := (tcSt_debts' d 2 ((1 : Fin 2).val + 1) rfl) $$ Hst
  icases Hs with ⟨HW, HstBack⟩
  iapply (hreg3 (x16v m) (dense1 m) (b1v m) (fun c => (o3v m res1 c : Buf (Elt F) (o6Loc c))) d _) $$ [HW HstBack Hb Hx Hw Hm Hbi Hx16 Hd0 Hb0 Ho3 Hd1 Hb1 Ho6 Hg1 Ht1]
  isplitr [Hb Hx16 Hd1 Hb1 Ho6 HW Hg1 Ht1]
  rotate_left
  · isplitl [Hb]; · iexact Hb
    isplitl [Hx16 Hd1 Hb1 Ho6 HW]
    · isplitl [Hx16]; · iexact Hx16
      isplitl [Hd1]; · iexact Hd1
      isplitl [Hb1]; · iexact Hb1
      isplitl [Ho6]; · iexact Ho6
      iexact HW
    isplitr
    · iapply (SparseCore.Cfg.ctx_levAts κ); iexact Hctx
    isplitl [Hg1]; · iexact Hg1
    iexact Ht1
  iintro ⟨Hb, Hx16, Hd1, Hb1, Ho6, HW⟩
  ihave Hst := HstBack $$ HW
  imodintro
  isplitl [Hst]; · iexact Hst
  unfold FIN
  isplitl [Hx]; · iexact Hx
  isplitl [Hw]; · iexact Hw
  isplitl [Hm]; · iexact Hm
  isplitl [Hbi]; · iexact Hbi
  iexact Ho6

end Regions

end Cert.Proof.KB

end
-- ==== Proof.KB.Region1Defs.lean ====
import proofs.«207445_g73023033966933_cont_9to1_m_863_36_alg».proof.Proof.KB.Common
import proofs.«207445_g73023033966933_cont_9to1_m_863_36_alg».proof.Proof.KB.Adm
import Idealize.ShloMosaic.Lib.Pipeline.FrameBody

set_option maxRecDepth 16384

noncomputable section

namespace Cert.Proof.KB

open Cert.Kernel Cert.Kernel.Gen

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

abbrev reg1_rX : Rect S2048x4096 := Rect.unit (s := S2048x4096) ![0, 0] S2048x4096.size inb_S2048x4096_S2048x4096_0_0
abbrev reg1_rW : Rect S256x4096 := Rect.unit (s := S256x4096) ![0, 0] S256x4096.size inb_S256x4096_S256x4096_0_0
abbrev reg1_rB : Rect S256 := Rect.unit (s := S256) ![0] S256.size inb_S256_S256_0
abbrev reg1_rO : Rect S2048x256 := Rect.unit (s := S2048x256) ![0, 0] S2048x256.size inb_S2048x256_S2048x256_0_0

def reg1_out (x0 : Vec F S2048x4096 .bf16) (x1 : Vec F S256x4096 .f32) (x2 : Vec F S256 .f32) : Vec F S2048x256 .f32 :=
  View.canon [⟨reg1_rO, k1_pay1 (View.ld x0 reg1_rX) (View.ld x1 reg1_rW) (View.ld x2 reg1_rB)⟩]

theorem reg1_cover (p0 : Vec F S2048x256 .f32) (y : S2048x256.Idx) :
    ∃ pc ∈ ([⟨reg1_rO, p0⟩] : List (View.Piece (Elt F) S2048x256 .f32)), y ∈ pc.1.set :=
  View.cover_of_tiled [⟨reg1_rO, p0⟩] S2048x256.size (by rfl) y

set_option maxHeartbeats 1000000 in

theorem reg1_kernel (c : Dev nD) (E : Set ℕ) (i : grid1.Coords)
    (arg1 : Memref sig .tc .vmem S2048x4096 .bf16) (harg1 : arg1.IsWhole) (arg2 : Memref sig .tc .vmem S256x4096 .f32) (harg2 : arg2.IsWhole)
    (arg3 : Memref sig .tc .vmem S256 .f32) (harg3 : arg3.IsWhole) (arg4 : Memref sig .tc .vmem S2048x256 .f32) (harg4 : arg4.IsWhole)
    (x0 : Vec F S2048x4096 .bf16) (x1 : Vec F S256x4096 .f32) (x2 : Vec F S256 .f32) (Kt : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (reg1_out x0 x1 x2)) -∗ Kt ⟨⟩))
      ⊢ wp frame (wpE (defs₀ (F := F)) Variants.none c none) E (cc1__matmul_first_body i arg1 harg1 arg2 harg2 arg3 harg3 arg4 harg4) Kt := by
  simp only [cc1__matmul_first_body_eq_skeleton]; unfold cc1__matmul_first_body_skel
  unfold owns
  iintro ⟨⟨%f0, %hf0, H0⟩, ⟨%f1, %hf1, H1⟩, ⟨%f2, %hf2, H2⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H4
  ipureintro
  exact View.read_writes_eq_canon _ _ _ (reg1_cover _)

section Data

variable (x16 : (c : Dev nD) → Buf (Elt F) (x16Loc c)) (dn : (c : Dev nD) → Buf (Elt F) (d0Loc c))
  (bs : (c : Dev nD) → Buf (Elt F) (b0Loc c)) (o3 : (c : Dev nD) → Buf (Elt F) (o3Loc c))
  (O : Dev nD → CellTallies nD τ sig (HIx 2)) (b : ℕ)

def reg1_A (c : Dev nD) : (w : Fin cfg1.W) → Buf (Elt F) ((cfg1.win w).arr.view.loc (c : Thread nD τ))
  | ⟨0, _⟩ => x16 c
  | ⟨1, _⟩ => dn c
  | ⟨2, _⟩ => bs c
  | ⟨3, _⟩ => o3 c

def reg1_blk (c : Dev nD) (w : Fin cfg1.W) (t : Fin cfg1.N) : ((cfg1.win w).xblock (cfg1.grid.coords t)).Idx → Elt F (cfg1.win w).elt :=
  ((cfg1.win w).blk t).view.read (Elt F) (reg1_A x16 dn bs o3 c w)

def reg1_rec (c : Dev nD) : Set (SemLoc sig × HIx 2) := {p | (K (F := F)).lev ((T c : Thread nD τ), p.1) p.2 ≤ b}

def reg1_dat (c : Dev nD) : Dat τ (Elt F) (HIx 2) ℕ UU ℕ cfg1 c where
  A := reg1_A x16 dn bs o3 c
  after w t := match w with
    | ⟨0, _⟩ => reg1_blk x16 dn bs o3 c 0 t
    | ⟨1, _⟩ => reg1_blk x16 dn bs o3 c 1 t
    | ⟨2, _⟩ => reg1_blk x16 dn bs o3 c 2 t
    | ⟨3, _⟩ => reg1_out (reg1_blk x16 dn bs o3 c 0 t) (reg1_blk x16 dn bs o3 c 1 t) (reg1_blk x16 dn bs o3 c 2 t)
  Φ _ := Pipeline.scopedRest (Ix := HIx 2) (Name := ℕ) (U := UU) (Lvl := ℕ) (Val := Elt F) spec1 c
  q _ := fullShare
  owed _ := O c
  recorded _ := reg1_rec (F := F) b c

def junkDat {cfg : Cfg sig Λ₀} (c : Dev nD) : Dat τ (Elt F) (HIx 2) ℕ UU ℕ cfg c where
  A _ := fun _ => Classical.arbitrary _
  after _ _ := fun _ => Classical.arbitrary _
  Φ _ := BI.emp
  q _ := fullShare
  owed _ := 0

def reg1_dats : (p : Fin 2) → (c : Dev nD) → Dat τ (Elt F) (HIx 2) ℕ UU ℕ (Pipeline.pin (pcfgs (F := F)) adm p) c
  | ⟨0, _⟩ => fun c => reg1_dat x16 dn bs o3 O b c
  | ⟨1, _⟩ => fun c => junkDat c

def reg1_result (c : Dev nD) : Buf (Elt F) (o3Loc c) := (reg1_dat x16 dn bs o3 O b c).arrAt 3 cfg1.N

def reg1_pre (c : Dev nD) : sProp 𝕄 :=
  iprop((x16Loc c ↦{fullShare} x16 c) ∗ (d0Loc c ↦{fullShare} dn c) ∗ (b0Loc c ↦{fullShare} bs c) ∗ (o3Loc c ↦{fullShare} o3 c)
    ∗ ∃ W, ⌜(K (F := F)).WBelow (T c) W b⌝ ∗ owes (T c : Thread nD τ) (O c) W)

def reg1_post (c : Dev nD) : sProp 𝕄 :=
  iprop((x16Loc c ↦{fullShare} x16 c) ∗ (d0Loc c ↦{fullShare} dn c) ∗ (b0Loc c ↦{fullShare} bs c) ∗ (o3Loc c ↦{fullShare} reg1_result x16 dn bs o3 O b c)
    ∗ ∃ W, ⌜(K (F := F)).WBelow (T c) W b⌝ ∗ owes (T c : Thread nD τ) (O c) W)

theorem reg1_A_eq (c : Dev nD) (w : Fin cfg1.W) : (reg1_dat x16 dn bs o3 O b c).A w = reg1_A x16 dn bs o3 c w := by dsimp only [reg1_dat]
theorem reg1_after0 (c : Dev nD) (t : Fin cfg1.N) : (reg1_dat x16 dn bs o3 O b c).after 0 t = reg1_blk x16 dn bs o3 c 0 t := by dsimp only [reg1_dat]
theorem reg1_after1 (c : Dev nD) (t : Fin cfg1.N) : (reg1_dat x16 dn bs o3 O b c).after 1 t = reg1_blk x16 dn bs o3 c 1 t := by dsimp only [reg1_dat]
theorem reg1_after2 (c : Dev nD) (t : Fin cfg1.N) : (reg1_dat x16 dn bs o3 O b c).after 2 t = reg1_blk x16 dn bs o3 c 2 t := by dsimp only [reg1_dat]
theorem reg1_after3 (c : Dev nD) (t : Fin cfg1.N) : (reg1_dat x16 dn bs o3 O b c).after 3 t
    = reg1_out (reg1_blk x16 dn bs o3 c 0 t) (reg1_blk x16 dn bs o3 c 1 t) (reg1_blk x16 dn bs o3 c 2 t) := by dsimp only [reg1_dat]

theorem reg1_before0 (c : Dev nD) (t : Fin cfg1.N) (d) : (reg1_dat x16 dn bs o3 O b c).before 0 t d = reg1_blk x16 dn bs o3 c 0 t :=
  ((reg1_dat x16 dn bs o3 O b c).before_in_eq_fetched 0 rfl (fun _ => rfl) (fun _ _ _ => rfl)
    (fun t => by rw [reg1_after0]; unfold Dat.blockOf reg1_blk; rw [reg1_A_eq]; try rfl) t d).trans
    (by unfold Dat.fetched Dat.blockOf reg1_blk; rw [reg1_A_eq]; try rfl)
theorem reg1_before1 (c : Dev nD) (t : Fin cfg1.N) (d) : (reg1_dat x16 dn bs o3 O b c).before 1 t d = reg1_blk x16 dn bs o3 c 1 t :=
  ((reg1_dat x16 dn bs o3 O b c).before_in_eq_fetched 1 rfl (fun _ => rfl) (fun _ _ _ => rfl)
    (fun t => by rw [reg1_after1]; unfold Dat.blockOf reg1_blk; rw [reg1_A_eq]; try rfl) t d).trans
    (by unfold Dat.fetched Dat.blockOf reg1_blk; rw [reg1_A_eq]; try rfl)
theorem reg1_before2 (c : Dev nD) (t : Fin cfg1.N) (d) : (reg1_dat x16 dn bs o3 O b c).before 2 t d = reg1_blk x16 dn bs o3 c 2 t :=
  ((reg1_dat x16 dn bs o3 O b c).before_in_eq_fetched 2 rfl (fun _ => rfl) (fun _ _ _ => rfl)
    (fun t => by rw [reg1_after2]; unfold Dat.blockOf reg1_blk; rw [reg1_A_eq]; try rfl) t d).trans
    (by unfold Dat.fetched Dat.blockOf reg1_blk; rw [reg1_A_eq]; try rfl)

theorem reg1_body (c : Dev nD) : BodyObligation (reg1_dat x16 dn bs o3 O b c) (defs₀ (F := F)) 𝒱₀ (none : HIx 2) Set.univ := fun t => by
  rw [bigSep_W1, bigSep_W1]
  show iprop((reg1_dat x16 dn bs o3 O b c).Φ t.castSucc ∗ (reg1_dat x16 dn bs o3 O b c).owesAt none t.castSucc
      ∗ (∃ d, owns (c : Thread nD τ) (st1_0 t) fullShare ((reg1_dat x16 dn bs o3 O b c).before 0 t d))
      ∗ (∃ d, owns (c : Thread nD τ) (st1_1 t) fullShare ((reg1_dat x16 dn bs o3 O b c).before 1 t d))
      ∗ (∃ d, owns (c : Thread nD τ) (st1_2 t) fullShare ((reg1_dat x16 dn bs o3 O b c).before 2 t d))
      ∗ (∃ d, owns (c : Thread nD τ) (st1_3 t) fullShare ((reg1_dat x16 dn bs o3 O b c).before 3 t d)))
    ⊢ wp frame (wpE (defs₀ (F := F)) Variants.none c none) Set.univ (bodyAt1 t) (fun _ =>
        iprop((reg1_dat x16 dn bs o3 O b c).Φ t.succ ∗ (reg1_dat x16 dn bs o3 O b c).owesAt none t.succ
          ∗ owns (c : Thread nD τ) (st1_0 t) fullShare ((reg1_dat x16 dn bs o3 O b c).after 0 t)
          ∗ owns (c : Thread nD τ) (st1_1 t) fullShare ((reg1_dat x16 dn bs o3 O b c).after 1 t)
          ∗ owns (c : Thread nD τ) (st1_2 t) fullShare ((reg1_dat x16 dn bs o3 O b c).after 2 t)
          ∗ owns (c : Thread nD τ) (st1_3 t) fullShare ((reg1_dat x16 dn bs o3 O b c).after 3 t)))
  unfold bodyAt1
  simp only [reg1_before0, reg1_before1, reg1_before2]
  rw [show (reg1_dat x16 dn bs o3 O b c).Φ t.succ = (reg1_dat x16 dn bs o3 O b c).Φ t.castSucc from rfl,
    show (reg1_dat x16 dn bs o3 O b c).owesAt none t.succ = (reg1_dat x16 dn bs o3 O b c).owesAt none t.castSucc from rfl,
    reg1_after0, reg1_after1, reg1_after2, reg1_after3]
  iintro ⟨HΦ, Ho, ⟨%d0, H0⟩, ⟨%d1, H1⟩, ⟨%d2, H2⟩, ⟨%d3, H3⟩⟩
  iapply (reg1_kernel c Set.univ _ _ _ _ _ _ _ _ _ (reg1_blk x16 dn bs o3 c 0 t) (reg1_blk x16 dn bs o3 c 1 t) (reg1_blk x16 dn bs o3 c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem reg1_arrAt0 (c : Dev nD) : (reg1_dat x16 dn bs o3 O b c).arrAt 0 cfg1.N = x16 c :=
  ((reg1_dat x16 dn bs o3 O b c).arrAt_in 0 rfl _).trans (reg1_A_eq x16 dn bs o3 O b c 0)
theorem reg1_arrAt1 (c : Dev nD) : (reg1_dat x16 dn bs o3 O b c).arrAt 1 cfg1.N = dn c :=
  ((reg1_dat x16 dn bs o3 O b c).arrAt_in 1 rfl _).trans (reg1_A_eq x16 dn bs o3 O b c 1)
theorem reg1_arrAt2 (c : Dev nD) : (reg1_dat x16 dn bs o3 O b c).arrAt 2 cfg1.N = bs c :=
  ((reg1_dat x16 dn bs o3 O b c).arrAt_in 2 rfl _).trans (reg1_A_eq x16 dn bs o3 O b c 2)

end Data

end Cert.Proof.KB

end
-- ==== Proof.KB.Region1.lean ====
import proofs.«207445_g73023033966933_cont_9to1_m_863_36_alg».proof.Proof.KB.Region1Defs

set_option maxRecDepth 16384

noncomputable section

namespace Cert.Proof.KB

open Cert.Kernel Cert.Kernel.Gen

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

section Data

variable (x16 : (c : Dev nD) → Buf (Elt F) (x16Loc c)) (dn : (c : Dev nD) → Buf (Elt F) (d0Loc c))
  (bs : (c : Dev nD) → Buf (Elt F) (b0Loc c)) (o3 : (c : Dev nD) → Buf (Elt F) (o3Loc c))
  (O : Dev nD → CellTallies nD τ sig (HIx 2)) (b : ℕ)

variable (lv : GSem nD τ sig → HIx 2 → ℕ) (hlv : (K (F := F)).Refines lv) (hO : ∀ c g, O c g none = 0)

include hlv hO in

theorem reg1_waits (c : Dev nD) :
    (levAts (K (F := F)).L lv : sProp 𝕄) ⊢ Pipeline.cellsWaits (Pipeline.pin (pcfgs (F := F)) adm) (reg1_dats x16 dn bs o3 O b) (none : HIx 2) 0 c :=
  Pipeline.cellsWaits_intro (Pipeline.pin (pcfgs (F := F)) adm) (reg1_dats x16 dn bs o3 O b) (none : HIx 2) 0 c
    fun w s t => (K (F := F)).mayWait_none _ (hO c) lv hlv

set_option backward.isDefEq.respectTransparency.types false in

def reg1 : Pipeline.RegionSeg (pcfgs (F := F)) adm (reg1_dats x16 dn bs o3 O b) (none : HIx 2) defs₀ 𝒱₀ (K (F := F)).L lv 0 where
  win := launch1.win.to₀
  block_pos := launch1.block_pos
  stage_whole := launch1.stage_whole
  K := PEmpty
  osem k := k.elim
  ho := Pipeline.OwnSemFacts.none _
  hbody c := (reg1_body x16 dn bs o3 O b c).loose
  hwaits c := reg1_waits x16 dn bs o3 O b lv hlv hO c
  pre := reg1_pre x16 dn bs o3 O b
  post := reg1_post x16 dn bs o3 O b
  X _ := BI.emp
  Y _ := BI.emp
  Z _ := BI.emp
  hentry c := by
    rw [Pipeline.ownSems0_none, Pipeline.arrays_eq (Pipeline.pin (pcfgs (F := F)) adm) (reg1_dats x16 dn bs o3 O b) 0 c launch1.arr_whole
      ((reg1_dats x16 dn bs o3 O b 0 c).share_full fun _ => rfl), bigSep_W1]
    unfold reg1_pre
    iintro ⟨⟨Hx, Hd, Hb, Ho, HO⟩, -, -⟩
    imodintro
    isplitl [Hx Hd Hb Ho]
    · isplitl [Hx]; · iexact Hx
      isplitl [Hd]; · iexact Hd
      isplitl [Hb]; · iexact Hb
      iexact Ho
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p (Finset.mem_coe.mp hp))
      iexact HO
    isplitr <;> iempintro
  hin c := by
    rw [show (reg1_dats x16 dn bs o3 O b 0 c).Φ 0
      = Pipeline.scopedRest (Ix := HIx 2) (Name := ℕ) (U := UU) (Lvl := ℕ) (Val := Elt F) spec1 c from rfl]
    iintro ⟨-, -, Hr⟩; iexact Hr
  hout c := by
    rw [Pipeline.ownSems0_none, show (reg1_dats x16 dn bs o3 O b 0 c).Φ (Fin.last _)
      = Pipeline.scopedRest (Ix := HIx 2) (Name := ℕ) (U := UU) (Lvl := ℕ) (Val := Elt F) spec1 c from rfl]
    iintro Hr
    isplitr; · iempintro
    isplitr; · iempintro
    iexact Hr
  hexit c := by
    rw [Pipeline.arrays_eq (Pipeline.pin (pcfgs (F := F)) adm) (reg1_dats x16 dn bs o3 O b) 0 c launch1.arr_whole
      ((reg1_dats x16 dn bs o3 O b 0 c).share_full fun _ => rfl), bigSep_W1]
    unfold reg1_post reg1_result
    rw [show (reg1_dats x16 dn bs o3 O b 0 c).arrAt 0 (Pipeline.pin (pcfgs (F := F)) adm 0).N = x16 c from reg1_arrAt0 x16 dn bs o3 O b c,
      show (reg1_dats x16 dn bs o3 O b 0 c).arrAt 1 (Pipeline.pin (pcfgs (F := F)) adm 0).N = dn c from reg1_arrAt1 x16 dn bs o3 O b c,
      show (reg1_dats x16 dn bs o3 O b 0 c).arrAt 2 (Pipeline.pin (pcfgs (F := F)) adm 0).N = bs c from reg1_arrAt2 x16 dn bs o3 O b c]
    iintro ⟨⟨Hx, Hd, Hb, Ho⟩, HO, -, -⟩
    imodintro
    isplitl [Hx]; · iexact Hx
    isplitl [Hd]; · iexact Hd
    isplitl [Hb]; · iexact Hb
    isplitl [Ho]; · iexact Ho
    unfold Pipeline.Dat.owesAt Pipeline.owesWithin
    icases HO with ⟨%W, %hW, HO⟩; iexists W; isplitr
    · ipureintro
      intro p hp
      rcases hW (Finset.mem_coe.mpr hp) with h | ⟨w, s, rfl⟩
      · exact h
      · exact Nat.zero_le _
    iexact HO

include hlv hO in
set_option backward.isDefEq.respectTransparency.types false in

theorem region1_wp_inner (c : Dev nD) (Q : PUnit → sProp 𝕄) :
    iprop((iprop(boundary (T c : Thread nD τ) ∗ reg1_post x16 dn bs o3 O b c) -∗ Q ⟨⟩)
        ∗ boundary (T c : Thread nD τ) ∗ reg1_pre x16 dn bs o3 O b c ∗ levAts (K (F := F)).L lv
        ∗ Pipeline.cellsGhost (Pipeline.pin (pcfgs (F := F)) adm) EP 0 c ∗ Pipeline.toksInit (Pipeline.pin (pcfgs (F := F)) adm) EP 0 c)
      ⊢ wp frame (wpE (D (F := F)) 𝒱 (T c : Thread nD τ) none) Set.univ
          (.op (.customCall (Pipeline.entry 0) ()) fun _ => .ret ⟨⟩) Q := by
  have h := Pipeline.RegionSeg.wp (pcfgs (F := F)) adm (reg1_dats x16 dn bs o3 O b) (none : HIx 2) cellOf_inj EP defs₀ 𝒱₀
    (K (F := F)).L lv (reg1 x16 dn bs o3 O b lv hlv hO) c none (fun u hu => by cases hu) (fun _ => .ret ⟨⟩) Q
  rw [show (reg1 x16 dn bs o3 O b lv hlv hO).pre c = reg1_pre x16 dn bs o3 O b c from rfl,
    show (reg1 x16 dn bs o3 O b lv hlv hO).post c = reg1_post x16 dn bs o3 O b c from rfl] at h
  refine BIBase.Entails.trans ?_ h
  iintro ⟨Hk, Hb, Hpre, Hlev, Hg, Ht⟩
  isplitl [Hk]
  · iintro H
    rw [wp_ret]
    imodintro
    iapply Hk; iexact H
  isplitl [Hb]; · iexact Hb
  isplitl [Hpre]; · iexact Hpre
  isplitl [Hlev]; · iexact Hlev
  isplitl [Hg]; · iexact Hg
  iexact Ht

theorem lift_entry0 :
    (SparseCore.liftProg (Q := 2) (Prog.op (TpuEff.customCall (Pipeline.entry 0) ()) (fun _ => Prog.ret PUnit.unit)
        : Prog (TpuEff nD τ sig (Elt F) (ΛP (F := F)) .tc) PUnit))
      = Prog.lift (.customCall (SparseCore.inner (Pipeline.entry 0)) ()) := rfl

include hlv hO in

theorem region1_wp (c : Dev nD) (Q : PUnit → sProp 𝕄) :
    iprop((iprop(boundary (T c : Thread nD τ) ∗ reg1_post x16 dn bs o3 O b c) -∗ Q ⟨⟩)
        ∗ boundary (T c : Thread nD τ) ∗ reg1_pre x16 dn bs o3 O b c ∗ levAts (K (F := F)).L lv
        ∗ Pipeline.cellsGhost (Pipeline.pin (pcfgs (F := F)) adm) EP 0 c ∗ Pipeline.toksInit (Pipeline.pin (pcfgs (F := F)) adm) EP 0 c)
      ⊢ wp frame (wpE ((K (F := F)).defs D) 𝒱 (T c : Thread nD τ) none) Set.univ
          (Prog.lift (.customCall (SparseCore.inner (Pipeline.entry 0)) ())) Q := by
  rw [← lift_entry0]
  exact (region1_wp_inner x16 dn bs o3 O b lv hlv hO c Q).trans
    ((K (F := F)).wp_liftProg D 𝒱 (T c : Thread nD τ) Set.univ none _ Q)

end Data

end Cert.Proof.KB

end
-- ==== Proof.KB.Region3Defs.lean ====
import proofs.«207445_g73023033966933_cont_9to1_m_863_36_alg».proof.Proof.KB.Common
import proofs.«207445_g73023033966933_cont_9to1_m_863_36_alg».proof.Proof.KB.Region1Defs
import Idealize.ShloMosaic.Lib.Pipeline.FrameBody

set_option maxRecDepth 16384

noncomputable section

namespace Cert.Proof.KB

open Cert.Kernel Cert.Kernel.Gen

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

abbrev reg3_rX : Rect S2048x4096 := Rect.unit (s := S2048x4096) ![0, 0] S2048x4096.size inb_S2048x4096_S2048x4096_0_0
abbrev reg3_rW : Rect S256x4096 := Rect.unit (s := S256x4096) ![0, 0] S256x4096.size inb_S256x4096_S256x4096_0_0
abbrev reg3_rB : Rect S256 := Rect.unit (s := S256) ![0] S256.size inb_S256_S256_0
abbrev reg3_rO : Rect S2048x256 := Rect.unit (s := S2048x256) ![0, 0] S2048x256.size inb_S2048x256_S2048x256_0_0

def reg3_out (x0 : Vec F S2048x4096 .bf16) (x1 : Vec F S256x4096 .f32) (x2 : Vec F S256 .f32) : Vec F S2048x256 .f32 :=
  View.canon [⟨reg3_rO, k3_pay1 (View.ld x0 reg3_rX) (View.ld x1 reg3_rW) (View.ld x2 reg3_rB)⟩]

theorem reg3_cover (p0 : Vec F S2048x256 .f32) (y : S2048x256.Idx) :
    ∃ pc ∈ ([⟨reg3_rO, p0⟩] : List (View.Piece (Elt F) S2048x256 .f32)), y ∈ pc.1.set :=
  View.cover_of_tiled [⟨reg3_rO, p0⟩] S2048x256.size (by rfl) y

set_option maxHeartbeats 1000000 in

theorem reg3_kernel (c : Dev nD) (E : Set ℕ) (i : grid3.Coords)
    (arg1 : Memref sig .tc .vmem S2048x4096 .bf16) (harg1 : arg1.IsWhole) (arg2 : Memref sig .tc .vmem S256x4096 .f32) (harg2 : arg2.IsWhole)
    (arg3 : Memref sig .tc .vmem S256 .f32) (harg3 : arg3.IsWhole) (argH : Memref sig .tc .hbm S2048x4096 .f32) (hargH : argH.IsWhole)
    (arg4 : Memref sig .tc .vmem S2048x256 .f32) (harg4 : arg4.IsWhole)
    (x0 : Vec F S2048x4096 .bf16) (x1 : Vec F S256x4096 .f32) (x2 : Vec F S256 .f32) (Kt : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (reg3_out x0 x1 x2)) -∗ Kt ⟨⟩))
      ⊢ wp frame (wpE (defs₀ (F := F)) Variants.none c none) E (cc3__matmul_rest_body i arg1 harg1 arg2 harg2 arg3 harg3 argH hargH arg4 harg4) Kt := by
  simp only [cc3__matmul_rest_body_eq_skeleton]; unfold cc3__matmul_rest_body_skel
  unfold owns
  iintro ⟨⟨%f0, %hf0, H0⟩, ⟨%f1, %hf1, H1⟩, ⟨%f2, %hf2, H2⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H4
  ipureintro
  exact View.read_writes_eq_canon _ _ _ (reg3_cover _)

section Data

variable (x16 : (c : Dev nD) → Buf (Elt F) (x16Loc c)) (dn : (c : Dev nD) → Buf (Elt F) (d1Loc c))
  (bs : (c : Dev nD) → Buf (Elt F) (b1Loc c)) (o6 : (c : Dev nD) → Buf (Elt F) (o6Loc c))
  (O : Dev nD → CellTallies nD τ sig (HIx 2)) (b : ℕ)

def reg3_A (c : Dev nD) : (w : Fin cfg3.W) → Buf (Elt F) ((cfg3.win w).arr.view.loc (c : Thread nD τ))
  | ⟨0, _⟩ => x16 c
  | ⟨1, _⟩ => dn c
  | ⟨2, _⟩ => bs c
  | ⟨3, _⟩ => o6 c

def reg3_blk (c : Dev nD) (w : Fin cfg3.W) (t : Fin cfg3.N) : ((cfg3.win w).xblock (cfg3.grid.coords t)).Idx → Elt F (cfg3.win w).elt :=
  ((cfg3.win w).blk t).view.read (Elt F) (reg3_A x16 dn bs o6 c w)

def reg3_rec (c : Dev nD) : Set (SemLoc sig × HIx 2) := {p | (K (F := F)).lev ((T c : Thread nD τ), p.1) p.2 ≤ b}

def reg3_dat (c : Dev nD) : Dat τ (Elt F) (HIx 2) ℕ UU ℕ cfg3 c where
  A := reg3_A x16 dn bs o6 c
  after w t := match w with
    | ⟨0, _⟩ => reg3_blk x16 dn bs o6 c 0 t
    | ⟨1, _⟩ => reg3_blk x16 dn bs o6 c 1 t
    | ⟨2, _⟩ => reg3_blk x16 dn bs o6 c 2 t
    | ⟨3, _⟩ => reg3_out (reg3_blk x16 dn bs o6 c 0 t) (reg3_blk x16 dn bs o6 c 1 t) (reg3_blk x16 dn bs o6 c 2 t)
  Φ _ := Pipeline.scopedRest (Ix := HIx 2) (Name := ℕ) (U := UU) (Lvl := ℕ) (Val := Elt F) spec3 c
  q _ := fullShare
  owed _ := O c
  recorded _ := reg3_rec (F := F) b c

def reg3_dats : (p : Fin 2) → (c : Dev nD) → Dat τ (Elt F) (HIx 2) ℕ UU ℕ (Pipeline.pin (pcfgs (F := F)) adm p) c
  | ⟨0, _⟩ => fun c => junkDat c
  | ⟨1, _⟩ => fun c => reg3_dat x16 dn bs o6 O b c

def reg3_result (c : Dev nD) : Buf (Elt F) (o6Loc c) := (reg3_dat x16 dn bs o6 O b c).arrAt 3 cfg3.N

def reg3_pre (c : Dev nD) : sProp 𝕄 :=
  iprop((x16Loc c ↦{fullShare} x16 c) ∗ (d1Loc c ↦{fullShare} dn c) ∗ (b1Loc c ↦{fullShare} bs c) ∗ (o6Loc c ↦{fullShare} o6 c)
    ∗ ∃ W, ⌜(K (F := F)).WBelow (T c) W b⌝ ∗ owes (T c : Thread nD τ) (O c) W)

def reg3_post (c : Dev nD) : sProp 𝕄 :=
  iprop((x16Loc c ↦{fullShare} x16 c) ∗ (d1Loc c ↦{fullShare} dn c) ∗ (b1Loc c ↦{fullShare} bs c) ∗ (o6Loc c ↦{fullShare} reg3_result x16 dn bs o6 O b c)
    ∗ ∃ W, ⌜(K (F := F)).WBelow (T c) W b⌝ ∗ owes (T c : Thread nD τ) (O c) W)

theorem reg3_A_eq (c : Dev nD) (w : Fin cfg3.W) : (reg3_dat x16 dn bs o6 O b c).A w = reg3_A x16 dn bs o6 c w := by dsimp only [reg3_dat]
theorem reg3_after0 (c : Dev nD) (t : Fin cfg3.N) : (reg3_dat x16 dn bs o6 O b c).after 0 t = reg3_blk x16 dn bs o6 c 0 t := by dsimp only [reg3_dat]
theorem reg3_after1 (c : Dev nD) (t : Fin cfg3.N) : (reg3_dat x16 dn bs o6 O b c).after 1 t = reg3_blk x16 dn bs o6 c 1 t := by dsimp only [reg3_dat]
theorem reg3_after2 (c : Dev nD) (t : Fin cfg3.N) : (reg3_dat x16 dn bs o6 O b c).after 2 t = reg3_blk x16 dn bs o6 c 2 t := by dsimp only [reg3_dat]
theorem reg3_after3 (c : Dev nD) (t : Fin cfg3.N) : (reg3_dat x16 dn bs o6 O b c).after 3 t
    = reg3_out (reg3_blk x16 dn bs o6 c 0 t) (reg3_blk x16 dn bs o6 c 1 t) (reg3_blk x16 dn bs o6 c 2 t) := by dsimp only [reg3_dat]

theorem reg3_before0 (c : Dev nD) (t : Fin cfg3.N) (d) : (reg3_dat x16 dn bs o6 O b c).before 0 t d = reg3_blk x16 dn bs o6 c 0 t :=
  ((reg3_dat x16 dn bs o6 O b c).before_in_eq_fetched 0 rfl (fun _ => rfl) (fun _ _ _ => rfl)
    (fun t => by rw [reg3_after0]; unfold Dat.blockOf reg3_blk; rw [reg3_A_eq]; try rfl) t d).trans
    (by unfold Dat.fetched Dat.blockOf reg3_blk; rw [reg3_A_eq]; try rfl)
theorem reg3_before1 (c : Dev nD) (t : Fin cfg3.N) (d) : (reg3_dat x16 dn bs o6 O b c).before 1 t d = reg3_blk x16 dn bs o6 c 1 t :=
  ((reg3_dat x16 dn bs o6 O b c).before_in_eq_fetched 1 rfl (fun _ => rfl) (fun _ _ _ => rfl)
    (fun t => by rw [reg3_after1]; unfold Dat.blockOf reg3_blk; rw [reg3_A_eq]; try rfl) t d).trans
    (by unfold Dat.fetched Dat.blockOf reg3_blk; rw [reg3_A_eq]; try rfl)
theorem reg3_before2 (c : Dev nD) (t : Fin cfg3.N) (d) : (reg3_dat x16 dn bs o6 O b c).before 2 t d = reg3_blk x16 dn bs o6 c 2 t :=
  ((reg3_dat x16 dn bs o6 O b c).before_in_eq_fetched 2 rfl (fun _ => rfl) (fun _ _ _ => rfl)
    (fun t => by rw [reg3_after2]; unfold Dat.blockOf reg3_blk; rw [reg3_A_eq]; try rfl) t d).trans
    (by unfold Dat.fetched Dat.blockOf reg3_blk; rw [reg3_A_eq]; try rfl)

theorem reg3_body (c : Dev nD) : BodyObligation (reg3_dat x16 dn bs o6 O b c) (defs₀ (F := F)) 𝒱₀ (none : HIx 2) Set.univ := fun t => by
  rw [bigSep_W3, bigSep_W3]
  show iprop((reg3_dat x16 dn bs o6 O b c).Φ t.castSucc ∗ (reg3_dat x16 dn bs o6 O b c).owesAt none t.castSucc
      ∗ (∃ d, owns (c : Thread nD τ) (st3_0 t) fullShare ((reg3_dat x16 dn bs o6 O b c).before 0 t d))
      ∗ (∃ d, owns (c : Thread nD τ) (st3_1 t) fullShare ((reg3_dat x16 dn bs o6 O b c).before 1 t d))
      ∗ (∃ d, owns (c : Thread nD τ) (st3_2 t) fullShare ((reg3_dat x16 dn bs o6 O b c).before 2 t d))
      ∗ (∃ d, owns (c : Thread nD τ) (st3_3 t) fullShare ((reg3_dat x16 dn bs o6 O b c).before 3 t d)))
    ⊢ wp frame (wpE (defs₀ (F := F)) Variants.none c none) Set.univ (bodyAt3 t) (fun _ =>
        iprop((reg3_dat x16 dn bs o6 O b c).Φ t.succ ∗ (reg3_dat x16 dn bs o6 O b c).owesAt none t.succ
          ∗ owns (c : Thread nD τ) (st3_0 t) fullShare ((reg3_dat x16 dn bs o6 O b c).after 0 t)
          ∗ owns (c : Thread nD τ) (st3_1 t) fullShare ((reg3_dat x16 dn bs o6 O b c).after 1 t)
          ∗ owns (c : Thread nD τ) (st3_2 t) fullShare ((reg3_dat x16 dn bs o6 O b c).after 2 t)
          ∗ owns (c : Thread nD τ) (st3_3 t) fullShare ((reg3_dat x16 dn bs o6 O b c).after 3 t)))
  unfold bodyAt3
  simp only [reg3_before0, reg3_before1, reg3_before2]
  rw [show (reg3_dat x16 dn bs o6 O b c).Φ t.succ = (reg3_dat x16 dn bs o6 O b c).Φ t.castSucc from rfl,
    show (reg3_dat x16 dn bs o6 O b c).owesAt none t.succ = (reg3_dat x16 dn bs o6 O b c).owesAt none t.castSucc from rfl,
    reg3_after0, reg3_after1, reg3_after2, reg3_after3]
  iintro ⟨HΦ, Ho, ⟨%d0, H0⟩, ⟨%d1, H1⟩, ⟨%d2, H2⟩, ⟨%d3, H3⟩⟩
  iapply (reg3_kernel c Set.univ _ _ _ _ _ _ _ _ _ _ _ (reg3_blk x16 dn bs o6 c 0 t) (reg3_blk x16 dn bs o6 c 1 t) (reg3_blk x16 dn bs o6 c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem reg3_arrAt0 (c : Dev nD) : (reg3_dat x16 dn bs o6 O b c).arrAt 0 cfg3.N = x16 c :=
  ((reg3_dat x16 dn bs o6 O b c).arrAt_in 0 rfl _).trans (reg3_A_eq x16 dn bs o6 O b c 0)
theorem reg3_arrAt1 (c : Dev nD) : (reg3_dat x16 dn bs o6 O b c).arrAt 1 cfg3.N = dn c :=
  ((reg3_dat x16 dn bs o6 O b c).arrAt_in 1 rfl _).trans (reg3_A_eq x16 dn bs o6 O b c 1)
theorem reg3_arrAt2 (c : Dev nD) : (reg3_dat x16 dn bs o6 O b c).arrAt 2 cfg3.N = bs c :=
  ((reg3_dat x16 dn bs o6 O b c).arrAt_in 2 rfl _).trans (reg3_A_eq x16 dn bs o6 O b c 2)

end Data

end Cert.Proof.KB

end
-- ==== Proof.KB.Region3.lean ====
import proofs.«207445_g73023033966933_cont_9to1_m_863_36_alg».proof.Proof.KB.Region3Defs

set_option maxRecDepth 16384

noncomputable section

namespace Cert.Proof.KB

open Cert.Kernel Cert.Kernel.Gen

open Idealize.ShloMosaic
open Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

section Data

variable (x16 : (c : Dev nD) → Buf (Elt F) (x16Loc c)) (dn : (c : Dev nD) → Buf (Elt F) (d1Loc c))
  (bs : (c : Dev nD) → Buf (Elt F) (b1Loc c)) (o6 : (c : Dev nD) → Buf (Elt F) (o6Loc c))
  (O : Dev nD → CellTallies nD τ sig (HIx 2)) (b : ℕ)

variable (lv : GSem nD τ sig → HIx 2 → ℕ) (hlv : (K (F := F)).Refines lv) (hO : ∀ c g, O c g none = 0)

include hlv hO in

theorem reg3_waits (c : Dev nD) :
    (levAts (K (F := F)).L lv : sProp 𝕄) ⊢ Pipeline.cellsWaits (Pipeline.pin (pcfgs (F := F)) adm) (reg3_dats x16 dn bs o6 O b) (none : HIx 2) 1 c :=
  Pipeline.cellsWaits_intro (Pipeline.pin (pcfgs (F := F)) adm) (reg3_dats x16 dn bs o6 O b) (none : HIx 2) 1 c
    fun w s t => (K (F := F)).mayWait_none _ (hO c) lv hlv

set_option backward.isDefEq.respectTransparency.types false in

def reg3 : Pipeline.RegionSeg (pcfgs (F := F)) adm (reg3_dats x16 dn bs o6 O b) (none : HIx 2) defs₀ 𝒱₀ (K (F := F)).L lv 1 where
  win := launch3.win.to₀
  block_pos := launch3.block_pos
  stage_whole := launch3.stage_whole
  K := PEmpty
  osem k := k.elim
  ho := Pipeline.OwnSemFacts.none _
  hbody c := (reg3_body x16 dn bs o6 O b c).loose
  hwaits c := reg3_waits x16 dn bs o6 O b lv hlv hO c
  pre := reg3_pre x16 dn bs o6 O b
  post := reg3_post x16 dn bs o6 O b
  X _ := BI.emp
  Y _ := BI.emp
  Z _ := BI.emp
  hentry c := by
    rw [Pipeline.ownSems0_none, Pipeline.arrays_eq (Pipeline.pin (pcfgs (F := F)) adm) (reg3_dats x16 dn bs o6 O b) 1 c launch3.arr_whole
      ((reg3_dats x16 dn bs o6 O b 1 c).share_full fun _ => rfl), bigSep_W3]
    unfold reg3_pre
    iintro ⟨⟨Hx, Hd, Hb, Ho, HO⟩, -, -⟩
    imodintro
    isplitl [Hx Hd Hb Ho]
    · isplitl [Hx]; · iexact Hx
      isplitl [Hd]; · iexact Hd
      isplitl [Hb]; · iexact Hb
      iexact Ho
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p (Finset.mem_coe.mp hp))
      iexact HO
    isplitr <;> iempintro
  hin c := by
    rw [show (reg3_dats x16 dn bs o6 O b 1 c).Φ 0
      = Pipeline.scopedRest (Ix := HIx 2) (Name := ℕ) (U := UU) (Lvl := ℕ) (Val := Elt F) spec3 c from rfl]
    iintro ⟨-, -, Hr⟩; iexact Hr
  hout c := by
    rw [Pipeline.ownSems0_none, show (reg3_dats x16 dn bs o6 O b 1 c).Φ (Fin.last _)
      = Pipeline.scopedRest (Ix := HIx 2) (Name := ℕ) (U := UU) (Lvl := ℕ) (Val := Elt F) spec3 c from rfl]
    iintro Hr
    isplitr; · iempintro
    isplitr; · iempintro
    iexact Hr
  hexit c := by
    rw [Pipeline.arrays_eq (Pipeline.pin (pcfgs (F := F)) adm) (reg3_dats x16 dn bs o6 O b) 1 c launch3.arr_whole
      ((reg3_dats x16 dn bs o6 O b 1 c).share_full fun _ => rfl), bigSep_W3]
    unfold reg3_post reg3_result
    rw [show (reg3_dats x16 dn bs o6 O b 1 c).arrAt 0 (Pipeline.pin (pcfgs (F := F)) adm 1).N = x16 c from reg3_arrAt0 x16 dn bs o6 O b c,
      show (reg3_dats x16 dn bs o6 O b 1 c).arrAt 1 (Pipeline.pin (pcfgs (F := F)) adm 1).N = dn c from reg3_arrAt1 x16 dn bs o6 O b c,
      show (reg3_dats x16 dn bs o6 O b 1 c).arrAt 2 (Pipeline.pin (pcfgs (F := F)) adm 1).N = bs c from reg3_arrAt2 x16 dn bs o6 O b c]
    iintro ⟨⟨Hx, Hd, Hb, Ho⟩, HO, -, -⟩
    imodintro
    isplitl [Hx]; · iexact Hx
    isplitl [Hd]; · iexact Hd
    isplitl [Hb]; · iexact Hb
    isplitl [Ho]; · iexact Ho
    unfold Pipeline.Dat.owesAt Pipeline.owesWithin
    icases HO with ⟨%W, %hW, HO⟩; iexists W; isplitr
    · ipureintro
      intro p hp
      rcases hW (Finset.mem_coe.mpr hp) with h | ⟨w, s, rfl⟩
      · exact h
      · exact Nat.zero_le _
    iexact HO

include hlv hO in
set_option backward.isDefEq.respectTransparency.types false in

theorem region3_wp_inner (c : Dev nD) (Q : PUnit → sProp 𝕄) :
    iprop((iprop(boundary (T c : Thread nD τ) ∗ reg3_post x16 dn bs o6 O b c) -∗ Q ⟨⟩)
        ∗ boundary (T c : Thread nD τ) ∗ reg3_pre x16 dn bs o6 O b c ∗ levAts (K (F := F)).L lv
        ∗ Pipeline.cellsGhost (Pipeline.pin (pcfgs (F := F)) adm) EP 1 c ∗ Pipeline.toksInit (Pipeline.pin (pcfgs (F := F)) adm) EP 1 c)
      ⊢ wp frame (wpE (D (F := F)) 𝒱 (T c : Thread nD τ) none) Set.univ
          (.op (.customCall (Pipeline.entry 1) ()) fun _ => .ret ⟨⟩) Q := by
  have h := Pipeline.RegionSeg.wp (pcfgs (F := F)) adm (reg3_dats x16 dn bs o6 O b) (none : HIx 2) cellOf_inj EP defs₀ 𝒱₀
    (K (F := F)).L lv (reg3 x16 dn bs o6 O b lv hlv hO) c none (fun u hu => by cases hu) (fun _ => .ret ⟨⟩) Q
  rw [show (reg3 x16 dn bs o6 O b lv hlv hO).pre c = reg3_pre x16 dn bs o6 O b c from rfl,
    show (reg3 x16 dn bs o6 O b lv hlv hO).post c = reg3_post x16 dn bs o6 O b c from rfl] at h
  refine BIBase.Entails.trans ?_ h
  iintro ⟨Hk, Hb, Hpre, Hlev, Hg, Ht⟩
  isplitl [Hk]
  · iintro H
    rw [wp_ret]
    imodintro
    iapply Hk; iexact H
  isplitl [Hb]; · iexact Hb
  isplitl [Hpre]; · iexact Hpre
  isplitl [Hlev]; · iexact Hlev
  isplitl [Hg]; · iexact Hg
  iexact Ht

theorem lift_entry1 :
    (SparseCore.liftProg (Q := 2) (Prog.op (TpuEff.customCall (Pipeline.entry 1) ()) (fun _ => Prog.ret PUnit.unit)
        : Prog (TpuEff nD τ sig (Elt F) (ΛP (F := F)) .tc) PUnit))
      = Prog.lift (.customCall (SparseCore.inner (Pipeline.entry 1)) ()) := rfl

include hlv hO in

theorem region3_wp (c : Dev nD) (Q : PUnit → sProp 𝕄) :
    iprop((iprop(boundary (T c : Thread nD τ) ∗ reg3_post x16 dn bs o6 O b c) -∗ Q ⟨⟩)
        ∗ boundary (T c : Thread nD τ) ∗ reg3_pre x16 dn bs o6 O b c ∗ levAts (K (F := F)).L lv
        ∗ Pipeline.cellsGhost (Pipeline.pin (pcfgs (F := F)) adm) EP 1 c ∗ Pipeline.toksInit (Pipeline.pin (pcfgs (F := F)) adm) EP 1 c)
      ⊢ wp frame (wpE ((K (F := F)).defs D) 𝒱 (T c : Thread nD τ) none) Set.univ
          (Prog.lift (.customCall (SparseCore.inner (Pipeline.entry 1)) ())) Q := by
  rw [← lift_entry1]
  exact (region3_wp_inner x16 dn bs o6 O b lv hlv hO c Q).trans
    ((K (F := F)).wp_liftProg D 𝒱 (T c : Thread nD τ) Set.univ none _ Q)

end Data

end Cert.Proof.KB

end
-- ==== Proof.KB.Run.lean ====
import proofs.«207445_g73023033966933_cont_9to1_m_863_36_alg».proof.Proof.KB.HMain
import proofs.«207445_g73023033966933_cont_9to1_m_863_36_alg».proof.Proof.KB.Region1
import proofs.«207445_g73023033966933_cont_9to1_m_863_36_alg».proof.Proof.KB.Region3

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 2) (Elt F) ℕ UU ℕ

variable (m : (ℓ : Loc nD τ sig) → Buf (Elt F) ℓ) (ρ : Dev nD → PrngReg)

theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

variable [FloatOps F]

def res1 : ((c : Dev nD) → Buf (Elt F) (x16Loc c)) → ((c : Dev nD) → Buf (Elt F) (d0Loc c)) → ((c : Dev nD) → Buf (Elt F) (b0Loc c)) → ((c : Dev nD) → Buf (Elt F) (o3Loc c)) → (c : Dev nD) → Buf (Elt F) (o3Loc c) :=
  fun x16 dn bs o c => reg1_result x16 dn bs o (fun c => (K (F := F)).Otc c 1) (8 * 1) c
def res3 : ((c : Dev nD) → Buf (Elt F) (x16Loc c)) → ((c : Dev nD) → Buf (Elt F) (d1Loc c)) → ((c : Dev nD) → Buf (Elt F) (b1Loc c)) → ((c : Dev nD) → Buf (Elt F) (o6Loc c)) → (c : Dev nD) → Buf (Elt F) (o6Loc c) :=
  fun x16 dn bs o c => reg3_result x16 dn bs o (fun c => (K (F := F)).Otc c 2) (8 * 2) c

def OUT (d : Dev nD) : Buf (Elt F) (o6Loc d) := OUTv m (res1 (F := F)) (res3 (F := F)) d

omit m in

theorem hreg1 : Hreg1 (F := F) (res1 (F := F)) := fun x16 dn bs o c Q => by
  have h := region1_wp x16 dn bs o (fun c => (K (F := F)).Otc c 1) (8 * 1) (K (F := F)).lev
    (SparseCore.Cfg.refines_self _) (fun c g => Otc_none c 1 g) c Q
  unfold reg1_pre reg1_post at h
  exact h

omit m in

theorem hreg3 : Hreg3 (F := F) (res3 (F := F)) := fun x16 dn bs o c Q => by
  have h := region3_wp x16 dn bs o (fun c => (K (F := F)).Otc c 2) (8 * 2) (K (F := F)).lev
    (SparseCore.Cfg.refines_self _) (fun c g => Otc_none c 2 g) c Q
  unfold reg3_pre reg3_post at h
  exact h

section Run

variable (hT0 : (K (F := F)).TileObl (D (F := F)) 𝒱 (P m) v₀ 0) (hT1 : (K (F := F)).TileObl (D (F := F)) 𝒱 (P m) v₀ 1)

include hT0 hT1 in

theorem run_main [∀ e, Nonempty (Elt F e)] :
    θ_run (Cert.Kernel.defs (F := F)) (Cert.Kernel.threads (F := F)) ⟨m, fun _ => 0, ρ⟩ (QC m (OUT m)) :=
  SparseCore.Cfg.θ_run_sc (K := K (F := F)) (D := D (F := F)) (𝒱 := 𝒱) (EH := EH) (P := P m) facts v₀
    (fun q hq => match q with | 0 => nomatch hq | 1 => nomatch hq)
    (fun q _ => match q with | 0 => hT0 | 1 => hT1)
    (fun q _ => match q with | 0 => SparseCore.Cfg.VecSplit.of_plain (vecSplit0 m) | 1 => SparseCore.Cfg.VecSplit.of_plain (vecSplit1 m))
    m ρ main (G (F := F)) (FIN m (OUT m)) (u₀ (F := F)) (sep_elim_left.trans (hu₀ m))
    (hmain m ρ (res1 (F := F)) (res3 (F := F)) hreg1 hreg3) (fq m (OUT m)) (hfin m (OUT m)) (QC m (OUT m)) (fun _ h => h)

end Run

end Cert.Proof.KB

end
-- ==== Proof.KB.Scatter.lean ====
import proofs.«207445_g73023033966933_cont_9to1_m_863_36_alg».proof.Proof.KB.Common
import proofs.«207445_g73023033966933_cont_9to1_m_863_36_alg».proof.Proof.SpecF
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 2) (Elt F) ℕ UU ℕ

/-- The row word every scatter loop computes at trip n: the floor division of n by eight. -/
abbrev rowWord (n : Nat) : BitVec 32 :=
  Scalar.select
    (Scalar.andi
      (Scalar.cmpi .ne
        (Scalar.subi (Scalar.extui (Scalar.cmpi .sgt (Scf.iv 0#32 1#32 n) 0#32)) (Scalar.extui (Scalar.cmpi .slt (Scf.iv 0#32 1#32 n) 0#32)))
        (Scalar.subi (Scalar.extui (Scalar.cmpi .sgt 8#32 0#32)) (Scalar.extui (Scalar.cmpi .slt 8#32 0#32))))
      (Scalar.cmpi .ne (Scalar.remsi (Scf.iv 0#32 1#32 n) 8#32) 0#32))
    (Scalar.subi (Scalar.divsi (Scf.iv 0#32 1#32 n) 8#32) 1#32)
    (Scalar.divsi (Scf.iv 0#32 1#32 n) 8#32)

theorem rowWord_toNat : ∀ k : Fin 64, (rowWord k.val).toNat = k.val / 8 := by decide +kernel

/-- Rows 8 b … 8 b + 7 of a scratch of N rows of 128 words. -/
def rows {α : Type} {N : ℕ} (f : (⟨2, ![N, 128]⟩ : Shape).Idx → α) (b : ℕ) (hb : 8 * b + 8 ≤ N) : Fin 8 → Fin 128 → α :=
  fun r q => f (ix2 (⟨8 * b + r.val, by have := r.isLt; omega⟩ : Fin N) q)

/-- Trip n of sub-block b: every row lane is n / 8, lane x of its 1 x 16 load is the word at row 8 b + n / 8, column 16 (n mod 8) + x, and the index vectors are in range. -/
theorem scat_facts {N : ℕ} (fw : (⟨2, ![N, 128]⟩ : Shape).Idx → Elt F .f32) (fm : (⟨2, ![N, 128]⟩ : Shape).Idx → BitVec 32)
    (hfm : ∀ j, (fm j).toNat < 4096) (b : ℕ) (hb : 8 * b + 8 ≤ N) (n : ℕ) (hn : n < 64)
    (off : Fin 2 → Nat) (inb : ∀ a, off a + S1x16.size a ≤ (⟨2, ![N, 128]⟩ : Shape).size a) (hoff : off = ![8 * b + n / 8, 16 * (n % 8)])
    (vm : S1x16.Idx → BitVec 32) (vw : S1x16.Idx → Elt F .f32)
    (hvm : vm = fun y => fm ((Rect.unit (s := ⟨2, ![N, 128]⟩) off S1x16.size inb).toLoadRect.idx y))
    (hvw : vw = fun y => fw ((Rect.unit (s := ⟨2, ![N, 128]⟩) off S1x16.size inb).toLoadRect.idx y)) :
    (∀ x : S16.Idx, ((broadcast S16 (rowWord n) : IVec S16 32) x).toNat = n / 8)
    ∧ (∀ x : S16.Idx, shapeCast S16 vm shapeCasts_S1x16_S16 x = rows fm b hb (SpecF.stepRow n) (SpecF.stepCol n (x 0)))
    ∧ (∀ x : S16.Idx, shapeCast S16 vw shapeCasts_S1x16_S16 x = rows fw b hb (SpecF.stepRow n) (SpecF.stepCol n (x 0)))
    ∧ (∀ a x, ((![broadcast S16 (rowWord n), shapeCast S16 vm shapeCasts_S1x16_S16] : Fin 2 → IVec S16 32) a x).toNat < S8x4096.size a) := by
  subst hvm hvw hoff
  have hrow : ∀ x : S16.Idx, ((broadcast S16 (rowWord n) : IVec S16 32) x).toNat = n / 8 := fun _ => rowWord_toNat ⟨n, hn⟩
  have hrd : ∀ {α : Type} (g : (⟨2, ![N, 128]⟩ : Shape).Idx → α) (x : S16.Idx),
      shapeCast S16 (fun y : S1x16.Idx => g ((Rect.unit (s := ⟨2, ![N, 128]⟩) ![8 * b + n / 8, 16 * (n % 8)] S1x16.size inb).toLoadRect.idx y)) shapeCasts_S1x16_S16 x
        = rows g b hb (SpecF.stepRow n) (SpecF.stepCol n (x 0)) := by
    intro α g x
    refine (shapeCast_dropUnit_apply ![16] _ _ x).trans ?_
    unfold rows
    congr 1
    funext a
    match a with
    | ⟨0, _⟩ => exact Fin.ext (Eq.trans rfl (show 8 * b + n / 8 = 8 * b + n / 8 % 8 by omega))
    | ⟨1, _⟩ => exact Fin.ext ((show _ = 16 * (n % 8) + 1 * (x 0).val from rfl).trans (by rw [Nat.one_mul]; rfl))
  refine ⟨hrow, hrd fm, hrd fw, fun a x => ?_⟩
  match a with
  | ⟨0, _⟩ => exact (lt_of_eq_of_lt (hrow x) (by omega) : ((broadcast S16 (rowWord n) : IVec S16 32) x).toNat < 8)
  | ⟨1, _⟩ => exact lt_of_eq_of_lt (congrArg BitVec.toNat (hrd fm x)) (hfm _)

section Wp

variable [FloatOps F] (d : Dev nD) (cC : Fin τ.nSC) (cJ : Fin τ.nSub)
variable {N : ℕ} (mW : Memref sig .scVector .vmem ⟨2, ![N, 128]⟩ .f32) (mM : Memref sig .scVector .vmem ⟨2, ![N, 128]⟩ .i32)
variable (base : Memref sig .scVector .vmem S8x4096 .f32) (up : Vec F S8x4096 .f32 → Buf (Elt F) (base.view.loc (V d cC cJ)))
variable (fw : Buf (Elt F) (mW.view.loc (V d cC cJ))) (fm : Buf (Elt F) (mM.view.loc (V d cC cJ)))

/-- The block held whole: every index is its own, reading gives the contents, storing gives the payload. -/
structure WholeBlk : Prop where
  set : (base.access (.whole S8x4096)).set = Finset.univ
  read : ∀ g, (base.access (.whole S8x4096)).read (Elt F) (up g) = g
  write : ∀ g w, (base.access (.whole S8x4096)).write (Elt F) (up g) w Finset.univ = up w

/-- What a scatter loop holds: its block at the contents g, the weight rows and the mask rows. -/
abbrev scatRes (g : Vec F S8x4096 .f32) : sProp 𝕄 :=
  iprop((base.view.loc (V d cC cJ) ↦{fullShare} up g) ∗ (mW.view.loc (V d cC cJ) ↦{fullShare} fw) ∗ (mM.view.loc (V d cC cJ) ↦{fullShare} fm))

/-- A counted loop of 64 trips whose trip k takes the block from g to step k g leaves the fold of the 64 steps. -/
theorem scat_loop (step : ℕ → Vec F S8x4096 .f32 → Vec F S8x4096 .f32) (fold : ℕ → Vec F S8x4096 .f32)
    (hfold : ∀ n, fold (n + 1) = step n (fold n))
    (lp : Scf.Loop 32) (ok : lp.OK) (htr : Scf.trips lp.lb lp.ub lp.st = 64)
    (body : Fin lp.trips → Unit → Prog (TpuEff nD τ sig (Elt F) Λ₀ (.scVector cC cJ)) Unit)
    (h : ∀ (k : Fin lp.trips), k.val < 64 → ∀ g : Vec F S8x4096 .f32, scatRes d cC cJ mW mM base up fw fm g
      ⊢ wp frame (wpE (defs₀ (F := F)) 𝒱₀ (V d cC cJ) none) Set.univ (body k ()) fun _ => scatRes d cC cJ mW mM base up fw fm (step k.val g)) :
    scatRes d cC cJ mW mM base up fw fm (fold 0)
      ⊢ wp frame (wpE (defs₀ (F := F)) 𝒱₀ (V d cC cJ) none) Set.univ (Scf.Loop.for lp ok () body) fun _ => scatRes d cC cJ mW mM base up fw fm (fold 64) := by
  refine BIBase.Entails.trans ?_ (Scf.wp_for frame (wpE (defs₀ (F := F)) 𝒱₀ (V d cC cJ) none) Set.univ lp.lb lp.ub lp.st ok () _
    (fun n _ => scatRes d cC cJ mW mM base up fw fm (fold n)) (fun k _ => by rw [hfold]; exact h k (htr ▸ k.isLt) _))
  iintro H
  isplitl [H]
  · iexact H
  · iintro %_ H
    rw [htr]
    iexact H

theorem scat_loopAdd (wr : Fin 8 → Fin 128 → Elt F .f32) (mr : Fin 8 → Fin 128 → BitVec 32) (blk : Vec F S8x4096 .f32)
    (lp : Scf.Loop 32) (ok : lp.OK) (htr : Scf.trips lp.lb lp.ub lp.st = 64)
    (body : Fin lp.trips → Unit → Prog (TpuEff nD τ sig (Elt F) Λ₀ (.scVector cC cJ)) Unit)
    (h : ∀ (k : Fin lp.trips), k.val < 64 → ∀ g : Vec F S8x4096 .f32, scatRes d cC cJ mW mM base up fw fm g
      ⊢ wp frame (wpE (defs₀ (F := F)) 𝒱₀ (V d cC cJ) none) Set.univ (body k ()) fun _ => scatRes d cC cJ mW mM base up fw fm (SpecF.stepAdd wr mr k.val g)) :
    scatRes d cC cJ mW mM base up fw fm blk
      ⊢ wp frame (wpE (defs₀ (F := F)) 𝒱₀ (V d cC cJ) none) Set.univ (Scf.Loop.for lp ok () body) fun _ => scatRes d cC cJ mW mM base up fw fm (SpecF.foldAdd wr mr 64 blk) :=
  scat_loop d cC cJ mW mM base up fw fm (SpecF.stepAdd wr mr) (fun n => SpecF.foldAdd wr mr n blk) (fun _ => rfl) lp ok htr body h

theorem scat_loopClr (z : Elt F .f32) (mr : Fin 8 → Fin 128 → BitVec 32) (blk : Vec F S8x4096 .f32)
    (lp : Scf.Loop 32) (ok : lp.OK) (htr : Scf.trips lp.lb lp.ub lp.st = 64)
    (body : Fin lp.trips → Unit → Prog (TpuEff nD τ sig (Elt F) Λ₀ (.scVector cC cJ)) Unit)
    (h : ∀ (k : Fin lp.trips), k.val < 64 → ∀ g : Vec F S8x4096 .f32, scatRes d cC cJ mW mM base up fw fm g
      ⊢ wp frame (wpE (defs₀ (F := F)) 𝒱₀ (V d cC cJ) none) Set.univ (body k ()) fun _ => scatRes d cC cJ mW mM base up fw fm (SpecF.stepClr z mr k.val g)) :
    scatRes d cC cJ mW mM base up fw fm blk
      ⊢ wp frame (wpE (defs₀ (F := F)) 𝒱₀ (V d cC cJ) none) Set.univ (Scf.Loop.for lp ok () body) fun _ => scatRes d cC cJ mW mM base up fw fm (SpecF.foldClr z mr 64 blk) :=
  scat_loop d cC cJ mW mM base up fw fm (SpecF.stepClr z mr) (fun n => SpecF.foldClr z mr n blk) (fun _ => rfl) lp ok htr body h

variable (fw' : (⟨2, ![N, 128]⟩ : Shape).Idx → Elt F .f32) (fm' : (⟨2, ![N, 128]⟩ : Shape).Idx → BitVec 32)
variable (hW : ∀ lr : LoadRect ⟨2, ![N, 128]⟩, mW.view.readAt (Elt F) lr fw = fun y => fw' (lr.idx y))
variable (hM : ∀ lr : LoadRect ⟨2, ![N, 128]⟩, mM.view.readAt (Elt F) lr fm = fun y => fm' (lr.idx y))
variable (hfm : ∀ j, (fm' j).toNat < 4096) (hB : WholeBlk d cC cJ base up) (b : ℕ) (hb : 8 * b + 8 ≤ N)

include hW hM hfm hB

/-- One accumulating trip is the accumulating step of the fold. -/
theorem tripAdd (n : ℕ) (hn : n < 64) (g : Vec F S8x4096 .f32) (off : Fin 2 → Nat) (inb : ∀ a, off a + S1x16.size a ≤ (⟨2, ![N, 128]⟩ : Shape).size a)
    (hoff : off = ![8 * b + n / 8, 16 * (n % 8)])
    {hlM : mM.view.LoadsAt (Rect.unit (s := ⟨2, ![N, 128]⟩) off S1x16.size inb).toLoadRect} {hlW : mW.view.LoadsAt (Rect.unit (s := ⟨2, ![N, 128]⟩) off S1x16.size inb).toLoadRect}
    (dec : ∀ a b : IVec S16 32, Decidable (∀ i x, ((![a, b] : Fin 2 → IVec S16 32) i x).toNat < S8x4096.size i))
    {hs : (base.access (.whole S8x4096)).Stores Finset.univ} :
    scatRes d cC cJ mW mM base up fw fm g
      ⊢ wp frame (wpE (defs₀ (F := F)) 𝒱₀ (V d cC cJ) none) Set.univ
          (Prog.op (.load mM (Rect.unit (s := ⟨2, ![N, 128]⟩) off S1x16.size inb).toLoadRect hlM) fun v =>
            Prog.op (.assume (∀ i x, ((![broadcast S16 (rowWord n), shapeCast S16 v shapeCasts_S1x16_S16] : Fin 2 → IVec S16 32) i x).toNat < S8x4096.size i) (dec _ _)) fun hw =>
              Prog.op (.load mW (Rect.unit (s := ⟨2, ![N, 128]⟩) off S1x16.size inb).toLoadRect hlW) fun w =>
                SparseCore.vectorStoreIdx base ![broadcast S16 (rowWord n), shapeCast S16 v shapeCasts_S1x16_S16] (shapeCast S16 w shapeCasts_S1x16_S16) (fun _ => 1#1) true hw.down hs >>= fun _ => Prog.ret ())
          fun _ => scatRes d cC cJ mW mM base up fw fm (SpecF.stepAdd (rows fw' b hb) (rows fm' b hb) n g) := by
  have ⟨hrow, hidx, hval, hchk⟩ := scat_facts fw' fm' hfm b hb n hn off inb hoff _ _
    (hM (Rect.unit (s := ⟨2, ![N, 128]⟩) off S1x16.size inb).toLoadRect) (hW (Rect.unit (s := ⟨2, ![N, 128]⟩) off S1x16.size inb).toLoadRect)
  iintro ⟨Hb, Hw, Hm⟩
  iapply (wp_load 𝒱₀ (V d cC cJ) none Set.univ (m := mM) (S := Finset.univ) (Finset.subset_univ _)) $$ Hm; iintro Hm
  rw [wp_assume_of _ _ _ _ hchk]
  iapply (wp_load 𝒱₀ (V d cC cJ) none Set.univ (m := mW) (S := Finset.univ) (Finset.subset_univ _)) $$ Hw; iintro Hw
  ihave Hb := (Entails.of_eq (show (base.view.loc (V d cC cJ) ↦{fullShare} up g : sProp 𝕄)
    = ((base.access (.whole S8x4096)).loc (V d cC cJ) ↦[(base.access (.whole S8x4096)).set]{fullShare} up g) by rw [hB.set])) $$ Hb
  iapply (SparseCore.wp_vectorStoreIdx 𝒱₀ (V d cC cJ) none Set.univ (base := base)) $$ Hb; iintro Hb
  rw [wp_ret]
  imodintro
  rw [hB.read, hB.write, hB.set, SpecF.storeIdx_eq_stepAdd (rows fw' b hb) (rows fm' b hb) n hn g _ _ _ _ hrow hidx hval]
  isplitl [Hb]; · iexact Hb
  isplitl [Hw]; · iexact Hw
  iexact Hm

/-- One overwriting trip is the overwriting step of the fold. -/
theorem tripClr (z : Elt F .f32) (n : ℕ) (hn : n < 64) (g : Vec F S8x4096 .f32) (off : Fin 2 → Nat) (inb : ∀ a, off a + S1x16.size a ≤ (⟨2, ![N, 128]⟩ : Shape).size a)
    (hoff : off = ![8 * b + n / 8, 16 * (n % 8)])
    {hlM : mM.view.LoadsAt (Rect.unit (s := ⟨2, ![N, 128]⟩) off S1x16.size inb).toLoadRect}
    (dec : ∀ a b : IVec S16 32, Decidable (∀ i x, ((![a, b] : Fin 2 → IVec S16 32) i x).toNat < S8x4096.size i))
    {hs : (base.access (.whole S8x4096)).Stores Finset.univ} :
    scatRes d cC cJ mW mM base up fw fm g
      ⊢ wp frame (wpE (defs₀ (F := F)) 𝒱₀ (V d cC cJ) none) Set.univ
          (Prog.op (.load mM (Rect.unit (s := ⟨2, ![N, 128]⟩) off S1x16.size inb).toLoadRect hlM) fun v =>
            Prog.op (.assume (∀ i x, ((![broadcast S16 (rowWord n), shapeCast S16 v shapeCasts_S1x16_S16] : Fin 2 → IVec S16 32) i x).toNat < S8x4096.size i) (dec _ _)) fun hw =>
              SparseCore.vectorStoreIdx base ![broadcast S16 (rowWord n), shapeCast S16 v shapeCasts_S1x16_S16] (fun _ => z) (fun _ => 1#1) false hw.down hs >>= fun _ => Prog.ret ())
          fun _ => scatRes d cC cJ mW mM base up fw fm (SpecF.stepClr z (rows fm' b hb) n g) := by
  have ⟨hrow, hidx, _, hchk⟩ := scat_facts fw' fm' hfm b hb n hn off inb hoff _ _
    (hM (Rect.unit (s := ⟨2, ![N, 128]⟩) off S1x16.size inb).toLoadRect) rfl
  iintro ⟨Hb, Hw, Hm⟩
  iapply (wp_load 𝒱₀ (V d cC cJ) none Set.univ (m := mM) (S := Finset.univ) (Finset.subset_univ _)) $$ Hm; iintro Hm
  rw [wp_assume_of _ _ _ _ hchk]
  ihave Hb := (Entails.of_eq (show (base.view.loc (V d cC cJ) ↦{fullShare} up g : sProp 𝕄)
    = ((base.access (.whole S8x4096)).loc (V d cC cJ) ↦[(base.access (.whole S8x4096)).set]{fullShare} up g) by rw [hB.set])) $$ Hb
  iapply (SparseCore.wp_vectorStoreIdx 𝒱₀ (V d cC cJ) none Set.univ (base := base)) $$ Hb; iintro Hb
  rw [wp_ret]
  imodintro
  rw [hB.read, hB.write, hB.set, SpecF.storeIdx_eq_stepClr z (rows fm' b hb) n hn g _ _ _ _ hrow hidx (fun _ => rfl)]
  isplitl [Hb]; · iexact Hb
  isplitl [Hw]; · iexact Hw
  iexact Hm

end Wp

end Cert.Proof.KB

end
-- ==== Proof.KB.Tile0Defs.lean ====
import proofs.«207445_g73023033966933_cont_9to1_m_863_36_alg».proof.Proof.KB.Common
import proofs.«207445_g73023033966933_cont_9to1_m_863_36_alg».proof.Proof.SpecF
import proofs.«207445_g73023033966933_cont_9to1_m_863_36_alg».proof.Proof.KB.Scatter

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "wV" => (Memref.whole Cert.Kernel.main_arg1_scv : Memref Cert.Kernel.sig Kind.scVector Space.hbm Cert.Kernel.S4096x128 EltTy.f32)
local notation "mV" => (Memref.whole Cert.Kernel.main_arg2_scv : Memref Cert.Kernel.sig Kind.scVector Space.hbm Cert.Kernel.S4096x128 EltTy.i32)
local notation "dV" => (Memref.whole Cert.Kernel.main_v1_scv : Memref Cert.Kernel.sig Kind.scVector Space.hbm Cert.Kernel.S1536x4096 EltTy.f32)
local notation "bA" => (Memref.whole Cert.Kernel.cc0_scratch0 : Memref Cert.Kernel.sig Kind.scVector Space.vmem Cert.Kernel.S8x4096 EltTy.f32)
local notation "bB" => (Memref.whole Cert.Kernel.cc0_scratch1 : Memref Cert.Kernel.sig Kind.scVector Space.vmem Cert.Kernel.S8x4096 EltTy.f32)
local notation "sW" => (Memref.whole Cert.Kernel.cc0_scratch2 : Memref Cert.Kernel.sig Kind.scVector Space.vmem Cert.Kernel.S48x128 EltTy.f32)
local notation "sM" => (Memref.whole Cert.Kernel.cc0_scratch3 : Memref Cert.Kernel.sig Kind.scVector Space.vmem Cert.Kernel.S48x128 EltTy.i32)

abbrev cV (L : grid0.Coords) : Fin τ.nSC := (L 0).castLE hcore0
abbrev jV (L : grid0.Coords) : Fin τ.nSub := (L 1).castLE hsub0

abbrev t0_wRows (L : grid0.Coords) : Memref sig .scVector .hbm S48x128 .f32 :=
  (wV).slice (Rect.unit (s := S4096x128) (k0_off1 L) S48x128.size (k0_off1_inb L)) (fun _ => rfl)
abbrev t0_mRows (L : grid0.Coords) : Memref sig .scVector .hbm S48x128 .i32 :=
  (mV).slice (Rect.unit (s := S4096x128) (k0_off1 L) S48x128.size (k0_off1_inb L)) (fun _ => rfl)

abbrev t0_piece0 (L : grid0.Coords) : Memref sig .scVector .hbm S8x4096 .f32 :=
  (dV).slice (Rect.unit (s := S1536x4096) (k0_off5 L 0#32) S8x4096.size (k0_off5_inb L 0)) (fun _ => rfl)
abbrev t0_piece1 (L : grid0.Coords) : Memref sig .scVector .hbm S8x4096 .f32 :=
  (dV).slice (Rect.unit (s := S1536x4096) (k0_off5 L 8#32) S8x4096.size (k0_off5_inb L 1)) (fun _ => rfl)
abbrev t0_piece2 (L : grid0.Coords) : Memref sig .scVector .hbm S8x4096 .f32 :=
  (dV).slice (Rect.unit (s := S1536x4096) (k0_off5 L 16#32) S8x4096.size (k0_off5_inb L 2)) (fun _ => rfl)
abbrev t0_piece3 (L : grid0.Coords) : Memref sig .scVector .hbm S8x4096 .f32 :=
  (dV).slice (Rect.unit (s := S1536x4096) (k0_off5 L 24#32) S8x4096.size (k0_off5_inb L 3)) (fun _ => rfl)
abbrev t0_piece4 (L : grid0.Coords) : Memref sig .scVector .hbm S8x4096 .f32 :=
  (dV).slice (Rect.unit (s := S1536x4096) (k0_off5 L 32#32) S8x4096.size (k0_off5_inb L 4)) (fun _ => rfl)
abbrev t0_piece5 (L : grid0.Coords) : Memref sig .scVector .hbm S8x4096 .f32 :=
  (dV).slice (Rect.unit (s := S1536x4096) (k0_off5 L 40#32) S8x4096.size (k0_off5_inb L 5)) (fun _ => rfl)

variable [FloatOps F]

def t0_z : Elt F .f32 := (Scalar.ofBits .f32 0x00000000#32 : F .f32)

def t0_wr (fw : Vec F S48x128 .f32) (sb : Fin 6) : Fin 8 → Fin 128 → Elt F .f32 :=
  fun r k => fw (ValueIdx.ix2 (⟨8 * sb.val + r.val, by have := sb.isLt; have := r.isLt; omega⟩ : Fin 48) k)
def t0_mr (fm : IVec S48x128 32) (sb : Fin 6) : Fin 8 → Fin 128 → BitVec 32 :=
  fun r k => fm (ValueIdx.ix2 (⟨8 * sb.val + r.val, by have := sb.isLt; have := r.isLt; omega⟩ : Fin 48) k)

def t0_blk (fw : Vec F S48x128 .f32) (fm : IVec S48x128 32) (sb : Fin 6) : Vec F S8x4096 .f32 :=
  SpecF.foldAdd (t0_wr fw sb) (t0_mr fm sb) 64 (fun _ => t0_z)

variable (m : (ℓ : Loc nD τ sig) → Buf (Elt F) ℓ)

def t0_fw (d : Dev nD) (L : grid0.Coords) : Vec F S48x128 .f32 := (t0_wRows L).view.read (Elt F) (m (wLoc d))
def t0_fm (d : Dev nD) (L : grid0.Coords) : IVec S48x128 32 := (t0_mRows L).view.read (Elt F) (m (mLoc d))

def t0_tail (i : grid0.Coords) (arg2 : Memref sig .scVector .hbm S4096x128 .f32) (harg2 : arg2.IsWhole) (arg3 : Memref sig .scVector .hbm S4096x128 .i32) (harg3 : arg3.IsWhole) (arg4 : Memref sig .scVector .hbm S1536x4096 .f32) (harg4 : arg4.IsWhole) (arg5 : Memref sig .scVector .vmem S8x4096 .f32) (harg5 : arg5.IsWhole) (arg6 : Memref sig .scVector .vmem S8x4096 .f32) (harg6 : arg6.IsWhole) (arg7 : Memref sig .scVector .vmem S48x128 .f32) (harg7 : arg7.IsWhole) (arg8 : Memref sig .scVector .vmem S48x128 .i32) (harg8 : arg8.IsWhole) (arg9 : DmaSems sig S_) (arg10 : DmaSems sig S_) (v65_r0 : DmaSems sig S_) (v65_r1 : DmaSems sig S_) (v4 : FVec F S16 .f32) :
    Prog (TpuEff nD τ sig (Elt F) Λ₀ (.scVector ((i 0).castLE hcore0) ((i 1).castLE hsub0))) PUnit := do
  let v50 : Memref sig .scVector .hbm S8x4096 .f32 := arg4.slice (Rect.unit (s := S1536x4096) (k0_off5 i 24#32) S8x4096.size (k0_off5_inb i 3)) (fun _ => rfl)
  Prog.lift (.waitDma2 arg10.sem arg6 v50 harg6.wordExact (View.wordExact_bits rfl))
  Scf.Loop.for k0_t13_loop k0_t13_ok ⟨⟩ (k0_t13_body i arg2 harg2 arg3 harg3 arg4 harg4 arg5 harg5 arg6 harg6 arg7 harg7 arg8 harg8 arg9 arg10 v65_r0 v65_r1 v4)
  Scf.Loop.for k0_t14_loop k0_t14_ok ⟨⟩ (k0_t14_body i arg2 harg2 arg3 harg3 arg4 harg4 arg5 harg5 arg6 harg6 arg7 harg7 arg8 harg8 arg9 arg10 v65_r0 v65_r1)
  let v56 : Memref sig .scVector .hbm S8x4096 .f32 := arg4.slice (Rect.unit (s := S1536x4096) (k0_off5 i 40#32) S8x4096.size (k0_off5_inb i 5)) (fun _ => rfl)
  Prog.lift (.enqueueDma arg6 (.here v56) (.dma arg10.sem) harg6.wordExact (View.wordExact_bits rfl) ⟨Or.inl rfl, trivial⟩)
  let v60 : Memref sig .scVector .hbm S8x4096 .f32 := arg4.slice (Rect.unit (s := S1536x4096) (k0_off5 i 32#32) S8x4096.size (k0_off5_inb i 4)) (fun _ => rfl)
  Prog.lift (.waitDma2 arg9.sem arg5 v60 harg5.wordExact (View.wordExact_bits rfl))
  let v64 : Memref sig .scVector .hbm S8x4096 .f32 := arg4.slice (Rect.unit (s := S1536x4096) (k0_off5 i 40#32) S8x4096.size (k0_off5_inb i 5)) (fun _ => rfl)
  Prog.lift (.waitDma2 arg10.sem arg6 v64 harg6.wordExact (View.wordExact_bits rfl))
  pure ⟨⟩

section Tile

variable (d : Dev nD) (L : grid0.Coords)

local notation "THR" => V d (cV L) (jV L)
local notation "WP" => wp frame (wpE (defs₀ (F := F)) 𝒱₀ (V d (cV L) (jV L)) none) Set.univ
local notation "AT[" f "]" => f L (wV) (Memref.isWhole_whole _) (mV) (Memref.isWhole_whole _) (dV) (Memref.isWhole_whole _) (bA) (Memref.isWhole_whole _) (bB) (Memref.isWhole_whole _) (sW) (Memref.isWhole_whole _) (sM) (Memref.isWhole_whole _) cc0_scratch4 cc0_scratch5 cc0_scoped0 cc0_scoped1

abbrev t0_cA : GSem nD τ sig := (V d (cV L) (jV L), .dma cc0_scratch4.sem)
abbrev t0_cB : GSem nD τ sig := (V d (cV L) (jV L), .dma cc0_scratch5.sem)
abbrev t0_cW : GSem nD τ sig := (V d (cV L) (jV L), .dma cc0_scoped0.sem)
abbrev t0_cM : GSem nD τ sig := (V d (cV L) (jV L), .dma cc0_scoped1.sem)

abbrev t0_own {sp : Space} {s : Shape} {e : EltTy} (M : Memref sig .scVector sp s e) (q : PosShare TreeShare)
    (f : Buf (Elt F) (M.view.loc (V d (cV L) (jV L)))) : sProp 𝕄 :=
  M.view.loc (V d (cV L) (jV L)) ↦[M.view.set]{q} f

abbrev t0_landed (P : Memref sig .scVector .hbm S8x4096 .f32) (B : Memref sig .scVector .vmem S8x4096 .f32)
    (g : Buf (Elt F) (P.view.loc (V d (cV L) (jV L)))) (blk : Buf (Elt F) (B.view.loc (V d (cV L) (jV L)))) :
    Buf (Elt F) (P.view.loc (V d (cV L) (jV L))) :=
  P.view.writes (Elt F) g [⟨Rect.whole S8x4096, ReadAs.same.apply (B.view.read (Elt F) blk)⟩]

abbrev t0_flight (sem : DmaSem sig) (P : Memref sig .scVector .hbm S8x4096 .f32) (B : Memref sig .scVector .vmem S8x4096 .f32)
    (g : Buf (Elt F) (P.view.loc (V d (cV L) (jV L)))) (blk : Buf (Elt F) (B.view.loc (V d (cV L) (jV L)))) : sProp 𝕄 :=
  Transfers.Flight (countersEmb (U := UU)) (V d (cV L) (jV L)) (SemLoc.dma sem) (default : HIx 2) 1048576
    iprop(t0_own d L P fullShare (t0_landed d L P B g blk) ∗ t0_own d L B fullShare blk)

def t0_fix (qw qm : PosShare TreeShare) (fw : Vec F S48x128 .f32) (fm : IVec S48x128 32) : sProp 𝕄 :=
  iprop(((wV).view.loc THR ↦{qw} m (wLoc d)) ∗ ((mV).view.loc THR ↦{qm} m (mLoc d))
    ∗ ((sW).view.loc THR ↦{fullShare} fw) ∗ ((sM).view.loc THR ↦{fullShare} fm)
    ∗ semVal (t0_cW d L) 0 ∗ semVal (t0_cM d L) 0)

theorem t0_seq {α β : Type} (p : Prog (TpuEff nD τ sig (Elt F) Λ₀ (.scVector (cV L) (jV L))) α)
    (k : α → Prog (TpuEff nD τ sig (Elt F) Λ₀ (.scVector (cV L) (jV L))) β) (P : sProp 𝕄) (Q : α → sProp 𝕄) (Φ : β → sProp 𝕄)
    (hp : P ⊢ WP p Q) : iprop(P ∗ (∀ a, Q a -∗ WP (k a) Φ)) ⊢ WP (p >>= k) Φ := by
  rw [wp_bind]
  exact (BI.sep_mono_l hp).trans (wp_wand_r frame _ _)

omit [FloatOps F] in

theorem t0_own_whole (b : Ref sig .scVector) (q : PosShare TreeShare) (f : Buf (Elt F) ((V d (cV L) (jV L)).loc b)) :
    ((Memref.whole b).view.loc THR ↦[(Memref.whole b).view.set]{q} f : sProp 𝕄) = ((Memref.whole b).view.loc THR ↦{q} f) := by
  simp only [Memref.view_whole, View.set_whole]

abbrev t0_rows (o : Fin 2 → Nat) (ho : ∀ a, o a + S8x4096.size a ≤ S1536x4096.size a) : Memref sig .scVector .hbm S8x4096 .f32 :=
  (dV).slice (Rect.unit (s := S1536x4096) o S8x4096.size ho) (fun _ => rfl)

omit [FloatOps F] in

theorem t0_land_eq (o : Fin 2 → Nat) (ho : ∀ a, o a + S8x4096.size a ≤ S1536x4096.size a)
    (g G : Buf (Elt F) (d0Loc d)) (w : S8x4096.Idx → Elt F .f32)
    (h : ∀ y, G ((t0_rows o ho).view.emb y) = w y) :
    (t0_own d L (t0_rows o ho) fullShare ((t0_rows o ho).view.writes (Elt F) g [⟨Rect.whole S8x4096, w⟩]) : sProp 𝕄)
      = t0_own d L (t0_rows o ho) fullShare G := by
  apply pointsTo_congr
  intro i hi
  obtain ⟨y, -, rfl⟩ := Finset.mem_map.mp hi
  have e := congrFun (View.write_univ_eq_writes_whole (Val := Elt F) (t0_rows o ho).view g [] w) ((t0_rows o ho).view.emb y)
  rw [View.writes_nil, View.write_emb_of_mem _ _ (Finset.mem_univ _)] at e
  exact e.symm.trans (by rw [h y]; rfl)

theorem t0_wholeA : WholeBlk (F := F) d (cV L) (jV L) (bA) (fun g => g) :=
  ⟨Memref.set_access_whole cc0_scratch0, Memref.read_access_whole (Elt F) cc0_scratch0, Memref.write_access_whole_univ (Elt F) cc0_scratch0⟩
theorem t0_wholeB : WholeBlk (F := F) d (cV L) (jV L) (bB) (fun g => g) :=
  ⟨Memref.set_access_whole cc0_scratch1, Memref.read_access_whole (Elt F) cc0_scratch1, Memref.write_access_whole_univ (Elt F) cc0_scratch1⟩

section Loops

variable (fw : Vec F S48x128 .f32) (fm : IVec S48x128 32)
variable (v1 : BitVec 32) (v4 : FVec F S16 .f32) (c0 : BitVec 32)

theorem t0_loop_t5 (hfm : ∀ i, (fm i).toNat < 4096) (blk : Vec F S8x4096 .f32) :
    (iprop(((bA).view.loc THR ↦{fullShare} blk) ∗ ((sW).view.loc THR ↦{fullShare} fw) ∗ ((sM).view.loc THR ↦{fullShare} fm)) : sProp 𝕄)
      ⊢ WP (Scf.Loop.for k0_t5_loop k0_t5_ok ⟨⟩ (AT[k0_t5_body])) fun _ => iprop(((bA).view.loc THR ↦{fullShare} SpecF.foldAdd (t0_wr fw 0) (t0_mr fm 0) 64 blk)
          ∗ ((sW).view.loc THR ↦{fullShare} fw) ∗ ((sM).view.loc THR ↦{fullShare} fm)) :=
  scat_loopAdd d _ _ (sW) (sM) (bA) (fun g => g) fw fm _ _ blk k0_t5_loop k0_t5_ok (by decide) _ fun k hk g => by
    unfold k0_t5_body k0_part1
    simp only [Prog.lift, Prog.bind_op, Prog.bind_ret, Prog.pure_eq_ret]
    exact tripAdd d _ _ (sW) (sM) (bA) (fun g => g) fw fm fw fm (fun _ => rfl) (fun _ => rfl) hfm (t0_wholeA d L) 0 (by decide) k.val hk g _ _ ((by decide +kernel : ∀ k : Fin k0_t5_loop.trips, k0_off4 k = ![8 * 0 + k.val / 8, 16 * (k.val % 8)]) k) k0_chk1.dec

theorem t0_loop_t6 (hfm : ∀ i, (fm i).toNat < 4096) (blk : Vec F S8x4096 .f32) :
    (iprop(((bB).view.loc THR ↦{fullShare} blk) ∗ ((sW).view.loc THR ↦{fullShare} fw) ∗ ((sM).view.loc THR ↦{fullShare} fm)) : sProp 𝕄)
      ⊢ WP (Scf.Loop.for k0_t6_loop k0_t6_ok ⟨⟩ (AT[k0_t6_body] v1 v4)) fun _ => iprop(((bB).view.loc THR ↦{fullShare} SpecF.foldAdd (t0_wr fw 1) (t0_mr fm 1) 64 blk)
          ∗ ((sW).view.loc THR ↦{fullShare} fw) ∗ ((sM).view.loc THR ↦{fullShare} fm)) :=
  scat_loopAdd d _ _ (sW) (sM) (bB) (fun g => g) fw fm _ _ blk k0_t6_loop k0_t6_ok (by decide) _ fun k hk g => by
    unfold k0_t6_body k0_part2
    simp only [Prog.lift, Prog.bind_op, Prog.bind_ret, Prog.pure_eq_ret]
    exact tripAdd d _ _ (sW) (sM) (bB) (fun g => g) fw fm fw fm (fun _ => rfl) (fun _ => rfl) hfm (t0_wholeB d L) 1 (by decide) k.val hk g _ _ ((by decide +kernel : ∀ k : Fin k0_t6_loop.trips, k0_off6 k = ![8 * 1 + k.val / 8, 16 * (k.val % 8)]) k) k0_chk2.dec

theorem t0_loop_t7 (hfm : ∀ i, (fm i).toNat < 4096) (blk : Vec F S8x4096 .f32) :
    (iprop(((bA).view.loc THR ↦{fullShare} blk) ∗ ((sW).view.loc THR ↦{fullShare} fw) ∗ ((sM).view.loc THR ↦{fullShare} fm)) : sProp 𝕄)
      ⊢ WP (Scf.Loop.for k0_t7_loop k0_t7_ok ⟨⟩ (AT[k0_t7_body] v1 (fun _ => t0_z))) fun _ => iprop(((bA).view.loc THR ↦{fullShare} SpecF.foldClr t0_z (t0_mr fm 0) 64 blk)
          ∗ ((sW).view.loc THR ↦{fullShare} fw) ∗ ((sM).view.loc THR ↦{fullShare} fm)) :=
  scat_loopClr d _ _ (sW) (sM) (bA) (fun g => g) fw fm _ _ blk k0_t7_loop k0_t7_ok (by decide) _ fun k hk g => by
    unfold k0_t7_body k0_part3
    simp only [Prog.lift, Prog.bind_op, Prog.bind_ret, Prog.pure_eq_ret]
    exact tripClr d _ _ (sW) (sM) (bA) (fun g => g) fw fm fw fm (fun _ => rfl) (fun _ => rfl) hfm (t0_wholeA d L) 0 (by decide) _ k.val hk g _ _ ((by decide +kernel : ∀ k : Fin k0_t7_loop.trips, k0_off7 k = ![8 * 0 + k.val / 8, 16 * (k.val % 8)]) k) k0_chk3.dec

theorem t0_loop_t8 (hfm : ∀ i, (fm i).toNat < 4096) (blk : Vec F S8x4096 .f32) :
    (iprop(((bA).view.loc THR ↦{fullShare} blk) ∗ ((sW).view.loc THR ↦{fullShare} fw) ∗ ((sM).view.loc THR ↦{fullShare} fm)) : sProp 𝕄)
      ⊢ WP (Scf.Loop.for k0_t8_loop k0_t8_ok ⟨⟩ (AT[k0_t8_body] v1 v4)) fun _ => iprop(((bA).view.loc THR ↦{fullShare} SpecF.foldAdd (t0_wr fw 2) (t0_mr fm 2) 64 blk)
          ∗ ((sW).view.loc THR ↦{fullShare} fw) ∗ ((sM).view.loc THR ↦{fullShare} fm)) :=
  scat_loopAdd d _ _ (sW) (sM) (bA) (fun g => g) fw fm _ _ blk k0_t8_loop k0_t8_ok (by decide) _ fun k hk g => by
    unfold k0_t8_body k0_part4
    simp only [Prog.lift, Prog.bind_op, Prog.bind_ret, Prog.pure_eq_ret]
    exact tripAdd d _ _ (sW) (sM) (bA) (fun g => g) fw fm fw fm (fun _ => rfl) (fun _ => rfl) hfm (t0_wholeA d L) 2 (by decide) k.val hk g _ _ ((by decide +kernel : ∀ k : Fin k0_t8_loop.trips, k0_off8 k = ![8 * 2 + k.val / 8, 16 * (k.val % 8)]) k) k0_chk4.dec

theorem t0_loop_t9 (hfm : ∀ i, (fm i).toNat < 4096) (blk : Vec F S8x4096 .f32) :
    (iprop(((bB).view.loc THR ↦{fullShare} blk) ∗ ((sW).view.loc THR ↦{fullShare} fw) ∗ ((sM).view.loc THR ↦{fullShare} fm)) : sProp 𝕄)
      ⊢ WP (Scf.Loop.for k0_t9_loop k0_t9_ok ⟨⟩ (AT[k0_t9_body] v1 (fun _ => t0_z) 0#32)) fun _ => iprop(((bB).view.loc THR ↦{fullShare} SpecF.foldClr t0_z (t0_mr fm 1) 64 blk)
          ∗ ((sW).view.loc THR ↦{fullShare} fw) ∗ ((sM).view.loc THR ↦{fullShare} fm)) :=
  scat_loopClr d _ _ (sW) (sM) (bB) (fun g => g) fw fm _ _ blk k0_t9_loop k0_t9_ok (by decide) _ fun k hk g => by
    unfold k0_t9_body k0_part5
    simp only [Prog.lift, Prog.bind_op, Prog.bind_ret, Prog.pure_eq_ret]
    exact tripClr d _ _ (sW) (sM) (bB) (fun g => g) fw fm fw fm (fun _ => rfl) (fun _ => rfl) hfm (t0_wholeB d L) 1 (by decide) _ k.val hk g _ _ ((by decide +kernel : ∀ k : Fin k0_t9_loop.trips, k0_off9 k = ![8 * 1 + k.val / 8, 16 * (k.val % 8)]) k) k0_chk5.dec

theorem t0_loop_t10 (hfm : ∀ i, (fm i).toNat < 4096) (blk : Vec F S8x4096 .f32) :
    (iprop(((bB).view.loc THR ↦{fullShare} blk) ∗ ((sW).view.loc THR ↦{fullShare} fw) ∗ ((sM).view.loc THR ↦{fullShare} fm)) : sProp 𝕄)
      ⊢ WP (Scf.Loop.for k0_t10_loop k0_t10_ok ⟨⟩ (AT[k0_t10_body] v1 v4 c0)) fun _ => iprop(((bB).view.loc THR ↦{fullShare} SpecF.foldAdd (t0_wr fw 3) (t0_mr fm 3) 64 blk)
          ∗ ((sW).view.loc THR ↦{fullShare} fw) ∗ ((sM).view.loc THR ↦{fullShare} fm)) :=
  scat_loopAdd d _ _ (sW) (sM) (bB) (fun g => g) fw fm _ _ blk k0_t10_loop k0_t10_ok (by decide) _ fun k hk g => by
    unfold k0_t10_body k0_part6
    simp only [Prog.lift, Prog.bind_op, Prog.bind_ret, Prog.pure_eq_ret]
    exact tripAdd d _ _ (sW) (sM) (bB) (fun g => g) fw fm fw fm (fun _ => rfl) (fun _ => rfl) hfm (t0_wholeB d L) 3 (by decide) k.val hk g _ _ ((by decide +kernel : ∀ k : Fin k0_t10_loop.trips, k0_off10 k = ![8 * 3 + k.val / 8, 16 * (k.val % 8)]) k) k0_chk6.dec

theorem t0_loop_t11 (hfm : ∀ i, (fm i).toNat < 4096) (blk : Vec F S8x4096 .f32) :
    (iprop(((bA).view.loc THR ↦{fullShare} blk) ∗ ((sW).view.loc THR ↦{fullShare} fw) ∗ ((sM).view.loc THR ↦{fullShare} fm)) : sProp 𝕄)
      ⊢ WP (Scf.Loop.for k0_t11_loop k0_t11_ok ⟨⟩ (AT[k0_t11_body] v1 (fun _ => t0_z) c0)) fun _ => iprop(((bA).view.loc THR ↦{fullShare} SpecF.foldClr t0_z (t0_mr fm 2) 64 blk)
          ∗ ((sW).view.loc THR ↦{fullShare} fw) ∗ ((sM).view.loc THR ↦{fullShare} fm)) :=
  scat_loopClr d _ _ (sW) (sM) (bA) (fun g => g) fw fm _ _ blk k0_t11_loop k0_t11_ok (by decide) _ fun k hk g => by
    unfold k0_t11_body k0_part7
    simp only [Prog.lift, Prog.bind_op, Prog.bind_ret, Prog.pure_eq_ret]
    exact tripClr d _ _ (sW) (sM) (bA) (fun g => g) fw fm fw fm (fun _ => rfl) (fun _ => rfl) hfm (t0_wholeA d L) 2 (by decide) _ k.val hk g _ _ ((by decide +kernel : ∀ k : Fin k0_t11_loop.trips, k0_off11 k = ![8 * 2 + k.val / 8, 16 * (k.val % 8)]) k) k0_chk7.dec

theorem t0_loop_t12 (hfm : ∀ i, (fm i).toNat < 4096) (blk : Vec F S8x4096 .f32) :
    (iprop(((bA).view.loc THR ↦{fullShare} blk) ∗ ((sW).view.loc THR ↦{fullShare} fw) ∗ ((sM).view.loc THR ↦{fullShare} fm)) : sProp 𝕄)
      ⊢ WP (Scf.Loop.for k0_t12_loop k0_t12_ok ⟨⟩ (AT[k0_t12_body] v1 v4 c0)) fun _ => iprop(((bA).view.loc THR ↦{fullShare} SpecF.foldAdd (t0_wr fw 4) (t0_mr fm 4) 64 blk)
          ∗ ((sW).view.loc THR ↦{fullShare} fw) ∗ ((sM).view.loc THR ↦{fullShare} fm)) :=
  scat_loopAdd d _ _ (sW) (sM) (bA) (fun g => g) fw fm _ _ blk k0_t12_loop k0_t12_ok (by decide) _ fun k hk g => by
    unfold k0_t12_body k0_part8
    simp only [Prog.lift, Prog.bind_op, Prog.bind_ret, Prog.pure_eq_ret]
    exact tripAdd d _ _ (sW) (sM) (bA) (fun g => g) fw fm fw fm (fun _ => rfl) (fun _ => rfl) hfm (t0_wholeA d L) 4 (by decide) k.val hk g _ _ ((by decide +kernel : ∀ k : Fin k0_t12_loop.trips, k0_off12 k = ![8 * 4 + k.val / 8, 16 * (k.val % 8)]) k) k0_chk8.dec

theorem t0_loop_t13 (hfm : ∀ i, (fm i).toNat < 4096) (blk : Vec F S8x4096 .f32) :
    (iprop(((bB).view.loc THR ↦{fullShare} blk) ∗ ((sW).view.loc THR ↦{fullShare} fw) ∗ ((sM).view.loc THR ↦{fullShare} fm)) : sProp 𝕄)
      ⊢ WP (Scf.Loop.for k0_t13_loop k0_t13_ok ⟨⟩ (AT[k0_t13_body] (fun _ => t0_z))) fun _ => iprop(((bB).view.loc THR ↦{fullShare} SpecF.foldClr t0_z (t0_mr fm 3) 64 blk)
          ∗ ((sW).view.loc THR ↦{fullShare} fw) ∗ ((sM).view.loc THR ↦{fullShare} fm)) :=
  scat_loopClr d _ _ (sW) (sM) (bB) (fun g => g) fw fm _ _ blk k0_t13_loop k0_t13_ok (by decide) _ fun k hk g => by
    unfold k0_t13_body k0_part9
    simp only [Prog.lift, Prog.bind_op, Prog.bind_ret, Prog.pure_eq_ret]
    exact tripClr d _ _ (sW) (sM) (bB) (fun g => g) fw fm fw fm (fun _ => rfl) (fun _ => rfl) hfm (t0_wholeB d L) 3 (by decide) _ k.val hk g _ _ ((by decide +kernel : ∀ k : Fin k0_t13_loop.trips, k0_off13 k = ![8 * 3 + k.val / 8, 16 * (k.val % 8)]) k) k0_chk9.dec

theorem t0_loop_t14 (hfm : ∀ i, (fm i).toNat < 4096) (blk : Vec F S8x4096 .f32) :
    (iprop(((bB).view.loc THR ↦{fullShare} blk) ∗ ((sW).view.loc THR ↦{fullShare} fw) ∗ ((sM).view.loc THR ↦{fullShare} fm)) : sProp 𝕄)
      ⊢ WP (Scf.Loop.for k0_t14_loop k0_t14_ok ⟨⟩ (AT[k0_t14_body])) fun _ => iprop(((bB).view.loc THR ↦{fullShare} SpecF.foldAdd (t0_wr fw 5) (t0_mr fm 5) 64 blk)
          ∗ ((sW).view.loc THR ↦{fullShare} fw) ∗ ((sM).view.loc THR ↦{fullShare} fm)) :=
  scat_loopAdd d _ _ (sW) (sM) (bB) (fun g => g) fw fm _ _ blk k0_t14_loop k0_t14_ok (by decide) _ fun k hk g => by
    unfold k0_t14_body k0_part10
    simp only [Prog.lift, Prog.bind_op, Prog.bind_ret, Prog.pure_eq_ret]
    exact tripAdd d _ _ (sW) (sM) (bB) (fun g => g) fw fm fw fm (fun _ => rfl) (fun _ => rfl) hfm (t0_wholeB d L) 5 (by decide) k.val hk g _ _ ((by decide +kernel : ∀ k : Fin k0_t14_loop.trips, k0_off14 k = ![8 * 5 + k.val / 8, 16 * (k.val % 8)]) k) k0_chk10.dec

end Loops

def t0_GOK (fw : Vec F S48x128 .f32) (fm : IVec S48x128 32) (G0 : Buf (Elt F) (d0Loc d)) : Prop :=
  (∀ j, G0 ((t0_piece0 L).view.emb j) = t0_blk fw fm 0 j) ∧ (∀ j, G0 ((t0_piece1 L).view.emb j) = t0_blk fw fm 1 j)
  ∧ (∀ j, G0 ((t0_piece2 L).view.emb j) = t0_blk fw fm 2 j) ∧ (∀ j, G0 ((t0_piece3 L).view.emb j) = t0_blk fw fm 3 j)
  ∧ (∀ j, G0 ((t0_piece4 L).view.emb j) = t0_blk fw fm 4 j) ∧ (∀ j, G0 ((t0_piece5 L).view.emb j) = t0_blk fw fm 5 j)

theorem t0_root_eq :
    AT[cc0_densify_chunk0_skel (F := F)]
      = (AT[k0_part11] >>= fun r => AT[k0_part12] r.1 r.2 >>= fun c0 => AT[k0_part13] r.1 r.2 c0 >>= fun _ => AT[t0_tail] r.2) := by
  rfl

def T0Part11 : Prop :=
  ∀ (O : CellTallies nD τ sig (HIx 2)) (qw qm : PosShare TreeShare)
    (hpre : PreOK m) (hO : ∀ g, O g none = 0) (W : Waits sig (HIx 2)) (Φ : (Σ' (_ : BitVec 32), FVec F S16 .f32) → sProp 𝕄),
    iprop(levAts (K (F := F)).L (K (F := F)).lev
        ∗ ((wV).view.loc THR ↦{qw} m (wLoc d)) ∗ ((mV).view.loc THR ↦{qm} m (mLoc d))
        ∗ (∃ f, (bA).view.loc THR ↦{fullShare} f) ∗ (∃ f, (bB).view.loc THR ↦{fullShare} f)
        ∗ (∃ f, (sW).view.loc THR ↦{fullShare} f) ∗ (∃ f, (sM).view.loc THR ↦{fullShare} f)
        ∗ semVal (t0_cW d L) 0 ∗ semVal (t0_cM d L) 0 ∗ owes THR O W
        ∗ (∀ W', ⌜∀ p ∈ W', p ∈ W ∨ p.2 = none⌝ -∗ t0_fix m d L qw qm (t0_fw m d L) (t0_fm m d L)
            ∗ ((bA).view.loc THR ↦{fullShare} t0_blk (t0_fw m d L) (t0_fm m d L) 0) ∗ ((bB).view.loc THR ↦{fullShare} (fun _ => t0_z))
            ∗ owes THR O W' -∗ Φ ⟨Scalar.addi (Scalar.muli (BitVec.ofNat 32 (L 1).val) 2#32) (BitVec.ofNat 32 (L 0).val), k0_pay2⟩))
      ⊢ WP (AT[k0_part11]) Φ

def T0Part12 : Prop :=
  ∀ (O : CellTallies nD τ sig (HIx 2)) (qw qm : PosShare TreeShare)
    (fw : Vec F S48x128 .f32) (fm : IVec S48x128 32) (G0 : Buf (Elt F) (d0Loc d))
    (hO : ∀ g, O g none = 0) (hfm : ∀ i, (fm i).toNat < 4096) (hG : t0_GOK d L fw fm G0) (W : Waits sig (HIx 2)) (v1 : BitVec 32)
    (g0 : Buf (Elt F) ((t0_piece0 L).view.loc THR)) (g1 : Buf (Elt F) ((t0_piece1 L).view.loc THR)) (g2 : Buf (Elt F) ((t0_piece2 L).view.loc THR))
    (Φ : BitVec 32 → sProp 𝕄),
    iprop(levAts (K (F := F)).L (K (F := F)).lev ∗ t0_fix m d L qw qm fw fm
        ∗ ((bA).view.loc THR ↦{fullShare} t0_blk fw fm 0) ∗ ((bB).view.loc THR ↦{fullShare} (fun _ => t0_z))
        ∗ semVal (t0_cA d L) 0 ∗ semVal (t0_cB d L) 0
        ∗ t0_own d L (t0_piece0 L) fullShare g0 ∗ t0_own d L (t0_piece1 L) fullShare g1 ∗ t0_own d L (t0_piece2 L) fullShare g2
        ∗ owes THR O W
        ∗ (∀ W', ⌜∀ p ∈ W', p ∈ W ∨ p.2 = none⌝ -∗ t0_fix m d L qw qm fw fm
            ∗ t0_own d L (t0_piece0 L) fullShare G0 ∗ t0_own d L (t0_piece1 L) fullShare G0
            ∗ t0_flight d L cc0_scratch4.sem (t0_piece2 L) (bA) g2 (t0_blk fw fm 2)
            ∗ ((bB).view.loc THR ↦{fullShare} t0_blk fw fm 1) ∗ semVal (t0_cB d L) 0
            ∗ owes THR O W' -∗ Φ 0#32))
      ⊢ WP (AT[k0_part12] v1 (fun _ => t0_z)) Φ

def T0Part13 : Prop :=
  ∀ (O : CellTallies nD τ sig (HIx 2)) (qw qm : PosShare TreeShare)
    (fw : Vec F S48x128 .f32) (fm : IVec S48x128 32) (G0 : Buf (Elt F) (d0Loc d))
    (hO : ∀ g, O g none = 0) (hfm : ∀ i, (fm i).toNat < 4096) (hG : t0_GOK d L fw fm G0) (W : Waits sig (HIx 2)) (v1 : BitVec 32)
    (g2 : Buf (Elt F) ((t0_piece2 L).view.loc THR)) (g3 : Buf (Elt F) ((t0_piece3 L).view.loc THR)) (g4 : Buf (Elt F) ((t0_piece4 L).view.loc THR))
    (Φ : PUnit → sProp 𝕄),
    iprop(levAts (K (F := F)).L (K (F := F)).lev ∗ t0_fix m d L qw qm fw fm
        ∗ t0_flight d L cc0_scratch4.sem (t0_piece2 L) (bA) g2 (t0_blk fw fm 2)
        ∗ ((bB).view.loc THR ↦{fullShare} t0_blk fw fm 1) ∗ semVal (t0_cB d L) 0
        ∗ t0_own d L (t0_piece3 L) fullShare g3 ∗ t0_own d L (t0_piece4 L) fullShare g4
        ∗ owes THR O W
        ∗ (∀ W', ⌜∀ p ∈ W', p ∈ W ∨ p.2 = none⌝ -∗ t0_fix m d L qw qm fw fm
            ∗ t0_own d L (t0_piece2 L) fullShare G0
            ∗ t0_flight d L cc0_scratch5.sem (t0_piece3 L) (bB) g3 (t0_blk fw fm 3)
            ∗ t0_flight d L cc0_scratch4.sem (t0_piece4 L) (bA) g4 (t0_blk fw fm 4)
            ∗ owes THR O W' -∗ Φ ⟨⟩))
      ⊢ WP (AT[k0_part13] v1 (fun _ => t0_z) 0#32) Φ

def T0Tail : Prop :=
  ∀ (O : CellTallies nD τ sig (HIx 2)) (qw qm : PosShare TreeShare)
    (fw : Vec F S48x128 .f32) (fm : IVec S48x128 32) (G0 : Buf (Elt F) (d0Loc d))
    (hO : ∀ g, O g none = 0) (hfm : ∀ i, (fm i).toNat < 4096) (hG : t0_GOK d L fw fm G0) (W : Waits sig (HIx 2))
    (g3 : Buf (Elt F) ((t0_piece3 L).view.loc THR)) (g4 : Buf (Elt F) ((t0_piece4 L).view.loc THR)) (g5 : Buf (Elt F) ((t0_piece5 L).view.loc THR))
    (Φ : PUnit → sProp 𝕄),
    iprop(levAts (K (F := F)).L (K (F := F)).lev ∗ t0_fix m d L qw qm fw fm
        ∗ t0_flight d L cc0_scratch5.sem (t0_piece3 L) (bB) g3 (t0_blk fw fm 3)
        ∗ t0_flight d L cc0_scratch4.sem (t0_piece4 L) (bA) g4 (t0_blk fw fm 4)
        ∗ t0_own d L (t0_piece5 L) fullShare g5
        ∗ owes THR O W
        ∗ (∀ W', ⌜∀ p ∈ W', p ∈ W ∨ p.2 = none⌝ -∗ t0_fix m d L qw qm fw fm
            ∗ t0_own d L (t0_piece3 L) fullShare G0 ∗ t0_own d L (t0_piece4 L) fullShare G0 ∗ t0_own d L (t0_piece5 L) fullShare G0
            ∗ (∃ f, (bA).view.loc THR ↦{fullShare} f) ∗ (∃ f, (bB).view.loc THR ↦{fullShare} f)
            ∗ semVal (t0_cA d L) 0 ∗ semVal (t0_cB d L) 0
            ∗ owes THR O W' -∗ Φ ⟨⟩))
      ⊢ WP (AT[t0_tail] (fun _ => t0_z)) Φ

end Tile

end Cert.Proof.KB

end
-- ==== Proof.KB.PieceValue.lean ====
import proofs.«207445_g73023033966933_cont_9to1_m_863_36_alg».proof.Proof.KB.Pay

noncomputable section

namespace Cert.Proof.KB

open Cert.Kernel Cert.Kernel.Gen

open Idealize.ShloMosaic
open Idealize.ShloMosaic.SparseCore (S V T)
open Idealize.ShloMosaic.ValueIdx

variable {F : FTy → Type} [FloatOps F]
variable (m : (ℓ : Loc nD τ sig) → Buf (Elt F) ℓ)

theorem row0_lt (L : grid0.Coords) (r : Fin 6) (a : Fin 8) :
    96 * (L 1).val + 48 * (L 0).val + 8 * r.val + a.val < 4096 := by
  have h1 : (L 1).val < 16 := (L 1).isLt
  have h0 : (L 0).val < 2 := (L 0).isLt
  have := r.isLt; have := a.isLt
  omega

theorem tileRow0_lt (L : grid0.Coords) (a : Fin 48) : 96 * (L 1).val + 48 * (L 0).val + a.val < 4096 := by
  have h1 : (L 1).val < 16 := (L 1).isLt
  have h0 : (L 0).val < 2 := (L 0).isLt
  have := a.isLt
  omega

theorem pieceM0_emb_row (L : grid0.Coords) (r : Fin 6) (y : S8x4096.Idx) :
    (((pieceM0 L r).view.emb y) 0).val = 96 * (L 1).val + 48 * (L 0).val + 8 * r.val + (y 0).val := by
  show (k0_off5 L (BitVec.ofNat 32 (8 * r.val))) 0 + 1 * (y 0).val = _
  rw [Gen.k0_off5_eq]
  show 96 * (L 1).val + 48 * (L 0).val + 8 * r.val + 1 * (y 0).val = _
  omega

theorem pieceM0_emb_col (L : grid0.Coords) (r : Fin 6) (y : S8x4096.Idx) :
    (((pieceM0 L r).view.emb y) 1).val = (y 1).val := by
  show (k0_off5 L (BitVec.ofNat 32 (8 * r.val))) 1 + 1 * (y 1).val = _
  rw [Gen.k0_off5_eq]
  show 0 + 1 * (y 1).val = _
  omega

theorem dense0_piece (d : Dev nD) (L : grid0.Coords) (r : Fin 6)
    (wr : Fin 8 → Fin 128 → Elt F .f32) (mr : Fin 8 → Fin 128 → BitVec 32)
    (hwr : ∀ (a : Fin 8) (k : Fin 128), wr a k = (m (wLoc d) : Vec F S4096x128 .f32) (ix2 ⟨_, row0_lt L r a⟩ k))
    (hmr : ∀ (a : Fin 8) (k : Fin 128), mr a k = (m (mLoc d) : IVec S4096x128 32) (ix2 ⟨_, row0_lt L r a⟩ k))
    (y : S8x4096.Idx) :
    dense0 m d ((pieceM0 L r).view.emb y) = SpecF.foldAdd wr mr 64 (fun _ => zeroF) y := by
  have h0 := pieceM0_emb_row L r y
  have h1 := pieceM0_emb_col L r y
  generalize (pieceM0 L r).view.emb y = i at h0 h1
  have hL1 : (L 1).val < 16 := (L 1).isLt
  have hL0 : (L 0).val < 2 := (L 0).isLt
  have hr := r.isLt
  have hy0 : (y 0).val < 8 := (y 0).isLt
  have hy1 : (y 1).val < 4096 := (y 1).isLt
  have hb : 8 * ((i 0).val % 4096 / 8) = 96 * (L 1).val + 48 * (L 0).val + 8 * r.val := by omega
  show SpecF.foldAdd (DenseF.rowsW (m (wLoc d)) (8 * ((i 0).val % 4096 / 8))) (DenseF.rowsM (m (mLoc d)) (8 * ((i 0).val % 4096 / 8))) 64
      (fun _ => zeroF) (ix2 ⟨(i 0).val % 4096 % 8, Nat.mod_lt _ (by decide)⟩ ⟨(i 1).val % 4096, Nat.mod_lt _ (by decide)⟩) = _
  rw [hb]
  have hW : DenseF.rowsW (m (wLoc d)) (96 * (L 1).val + 48 * (L 0).val + 8 * r.val) = wr := by
    funext a k
    rw [hwr a k]
    have hx : (⟨(96 * (L 1).val + 48 * (L 0).val + 8 * r.val + a.val) % 4096, Nat.mod_lt _ (by decide)⟩ : Fin 4096)
        = ⟨96 * (L 1).val + 48 * (L 0).val + 8 * r.val + a.val, row0_lt L r a⟩ :=
      Fin.ext (Nat.mod_eq_of_lt (row0_lt L r a))
    show (m (wLoc d) : Vec F S4096x128 .f32) (ix2 ⟨(96 * (L 1).val + 48 * (L 0).val + 8 * r.val + a.val) % 4096, _⟩ k) = _
    rw [hx]
  have hM : DenseF.rowsM (m (mLoc d)) (96 * (L 1).val + 48 * (L 0).val + 8 * r.val) = mr := by
    funext a k
    rw [hmr a k]
    have hx : (⟨(96 * (L 1).val + 48 * (L 0).val + 8 * r.val + a.val) % 4096, Nat.mod_lt _ (by decide)⟩ : Fin 4096)
        = ⟨96 * (L 1).val + 48 * (L 0).val + 8 * r.val + a.val, row0_lt L r a⟩ :=
      Fin.ext (Nat.mod_eq_of_lt (row0_lt L r a))
    show (m (mLoc d) : IVec S4096x128 32) (ix2 ⟨(96 * (L 1).val + 48 * (L 0).val + 8 * r.val + a.val) % 4096, _⟩ k) = _
    rw [hx]
  have hy : (ix2 (⟨(i 0).val % 4096 % 8, Nat.mod_lt _ (by decide)⟩ : Fin 8) (⟨(i 1).val % 4096, Nat.mod_lt _ (by decide)⟩ : Fin 4096)
      : S8x4096.Idx) = y := by
    funext b
    match b with
    | ⟨0, _⟩ => exact Fin.ext (show (i 0).val % 4096 % 8 = (y 0).val by omega)
    | ⟨1, _⟩ => exact Fin.ext (show (i 1).val % 4096 = (y 1).val by omega)
  rw [hW, hM, hy]

theorem dense0_piece_scratch (d : Dev nD) (L : grid0.Coords) (r : Fin 6)
    (fw : Vec F S48x128 .f32) (fm : IVec S48x128 32)
    (hfw : ∀ (a : Fin 48) (k : Fin 128), fw (ix2 a k) = (m (wLoc d) : Vec F S4096x128 .f32) (ix2 ⟨_, tileRow0_lt L a⟩ k))
    (hfm : ∀ (a : Fin 48) (k : Fin 128), fm (ix2 a k) = (m (mLoc d) : IVec S4096x128 32) (ix2 ⟨_, tileRow0_lt L a⟩ k))
    (y : S8x4096.Idx) :
    dense0 m d ((pieceM0 L r).view.emb y)
      = SpecF.foldAdd (fun a k => fw (ix2 (⟨8 * r.val + a.val, by have := r.isLt; have := a.isLt; omega⟩ : Fin 48) k))
          (fun a k => fm (ix2 (⟨8 * r.val + a.val, by have := r.isLt; have := a.isLt; omega⟩ : Fin 48) k)) 64 (fun _ => zeroF) y := by
  apply dense0_piece m d L r
  · intro a k
    show fw (ix2 _ k) = _
    rw [hfw]
    congr 2
    apply Fin.ext
    show 96 * (L 1).val + 48 * (L 0).val + (8 * r.val + a.val) = 96 * (L 1).val + 48 * (L 0).val + 8 * r.val + a.val
    omega
  · intro a k
    show fm (ix2 _ k) = _
    rw [hfm]
    congr 2
    apply Fin.ext
    show 96 * (L 1).val + 48 * (L 0).val + (8 * r.val + a.val) = 96 * (L 1).val + 48 * (L 0).val + 8 * r.val + a.val
    omega

theorem wRows0_read (d : Dev nD) (L : grid0.Coords) (a : Fin 48) (k : Fin 128) :
    ((Memref.whole main_arg1_scv : Memref sig .scVector .hbm S4096x128 .f32).slice
        (Rect.unit (s := S4096x128) (k0_off1 L) S48x128.size (Gen.k0_off1_inb L)) (fun _ => rfl)).view.read (Elt F) (m (wLoc d)) (ix2 a k)
      = (m (wLoc d) : Vec F S4096x128 .f32) (ix2 ⟨_, tileRow0_lt L a⟩ k) := by
  rw [View.read_apply]
  show (m (wLoc d) : Vec F S4096x128 .f32) _ = _
  congr 1
  funext b
  match b with
  | ⟨0, _⟩ =>
    apply Fin.ext
    show (k0_off1 L) 0 + 1 * a.val = 96 * (L 1).val + 48 * (L 0).val + a.val
    rw [Gen.k0_off1_eq]
    show 96 * (L 1).val + 48 * (L 0).val + 1 * a.val = _
    omega
  | ⟨1, _⟩ =>
    apply Fin.ext
    show (k0_off1 L) 1 + 1 * k.val = k.val
    rw [Gen.k0_off1_eq]
    show 0 + 1 * k.val = _
    omega

theorem mRows0_read (d : Dev nD) (L : grid0.Coords) (a : Fin 48) (k : Fin 128) :
    ((Memref.whole main_arg2_scv : Memref sig .scVector .hbm S4096x128 .i32).slice
        (Rect.unit (s := S4096x128) (k0_off1 L) S48x128.size (Gen.k0_off1_inb L)) (fun _ => rfl)).view.read (Elt F) (m (mLoc d)) (ix2 a k)
      = (m (mLoc d) : IVec S4096x128 32) (ix2 ⟨_, tileRow0_lt L a⟩ k) := by
  rw [View.read_apply]
  show (m (mLoc d) : IVec S4096x128 32) _ = _
  congr 1
  funext b
  match b with
  | ⟨0, _⟩ =>
    apply Fin.ext
    show (k0_off1 L) 0 + 1 * a.val = 96 * (L 1).val + 48 * (L 0).val + a.val
    rw [Gen.k0_off1_eq]
    show 96 * (L 1).val + 48 * (L 0).val + 1 * a.val = _
    omega
  | ⟨1, _⟩ =>
    apply Fin.ext
    show (k0_off1 L) 1 + 1 * k.val = k.val
    rw [Gen.k0_off1_eq]
    show 0 + 1 * k.val = _
    omega

theorem row1_lt (L : grid2.Coords) (r : Fin 10) (a : Fin 8) :
    160 * (L 1).val + 80 * (L 0).val + 1536 + 8 * r.val + a.val < 4096 := by
  have h1 : (L 1).val < 16 := (L 1).isLt
  have h0 : (L 0).val < 2 := (L 0).isLt
  have := r.isLt; have := a.isLt
  omega

theorem tileRow1_lt (L : grid2.Coords) (a : Fin 80) : 160 * (L 1).val + 80 * (L 0).val + 1536 + a.val < 4096 := by
  have h1 : (L 1).val < 16 := (L 1).isLt
  have h0 : (L 0).val < 2 := (L 0).isLt
  have := a.isLt
  omega

theorem pieceM1_emb_row (L : grid2.Coords) (r : Fin 10) (y : S8x4096.Idx) :
    (((pieceM1 L r).view.emb y) 0).val = 160 * (L 1).val + 80 * (L 0).val + 8 * r.val + (y 0).val := by
  show (k2_off5 L (BitVec.ofNat 32 (8 * r.val))) 0 + 1 * (y 0).val = _
  rw [Gen.k2_off5_eq]
  show 160 * (L 1).val + 80 * (L 0).val + 8 * r.val + 1 * (y 0).val = _
  omega

theorem pieceM1_emb_col (L : grid2.Coords) (r : Fin 10) (y : S8x4096.Idx) :
    (((pieceM1 L r).view.emb y) 1).val = (y 1).val := by
  show (k2_off5 L (BitVec.ofNat 32 (8 * r.val))) 1 + 1 * (y 1).val = _
  rw [Gen.k2_off5_eq]
  show 0 + 1 * (y 1).val = _
  omega

theorem dense1_piece (d : Dev nD) (L : grid2.Coords) (r : Fin 10)
    (wr : Fin 8 → Fin 128 → Elt F .f32) (mr : Fin 8 → Fin 128 → BitVec 32)
    (hwr : ∀ (a : Fin 8) (k : Fin 128), wr a k = (m (wLoc d) : Vec F S4096x128 .f32) (ix2 ⟨_, row1_lt L r a⟩ k))
    (hmr : ∀ (a : Fin 8) (k : Fin 128), mr a k = (m (mLoc d) : IVec S4096x128 32) (ix2 ⟨_, row1_lt L r a⟩ k))
    (y : S8x4096.Idx) :
    dense1 m d ((pieceM1 L r).view.emb y) = SpecF.foldAdd wr mr 64 (fun _ => zeroF) y := by
  have h0 := pieceM1_emb_row L r y
  have h1 := pieceM1_emb_col L r y
  generalize (pieceM1 L r).view.emb y = i at h0 h1
  have hL1 : (L 1).val < 16 := (L 1).isLt
  have hL0 : (L 0).val < 2 := (L 0).isLt
  have hr := r.isLt
  have hy0 : (y 0).val < 8 := (y 0).isLt
  have hy1 : (y 1).val < 4096 := (y 1).isLt
  have hb : 8 * ((1536 + (i 0).val) % 4096 / 8) = 160 * (L 1).val + 80 * (L 0).val + 1536 + 8 * r.val := by omega
  show SpecF.foldAdd (DenseF.rowsW (m (wLoc d)) (8 * ((1536 + (i 0).val) % 4096 / 8))) (DenseF.rowsM (m (mLoc d)) (8 * ((1536 + (i 0).val) % 4096 / 8))) 64
      (fun _ => zeroF) (ix2 ⟨(1536 + (i 0).val) % 4096 % 8, Nat.mod_lt _ (by decide)⟩ ⟨(i 1).val % 4096, Nat.mod_lt _ (by decide)⟩) = _
  rw [hb]
  have hW : DenseF.rowsW (m (wLoc d)) (160 * (L 1).val + 80 * (L 0).val + 1536 + 8 * r.val) = wr := by
    funext a k
    rw [hwr a k]
    have hx : (⟨(160 * (L 1).val + 80 * (L 0).val + 1536 + 8 * r.val + a.val) % 4096, Nat.mod_lt _ (by decide)⟩ : Fin 4096)
        = ⟨160 * (L 1).val + 80 * (L 0).val + 1536 + 8 * r.val + a.val, row1_lt L r a⟩ :=
      Fin.ext (Nat.mod_eq_of_lt (row1_lt L r a))
    show (m (wLoc d) : Vec F S4096x128 .f32) (ix2 ⟨(160 * (L 1).val + 80 * (L 0).val + 1536 + 8 * r.val + a.val) % 4096, _⟩ k) = _
    rw [hx]
  have hM : DenseF.rowsM (m (mLoc d)) (160 * (L 1).val + 80 * (L 0).val + 1536 + 8 * r.val) = mr := by
    funext a k
    rw [hmr a k]
    have hx : (⟨(160 * (L 1).val + 80 * (L 0).val + 1536 + 8 * r.val + a.val) % 4096, Nat.mod_lt _ (by decide)⟩ : Fin 4096)
        = ⟨160 * (L 1).val + 80 * (L 0).val + 1536 + 8 * r.val + a.val, row1_lt L r a⟩ :=
      Fin.ext (Nat.mod_eq_of_lt (row1_lt L r a))
    show (m (mLoc d) : IVec S4096x128 32) (ix2 ⟨(160 * (L 1).val + 80 * (L 0).val + 1536 + 8 * r.val + a.val) % 4096, _⟩ k) = _
    rw [hx]
  have hy : (ix2 (⟨(1536 + (i 0).val) % 4096 % 8, Nat.mod_lt _ (by decide)⟩ : Fin 8) (⟨(i 1).val % 4096, Nat.mod_lt _ (by decide)⟩ : Fin 4096)
      : S8x4096.Idx) = y := by
    funext b
    match b with
    | ⟨0, _⟩ => exact Fin.ext (show (1536 + (i 0).val) % 4096 % 8 = (y 0).val by omega)
    | ⟨1, _⟩ => exact Fin.ext (show (i 1).val % 4096 = (y 1).val by omega)
  rw [hW, hM, hy]

theorem dense1_piece_scratch (d : Dev nD) (L : grid2.Coords) (r : Fin 10)
    (fw : Vec F S80x128 .f32) (fm : IVec S80x128 32)
    (hfw : ∀ (a : Fin 80) (k : Fin 128), fw (ix2 a k) = (m (wLoc d) : Vec F S4096x128 .f32) (ix2 ⟨_, tileRow1_lt L a⟩ k))
    (hfm : ∀ (a : Fin 80) (k : Fin 128), fm (ix2 a k) = (m (mLoc d) : IVec S4096x128 32) (ix2 ⟨_, tileRow1_lt L a⟩ k))
    (y : S8x4096.Idx) :
    dense1 m d ((pieceM1 L r).view.emb y)
      = SpecF.foldAdd (fun a k => fw (ix2 (⟨8 * r.val + a.val, by have := r.isLt; have := a.isLt; omega⟩ : Fin 80) k))
          (fun a k => fm (ix2 (⟨8 * r.val + a.val, by have := r.isLt; have := a.isLt; omega⟩ : Fin 80) k)) 64 (fun _ => zeroF) y := by
  apply dense1_piece m d L r
  · intro a k
    show fw (ix2 _ k) = _
    rw [hfw]
    congr 2
    apply Fin.ext
    show 160 * (L 1).val + 80 * (L 0).val + 1536 + (8 * r.val + a.val) = 160 * (L 1).val + 80 * (L 0).val + 1536 + 8 * r.val + a.val
    omega
  · intro a k
    show fm (ix2 _ k) = _
    rw [hfm]
    congr 2
    apply Fin.ext
    show 160 * (L 1).val + 80 * (L 0).val + 1536 + (8 * r.val + a.val) = 160 * (L 1).val + 80 * (L 0).val + 1536 + 8 * r.val + a.val
    omega

theorem wRows1_read (d : Dev nD) (L : grid2.Coords) (a : Fin 80) (k : Fin 128) :
    ((Memref.whole main_arg1_scv : Memref sig .scVector .hbm S4096x128 .f32).slice
        (Rect.unit (s := S4096x128) (k2_off1 L) S80x128.size (Gen.k2_off1_inb L)) (fun _ => rfl)).view.read (Elt F) (m (wLoc d)) (ix2 a k)
      = (m (wLoc d) : Vec F S4096x128 .f32) (ix2 ⟨_, tileRow1_lt L a⟩ k) := by
  rw [View.read_apply]
  show (m (wLoc d) : Vec F S4096x128 .f32) _ = _
  congr 1
  funext b
  match b with
  | ⟨0, _⟩ =>
    apply Fin.ext
    show (k2_off1 L) 0 + 1 * a.val = 160 * (L 1).val + 80 * (L 0).val + 1536 + a.val
    rw [Gen.k2_off1_eq]
    show 160 * (L 1).val + 80 * (L 0).val + 1536 + 1 * a.val = _
    omega
  | ⟨1, _⟩ =>
    apply Fin.ext
    show (k2_off1 L) 1 + 1 * k.val = k.val
    rw [Gen.k2_off1_eq]
    show 0 + 1 * k.val = _
    omega

theorem mRows1_read (d : Dev nD) (L : grid2.Coords) (a : Fin 80) (k : Fin 128) :
    ((Memref.whole main_arg2_scv : Memref sig .scVector .hbm S4096x128 .i32).slice
        (Rect.unit (s := S4096x128) (k2_off1 L) S80x128.size (Gen.k2_off1_inb L)) (fun _ => rfl)).view.read (Elt F) (m (mLoc d)) (ix2 a k)
      = (m (mLoc d) : IVec S4096x128 32) (ix2 ⟨_, tileRow1_lt L a⟩ k) := by
  rw [View.read_apply]
  show (m (mLoc d) : IVec S4096x128 32) _ = _
  congr 1
  funext b
  match b with
  | ⟨0, _⟩ =>
    apply Fin.ext
    show (k2_off1 L) 0 + 1 * a.val = 160 * (L 1).val + 80 * (L 0).val + 1536 + a.val
    rw [Gen.k2_off1_eq]
    show 160 * (L 1).val + 80 * (L 0).val + 1536 + 1 * a.val = _
    omega
  | ⟨1, _⟩ =>
    apply Fin.ext
    show (k2_off1 L) 1 + 1 * k.val = k.val
    rw [Gen.k2_off1_eq]
    show 0 + 1 * k.val = _
    omega

end Cert.Proof.KB

end
-- ==== Proof.KB.Tile0Obl.lean ====
import proofs.«207445_g73023033966933_cont_9to1_m_863_36_alg».proof.Proof.KB.PieceValue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 2) (Elt F) ℕ UU ℕ

local notation "wV" => (Memref.whole Cert.Kernel.main_arg1_scv : Memref Cert.Kernel.sig Kind.scVector Space.hbm Cert.Kernel.S4096x128 EltTy.f32)
local notation "mV" => (Memref.whole Cert.Kernel.main_arg2_scv : Memref Cert.Kernel.sig Kind.scVector Space.hbm Cert.Kernel.S4096x128 EltTy.i32)
local notation "dV" => (Memref.whole Cert.Kernel.main_v1_scv : Memref Cert.Kernel.sig Kind.scVector Space.hbm Cert.Kernel.S1536x4096 EltTy.f32)
local notation "bA" => (Memref.whole Cert.Kernel.cc0_scratch0 : Memref Cert.Kernel.sig Kind.scVector Space.vmem Cert.Kernel.S8x4096 EltTy.f32)
local notation "bB" => (Memref.whole Cert.Kernel.cc0_scratch1 : Memref Cert.Kernel.sig Kind.scVector Space.vmem Cert.Kernel.S8x4096 EltTy.f32)
local notation "sW" => (Memref.whole Cert.Kernel.cc0_scratch2 : Memref Cert.Kernel.sig Kind.scVector Space.vmem Cert.Kernel.S48x128 EltTy.f32)
local notation "sM" => (Memref.whole Cert.Kernel.cc0_scratch3 : Memref Cert.Kernel.sig Kind.scVector Space.vmem Cert.Kernel.S48x128 EltTy.i32)

variable (m : (ℓ : Loc nD τ sig) → Buf (Elt F) ℓ)

theorem obl_bigSep_six (Φ : Fin 6 → sProp 𝕄) :
    bigSep Finset.univ Φ = iprop(Φ 0 ∗ Φ 1 ∗ Φ 2 ∗ Φ 3 ∗ Φ 4 ∗ Φ 5) := by
  rw [show (Finset.univ : Finset (Fin 6)) = {0, 1, 2, 3, 4, 5} from by decide,
    bigSep_insert (by decide), bigSep_insert (by decide), bigSep_insert (by decide), bigSep_insert (by decide),
    bigSep_insert (by decide), bigSep_singleton]
  rfl

def obl0_tile (d : Dev nD) (L : grid0.Coords) (f : Buf (Elt F) (d0Loc d)) : sProp 𝕄 :=
  iprop((d0Loc d ↦[piece0 L 0]{fullShare} f) ∗ (d0Loc d ↦[piece0 L 1]{fullShare} f)
    ∗ (d0Loc d ↦[piece0 L 2]{fullShare} f) ∗ (d0Loc d ↦[piece0 L 3]{fullShare} f)
    ∗ (d0Loc d ↦[piece0 L 4]{fullShare} f) ∗ (d0Loc d ↦[piece0 L 5]{fullShare} f))

theorem tile0_eq (d : Dev nD) (L : grid0.Coords) (f : Buf (Elt F) (d0Loc d)) : tile0 d L f = obl0_tile d L f := by
  unfold tile0 obl0_tile
  exact obl_bigSep_six (fun r => (d0Loc d ↦[piece0 L r]{fullShare} f : sProp 𝕄))

variable [FloatOps F]

def obl0_fw (d : Dev nD) (L : grid0.Coords) : Vec F S48x128 .f32 :=
  ((wV).slice (Rect.unit (s := S4096x128) (k0_off1 L) S48x128.size (Gen.k0_off1_inb L)) (fun _ => rfl)).view.read (Elt F) (m (wLoc d))
def obl0_fm (d : Dev nD) (L : grid0.Coords) : IVec S48x128 32 :=
  ((mV).slice (Rect.unit (s := S4096x128) (k0_off1 L) S48x128.size (Gen.k0_off1_inb L)) (fun _ => rfl)).view.read (Elt F) (m (mLoc d))

def obl0_GOK (d : Dev nD) (L : grid0.Coords) (G0 : Buf (Elt F) (d0Loc d)) : Prop :=
  ∀ (r : Fin 6) (j : S8x4096.Idx), G0 ((pieceM0 L r).view.emb j)
    = SpecF.foldAdd (fun a k => obl0_fw m d L (ix2 (⟨8 * r.val + a.val, by have := r.isLt; have := a.isLt; omega⟩ : Fin 48) k))
        (fun a k => obl0_fm m d L (ix2 (⟨8 * r.val + a.val, by have := r.isLt; have := a.isLt; omega⟩ : Fin 48) k)) 64 (fun _ => zeroF) j

theorem obl0_GOK_dense (d : Dev nD) (L : grid0.Coords) : obl0_GOK m d L (dense0 m d) :=
  fun r j => dense0_piece_scratch m d L r (obl0_fw m d L) (obl0_fm m d L) (wRows0_read m d L) (mRows0_read m d L) j

theorem defs₀_vector0 (c : Fin τ.nSC) (s : Fin τ.nSub) :
    defs₀ (F := F) (.scVector c s) 0 ()
      = SparseCore.onTile hcore0 hsub0 (fun c s => cc0_densify_chunk0 (coords0 c s)
          wV (Memref.isWhole_whole _) mV (Memref.isWhole_whole _) dV (Memref.isWhole_whole _)
          bA (Memref.isWhole_whole _) bB (Memref.isWhole_whole _) sW (Memref.isWhole_whole _) sM (Memref.isWhole_whole _)
          cc0_scratch4 cc0_scratch5 cc0_scoped0 cc0_scoped1) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem P_go0 (d : Dev nD) (c : Fin ((K (F := F)).nCore 0)) (i : Fin ((K (F := F)).nSub 0)) :
    (P m).go 0 d c i = iprop((wLoc d ↦{qT c.val i.val} m (wLoc d)) ∗ (mLoc d ↦{qT c.val i.val} m (mLoc d))
      ∗ obl0_tile d (coords0 (Fin.cast nCore_zero c) (Fin.cast nSub_zero i)) (m (d0Loc d))) := by
  show go0 m d (Fin.cast nCore_zero c) (Fin.cast nSub_zero i) = _
  unfold go0
  rw [tile0_eq]
  rfl

theorem P_td0 (d : Dev nD) (c : Fin ((K (F := F)).nCore 0)) (i : Fin ((K (F := F)).nSub 0)) :
    (P m).td 0 d c i = iprop((wLoc d ↦{qT c.val i.val} m (wLoc d)) ∗ (mLoc d ↦{qT c.val i.val} m (mLoc d))
      ∗ obl0_tile d (coords0 (Fin.cast nCore_zero c) (Fin.cast nSub_zero i)) (dense0 m d)) := by
  show td0 m d (Fin.cast nCore_zero c) (Fin.cast nSub_zero i) = _
  unfold td0
  rw [tile0_eq]
  rfl

def Tile0Body : Prop :=
  ∀ (d : Dev nD) (L : grid0.Coords) (O : CellTallies nD τ sig (HIx 2)) (W : Waits sig (HIx 2)) (hO : ∀ g, O g none = 0)
    (q : PosShare TreeShare) (G0 : Buf (Elt F) (d0Loc d)) (hG : obl0_GOK m d L G0),
    iprop(levAts (K (F := F)).L (K (F := F)).lev ∗ emp
        ∗ ((wLoc d ↦{q} m (wLoc d)) ∗ (mLoc d ↦{q} m (mLoc d)) ∗ obl0_tile d L (m (d0Loc d)))
        ∗ scopedBufs (V d ((L 0).castLE hcore0) ((L 1).castLE hsub0)) ∗ scopedSems0 (V d ((L 0).castLE hcore0) ((L 1).castLE hsub0))
        ∗ owes (V d ((L 0).castLE hcore0) ((L 1).castLE hsub0)) O W)
      ⊢ wp frame (wpE (defs₀ (F := F)) 𝒱₀ (V d ((L 0).castLE hcore0) ((L 1).castLE hsub0)) none) Set.univ
          (cc0_densify_chunk0 L wV (Memref.isWhole_whole _) mV (Memref.isWhole_whole _) dV (Memref.isWhole_whole _)
            bA (Memref.isWhole_whole _) bB (Memref.isWhole_whole _) sW (Memref.isWhole_whole _) sM (Memref.isWhole_whole _)
            cc0_scratch4 cc0_scratch5 cc0_scoped0 cc0_scoped1)
          fun _ => iprop(((wLoc d ↦{q} m (wLoc d)) ∗ (mLoc d ↦{q} m (mLoc d)) ∗ obl0_tile d L G0)
            ∗ scopedBufs (V d ((L 0).castLE hcore0) ((L 1).castLE hsub0)) ∗ scopedSems0 (V d ((L 0).castLE hcore0) ((L 1).castLE hsub0))
            ∗ ∃ W', ⌜∀ p ∈ W', p ∈ W ∨ p.2 = none⌝ ∗ owes (V d ((L 0).castLE hcore0) ((L 1).castLE hsub0)) O W')

set_option maxRecDepth 2048 in

theorem tileObl0 (hF : (K (F := F)).Facts) (hpre : PreOK m) (htb : Tile0Body m) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  rw [P_go0 m d c i, P_td0 m d c i]
  exact (htb d (coords0 ⟨_, hc.1⟩ ⟨_, hc.2⟩) O W hO (qT c.val i.val) (dense0 m d) (obl0_GOK_dense m d _)).trans
    (wp_mono frame _ _ fun _ => obl_post)

end Cert.Proof.KB

end
-- ==== Proof.KB.Tile0Body.lean ====
import proofs.«207445_g73023033966933_cont_9to1_m_863_36_alg».proof.Proof.KB.Tile0Defs
import proofs.«207445_g73023033966933_cont_9to1_m_863_36_alg».proof.Proof.KB.Tile0Obl

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "wV" => (Memref.whole Cert.Kernel.main_arg1_scv : Memref Cert.Kernel.sig Kind.scVector Space.hbm Cert.Kernel.S4096x128 EltTy.f32)
local notation "mV" => (Memref.whole Cert.Kernel.main_arg2_scv : Memref Cert.Kernel.sig Kind.scVector Space.hbm Cert.Kernel.S4096x128 EltTy.i32)
local notation "dV" => (Memref.whole Cert.Kernel.main_v1_scv : Memref Cert.Kernel.sig Kind.scVector Space.hbm Cert.Kernel.S1536x4096 EltTy.f32)
local notation "bA" => (Memref.whole Cert.Kernel.cc0_scratch0 : Memref Cert.Kernel.sig Kind.scVector Space.vmem Cert.Kernel.S8x4096 EltTy.f32)
local notation "bB" => (Memref.whole Cert.Kernel.cc0_scratch1 : Memref Cert.Kernel.sig Kind.scVector Space.vmem Cert.Kernel.S8x4096 EltTy.f32)
local notation "sW" => (Memref.whole Cert.Kernel.cc0_scratch2 : Memref Cert.Kernel.sig Kind.scVector Space.vmem Cert.Kernel.S48x128 EltTy.f32)
local notation "sM" => (Memref.whole Cert.Kernel.cc0_scratch3 : Memref Cert.Kernel.sig Kind.scVector Space.vmem Cert.Kernel.S48x128 EltTy.i32)

variable [FloatOps F] (m : (ℓ : Loc nD τ sig) → Buf (Elt F) ℓ)

section Tile

variable (d : Dev nD) (L : grid0.Coords)

local notation "THR" => V d (cV L) (jV L)
local notation "WP" => wp frame (wpE (defs₀ (F := F)) 𝒱₀ (V d (cV L) (jV L)) none) Set.univ
local notation "AT[" f "]" => f L (wV) (Memref.isWhole_whole _) (mV) (Memref.isWhole_whole _) (dV) (Memref.isWhole_whole _) (bA) (Memref.isWhole_whole _) (bB) (Memref.isWhole_whole _) (sW) (Memref.isWhole_whole _) (sM) (Memref.isWhole_whole _) cc0_scratch4 cc0_scratch5 cc0_scoped0 cc0_scoped1

omit [FloatOps F] in

theorem tb0_ownSems0 :
    (ownSems0 (V d (cV L) (jV L)) : sProp 𝕄)
      = iprop(semVal (t0_cA d L) 0 ∗ semVal (t0_cB d L) 0 ∗ semVal (t0_cW d L) 0 ∗ semVal (t0_cM d L) 0
          ∗ bigSep (((((ownCells (V d (cV L) (jV L))).erase (t0_cA d L)).erase (t0_cB d L)).erase (t0_cW d L)).erase (t0_cM d L))
              fun g => semVal g 0) := by
  unfold SparseCore.Cfg.ownSems0
  rw [SparseCore.bigSep_erase' ((mem_ownCells (g := t0_cA d L)).mpr ⟨rfl, by
      show (SemLoc.dma cc0_scratch4.sem : SemLoc sig).isScoped .scVector = true; decide⟩),
    SparseCore.bigSep_erase' (Finset.mem_erase.mpr ⟨by simp [t0_cA, t0_cB]; decide, (mem_ownCells (g := t0_cB d L)).mpr ⟨rfl, by
      show (SemLoc.dma cc0_scratch5.sem : SemLoc sig).isScoped .scVector = true; decide⟩⟩),
    SparseCore.bigSep_erase' (Finset.mem_erase.mpr ⟨by simp [t0_cB, t0_cW]; decide, Finset.mem_erase.mpr ⟨by simp [t0_cA, t0_cW]; decide,
      (mem_ownCells (g := t0_cW d L)).mpr ⟨rfl, by show (SemLoc.dma cc0_scoped0.sem : SemLoc sig).isScoped .scVector = true; decide⟩⟩⟩),
    SparseCore.bigSep_erase' (Finset.mem_erase.mpr ⟨by simp [t0_cW, t0_cM]; decide, Finset.mem_erase.mpr ⟨by simp [t0_cB, t0_cM]; decide,
      Finset.mem_erase.mpr ⟨by simp [t0_cA, t0_cM]; decide,
      (mem_ownCells (g := t0_cM d L)).mpr ⟨rfl, by show (SemLoc.dma cc0_scoped1.sem : SemLoc sig).isScoped .scVector = true; decide⟩⟩⟩⟩)]

omit [FloatOps F] in

theorem tb0_ownBufs :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

omit [FloatOps F] in

omit [FloatOps F] in

theorem tb0_fm_lt (hpre : PreOK m) (i : S48x128.Idx) : ((t0_fm m d L) i).toNat < 4096 := by
  unfold t0_fm
  rw [View.read_apply]
  exact hpre d _

def tb0_tile (f : Buf (Elt F) (d0Loc d)) : sProp 𝕄 :=
  iprop((d0Loc d ↦[(t0_piece0 L).view.set]{fullShare} f) ∗ (d0Loc d ↦[(t0_piece1 L).view.set]{fullShare} f)
    ∗ (d0Loc d ↦[(t0_piece2 L).view.set]{fullShare} f) ∗ (d0Loc d ↦[(t0_piece3 L).view.set]{fullShare} f)
    ∗ (d0Loc d ↦[(t0_piece4 L).view.set]{fullShare} f) ∗ (d0Loc d ↦[(t0_piece5 L).view.set]{fullShare} f))

theorem tb0_tile_body (h11 : T0Part11 m d L) (h12 : T0Part12 m d L) (h13 : T0Part13 m d L) (htl : T0Tail m d L)
    (hF : (K (F := F)).Facts) (hpre : PreOK m) (O : CellTallies nD τ sig (HIx 2)) (W : Waits sig (HIx 2)) (hO : ∀ g, O g none = 0)
    (q : PosShare TreeShare) (G0 : Buf (Elt F) (d0Loc d)) (hG : t0_GOK d L (t0_fw m d L) (t0_fm m d L) G0) :
    iprop(levAts (K (F := F)).L (K (F := F)).lev ∗ emp
        ∗ ((wLoc d ↦{q} m (wLoc d)) ∗ (mLoc d ↦{q} m (mLoc d)) ∗ tb0_tile d L (m (d0Loc d)))
        ∗ scopedBufs THR ∗ scopedSems0 THR ∗ owes THR O W)
      ⊢ WP (AT[cc0_densify_chunk0]) fun _ =>
          iprop(((wLoc d ↦{q} m (wLoc d)) ∗ (mLoc d ↦{q} m (mLoc d)) ∗ tb0_tile d L G0) ∗ scopedBufs THR ∗ scopedSems0 THR
            ∗ ∃ W', ⌜∀ p ∈ W', p ∈ W ∨ p.2 = none⌝ ∗ owes THR O W') := by
  rw [cc0_densify_chunk0_eq_skeleton, t0_root_eq]
  simp only [wp_bind]
  rw [(K (F := F)).scopedBufs_V hF d (cV L) (jV L), SparseCore.Cfg.scopedSems0_V (Val := Elt F) d (cV L) (jV L), tb0_ownSems0, tb0_ownBufs]
  unfold tb0_tile
  have hfm : ∀ i, (t0_fm m d L i).toNat < 4096 := tb0_fm_lt m d L hpre
  iintro ⟨#Hlv, -, ⟨Hw, Hm, Hp0, Hp1, Hp2, Hp3, Hp4, Hp5⟩, ⟨⟨%fA, HbA⟩, ⟨%fB, HbB⟩, ⟨%fW, HsW⟩, ⟨%fM, HsM⟩, Hbufs⟩, ⟨HcA, HcB, HcW, HcM, Hsems⟩, HO⟩

  iapply (h11 O q q hpre hO W _)
  isplitr; · iexact Hlv
  isplitl [Hw]; · iexact Hw
  isplitl [Hm]; · iexact Hm
  isplitl [HbA]; · iexists _; iexact HbA
  isplitl [HbB]; · iexists _; iexact HbB
  isplitl [HsW]; · iexists _; iexact HsW
  isplitl [HsM]; · iexists _; iexact HsM
  isplitl [HcW]; · iexact HcW
  isplitl [HcM]; · iexact HcM
  isplitl [HO]; · iexact HO
  iintro %W1 %hW1 ⟨Hfix, HbA, HbB, HO⟩

  iapply (h12 O q q (t0_fw m d L) (t0_fm m d L) G0 hO hfm hG W1 _ (m (d0Loc d)) (m (d0Loc d)) (m (d0Loc d)) _)
  isplitr; · iexact Hlv
  isplitl [Hfix]; · iexact Hfix
  isplitl [HbA]; · iexact HbA
  isplitl [HbB]; · iexact HbB
  isplitl [HcA]; · iexact HcA
  isplitl [HcB]; · iexact HcB
  isplitl [Hp0]; · iexact Hp0
  isplitl [Hp1]; · iexact Hp1
  isplitl [Hp2]; · iexact Hp2
  isplitl [HO]; · iexact HO
  iintro %W2 %hW2 ⟨Hfix, Hp0, Hp1, Hfl2, HbB, HcB, HO⟩

  iapply (h13 O q q (t0_fw m d L) (t0_fm m d L) G0 hO hfm hG W2 _ (m (d0Loc d)) (m (d0Loc d)) (m (d0Loc d)) _)
  isplitr; · iexact Hlv
  isplitl [Hfix]; · iexact Hfix
  isplitl [Hfl2]; · iexact Hfl2
  isplitl [HbB]; · iexact HbB
  isplitl [HcB]; · iexact HcB
  isplitl [Hp3]; · iexact Hp3
  isplitl [Hp4]; · iexact Hp4
  isplitl [HO]; · iexact HO
  iintro %W3 %hW3 ⟨Hfix, Hp2, Hfl3, Hfl4, HO⟩

  iapply (htl O q q (t0_fw m d L) (t0_fm m d L) G0 hO hfm hG W3 (m (d0Loc d)) (m (d0Loc d)) (m (d0Loc d)) _)
  isplitr; · iexact Hlv
  isplitl [Hfix]; · iexact Hfix
  isplitl [Hfl3]; · iexact Hfl3
  isplitl [Hfl4]; · iexact Hfl4
  isplitl [Hp5]; · iexact Hp5
  isplitl [HO]; · iexact HO
  iintro %W4 %hW4 ⟨Hfix, Hp3, Hp4, Hp5, HbA, HbB, HcA, HcB, HO⟩
  unfold t0_fix
  icases Hfix with ⟨Hw, Hm, HsW, HsM, HcW, HcM⟩
  isplitl [Hw Hm Hp0 Hp1 Hp2 Hp3 Hp4 Hp5]
  · isplitl [Hw]; · iexact Hw
    isplitl [Hm]; · iexact Hm
    isplitl [Hp0]; · iexact Hp0
    isplitl [Hp1]; · iexact Hp1
    isplitl [Hp2]; · iexact Hp2
    isplitl [Hp3]; · iexact Hp3
    isplitl [Hp4]; · iexact Hp4
    iexact Hp5
  isplitl [HbA HbB HsW HsM Hbufs]
  · isplitl [HbA]; · iexact HbA
    isplitl [HbB]; · iexact HbB
    isplitl [HsW]; · iexists _; iexact HsW
    isplitl [HsM]; · iexists _; iexact HsM
    iexact Hbufs
  isplitl [HcA HcB HcW HcM Hsems]
  · isplitl [HcA]; · iexact HcA
    isplitl [HcB]; · iexact HcB
    isplitl [HcW]; · iexact HcW
    isplitl [HcM]; · iexact HcM
    iexact Hsems
  iexists W4
  isplitr
  · ipureintro
    intro p hp
    rcases hW4 p hp with h | h
    · rcases hW3 p h with h | h
      · rcases hW2 p h with h | h
        · exact hW1 p h
        · exact Or.inr h
      · exact Or.inr h
    · exact Or.inr h
  · iexact HO

end Tile

theorem tile0Body_of (h11 : ∀ d L, T0Part11 m d L) (h12 : ∀ d L, T0Part12 m d L) (h13 : ∀ d L, T0Part13 m d L)
    (htl : ∀ d L, T0Tail m d L) (hF : (K (F := F)).Facts) (hpre : PreOK m) : Tile0Body m :=
  fun d L O W hO q G0 hG =>
    tb0_tile_body m d L (h11 d L) (h12 d L) (h13 d L) (htl d L) hF hpre O W hO q G0 ⟨hG 0, hG 1, hG 2, hG 3, hG 4, hG 5⟩

end Cert.Proof.KB

end
-- ==== Proof.KB.Tile0.lean ====
import proofs.«207445_g73023033966933_cont_9to1_m_863_36_alg».proof.Proof.KB.Tile0Defs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "wV" => (Memref.whole Cert.Kernel.main_arg1_scv : Memref Cert.Kernel.sig Kind.scVector Space.hbm Cert.Kernel.S4096x128 EltTy.f32)
local notation "mV" => (Memref.whole Cert.Kernel.main_arg2_scv : Memref Cert.Kernel.sig Kind.scVector Space.hbm Cert.Kernel.S4096x128 EltTy.i32)
local notation "dV" => (Memref.whole Cert.Kernel.main_v1_scv : Memref Cert.Kernel.sig Kind.scVector Space.hbm Cert.Kernel.S1536x4096 EltTy.f32)
local notation "bA" => (Memref.whole Cert.Kernel.cc0_scratch0 : Memref Cert.Kernel.sig Kind.scVector Space.vmem Cert.Kernel.S8x4096 EltTy.f32)
local notation "bB" => (Memref.whole Cert.Kernel.cc0_scratch1 : Memref Cert.Kernel.sig Kind.scVector Space.vmem Cert.Kernel.S8x4096 EltTy.f32)
local notation "sW" => (Memref.whole Cert.Kernel.cc0_scratch2 : Memref Cert.Kernel.sig Kind.scVector Space.vmem Cert.Kernel.S48x128 EltTy.f32)
local notation "sM" => (Memref.whole Cert.Kernel.cc0_scratch3 : Memref Cert.Kernel.sig Kind.scVector Space.vmem Cert.Kernel.S48x128 EltTy.i32)

variable [FloatOps F] (m : (ℓ : Loc nD τ sig) → Buf (Elt F) ℓ)

section Tile

variable (d : Dev nD) (L : grid0.Coords)

local notation "THR" => V d (cV L) (jV L)
local notation "WP" => wp frame (wpE (defs₀ (F := F)) 𝒱₀ (V d (cV L) (jV L)) none) Set.univ
local notation "AT[" f "]" => f L (wV) (Memref.isWhole_whole _) (mV) (Memref.isWhole_whole _) (dV) (Memref.isWhole_whole _) (bA) (Memref.isWhole_whole _) (bB) (Memref.isWhole_whole _) (sW) (Memref.isWhole_whole _) (sM) (Memref.isWhole_whole _) cc0_scratch4 cc0_scratch5 cc0_scoped0 cc0_scoped1

variable (O : CellTallies nD τ sig (HIx 2))
variable (qw qm : PosShare TreeShare) (fw : Vec F S48x128 .f32) (fm : IVec S48x128 32)
variable (G0 : Buf (Elt F) (d0Loc d))

theorem part12_spec : T0Part12 m d L := by
  intro O qw qm fw fm G0 hO hfm hG W v1 g0 g1 g2 Φ
  have hmr : ∀ (sb : Fin 6) (r : Fin 8) (k : Fin 128), (t0_mr fm sb r k).toNat < 4096 := fun sb r k => hfm _
  have hclr7 := t0_loop_t7 d L fw fm v1 hfm (t0_blk fw fm 0)
  rw [show SpecF.foldClr t0_z (t0_mr fm 0) 64 (t0_blk fw fm 0) = (fun _ => t0_z) from SpecF.foldClr_foldAdd _ _ (hmr 0) _] at hclr7
  rw [k0_part12_eq_skeleton]; rw [k0_part12_skel]
  unfold t0_fix
  iintro ⟨#Hlv, ⟨Hw, Hm, HsW, HsM, HcW, HcM⟩, HbA, HbB, HcA, HcB, Hp0, Hp1, Hp2, HO, Hk⟩
  ihave Hmw := ((K (F := F)).mayWaits_none (thr := V d (cV L) (jV L)) hO) $$ Hlv

  ihave HbA := (Entails.of_eq (t0_own_whole (F := F) d L cc0_scratch0 fullShare _).symm) $$ HbA
  sl_exec
  iapply (t0_seq d L _ _ _ _ _ (t0_loop_t6 d L fw fm v1 (fun _ => t0_z) hfm (fun _ => t0_z)))
  isplitl [HbB HsW HsM]
  · isplitl [HbB]; · iexact HbB
    isplitl [HsW]; · iexact HsW
    iexact HsM
  iintro %_ ⟨HbB, HsW, HsM⟩

  ihave HbB := (Entails.of_eq (t0_own_whole (F := F) d L cc0_scratch1 fullShare _).symm) $$ HbB
  sl_exec
  ihave Hp0 := (Entails.of_eq (t0_land_eq (F := F) d L (k0_off5 L 0#32) (k0_off5_inb L 0) _ G0 _ ?hl0)) $$ Hp0
  case hl0 => exact fun y => (hG.1 y).trans rfl

  ihave HbA := (Entails.of_eq (t0_own_whole (F := F) d L cc0_scratch0 fullShare _)) $$ HbA
  iapply (t0_seq d L _ _ _ _ _ hclr7)
  isplitl [HbA HsW HsM]
  · isplitl [HbA]; · iexact HbA
    isplitl [HsW]; · iexact HsW
    iexact HsM
  iintro %_ ⟨HbA, HsW, HsM⟩
  iapply (t0_seq d L _ _ _ _ _ (t0_loop_t8 d L fw fm v1 (fun _ => t0_z) hfm (fun _ => t0_z)))
  isplitl [HbA HsW HsM]
  · isplitl [HbA]; · iexact HbA
    isplitl [HsW]; · iexact HsW
    iexact HsM
  iintro %_ ⟨HbA, HsW, HsM⟩

  ihave HbA := (Entails.of_eq (t0_own_whole (F := F) d L cc0_scratch0 fullShare _).symm) $$ HbA
  sl_exec
  sl_step
  ihave Hp1 := (Entails.of_eq (t0_land_eq (F := F) d L (k0_off5 L 8#32) (k0_off5_inb L 1) _ G0 _ ?hl1)) $$ Hp1
  case hl1 => exact fun y => (hG.2.1 y).trans rfl
  ihave HbB := (Entails.of_eq (t0_own_whole (F := F) d L cc0_scratch1 fullShare _)) $$ HbB
  iapply Hk $$ %(insert (SemLoc.dma cc0_scratch5.sem, (default : HIx 2)) (insert (SemLoc.dma cc0_scratch4.sem, (default : HIx 2)) W)) %(by
    intro p hp
    rcases Finset.mem_insert.mp hp with hp | hp
    · exact .inr (hp ▸ rfl)
    rcases Finset.mem_insert.mp hp with hp | hp
    · exact .inr (hp ▸ rfl)
    exact .inl hp)
  isplitl [Hw Hm HsW HsM HcW HcM]
  · isplitl [Hw]; · iexact Hw
    isplitl [Hm]; · iexact Hm
    isplitl [HsW]; · iexact HsW
    isplitl [HsM]; · iexact HsM
    isplitl [HcW]; · iexact HcW
    iexact HcM
  isplitl [Hp0]; · iexact Hp0
  isplitl [Hp1]; · iexact Hp1
  isplitl [HcA]; · iexact HcA
  isplitl [HbB]; · iexact HbB
  isplitl [HcB]; · iexact HcB
  iexact HO

end Tile

end Cert.Proof.KB

end
-- ==== Proof.KB.Tile0c.lean ====
import proofs.«207445_g73023033966933_cont_9to1_m_863_36_alg».proof.Proof.KB.Tile0Defs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "wV" => (Memref.whole Cert.Kernel.main_arg1_scv : Memref Cert.Kernel.sig Kind.scVector Space.hbm Cert.Kernel.S4096x128 EltTy.f32)
local notation "mV" => (Memref.whole Cert.Kernel.main_arg2_scv : Memref Cert.Kernel.sig Kind.scVector Space.hbm Cert.Kernel.S4096x128 EltTy.i32)
local notation "dV" => (Memref.whole Cert.Kernel.main_v1_scv : Memref Cert.Kernel.sig Kind.scVector Space.hbm Cert.Kernel.S1536x4096 EltTy.f32)
local notation "bA" => (Memref.whole Cert.Kernel.cc0_scratch0 : Memref Cert.Kernel.sig Kind.scVector Space.vmem Cert.Kernel.S8x4096 EltTy.f32)
local notation "bB" => (Memref.whole Cert.Kernel.cc0_scratch1 : Memref Cert.Kernel.sig Kind.scVector Space.vmem Cert.Kernel.S8x4096 EltTy.f32)
local notation "sW" => (Memref.whole Cert.Kernel.cc0_scratch2 : Memref Cert.Kernel.sig Kind.scVector Space.vmem Cert.Kernel.S48x128 EltTy.f32)
local notation "sM" => (Memref.whole Cert.Kernel.cc0_scratch3 : Memref Cert.Kernel.sig Kind.scVector Space.vmem Cert.Kernel.S48x128 EltTy.i32)

variable [FloatOps F] (m : (ℓ : Loc nD τ sig) → Buf (Elt F) ℓ)

section Tile

variable (d : Dev nD) (L : grid0.Coords)

local notation "THR" => V d (cV L) (jV L)
local notation "WP" => wp frame (wpE (defs₀ (F := F)) 𝒱₀ (V d (cV L) (jV L)) none) Set.univ
local notation "AT[" f "]" => f L (wV) (Memref.isWhole_whole _) (mV) (Memref.isWhole_whole _) (dV) (Memref.isWhole_whole _) (bA) (Memref.isWhole_whole _) (bB) (Memref.isWhole_whole _) (sW) (Memref.isWhole_whole _) (sM) (Memref.isWhole_whole _) cc0_scratch4 cc0_scratch5 cc0_scoped0 cc0_scoped1

variable (O : CellTallies nD τ sig (HIx 2))
variable (qw qm : PosShare TreeShare) (fw : Vec F S48x128 .f32) (fm : IVec S48x128 32)
variable (G0 : Buf (Elt F) (d0Loc d))

theorem part13_spec : T0Part13 m d L := by
  intro O qw qm fw fm G0 hO hfm hG W v1 g2 g3 g4 Φ
  rw [k0_part13_eq_skeleton]; rw [k0_part13_skel]
  unfold t0_fix
  obtain ⟨-, -, hG2, -, -, -⟩ := hG
  iintro ⟨#Hlv, ⟨Hw, Hm, HsW, HsM, HcW, HcM⟩, HF2, HbB, HcB, Hp3, Hp4, HO, Hk⟩
  ihave Hmw := ((K (F := F)).mayWaits_none (thr := V d (cV L) (jV L)) hO) $$ Hlv

  iapply (t0_seq (F := F) d L _ _ _ _ _ (t0_loop_t9 (F := F) d L fw fm v1 hfm (t0_blk fw fm 1)))
  isplitl [HbB HsW HsM]
  · isplitl [HbB]; · iexact HbB
    isplitl [HsW]; · iexact HsW
    iexact HsM
  iintro %_ ⟨HbB, HsW, HsM⟩
  rw [show SpecF.foldClr t0_z (t0_mr fm 1) 64 (t0_blk fw fm 1) = fun _ => t0_z from
    SpecF.foldClr_foldAdd _ _ (fun r k => hfm _) _]
  iapply (t0_seq (F := F) d L _ _ _ _ _ (t0_loop_t10 (F := F) d L fw fm v1 (fun _ => t0_z) 0#32 hfm _))
  isplitl [HbB HsW HsM]
  · isplitl [HbB]; · iexact HbB
    isplitl [HsW]; · iexact HsW
    iexact HsM
  iintro %_ ⟨HbB, HsW, HsM⟩

  ihave HbB := (Entails.of_eq (t0_own_whole (F := F) d L cc0_scratch1 fullShare _).symm) $$ HbB
  sl_exec

  iapply (t0_seq (F := F) d L _ _ _ _ _ (t0_loop_t11 (F := F) d L fw fm v1 0#32 hfm (t0_blk fw fm 2)))
  isplitl [HF2_src HsW HsM]
  · isplitl [HF2_src]
    · iapply (Entails.of_eq (t0_own_whole (F := F) d L cc0_scratch0 fullShare _)); iexact HF2_src
    isplitl [HsW]; · iexact HsW
    iexact HsM
  iintro %_ ⟨HbA, HsW, HsM⟩
  rw [show SpecF.foldClr t0_z (t0_mr fm 2) 64 (t0_blk fw fm 2) = fun _ => t0_z from
    SpecF.foldClr_foldAdd _ _ (fun r k => hfm _) _]
  iapply (t0_seq (F := F) d L _ _ _ _ _ (t0_loop_t12 (F := F) d L fw fm v1 (fun _ => t0_z) 0#32 hfm _))
  isplitl [HbA HsW HsM]
  · isplitl [HbA]; · iexact HbA
    isplitl [HsW]; · iexact HsW
    iexact HsM
  iintro %_ ⟨HbA, HsW, HsM⟩

  ihave HbA := (Entails.of_eq (t0_own_whole (F := F) d L cc0_scratch0 fullShare _).symm) $$ HbA
  sl_exec
  sl_step
  sl_unfold_run_names
  iapply Hk $$ %(insert ((SemLoc.dma cc0_scratch4.sem : SemLoc sig), (default : HIx 2)) W)
    %(fun p hp => by
      simp only [Finset.mem_insert] at hp
      rcases hp with rfl | hp
      exacts [.inr rfl, .inl hp])
  isplitl [Hw Hm HsW HsM HcW HcM]
  · isplitl [Hw]; · iexact Hw
    isplitl [Hm]; · iexact Hm
    isplitl [HsW]; · iexact HsW
    isplitl [HsM]; · iexact HsM
    isplitl [HcW]; · iexact HcW
    iexact HcM
  isplitl [HF2_dst]
  · iapply (Entails.of_eq (t0_land_eq (F := F) d L (k0_off5 L 16#32) (k0_off5_inb L 2) _ G0 _ (fun y => (hG2 y).trans rfl)))
    iexact HF2_dst
  isplitl [HcB]; · iexact HcB
  isplitl [HF2]; · iexact HF2
  iexact HO

theorem tail_spec : T0Tail m d L := by
  intro O qw qm fw fm G0 hO hfm hG W g3 g4 g5 Φ
  unfold t0_tail
  unfold t0_fix
  obtain ⟨-, -, -, hG3, hG4, hG5⟩ := hG
  iintro ⟨#Hlv, ⟨Hw, Hm, HsW, HsM, HcW, HcM⟩, HF3, HF4, Hp5, HO, Hk⟩
  ihave Hmw := ((K (F := F)).mayWaits_none (thr := V d (cV L) (jV L)) hO) $$ Hlv

  sl_exec

  iapply (t0_seq (F := F) d L _ _ _ _ _ (t0_loop_t13 (F := F) d L fw fm hfm (t0_blk fw fm 3)))
  isplitl [HF3_src HsW HsM]
  · isplitl [HF3_src]
    · iapply (Entails.of_eq (t0_own_whole (F := F) d L cc0_scratch1 fullShare _)); iexact HF3_src
    isplitl [HsW]; · iexact HsW
    iexact HsM
  iintro %_ ⟨HbB, HsW, HsM⟩
  rw [show SpecF.foldClr t0_z (t0_mr fm 3) 64 (t0_blk fw fm 3) = fun _ => t0_z from
    SpecF.foldClr_foldAdd _ _ (fun r k => hfm _) _]
  iapply (t0_seq (F := F) d L _ _ _ _ _ (t0_loop_t14 (F := F) d L fw fm hfm _))
  isplitl [HbB HsW HsM]
  · isplitl [HbB]; · iexact HbB
    isplitl [HsW]; · iexact HsW
    iexact HsM
  iintro %_ ⟨HbB, HsW, HsM⟩

  sl_exec
  sl_step
  sl_unfold_run_names
  iapply Hk $$ %(insert ((SemLoc.dma cc0_scratch5.sem : SemLoc sig), (default : HIx 2))
      (insert ((SemLoc.dma cc0_scratch4.sem : SemLoc sig), (none : HIx 2)) (insert ((SemLoc.dma cc0_scratch5.sem : SemLoc sig), (none : HIx 2)) W)))
    %(fun p hp => by
      simp only [Finset.mem_insert] at hp
      rcases hp with rfl | rfl | rfl | hp
      exacts [.inr rfl, .inr rfl, .inr rfl, .inl hp])
  isplitl [Hw Hm HsW HsM HcW HcM]
  · isplitl [Hw]; · iexact Hw
    isplitl [Hm]; · iexact Hm
    isplitl [HsW]; · iexact HsW
    isplitl [HsM]; · iexact HsM
    isplitl [HcW]; · iexact HcW
    iexact HcM
  isplitl [HF3_dst]
  · iapply (Entails.of_eq (t0_land_eq (F := F) d L (k0_off5 L 24#32) (k0_off5_inb L 3) _ G0 _ (fun y => (hG3 y).trans rfl)))
    iexact HF3_dst
  isplitl [HF4_dst]
  · iapply (Entails.of_eq (t0_land_eq (F := F) d L (k0_off5 L 32#32) (k0_off5_inb L 4) _ G0 _ (fun y => (hG4 y).trans rfl)))
    iexact HF4_dst
  isplitl [Hp5]
  · iapply (Entails.of_eq (t0_land_eq (F := F) d L (k0_off5 L 40#32) (k0_off5_inb L 5) _ G0 _ (fun y => (hG5 y).trans rfl)))
    iexact Hp5
  isplitl [HF4_src]
  · iexists _; iapply (Entails.of_eq (t0_own_whole (F := F) d L cc0_scratch0 fullShare _)); iexact HF4_src
  isplitl [HbB]; · iexists _; iexact HbB
  isplitl [HF4]; · iexact HF4
  isplitl [HF3]; · iexact HF3
  iexact HO

end Tile

end Cert.Proof.KB

end
-- ==== Proof.KB.Prefix0.lean ====
import proofs.«207445_g73023033966933_cont_9to1_m_863_36_alg».proof.Proof.KB.Common
import Idealize.ShloMosaic.Lib.Writes
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

abbrev pfxC (L : grid0.Coords) : Fin τ.nSC := (L 0).castLE hcore0
abbrev pfxJ (L : grid0.Coords) : Fin τ.nSub := (L 1).castLE hsub0

abbrev pfxThr (d : Dev nD) (L : grid0.Coords) : Thread nD τ := V d (pfxC L) (pfxJ L)

local notation "wW" => (Memref.whole Cert.Kernel.main_arg1_scv : Memref Cert.Kernel.sig Kind.scVector Space.hbm Cert.Kernel.S4096x128 EltTy.f32)
local notation "mW" => (Memref.whole Cert.Kernel.main_arg2_scv : Memref Cert.Kernel.sig Kind.scVector Space.hbm Cert.Kernel.S4096x128 EltTy.i32)
local notation "dW" => (Memref.whole Cert.Kernel.main_v1_scv : Memref Cert.Kernel.sig Kind.scVector Space.hbm Cert.Kernel.S1536x4096 EltTy.f32)
local notation "blkA" => (Memref.whole Cert.Kernel.cc0_scratch0 : Memref Cert.Kernel.sig Kind.scVector Space.vmem Cert.Kernel.S8x4096 EltTy.f32)
local notation "blkB" => (Memref.whole Cert.Kernel.cc0_scratch1 : Memref Cert.Kernel.sig Kind.scVector Space.vmem Cert.Kernel.S8x4096 EltTy.f32)
local notation "wvS" => (Memref.whole Cert.Kernel.cc0_scratch2 : Memref Cert.Kernel.sig Kind.scVector Space.vmem Cert.Kernel.S48x128 EltTy.f32)
local notation "mvS" => (Memref.whole Cert.Kernel.cc0_scratch3 : Memref Cert.Kernel.sig Kind.scVector Space.vmem Cert.Kernel.S48x128 EltTy.i32)

variable (m : (ℓ : Loc nD τ sig) → Buf (Elt F) ℓ)
variable [FloatOps F]
variable (d : Dev nD) (L : grid0.Coords)

open Idealize.ShloMosaic.ValueIdx

def pfxWid (L : grid0.Coords) : BitVec 32 :=
  Scalar.addi (Scalar.muli (BitVec.ofNat 32 (L 1).val) 2#32) (BitVec.ofNat 32 (L 0).val)

abbrev pfxWRows (L : grid0.Coords) : Memref sig .scVector .hbm S48x128 .f32 :=
  (wW).slice (Rect.unit (s := S4096x128) (k0_off1 L) S48x128.size (k0_off1_inb L)) (fun _ => rfl)
abbrev pfxMRows (L : grid0.Coords) : Memref sig .scVector .hbm S48x128 .i32 :=
  (mW).slice (Rect.unit (s := S4096x128) (k0_off1 L) S48x128.size (k0_off1_inb L)) (fun _ => rfl)

def pfxWv (d : Dev nD) (L : grid0.Coords) : Buf (Elt F) ((pfxThr d L).loc cc0_scratch2) :=
  (pfxWRows L).view.read (Elt F) (m (wLoc d))
def pfxMv (d : Dev nD) (L : grid0.Coords) : Buf (Elt F) ((pfxThr d L).loc cc0_scratch3) :=
  (pfxMRows L).view.read (Elt F) (m (mLoc d))

def pfxZ : Elt F .f32 := (Scalar.ofBits .f32 0x00000000#32 : F .f32)

theorem pfx_pay2_cast (x : S1x16.Idx) : shapeCast S1x16 (k0_pay2 (F := F)) shapeCasts_S16_S1x16 x = pfxZ := rfl

theorem pfx_mem_piece (r c : Nat) (off : Fin 8 → Fin 2 → Nat) (inb : ∀ u a, off u a + S1x16.size a ≤ S8x4096.size a)
    (hoff : ∀ u : Fin 8, off u = ![r, 128 * c + 16 * u.val]) (u : Fin 8) (j : S8x4096.Idx)
    (h0 : (j 0).val = r) (h1 : 128 * c + 16 * u.val ≤ (j 1).val) (h2 : (j 1).val < 128 * c + 16 * u.val + 16) :
    j ∈ (Rect.unit (s := S8x4096) (off u) S1x16.size (inb u)).set := by
  rw [Rect.mem_set_unit, hoff u]
  intro a
  match a with
  | ⟨0, _⟩ =>
    show r ≤ (j 0).val ∧ (j 0).val < r + 1
    omega
  | ⟨1, _⟩ =>
    show 128 * c + 16 * u.val ≤ (j 1).val ∧ (j 1).val < 128 * c + 16 * u.val + 16
    omega

theorem pfx_zero_step {sg : RefSig} {κ : Kind} {sp : Space} (v : View sg κ sp S8x4096 .f32) (g : v.ty.Contents (Elt F)) (r c : Nat)
    (off : Fin 8 → Fin 2 → Nat) (inb : ∀ u a, off u a + S1x16.size a ≤ S8x4096.size a)
    (hoff : ∀ u : Fin 8, off u = ![r, 128 * c + 16 * u.val])
    (w : S1x16.Idx → Elt F .f32) (hw : ∀ x, w x = pfxZ)
    (hg : ∀ j : S8x4096.Idx, ((j 0).val < r ∨ ((j 0).val = r ∧ (j 1).val < 128 * c)) → v.read (Elt F) g j = pfxZ)
    (j : S8x4096.Idx) (hj : (j 0).val < r ∨ ((j 0).val = r ∧ (j 1).val < 128 * (c + 1))) :
    v.read (Elt F) (v.writes (Elt F) g
      [⟨Rect.unit (s := S8x4096) (off 7) S1x16.size (inb 7), w⟩,
        ⟨Rect.unit (s := S8x4096) (off 6) S1x16.size (inb 6), w⟩,
        ⟨Rect.unit (s := S8x4096) (off 5) S1x16.size (inb 5), w⟩,
        ⟨Rect.unit (s := S8x4096) (off 4) S1x16.size (inb 4), w⟩,
        ⟨Rect.unit (s := S8x4096) (off 3) S1x16.size (inb 3), w⟩,
        ⟨Rect.unit (s := S8x4096) (off 2) S1x16.size (inb 2), w⟩,
        ⟨Rect.unit (s := S8x4096) (off 1) S1x16.size (inb 1), w⟩,
        ⟨Rect.unit (s := S8x4096) (off 0) S1x16.size (inb 0), w⟩]) j = pfxZ := by
  apply pfx_read_writes_const
  · intro p hp x
    simp only [List.mem_cons, List.mem_nil_iff, or_false] at hp
    rcases hp with rfl | rfl | rfl | rfl | rfl | rfl | rfl | rfl
    · exact hw x
    · exact hw x
    · exact hw x
    · exact hw x
    · exact hw x
    · exact hw x
    · exact hw x
    · exact hw x
  · by_cases hold : (j 0).val < r ∨ ((j 0).val = r ∧ (j 1).val < 128 * c)
    · exact Or.inl (hg j hold)
    right
    have hj0 : (j 0).val = r := by omega
    have hlo : 128 * c ≤ (j 1).val := by omega
    have hhi : (j 1).val < 128 * c + 128 := by omega
    have hu : ((j 1).val - 128 * c) / 16 < 8 := by omega
    have hu1 : 128 * c + 16 * (((j 1).val - 128 * c) / 16) ≤ (j 1).val := by omega
    have hu2 : (j 1).val < 128 * c + 16 * (((j 1).val - 128 * c) / 16) + 16 := by omega
    generalize ((j 1).val - 128 * c) / 16 = u at hu hu1 hu2
    have h8 : u = 7 ∨ u = 6 ∨ u = 5 ∨ u = 4 ∨ u = 3 ∨ u = 2 ∨ u = 1 ∨ u = 0 := by omega
    rcases h8 with rfl | rfl | rfl | rfl | rfl | rfl | rfl | rfl
    · exact ⟨_, List.Mem.head _, pfx_mem_piece r c off inb hoff 7 j hj0 (by simpa using hu1) (by simpa using hu2)⟩
    · exact ⟨_, List.Mem.tail _ (List.Mem.head _), pfx_mem_piece r c off inb hoff 6 j hj0 (by simpa using hu1) (by simpa using hu2)⟩
    · exact ⟨_, List.Mem.tail _ (List.Mem.tail _ (List.Mem.head _)), pfx_mem_piece r c off inb hoff 5 j hj0 (by simpa using hu1) (by simpa using hu2)⟩
    · exact ⟨_, List.Mem.tail _ (List.Mem.tail _ (List.Mem.tail _ (List.Mem.head _))), pfx_mem_piece r c off inb hoff 4 j hj0 (by simpa using hu1) (by simpa using hu2)⟩
    · exact ⟨_, List.Mem.tail _ (List.Mem.tail _ (List.Mem.tail _ (List.Mem.tail _ (List.Mem.head _)))), pfx_mem_piece r c off inb hoff 3 j hj0 (by simpa using hu1) (by simpa using hu2)⟩
    · exact ⟨_, List.Mem.tail _ (List.Mem.tail _ (List.Mem.tail _ (List.Mem.tail _ (List.Mem.tail _ (List.Mem.head _))))), pfx_mem_piece r c off inb hoff 2 j hj0 (by simpa using hu1) (by simpa using hu2)⟩
    · exact ⟨_, List.Mem.tail _ (List.Mem.tail _ (List.Mem.tail _ (List.Mem.tail _ (List.Mem.tail _ (List.Mem.tail _ (List.Mem.head _)))))), pfx_mem_piece r c off inb hoff 1 j hj0 (by simpa using hu1) (by simpa using hu2)⟩
    · exact ⟨_, List.Mem.tail _ (List.Mem.tail _ (List.Mem.tail _ (List.Mem.tail _ (List.Mem.tail _ (List.Mem.tail _ (List.Mem.tail _ (List.Mem.head _))))))), pfx_mem_piece r c off inb hoff 0 j hj0 (by simpa using hu1) (by simpa using hu2)⟩

def pfx_invA (d : Dev nD) (L : grid0.Coords) (k : Nat) (_ : PUnit) : sProp 𝕄 :=
  iprop(∃ f : Vec F S8x4096 .f32, ⌜∀ j : S8x4096.Idx, (j 0).val < k → f j = pfxZ⌝
    ∗ ((blkA).view.loc (pfxThr d L) ↦{fullShare} f))

def pfx_invA2 (d : Dev nD) (L : grid0.Coords) (k1 : Nat) (k : Nat) (_ : PUnit) : sProp 𝕄 :=
  iprop(∃ f : Vec F S8x4096 .f32, ⌜∀ j : S8x4096.Idx, ((j 0).val < k1 ∨ ((j 0).val = k1 ∧ (j 1).val < 128 * k)) → f j = pfxZ⌝
    ∗ ((blkA).view.loc (pfxThr d L) ↦{fullShare} f))

def pfx_invB (d : Dev nD) (L : grid0.Coords) (k : Nat) (_ : PUnit) : sProp 𝕄 :=
  iprop(∃ f : Vec F S8x4096 .f32, ⌜∀ j : S8x4096.Idx, (j 0).val < k → f j = pfxZ⌝
    ∗ ((blkB).view.loc (pfxThr d L) ↦{fullShare} f))
def pfx_invB2 (d : Dev nD) (L : grid0.Coords) (k1 : Nat) (k : Nat) (_ : PUnit) : sProp 𝕄 :=
  iprop(∃ f : Vec F S8x4096 .f32, ⌜∀ j : S8x4096.Idx, ((j 0).val < k1 ∨ ((j 0).val = k1 ∧ (j 1).val < 128 * k)) → f j = pfxZ⌝
    ∗ ((blkB).view.loc (pfxThr d L) ↦{fullShare} f))

theorem pfx_zeroA_step (k1 : Fin k0_t1_loop.trips) (k2 : Fin k0_t2_loop.trips) (g : Vec F S8x4096 .f32)
    (hg : ∀ j : S8x4096.Idx, ((j 0).val < k1.val ∨ ((j 0).val = k1.val ∧ (j 1).val < 128 * k2.val)) → g j = pfxZ) :
    ∀ j : S8x4096.Idx, ((j 0).val < k1.val ∨ ((j 0).val = k1.val ∧ (j 1).val < 128 * (k2.val + 1))) →
      ((blkA).view.writes (Elt F) g
        [⟨Rect.unit (s := S8x4096) (k0_off2 k1 k2 112#32) S1x16.size (k0_off2_inb k1 k2 7), shapeCast S1x16 (k0_pay2 (F := F)) shapeCasts_S16_S1x16⟩,
        ⟨Rect.unit (s := S8x4096) (k0_off2 k1 k2 96#32) S1x16.size (k0_off2_inb k1 k2 6), shapeCast S1x16 (k0_pay2 (F := F)) shapeCasts_S16_S1x16⟩,
        ⟨Rect.unit (s := S8x4096) (k0_off2 k1 k2 80#32) S1x16.size (k0_off2_inb k1 k2 5), shapeCast S1x16 (k0_pay2 (F := F)) shapeCasts_S16_S1x16⟩,
        ⟨Rect.unit (s := S8x4096) (k0_off2 k1 k2 64#32) S1x16.size (k0_off2_inb k1 k2 4), shapeCast S1x16 (k0_pay2 (F := F)) shapeCasts_S16_S1x16⟩,
        ⟨Rect.unit (s := S8x4096) (k0_off2 k1 k2 48#32) S1x16.size (k0_off2_inb k1 k2 3), shapeCast S1x16 (k0_pay2 (F := F)) shapeCasts_S16_S1x16⟩,
        ⟨Rect.unit (s := S8x4096) (k0_off2 k1 k2 32#32) S1x16.size (k0_off2_inb k1 k2 2), shapeCast S1x16 (k0_pay2 (F := F)) shapeCasts_S16_S1x16⟩,
        ⟨Rect.unit (s := S8x4096) (k0_off2 k1 k2 16#32) S1x16.size (k0_off2_inb k1 k2 1), shapeCast S1x16 (k0_pay2 (F := F)) shapeCasts_S16_S1x16⟩,
        ⟨Rect.unit (s := S8x4096) (k0_off2 k1 k2 0#32) S1x16.size (k0_off2_inb k1 k2 0), shapeCast S1x16 (k0_pay2 (F := F)) shapeCasts_S16_S1x16⟩]) j = pfxZ := by
  intro j hj
  exact pfx_zero_step (F := F) (blkA).view g k1.val k2.val (fun u => k0_off2 k1 k2 (BitVec.ofNat 32 (16 * u.val)))
    (fun u => Gen.k0_off2_inb k1 k2 u) (fun u => Gen.k0_off2_eq k1 k2 u) _ (fun x => pfx_pay2_cast x) hg j hj

theorem pfx_zeroB_step (k3 : Fin k0_t3_loop.trips) (k4 : Fin k0_t4_loop.trips) (g : Vec F S8x4096 .f32)
    (hg : ∀ j : S8x4096.Idx, ((j 0).val < k3.val ∨ ((j 0).val = k3.val ∧ (j 1).val < 128 * k4.val)) → g j = pfxZ) :
    ∀ j : S8x4096.Idx, ((j 0).val < k3.val ∨ ((j 0).val = k3.val ∧ (j 1).val < 128 * (k4.val + 1))) →
      ((blkB).view.writes (Elt F) g
        [⟨Rect.unit (s := S8x4096) (k0_off3 k3 k4 112#32) S1x16.size (k0_off3_inb k3 k4 7), shapeCast S1x16 (k0_pay2 (F := F)) shapeCasts_S16_S1x16⟩,
        ⟨Rect.unit (s := S8x4096) (k0_off3 k3 k4 96#32) S1x16.size (k0_off3_inb k3 k4 6), shapeCast S1x16 (k0_pay2 (F := F)) shapeCasts_S16_S1x16⟩,
        ⟨Rect.unit (s := S8x4096) (k0_off3 k3 k4 80#32) S1x16.size (k0_off3_inb k3 k4 5), shapeCast S1x16 (k0_pay2 (F := F)) shapeCasts_S16_S1x16⟩,
        ⟨Rect.unit (s := S8x4096) (k0_off3 k3 k4 64#32) S1x16.size (k0_off3_inb k3 k4 4), shapeCast S1x16 (k0_pay2 (F := F)) shapeCasts_S16_S1x16⟩,
        ⟨Rect.unit (s := S8x4096) (k0_off3 k3 k4 48#32) S1x16.size (k0_off3_inb k3 k4 3), shapeCast S1x16 (k0_pay2 (F := F)) shapeCasts_S16_S1x16⟩,
        ⟨Rect.unit (s := S8x4096) (k0_off3 k3 k4 32#32) S1x16.size (k0_off3_inb k3 k4 2), shapeCast S1x16 (k0_pay2 (F := F)) shapeCasts_S16_S1x16⟩,
        ⟨Rect.unit (s := S8x4096) (k0_off3 k3 k4 16#32) S1x16.size (k0_off3_inb k3 k4 1), shapeCast S1x16 (k0_pay2 (F := F)) shapeCasts_S16_S1x16⟩,
        ⟨Rect.unit (s := S8x4096) (k0_off3 k3 k4 0#32) S1x16.size (k0_off3_inb k3 k4 0), shapeCast S1x16 (k0_pay2 (F := F)) shapeCasts_S16_S1x16⟩]) j = pfxZ := by
  intro j hj
  exact pfx_zero_step (F := F) (blkB).view g k3.val k4.val (fun u => k0_off3 k3 k4 (BitVec.ofNat 32 (16 * u.val)))
    (fun u => Gen.k0_off3_inb k3 k4 u) (fun u => Gen.k0_off3_eq k3 k4 u) _ (fun x => pfx_pay2_cast x) hg j hj

theorem pfx_wp_then_pure {α β : Type} (thr : Thread nD τ) (p : Prog (TpuEff nD τ sig (Elt F) Λ₀ thr.2) α) (b : β)
    (Φ : β → sProp 𝕄) :
    wp frame (wpE (defs₀ (F := F)) 𝒱₀ thr none) Set.univ p (fun _ => Φ b)
      ⊢ wp frame (wpE (defs₀ (F := F)) 𝒱₀ thr none) Set.univ (p >>= fun _ => pure b) Φ := by
  rw [wp_bind]
  exact wp_mono _ _ _ fun _ => le_wp_ret _ _ _ _ _

theorem pfx_part11 (qw qm : PosShare TreeShare) (O : CellTallies nD τ sig (HIx 2)) (W : Waits sig (HIx 2))
    (fA : Buf (Elt F) ((pfxThr d L).loc cc0_scratch0)) (fB : Buf (Elt F) ((pfxThr d L).loc cc0_scratch1))
    (fw : Buf (Elt F) ((pfxThr d L).loc cc0_scratch2)) (fm : Buf (Elt F) ((pfxThr d L).loc cc0_scratch3))
    (Φ : (Σ' (_ : BitVec 32), FVec F S16 .f32) → sProp 𝕄) :
    iprop(Transfers.MayWaits (pfxThr d L) (none : HIx 2) O
        ∗ ((wW).view.loc (pfxThr d L) ↦{qw} m (wLoc d))
        ∗ ((mW).view.loc (pfxThr d L) ↦{qm} m (mLoc d))
        ∗ ((blkA).view.loc (pfxThr d L) ↦{fullShare} fA)
        ∗ ((blkB).view.loc (pfxThr d L) ↦{fullShare} fB)
        ∗ ((wvS).view.loc (pfxThr d L) ↦{fullShare} fw)
        ∗ ((mvS).view.loc (pfxThr d L) ↦{fullShare} fm)
        ∗ semVal (pfxThr d L, SemLoc.dma cc0_scoped0.sem) 0
        ∗ semVal (pfxThr d L, SemLoc.dma cc0_scoped1.sem) 0
        ∗ owes (pfxThr d L) O W
        ∗ (∀ W', ⌜∀ p ∈ W', p ∈ W ∨ p.2 = none⌝ -∗
            (Transfers.MayWaits (pfxThr d L) (none : HIx 2) O
              ∗ ((wW).view.loc (pfxThr d L) ↦{qw} m (wLoc d))
              ∗ ((mW).view.loc (pfxThr d L) ↦{qm} m (mLoc d))
              ∗ ((blkA).view.loc (pfxThr d L) ↦{fullShare} (fun _ => pfxZ))
              ∗ ((blkB).view.loc (pfxThr d L) ↦{fullShare} (fun _ => pfxZ))
              ∗ ((wvS).view.loc (pfxThr d L) ↦{fullShare} pfxWv m d L)
              ∗ ((mvS).view.loc (pfxThr d L) ↦{fullShare} pfxMv m d L)
              ∗ semVal (pfxThr d L, SemLoc.dma cc0_scoped0.sem) 0
              ∗ semVal (pfxThr d L, SemLoc.dma cc0_scoped1.sem) 0
              ∗ owes (pfxThr d L) O W') -∗
            wp frame (wpE (defs₀ (F := F)) 𝒱₀ (pfxThr d L) none) Set.univ
              (Scf.Loop.for k0_t5_loop k0_t5_ok ⟨⟩
                (k0_t5_body L wW (Memref.isWhole_whole _) mW (Memref.isWhole_whole _) dW (Memref.isWhole_whole _)
                  blkA (Memref.isWhole_whole _) blkB (Memref.isWhole_whole _) wvS (Memref.isWhole_whole _) mvS (Memref.isWhole_whole _)
                  cc0_scratch4 cc0_scratch5 cc0_scoped0 cc0_scoped1))
              (fun _ => Φ ⟨pfxWid L, k0_pay2⟩)))
      ⊢ wp frame (wpE (defs₀ (F := F)) 𝒱₀ (pfxThr d L) none) Set.univ
          (k0_part11 L wW (Memref.isWhole_whole _) mW (Memref.isWhole_whole _) dW (Memref.isWhole_whole _)
            blkA (Memref.isWhole_whole _) blkB (Memref.isWhole_whole _) wvS (Memref.isWhole_whole _) mvS (Memref.isWhole_whole _)
            cc0_scratch4 cc0_scratch5 cc0_scoped0 cc0_scoped1) Φ := by
  rw [k0_part11_eq_skeleton]
  unfold k0_part11_skel
  iintro ⟨#Hmw, Hw, Hm, HA, HB, Hwv, Hmv, Hs0, Hs1, HO, Hk⟩
  sl_exec

  sl_for (pfx_invA (F := F) d L) $$ [HA]
  case region =>
    intro k1 _
    unfold pfx_invA
    iintro ⟨%f, %hf, HA⟩
    sl_exec
    sl_for (pfx_invA2 (F := F) d L k1.val) $$ [HA]
    case region =>
      intro k2 _
      unfold pfx_invA2
      iintro ⟨%g, %hg, HA⟩
      sl_exec
      sl_step
      iexists _
      isplitr
      pick_goal 2
      · iexact HA
      · ipureintro
        exact pfx_zeroA_step k1 k2 g hg
    · unfold pfx_invA2
      iexists f
      isplitr
      · ipureintro
        intro j hj
        exact hf j (by omega)
      · iexact HA
    iintro %_ HI
    unfold pfx_invA2
    icases HI with ⟨%g, %hg, HA⟩
    sl_exec
    sl_step
    iexists g
    isplitr
    · ipureintro
      intro j hj
      have ht : Scf.trips k0_t2_loop.lb k0_t2_loop.ub k0_t2_loop.st = 32 := by decide
      rw [ht] at hg
      have h1 : (j 1).val < 4096 := (j 1).isLt
      exact hg j (by omega)
    · iexact HA
  · unfold pfx_invA
    iexists fA
    isplitr
    · ipureintro
      intro j hj
      exact absurd hj (Nat.not_lt_zero _)
    · iexact HA
  iintro %_ HI
  unfold pfx_invA
  icases HI with ⟨%fA', %hfA', HA⟩
  have eA : fA' = fun _ => pfxZ := by
    funext j
    have ht : Scf.trips k0_t1_loop.lb k0_t1_loop.ub k0_t1_loop.st = 8 := by decide
    rw [ht] at hfA'
    exact hfA' j (j 0).isLt
  subst eA
  sl_exec

  sl_for (pfx_invB (F := F) d L) $$ [HB]
  case region =>
    intro k3 _
    unfold pfx_invB
    iintro ⟨%f, %hf, HB⟩
    sl_exec
    sl_for (pfx_invB2 (F := F) d L k3.val) $$ [HB]
    case region =>
      intro k4 _
      unfold pfx_invB2
      iintro ⟨%g, %hg, HB⟩
      sl_exec
      sl_step
      iexists _
      isplitr
      pick_goal 2
      · iexact HB
      · ipureintro
        exact pfx_zeroB_step k3 k4 g hg
    · unfold pfx_invB2
      iexists f
      isplitr
      · ipureintro
        intro j hj
        exact hf j (by omega)
      · iexact HB
    iintro %_ HI
    unfold pfx_invB2
    icases HI with ⟨%g, %hg, HB⟩
    sl_exec
    sl_step
    iexists g
    isplitr
    · ipureintro
      intro j hj
      have ht : Scf.trips k0_t4_loop.lb k0_t4_loop.ub k0_t4_loop.st = 32 := by decide
      rw [ht] at hg
      have h1 : (j 1).val < 4096 := (j 1).isLt
      exact hg j (by omega)
    · iexact HB
  · unfold pfx_invB
    iexists fB
    isplitr
    · ipureintro
      intro j hj
      exact absurd hj (Nat.not_lt_zero _)
    · iexact HB
  iintro %_ HI
  unfold pfx_invB
  icases HI with ⟨%fB', %hfB', HB⟩
  have eB : fB' = fun _ => pfxZ := by
    funext j
    have ht : Scf.trips k0_t3_loop.lb k0_t3_loop.ub k0_t3_loop.st = 8 := by decide
    rw [ht] at hfB'
    exact hfB' j (j 0).isLt
  subst eB
  sl_exec

  have eW : (wvS).view.write (Elt F) fw (pfx_part11.sl.dma0 m d L) Finset.univ = pfxWv m d L := View.write_whole_univ _ _ _
  have eM : (mvS).view.write (Elt F) fm (pfx_part11.sl.dma0_1 m d L) Finset.univ = pfxMv m d L := View.write_whole_univ _ _ _
  rw [eW, eM]
  have hW'' : ∀ p ∈ insert (SemLoc.dma cc0_scoped1.sem, (default : HIx 2)) (insert (SemLoc.dma cc0_scoped0.sem, (default : HIx 2)) W),
      p ∈ W ∨ p.2 = none := by
    intro p hp
    rcases Finset.mem_insert.mp hp with hp | hp
    · exact .inr (hp ▸ rfl)
    rcases Finset.mem_insert.mp hp with hp | hp
    · exact .inr (hp ▸ rfl)
    · exact .inl hp
  iapply (pfx_wp_then_pure (F := F) (pfxThr d L) _ _ Φ)
  iapply Hk $$ %_ %hW'' [Hw Hm HA HB Hwv Hmv Hs0 Hs1 HO]
  isplitr; · iexact Hmw
  isplitl [Hw]; · iexact Hw
  isplitl [Hm]; · iexact Hm
  isplitl [HA]; · iexact HA
  isplitl [HB]; · iexact HB
  isplitl [Hwv]; · iexact Hwv
  isplitl [Hmv]; · iexact Hmv
  isplitl [Hs0]; · iexact Hs0
  isplitl [Hs1]; · iexact Hs1
  iexact HO

end Cert.Proof.KB

end
-- ==== Proof.KB.Tile0p11.lean ====
import proofs.«207445_g73023033966933_cont_9to1_m_863_36_alg».proof.Proof.KB.Tile0Defs
import proofs.«207445_g73023033966933_cont_9to1_m_863_36_alg».proof.Proof.KB.Prefix0

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "wV" => (Memref.whole Cert.Kernel.main_arg1_scv : Memref Cert.Kernel.sig Kind.scVector Space.hbm Cert.Kernel.S4096x128 EltTy.f32)
local notation "mV" => (Memref.whole Cert.Kernel.main_arg2_scv : Memref Cert.Kernel.sig Kind.scVector Space.hbm Cert.Kernel.S4096x128 EltTy.i32)
local notation "dV" => (Memref.whole Cert.Kernel.main_v1_scv : Memref Cert.Kernel.sig Kind.scVector Space.hbm Cert.Kernel.S1536x4096 EltTy.f32)
local notation "bA" => (Memref.whole Cert.Kernel.cc0_scratch0 : Memref Cert.Kernel.sig Kind.scVector Space.vmem Cert.Kernel.S8x4096 EltTy.f32)
local notation "bB" => (Memref.whole Cert.Kernel.cc0_scratch1 : Memref Cert.Kernel.sig Kind.scVector Space.vmem Cert.Kernel.S8x4096 EltTy.f32)
local notation "sW" => (Memref.whole Cert.Kernel.cc0_scratch2 : Memref Cert.Kernel.sig Kind.scVector Space.vmem Cert.Kernel.S48x128 EltTy.f32)
local notation "sM" => (Memref.whole Cert.Kernel.cc0_scratch3 : Memref Cert.Kernel.sig Kind.scVector Space.vmem Cert.Kernel.S48x128 EltTy.i32)

variable [FloatOps F] (m : (ℓ : Loc nD τ sig) → Buf (Elt F) ℓ)

section Tile

variable (d : Dev nD) (L : grid0.Coords)

local notation "THR" => V d (cV L) (jV L)
local notation "WP" => wp frame (wpE (defs₀ (F := F)) 𝒱₀ (V d (cV L) (jV L)) none) Set.univ
local notation "AT[" f "]" => f L (wV) (Memref.isWhole_whole _) (mV) (Memref.isWhole_whole _) (dV) (Memref.isWhole_whole _) (bA) (Memref.isWhole_whole _) (bB) (Memref.isWhole_whole _) (sW) (Memref.isWhole_whole _) (sM) (Memref.isWhole_whole _) cc0_scratch4 cc0_scratch5 cc0_scoped0 cc0_scoped1

variable (O : CellTallies nD τ sig (HIx 2))
variable (qw qm : PosShare TreeShare)

theorem t0_fm_lt (hpre : PreOK m) : ∀ i, ((t0_fm m d L) i).toNat < 4096 := by
  intro i
  unfold t0_fm
  rw [View.read_apply]
  exact hpre d _

theorem part11_spec : T0Part11 m d L := by
  intro O qw qm hpre hO W Φ
  iintro ⟨#Hlv, Hw, Hm, ⟨%fA, HA⟩, ⟨%fB, HB⟩, ⟨%fw, Hwv⟩, ⟨%fm, Hmv⟩, Hs0, Hs1, HO, Hk⟩
  ihave Hmw := ((K (F := F)).mayWaits_none (thr := THR) hO) $$ Hlv
  iapply (pfx_part11 (F := F) m d L qw qm O W fA fB fw fm Φ)
  isplitl [Hmw]; · iexact Hmw
  isplitl [Hw]; · iexact Hw
  isplitl [Hm]; · iexact Hm
  isplitl [HA]; · iexact HA
  isplitl [HB]; · iexact HB
  isplitl [Hwv]; · iexact Hwv
  isplitl [Hmv]; · iexact Hmv
  isplitl [Hs0]; · iexact Hs0
  isplitl [Hs1]; · iexact Hs1
  isplitl [HO]; · iexact HO
  iintro %W' %hW' ⟨Hmw, Hw, Hm, HA, HB, Hwv, Hmv, Hs0, Hs1, HO⟩

  iapply (wp_wand_r frame (wpE (defs₀ (F := F)) 𝒱₀ THR none) Set.univ)
  isplitl [HA Hwv Hmv]
  · iapply (t0_loop_t5 (F := F) d L (pfxWv m d L) (pfxMv m d L) (t0_fm_lt m d L hpre) (fun _ => pfxZ))
    isplitl [HA]; · iexact HA
    isplitl [Hwv]; · iexact Hwv
    iexact Hmv
  iintro %_ ⟨HA, Hwv, Hmv⟩
  unfold pfxWid
  iapply Hk $$ %W' %hW' [Hw Hm HA HB Hwv Hmv Hs0 Hs1 HO]
  unfold t0_fix
  isplitl [Hw Hm Hwv Hmv Hs0 Hs1]
  · isplitl [Hw]; · iexact Hw
    isplitl [Hm]; · iexact Hm
    isplitl [Hwv]; · iexact Hwv
    isplitl [Hmv]; · iexact Hmv
    isplitl [Hs0]; · iexact Hs0
    iexact Hs1
  isplitl [HA]; · iexact HA
  isplitl [HB]; · iexact HB
  iexact HO

end Tile

end Cert.Proof.KB

end
-- ==== Proof.KB.Tile0Close.lean ====
import proofs.«207445_g73023033966933_cont_9to1_m_863_36_alg».proof.Proof.KB.Tile0Body
import proofs.«207445_g73023033966933_cont_9to1_m_863_36_alg».proof.Proof.KB.Tile0
import proofs.«207445_g73023033966933_cont_9to1_m_863_36_alg».proof.Proof.KB.Tile0c
import proofs.«207445_g73023033966933_cont_9to1_m_863_36_alg».proof.Proof.KB.Tile0p11
import proofs.«207445_g73023033966933_cont_9to1_m_863_36_alg».proof.Proof.KB.Tile0Obl

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F] (m : (ℓ : Loc nD τ sig) → Buf (Elt F) ℓ)

theorem tileObl0_closed (hpre : PreOK m) : (K (F := F)).TileObl (D (F := F)) 𝒱 (P m) v₀ 0 :=
  tileObl0 m facts hpre (tile0Body_of m (part11_spec m) (part12_spec m) (part13_spec m) (tail_spec m) facts hpre)

end Cert.Proof.KB

end
-- ==== Proof.KB.Tile1Defs.lean ====
import proofs.«207445_g73023033966933_cont_9to1_m_863_36_alg».proof.Proof.KB.Common
import proofs.«207445_g73023033966933_cont_9to1_m_863_36_alg».proof.Proof.SpecF
import proofs.«207445_g73023033966933_cont_9to1_m_863_36_alg».proof.Proof.KB.Scatter

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "wV" => (Memref.whole Cert.Kernel.main_arg1_scv : Memref Cert.Kernel.sig Kind.scVector Space.hbm Cert.Kernel.S4096x128 EltTy.f32)
local notation "mV" => (Memref.whole Cert.Kernel.main_arg2_scv : Memref Cert.Kernel.sig Kind.scVector Space.hbm Cert.Kernel.S4096x128 EltTy.i32)
local notation "dV" => (Memref.whole Cert.Kernel.main_v4_scv : Memref Cert.Kernel.sig Kind.scVector Space.hbm Cert.Kernel.S2560x4096 EltTy.f32)
local notation "bA" => (Memref.whole Cert.Kernel.cc2_scratch0 : Memref Cert.Kernel.sig Kind.scVector Space.vmem Cert.Kernel.S8x4096 EltTy.f32)
local notation "bB" => (Memref.whole Cert.Kernel.cc2_scratch1 : Memref Cert.Kernel.sig Kind.scVector Space.vmem Cert.Kernel.S8x4096 EltTy.f32)
local notation "sW" => (Memref.whole Cert.Kernel.cc2_scratch2 : Memref Cert.Kernel.sig Kind.scVector Space.vmem Cert.Kernel.S80x128 EltTy.f32)
local notation "sM" => (Memref.whole Cert.Kernel.cc2_scratch3 : Memref Cert.Kernel.sig Kind.scVector Space.vmem Cert.Kernel.S80x128 EltTy.i32)

abbrev t1_cV (L : grid2.Coords) : Fin τ.nSC := (L 0).castLE hcore2
abbrev t1_jV (L : grid2.Coords) : Fin τ.nSub := (L 1).castLE hsub2

abbrev t1_wRows (L : grid2.Coords) : Memref sig .scVector .hbm S80x128 .f32 :=
  (wV).slice (Rect.unit (s := S4096x128) (k2_off1 L) S80x128.size (k2_off1_inb L)) (fun _ => rfl)
abbrev t1_mRows (L : grid2.Coords) : Memref sig .scVector .hbm S80x128 .i32 :=
  (mV).slice (Rect.unit (s := S4096x128) (k2_off1 L) S80x128.size (k2_off1_inb L)) (fun _ => rfl)

abbrev t1_piece0 (L : grid2.Coords) : Memref sig .scVector .hbm S8x4096 .f32 :=
  (dV).slice (Rect.unit (s := S2560x4096) (k2_off5 L 0#32) S8x4096.size (k2_off5_inb L 0)) (fun _ => rfl)
abbrev t1_piece1 (L : grid2.Coords) : Memref sig .scVector .hbm S8x4096 .f32 :=
  (dV).slice (Rect.unit (s := S2560x4096) (k2_off5 L 8#32) S8x4096.size (k2_off5_inb L 1)) (fun _ => rfl)
abbrev t1_piece2 (L : grid2.Coords) : Memref sig .scVector .hbm S8x4096 .f32 :=
  (dV).slice (Rect.unit (s := S2560x4096) (k2_off5 L 16#32) S8x4096.size (k2_off5_inb L 2)) (fun _ => rfl)
abbrev t1_piece3 (L : grid2.Coords) : Memref sig .scVector .hbm S8x4096 .f32 :=
  (dV).slice (Rect.unit (s := S2560x4096) (k2_off5 L 24#32) S8x4096.size (k2_off5_inb L 3)) (fun _ => rfl)
abbrev t1_piece4 (L : grid2.Coords) : Memref sig .scVector .hbm S8x4096 .f32 :=
  (dV).slice (Rect.unit (s := S2560x4096) (k2_off5 L 32#32) S8x4096.size (k2_off5_inb L 4)) (fun _ => rfl)
abbrev t1_piece5 (L : grid2.Coords) : Memref sig .scVector .hbm S8x4096 .f32 :=
  (dV).slice (Rect.unit (s := S2560x4096) (k2_off5 L 40#32) S8x4096.size (k2_off5_inb L 5)) (fun _ => rfl)
abbrev t1_piece6 (L : grid2.Coords) : Memref sig .scVector .hbm S8x4096 .f32 :=
  (dV).slice (Rect.unit (s := S2560x4096) (k2_off5 L 48#32) S8x4096.size (k2_off5_inb L 6)) (fun _ => rfl)
abbrev t1_piece7 (L : grid2.Coords) : Memref sig .scVector .hbm S8x4096 .f32 :=
  (dV).slice (Rect.unit (s := S2560x4096) (k2_off5 L 56#32) S8x4096.size (k2_off5_inb L 7)) (fun _ => rfl)
abbrev t1_piece8 (L : grid2.Coords) : Memref sig .scVector .hbm S8x4096 .f32 :=
  (dV).slice (Rect.unit (s := S2560x4096) (k2_off5 L 64#32) S8x4096.size (k2_off5_inb L 8)) (fun _ => rfl)
abbrev t1_piece9 (L : grid2.Coords) : Memref sig .scVector .hbm S8x4096 .f32 :=
  (dV).slice (Rect.unit (s := S2560x4096) (k2_off5 L 72#32) S8x4096.size (k2_off5_inb L 9)) (fun _ => rfl)

variable [FloatOps F]

def t1_z : Elt F .f32 := (Scalar.ofBits .f32 0x00000000#32 : F .f32)

def t1_wr (fw : Vec F S80x128 .f32) (sb : Fin 10) : Fin 8 → Fin 128 → Elt F .f32 :=
  fun r k => fw (ValueIdx.ix2 (⟨8 * sb.val + r.val, by have := sb.isLt; have := r.isLt; omega⟩ : Fin 80) k)
def t1_mr (fm : IVec S80x128 32) (sb : Fin 10) : Fin 8 → Fin 128 → BitVec 32 :=
  fun r k => fm (ValueIdx.ix2 (⟨8 * sb.val + r.val, by have := sb.isLt; have := r.isLt; omega⟩ : Fin 80) k)

def t1_blk (fw : Vec F S80x128 .f32) (fm : IVec S80x128 32) (sb : Fin 10) : Vec F S8x4096 .f32 :=
  SpecF.foldAdd (t1_wr fw sb) (t1_mr fm sb) 64 (fun _ => t1_z)

theorem t1_clr_blk (fw : Vec F S80x128 .f32) (fm : IVec S80x128 32) (hfm : ∀ i, (fm i).toNat < 4096) (sb : Fin 10) :
    SpecF.foldClr t1_z (t1_mr fm sb) 64 (t1_blk fw fm sb) = fun _ => t1_z :=
  SpecF.foldClr_foldAdd _ _ (fun r k => hfm _) _

theorem t1_add_z (fw : Vec F S80x128 .f32) (fm : IVec S80x128 32) (sb : Fin 10) :
    SpecF.foldAdd (t1_wr fw sb) (t1_mr fm sb) 64 (fun _ => t1_z) = t1_blk fw fm sb := rfl

variable (m : (ℓ : Loc nD τ sig) → Buf (Elt F) ℓ)

def t1_fw (d : Dev nD) (L : grid2.Coords) : Vec F S80x128 .f32 := (t1_wRows L).view.read (Elt F) (m (wLoc d))
def t1_fm (d : Dev nD) (L : grid2.Coords) : IVec S80x128 32 := (t1_mRows L).view.read (Elt F) (m (mLoc d))

def t1_tail (i : grid2.Coords) (arg2 : Memref sig .scVector .hbm S4096x128 .f32) (harg2 : arg2.IsWhole) (arg3 : Memref sig .scVector .hbm S4096x128 .i32) (harg3 : arg3.IsWhole) (arg4 : Memref sig .scVector .hbm S2560x4096 .f32) (harg4 : arg4.IsWhole) (arg5 : Memref sig .scVector .vmem S8x4096 .f32) (harg5 : arg5.IsWhole) (arg6 : Memref sig .scVector .vmem S8x4096 .f32) (harg6 : arg6.IsWhole) (arg7 : Memref sig .scVector .vmem S80x128 .f32) (harg7 : arg7.IsWhole) (arg8 : Memref sig .scVector .vmem S80x128 .i32) (harg8 : arg8.IsWhole) (arg9 : DmaSems sig S_) (arg10 : DmaSems sig S_) (v105_r0 : DmaSems sig S_) (v105_r1 : DmaSems sig S_) (v4 : FVec F S16 .f32) :
    Prog (TpuEff nD τ sig (Elt F) Λ₀ (.scVector ((i 0).castLE hcore2) ((i 1).castLE hsub2))) PUnit := do
  let v86 : Memref sig .scVector .hbm S8x4096 .f32 := arg4.slice (Rect.unit (s := S2560x4096) (k2_off5 i 64#32) S8x4096.size (k2_off5_inb i 8)) (fun _ => rfl)
  Prog.lift (.enqueueDma arg5 (.here v86) (.dma arg9.sem) harg5.wordExact (View.wordExact_bits rfl) ⟨Or.inl rfl, trivial⟩)
  let v90 : Memref sig .scVector .hbm S8x4096 .f32 := arg4.slice (Rect.unit (s := S2560x4096) (k2_off5 i 56#32) S8x4096.size (k2_off5_inb i 7)) (fun _ => rfl)
  Prog.lift (.waitDma2 arg10.sem arg6 v90 harg6.wordExact (View.wordExact_bits rfl))
  Scf.Loop.for k2_t21_loop k2_t21_ok ⟨⟩ (k2_t21_body i arg2 harg2 arg3 harg3 arg4 harg4 arg5 harg5 arg6 harg6 arg7 harg7 arg8 harg8 arg9 arg10 v105_r0 v105_r1 v4)
  Scf.Loop.for k2_t22_loop k2_t22_ok ⟨⟩ (k2_t22_body i arg2 harg2 arg3 harg3 arg4 harg4 arg5 harg5 arg6 harg6 arg7 harg7 arg8 harg8 arg9 arg10 v105_r0 v105_r1)
  let v96 : Memref sig .scVector .hbm S8x4096 .f32 := arg4.slice (Rect.unit (s := S2560x4096) (k2_off5 i 72#32) S8x4096.size (k2_off5_inb i 9)) (fun _ => rfl)
  Prog.lift (.enqueueDma arg6 (.here v96) (.dma arg10.sem) harg6.wordExact (View.wordExact_bits rfl) ⟨Or.inl rfl, trivial⟩)
  let v100 : Memref sig .scVector .hbm S8x4096 .f32 := arg4.slice (Rect.unit (s := S2560x4096) (k2_off5 i 64#32) S8x4096.size (k2_off5_inb i 8)) (fun _ => rfl)
  Prog.lift (.waitDma2 arg9.sem arg5 v100 harg5.wordExact (View.wordExact_bits rfl))
  let v104 : Memref sig .scVector .hbm S8x4096 .f32 := arg4.slice (Rect.unit (s := S2560x4096) (k2_off5 i 72#32) S8x4096.size (k2_off5_inb i 9)) (fun _ => rfl)
  Prog.lift (.waitDma2 arg10.sem arg6 v104 harg6.wordExact (View.wordExact_bits rfl))
  pure ⟨⟩

section Tile

variable (d : Dev nD) (L : grid2.Coords)

local notation "THR" => V d (t1_cV L) (t1_jV L)
local notation "WP" => wp frame (wpE (defs₀ (F := F)) 𝒱₀ (V d (t1_cV L) (t1_jV L)) none) Set.univ
local notation "AT[" f "]" => f L (wV) (Memref.isWhole_whole _) (mV) (Memref.isWhole_whole _) (dV) (Memref.isWhole_whole _) (bA) (Memref.isWhole_whole _) (bB) (Memref.isWhole_whole _) (sW) (Memref.isWhole_whole _) (sM) (Memref.isWhole_whole _) cc2_scratch4 cc2_scratch5 cc2_scoped0 cc2_scoped1

abbrev t1_cA : GSem nD τ sig := (V d (t1_cV L) (t1_jV L), .dma cc2_scratch4.sem)
abbrev t1_cB : GSem nD τ sig := (V d (t1_cV L) (t1_jV L), .dma cc2_scratch5.sem)
abbrev t1_cW : GSem nD τ sig := (V d (t1_cV L) (t1_jV L), .dma cc2_scoped0.sem)
abbrev t1_cM : GSem nD τ sig := (V d (t1_cV L) (t1_jV L), .dma cc2_scoped1.sem)

abbrev t1_own {sp : Space} {s : Shape} {e : EltTy} (M : Memref sig .scVector sp s e) (q : PosShare TreeShare)
    (f : Buf (Elt F) (M.view.loc (V d (t1_cV L) (t1_jV L)))) : sProp 𝕄 :=
  M.view.loc (V d (t1_cV L) (t1_jV L)) ↦[M.view.set]{q} f

abbrev t1_landed (P : Memref sig .scVector .hbm S8x4096 .f32) (B : Memref sig .scVector .vmem S8x4096 .f32)
    (g : Buf (Elt F) (P.view.loc (V d (t1_cV L) (t1_jV L)))) (blk : Buf (Elt F) (B.view.loc (V d (t1_cV L) (t1_jV L)))) :
    Buf (Elt F) (P.view.loc (V d (t1_cV L) (t1_jV L))) :=
  P.view.writes (Elt F) g [⟨Rect.whole S8x4096, ReadAs.same.apply (B.view.read (Elt F) blk)⟩]

abbrev t1_flight (sem : DmaSem sig) (P : Memref sig .scVector .hbm S8x4096 .f32) (B : Memref sig .scVector .vmem S8x4096 .f32)
    (g : Buf (Elt F) (P.view.loc (V d (t1_cV L) (t1_jV L)))) (blk : Buf (Elt F) (B.view.loc (V d (t1_cV L) (t1_jV L)))) : sProp 𝕄 :=
  Transfers.Flight (countersEmb (U := UU)) (V d (t1_cV L) (t1_jV L)) (.dma sem) (none : HIx 2) (P.view.amount (SemLoc.dma (sig := sig) sem))
    iprop(t1_own d L P fullShare (t1_landed d L P B g blk) ∗ t1_own d L B fullShare blk)

def t1_fix (qw qm : PosShare TreeShare) (fw : Vec F S80x128 .f32) (fm : IVec S80x128 32) : sProp 𝕄 :=
  iprop(((wV).view.loc THR ↦{qw} m (wLoc d)) ∗ ((mV).view.loc THR ↦{qm} m (mLoc d))
    ∗ ((sW).view.loc THR ↦{fullShare} fw) ∗ ((sM).view.loc THR ↦{fullShare} fm)
    ∗ semVal (t1_cW d L) 0 ∗ semVal (t1_cM d L) 0)

def t1_GOK (fw : Vec F S80x128 .f32) (fm : IVec S80x128 32) (G0 : Buf (Elt F) (d1Loc d)) : Prop :=
  (∀ j, G0 ((t1_piece0 L).view.emb j) = t1_blk fw fm 0 j)
  ∧ (∀ j, G0 ((t1_piece1 L).view.emb j) = t1_blk fw fm 1 j)
  ∧ (∀ j, G0 ((t1_piece2 L).view.emb j) = t1_blk fw fm 2 j)
  ∧ (∀ j, G0 ((t1_piece3 L).view.emb j) = t1_blk fw fm 3 j)
  ∧ (∀ j, G0 ((t1_piece4 L).view.emb j) = t1_blk fw fm 4 j)
  ∧ (∀ j, G0 ((t1_piece5 L).view.emb j) = t1_blk fw fm 5 j)
  ∧ (∀ j, G0 ((t1_piece6 L).view.emb j) = t1_blk fw fm 6 j)
  ∧ (∀ j, G0 ((t1_piece7 L).view.emb j) = t1_blk fw fm 7 j)
  ∧ (∀ j, G0 ((t1_piece8 L).view.emb j) = t1_blk fw fm 8 j)
  ∧ (∀ j, G0 ((t1_piece9 L).view.emb j) = t1_blk fw fm 9 j)

abbrev t1_pieceAt (off : Fin 2 → Nat) (inb : ∀ a, off a + S8x4096.size a ≤ S2560x4096.size a) : Memref sig .scVector .hbm S8x4096 .f32 :=
  (dV).slice (Rect.unit (s := S2560x4096) off S8x4096.size inb) (fun _ => rfl)

theorem t1_own_writes (off : Fin 2 → Nat) (inb : ∀ a, off a + S8x4096.size a ≤ S2560x4096.size a)
    (g : Buf (Elt F) (d1Loc d)) (w : S8x4096.Idx → Elt F .f32) (G0 : Buf (Elt F) (d1Loc d))
    (h : ∀ j, G0 ((t1_pieceAt off inb).view.emb j) = w j) :
    (t1_own d L (t1_pieceAt off inb) fullShare ((t1_pieceAt off inb).view.writes (Elt F) g [⟨Rect.whole S8x4096, w⟩]) : sProp 𝕄)
      = t1_own d L (t1_pieceAt off inb) fullShare G0 := by
  apply pointsTo_congr
  intro i hi
  obtain ⟨y, -, rfl⟩ := Finset.mem_map.mp hi
  rw [← View.write_univ_eq_writes_whole, View.writes_nil, View.write_emb_of_mem _ _ (Finset.mem_univ _), h y]
  rfl

def t1_tile (f : Buf (Elt F) (d1Loc d)) : sProp 𝕄 :=
  iprop((d1Loc d ↦[(t1_piece0 L).view.set]{fullShare} f)
    ∗ (d1Loc d ↦[(t1_piece1 L).view.set]{fullShare} f)
    ∗ (d1Loc d ↦[(t1_piece2 L).view.set]{fullShare} f)
    ∗ (d1Loc d ↦[(t1_piece3 L).view.set]{fullShare} f)
    ∗ (d1Loc d ↦[(t1_piece4 L).view.set]{fullShare} f)
    ∗ (d1Loc d ↦[(t1_piece5 L).view.set]{fullShare} f)
    ∗ (d1Loc d ↦[(t1_piece6 L).view.set]{fullShare} f)
    ∗ (d1Loc d ↦[(t1_piece7 L).view.set]{fullShare} f)
    ∗ (d1Loc d ↦[(t1_piece8 L).view.set]{fullShare} f)
    ∗ (d1Loc d ↦[(t1_piece9 L).view.set]{fullShare} f))

theorem t1_wholeA : WholeBlk (F := F) d (t1_cV L) (t1_jV L) (bA) (fun g => g) :=
  ⟨Memref.set_access_whole cc2_scratch0, Memref.read_access_whole (Elt F) cc2_scratch0, Memref.write_access_whole_univ (Elt F) cc2_scratch0⟩
theorem t1_wholeB : WholeBlk (F := F) d (t1_cV L) (t1_jV L) (bB) (fun g => g) :=
  ⟨Memref.set_access_whole cc2_scratch1, Memref.read_access_whole (Elt F) cc2_scratch1, Memref.write_access_whole_univ (Elt F) cc2_scratch1⟩

section Loops

variable (fw : Vec F S80x128 .f32) (fm : IVec S80x128 32)
variable (v1 : BitVec 32) (v4 : FVec F S16 .f32) (c0 v67 c40 : BitVec 32)

theorem t1_loop_t5 (hfm : ∀ i, (fm i).toNat < 4096) (blk : Vec F S8x4096 .f32) :
    (iprop(((bA).view.loc THR ↦{fullShare} blk) ∗ ((sW).view.loc THR ↦{fullShare} fw) ∗ ((sM).view.loc THR ↦{fullShare} fm)) : sProp 𝕄)
      ⊢ WP (Scf.Loop.for k2_t5_loop k2_t5_ok ⟨⟩ (AT[k2_t5_body])) fun _ => iprop(((bA).view.loc THR ↦{fullShare} SpecF.foldAdd (t1_wr fw 0) (t1_mr fm 0) 64 blk)
          ∗ ((sW).view.loc THR ↦{fullShare} fw) ∗ ((sM).view.loc THR ↦{fullShare} fm)) :=
  scat_loopAdd d _ _ (sW) (sM) (bA) (fun g => g) fw fm _ _ blk k2_t5_loop k2_t5_ok (by decide) _ fun k hk g => by
    unfold k2_t5_body k2_part1
    simp only [Prog.lift, Prog.bind_op, Prog.bind_ret, Prog.pure_eq_ret]
    exact tripAdd d _ _ (sW) (sM) (bA) (fun g => g) fw fm fw fm (fun _ => rfl) (fun _ => rfl) hfm (t1_wholeA d L) 0 (by decide) k.val hk g _ _ ((by decide +kernel : ∀ k : Fin k2_t5_loop.trips, k2_off4 k = ![8 * 0 + k.val / 8, 16 * (k.val % 8)]) k) k2_chk1.dec

theorem t1_loop_t6 (hfm : ∀ i, (fm i).toNat < 4096) (blk : Vec F S8x4096 .f32) :
    (iprop(((bB).view.loc THR ↦{fullShare} blk) ∗ ((sW).view.loc THR ↦{fullShare} fw) ∗ ((sM).view.loc THR ↦{fullShare} fm)) : sProp 𝕄)
      ⊢ WP (Scf.Loop.for k2_t6_loop k2_t6_ok ⟨⟩ (AT[k2_t6_body] v1 v4)) fun _ => iprop(((bB).view.loc THR ↦{fullShare} SpecF.foldAdd (t1_wr fw 1) (t1_mr fm 1) 64 blk)
          ∗ ((sW).view.loc THR ↦{fullShare} fw) ∗ ((sM).view.loc THR ↦{fullShare} fm)) :=
  scat_loopAdd d _ _ (sW) (sM) (bB) (fun g => g) fw fm _ _ blk k2_t6_loop k2_t6_ok (by decide) _ fun k hk g => by
    unfold k2_t6_body k2_part2
    simp only [Prog.lift, Prog.bind_op, Prog.bind_ret, Prog.pure_eq_ret]
    exact tripAdd d _ _ (sW) (sM) (bB) (fun g => g) fw fm fw fm (fun _ => rfl) (fun _ => rfl) hfm (t1_wholeB d L) 1 (by decide) k.val hk g _ _ ((by decide +kernel : ∀ k : Fin k2_t6_loop.trips, k2_off6 k = ![8 * 1 + k.val / 8, 16 * (k.val % 8)]) k) k2_chk2.dec

theorem t1_loop_t7 (hfm : ∀ i, (fm i).toNat < 4096) (blk : Vec F S8x4096 .f32) :
    (iprop(((bA).view.loc THR ↦{fullShare} blk) ∗ ((sW).view.loc THR ↦{fullShare} fw) ∗ ((sM).view.loc THR ↦{fullShare} fm)) : sProp 𝕄)
      ⊢ WP (Scf.Loop.for k2_t7_loop k2_t7_ok ⟨⟩ (AT[k2_t7_body] v1 (fun _ => t1_z))) fun _ => iprop(((bA).view.loc THR ↦{fullShare} SpecF.foldClr t1_z (t1_mr fm 0) 64 blk)
          ∗ ((sW).view.loc THR ↦{fullShare} fw) ∗ ((sM).view.loc THR ↦{fullShare} fm)) :=
  scat_loopClr d _ _ (sW) (sM) (bA) (fun g => g) fw fm _ _ blk k2_t7_loop k2_t7_ok (by decide) _ fun k hk g => by
    unfold k2_t7_body k2_part3
    simp only [Prog.lift, Prog.bind_op, Prog.bind_ret, Prog.pure_eq_ret]
    exact tripClr d _ _ (sW) (sM) (bA) (fun g => g) fw fm fw fm (fun _ => rfl) (fun _ => rfl) hfm (t1_wholeA d L) 0 (by decide) _ k.val hk g _ _ ((by decide +kernel : ∀ k : Fin k2_t7_loop.trips, k2_off7 k = ![8 * 0 + k.val / 8, 16 * (k.val % 8)]) k) k2_chk3.dec

theorem t1_loop_t8 (hfm : ∀ i, (fm i).toNat < 4096) (blk : Vec F S8x4096 .f32) :
    (iprop(((bA).view.loc THR ↦{fullShare} blk) ∗ ((sW).view.loc THR ↦{fullShare} fw) ∗ ((sM).view.loc THR ↦{fullShare} fm)) : sProp 𝕄)
      ⊢ WP (Scf.Loop.for k2_t8_loop k2_t8_ok ⟨⟩ (AT[k2_t8_body] v1 v4)) fun _ => iprop(((bA).view.loc THR ↦{fullShare} SpecF.foldAdd (t1_wr fw 2) (t1_mr fm 2) 64 blk)
          ∗ ((sW).view.loc THR ↦{fullShare} fw) ∗ ((sM).view.loc THR ↦{fullShare} fm)) :=
  scat_loopAdd d _ _ (sW) (sM) (bA) (fun g => g) fw fm _ _ blk k2_t8_loop k2_t8_ok (by decide) _ fun k hk g => by
    unfold k2_t8_body k2_part4
    simp only [Prog.lift, Prog.bind_op, Prog.bind_ret, Prog.pure_eq_ret]
    exact tripAdd d _ _ (sW) (sM) (bA) (fun g => g) fw fm fw fm (fun _ => rfl) (fun _ => rfl) hfm (t1_wholeA d L) 2 (by decide) k.val hk g _ _ ((by decide +kernel : ∀ k : Fin k2_t8_loop.trips, k2_off8 k = ![8 * 2 + k.val / 8, 16 * (k.val % 8)]) k) k2_chk4.dec

theorem t1_loop_t9 (hfm : ∀ i, (fm i).toNat < 4096) (blk : Vec F S8x4096 .f32) :
    (iprop(((bB).view.loc THR ↦{fullShare} blk) ∗ ((sW).view.loc THR ↦{fullShare} fw) ∗ ((sM).view.loc THR ↦{fullShare} fm)) : sProp 𝕄)
      ⊢ WP (Scf.Loop.for k2_t9_loop k2_t9_ok ⟨⟩ (AT[k2_t9_body] v1 (fun _ => t1_z) 0#32)) fun _ => iprop(((bB).view.loc THR ↦{fullShare} SpecF.foldClr t1_z (t1_mr fm 1) 64 blk)
          ∗ ((sW).view.loc THR ↦{fullShare} fw) ∗ ((sM).view.loc THR ↦{fullShare} fm)) :=
  scat_loopClr d _ _ (sW) (sM) (bB) (fun g => g) fw fm _ _ blk k2_t9_loop k2_t9_ok (by decide) _ fun k hk g => by
    unfold k2_t9_body k2_part5
    simp only [Prog.lift, Prog.bind_op, Prog.bind_ret, Prog.pure_eq_ret]
    exact tripClr d _ _ (sW) (sM) (bB) (fun g => g) fw fm fw fm (fun _ => rfl) (fun _ => rfl) hfm (t1_wholeB d L) 1 (by decide) _ k.val hk g _ _ ((by decide +kernel : ∀ k : Fin k2_t9_loop.trips, k2_off9 k = ![8 * 1 + k.val / 8, 16 * (k.val % 8)]) k) k2_chk5.dec

theorem t1_loop_t10 (hfm : ∀ i, (fm i).toNat < 4096) (blk : Vec F S8x4096 .f32) :
    (iprop(((bB).view.loc THR ↦{fullShare} blk) ∗ ((sW).view.loc THR ↦{fullShare} fw) ∗ ((sM).view.loc THR ↦{fullShare} fm)) : sProp 𝕄)
      ⊢ WP (Scf.Loop.for k2_t10_loop k2_t10_ok ⟨⟩ (AT[k2_t10_body] v1 v4 c0)) fun _ => iprop(((bB).view.loc THR ↦{fullShare} SpecF.foldAdd (t1_wr fw 3) (t1_mr fm 3) 64 blk)
          ∗ ((sW).view.loc THR ↦{fullShare} fw) ∗ ((sM).view.loc THR ↦{fullShare} fm)) :=
  scat_loopAdd d _ _ (sW) (sM) (bB) (fun g => g) fw fm _ _ blk k2_t10_loop k2_t10_ok (by decide) _ fun k hk g => by
    unfold k2_t10_body k2_part6
    simp only [Prog.lift, Prog.bind_op, Prog.bind_ret, Prog.pure_eq_ret]
    exact tripAdd d _ _ (sW) (sM) (bB) (fun g => g) fw fm fw fm (fun _ => rfl) (fun _ => rfl) hfm (t1_wholeB d L) 3 (by decide) k.val hk g _ _ ((by decide +kernel : ∀ k : Fin k2_t10_loop.trips, k2_off10 k = ![8 * 3 + k.val / 8, 16 * (k.val % 8)]) k) k2_chk6.dec

theorem t1_loop_t11 (hfm : ∀ i, (fm i).toNat < 4096) (blk : Vec F S8x4096 .f32) :
    (iprop(((bA).view.loc THR ↦{fullShare} blk) ∗ ((sW).view.loc THR ↦{fullShare} fw) ∗ ((sM).view.loc THR ↦{fullShare} fm)) : sProp 𝕄)
      ⊢ WP (Scf.Loop.for k2_t11_loop k2_t11_ok ⟨⟩ (AT[k2_t11_body] v1 (fun _ => t1_z) c0)) fun _ => iprop(((bA).view.loc THR ↦{fullShare} SpecF.foldClr t1_z (t1_mr fm 2) 64 blk)
          ∗ ((sW).view.loc THR ↦{fullShare} fw) ∗ ((sM).view.loc THR ↦{fullShare} fm)) :=
  scat_loopClr d _ _ (sW) (sM) (bA) (fun g => g) fw fm _ _ blk k2_t11_loop k2_t11_ok (by decide) _ fun k hk g => by
    unfold k2_t11_body k2_part7
    simp only [Prog.lift, Prog.bind_op, Prog.bind_ret, Prog.pure_eq_ret]
    exact tripClr d _ _ (sW) (sM) (bA) (fun g => g) fw fm fw fm (fun _ => rfl) (fun _ => rfl) hfm (t1_wholeA d L) 2 (by decide) _ k.val hk g _ _ ((by decide +kernel : ∀ k : Fin k2_t11_loop.trips, k2_off11 k = ![8 * 2 + k.val / 8, 16 * (k.val % 8)]) k) k2_chk7.dec

theorem t1_loop_t12 (hfm : ∀ i, (fm i).toNat < 4096) (blk : Vec F S8x4096 .f32) :
    (iprop(((bA).view.loc THR ↦{fullShare} blk) ∗ ((sW).view.loc THR ↦{fullShare} fw) ∗ ((sM).view.loc THR ↦{fullShare} fm)) : sProp 𝕄)
      ⊢ WP (Scf.Loop.for k2_t12_loop k2_t12_ok ⟨⟩ (AT[k2_t12_body] v1 v4 c0)) fun _ => iprop(((bA).view.loc THR ↦{fullShare} SpecF.foldAdd (t1_wr fw 4) (t1_mr fm 4) 64 blk)
          ∗ ((sW).view.loc THR ↦{fullShare} fw) ∗ ((sM).view.loc THR ↦{fullShare} fm)) :=
  scat_loopAdd d _ _ (sW) (sM) (bA) (fun g => g) fw fm _ _ blk k2_t12_loop k2_t12_ok (by decide) _ fun k hk g => by
    unfold k2_t12_body k2_part8
    simp only [Prog.lift, Prog.bind_op, Prog.bind_ret, Prog.pure_eq_ret]
    exact tripAdd d _ _ (sW) (sM) (bA) (fun g => g) fw fm fw fm (fun _ => rfl) (fun _ => rfl) hfm (t1_wholeA d L) 4 (by decide) k.val hk g _ _ ((by decide +kernel : ∀ k : Fin k2_t12_loop.trips, k2_off12 k = ![8 * 4 + k.val / 8, 16 * (k.val % 8)]) k) k2_chk8.dec

theorem t1_loop_t13 (hfm : ∀ i, (fm i).toNat < 4096) (blk : Vec F S8x4096 .f32) :
    (iprop(((bB).view.loc THR ↦{fullShare} blk) ∗ ((sW).view.loc THR ↦{fullShare} fw) ∗ ((sM).view.loc THR ↦{fullShare} fm)) : sProp 𝕄)
      ⊢ WP (Scf.Loop.for k2_t13_loop k2_t13_ok ⟨⟩ (AT[k2_t13_body] v1 (fun _ => t1_z))) fun _ => iprop(((bB).view.loc THR ↦{fullShare} SpecF.foldClr t1_z (t1_mr fm 3) 64 blk)
          ∗ ((sW).view.loc THR ↦{fullShare} fw) ∗ ((sM).view.loc THR ↦{fullShare} fm)) :=
  scat_loopClr d _ _ (sW) (sM) (bB) (fun g => g) fw fm _ _ blk k2_t13_loop k2_t13_ok (by decide) _ fun k hk g => by
    unfold k2_t13_body k2_part9
    simp only [Prog.lift, Prog.bind_op, Prog.bind_ret, Prog.pure_eq_ret]
    exact tripClr d _ _ (sW) (sM) (bB) (fun g => g) fw fm fw fm (fun _ => rfl) (fun _ => rfl) hfm (t1_wholeB d L) 3 (by decide) _ k.val hk g _ _ ((by decide +kernel : ∀ k : Fin k2_t13_loop.trips, k2_off13 k = ![8 * 3 + k.val / 8, 16 * (k.val % 8)]) k) k2_chk9.dec

theorem t1_loop_t14 (hfm : ∀ i, (fm i).toNat < 4096) (blk : Vec F S8x4096 .f32) :
    (iprop(((bB).view.loc THR ↦{fullShare} blk) ∗ ((sW).view.loc THR ↦{fullShare} fw) ∗ ((sM).view.loc THR ↦{fullShare} fm)) : sProp 𝕄)
      ⊢ WP (Scf.Loop.for k2_t14_loop k2_t14_ok ⟨⟩ (AT[k2_t14_body] v1 v4)) fun _ => iprop(((bB).view.loc THR ↦{fullShare} SpecF.foldAdd (t1_wr fw 5) (t1_mr fm 5) 64 blk)
          ∗ ((sW).view.loc THR ↦{fullShare} fw) ∗ ((sM).view.loc THR ↦{fullShare} fm)) :=
  scat_loopAdd d _ _ (sW) (sM) (bB) (fun g => g) fw fm _ _ blk k2_t14_loop k2_t14_ok (by decide) _ fun k hk g => by
    unfold k2_t14_body k2_part10
    simp only [Prog.lift, Prog.bind_op, Prog.bind_ret, Prog.pure_eq_ret]
    exact tripAdd d _ _ (sW) (sM) (bB) (fun g => g) fw fm fw fm (fun _ => rfl) (fun _ => rfl) hfm (t1_wholeB d L) 5 (by decide) k.val hk g _ _ ((by decide +kernel : ∀ k : Fin k2_t14_loop.trips, k2_off14 k = ![8 * 5 + k.val / 8, 16 * (k.val % 8)]) k) k2_chk10.dec

theorem t1_loop_t15 (hfm : ∀ i, (fm i).toNat < 4096) (blk : Vec F S8x4096 .f32) :
    (iprop(((bA).view.loc THR ↦{fullShare} blk) ∗ ((sW).view.loc THR ↦{fullShare} fw) ∗ ((sM).view.loc THR ↦{fullShare} fm)) : sProp 𝕄)
      ⊢ WP (Scf.Loop.for k2_t15_loop k2_t15_ok ⟨⟩ (AT[k2_t15_body] v1 (fun _ => t1_z))) fun _ => iprop(((bA).view.loc THR ↦{fullShare} SpecF.foldClr t1_z (t1_mr fm 4) 64 blk)
          ∗ ((sW).view.loc THR ↦{fullShare} fw) ∗ ((sM).view.loc THR ↦{fullShare} fm)) :=
  scat_loopClr d _ _ (sW) (sM) (bA) (fun g => g) fw fm _ _ blk k2_t15_loop k2_t15_ok (by decide) _ fun k hk g => by
    unfold k2_t15_body k2_part11
    simp only [Prog.lift, Prog.bind_op, Prog.bind_ret, Prog.pure_eq_ret]
    exact tripClr d _ _ (sW) (sM) (bA) (fun g => g) fw fm fw fm (fun _ => rfl) (fun _ => rfl) hfm (t1_wholeA d L) 4 (by decide) _ k.val hk g _ _ ((by decide +kernel : ∀ k : Fin k2_t15_loop.trips, k2_off15 k = ![8 * 4 + k.val / 8, 16 * (k.val % 8)]) k) k2_chk11.dec

theorem t1_loop_t16 (hfm : ∀ i, (fm i).toNat < 4096) (blk : Vec F S8x4096 .f32) :
    (iprop(((bA).view.loc THR ↦{fullShare} blk) ∗ ((sW).view.loc THR ↦{fullShare} fw) ∗ ((sM).view.loc THR ↦{fullShare} fm)) : sProp 𝕄)
      ⊢ WP (Scf.Loop.for k2_t16_loop k2_t16_ok ⟨⟩ (AT[k2_t16_body] v1 v4)) fun _ => iprop(((bA).view.loc THR ↦{fullShare} SpecF.foldAdd (t1_wr fw 6) (t1_mr fm 6) 64 blk)
          ∗ ((sW).view.loc THR ↦{fullShare} fw) ∗ ((sM).view.loc THR ↦{fullShare} fm)) :=
  scat_loopAdd d _ _ (sW) (sM) (bA) (fun g => g) fw fm _ _ blk k2_t16_loop k2_t16_ok (by decide) _ fun k hk g => by
    unfold k2_t16_body k2_part12
    simp only [Prog.lift, Prog.bind_op, Prog.bind_ret, Prog.pure_eq_ret]
    exact tripAdd d _ _ (sW) (sM) (bA) (fun g => g) fw fm fw fm (fun _ => rfl) (fun _ => rfl) hfm (t1_wholeA d L) 6 (by decide) k.val hk g _ _ ((by decide +kernel : ∀ k : Fin k2_t16_loop.trips, k2_off16 k = ![8 * 6 + k.val / 8, 16 * (k.val % 8)]) k) k2_chk12.dec

theorem t1_loop_t17 (hfm : ∀ i, (fm i).toNat < 4096) (blk : Vec F S8x4096 .f32) :
    (iprop(((bB).view.loc THR ↦{fullShare} blk) ∗ ((sW).view.loc THR ↦{fullShare} fw) ∗ ((sM).view.loc THR ↦{fullShare} fm)) : sProp 𝕄)
      ⊢ WP (Scf.Loop.for k2_t17_loop k2_t17_ok ⟨⟩ (AT[k2_t17_body] v1 (fun _ => t1_z) v67 c40)) fun _ => iprop(((bB).view.loc THR ↦{fullShare} SpecF.foldClr t1_z (t1_mr fm 5) 64 blk)
          ∗ ((sW).view.loc THR ↦{fullShare} fw) ∗ ((sM).view.loc THR ↦{fullShare} fm)) :=
  scat_loopClr d _ _ (sW) (sM) (bB) (fun g => g) fw fm _ _ blk k2_t17_loop k2_t17_ok (by decide) _ fun k hk g => by
    unfold k2_t17_body k2_part13
    simp only [Prog.lift, Prog.bind_op, Prog.bind_ret, Prog.pure_eq_ret]
    exact tripClr d _ _ (sW) (sM) (bB) (fun g => g) fw fm fw fm (fun _ => rfl) (fun _ => rfl) hfm (t1_wholeB d L) 5 (by decide) _ k.val hk g _ _ ((by decide +kernel : ∀ k : Fin k2_t17_loop.trips, k2_off17 k = ![8 * 5 + k.val / 8, 16 * (k.val % 8)]) k) k2_chk13.dec

theorem t1_loop_t18 (hfm : ∀ i, (fm i).toNat < 4096) (blk : Vec F S8x4096 .f32) :
    (iprop(((bB).view.loc THR ↦{fullShare} blk) ∗ ((sW).view.loc THR ↦{fullShare} fw) ∗ ((sM).view.loc THR ↦{fullShare} fm)) : sProp 𝕄)
      ⊢ WP (Scf.Loop.for k2_t18_loop k2_t18_ok ⟨⟩ (AT[k2_t18_body] v1 v4 v67 c40)) fun _ => iprop(((bB).view.loc THR ↦{fullShare} SpecF.foldAdd (t1_wr fw 7) (t1_mr fm 7) 64 blk)
          ∗ ((sW).view.loc THR ↦{fullShare} fw) ∗ ((sM).view.loc THR ↦{fullShare} fm)) :=
  scat_loopAdd d _ _ (sW) (sM) (bB) (fun g => g) fw fm _ _ blk k2_t18_loop k2_t18_ok (by decide) _ fun k hk g => by
    unfold k2_t18_body k2_part14
    simp only [Prog.lift, Prog.bind_op, Prog.bind_ret, Prog.pure_eq_ret]
    exact tripAdd d _ _ (sW) (sM) (bB) (fun g => g) fw fm fw fm (fun _ => rfl) (fun _ => rfl) hfm (t1_wholeB d L) 7 (by decide) k.val hk g _ _ ((by decide +kernel : ∀ k : Fin k2_t18_loop.trips, k2_off18 k = ![8 * 7 + k.val / 8, 16 * (k.val % 8)]) k) k2_chk14.dec

theorem t1_loop_t19 (hfm : ∀ i, (fm i).toNat < 4096) (blk : Vec F S8x4096 .f32) :
    (iprop(((bA).view.loc THR ↦{fullShare} blk) ∗ ((sW).view.loc THR ↦{fullShare} fw) ∗ ((sM).view.loc THR ↦{fullShare} fm)) : sProp 𝕄)
      ⊢ WP (Scf.Loop.for k2_t19_loop k2_t19_ok ⟨⟩ (AT[k2_t19_body] v1 (fun _ => t1_z) v67 c40)) fun _ => iprop(((bA).view.loc THR ↦{fullShare} SpecF.foldClr t1_z (t1_mr fm 6) 64 blk)
          ∗ ((sW).view.loc THR ↦{fullShare} fw) ∗ ((sM).view.loc THR ↦{fullShare} fm)) :=
  scat_loopClr d _ _ (sW) (sM) (bA) (fun g => g) fw fm _ _ blk k2_t19_loop k2_t19_ok (by decide) _ fun k hk g => by
    unfold k2_t19_body k2_part15
    simp only [Prog.lift, Prog.bind_op, Prog.bind_ret, Prog.pure_eq_ret]
    exact tripClr d _ _ (sW) (sM) (bA) (fun g => g) fw fm fw fm (fun _ => rfl) (fun _ => rfl) hfm (t1_wholeA d L) 6 (by decide) _ k.val hk g _ _ ((by decide +kernel : ∀ k : Fin k2_t19_loop.trips, k2_off19 k = ![8 * 6 + k.val / 8, 16 * (k.val % 8)]) k) k2_chk15.dec

theorem t1_loop_t20 (hfm : ∀ i, (fm i).toNat < 4096) (blk : Vec F S8x4096 .f32) :
    (iprop(((bA).view.loc THR ↦{fullShare} blk) ∗ ((sW).view.loc THR ↦{fullShare} fw) ∗ ((sM).view.loc THR ↦{fullShare} fm)) : sProp 𝕄)
      ⊢ WP (Scf.Loop.for k2_t20_loop k2_t20_ok ⟨⟩ (AT[k2_t20_body] v1 v4 v67 c40)) fun _ => iprop(((bA).view.loc THR ↦{fullShare} SpecF.foldAdd (t1_wr fw 8) (t1_mr fm 8) 64 blk)
          ∗ ((sW).view.loc THR ↦{fullShare} fw) ∗ ((sM).view.loc THR ↦{fullShare} fm)) :=
  scat_loopAdd d _ _ (sW) (sM) (bA) (fun g => g) fw fm _ _ blk k2_t20_loop k2_t20_ok (by decide) _ fun k hk g => by
    unfold k2_t20_body k2_part16
    simp only [Prog.lift, Prog.bind_op, Prog.bind_ret, Prog.pure_eq_ret]
    exact tripAdd d _ _ (sW) (sM) (bA) (fun g => g) fw fm fw fm (fun _ => rfl) (fun _ => rfl) hfm (t1_wholeA d L) 8 (by decide) k.val hk g _ _ ((by decide +kernel : ∀ k : Fin k2_t20_loop.trips, k2_off20 k = ![8 * 8 + k.val / 8, 16 * (k.val % 8)]) k) k2_chk16.dec

theorem t1_loop_t21 (hfm : ∀ i, (fm i).toNat < 4096) (blk : Vec F S8x4096 .f32) :
    (iprop(((bB).view.loc THR ↦{fullShare} blk) ∗ ((sW).view.loc THR ↦{fullShare} fw) ∗ ((sM).view.loc THR ↦{fullShare} fm)) : sProp 𝕄)
      ⊢ WP (Scf.Loop.for k2_t21_loop k2_t21_ok ⟨⟩ (AT[k2_t21_body] (fun _ => t1_z))) fun _ => iprop(((bB).view.loc THR ↦{fullShare} SpecF.foldClr t1_z (t1_mr fm 7) 64 blk)
          ∗ ((sW).view.loc THR ↦{fullShare} fw) ∗ ((sM).view.loc THR ↦{fullShare} fm)) :=
  scat_loopClr d _ _ (sW) (sM) (bB) (fun g => g) fw fm _ _ blk k2_t21_loop k2_t21_ok (by decide) _ fun k hk g => by
    unfold k2_t21_body k2_part17
    simp only [Prog.lift, Prog.bind_op, Prog.bind_ret, Prog.pure_eq_ret]
    exact tripClr d _ _ (sW) (sM) (bB) (fun g => g) fw fm fw fm (fun _ => rfl) (fun _ => rfl) hfm (t1_wholeB d L) 7 (by decide) _ k.val hk g _ _ ((by decide +kernel : ∀ k : Fin k2_t21_loop.trips, k2_off21 k = ![8 * 7 + k.val / 8, 16 * (k.val % 8)]) k) k2_chk17.dec

theorem t1_loop_t22 (hfm : ∀ i, (fm i).toNat < 4096) (blk : Vec F S8x4096 .f32) :
    (iprop(((bB).view.loc THR ↦{fullShare} blk) ∗ ((sW).view.loc THR ↦{fullShare} fw) ∗ ((sM).view.loc THR ↦{fullShare} fm)) : sProp 𝕄)
      ⊢ WP (Scf.Loop.for k2_t22_loop k2_t22_ok ⟨⟩ (AT[k2_t22_body])) fun _ => iprop(((bB).view.loc THR ↦{fullShare} SpecF.foldAdd (t1_wr fw 9) (t1_mr fm 9) 64 blk)
          ∗ ((sW).view.loc THR ↦{fullShare} fw) ∗ ((sM).view.loc THR ↦{fullShare} fm)) :=
  scat_loopAdd d _ _ (sW) (sM) (bB) (fun g => g) fw fm _ _ blk k2_t22_loop k2_t22_ok (by decide) _ fun k hk g => by
    unfold k2_t22_body k2_part18
    simp only [Prog.lift, Prog.bind_op, Prog.bind_ret, Prog.pure_eq_ret]
    exact tripAdd d _ _ (sW) (sM) (bB) (fun g => g) fw fm fw fm (fun _ => rfl) (fun _ => rfl) hfm (t1_wholeB d L) 9 (by decide) k.val hk g _ _ ((by decide +kernel : ∀ k : Fin k2_t22_loop.trips, k2_off22 k = ![8 * 9 + k.val / 8, 16 * (k.val % 8)]) k) k2_chk18.dec

end Loops

theorem t1_root_eq :
    AT[cc2_densify_chunk1_skel (F := F)]
      = (AT[k2_part19] >>= fun r => AT[k2_part20] r.1 r.2 >>= fun c0 => AT[k2_part21] r.1 r.2 c0 >>= fun _ =>
          AT[k2_part22] r.1 r.2 >>= fun s => AT[k2_part23] r.1 r.2 s.1 s.2 >>= fun _ => AT[t1_tail] r.2) := rfl

def T1Part19 : Prop :=
  ∀ (O : CellTallies nD τ sig (HIx 2)) (qw qm : PosShare TreeShare)
    (hpre : PreOK m) (hO : ∀ g, O g none = 0) (W : Waits sig (HIx 2)) (Φ : (Σ' (_ : BitVec 32), FVec F S16 .f32) → sProp 𝕄),
    iprop(levAts (K (F := F)).L (K (F := F)).lev
        ∗ ((wV).view.loc THR ↦{qw} m (wLoc d)) ∗ ((mV).view.loc THR ↦{qm} m (mLoc d))
        ∗ (∃ f, (bA).view.loc THR ↦{fullShare} f) ∗ (∃ f, (bB).view.loc THR ↦{fullShare} f)
        ∗ (∃ f, (sW).view.loc THR ↦{fullShare} f) ∗ (∃ f, (sM).view.loc THR ↦{fullShare} f)
        ∗ semVal (t1_cW d L) 0 ∗ semVal (t1_cM d L) 0 ∗ owes THR O W
        ∗ (∀ W', ⌜∀ p ∈ W', p ∈ W ∨ p.2 = none⌝ -∗ t1_fix m d L qw qm (t1_fw m d L) (t1_fm m d L)
            ∗ ((bA).view.loc THR ↦{fullShare} t1_blk (t1_fw m d L) (t1_fm m d L) 0) ∗ ((bB).view.loc THR ↦{fullShare} (fun _ => t1_z))
            ∗ owes THR O W' -∗ Φ ⟨Scalar.addi (Scalar.muli (BitVec.ofNat 32 (L 1).val) 2#32) (BitVec.ofNat 32 (L 0).val), k2_pay2⟩))
      ⊢ WP (AT[k2_part19]) Φ

def T1Part20 : Prop :=
  ∀ (O : CellTallies nD τ sig (HIx 2)) (qw qm : PosShare TreeShare)
    (fw : Vec F S80x128 .f32) (fm : IVec S80x128 32) (G0 : Buf (Elt F) (d1Loc d))
    (hO : ∀ g, O g none = 0) (hfm : ∀ i, (fm i).toNat < 4096) (hG : t1_GOK d L fw fm G0) (W : Waits sig (HIx 2)) (v1 : BitVec 32)
    (g0 : Buf (Elt F) ((t1_piece0 L).view.loc THR)) (g1 : Buf (Elt F) ((t1_piece1 L).view.loc THR)) (g2 : Buf (Elt F) ((t1_piece2 L).view.loc THR))
    (Φ : BitVec 32 → sProp 𝕄),
    iprop(levAts (K (F := F)).L (K (F := F)).lev ∗ t1_fix m d L qw qm fw fm
        ∗ ((bA).view.loc THR ↦{fullShare} t1_blk fw fm 0) ∗ ((bB).view.loc THR ↦{fullShare} (fun _ => t1_z))
        ∗ semVal (t1_cA d L) 0 ∗ semVal (t1_cB d L) 0
        ∗ t1_own d L (t1_piece0 L) fullShare g0 ∗ t1_own d L (t1_piece1 L) fullShare g1 ∗ t1_own d L (t1_piece2 L) fullShare g2
        ∗ owes THR O W
        ∗ (∀ W', ⌜∀ p ∈ W', p ∈ W ∨ p.2 = none⌝ -∗ t1_fix m d L qw qm fw fm
            ∗ t1_own d L (t1_piece0 L) fullShare G0 ∗ t1_own d L (t1_piece1 L) fullShare G0
            ∗ t1_flight d L cc2_scratch4.sem (t1_piece2 L) (bA) g2 (t1_blk fw fm 2)
            ∗ ((bB).view.loc THR ↦{fullShare} t1_blk fw fm 1) ∗ semVal (t1_cB d L) 0
            ∗ owes THR O W' -∗ Φ 0#32))
      ⊢ WP (AT[k2_part20] v1 (fun _ => t1_z)) Φ

def T1Part21 : Prop :=
  ∀ (O : CellTallies nD τ sig (HIx 2)) (qw qm : PosShare TreeShare)
    (fw : Vec F S80x128 .f32) (fm : IVec S80x128 32) (G0 : Buf (Elt F) (d1Loc d))
    (hO : ∀ g, O g none = 0) (hfm : ∀ i, (fm i).toNat < 4096) (hG : t1_GOK d L fw fm G0) (W : Waits sig (HIx 2)) (v1 : BitVec 32)
    (g2 : Buf (Elt F) ((t1_piece2 L).view.loc THR)) (g3 : Buf (Elt F) ((t1_piece3 L).view.loc THR)) (g4 : Buf (Elt F) ((t1_piece4 L).view.loc THR))
    (Φ : PUnit → sProp 𝕄),
    iprop(levAts (K (F := F)).L (K (F := F)).lev ∗ t1_fix m d L qw qm fw fm
        ∗ t1_flight d L cc2_scratch4.sem (t1_piece2 L) (bA) g2 (t1_blk fw fm 2)
        ∗ ((bB).view.loc THR ↦{fullShare} t1_blk fw fm 1) ∗ semVal (t1_cB d L) 0
        ∗ t1_own d L (t1_piece3 L) fullShare g3 ∗ t1_own d L (t1_piece4 L) fullShare g4
        ∗ owes THR O W
        ∗ (∀ W', ⌜∀ p ∈ W', p ∈ W ∨ p.2 = none⌝ -∗ t1_fix m d L qw qm fw fm
            ∗ t1_own d L (t1_piece2 L) fullShare G0
            ∗ t1_flight d L cc2_scratch5.sem (t1_piece3 L) (bB) g3 (t1_blk fw fm 3)
            ∗ t1_flight d L cc2_scratch4.sem (t1_piece4 L) (bA) g4 (t1_blk fw fm 4)
            ∗ owes THR O W' -∗ Φ ⟨⟩))
      ⊢ WP (AT[k2_part21] v1 (fun _ => t1_z) 0#32) Φ

def T1Part22 : Prop :=
  ∀ (O : CellTallies nD τ sig (HIx 2)) (qw qm : PosShare TreeShare)
    (fw : Vec F S80x128 .f32) (fm : IVec S80x128 32) (G0 : Buf (Elt F) (d1Loc d))
    (hO : ∀ g, O g none = 0) (hfm : ∀ i, (fm i).toNat < 4096) (hG : t1_GOK d L fw fm G0) (W : Waits sig (HIx 2)) (v1 : BitVec 32)
    (g3 : Buf (Elt F) ((t1_piece3 L).view.loc THR)) (g4 : Buf (Elt F) ((t1_piece4 L).view.loc THR)) (g5 : Buf (Elt F) ((t1_piece5 L).view.loc THR)) (g6 : Buf (Elt F) ((t1_piece6 L).view.loc THR))
    (Φ : (Σ' (_ : BitVec 32), BitVec 32) → sProp 𝕄),
    iprop(levAts (K (F := F)).L (K (F := F)).lev ∗ t1_fix m d L qw qm fw fm
        ∗ t1_flight d L cc2_scratch5.sem (t1_piece3 L) (bB) g3 (t1_blk fw fm 3)
        ∗ t1_flight d L cc2_scratch4.sem (t1_piece4 L) (bA) g4 (t1_blk fw fm 4)
        ∗ t1_own d L (t1_piece5 L) fullShare g5 ∗ t1_own d L (t1_piece6 L) fullShare g6
        ∗ owes THR O W
        ∗ (∀ W', ⌜∀ p ∈ W', p ∈ W ∨ p.2 = none⌝ -∗ t1_fix m d L qw qm fw fm
            ∗ t1_own d L (t1_piece3 L) fullShare G0 ∗ t1_own d L (t1_piece4 L) fullShare G0
            ∗ t1_flight d L cc2_scratch5.sem (t1_piece5 L) (bB) g5 (t1_blk fw fm 5)
            ∗ t1_flight d L cc2_scratch4.sem (t1_piece6 L) (bA) g6 (t1_blk fw fm 6)
            ∗ owes THR O W' -∗ Φ ⟨Scalar.muli v1 80#32, 40#32⟩))
      ⊢ WP (AT[k2_part22] v1 (fun _ => t1_z)) Φ

def T1Part23 : Prop :=
  ∀ (O : CellTallies nD τ sig (HIx 2)) (qw qm : PosShare TreeShare)
    (fw : Vec F S80x128 .f32) (fm : IVec S80x128 32) (G0 : Buf (Elt F) (d1Loc d))
    (hO : ∀ g, O g none = 0) (hfm : ∀ i, (fm i).toNat < 4096) (hG : t1_GOK d L fw fm G0) (W : Waits sig (HIx 2)) (v1 v67 c40 : BitVec 32)
    (g5 : Buf (Elt F) ((t1_piece5 L).view.loc THR)) (g6 : Buf (Elt F) ((t1_piece6 L).view.loc THR)) (g7 : Buf (Elt F) ((t1_piece7 L).view.loc THR))
    (Φ : PUnit → sProp 𝕄),
    iprop(levAts (K (F := F)).L (K (F := F)).lev ∗ t1_fix m d L qw qm fw fm
        ∗ t1_flight d L cc2_scratch5.sem (t1_piece5 L) (bB) g5 (t1_blk fw fm 5)
        ∗ t1_flight d L cc2_scratch4.sem (t1_piece6 L) (bA) g6 (t1_blk fw fm 6)
        ∗ t1_own d L (t1_piece7 L) fullShare g7
        ∗ owes THR O W
        ∗ (∀ W', ⌜∀ p ∈ W', p ∈ W ∨ p.2 = none⌝ -∗ t1_fix m d L qw qm fw fm
            ∗ t1_own d L (t1_piece5 L) fullShare G0 ∗ t1_own d L (t1_piece6 L) fullShare G0
            ∗ t1_flight d L cc2_scratch5.sem (t1_piece7 L) (bB) g7 (t1_blk fw fm 7)
            ∗ ((bA).view.loc THR ↦{fullShare} t1_blk fw fm 8) ∗ semVal (t1_cA d L) 0
            ∗ owes THR O W' -∗ Φ ⟨⟩))
      ⊢ WP (AT[k2_part23] v1 (fun _ => t1_z) v67 c40) Φ

def T1Tail : Prop :=
  ∀ (O : CellTallies nD τ sig (HIx 2)) (qw qm : PosShare TreeShare)
    (fw : Vec F S80x128 .f32) (fm : IVec S80x128 32) (G0 : Buf (Elt F) (d1Loc d))
    (hO : ∀ g, O g none = 0) (hfm : ∀ i, (fm i).toNat < 4096) (hG : t1_GOK d L fw fm G0) (W : Waits sig (HIx 2))
    (g7 : Buf (Elt F) ((t1_piece7 L).view.loc THR)) (g8 : Buf (Elt F) ((t1_piece8 L).view.loc THR)) (g9 : Buf (Elt F) ((t1_piece9 L).view.loc THR))
    (Φ : PUnit → sProp 𝕄),
    iprop(levAts (K (F := F)).L (K (F := F)).lev ∗ t1_fix m d L qw qm fw fm
        ∗ t1_flight d L cc2_scratch5.sem (t1_piece7 L) (bB) g7 (t1_blk fw fm 7)
        ∗ ((bA).view.loc THR ↦{fullShare} t1_blk fw fm 8) ∗ semVal (t1_cA d L) 0
        ∗ t1_own d L (t1_piece8 L) fullShare g8 ∗ t1_own d L (t1_piece9 L) fullShare g9
        ∗ owes THR O W
        ∗ (∀ W', ⌜∀ p ∈ W', p ∈ W ∨ p.2 = none⌝ -∗ t1_fix m d L qw qm fw fm
            ∗ t1_own d L (t1_piece7 L) fullShare G0 ∗ t1_own d L (t1_piece8 L) fullShare G0 ∗ t1_own d L (t1_piece9 L) fullShare G0
            ∗ (∃ f, (bA).view.loc THR ↦{fullShare} f) ∗ (∃ f, (bB).view.loc THR ↦{fullShare} f)
            ∗ semVal (t1_cA d L) 0 ∗ semVal (t1_cB d L) 0
            ∗ owes THR O W' -∗ Φ ⟨⟩))
      ⊢ WP (AT[t1_tail] (fun _ => t1_z)) Φ

end Tile

end Cert.Proof.KB

end
-- ==== Proof.KB.Tile1Obl.lean ====
import proofs.«207445_g73023033966933_cont_9to1_m_863_36_alg».proof.Proof.KB.Tile0Obl

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 2) (Elt F) ℕ UU ℕ

local notation "wV" => (Memref.whole Cert.Kernel.main_arg1_scv : Memref Cert.Kernel.sig Kind.scVector Space.hbm Cert.Kernel.S4096x128 EltTy.f32)
local notation "mV" => (Memref.whole Cert.Kernel.main_arg2_scv : Memref Cert.Kernel.sig Kind.scVector Space.hbm Cert.Kernel.S4096x128 EltTy.i32)
local notation "dV" => (Memref.whole Cert.Kernel.main_v4_scv : Memref Cert.Kernel.sig Kind.scVector Space.hbm Cert.Kernel.S2560x4096 EltTy.f32)
local notation "bA" => (Memref.whole Cert.Kernel.cc2_scratch0 : Memref Cert.Kernel.sig Kind.scVector Space.vmem Cert.Kernel.S8x4096 EltTy.f32)
local notation "bB" => (Memref.whole Cert.Kernel.cc2_scratch1 : Memref Cert.Kernel.sig Kind.scVector Space.vmem Cert.Kernel.S8x4096 EltTy.f32)
local notation "sW" => (Memref.whole Cert.Kernel.cc2_scratch2 : Memref Cert.Kernel.sig Kind.scVector Space.vmem Cert.Kernel.S80x128 EltTy.f32)
local notation "sM" => (Memref.whole Cert.Kernel.cc2_scratch3 : Memref Cert.Kernel.sig Kind.scVector Space.vmem Cert.Kernel.S80x128 EltTy.i32)

variable (m : (ℓ : Loc nD τ sig) → Buf (Elt F) ℓ)

theorem obl_bigSep_ten (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} from by decide,
    bigSep_insert (by decide), bigSep_insert (by decide), bigSep_insert (by decide), bigSep_insert (by decide),
    bigSep_insert (by decide), bigSep_insert (by decide), bigSep_insert (by decide), bigSep_insert (by decide),
    bigSep_insert (by decide), bigSep_singleton]
  rfl

def obl1_tile (d : Dev nD) (L : grid2.Coords) (f : Buf (Elt F) (d1Loc d)) : sProp 𝕄 :=
  iprop((d1Loc d ↦[piece1 L 0]{fullShare} f) ∗ (d1Loc d ↦[piece1 L 1]{fullShare} f)
    ∗ (d1Loc d ↦[piece1 L 2]{fullShare} f) ∗ (d1Loc d ↦[piece1 L 3]{fullShare} f)
    ∗ (d1Loc d ↦[piece1 L 4]{fullShare} f) ∗ (d1Loc d ↦[piece1 L 5]{fullShare} f)
    ∗ (d1Loc d ↦[piece1 L 6]{fullShare} f) ∗ (d1Loc d ↦[piece1 L 7]{fullShare} f)
    ∗ (d1Loc d ↦[piece1 L 8]{fullShare} f) ∗ (d1Loc d ↦[piece1 L 9]{fullShare} f))

theorem tile1_eq (d : Dev nD) (L : grid2.Coords) (f : Buf (Elt F) (d1Loc d)) : tile1 d L f = obl1_tile d L f := by
  unfold tile1 obl1_tile
  exact obl_bigSep_ten (fun r => (d1Loc d ↦[piece1 L r]{fullShare} f : sProp 𝕄))

variable [FloatOps F]

def obl1_fw (d : Dev nD) (L : grid2.Coords) : Vec F S80x128 .f32 :=
  ((wV).slice (Rect.unit (s := S4096x128) (k2_off1 L) S80x128.size (Gen.k2_off1_inb L)) (fun _ => rfl)).view.read (Elt F) (m (wLoc d))
def obl1_fm (d : Dev nD) (L : grid2.Coords) : IVec S80x128 32 :=
  ((mV).slice (Rect.unit (s := S4096x128) (k2_off1 L) S80x128.size (Gen.k2_off1_inb L)) (fun _ => rfl)).view.read (Elt F) (m (mLoc d))

def obl1_GOK (d : Dev nD) (L : grid2.Coords) (G0 : Buf (Elt F) (d1Loc d)) : Prop :=
  ∀ (r : Fin 10) (j : S8x4096.Idx), G0 ((pieceM1 L r).view.emb j)
    = SpecF.foldAdd (fun a k => obl1_fw m d L (ix2 (⟨8 * r.val + a.val, by have := r.isLt; have := a.isLt; omega⟩ : Fin 80) k))
        (fun a k => obl1_fm m d L (ix2 (⟨8 * r.val + a.val, by have := r.isLt; have := a.isLt; omega⟩ : Fin 80) k)) 64 (fun _ => zeroF) j

theorem obl1_GOK_dense (d : Dev nD) (L : grid2.Coords) : obl1_GOK m d L (dense1 m d) :=
  fun r j => dense1_piece_scratch m d L r (obl1_fw m d L) (obl1_fm m d L) (wRows1_read m d L) (mRows1_read m d L) j

theorem defs₀_vector2 (c : Fin τ.nSC) (s : Fin τ.nSub) :
    defs₀ (F := F) (.scVector c s) 2 ()
      = SparseCore.onTile hcore2 hsub2 (fun c s => cc2_densify_chunk1 (coords2 c s)
          wV (Memref.isWhole_whole _) mV (Memref.isWhole_whole _) dV (Memref.isWhole_whole _)
          bA (Memref.isWhole_whole _) bB (Memref.isWhole_whole _) sW (Memref.isWhole_whole _) sM (Memref.isWhole_whole _)
          cc2_scratch4 cc2_scratch5 cc2_scoped0 cc2_scoped1) ⟨⟩ c s := rfl

theorem P_go1 (d : Dev nD) (c : Fin ((K (F := F)).nCore 1)) (i : Fin ((K (F := F)).nSub 1)) :
    (P m).go 1 d c i = iprop((wLoc d ↦{qT c.val i.val} m (wLoc d)) ∗ (mLoc d ↦{qT c.val i.val} m (mLoc d))
      ∗ obl1_tile d (coords2 (Fin.cast nCore_one c) (Fin.cast nSub_one i)) (m (d1Loc d))) := by
  show go1 m d (Fin.cast nCore_one c) (Fin.cast nSub_one i) = _
  unfold go1
  rw [tile1_eq]
  rfl

theorem P_td1 (d : Dev nD) (c : Fin ((K (F := F)).nCore 1)) (i : Fin ((K (F := F)).nSub 1)) :
    (P m).td 1 d c i = iprop((wLoc d ↦{qT c.val i.val} m (wLoc d)) ∗ (mLoc d ↦{qT c.val i.val} m (mLoc d))
      ∗ obl1_tile d (coords2 (Fin.cast nCore_one c) (Fin.cast nSub_one i)) (dense1 m d)) := by
  show td1 m d (Fin.cast nCore_one c) (Fin.cast nSub_one i) = _
  unfold td1
  rw [tile1_eq]
  rfl

def Tile1Body : Prop :=
  ∀ (d : Dev nD) (L : grid2.Coords) (O : CellTallies nD τ sig (HIx 2)) (W : Waits sig (HIx 2)) (hO : ∀ g, O g none = 0)
    (q : PosShare TreeShare) (G0 : Buf (Elt F) (d1Loc d)) (hG : obl1_GOK m d L G0),
    iprop(levAts (K (F := F)).L (K (F := F)).lev ∗ emp
        ∗ ((wLoc d ↦{q} m (wLoc d)) ∗ (mLoc d ↦{q} m (mLoc d)) ∗ obl1_tile d L (m (d1Loc d)))
        ∗ scopedBufs (V d ((L 0).castLE hcore2) ((L 1).castLE hsub2)) ∗ scopedSems0 (V d ((L 0).castLE hcore2) ((L 1).castLE hsub2))
        ∗ owes (V d ((L 0).castLE hcore2) ((L 1).castLE hsub2)) O W)
      ⊢ wp frame (wpE (defs₀ (F := F)) 𝒱₀ (V d ((L 0).castLE hcore2) ((L 1).castLE hsub2)) none) Set.univ
          (cc2_densify_chunk1 L wV (Memref.isWhole_whole _) mV (Memref.isWhole_whole _) dV (Memref.isWhole_whole _)
            bA (Memref.isWhole_whole _) bB (Memref.isWhole_whole _) sW (Memref.isWhole_whole _) sM (Memref.isWhole_whole _)
            cc2_scratch4 cc2_scratch5 cc2_scoped0 cc2_scoped1)
          fun _ => iprop(((wLoc d ↦{q} m (wLoc d)) ∗ (mLoc d ↦{q} m (mLoc d)) ∗ obl1_tile d L G0)
            ∗ scopedBufs (V d ((L 0).castLE hcore2) ((L 1).castLE hsub2)) ∗ scopedSems0 (V d ((L 0).castLE hcore2) ((L 1).castLE hsub2))
            ∗ ∃ W', ⌜∀ p ∈ W', p ∈ W ∨ p.2 = none⌝ ∗ owes (V d ((L 0).castLE hcore2) ((L 1).castLE hsub2)) O W')

set_option maxRecDepth 2048 in

theorem tileObl1 (hF : (K (F := F)).Facts) (hpre : PreOK m) (htb : Tile1Body m) :
    (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_vector2]; simp only [SparseCore.onTile, hc, and_self, ↓reduceDIte]
  rw [P_go1 m d c i, P_td1 m d c i]
  exact (htb d (coords2 ⟨_, hc.1⟩ ⟨_, hc.2⟩) O W hO (qT c.val i.val) (dense1 m d) (obl1_GOK_dense m d _)).trans
    (wp_mono frame _ _ fun _ => obl_post)

end Cert.Proof.KB

end
-- ==== Proof.KB.Tile1Body.lean ====
import proofs.«207445_g73023033966933_cont_9to1_m_863_36_alg».proof.Proof.KB.Tile1Defs
import proofs.«207445_g73023033966933_cont_9to1_m_863_36_alg».proof.Proof.KB.Tile1Obl

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "wV" => (Memref.whole Cert.Kernel.main_arg1_scv : Memref Cert.Kernel.sig Kind.scVector Space.hbm Cert.Kernel.S4096x128 EltTy.f32)
local notation "mV" => (Memref.whole Cert.Kernel.main_arg2_scv : Memref Cert.Kernel.sig Kind.scVector Space.hbm Cert.Kernel.S4096x128 EltTy.i32)
local notation "dV" => (Memref.whole Cert.Kernel.main_v4_scv : Memref Cert.Kernel.sig Kind.scVector Space.hbm Cert.Kernel.S2560x4096 EltTy.f32)
local notation "bA" => (Memref.whole Cert.Kernel.cc2_scratch0 : Memref Cert.Kernel.sig Kind.scVector Space.vmem Cert.Kernel.S8x4096 EltTy.f32)
local notation "bB" => (Memref.whole Cert.Kernel.cc2_scratch1 : Memref Cert.Kernel.sig Kind.scVector Space.vmem Cert.Kernel.S8x4096 EltTy.f32)
local notation "sW" => (Memref.whole Cert.Kernel.cc2_scratch2 : Memref Cert.Kernel.sig Kind.scVector Space.vmem Cert.Kernel.S80x128 EltTy.f32)
local notation "sM" => (Memref.whole Cert.Kernel.cc2_scratch3 : Memref Cert.Kernel.sig Kind.scVector Space.vmem Cert.Kernel.S80x128 EltTy.i32)

variable [FloatOps F] (m : (ℓ : Loc nD τ sig) → Buf (Elt F) ℓ)

section Tile

variable (d : Dev nD) (L : grid2.Coords)

local notation "THR" => V d (t1_cV L) (t1_jV L)
local notation "WP" => wp frame (wpE (defs₀ (F := F)) 𝒱₀ (V d (t1_cV L) (t1_jV L)) none) Set.univ
local notation "AT[" f "]" => f L (wV) (Memref.isWhole_whole _) (mV) (Memref.isWhole_whole _) (dV) (Memref.isWhole_whole _) (bA) (Memref.isWhole_whole _) (bB) (Memref.isWhole_whole _) (sW) (Memref.isWhole_whole _) (sM) (Memref.isWhole_whole _) cc2_scratch4 cc2_scratch5 cc2_scoped0 cc2_scoped1

omit [FloatOps F] in

theorem tb1_ownSems0 :
    (ownSems0 (V d (t1_cV L) (t1_jV L)) : sProp 𝕄)
      = iprop(semVal (t1_cA d L) 0 ∗ semVal (t1_cB d L) 0 ∗ semVal (t1_cW d L) 0 ∗ semVal (t1_cM d L) 0
          ∗ bigSep (((((ownCells (V d (t1_cV L) (t1_jV L))).erase (t1_cA d L)).erase (t1_cB d L)).erase (t1_cW d L)).erase (t1_cM d L))
              fun g => semVal g 0) := by
  unfold SparseCore.Cfg.ownSems0
  rw [SparseCore.bigSep_erase' ((mem_ownCells (g := t1_cA d L)).mpr ⟨rfl, by
      show (SemLoc.dma cc2_scratch4.sem : SemLoc sig).isScoped .scVector = true; decide⟩),
    SparseCore.bigSep_erase' (Finset.mem_erase.mpr ⟨by simp [t1_cA, t1_cB]; decide, (mem_ownCells (g := t1_cB d L)).mpr ⟨rfl, by
      show (SemLoc.dma cc2_scratch5.sem : SemLoc sig).isScoped .scVector = true; decide⟩⟩),
    SparseCore.bigSep_erase' (Finset.mem_erase.mpr ⟨by simp [t1_cB, t1_cW]; decide, Finset.mem_erase.mpr ⟨by simp [t1_cA, t1_cW]; decide,
      (mem_ownCells (g := t1_cW d L)).mpr ⟨rfl, by show (SemLoc.dma cc2_scoped0.sem : SemLoc sig).isScoped .scVector = true; decide⟩⟩⟩),
    SparseCore.bigSep_erase' (Finset.mem_erase.mpr ⟨by simp [t1_cW, t1_cM]; decide, Finset.mem_erase.mpr ⟨by simp [t1_cB, t1_cM]; decide,
      Finset.mem_erase.mpr ⟨by simp [t1_cA, t1_cM]; decide,
      (mem_ownCells (g := t1_cM d L)).mpr ⟨rfl, by show (SemLoc.dma cc2_scoped1.sem : SemLoc sig).isScoped .scVector = true; decide⟩⟩⟩⟩)]

omit [FloatOps F] in

theorem tb1_ownBufs :
    (ownBufs (V d (t1_cV L) (t1_jV L)) : sProp 𝕄)
      = iprop((∃ f, (V d (t1_cV L) (t1_jV L)).loc cc2_scratch0 ↦{fullShare} f) ∗ (∃ f, (V d (t1_cV L) (t1_jV L)).loc cc2_scratch1 ↦{fullShare} f)
          ∗ (∃ f, (V d (t1_cV L) (t1_jV L)).loc cc2_scratch2 ↦{fullShare} f) ∗ (∃ f, (V d (t1_cV L) (t1_jV L)).loc cc2_scratch3 ↦{fullShare} f)
          ∗ bigSep (((((ownRefs (τ := τ) (.scVector (t1_cV L) (t1_jV L))).erase ((Proc.scVector (t1_cV L) (t1_jV L)).devRef cc2_scratch0)).erase
              ((Proc.scVector (t1_cV L) (t1_jV L)).devRef cc2_scratch1)).erase ((Proc.scVector (t1_cV L) (t1_jV L)).devRef cc2_scratch2)).erase
              ((Proc.scVector (t1_cV L) (t1_jV L)).devRef cc2_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (t1_cV L) (t1_jV L))
    (b := (Proc.scVector (t1_cV L) (t1_jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (t1_cV L) (t1_jV L)) (b := (Proc.scVector (t1_cV L) (t1_jV L)).devRef cc2_scratch1) rfl⟩),
    SparseCore.bigSep_erase' (Finset.mem_erase.mpr ⟨fun e => absurd (Proc.devRef_injective _ e) (show (cc2_scratch2 : Ref sig .scVector) ≠ cc2_scratch1 by decide),
      Finset.mem_erase.mpr ⟨fun e => absurd (Proc.devRef_injective _ e) (show (cc2_scratch2 : Ref sig .scVector) ≠ cc2_scratch0 by decide),
    SparseCore.Cfg.mem_ownRefs_of_owner (p := Proc.scVector (t1_cV L) (t1_jV L)) (b := (Proc.scVector (t1_cV L) (t1_jV L)).devRef cc2_scratch2) rfl⟩⟩),
    SparseCore.bigSep_erase' (Finset.mem_erase.mpr ⟨fun e => absurd (Proc.devRef_injective _ e) (show (cc2_scratch3 : Ref sig .scVector) ≠ cc2_scratch2 by decide),
      Finset.mem_erase.mpr ⟨fun e => absurd (Proc.devRef_injective _ e) (show (cc2_scratch3 : Ref sig .scVector) ≠ cc2_scratch1 by decide),
      Finset.mem_erase.mpr ⟨fun e => absurd (Proc.devRef_injective _ e) (show (cc2_scratch3 : Ref sig .scVector) ≠ cc2_scratch0 by decide),
    SparseCore.Cfg.mem_ownRefs_of_owner (p := Proc.scVector (t1_cV L) (t1_jV L)) (b := (Proc.scVector (t1_cV L) (t1_jV L)).devRef cc2_scratch3) rfl⟩⟩⟩)]

theorem tb1_fm_lt (hpre : PreOK m) (i : S80x128.Idx) : ((t1_fm m d L) i).toNat < 4096 := by
  unfold t1_fm
  rw [View.read_apply]
  exact hpre d _

omit [FloatOps F] in

theorem tb1_waits_trans {W W1 W2 : Waits sig (HIx 2)} (h1 : ∀ p ∈ W1, p ∈ W ∨ p.2 = none) (h2 : ∀ p ∈ W2, p ∈ W1 ∨ p.2 = none) :
    ∀ p ∈ W2, p ∈ W ∨ p.2 = none := fun p hp => (h2 p hp).elim (h1 p) Or.inr

set_option maxHeartbeats 1600000 in

theorem tb1_tile_body (h19 : T1Part19 m d L) (h20 : T1Part20 m d L) (h21 : T1Part21 m d L) (h22 : T1Part22 m d L) (h23 : T1Part23 m d L) (htl : T1Tail m d L)
    (hF : (K (F := F)).Facts) (hpre : PreOK m) (O : CellTallies nD τ sig (HIx 2)) (W : Waits sig (HIx 2)) (hO : ∀ g, O g none = 0)
    (q : PosShare TreeShare) (G0 : Buf (Elt F) (d1Loc d)) (hG : t1_GOK d L (t1_fw m d L) (t1_fm m d L) G0) :
    iprop(levAts (K (F := F)).L (K (F := F)).lev ∗ emp
        ∗ ((wLoc d ↦{q} m (wLoc d)) ∗ (mLoc d ↦{q} m (mLoc d)) ∗ t1_tile d L (m (d1Loc d)))
        ∗ scopedBufs THR ∗ scopedSems0 THR ∗ owes THR O W)
      ⊢ WP (AT[cc2_densify_chunk1]) fun _ =>
          iprop(((wLoc d ↦{q} m (wLoc d)) ∗ (mLoc d ↦{q} m (mLoc d)) ∗ t1_tile d L G0) ∗ scopedBufs THR ∗ scopedSems0 THR
            ∗ ∃ W', ⌜∀ p ∈ W', p ∈ W ∨ p.2 = none⌝ ∗ owes THR O W') := by
  rw [cc2_densify_chunk1_eq_skeleton, t1_root_eq]
  simp only [wp_bind]
  rw [(K (F := F)).scopedBufs_V hF d (t1_cV L) (t1_jV L), SparseCore.Cfg.scopedSems0_V (Val := Elt F) d (t1_cV L) (t1_jV L), tb1_ownSems0, tb1_ownBufs]
  unfold t1_tile
  have hfm : ∀ i, (t1_fm m d L i).toNat < 4096 := tb1_fm_lt m d L hpre
  iintro ⟨#Hlv, -, ⟨Hw, Hm, Hp0, Hp1, Hp2, Hp3, Hp4, Hp5, Hp6, Hp7, Hp8, Hp9⟩, ⟨⟨%fA, HbA⟩, ⟨%fB, HbB⟩, ⟨%fW, HsW⟩, ⟨%fM, HsM⟩, Hbufs⟩, ⟨HcA, HcB, HcW, HcM, Hsems⟩, HO⟩

  iapply (h19 O q q hpre hO W _)
  isplitr; · iexact Hlv
  isplitl [Hw]; · iexact Hw
  isplitl [Hm]; · iexact Hm
  isplitl [HbA]; · iexists _; iexact HbA
  isplitl [HbB]; · iexists _; iexact HbB
  isplitl [HsW]; · iexists _; iexact HsW
  isplitl [HsM]; · iexists _; iexact HsM
  isplitl [HcW]; · iexact HcW
  isplitl [HcM]; · iexact HcM
  isplitl [HO]; · iexact HO
  iintro %W1 %hW1 ⟨Hfix, HbA, HbB, HO⟩

  iapply (h20 O q q (t1_fw m d L) (t1_fm m d L) G0 hO hfm hG W1 _ (m (d1Loc d)) (m (d1Loc d)) (m (d1Loc d)) _)
  isplitr; · iexact Hlv
  isplitl [Hfix]; · iexact Hfix
  isplitl [HbA]; · iexact HbA
  isplitl [HbB]; · iexact HbB
  isplitl [HcA]; · iexact HcA
  isplitl [HcB]; · iexact HcB
  isplitl [Hp0]; · iexact Hp0
  isplitl [Hp1]; · iexact Hp1
  isplitl [Hp2]; · iexact Hp2
  isplitl [HO]; · iexact HO
  iintro %W2 %hW2 ⟨Hfix, Hp0, Hp1, HfA, HbB, HcB, HO⟩
  have hW2' := tb1_waits_trans hW1 hW2

  iapply (h21 O q q (t1_fw m d L) (t1_fm m d L) G0 hO hfm hG W2 _ (m (d1Loc d)) (m (d1Loc d)) (m (d1Loc d)) _)
  isplitr; · iexact Hlv
  isplitl [Hfix]; · iexact Hfix
  isplitl [HfA]; · iexact HfA
  isplitl [HbB]; · iexact HbB
  isplitl [HcB]; · iexact HcB
  isplitl [Hp3]; · iexact Hp3
  isplitl [Hp4]; · iexact Hp4
  isplitl [HO]; · iexact HO
  iintro %W3 %hW3 ⟨Hfix, Hp2, HfB, HfA, HO⟩
  have hW3' := tb1_waits_trans hW2' hW3

  iapply (h22 O q q (t1_fw m d L) (t1_fm m d L) G0 hO hfm hG W3 _ (m (d1Loc d)) (m (d1Loc d)) (m (d1Loc d)) (m (d1Loc d)) _)
  isplitr; · iexact Hlv
  isplitl [Hfix]; · iexact Hfix
  isplitl [HfB]; · iexact HfB
  isplitl [HfA]; · iexact HfA
  isplitl [Hp5]; · iexact Hp5
  isplitl [Hp6]; · iexact Hp6
  isplitl [HO]; · iexact HO
  iintro %W4 %hW4 ⟨Hfix, Hp3, Hp4, HfB, HfA, HO⟩
  have hW4' := tb1_waits_trans hW3' hW4

  iapply (h23 O q q (t1_fw m d L) (t1_fm m d L) G0 hO hfm hG W4 _ _ _ (m (d1Loc d)) (m (d1Loc d)) (m (d1Loc d)) _)
  isplitr; · iexact Hlv
  isplitl [Hfix]; · iexact Hfix
  isplitl [HfB]; · iexact HfB
  isplitl [HfA]; · iexact HfA
  isplitl [Hp7]; · iexact Hp7
  isplitl [HO]; · iexact HO
  iintro %W5 %hW5 ⟨Hfix, Hp5, Hp6, HfB, HbA, HcA, HO⟩
  have hW5' := tb1_waits_trans hW4' hW5

  iapply (htl O q q (t1_fw m d L) (t1_fm m d L) G0 hO hfm hG W5 (m (d1Loc d)) (m (d1Loc d)) (m (d1Loc d)) _)
  isplitr; · iexact Hlv
  isplitl [Hfix]; · iexact Hfix
  isplitl [HfB]; · iexact HfB
  isplitl [HbA]; · iexact HbA
  isplitl [HcA]; · iexact HcA
  isplitl [Hp8]; · iexact Hp8
  isplitl [Hp9]; · iexact Hp9
  isplitl [HO]; · iexact HO
  iintro %W6 %hW6 ⟨Hfix, Hp7, Hp8, Hp9, HbA, HbB, HcA, HcB, HO⟩
  have hW6' := tb1_waits_trans hW5' hW6

  unfold t1_fix
  icases Hfix with ⟨Hw, Hm, HsW, HsM, HcW, HcM⟩
  isplitl [Hw Hm Hp0 Hp1 Hp2 Hp3 Hp4 Hp5 Hp6 Hp7 Hp8 Hp9]
  · isplitl [Hw]; · iexact Hw
    isplitl [Hm]; · iexact Hm
    isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    isplitl [Hp6]; · iexact Hp6
    isplitl [Hp7]; · iexact Hp7
    isplitl [Hp8]; · iexact Hp8
    iexact Hp9
  isplitl [HbA HbB HsW HsM Hbufs]
  · isplitl [HbA]; · iexact HbA
    isplitl [HbB]; · iexact HbB
    isplitl [HsW]; · iexists _; iexact HsW
    isplitl [HsM]; · iexists _; iexact HsM
    iexact Hbufs
  isplitl [HcA HcB HcW HcM Hsems]
  · isplitl [HcA]; · iexact HcA
    isplitl [HcB]; · iexact HcB
    isplitl [HcW]; · iexact HcW
    isplitl [HcM]; · iexact HcM
    iexact Hsems
  iexists W6
  isplitr
  · ipureintro; exact hW6'
  · iexact HO

end Tile

theorem tb1_tile_eq (d : Dev nD) (L : grid2.Coords) (f : Buf (Elt F) (d1Loc d)) : (obl1_tile d L f : sProp 𝕄) = t1_tile d L f := rfl

theorem tb1_GOK_of (d : Dev nD) (L : grid2.Coords) (G0 : Buf (Elt F) (d1Loc d)) (hG : obl1_GOK m d L G0) :
    t1_GOK d L (t1_fw m d L) (t1_fm m d L) G0 :=
  ⟨hG 0, hG 1, hG 2, hG 3, hG 4, hG 5, hG 6, hG 7, hG 8, hG 9⟩

theorem tile1Body_of (h19 : ∀ d L, T1Part19 m d L) (h20 : ∀ d L, T1Part20 m d L) (h21 : ∀ d L, T1Part21 m d L) (h22 : ∀ d L, T1Part22 m d L)
    (h23 : ∀ d L, T1Part23 m d L) (htl : ∀ d L, T1Tail m d L)
    (hF : (K (F := F)).Facts) (hpre : PreOK m) : Tile1Body m := by
  intro d L O W hO q G0 hG
  rw [tb1_tile_eq, tb1_tile_eq]
  exact tb1_tile_body m d L (h19 d L) (h20 d L) (h21 d L) (h22 d L) (h23 d L) (htl d L) hF hpre O W hO q G0 (tb1_GOK_of m d L G0 hG)

end Cert.Proof.KB

end
-- ==== Proof.KB.Prefix1.lean ====
import proofs.«207445_g73023033966933_cont_9to1_m_863_36_alg».proof.Proof.KB.Common
import Idealize.ShloMosaic.Lib.Writes
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 2) (Elt F) ℕ UU ℕ

abbrev pfx1C (L : grid2.Coords) : Fin τ.nSC := (L 0).castLE hcore2
abbrev pfx1J (L : grid2.Coords) : Fin τ.nSub := (L 1).castLE hsub2

abbrev pfx1Thr (d : Dev nD) (L : grid2.Coords) : Thread nD τ := V d (pfx1C L) (pfx1J L)

local notation "wW" => (Memref.whole Cert.Kernel.main_arg1_scv : Memref Cert.Kernel.sig Kind.scVector Space.hbm Cert.Kernel.S4096x128 EltTy.f32)
local notation "mW" => (Memref.whole Cert.Kernel.main_arg2_scv : Memref Cert.Kernel.sig Kind.scVector Space.hbm Cert.Kernel.S4096x128 EltTy.i32)
local notation "dW" => (Memref.whole Cert.Kernel.main_v4_scv : Memref Cert.Kernel.sig Kind.scVector Space.hbm Cert.Kernel.S2560x4096 EltTy.f32)
local notation "blkA" => (Memref.whole Cert.Kernel.cc2_scratch0 : Memref Cert.Kernel.sig Kind.scVector Space.vmem Cert.Kernel.S8x4096 EltTy.f32)
local notation "blkB" => (Memref.whole Cert.Kernel.cc2_scratch1 : Memref Cert.Kernel.sig Kind.scVector Space.vmem Cert.Kernel.S8x4096 EltTy.f32)
local notation "wvS" => (Memref.whole Cert.Kernel.cc2_scratch2 : Memref Cert.Kernel.sig Kind.scVector Space.vmem Cert.Kernel.S80x128 EltTy.f32)
local notation "mvS" => (Memref.whole Cert.Kernel.cc2_scratch3 : Memref Cert.Kernel.sig Kind.scVector Space.vmem Cert.Kernel.S80x128 EltTy.i32)

variable (m : (ℓ : Loc nD τ sig) → Buf (Elt F) ℓ)
variable [FloatOps F]
variable (d : Dev nD) (L : grid2.Coords)

def pfx1Wid (L : grid2.Coords) : BitVec 32 :=
  Scalar.addi (Scalar.muli (BitVec.ofNat 32 (L 1).val) 2#32) (BitVec.ofNat 32 (L 0).val)

abbrev pfx1WRows (L : grid2.Coords) : Memref sig .scVector .hbm S80x128 .f32 :=
  (wW).slice (Rect.unit (s := S4096x128) (k2_off1 L) S80x128.size (k2_off1_inb L)) (fun _ => rfl)
abbrev pfx1MRows (L : grid2.Coords) : Memref sig .scVector .hbm S80x128 .i32 :=
  (mW).slice (Rect.unit (s := S4096x128) (k2_off1 L) S80x128.size (k2_off1_inb L)) (fun _ => rfl)

def pfx1Wv (d : Dev nD) (L : grid2.Coords) : Buf (Elt F) ((pfx1Thr d L).loc cc2_scratch2) :=
  (pfx1WRows L).view.read (Elt F) (m (wLoc d))
def pfx1Mv (d : Dev nD) (L : grid2.Coords) : Buf (Elt F) ((pfx1Thr d L).loc cc2_scratch3) :=
  (pfx1MRows L).view.read (Elt F) (m (mLoc d))

def pfx1Z : Elt F .f32 := (Scalar.ofBits .f32 0x00000000#32 : F .f32)

theorem pfx1_pay2_cast (x : S1x16.Idx) : shapeCast S1x16 (k2_pay2 (F := F)) shapeCasts_S16_S1x16 x = pfx1Z := rfl

theorem pfx1_mem_piece (r c : Nat) (off : Fin 8 → Fin 2 → Nat) (inb : ∀ u a, off u a + S1x16.size a ≤ S8x4096.size a)
    (hoff : ∀ u : Fin 8, off u = ![r, 128 * c + 16 * u.val]) (u : Fin 8) (j : S8x4096.Idx)
    (h0 : (j 0).val = r) (h1 : 128 * c + 16 * u.val ≤ (j 1).val) (h2 : (j 1).val < 128 * c + 16 * u.val + 16) :
    j ∈ (Rect.unit (s := S8x4096) (off u) S1x16.size (inb u)).set := by
  rw [Rect.mem_set_unit, hoff u]
  intro a
  match a with
  | ⟨0, _⟩ =>
    show r ≤ (j 0).val ∧ (j 0).val < r + 1
    omega
  | ⟨1, _⟩ =>
    show 128 * c + 16 * u.val ≤ (j 1).val ∧ (j 1).val < 128 * c + 16 * u.val + 16
    omega

theorem pfx1_zero_step {sg : RefSig} {κ : Kind} {sp : Space} (v : View sg κ sp S8x4096 .f32) (g : v.ty.Contents (Elt F)) (r c : Nat)
    (off : Fin 8 → Fin 2 → Nat) (inb : ∀ u a, off u a + S1x16.size a ≤ S8x4096.size a)
    (hoff : ∀ u : Fin 8, off u = ![r, 128 * c + 16 * u.val])
    (w : S1x16.Idx → Elt F .f32) (hw : ∀ x, w x = pfx1Z)
    (hg : ∀ j : S8x4096.Idx, ((j 0).val < r ∨ ((j 0).val = r ∧ (j 1).val < 128 * c)) → v.read (Elt F) g j = pfx1Z)
    (j : S8x4096.Idx) (hj : (j 0).val < r ∨ ((j 0).val = r ∧ (j 1).val < 128 * (c + 1))) :
    v.read (Elt F) (v.writes (Elt F) g
      [⟨Rect.unit (s := S8x4096) (off 7) S1x16.size (inb 7), w⟩,
        ⟨Rect.unit (s := S8x4096) (off 6) S1x16.size (inb 6), w⟩,
        ⟨Rect.unit (s := S8x4096) (off 5) S1x16.size (inb 5), w⟩,
        ⟨Rect.unit (s := S8x4096) (off 4) S1x16.size (inb 4), w⟩,
        ⟨Rect.unit (s := S8x4096) (off 3) S1x16.size (inb 3), w⟩,
        ⟨Rect.unit (s := S8x4096) (off 2) S1x16.size (inb 2), w⟩,
        ⟨Rect.unit (s := S8x4096) (off 1) S1x16.size (inb 1), w⟩,
        ⟨Rect.unit (s := S8x4096) (off 0) S1x16.size (inb 0), w⟩]) j = pfx1Z := by
  apply pfx_read_writes_const
  · intro p hp x
    simp only [List.mem_cons, List.mem_nil_iff, or_false] at hp
    rcases hp with rfl | rfl | rfl | rfl | rfl | rfl | rfl | rfl
    · exact hw x
    · exact hw x
    · exact hw x
    · exact hw x
    · exact hw x
    · exact hw x
    · exact hw x
    · exact hw x
  · by_cases hold : (j 0).val < r ∨ ((j 0).val = r ∧ (j 1).val < 128 * c)
    · exact Or.inl (hg j hold)
    right
    have hj0 : (j 0).val = r := by omega
    have hlo : 128 * c ≤ (j 1).val := by omega
    have hhi : (j 1).val < 128 * c + 128 := by omega
    have hu : ((j 1).val - 128 * c) / 16 < 8 := by omega
    have hu1 : 128 * c + 16 * (((j 1).val - 128 * c) / 16) ≤ (j 1).val := by omega
    have hu2 : (j 1).val < 128 * c + 16 * (((j 1).val - 128 * c) / 16) + 16 := by omega
    generalize ((j 1).val - 128 * c) / 16 = u at hu hu1 hu2
    have h8 : u = 7 ∨ u = 6 ∨ u = 5 ∨ u = 4 ∨ u = 3 ∨ u = 2 ∨ u = 1 ∨ u = 0 := by omega
    rcases h8 with rfl | rfl | rfl | rfl | rfl | rfl | rfl | rfl
    · exact ⟨_, List.Mem.head _, pfx1_mem_piece r c off inb hoff 7 j hj0 (by simpa using hu1) (by simpa using hu2)⟩
    · exact ⟨_, List.Mem.tail _ (List.Mem.head _), pfx1_mem_piece r c off inb hoff 6 j hj0 (by simpa using hu1) (by simpa using hu2)⟩
    · exact ⟨_, List.Mem.tail _ (List.Mem.tail _ (List.Mem.head _)), pfx1_mem_piece r c off inb hoff 5 j hj0 (by simpa using hu1) (by simpa using hu2)⟩
    · exact ⟨_, List.Mem.tail _ (List.Mem.tail _ (List.Mem.tail _ (List.Mem.head _))), pfx1_mem_piece r c off inb hoff 4 j hj0 (by simpa using hu1) (by simpa using hu2)⟩
    · exact ⟨_, List.Mem.tail _ (List.Mem.tail _ (List.Mem.tail _ (List.Mem.tail _ (List.Mem.head _)))), pfx1_mem_piece r c off inb hoff 3 j hj0 (by simpa using hu1) (by simpa using hu2)⟩
    · exact ⟨_, List.Mem.tail _ (List.Mem.tail _ (List.Mem.tail _ (List.Mem.tail _ (List.Mem.tail _ (List.Mem.head _))))), pfx1_mem_piece r c off inb hoff 2 j hj0 (by simpa using hu1) (by simpa using hu2)⟩
    · exact ⟨_, List.Mem.tail _ (List.Mem.tail _ (List.Mem.tail _ (List.Mem.tail _ (List.Mem.tail _ (List.Mem.tail _ (List.Mem.head _)))))), pfx1_mem_piece r c off inb hoff 1 j hj0 (by simpa using hu1) (by simpa using hu2)⟩
    · exact ⟨_, List.Mem.tail _ (List.Mem.tail _ (List.Mem.tail _ (List.Mem.tail _ (List.Mem.tail _ (List.Mem.tail _ (List.Mem.tail _ (List.Mem.head _))))))), pfx1_mem_piece r c off inb hoff 0 j hj0 (by simpa using hu1) (by simpa using hu2)⟩

def pfx1_invA (d : Dev nD) (L : grid2.Coords) (k : Nat) (_ : PUnit) : sProp 𝕄 :=
  iprop(∃ f : Vec F S8x4096 .f32, ⌜∀ j : S8x4096.Idx, (j 0).val < k → f j = pfx1Z⌝
    ∗ ((blkA).view.loc (pfx1Thr d L) ↦{fullShare} f))

def pfx1_invA2 (d : Dev nD) (L : grid2.Coords) (k1 : Nat) (k : Nat) (_ : PUnit) : sProp 𝕄 :=
  iprop(∃ f : Vec F S8x4096 .f32, ⌜∀ j : S8x4096.Idx, ((j 0).val < k1 ∨ ((j 0).val = k1 ∧ (j 1).val < 128 * k)) → f j = pfx1Z⌝
    ∗ ((blkA).view.loc (pfx1Thr d L) ↦{fullShare} f))

def pfx1_invB (d : Dev nD) (L : grid2.Coords) (k : Nat) (_ : PUnit) : sProp 𝕄 :=
  iprop(∃ f : Vec F S8x4096 .f32, ⌜∀ j : S8x4096.Idx, (j 0).val < k → f j = pfx1Z⌝
    ∗ ((blkB).view.loc (pfx1Thr d L) ↦{fullShare} f))
def pfx1_invB2 (d : Dev nD) (L : grid2.Coords) (k1 : Nat) (k : Nat) (_ : PUnit) : sProp 𝕄 :=
  iprop(∃ f : Vec F S8x4096 .f32, ⌜∀ j : S8x4096.Idx, ((j 0).val < k1 ∨ ((j 0).val = k1 ∧ (j 1).val < 128 * k)) → f j = pfx1Z⌝
    ∗ ((blkB).view.loc (pfx1Thr d L) ↦{fullShare} f))

theorem pfx1_zeroA_step (k1 : Fin k2_t1_loop.trips) (k2 : Fin k2_t2_loop.trips) (g : Vec F S8x4096 .f32)
    (hg : ∀ j : S8x4096.Idx, ((j 0).val < k1.val ∨ ((j 0).val = k1.val ∧ (j 1).val < 128 * k2.val)) → g j = pfx1Z) :
    ∀ j : S8x4096.Idx, ((j 0).val < k1.val ∨ ((j 0).val = k1.val ∧ (j 1).val < 128 * (k2.val + 1))) →
      ((blkA).view.writes (Elt F) g
        [⟨Rect.unit (s := S8x4096) (k2_off2 k1 k2 112#32) S1x16.size (k2_off2_inb k1 k2 7), shapeCast S1x16 (k2_pay2 (F := F)) shapeCasts_S16_S1x16⟩,
        ⟨Rect.unit (s := S8x4096) (k2_off2 k1 k2 96#32) S1x16.size (k2_off2_inb k1 k2 6), shapeCast S1x16 (k2_pay2 (F := F)) shapeCasts_S16_S1x16⟩,
        ⟨Rect.unit (s := S8x4096) (k2_off2 k1 k2 80#32) S1x16.size (k2_off2_inb k1 k2 5), shapeCast S1x16 (k2_pay2 (F := F)) shapeCasts_S16_S1x16⟩,
        ⟨Rect.unit (s := S8x4096) (k2_off2 k1 k2 64#32) S1x16.size (k2_off2_inb k1 k2 4), shapeCast S1x16 (k2_pay2 (F := F)) shapeCasts_S16_S1x16⟩,
        ⟨Rect.unit (s := S8x4096) (k2_off2 k1 k2 48#32) S1x16.size (k2_off2_inb k1 k2 3), shapeCast S1x16 (k2_pay2 (F := F)) shapeCasts_S16_S1x16⟩,
        ⟨Rect.unit (s := S8x4096) (k2_off2 k1 k2 32#32) S1x16.size (k2_off2_inb k1 k2 2), shapeCast S1x16 (k2_pay2 (F := F)) shapeCasts_S16_S1x16⟩,
        ⟨Rect.unit (s := S8x4096) (k2_off2 k1 k2 16#32) S1x16.size (k2_off2_inb k1 k2 1), shapeCast S1x16 (k2_pay2 (F := F)) shapeCasts_S16_S1x16⟩,
        ⟨Rect.unit (s := S8x4096) (k2_off2 k1 k2 0#32) S1x16.size (k2_off2_inb k1 k2 0), shapeCast S1x16 (k2_pay2 (F := F)) shapeCasts_S16_S1x16⟩]) j = pfx1Z := by
  intro j hj
  exact pfx1_zero_step (F := F) (blkA).view g k1.val k2.val (fun u => k2_off2 k1 k2 (BitVec.ofNat 32 (16 * u.val)))
    (fun u => Gen.k2_off2_inb k1 k2 u) (fun u => Gen.k2_off2_eq k1 k2 u) _ (fun x => pfx1_pay2_cast x) hg j hj

theorem pfx1_zeroB_step (k3 : Fin k2_t3_loop.trips) (k4 : Fin k2_t4_loop.trips) (g : Vec F S8x4096 .f32)
    (hg : ∀ j : S8x4096.Idx, ((j 0).val < k3.val ∨ ((j 0).val = k3.val ∧ (j 1).val < 128 * k4.val)) → g j = pfx1Z) :
    ∀ j : S8x4096.Idx, ((j 0).val < k3.val ∨ ((j 0).val = k3.val ∧ (j 1).val < 128 * (k4.val + 1))) →
      ((blkB).view.writes (Elt F) g
        [⟨Rect.unit (s := S8x4096) (k2_off3 k3 k4 112#32) S1x16.size (k2_off3_inb k3 k4 7), shapeCast S1x16 (k2_pay2 (F := F)) shapeCasts_S16_S1x16⟩,
        ⟨Rect.unit (s := S8x4096) (k2_off3 k3 k4 96#32) S1x16.size (k2_off3_inb k3 k4 6), shapeCast S1x16 (k2_pay2 (F := F)) shapeCasts_S16_S1x16⟩,
        ⟨Rect.unit (s := S8x4096) (k2_off3 k3 k4 80#32) S1x16.size (k2_off3_inb k3 k4 5), shapeCast S1x16 (k2_pay2 (F := F)) shapeCasts_S16_S1x16⟩,
        ⟨Rect.unit (s := S8x4096) (k2_off3 k3 k4 64#32) S1x16.size (k2_off3_inb k3 k4 4), shapeCast S1x16 (k2_pay2 (F := F)) shapeCasts_S16_S1x16⟩,
        ⟨Rect.unit (s := S8x4096) (k2_off3 k3 k4 48#32) S1x16.size (k2_off3_inb k3 k4 3), shapeCast S1x16 (k2_pay2 (F := F)) shapeCasts_S16_S1x16⟩,
        ⟨Rect.unit (s := S8x4096) (k2_off3 k3 k4 32#32) S1x16.size (k2_off3_inb k3 k4 2), shapeCast S1x16 (k2_pay2 (F := F)) shapeCasts_S16_S1x16⟩,
        ⟨Rect.unit (s := S8x4096) (k2_off3 k3 k4 16#32) S1x16.size (k2_off3_inb k3 k4 1), shapeCast S1x16 (k2_pay2 (F := F)) shapeCasts_S16_S1x16⟩,
        ⟨Rect.unit (s := S8x4096) (k2_off3 k3 k4 0#32) S1x16.size (k2_off3_inb k3 k4 0), shapeCast S1x16 (k2_pay2 (F := F)) shapeCasts_S16_S1x16⟩]) j = pfx1Z := by
  intro j hj
  exact pfx1_zero_step (F := F) (blkB).view g k3.val k4.val (fun u => k2_off3 k3 k4 (BitVec.ofNat 32 (16 * u.val)))
    (fun u => Gen.k2_off3_inb k3 k4 u) (fun u => Gen.k2_off3_eq k3 k4 u) _ (fun x => pfx1_pay2_cast x) hg j hj

theorem pfx1_wp_then_pure {α β : Type} (thr : Thread nD τ) (p : Prog (TpuEff nD τ sig (Elt F) Λ₀ thr.2) α) (b : β)
    (Φ : β → sProp 𝕄) :
    wp frame (wpE (defs₀ (F := F)) 𝒱₀ thr none) Set.univ p (fun _ => Φ b)
      ⊢ wp frame (wpE (defs₀ (F := F)) 𝒱₀ thr none) Set.univ (p >>= fun _ => pure b) Φ := by
  rw [wp_bind]
  exact wp_mono _ _ _ fun _ => le_wp_ret _ _ _ _ _

theorem pfx1_part19 (qw qm : PosShare TreeShare) (O : CellTallies nD τ sig (HIx 2)) (W : Waits sig (HIx 2))
    (fA : Buf (Elt F) ((pfx1Thr d L).loc cc2_scratch0)) (fB : Buf (Elt F) ((pfx1Thr d L).loc cc2_scratch1))
    (fw : Buf (Elt F) ((pfx1Thr d L).loc cc2_scratch2)) (fm : Buf (Elt F) ((pfx1Thr d L).loc cc2_scratch3))
    (Φ : (Σ' (_ : BitVec 32), FVec F S16 .f32) → sProp 𝕄) :
    iprop(Transfers.MayWaits (pfx1Thr d L) (none : HIx 2) O
        ∗ ((wW).view.loc (pfx1Thr d L) ↦{qw} m (wLoc d))
        ∗ ((mW).view.loc (pfx1Thr d L) ↦{qm} m (mLoc d))
        ∗ ((blkA).view.loc (pfx1Thr d L) ↦{fullShare} fA)
        ∗ ((blkB).view.loc (pfx1Thr d L) ↦{fullShare} fB)
        ∗ ((wvS).view.loc (pfx1Thr d L) ↦{fullShare} fw)
        ∗ ((mvS).view.loc (pfx1Thr d L) ↦{fullShare} fm)
        ∗ semVal (pfx1Thr d L, SemLoc.dma cc2_scoped0.sem) 0
        ∗ semVal (pfx1Thr d L, SemLoc.dma cc2_scoped1.sem) 0
        ∗ owes (pfx1Thr d L) O W
        ∗ (∀ W', ⌜∀ p ∈ W', p ∈ W ∨ p.2 = none⌝ -∗
            (Transfers.MayWaits (pfx1Thr d L) (none : HIx 2) O
              ∗ ((wW).view.loc (pfx1Thr d L) ↦{qw} m (wLoc d))
              ∗ ((mW).view.loc (pfx1Thr d L) ↦{qm} m (mLoc d))
              ∗ ((blkA).view.loc (pfx1Thr d L) ↦{fullShare} (fun _ => pfx1Z))
              ∗ ((blkB).view.loc (pfx1Thr d L) ↦{fullShare} (fun _ => pfx1Z))
              ∗ ((wvS).view.loc (pfx1Thr d L) ↦{fullShare} pfx1Wv m d L)
              ∗ ((mvS).view.loc (pfx1Thr d L) ↦{fullShare} pfx1Mv m d L)
              ∗ semVal (pfx1Thr d L, SemLoc.dma cc2_scoped0.sem) 0
              ∗ semVal (pfx1Thr d L, SemLoc.dma cc2_scoped1.sem) 0
              ∗ owes (pfx1Thr d L) O W') -∗
            wp frame (wpE (defs₀ (F := F)) 𝒱₀ (pfx1Thr d L) none) Set.univ
              (Scf.Loop.for k2_t5_loop k2_t5_ok ⟨⟩
                (k2_t5_body L wW (Memref.isWhole_whole _) mW (Memref.isWhole_whole _) dW (Memref.isWhole_whole _)
                  blkA (Memref.isWhole_whole _) blkB (Memref.isWhole_whole _) wvS (Memref.isWhole_whole _) mvS (Memref.isWhole_whole _)
                  cc2_scratch4 cc2_scratch5 cc2_scoped0 cc2_scoped1))
              (fun _ => Φ ⟨pfx1Wid L, k2_pay2⟩)))
      ⊢ wp frame (wpE (defs₀ (F := F)) 𝒱₀ (pfx1Thr d L) none) Set.univ
          (k2_part19 L wW (Memref.isWhole_whole _) mW (Memref.isWhole_whole _) dW (Memref.isWhole_whole _)
            blkA (Memref.isWhole_whole _) blkB (Memref.isWhole_whole _) wvS (Memref.isWhole_whole _) mvS (Memref.isWhole_whole _)
            cc2_scratch4 cc2_scratch5 cc2_scoped0 cc2_scoped1) Φ := by
  rw [k2_part19_eq_skeleton]
  unfold k2_part19_skel
  iintro ⟨#Hmw, Hw, Hm, HA, HB, Hwv, Hmv, Hs0, Hs1, HO, Hk⟩
  sl_exec

  sl_for (pfx1_invA (F := F) d L) $$ [HA]
  case region =>
    intro k1 _
    unfold pfx1_invA
    iintro ⟨%f, %hf, HA⟩
    sl_exec
    sl_for (pfx1_invA2 (F := F) d L k1.val) $$ [HA]
    case region =>
      intro k2 _
      unfold pfx1_invA2
      iintro ⟨%g, %hg, HA⟩
      sl_exec
      sl_step
      iexists _
      isplitr
      pick_goal 2
      · iexact HA
      · ipureintro
        exact pfx1_zeroA_step k1 k2 g hg
    · unfold pfx1_invA2
      iexists f
      isplitr
      · ipureintro
        intro j hj
        exact hf j (by omega)
      · iexact HA
    iintro %_ HI
    unfold pfx1_invA2
    icases HI with ⟨%g, %hg, HA⟩
    sl_exec
    sl_step
    iexists g
    isplitr
    · ipureintro
      intro j hj
      have ht : Scf.trips k2_t2_loop.lb k2_t2_loop.ub k2_t2_loop.st = 32 := by decide
      rw [ht] at hg
      have h1 : (j 1).val < 4096 := (j 1).isLt
      exact hg j (by omega)
    · iexact HA
  · unfold pfx1_invA
    iexists fA
    isplitr
    · ipureintro
      intro j hj
      exact absurd hj (Nat.not_lt_zero _)
    · iexact HA
  iintro %_ HI
  unfold pfx1_invA
  icases HI with ⟨%fA', %hfA', HA⟩
  have eA : fA' = fun _ => pfx1Z := by
    funext j
    have ht : Scf.trips k2_t1_loop.lb k2_t1_loop.ub k2_t1_loop.st = 8 := by decide
    rw [ht] at hfA'
    exact hfA' j (j 0).isLt
  subst eA
  sl_exec

  sl_for (pfx1_invB (F := F) d L) $$ [HB]
  case region =>
    intro k3 _
    unfold pfx1_invB
    iintro ⟨%f, %hf, HB⟩
    sl_exec
    sl_for (pfx1_invB2 (F := F) d L k3.val) $$ [HB]
    case region =>
      intro k4 _
      unfold pfx1_invB2
      iintro ⟨%g, %hg, HB⟩
      sl_exec
      sl_step
      iexists _
      isplitr
      pick_goal 2
      · iexact HB
      · ipureintro
        exact pfx1_zeroB_step k3 k4 g hg
    · unfold pfx1_invB2
      iexists f
      isplitr
      · ipureintro
        intro j hj
        exact hf j (by omega)
      · iexact HB
    iintro %_ HI
    unfold pfx1_invB2
    icases HI with ⟨%g, %hg, HB⟩
    sl_exec
    sl_step
    iexists g
    isplitr
    · ipureintro
      intro j hj
      have ht : Scf.trips k2_t4_loop.lb k2_t4_loop.ub k2_t4_loop.st = 32 := by decide
      rw [ht] at hg
      have h1 : (j 1).val < 4096 := (j 1).isLt
      exact hg j (by omega)
    · iexact HB
  · unfold pfx1_invB
    iexists fB
    isplitr
    · ipureintro
      intro j hj
      exact absurd hj (Nat.not_lt_zero _)
    · iexact HB
  iintro %_ HI
  unfold pfx1_invB
  icases HI with ⟨%fB', %hfB', HB⟩
  have eB : fB' = fun _ => pfx1Z := by
    funext j
    have ht : Scf.trips k2_t3_loop.lb k2_t3_loop.ub k2_t3_loop.st = 8 := by decide
    rw [ht] at hfB'
    exact hfB' j (j 0).isLt
  subst eB
  sl_exec

  have eW : (wvS).view.write (Elt F) fw (pfx1_part19.sl.dma0 m d L) Finset.univ = pfx1Wv m d L := View.write_whole_univ _ _ _
  have eM : (mvS).view.write (Elt F) fm (pfx1_part19.sl.dma0_1 m d L) Finset.univ = pfx1Mv m d L := View.write_whole_univ _ _ _
  rw [eW, eM]
  have hW'' : ∀ p ∈ insert (SemLoc.dma cc2_scoped1.sem, (default : HIx 2)) (insert (SemLoc.dma cc2_scoped0.sem, (default : HIx 2)) W),
      p ∈ W ∨ p.2 = none := by
    intro p hp
    rcases Finset.mem_insert.mp hp with hp | hp
    · exact .inr (hp ▸ rfl)
    rcases Finset.mem_insert.mp hp with hp | hp
    · exact .inr (hp ▸ rfl)
    · exact .inl hp
  iapply (pfx1_wp_then_pure (F := F) (pfx1Thr d L) _ _ Φ)
  iapply Hk $$ %_ %hW'' [Hw Hm HA HB Hwv Hmv Hs0 Hs1 HO]
  isplitr; · iexact Hmw
  isplitl [Hw]; · iexact Hw
  isplitl [Hm]; · iexact Hm
  isplitl [HA]; · iexact HA
  isplitl [HB]; · iexact HB
  isplitl [Hwv]; · iexact Hwv
  isplitl [Hmv]; · iexact Hmv
  isplitl [Hs0]; · iexact Hs0
  isplitl [Hs1]; · iexact Hs1
  iexact HO

end Cert.Proof.KB

end
-- ==== Proof.KB.Tile1p19.lean ====
import proofs.«207445_g73023033966933_cont_9to1_m_863_36_alg».proof.Proof.KB.Tile1Defs
import proofs.«207445_g73023033966933_cont_9to1_m_863_36_alg».proof.Proof.KB.Prefix1

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "wV" => (Memref.whole Cert.Kernel.main_arg1_scv : Memref Cert.Kernel.sig Kind.scVector Space.hbm Cert.Kernel.S4096x128 EltTy.f32)
local notation "mV" => (Memref.whole Cert.Kernel.main_arg2_scv : Memref Cert.Kernel.sig Kind.scVector Space.hbm Cert.Kernel.S4096x128 EltTy.i32)
local notation "dV" => (Memref.whole Cert.Kernel.main_v4_scv : Memref Cert.Kernel.sig Kind.scVector Space.hbm Cert.Kernel.S2560x4096 EltTy.f32)
local notation "bA" => (Memref.whole Cert.Kernel.cc2_scratch0 : Memref Cert.Kernel.sig Kind.scVector Space.vmem Cert.Kernel.S8x4096 EltTy.f32)
local notation "bB" => (Memref.whole Cert.Kernel.cc2_scratch1 : Memref Cert.Kernel.sig Kind.scVector Space.vmem Cert.Kernel.S8x4096 EltTy.f32)
local notation "sW" => (Memref.whole Cert.Kernel.cc2_scratch2 : Memref Cert.Kernel.sig Kind.scVector Space.vmem Cert.Kernel.S80x128 EltTy.f32)
local notation "sM" => (Memref.whole Cert.Kernel.cc2_scratch3 : Memref Cert.Kernel.sig Kind.scVector Space.vmem Cert.Kernel.S80x128 EltTy.i32)

variable [FloatOps F] (m : (ℓ : Loc nD τ sig) → Buf (Elt F) ℓ)

section Tile

variable (d : Dev nD) (L : grid2.Coords)

local notation "THR" => V d (t1_cV L) (t1_jV L)
local notation "WP" => wp frame (wpE (defs₀ (F := F)) 𝒱₀ (V d (t1_cV L) (t1_jV L)) none) Set.univ
local notation "AT[" f "]" => f L (wV) (Memref.isWhole_whole _) (mV) (Memref.isWhole_whole _) (dV) (Memref.isWhole_whole _) (bA) (Memref.isWhole_whole _) (bB) (Memref.isWhole_whole _) (sW) (Memref.isWhole_whole _) (sM) (Memref.isWhole_whole _) cc2_scratch4 cc2_scratch5 cc2_scoped0 cc2_scoped1

variable (O : CellTallies nD τ sig (HIx 2))
variable (qw qm : PosShare TreeShare)

theorem t1_fm_lt (hpre : PreOK m) : ∀ i, ((t1_fm m d L) i).toNat < 4096 := by
  intro i
  unfold t1_fm
  rw [View.read_apply]
  exact hpre d _

theorem part19_spec : T1Part19 m d L := by
  intro O qw qm hpre hO W Φ
  iintro ⟨#Hlv, Hw, Hm, ⟨%fA, HA⟩, ⟨%fB, HB⟩, ⟨%fw, Hwv⟩, ⟨%fm, Hmv⟩, Hs0, Hs1, HO, Hk⟩
  ihave Hmw := ((K (F := F)).mayWaits_none (thr := THR) hO) $$ Hlv
  iapply (pfx1_part19 (F := F) m d L qw qm O W fA fB fw fm Φ)
  isplitl [Hmw]; · iexact Hmw
  isplitl [Hw]; · iexact Hw
  isplitl [Hm]; · iexact Hm
  isplitl [HA]; · iexact HA
  isplitl [HB]; · iexact HB
  isplitl [Hwv]; · iexact Hwv
  isplitl [Hmv]; · iexact Hmv
  isplitl [Hs0]; · iexact Hs0
  isplitl [Hs1]; · iexact Hs1
  isplitl [HO]; · iexact HO
  iintro %W' %hW' ⟨Hmw, Hw, Hm, HA, HB, Hwv, Hmv, Hs0, Hs1, HO⟩

  iapply (wp_wand_r frame (wpE (defs₀ (F := F)) 𝒱₀ THR none) Set.univ)
  isplitl [HA Hwv Hmv]
  · iapply (t1_loop_t5 (F := F) d L (pfx1Wv m d L) (pfx1Mv m d L) (t1_fm_lt m d L hpre) (fun _ => pfx1Z))
    isplitl [HA]; · iexact HA
    isplitl [Hwv]; · iexact Hwv
    iexact Hmv
  iintro %_ ⟨HA, Hwv, Hmv⟩
  unfold pfx1Wid
  iapply Hk $$ %W' %hW' [Hw Hm HA HB Hwv Hmv Hs0 Hs1 HO]
  unfold t1_fix
  isplitl [Hw Hm Hwv Hmv Hs0 Hs1]
  · isplitl [Hw]; · iexact Hw
    isplitl [Hm]; · iexact Hm
    isplitl [Hwv]; · iexact Hwv
    isplitl [Hmv]; · iexact Hmv
    isplitl [Hs0]; · iexact Hs0
    iexact Hs1
  isplitl [HA]; · iexact HA
  isplitl [HB]; · iexact HB
  iexact HO

end Tile

end Cert.Proof.KB

end
-- ==== Proof.KB.Tile1p20.lean ====
import proofs.«207445_g73023033966933_cont_9to1_m_863_36_alg».proof.Proof.KB.Tile1Defs
import Idealize.ShloMosaic.Lib.Exec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "wV" => (Memref.whole Cert.Kernel.main_arg1_scv : Memref Cert.Kernel.sig Kind.scVector Space.hbm Cert.Kernel.S4096x128 EltTy.f32)
local notation "mV" => (Memref.whole Cert.Kernel.main_arg2_scv : Memref Cert.Kernel.sig Kind.scVector Space.hbm Cert.Kernel.S4096x128 EltTy.i32)
local notation "dV" => (Memref.whole Cert.Kernel.main_v4_scv : Memref Cert.Kernel.sig Kind.scVector Space.hbm Cert.Kernel.S2560x4096 EltTy.f32)
local notation "bA" => (Memref.whole Cert.Kernel.cc2_scratch0 : Memref Cert.Kernel.sig Kind.scVector Space.vmem Cert.Kernel.S8x4096 EltTy.f32)
local notation "bB" => (Memref.whole Cert.Kernel.cc2_scratch1 : Memref Cert.Kernel.sig Kind.scVector Space.vmem Cert.Kernel.S8x4096 EltTy.f32)
local notation "sW" => (Memref.whole Cert.Kernel.cc2_scratch2 : Memref Cert.Kernel.sig Kind.scVector Space.vmem Cert.Kernel.S80x128 EltTy.f32)
local notation "sM" => (Memref.whole Cert.Kernel.cc2_scratch3 : Memref Cert.Kernel.sig Kind.scVector Space.vmem Cert.Kernel.S80x128 EltTy.i32)

variable [FloatOps F]
variable (m : (ℓ : Loc nD τ sig) → Buf (Elt F) ℓ)
variable (d : Dev nD) (L : grid2.Coords)

local notation "THR" => V d (t1_cV L) (t1_jV L)
local notation "WP" => wp frame (wpE (defs₀ (F := F)) 𝒱₀ (V d (t1_cV L) (t1_jV L)) none) Set.univ
local notation "AT[" f "]" => f L (wV) (Memref.isWhole_whole _) (mV) (Memref.isWhole_whole _) (dV) (Memref.isWhole_whole _) (bA) (Memref.isWhole_whole _) (bB) (Memref.isWhole_whole _) (sW) (Memref.isWhole_whole _) (sM) (Memref.isWhole_whole _) cc2_scratch4 cc2_scratch5 cc2_scoped0 cc2_scoped1

variable (O : CellTallies nD τ sig (HIx 2))
variable (qw qm : PosShare TreeShare) (fw : Vec F S80x128 .f32) (fm : IVec S80x128 32)
variable (G0 : Buf (Elt F) (d1Loc d))

theorem part20_spec : T1Part20 m d L := by
  intro O qw qm fw fm G0 hO hfm hG W v1 g0 g1 g2 Φ
  rw [k2_part20_eq_skeleton]; rw [k2_part20_skel]
  unfold t1_fix
  iintro ⟨#Hlv, ⟨Hw, Hm, HsW, HsM, HcW, HcM⟩, HbA, HbB, HcA, HcB, Hp0, Hp1, Hp2, HO, Hk⟩
  ihave Hmw := ((K (F := F)).mayWaits_none (thr := V d (t1_cV L) (t1_jV L)) hO) $$ Hlv

  have h6 := t1_loop_t6 d L fw fm v1 (fun _ => t1_z) hfm (fun _ => t1_z); rw [t1_add_z] at h6
  have h7 := t1_loop_t7 d L fw fm v1 hfm (t1_blk fw fm 0); rw [t1_clr_blk fw fm hfm 0] at h7
  have h8 := t1_loop_t8 d L fw fm v1 (fun _ => t1_z) hfm (fun _ => t1_z); rw [t1_add_z] at h8

  sl_exec

  iapply (exec_cut frame _ Set.univ h6) $$ [HbB HsW HsM]
  · isplitl [HbB]; · iexact HbB
    isplitl [HsW]; · iexact HsW
    iexact HsM
  iintro %_ ⟨HbB, HsW, HsM⟩

  sl_exec

  iapply (exec_cut frame _ Set.univ h7) $$ [HbA HsW HsM]
  · isplitl [HbA]; · iexact HbA
    isplitl [HsW]; · iexact HsW
    iexact HsM
  iintro %_ ⟨HbA, HsW, HsM⟩
  iapply (exec_cut frame _ Set.univ h8) $$ [HbA HsW HsM]
  · isplitl [HbA]; · iexact HbA
    isplitl [HsW]; · iexact HsW
    iexact HsM
  iintro %_ ⟨HbA, HsW, HsM⟩

  sl_exec
  sl_step
  iapply Hk $$ %(insert (SemLoc.dma cc2_scratch5.sem, (none : HIx 2)) (insert (SemLoc.dma cc2_scratch4.sem, (none : HIx 2)) W)) %(by
    intro p hp
    rcases Finset.mem_insert.mp hp with rfl | hp
    · exact .inr rfl
    rcases Finset.mem_insert.mp hp with rfl | hp
    · exact .inr rfl
    · exact .inl hp)
  isplitl [Hw Hm HsW HsM HcW HcM]
  · isplitl [Hw]; · iexact Hw
    isplitl [Hm]; · iexact Hm
    isplitl [HsW]; · iexact HsW
    isplitl [HsM]; · iexact HsM
    isplitl [HcW]; · iexact HcW
    iexact HcM
  isplitl [Hp0]
  · iapply (Entails.of_eq (t1_own_writes d L (k2_off5 L 0#32) (k2_off5_inb L 0) _ _ G0 (fun j => hG.1 j))); iexact Hp0
  isplitl [Hp1]
  · iapply (Entails.of_eq (t1_own_writes d L (k2_off5 L 8#32) (k2_off5_inb L 1) _ _ G0 (fun j => hG.2.1 j))); iexact Hp1
  isplitl [HcA]
  · iexact HcA
  isplitl [HbB]; · iexact HbB
  isplitl [HcB]; · iexact HcB
  iexact HO

end Cert.Proof.KB

end
-- ==== Proof.KB.Tile1p21.lean ====
import proofs.«207445_g73023033966933_cont_9to1_m_863_36_alg».proof.Proof.KB.Tile1Defs
import Idealize.ShloMosaic.Lib.Exec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "wV" => (Memref.whole Cert.Kernel.main_arg1_scv : Memref Cert.Kernel.sig Kind.scVector Space.hbm Cert.Kernel.S4096x128 EltTy.f32)
local notation "mV" => (Memref.whole Cert.Kernel.main_arg2_scv : Memref Cert.Kernel.sig Kind.scVector Space.hbm Cert.Kernel.S4096x128 EltTy.i32)
local notation "dV" => (Memref.whole Cert.Kernel.main_v4_scv : Memref Cert.Kernel.sig Kind.scVector Space.hbm Cert.Kernel.S2560x4096 EltTy.f32)
local notation "bA" => (Memref.whole Cert.Kernel.cc2_scratch0 : Memref Cert.Kernel.sig Kind.scVector Space.vmem Cert.Kernel.S8x4096 EltTy.f32)
local notation "bB" => (Memref.whole Cert.Kernel.cc2_scratch1 : Memref Cert.Kernel.sig Kind.scVector Space.vmem Cert.Kernel.S8x4096 EltTy.f32)
local notation "sW" => (Memref.whole Cert.Kernel.cc2_scratch2 : Memref Cert.Kernel.sig Kind.scVector Space.vmem Cert.Kernel.S80x128 EltTy.f32)
local notation "sM" => (Memref.whole Cert.Kernel.cc2_scratch3 : Memref Cert.Kernel.sig Kind.scVector Space.vmem Cert.Kernel.S80x128 EltTy.i32)

variable [FloatOps F]
variable (m : (ℓ : Loc nD τ sig) → Buf (Elt F) ℓ)
variable (d : Dev nD) (L : grid2.Coords)

local notation "THR" => V d (t1_cV L) (t1_jV L)
local notation "WP" => wp frame (wpE (defs₀ (F := F)) 𝒱₀ (V d (t1_cV L) (t1_jV L)) none) Set.univ
local notation "AT[" f "]" => f L (wV) (Memref.isWhole_whole _) (mV) (Memref.isWhole_whole _) (dV) (Memref.isWhole_whole _) (bA) (Memref.isWhole_whole _) (bB) (Memref.isWhole_whole _) (sW) (Memref.isWhole_whole _) (sM) (Memref.isWhole_whole _) cc2_scratch4 cc2_scratch5 cc2_scoped0 cc2_scoped1

variable (O : CellTallies nD τ sig (HIx 2))
variable (qw qm : PosShare TreeShare) (fw : Vec F S80x128 .f32) (fm : IVec S80x128 32)
variable (G0 : Buf (Elt F) (d1Loc d))

theorem p21_mr_lt (hfm : ∀ i, (fm i).toNat < 4096) (sb : Fin 10) (r : Fin 8) (k : Fin 128) : (t1_mr fm sb r k).toNat < 4096 :=
  hfm _

theorem p21_clr (hfm : ∀ i, (fm i).toNat < 4096) (sb : Fin 10) :
    SpecF.foldClr (t1_z (F := F)) (t1_mr fm sb) 64 (t1_blk fw fm sb) = fun _ => t1_z :=
  SpecF.foldClr_foldAdd (t1_wr fw sb) (t1_mr fm sb) (p21_mr_lt fm hfm sb) t1_z

omit [FloatOps F] in

theorem p21_own_whole (b : Ref sig .scVector) (q : PosShare TreeShare) (f : Buf (Elt F) ((V d (t1_cV L) (t1_jV L)).loc b)) :
    ((Memref.whole b).view.loc THR ↦[(Memref.whole b).view.set]{q} f : sProp 𝕄) = ((Memref.whole b).view.loc THR ↦{q} f) := by
  simp only [Memref.view_whole, View.set_whole]

theorem p21_waits {W W₀ : Waits sig (HIx 2)} (h : ∀ p ∈ W, p ∈ W₀ ∨ p.2 = none) (s : SemLoc sig) :
    ∀ p ∈ insert (s, (none : HIx 2)) W, p ∈ W₀ ∨ p.2 = none := fun p hp =>
  (Finset.mem_insert.mp hp).elim (fun e => .inr (e ▸ rfl)) (h p)

set_option maxHeartbeats 4000000 in

theorem part21_spec : T1Part21 m d L := by
  intro O qw qm fw fm G0 hO hfm hG W v1 g2 g3 g4 Φ

  have h9 := t1_loop_t9 (F := F) (d := d) (L := L) (fw := fw) (fm := fm) (v1 := v1) hfm (t1_blk fw fm 1)
  rw [p21_clr fw fm hfm 1] at h9
  have h10 := t1_loop_t10 (F := F) (d := d) (L := L) (fw := fw) (fm := fm) (v1 := v1) (v4 := fun _ => t1_z) (c0 := 0#32) hfm (fun _ => t1_z)
  have h11 := t1_loop_t11 (F := F) (d := d) (L := L) (fw := fw) (fm := fm) (v1 := v1) (c0 := 0#32) hfm (t1_blk fw fm 2)
  rw [p21_clr fw fm hfm 2] at h11
  have h12 := t1_loop_t12 (F := F) (d := d) (L := L) (fw := fw) (fm := fm) (v1 := v1) (v4 := fun _ => t1_z) (c0 := 0#32) hfm (fun _ => t1_z)
  rw [k2_part21_eq_skeleton]; rw [k2_part21_skel]
  unfold t1_fix
  iintro ⟨#Hlv, ⟨Hw, Hm, HsW, HsM, HcW, HcM⟩, HfA, HbB, HcB, Hp3, Hp4, HO, Hk⟩
  ihave Hmw := ((K (F := F)).mayWaits_none (thr := V d (t1_cV L) (t1_jV L)) hO) $$ Hlv

  iapply (exec_cut frame _ Set.univ h9) $$ [HbB HsW HsM]
  · isplitl [HbB]; · iexact HbB
    isplitl [HsW]; · iexact HsW
    iexact HsM
  iintro %_ ⟨HbB, HsW, HsM⟩
  iapply (exec_cut frame _ Set.univ h10) $$ [HbB HsW HsM]
  · isplitl [HbB]; · iexact HbB
    isplitl [HsW]; · iexact HsW
    iexact HsM
  iintro %_ ⟨HbB, HsW, HsM⟩

  sl_exec

  ihave HbA := (Entails.of_eq (p21_own_whole (F := F) d L cc2_scratch0 fullShare _)) $$ HfA_src
  iapply (exec_cut frame _ Set.univ h11) $$ [HbA HsW HsM]
  · isplitl [HbA]; · iexact HbA
    isplitl [HsW]; · iexact HsW
    iexact HsM
  iintro %_ ⟨HbA, HsW, HsM⟩
  iapply (exec_cut frame _ Set.univ h12) $$ [HbA HsW HsM]
  · isplitl [HbA]; · iexact HbA
    isplitl [HsW]; · iexact HsW
    iexact HsM
  iintro %_ ⟨HbA, HsW, HsM⟩

  sl_exec
  sl_step

  iapply Hk $$ %(insert (SemLoc.dma cc2_scratch4.sem, (none : HIx 2)) W) %(p21_waits (fun p hp => Or.inl hp) _) [Hw Hm HsW HsM HcW HcM HfA_dst HcB HfA HO]
  isplitl [Hw Hm HsW HsM HcW HcM]
  · isplitl [Hw]; · iexact Hw
    isplitl [Hm]; · iexact Hm
    isplitl [HsW]; · iexact HsW
    isplitl [HsM]; · iexact HsM
    isplitl [HcW]; · iexact HcW
    iexact HcM
  isplitl [HfA_dst]
  · iapply (Entails.of_eq (t1_own_writes d L (k2_off5 L 16#32) (k2_off5_inb L 2) _ _ G0 (fun j => hG.2.2.1 j))); iexact HfA_dst
  isplitl [HcB]; · iexact HcB
  isplitl [HfA]; · iexact HfA
  iexact HO

end Cert.Proof.KB

end
-- ==== Proof.KB.Tile1p22.lean ====
import proofs.«207445_g73023033966933_cont_9to1_m_863_36_alg».proof.Proof.KB.Tile1Defs
import Idealize.ShloMosaic.Lib.Exec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "wV" => (Memref.whole Cert.Kernel.main_arg1_scv : Memref Cert.Kernel.sig Kind.scVector Space.hbm Cert.Kernel.S4096x128 EltTy.f32)
local notation "mV" => (Memref.whole Cert.Kernel.main_arg2_scv : Memref Cert.Kernel.sig Kind.scVector Space.hbm Cert.Kernel.S4096x128 EltTy.i32)
local notation "dV" => (Memref.whole Cert.Kernel.main_v4_scv : Memref Cert.Kernel.sig Kind.scVector Space.hbm Cert.Kernel.S2560x4096 EltTy.f32)
local notation "bA" => (Memref.whole Cert.Kernel.cc2_scratch0 : Memref Cert.Kernel.sig Kind.scVector Space.vmem Cert.Kernel.S8x4096 EltTy.f32)
local notation "bB" => (Memref.whole Cert.Kernel.cc2_scratch1 : Memref Cert.Kernel.sig Kind.scVector Space.vmem Cert.Kernel.S8x4096 EltTy.f32)
local notation "sW" => (Memref.whole Cert.Kernel.cc2_scratch2 : Memref Cert.Kernel.sig Kind.scVector Space.vmem Cert.Kernel.S80x128 EltTy.f32)
local notation "sM" => (Memref.whole Cert.Kernel.cc2_scratch3 : Memref Cert.Kernel.sig Kind.scVector Space.vmem Cert.Kernel.S80x128 EltTy.i32)

variable [FloatOps F]
variable (m : (ℓ : Loc nD τ sig) → Buf (Elt F) ℓ)
variable (d : Dev nD) (L : grid2.Coords)

local notation "THR" => V d (t1_cV L) (t1_jV L)
local notation "WP" => wp frame (wpE (defs₀ (F := F)) 𝒱₀ (V d (t1_cV L) (t1_jV L)) none) Set.univ
local notation "AT[" f "]" => f L (wV) (Memref.isWhole_whole _) (mV) (Memref.isWhole_whole _) (dV) (Memref.isWhole_whole _) (bA) (Memref.isWhole_whole _) (bB) (Memref.isWhole_whole _) (sW) (Memref.isWhole_whole _) (sM) (Memref.isWhole_whole _) cc2_scratch4 cc2_scratch5 cc2_scoped0 cc2_scoped1

variable (O : CellTallies nD τ sig (HIx 2))
variable (qw qm : PosShare TreeShare) (fw : Vec F S80x128 .f32) (fm : IVec S80x128 32)
variable (G0 : Buf (Elt F) (d1Loc d))

omit [FloatOps F] in

theorem p22_own_bA (f : Vec F S8x4096 .f32) :
    (t1_own d L (bA) fullShare (f : Buf (Elt F) ((bA).view.loc (V d (t1_cV L) (t1_jV L)))) : sProp 𝕄) = ((bA).view.loc (V d (t1_cV L) (t1_jV L)) ↦{fullShare} f) := by
  simp only [t1_own, Memref.view_whole, View.set_whole]
omit [FloatOps F] in
theorem p22_own_bB (f : Vec F S8x4096 .f32) :
    (t1_own d L (bB) fullShare (f : Buf (Elt F) ((bB).view.loc (V d (t1_cV L) (t1_jV L)))) : sProp 𝕄) = ((bB).view.loc (V d (t1_cV L) (t1_jV L)) ↦{fullShare} f) := by
  simp only [t1_own, Memref.view_whole, View.set_whole]

theorem part22_spec : T1Part22 m d L := by
  intro O qw qm fw fm G0 hO hfm hG W v1 g3 g4 g5 g6 Φ

  have h13 := t1_loop_t13 d L fw fm v1 hfm (t1_blk fw fm 3); rw [t1_clr_blk fw fm hfm 3] at h13
  have h14 := t1_loop_t14 d L fw fm v1 (fun _ => t1_z) hfm (fun _ => t1_z); rw [t1_add_z] at h14
  have h15 := t1_loop_t15 d L fw fm v1 hfm (t1_blk fw fm 4); rw [t1_clr_blk fw fm hfm 4] at h15
  have h16 := t1_loop_t16 d L fw fm v1 (fun _ => t1_z) hfm (fun _ => t1_z); rw [t1_add_z] at h16
  rw [k2_part22_eq_skeleton]; rw [k2_part22_skel]
  unfold t1_fix
  iintro ⟨#Hlv, ⟨Hw, Hm, HsW, HsM, HcW, HcM⟩, HfB, HfA, Hp5, Hp6, HO, Hk⟩
  ihave Hmw := ((K (F := F)).mayWaits_none (thr := V d (t1_cV L) (t1_jV L)) hO) $$ Hlv

  sl_exec

  ihave HbB := (Entails.of_eq (p22_own_bB (F := F) d L _)) $$ HfB_src
  iapply (exec_cut frame _ Set.univ h13) $$ [HbB HsW HsM]
  · isplitl [HbB]; · iexact HbB
    isplitl [HsW]; · iexact HsW
    iexact HsM
  iintro %_ ⟨HbB, HsW, HsM⟩
  iapply (exec_cut frame _ Set.univ h14) $$ [HbB HsW HsM]
  · isplitl [HbB]; · iexact HbB
    isplitl [HsW]; · iexact HsW
    iexact HsM
  iintro %_ ⟨HbB, HsW, HsM⟩
  ihave HbB' := (Entails.of_eq (p22_own_bB (F := F) d L _).symm) $$ HbB

  sl_exec

  ihave HbA := (Entails.of_eq (p22_own_bA (F := F) d L _)) $$ HfA_src
  iapply (exec_cut frame _ Set.univ h15) $$ [HbA HsW HsM]
  · isplitl [HbA]; · iexact HbA
    isplitl [HsW]; · iexact HsW
    iexact HsM
  iintro %_ ⟨HbA, HsW, HsM⟩
  iapply (exec_cut frame _ Set.univ h16) $$ [HbA HsW HsM]
  · isplitl [HbA]; · iexact HbA
    isplitl [HsW]; · iexact HsW
    iexact HsM
  iintro %_ ⟨HbA, HsW, HsM⟩
  ihave HbA' := (Entails.of_eq (p22_own_bA (F := F) d L _).symm) $$ HbA

  sl_exec
  sl_step
  sl_unfold_run_names
  iapply Hk $$ %(insert (SemLoc.dma cc2_scratch4.sem, (none : HIx 2)) (insert (SemLoc.dma cc2_scratch5.sem, (none : HIx 2)) W)) %(by
    intro p hp
    rcases Finset.mem_insert.mp hp with rfl | hp
    · exact .inr rfl
    rcases Finset.mem_insert.mp hp with rfl | hp
    · exact .inr rfl
    · exact .inl hp)
  isplitl [Hw Hm HsW HsM HcW HcM]
  · isplitl [Hw]; · iexact Hw
    isplitl [Hm]; · iexact Hm
    isplitl [HsW]; · iexact HsW
    isplitl [HsM]; · iexact HsM
    isplitl [HcW]; · iexact HcW
    iexact HcM

  isplitl [HfB_dst]
  · iapply (Entails.of_eq (t1_own_writes d L (k2_off5 L 24#32) (k2_off5_inb L 3) _ _ G0 (fun j => hG.2.2.2.1 j))); iexact HfB_dst
  isplitl [HfA_dst]
  · iapply (Entails.of_eq (t1_own_writes d L (k2_off5 L 32#32) (k2_off5_inb L 4) _ _ G0 (fun j => hG.2.2.2.2.1 j))); iexact HfA_dst
  isplitl [HfB]; · iexact HfB
  isplitl [HfA]; · iexact HfA
  iexact HO

end Cert.Proof.KB

end
-- ==== Proof.KB.ScatterBind.lean ====
import proofs.«207445_g73023033966933_cont_9to1_m_863_36_alg».proof.Proof.KB.Common

noncomputable section

namespace Cert.Proof.KB

open Cert.Kernel Cert.Kernel.Gen

open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (SparseCore.Cfg.HIx 2) (Elt F) ℕ UU ℕ

theorem scat_bind {α β : Type} (c : Thread nD τ) {p : Prog (TpuEff nD τ sig (Elt F) Λ₀ c.2) α} {k : α → Prog (TpuEff nD τ sig (Elt F) Λ₀ c.2) β}
    {P : sProp 𝕄} {R : α → sProp 𝕄} {Q : β → sProp 𝕄}
    (h : P ⊢ wp frame (wpE (defs₀ (F := F)) 𝒱₀ c none) Set.univ p R) :
    iprop(P ∗ (∀ a, R a -∗ wp frame (wpE (defs₀ (F := F)) 𝒱₀ c none) Set.univ (k a) Q))
      ⊢ wp frame (wpE (defs₀ (F := F)) 𝒱₀ c none) Set.univ (p >>= k) Q := by
  rw [wp_bind]
  iintro ⟨HP, HK⟩
  iapply (wp_wand_r frame (wpE (defs₀ (F := F)) 𝒱₀ c none) Set.univ)
  isplitl [HP]
  · iapply h; iexact HP
  · iexact HK

end Cert.Proof.KB

end
-- ==== Proof.KB.Tile1p23.lean ====
import proofs.«207445_g73023033966933_cont_9to1_m_863_36_alg».proof.Proof.KB.Tile1Defs
import Idealize.ShloMosaic.Lib.Exec
import proofs.«207445_g73023033966933_cont_9to1_m_863_36_alg».proof.Proof.KB.ScatterBind

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "wV" => (Memref.whole Cert.Kernel.main_arg1_scv : Memref Cert.Kernel.sig Kind.scVector Space.hbm Cert.Kernel.S4096x128 EltTy.f32)
local notation "mV" => (Memref.whole Cert.Kernel.main_arg2_scv : Memref Cert.Kernel.sig Kind.scVector Space.hbm Cert.Kernel.S4096x128 EltTy.i32)
local notation "dV" => (Memref.whole Cert.Kernel.main_v4_scv : Memref Cert.Kernel.sig Kind.scVector Space.hbm Cert.Kernel.S2560x4096 EltTy.f32)
local notation "bA" => (Memref.whole Cert.Kernel.cc2_scratch0 : Memref Cert.Kernel.sig Kind.scVector Space.vmem Cert.Kernel.S8x4096 EltTy.f32)
local notation "bB" => (Memref.whole Cert.Kernel.cc2_scratch1 : Memref Cert.Kernel.sig Kind.scVector Space.vmem Cert.Kernel.S8x4096 EltTy.f32)
local notation "sW" => (Memref.whole Cert.Kernel.cc2_scratch2 : Memref Cert.Kernel.sig Kind.scVector Space.vmem Cert.Kernel.S80x128 EltTy.f32)
local notation "sM" => (Memref.whole Cert.Kernel.cc2_scratch3 : Memref Cert.Kernel.sig Kind.scVector Space.vmem Cert.Kernel.S80x128 EltTy.i32)

variable [FloatOps F]
variable (m : (ℓ : Loc nD τ sig) → Buf (Elt F) ℓ)
variable (d : Dev nD) (L : grid2.Coords)

local notation "THR" => V d (t1_cV L) (t1_jV L)
local notation "WP" => wp frame (wpE (defs₀ (F := F)) 𝒱₀ (V d (t1_cV L) (t1_jV L)) none) Set.univ
local notation "AT[" f "]" => f L (wV) (Memref.isWhole_whole _) (mV) (Memref.isWhole_whole _) (dV) (Memref.isWhole_whole _) (bA) (Memref.isWhole_whole _) (bB) (Memref.isWhole_whole _) (sW) (Memref.isWhole_whole _) (sM) (Memref.isWhole_whole _) cc2_scratch4 cc2_scratch5 cc2_scoped0 cc2_scoped1

variable (O : CellTallies nD τ sig (HIx 2))
variable (qw qm : PosShare TreeShare) (fw : Vec F S80x128 .f32) (fm : IVec S80x128 32)
variable (G0 : Buf (Elt F) (d1Loc d))

theorem part23_spec : T1Part23 m d L := by
  intro O qw qm fw fm G0 hO hfm hG W v1 v67 c40 g5 g6 g7 Φ
  have hclr17 := t1_loop_t17 d L fw fm v1 v67 c40 hfm (t1_blk fw fm 5)
  rw [show SpecF.foldClr t1_z (t1_mr fm 5) 64 (t1_blk fw fm 5) = (fun _ => t1_z) from SpecF.foldClr_foldAdd _ _ (fun r k => hfm _) _] at hclr17
  have hclr19 := t1_loop_t19 d L fw fm v1 v67 c40 hfm (t1_blk fw fm 6)
  rw [show SpecF.foldClr t1_z (t1_mr fm 6) 64 (t1_blk fw fm 6) = (fun _ => t1_z) from SpecF.foldClr_foldAdd _ _ (fun r k => hfm _) _] at hclr19
  have own_whole : ∀ (b : Ref sig .scVector) (f : Buf (Elt F) ((V d (t1_cV L) (t1_jV L)).loc b)),
      ((Memref.whole b).view.loc THR ↦[(Memref.whole b).view.set]{fullShare} f : sProp 𝕄) = ((Memref.whole b).view.loc THR ↦{fullShare} f) := by
    intro b f; simp only [Memref.view_whole, View.set_whole]
  rw [k2_part23_eq_skeleton]; rw [k2_part23_skel]
  unfold t1_fix
  iintro ⟨#Hlv, ⟨Hw, Hm, HsW, HsM, HcW, HcM⟩, HF5, HF6, Hp7, HO, Hk⟩
  ihave Hmw := ((K (F := F)).mayWaits_none (thr := V d (t1_cV L) (t1_jV L)) hO) $$ Hlv

  sl_exec
  ihave Hp5 := (Entails.of_eq (t1_own_writes (F := F) d L (k2_off5 L 40#32) (k2_off5_inb L 5) _ _ G0 ?hl5)) $$ HF5_dst
  case hl5 => exact fun y => (hG.2.2.2.2.2.1 y).trans rfl

  ihave HbB := (Entails.of_eq (own_whole cc2_scratch1 _)) $$ HF5_src
  iapply (scat_bind (V d (t1_cV L) (t1_jV L)) hclr17)
  isplitl [HbB HsW HsM]
  · isplitl [HbB]; · iexact HbB
    isplitl [HsW]; · iexact HsW
    iexact HsM
  iintro %_ ⟨HbB, HsW, HsM⟩
  iapply (scat_bind (V d (t1_cV L) (t1_jV L)) (t1_loop_t18 d L fw fm v1 (fun _ => t1_z) v67 c40 hfm (fun _ => t1_z)))
  isplitl [HbB HsW HsM]
  · isplitl [HbB]; · iexact HbB
    isplitl [HsW]; · iexact HsW
    iexact HsM
  iintro %_ ⟨HbB, HsW, HsM⟩

  ihave HbB := (Entails.of_eq (own_whole cc2_scratch1 _).symm) $$ HbB
  sl_exec
  ihave Hp6 := (Entails.of_eq (t1_own_writes (F := F) d L (k2_off5 L 48#32) (k2_off5_inb L 6) _ _ G0 ?hl6)) $$ HF6_dst
  case hl6 => exact fun y => (hG.2.2.2.2.2.2.1 y).trans rfl

  ihave HbA := (Entails.of_eq (own_whole cc2_scratch0 _)) $$ HF6_src
  iapply (scat_bind (V d (t1_cV L) (t1_jV L)) hclr19)
  isplitl [HbA HsW HsM]
  · isplitl [HbA]; · iexact HbA
    isplitl [HsW]; · iexact HsW
    iexact HsM
  iintro %_ ⟨HbA, HsW, HsM⟩
  iapply (scat_bind (V d (t1_cV L) (t1_jV L)) (t1_loop_t20 d L fw fm v1 (fun _ => t1_z) v67 c40 hfm (fun _ => t1_z)))
  isplitl [HbA HsW HsM]
  · isplitl [HbA]; · iexact HbA
    isplitl [HsW]; · iexact HsW
    iexact HsM
  iintro %_ ⟨HbA, HsW, HsM⟩
  sl_step
  iapply Hk $$ %(insert (SemLoc.dma cc2_scratch4.sem, (default : HIx 2)) (insert (SemLoc.dma cc2_scratch5.sem, (default : HIx 2)) W)) %(by
    intro p hp
    rcases Finset.mem_insert.mp hp with hp | hp
    · exact .inr (hp ▸ rfl)
    rcases Finset.mem_insert.mp hp with hp | hp
    · exact .inr (hp ▸ rfl)
    exact .inl hp)
  isplitl [Hw Hm HsW HsM HcW HcM]
  · isplitl [Hw]; · iexact Hw
    isplitl [Hm]; · iexact Hm
    isplitl [HsW]; · iexact HsW
    isplitl [HsM]; · iexact HsM
    isplitl [HcW]; · iexact HcW
    iexact HcM
  isplitl [Hp5]; · iexact Hp5
  isplitl [Hp6]; · iexact Hp6
  isplitl [HF5]; · iexact HF5
  isplitl [HbA]; · iexact HbA
  isplitl [HF6]; · iexact HF6
  iexact HO

end Cert.Proof.KB

end
-- ==== Proof.KB.Tile1tail.lean ====
import proofs.«207445_g73023033966933_cont_9to1_m_863_36_alg».proof.Proof.KB.Tile1Defs
import Idealize.ShloMosaic.Lib.Exec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

local notation "wV" => (Memref.whole Cert.Kernel.main_arg1_scv : Memref Cert.Kernel.sig Kind.scVector Space.hbm Cert.Kernel.S4096x128 EltTy.f32)
local notation "mV" => (Memref.whole Cert.Kernel.main_arg2_scv : Memref Cert.Kernel.sig Kind.scVector Space.hbm Cert.Kernel.S4096x128 EltTy.i32)
local notation "dV" => (Memref.whole Cert.Kernel.main_v4_scv : Memref Cert.Kernel.sig Kind.scVector Space.hbm Cert.Kernel.S2560x4096 EltTy.f32)
local notation "bA" => (Memref.whole Cert.Kernel.cc2_scratch0 : Memref Cert.Kernel.sig Kind.scVector Space.vmem Cert.Kernel.S8x4096 EltTy.f32)
local notation "bB" => (Memref.whole Cert.Kernel.cc2_scratch1 : Memref Cert.Kernel.sig Kind.scVector Space.vmem Cert.Kernel.S8x4096 EltTy.f32)
local notation "sW" => (Memref.whole Cert.Kernel.cc2_scratch2 : Memref Cert.Kernel.sig Kind.scVector Space.vmem Cert.Kernel.S80x128 EltTy.f32)
local notation "sM" => (Memref.whole Cert.Kernel.cc2_scratch3 : Memref Cert.Kernel.sig Kind.scVector Space.vmem Cert.Kernel.S80x128 EltTy.i32)

variable [FloatOps F]
variable (m : (ℓ : Loc nD τ sig) → Buf (Elt F) ℓ)
variable (d : Dev nD) (L : grid2.Coords)

local notation "THR" => V d (t1_cV L) (t1_jV L)
local notation "WP" => wp frame (wpE (defs₀ (F := F)) 𝒱₀ (V d (t1_cV L) (t1_jV L)) none) Set.univ
local notation "AT[" f "]" => f L (wV) (Memref.isWhole_whole _) (mV) (Memref.isWhole_whole _) (dV) (Memref.isWhole_whole _) (bA) (Memref.isWhole_whole _) (bB) (Memref.isWhole_whole _) (sW) (Memref.isWhole_whole _) (sM) (Memref.isWhole_whole _) cc2_scratch4 cc2_scratch5 cc2_scoped0 cc2_scoped1

variable (O : CellTallies nD τ sig (HIx 2))
variable (qw qm : PosShare TreeShare) (fw : Vec F S80x128 .f32) (fm : IVec S80x128 32)
variable (G0 : Buf (Elt F) (d1Loc d))

set_option maxHeartbeats 1600000 in

theorem tail1_spec : T1Tail m d L := by
  intro O qw qm fw fm G0 hO hfm hG W g7 g8 g9 Φ
  rw [t1_tail]
  unfold t1_fix
  iintro ⟨#Hlv, ⟨Hw, Hm, HsW, HsM, HcW, HcM⟩, Hfl7, HbA, HcA, Hp8, Hp9, HO, Hk⟩
  ihave Hmw := ((K (F := F)).mayWaits_none (thr := V d (t1_cV L) (t1_jV L)) hO) $$ Hlv

  have h21 := t1_loop_t21 d L fw fm hfm (t1_blk fw fm 7)
  rw [t1_clr_blk fw fm hfm 7] at h21
  have h22 := t1_loop_t22 d L fw fm hfm (fun _ => t1_z)
  rw [t1_add_z] at h22

  sl_exec
  ihave HbB := (Entails.of_eq (show (t1_own d L (bB) fullShare (t1_blk fw fm 7) : sProp 𝕄) = ((bB).view.loc THR ↦{fullShare} t1_blk fw fm 7) from by
    unfold t1_own; rw [(Memref.isWhole_whole _).set_eq_univ])) $$ Hfl7_src
  iapply (exec_cut frame _ Set.univ h21) $$ [HbB HsW HsM]
  · isplitl [HbB]; · iexact HbB
    isplitl [HsW]; · iexact HsW
    iexact HsM
  iintro %_ ⟨HbB, HsW, HsM⟩
  iapply (exec_cut frame _ Set.univ h22) $$ [HbB HsW HsM]
  · isplitl [HbB]; · iexact HbB
    isplitl [HsW]; · iexact HsW
    iexact HsM
  iintro %_ ⟨HbB, HsW, HsM⟩

  sl_exec
  sl_step
  iapply Hk $$ %(insert (SemLoc.dma cc2_scratch5.sem, (none : HIx 2)) (insert (SemLoc.dma cc2_scratch4.sem, (none : HIx 2)) (insert (SemLoc.dma cc2_scratch5.sem, (none : HIx 2)) W))) %(by
    intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp)
  isplitl [Hw Hm HsW HsM HcW HcM]
  · isplitl [Hw]; · iexact Hw
    isplitl [Hm]; · iexact Hm
    isplitl [HsW]; · iexact HsW
    isplitl [HsM]; · iexact HsM
    isplitl [HcW]; · iexact HcW
    iexact HcM
  isplitl [Hfl7_dst]
  · iapply (Entails.of_eq (t1_own_writes d L (k2_off5 L 56#32) (k2_off5_inb L 7) _ _ G0 (fun j => (hG.2.2.2.2.2.2.2.1 j).trans rfl))); iexact Hfl7_dst
  isplitl [Hp8]
  · iapply (Entails.of_eq (t1_own_writes d L (k2_off5 L 64#32) (k2_off5_inb L 8) _ _ G0 (fun j => hG.2.2.2.2.2.2.2.2.1 j))); iexact Hp8
  isplitl [Hp9]
  · iapply (Entails.of_eq (t1_own_writes d L (k2_off5 L 72#32) (k2_off5_inb L 9) _ _ G0 (fun j => hG.2.2.2.2.2.2.2.2.2 j))); iexact Hp9
  isplitl [HbA]; · iexists _; iexact HbA
  isplitl [HbB]; · iexists _; iexact HbB
  isplitl [HcA]; · iexact HcA
  isplitl [Hfl7]; · iexact Hfl7
  iexact HO

end Cert.Proof.KB

end
-- ==== Proof.KB.Tile1Close.lean ====
import proofs.«207445_g73023033966933_cont_9to1_m_863_36_alg».proof.Proof.KB.Tile1Body
import proofs.«207445_g73023033966933_cont_9to1_m_863_36_alg».proof.Proof.KB.Tile1Obl
import proofs.«207445_g73023033966933_cont_9to1_m_863_36_alg».proof.Proof.KB.Tile1p19
import proofs.«207445_g73023033966933_cont_9to1_m_863_36_alg».proof.Proof.KB.Tile1p20
import proofs.«207445_g73023033966933_cont_9to1_m_863_36_alg».proof.Proof.KB.Tile1p21
import proofs.«207445_g73023033966933_cont_9to1_m_863_36_alg».proof.Proof.KB.Tile1p22
import proofs.«207445_g73023033966933_cont_9to1_m_863_36_alg».proof.Proof.KB.Tile1p23
import proofs.«207445_g73023033966933_cont_9to1_m_863_36_alg».proof.Proof.KB.Tile1tail

noncomputable section

namespace Cert.Proof.KB

open Cert.Kernel Cert.Kernel.Gen

open Idealize.ShloMosaic
open Idealize.ShloMosaic.SparseCore (S V T)
open Idealize.ShloMosaic.SparseCore.Cfg (HIx)

variable {F : FTy → Type} [FloatOps F]
variable (m : (ℓ : Loc nD τ sig) → Buf (Elt F) ℓ)

theorem tile1Body (hF : (K (F := F)).Facts) (hpre : PreOK m) : Tile1Body m :=
  tile1Body_of m (part19_spec m) (part20_spec m) (part21_spec m) (part22_spec m) (part23_spec m) (tail1_spec m) hF hpre

theorem tileObl1_closed (hpre : PreOK m) : (K (F := F)).TileObl (D (F := F)) 𝒱 (P m) v₀ 1 :=
  tileObl1 m facts hpre (tile1Body m facts hpre)

end Cert.Proof.KB

end
-- ==== Proof.KB.Close.lean ====
import proofs.«207445_g73023033966933_cont_9to1_m_863_36_alg».proof.Proof.KB.Run
import proofs.«207445_g73023033966933_cont_9to1_m_863_36_alg».proof.Proof.KB.Tile0Close
import proofs.«207445_g73023033966933_cont_9to1_m_863_36_alg».proof.Proof.KB.Tile1Close

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F] (m : (ℓ : Loc nD τ sig) → Buf (Elt F) ℓ) (ρ : Dev nD → PrngReg)

theorem run [∀ e, Nonempty (Elt F e)] (hpre : PreOK m) :
    θ_run (Cert.Kernel.defs (F := F)) (Cert.Kernel.threads (F := F)) ⟨m, fun _ => 0, ρ⟩ (QC m (OUT m)) :=
  run_main m ρ (tileObl0_closed m hpre) (tileObl1_closed m hpre)

end Cert.Proof.KB

end
-- ==== Proof.lean ====
import proofs.«207445_g73023033966933_cont_9to1_m_863_36_alg».proof.Proof.Assemble
import proofs.«207445_g73023033966933_cont_9to1_m_863_36_alg».proof.Proof.OutIdeal
import proofs.«207445_g73023033966933_cont_9to1_m_863_36_alg».proof.Proof.KI.Close
import proofs.«207445_g73023033966933_cont_9to1_m_863_36_alg».proof.Proof.KB.Close

noncomputable section

namespace Cert.Proof

open Idealize.ShloMosaic Idealize.SL.Sem

theorem claim : Cert.Claim :=
  claim_of (fun m => KI.OUT m) (fun m ρ h => KI.run m ρ h) (fun m => KB.OUT m) (fun m ρ h => KB.run m ρ h)
    (fun m c hmk => OutIdeal.out_ideal m c hmk)

end Cert.Proof

end
